-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x1024 : Shape := ⟨2, ![1024, 1024]⟩
abbrev S16384 : Shape := ⟨1, ![16384]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg3 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg3 main_v16
  let main_c_6 : IVec S_ 32 := constantI S_ 32 32768#32
  let main_v18 : IVec S16384 32 := broadcastInDim S16384 ![] bcast_S_S16384 main_c_6
  let main_v19 : IVec S16384 1 := cmpi .slt main_arg3 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  main_v22

def fn {F : FTy → Type} [FloatOps F] (main_arg0 : FVec F S4x8192x1024 .f32) (main_arg1 : FVec F S1024x1024 .f32) (main_arg2 : IVec S16384 32) (main_arg3 : IVec S16384 32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 32768#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S4x8192x1024 : Shape := ⟨3, ![4, 8192, 1024]⟩
abbrev S1024x1024 : Shape := ⟨2, ![1024, 1024]⟩
abbrev S16384 : Shape := ⟨1, ![16384]⟩
abbrev S32768x1024 : Shape := ⟨2, ![32768, 1024]⟩
abbrev S16384x1024 : Shape := ⟨2, ![16384, 1024]⟩
abbrev S256x1024 : Shape := ⟨2, ![256, 1024]⟩
abbrev S256 : Shape := ⟨1, ![256]⟩
abbrev S1 : Shape := ⟨1, ![1]⟩
abbrev S_ : Shape := ⟨0, ![]⟩
abbrev S1x1024 : Shape := ⟨2, ![1, 1024]⟩
abbrev S1024 : Shape := ⟨1, ![1024]⟩
abbrev S16384x1 : Shape := ⟨2, ![16384, 1]⟩
abbrev S4x4096x1024 : Shape := ⟨3, ![4, 4096, 1024]⟩

abbrev nBuf : Space → Nat
  | .hbm => 20
  | .vmem => 6
  | .smem => 2
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S32768x1024, .f32⟩
  | .hbm, ⟨3, _⟩ => ⟨S1024x1024, .bf16⟩
  | .hbm, ⟨4, _⟩ => ⟨S1024x1024, .bf16⟩
  | .hbm, ⟨5, _⟩ => ⟨S16384x1024, .f32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S32768x1024, .f32⟩
  | .hbm, ⟨18, _⟩ => ⟨S16384x1024, .f32⟩
  | .hbm, ⟨19, _⟩ => ⟨S4x4096x1024, .f32⟩
  | .local _ .vmem, ⟨0, _⟩ => ⟨S1024x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .smem, ⟨0, _⟩ => ⟨S16384, .i32⟩
  | .local _ .smem, ⟨1, _⟩ => ⟨S16384, .i32⟩
  | _, _ => ⟨S4x8192x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_4 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | 4 => dmaSemScopedAt0_4 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 517 → Bool
  | ⟨i, _⟩ => dmaSemScopedAt i

abbrev sig : RefSig :=
  ofTc nBuf bufTy 0 517 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_arg3 : Ref sig .tc := ⟨.smem, 0, rfl⟩
abbrev main_arg2 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc0_sem0_0 : DmaSem sig := 0
abbrev cc0_sem1_0 : DmaSem sig := 1
abbrev cc0_sem1_1 : DmaSem sig := 2
abbrev cc1_sem0_0 : DmaSem sig := 259
abbrev cc1_sem0_1 : DmaSem sig := 260

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_chk1 (v3 : BitVec 32) : Prop :=
  (∀ a, (k0_off2 v3) a + S1x1024.size a ≤ S32768x1024.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x1024.size a ≤ S32768x1024.size a := fun v3 k0_hw1 => k0_hw1

def k0_off3 (i : grid0.Coords) : Fin 1 → Nat :=
  let arg0 : BitVec 32 := BitVec.ofNat 32 (i 0).val
  let c256_i32 : BitVec 32 := 256#32
  let v0 : BitVec 32 := Scalar.muli arg0 c256_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_chk2 (v12 : BitVec 32) : Prop :=
  (∀ a, (k0_off4 v12) a + S1x1024.size a ≤ S32768x1024.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x1024.size a ≤ S32768x1024.size a := fun v12 k0_hw2 => k0_hw2

def k0_off5 (i : grid0.Coords) : Fin 1 → Nat :=
  let arg0 : BitVec 32 := BitVec.ofNat 32 (i 0).val
  let c256_i32 : BitVec 32 := 256#32
  let v0 : BitVec 32 := Scalar.muli arg0 c256_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_chk3 (v21 : BitVec 32) : Prop :=
  (∀ a, (k0_off6 v21) a + S1x1024.size a ≤ S32768x1024.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x1024.size a ≤ S32768x1024.size a := fun v21 k0_hw3 => k0_hw3

def k0_off7 (i : grid0.Coords) : Fin 1 → Nat :=
  let arg0 : BitVec 32 := BitVec.ofNat 32 (i 0).val
  let c256_i32 : BitVec 32 := 256#32
  let v0 : BitVec 32 := Scalar.muli arg0 c256_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_chk4 (v30 : BitVec 32) : Prop :=
  (∀ a, (k0_off8 v30) a + S1x1024.size a ≤ S32768x1024.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x1024.size a ≤ S32768x1024.size a := fun v30 k0_hw4 => k0_hw4

def k0_off9 (i : grid0.Coords) : Fin 1 → Nat :=
  let arg0 : BitVec 32 := BitVec.ofNat 32 (i 0).val
  let c256_i32 : BitVec 32 := 256#32
  let v0 : BitVec 32 := Scalar.muli arg0 c256_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_chk5 (v39 : BitVec 32) : Prop :=
  (∀ a, (k0_off10 v39) a + S1x1024.size a ≤ S32768x1024.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x1024.size a ≤ S32768x1024.size a := fun v39 k0_hw5 => k0_hw5

def k0_off11 (i : grid0.Coords) : Fin 1 → Nat :=
  let arg0 : BitVec 32 := BitVec.ofNat 32 (i 0).val
  let c256_i32 : BitVec 32 := 256#32
  let v0 : BitVec 32 := Scalar.muli arg0 c256_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_chk6 (v48 : BitVec 32) : Prop :=
  (∀ a, (k0_off12 v48) a + S1x1024.size a ≤ S32768x1024.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x1024.size a ≤ S32768x1024.size a := fun v48 k0_hw6 => k0_hw6

def k0_off13 (i : grid0.Coords) : Fin 1 → Nat :=
  let arg0 : BitVec 32 := BitVec.ofNat 32 (i 0).val
  let c256_i32 : BitVec 32 := 256#32
  let v0 : BitVec 32 := Scalar.muli arg0 c256_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_chk7 (v57 : BitVec 32) : Prop :=
  (∀ a, (k0_off14 v57) a + S1x1024.size a ≤ S32768x1024.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x1024.size a ≤ S32768x1024.size a := fun v57 k0_hw7 => k0_hw7

def k0_off15 (i : grid0.Coords) : Fin 1 → Nat :=
  let arg0 : BitVec 32 := BitVec.ofNat 32 (i 0).val
  let c256_i32 : BitVec 32 := 256#32
  let v0 : BitVec 32 := Scalar.muli arg0 c256_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_chk8 (v66 : BitVec 32) : Prop :=
  (∀ a, (k0_off16 v66) a + S1x1024.size a ≤ S32768x1024.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x1024.size a ≤ S32768x1024.size a := fun v66 k0_hw8 => k0_hw8

def k0_off17 (i : grid0.Coords) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_35 : BitVec 32 := 0#32
  ![v75.toNat, 0]

def k0_chk9 (v75 : BitVec 32) : Prop :=
  (∀ a, (k0_off18 v75) a + S1x1024.size a ≤ S32768x1024.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x1024.size a ≤ S32768x1024.size a := fun v75 k0_hw9 => k0_hw9

def k0_off19 (i : grid0.Coords) : Fin 1 → Nat :=
  let arg0 : BitVec 32 := BitVec.ofNat 32 (i 0).val
  let c256_i32 : BitVec 32 := 256#32
  let v0 : BitVec 32 := Scalar.muli arg0 c256_i32
  let c9_i32 : BitVec 32 := 9#32
  let v82 : BitVec 32 := Scalar.addi v0 c9_i32
  let v83 : Index := Scalar.indexCast v82
  ![v83.toNat]
def k0_off20 (v84 : BitVec 32) : Fin 2 → Nat :=
  let c0_i32_39 : BitVec 32 := 0#32
  ![v84.toNat, 0]

def k0_chk10 (v84 : BitVec 32) : Prop :=
  (∀ a, (k0_off20 v84) a + S1x1024.size a ≤ S32768x1024.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x1024.size a ≤ S32768x1024.size a := fun v84 k0_hw10 => k0_hw10

def k0_off21 (i : grid0.Coords) : Fin 1 → Nat :=
  let arg0 : BitVec 32 := BitVec.ofNat 32 (i 0).val
  let c256_i32 : BitVec 32 := 256#32
  let v0 : BitVec 32 := Scalar.muli arg0 c256_i32
  let c10_i32 : BitVec 32 := 10#32
  let v91 : BitVec 32 := Scalar.addi v0 c10_i32
  let v92 : Index := Scalar.indexCast v91
  ![v92.toNat]
def k0_off22 (v93 : BitVec 32) : Fin 2 → Nat :=
  let c0_i32_43 : BitVec 32 := 0#32
  ![v93.toNat, 0]

def k0_chk11 (v93 : BitVec 32) : Prop :=
  (∀ a, (k0_off22 v93) a + S1x1024.size a ≤ S32768x1024.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x1024.size a ≤ S32768x1024.size a := fun v93 k0_hw11 => k0_hw11

def k0_off23 (i : grid0.Coords) : Fin 1 → Nat :=
  let arg0 : BitVec 32 := BitVec.ofNat 32 (i 0).val
  let c256_i32 : BitVec 32 := 256#32
  let v0 : BitVec 32 := Scalar.muli arg0 c256_i32
  let c11_i32 : BitVec 32 := 11#32
  let v100 : BitVec 32 := Scalar.addi v0 c11_i32
  let v101 : Index := Scalar.indexCast v100
  ![v101.toNat]
def k0_off24 (v102 : BitVec 32) : Fin 2 → Nat :=
  let c0_i32_47 : BitVec 32 := 0#32
  ![v102.toNat, 0]

def k0_chk12 (v102 : BitVec 32) : Prop :=
  (∀ a, (k0_off24 v102) a + S1x1024.size a ≤ S32768x1024.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x1024.size a ≤ S32768x1024.size a := fun v102 k0_hw12 => k0_hw12

def k0_off25 (i : grid0.Coords) : Fin 1 → Nat :=
  let arg0 : BitVec 32 := BitVec.ofNat 32 (i 0).val
  let c256_i32 : BitVec 32 := 256#32
  let v0 : BitVec 32 := Scalar.muli arg0 c256_i32
  let c12_i32 : BitVec 32 := 12#32
  let v109 : BitVec 32 := Scalar.addi v0 c12_i32
  let v110 : Index := Scalar.indexCast v109
  ![v110.toNat]
def k0_off26 (v111 : BitVec 32) : Fin 2 → Nat :=
  let c0_i32_51 : BitVec 32 := 0#32
  ![v111.toNat, 0]

def k0_chk13 (v111 : BitVec 32) : Prop :=
  (∀ a, (k0_off26 v111) a + S1x1024.size a ≤ S32768x1024.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x1024.size a ≤ S32768x1024.size a := fun v111 k0_hw13 => k0_hw13

def k0_off27 (i : grid0.Coords) : Fin 1 → Nat :=
  let arg0 : BitVec 32 := BitVec.ofNat 32 (i 0).val
  let c256_i32 : BitVec 32 := 256#32
  let v0 : BitVec 32 := Scalar.muli arg0 c256_i32
  let c13_i32 : BitVec 32 := 13#32
  let v118 : BitVec 32 := Scalar.addi v0 c13_i32
  let v119 : Index := Scalar.indexCast v118
  ![v119.toNat]
def k0_off28 (v120 : BitVec 32) : Fin 2 → Nat :=
  let c0_i32_55 : BitVec 32 := 0#32
  ![v120.toNat, 0]

def k0_chk14 (v120 : BitVec 32) : Prop :=
  (∀ a, (k0_off28 v120) a + S1x1024.size a ≤ S32768x1024.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x1024.size a ≤ S32768x1024.size a := fun v120 k0_hw14 => k0_hw14

def k0_off29 (i : grid0.Coords) : Fin 1 → Nat :=
  let arg0 : BitVec 32 := BitVec.ofNat 32 (i 0).val
  let c256_i32 : BitVec 32 := 256#32
  let v0 : BitVec 32 := Scalar.muli arg0 c256_i32
  let c14_i32 : BitVec 32 := 14#32
  let v127 : BitVec 32 := Scalar.addi v0 c14_i32
  let v128 : Index := Scalar.indexCast v127
  ![v128.toNat]
def k0_off30 (v129 : BitVec 32) : Fin 2 → Nat :=
  let c0_i32_59 : BitVec 32 := 0#32
  ![v129.toNat, 0]

def k0_chk15 (v129 : BitVec 32) : Prop :=
  (∀ a, (k0_off30 v129) a + S1x1024.size a ≤ S32768x1024.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x1024.size a ≤ S32768x1024.size a := fun v129 k0_hw15 => k0_hw15

def k0_off31 (i : grid0.Coords) : Fin 1 → Nat :=
  let arg0 : BitVec 32 := BitVec.ofNat 32 (i 0).val
  let c256_i32 : BitVec 32 := 256#32
  let v0 : BitVec 32 := Scalar.muli arg0 c256_i32
  let c15_i32 : BitVec 32 := 15#32
  let v136 : BitVec 32 := Scalar.addi v0 c15_i32
  let v137 : Index := Scalar.indexCast v136
  ![v137.toNat]
def k0_off32 (v138 : BitVec 32) : Fin 2 → Nat :=
  let c0_i32_63 : BitVec 32 := 0#32
  ![v138.toNat, 0]

def k0_chk16 (v138 : BitVec 32) : Prop :=
  (∀ a, (k0_off32 v138) a + S1x1024.size a ≤ S32768x1024.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x1024.size a ≤ S32768x1024.size a := fun v138 k0_hw16 => k0_hw16

def k0_off33 (i : grid0.Coords) : Fin 1 → Nat :=
  let arg0 : BitVec 32 := BitVec.ofNat 32 (i 0).val
  let c256_i32 : BitVec 32 := 256#32
  let v0 : BitVec 32 := Scalar.muli arg0 c256_i32
  let c16_i32 : BitVec 32 := 16#32
  let v145 : BitVec 32 := Scalar.addi v0 c16_i32
  let v146 : Index := Scalar.indexCast v145
  ![v146.toNat]
def k0_off34 (v147 : BitVec 32) : Fin 2 → Nat :=
  let c0_i32_67 : BitVec 32 := 0#32
  ![v147.toNat, 0]

def k0_chk17 (v147 : BitVec 32) : Prop :=
  (∀ a, (k0_off34 v147) a + S1x1024.size a ≤ S32768x1024.size a)
instance k0_chk17.dec : ∀ (v147 : BitVec 32), Decidable (k0_chk17 v147) := fun v147 => decidable_of_iff' _ (Iff.of_eq (k0_chk17.eq_1 v147))
theorem k0_off34_inb : ∀ (v147 : BitVec 32) (k0_hw17 : k0_chk17 v147), ∀ a, (k0_off34 v147) a + S1x1024.size a ≤ S32768x1024.size a := fun v147 k0_hw17 => k0_hw17

def k0_off35 (i : grid0.Coords) : Fin 1 → Nat :=
  let arg0 : BitVec 32 := BitVec.ofNat 32 (i 0).val
  let c256_i32 : BitVec 32 := 256#32
  let v0 : BitVec 32 := Scalar.muli arg0 c256_i32
  let c17_i32 : BitVec 32 := 17#32
  let v154 : BitVec 32 := Scalar.addi v0 c17_i32
  let v155 : Index := Scalar.indexCast v154
  ![v155.toNat]
def k0_off36 (v156 : BitVec 32) : Fin 2 → Nat :=
  let c0_i32_71 : BitVec 32 := 0#32
  ![v156.toNat, 0]

def k0_chk18 (v156 : BitVec 32) : Prop :=
  (∀ a, (k0_off36 v156) a + S1x1024.size a ≤ S32768x1024.size a)
instance k0_chk18.dec : ∀ (v156 : BitVec 32), Decidable (k0_chk18 v156) := fun v156 => decidable_of_iff' _ (Iff.of_eq (k0_chk18.eq_1 v156))
theorem k0_off36_inb : ∀ (v156 : BitVec 32) (k0_hw18 : k0_chk18 v156), ∀ a, (k0_off36 v156) a + S1x1024.size a ≤ S32768x1024.size a := fun v156 k0_hw18 => k0_hw18

def k0_off37 (i : grid0.Coords) : Fin 1 → Nat :=
  let arg0 : BitVec 32 := BitVec.ofNat 32 (i 0).val
  let c256_i32 : BitVec 32 := 256#32
  let v0 : BitVec 32 := Scalar.muli arg0 c256_i32
  let c18_i32 : BitVec 32 := 18#32
  let v163 : BitVec 32 := Scalar.addi v0 c18_i32
  let v164 : Index := Scalar.indexCast v163
  ![v164.toNat]
def k0_off38 (v165 : BitVec 32) : Fin 2 → Nat :=
  let c0_i32_75 : BitVec 32 := 0#32
  ![v165.toNat, 0]

def k0_chk19 (v165 : BitVec 32) : Prop :=
  (∀ a, (k0_off38 v165) a + S1x1024.size a ≤ S32768x1024.size a)
instance k0_chk19.dec : ∀ (v165 : BitVec 32), Decidable (k0_chk19 v165) := fun v165 => decidable_of_iff' _ (Iff.of_eq (k0_chk19.eq_1 v165))
theorem k0_off38_inb : ∀ (v165 : BitVec 32) (k0_hw19 : k0_chk19 v165), ∀ a, (k0_off38 v165) a + S1x1024.size a ≤ S32768x1024.size a := fun v165 k0_hw19 => k0_hw19

def k0_off39 (i : grid0.Coords) : Fin 1 → Nat :=
  let arg0 : BitVec 32 := BitVec.ofNat 32 (i 0).val
  let c256_i32 : BitVec 32 := 256#32
  let v0 : BitVec 32 := Scalar.muli arg0 c256_i32
  let c19_i32 : BitVec 32 := 19#32
  let v172 : BitVec 32 := Scalar.addi v0 c19_i32
  let v173 : Index := Scalar.indexCast v172
  ![v173.toNat]
def k0_off40 (v174 : BitVec 32) : Fin 2 → Nat :=
  let c0_i32_79 : BitVec 32 := 0#32
  ![v174.toNat, 0]

def k0_chk20 (v174 : BitVec 32) : Prop :=
  (∀ a, (k0_off40 v174) a + S1x1024.size a ≤ S32768x1024.size a)
instance k0_chk20.dec : ∀ (v174 : BitVec 32), Decidable (k0_chk20 v174) := fun v174 => decidable_of_iff' _ (Iff.of_eq (k0_chk20.eq_1 v174))
theorem k0_off40_inb : ∀ (v174 : BitVec 32) (k0_hw20 : k0_chk20 v174), ∀ a, (k0_off40 v174) a + S1x1024.size a ≤ S32768x1024.size a := fun v174 k0_hw20 => k0_hw20

def k0_off41 (i : grid0.Coords) : Fin 1 → Nat :=
  let arg0 : BitVec 32 := BitVec.ofNat 32 (i 0).val
  let c256_i32 : BitVec 32 := 256#32
  let v0 : BitVec 32 := Scalar.muli arg0 c256_i32
  let c20_i32 : BitVec 32 := 20#32
  let v181 : BitVec 32 := Scalar.addi v0 c20_i32
  let v182 : Index := Scalar.indexCast v181
  ![v182.toNat]
def k0_off42 (v183 : BitVec 32) : Fin 2 → Nat :=
  let c0_i32_83 : BitVec 32 := 0#32
  ![v183.toNat, 0]

def k0_chk21 (v183 : BitVec 32) : Prop :=
  (∀ a, (k0_off42 v183) a + S1x1024.size a ≤ S32768x1024.size a)
instance k0_chk21.dec : ∀ (v183 : BitVec 32), Decidable (k0_chk21 v183) := fun v183 => decidable_of_iff' _ (Iff.of_eq (k0_chk21.eq_1 v183))
theorem k0_off42_inb : ∀ (v183 : BitVec 32) (k0_hw21 : k0_chk21 v183), ∀ a, (k0_off42 v183) a + S1x1024.size a ≤ S32768x1024.size a := fun v183 k0_hw21 => k0_hw21

def k0_off43 (i : grid0.Coords) : Fin 1 → Nat :=
  let arg0 : BitVec 32 := BitVec.ofNat 32 (i 0).val
  let c256_i32 : BitVec 32 := 256#32
  let v0 : BitVec 32 := Scalar.muli arg0 c256_i32
  let c21_i32 : BitVec 32 := 21#32
  let v190 : BitVec 32 := Scalar.addi v0 c21_i32
  let v191 : Index := Scalar.indexCast v190
  ![v191.toNat]
def k0_off44 (v192 : BitVec 32) : Fin 2 → Nat :=
  let c0_i32_87 : BitVec 32 := 0#32
  ![v192.toNat, 0]

def k0_chk22 (v192 : BitVec 32) : Prop :=
  (∀ a, (k0_off44 v192) a + S1x1024.size a ≤ S32768x1024.size a)
instance k0_chk22.dec : ∀ (v192 : BitVec 32), Decidable (k0_chk22 v192) := fun v192 => decidable_of_iff' _ (Iff.of_eq (k0_chk22.eq_1 v192))
theorem k0_off44_inb : ∀ (v192 : BitVec 32) (k0_hw22 : k0_chk22 v192), ∀ a, (k0_off44 v192) a + S1x1024.size a ≤ S32768x1024.size a := fun v192 k0_hw22 => k0_hw22

def k0_off45 (i : grid0.Coords) : Fin 1 → Nat :=
  let arg0 : BitVec 32 := BitVec.ofNat 32 (i 0).val
  let c256_i32 : BitVec 32 := 256#32
  let v0 : BitVec 32 := Scalar.muli arg0 c256_i32
  let c22_i32 : BitVec 32 := 22#32
  let v199 : BitVec 32 := Scalar.addi v0 c22_i32
  let v200 : Index := Scalar.indexCast v199
  ![v200.toNat]
def k0_off46 (v201 : BitVec 32) : Fin 2 → Nat :=
  let c0_i32_91 : BitVec 32 := 0#32
  ![v201.toNat, 0]

def k0_chk23 (v201 : BitVec 32) : Prop :=
  (∀ a, (k0_off46 v201) a + S1x1024.size a ≤ S32768x1024.size a)
instance k0_chk23.dec : ∀ (v201 : BitVec 32), Decidable (k0_chk23 v201) := fun v201 => decidable_of_iff' _ (Iff.of_eq (k0_chk23.eq_1 v201))
theorem k0_off46_inb : ∀ (v201 : BitVec 32) (k0_hw23 : k0_chk23 v201), ∀ a, (k0_off46 v201) a + S1x1024.size a ≤ S32768x1024.size a := fun v201 k0_hw23 => k0_hw23

def k0_off47 (i : grid0.Coords) : Fin 1 → Nat :=
  let arg0 : BitVec 32 := BitVec.ofNat 32 (i 0).val
  let c256_i32 : BitVec 32 := 256#32
  let v0 : BitVec 32 := Scalar.muli arg0 c256_i32
  let c23_i32 : BitVec 32 := 23#32
  let v208 : BitVec 32 := Scalar.addi v0 c23_i32
  let v209 : Index := Scalar.indexCast v208
  ![v209.toNat]
def k0_off48 (v210 : BitVec 32) : Fin 2 → Nat :=
  let c0_i32_95 : BitVec 32 := 0#32
  ![v210.toNat, 0]

def k0_chk24 (v210 : BitVec 32) : Prop :=
  (∀ a, (k0_off48 v210) a + S1x1024.size a ≤ S32768x1024.size a)
instance k0_chk24.dec : ∀ (v210 : BitVec 32), Decidable (k0_chk24 v210) := fun v210 => decidable_of_iff' _ (Iff.of_eq (k0_chk24.eq_1 v210))
theorem k0_off48_inb : ∀ (v210 : BitVec 32) (k0_hw24 : k0_chk24 v210), ∀ a, (k0_off48 v210) a + S1x1024.size a ≤ S32768x1024.size a := fun v210 k0_hw24 => k0_hw24

def k0_off49 (i : grid0.Coords) : Fin 1 → Nat :=
  let arg0 : BitVec 32 := BitVec.ofNat 32 (i 0).val
  let c256_i32 : BitVec 32 := 256#32
  let v0 : BitVec 32 := Scalar.muli arg0 c256_i32
  let c24_i32 : BitVec 32 := 24#32
  let v217 : BitVec 32 := Scalar.addi v0 c24_i32
  let v218 : Index := Scalar.indexCast v217
  ![v218.toNat]
def k0_off50 (v219 : BitVec 32) : Fin 2 → Nat :=
  let c0_i32_99 : BitVec 32 := 0#32
  ![v219.toNat, 0]

def k0_chk25 (v219 : BitVec 32) : Prop :=
  (∀ a, (k0_off50 v219) a + S1x1024.size a ≤ S32768x1024.size a)
instance k0_chk25.dec : ∀ (v219 : BitVec 32), Decidable (k0_chk25 v219) := fun v219 => decidable_of_iff' _ (Iff.of_eq (k0_chk25.eq_1 v219))
theorem k0_off50_inb : ∀ (v219 : BitVec 32) (k0_hw25 : k0_chk25 v219), ∀ a, (k0_off50 v219) a + S1x1024.size a ≤ S32768x1024.size a := fun v219 k0_hw25 => k0_hw25

def k0_off51 (i : grid0.Coords) : Fin 1 → Nat :=
  let arg0 : BitVec 32 := BitVec.ofNat 32 (i 0).val
  let c256_i32 : BitVec 32 := 256#32
  let v0 : BitVec 32 := Scalar.muli arg0 c256_i32
  let c25_i32 : BitVec 32 := 25#32
  let v226 : BitVec 32 := Scalar.addi v0 c25_i32
  let v227 : Index := Scalar.indexCast v226
  ![v227.toNat]
def k0_off52 (v228 : BitVec 32) : Fin 2 → Nat :=
  let c0_i32_103 : BitVec 32 := 0#32
  ![v228.toNat, 0]

def k0_chk26 (v228 : BitVec 32) : Prop :=
  (∀ a, (k0_off52 v228) a + S1x1024.size a ≤ S32768x1024.size a)
instance k0_chk26.dec : ∀ (v228 : BitVec 32), Decidable (k0_chk26 v228) := fun v228 => decidable_of_iff' _ (Iff.of_eq (k0_chk26.eq_1 v228))
theorem k0_off52_inb : ∀ (v228 : BitVec 32) (k0_hw26 : k0_chk26 v228), ∀ a, (k0_off52 v228) a + S1x1024.size a ≤ S32768x1024.size a := fun v228 k0_hw26 => k0_hw26

def k0_off53 (i : grid0.Coords) : Fin 1 → Nat :=
  let arg0 : BitVec 32 := BitVec.ofNat 32 (i 0).val
  let c256_i32 : BitVec 32 := 256#32
  let v0 : BitVec 32 := Scalar.muli arg0 c256_i32
  let c26_i32 : BitVec 32 := 26#32
  let v235 : BitVec 32 := Scalar.addi v0 c26_i32
  let v236 : Index := Scalar.indexCast v235
  ![v236.toNat]
def k0_off54 (v237 : BitVec 32) : Fin 2 → Nat :=
  let c0_i32_107 : BitVec 32 := 0#32
  ![v237.toNat, 0]

def k0_chk27 (v237 : BitVec 32) : Prop :=
  (∀ a, (k0_off54 v237) a + S1x1024.size a ≤ S32768x1024.size a)
instance k0_chk27.dec : ∀ (v237 : BitVec 32), Decidable (k0_chk27 v237) := fun v237 => decidable_of_iff' _ (Iff.of_eq (k0_chk27.eq_1 v237))
theorem k0_off54_inb : ∀ (v237 : BitVec 32) (k0_hw27 : k0_chk27 v237), ∀ a, (k0_off54 v237) a + S1x1024.size a ≤ S32768x1024.size a := fun v237 k0_hw27 => k0_hw27

def k0_off55 (i : grid0.Coords) : Fin 1 → Nat :=
  let arg0 : BitVec 32 := BitVec.ofNat 32 (i 0).val
  let c256_i32 : BitVec 32 := 256#32
  let v0 : BitVec 32 := Scalar.muli arg0 c256_i32
  let c27_i32 : BitVec 32 := 27#32
  let v244 : BitVec 32 := Scalar.addi v0 c27_i32
  let v245 : Index := Scalar.indexCast v244
  ![v245.toNat]
def k0_off56 (v246 : BitVec 32) : Fin 2 → Nat :=
  let c0_i32_111 : BitVec 32 := 0#32
  ![v246.toNat, 0]

def k0_chk28 (v246 : BitVec 32) : Prop :=
  (∀ a, (k0_off56 v246) a + S1x1024.size a ≤ S32768x1024.size a)
instance k0_chk28.dec : ∀ (v246 : BitVec 32), Decidable (k0_chk28 v246) := fun v246 => decidable_of_iff' _ (Iff.of_eq (k0_chk28.eq_1 v246))
theorem k0_off56_inb : ∀ (v246 : BitVec 32) (k0_hw28 : k0_chk28 v246), ∀ a, (k0_off56 v246) a + S1x1024.size a ≤ S32768x1024.size a := fun v246 k0_hw28 => k0_hw28

def k0_off57 (i : grid0.Coords) : Fin 1 → Nat :=
  let arg0 : BitVec 32 := BitVec.ofNat 32 (i 0).val
  let c256_i32 : BitVec 32 := 256#32
  let v0 : BitVec 32 := Scalar.muli arg0 c256_i32
  let c28_i32 : BitVec 32 := 28#32
  let v253 : BitVec 32 := Scalar.addi v0 c28_i32
  let v254 : Index := Scalar.indexCast v253
  ![v254.toNat]
def k0_off58 (v255 : BitVec 32) : Fin 2 → Nat :=
  let c0_i32_115 : BitVec 32 := 0#32
  ![v255.toNat, 0]

def k0_chk29 (v255 : BitVec 32) : Prop :=
  (∀ a, (k0_off58 v255) a + S1x1024.size a ≤ S32768x1024.size a)
instance k0_chk29.dec : ∀ (v255 : BitVec 32), Decidable (k0_chk29 v255) := fun v255 => decidable_of_iff' _ (Iff.of_eq (k0_chk29.eq_1 v255))
theorem k0_off58_inb : ∀ (v255 : BitVec 32) (k0_hw29 : k0_chk29 v255), ∀ a, (k0_off58 v255) a + S1x1024.size a ≤ S32768x1024.size a := fun v255 k0_hw29 => k0_hw29

def k0_off59 (i : grid0.Coords) : Fin 1 → Nat :=
  let arg0 : BitVec 32 := BitVec.ofNat 32 (i 0).val
  let c256_i32 : BitVec 32 := 256#32
  let v0 : BitVec 32 := Scalar.muli arg0 c256_i32
  let c29_i32 : BitVec 32 := 29#32
  let v262 : BitVec 32 := Scalar.addi v0 c29_i32
  let v263 : Index := Scalar.indexCast v262
  ![v263.toNat]
def k0_off60 (v264 : BitVec 32) : Fin 2 → Nat :=
  let c0_i32_119 : BitVec 32 := 0#32
  ![v264.toNat, 0]

def k0_chk30 (v264 : BitVec 32) : Prop :=
  (∀ a, (k0_off60 v264) a + S1x1024.size a ≤ S32768x1024.size a)
instance k0_chk30.dec : ∀ (v264 : BitVec 32), Decidable (k0_chk30 v264) := fun v264 => decidable_of_iff' _ (Iff.of_eq (k0_chk30.eq_1 v264))
theorem k0_off60_inb : ∀ (v264 : BitVec 32) (k0_hw30 : k0_chk30 v264), ∀ a, (k0_off60 v264) a + S1x1024.size a ≤ S32768x1024.size a := fun v264 k0_hw30 => k0_hw30

def k0_off61 (i : grid0.Coords) : Fin 1 → Nat :=
  let arg0 : BitVec 32 := BitVec.ofNat 32 (i 0).val
  let c256_i32 : BitVec 32 := 256#32
  let v0 : BitVec 32 := Scalar.muli arg0 c256_i32
  let c30_i32 : BitVec 32 := 30#32
  let v271 : BitVec 32 := Scalar.addi v0 c30_i32
  let v272 : Index := Scalar.indexCast v271
  ![v272.toNat]
def k0_off62 (v273 : BitVec 32) : Fin 2 → Nat :=
  let c0_i32_123 : BitVec 32 := 0#32
  ![v273.toNat, 0]

def k0_chk31 (v273 : BitVec 32) : Prop :=
  (∀ a, (k0_off62 v273) a + S1x1024.size a ≤ S32768x1024.size a)
instance k0_chk31.dec : ∀ (v273 : BitVec 32), Decidable (k0_chk31 v273) := fun v273 => decidable_of_iff' _ (Iff.of_eq (k0_chk31.eq_1 v273))
theorem k0_off62_inb : ∀ (v273 : BitVec 32) (k0_hw31 : k0_chk31 v273), ∀ a, (k0_off62 v273) a + S1x1024.size a ≤ S32768x1024.size a := fun v273 k0_hw31 => k0_hw31

def k0_off63 (i : grid0.Coords) : Fin 1 → Nat :=
  let arg0 : BitVec 32 := BitVec.ofNat 32 (i 0).val
  let c256_i32 : BitVec 32 := 256#32
  let v0 : BitVec 32 := Scalar.muli arg0 c256_i32
  let c31_i32 : BitVec 32 := 31#32
  let v280 : BitVec 32 := Scalar.addi v0 c31_i32
  let v281 : Index := Scalar.indexCast v280
  ![v281.toNat]
def k0_off64 (v282 : BitVec 32) : Fin 2 → Nat :=
  let c0_i32_127 : BitVec 32 := 0#32
  ![v282.toNat, 0]

def k0_chk32 (v282 : BitVec 32) : Prop :=
  (∀ a, (k0_off64 v282) a + S1x1024.size a ≤ S32768x1024.size a)
instance k0_chk32.dec : ∀ (v282 : BitVec 32), Decidable (k0_chk32 v282) := fun v282 => decidable_of_iff' _ (Iff.of_eq (k0_chk32.eq_1 v282))
theorem k0_off64_inb : ∀ (v282 : BitVec 32) (k0_hw32 : k0_chk32 v282), ∀ a, (k0_off64 v282) a + S1x1024.size a ≤ S32768x1024.size a := fun v282 k0_hw32 => k0_hw32

def k0_off65 (i : grid0.Coords) : Fin 1 → Nat :=
  let arg0 : BitVec 32 := BitVec.ofNat 32 (i 0).val
  let c256_i32 : BitVec 32 := 256#32
  let v0 : BitVec 32 := Scalar.muli arg0 c256_i32
  let c32_i32 : BitVec 32 := 32#32
  let v289 : BitVec 32 := Scalar.addi v0 c32_i32
  let v290 : Index := Scalar.indexCast v289
  ![v290.toNat]
def k0_off66 (v291 : BitVec 32) : Fin 2 → Nat :=
  let c0_i32_131 : BitVec 32 := 0#32
  ![v291.toNat, 0]

def k0_chk33 (v291 : BitVec 32) : Prop :=
  (∀ a, (k0_off66 v291) a + S1x1024.size a ≤ S32768x1024.size a)
instance k0_chk33.dec : ∀ (v291 : BitVec 32), Decidable (k0_chk33 v291) := fun v291 => decidable_of_iff' _ (Iff.of_eq (k0_chk33.eq_1 v291))
theorem k0_off66_inb : ∀ (v291 : BitVec 32) (k0_hw33 : k0_chk33 v291), ∀ a, (k0_off66 v291) a + S1x1024.size a ≤ S32768x1024.size a := fun v291 k0_hw33 => k0_hw33

def k0_off67 (i : grid0.Coords) : Fin 1 → Nat :=
  let arg0 : BitVec 32 := BitVec.ofNat 32 (i 0).val
  let c256_i32 : BitVec 32 := 256#32
  let v0 : BitVec 32 := Scalar.muli arg0 c256_i32
  let c33_i32 : BitVec 32 := 33#32
  let v298 : BitVec 32 := Scalar.addi v0 c33_i32
  let v299 : Index := Scalar.indexCast v298
  ![v299.toNat]
def k0_off68 (v300 : BitVec 32) : Fin 2 → Nat :=
  let c0_i32_135 : BitVec 32 := 0#32
  ![v300.toNat, 0]

def k0_chk34 (v300 : BitVec 32) : Prop :=
  (∀ a, (k0_off68 v300) a + S1x1024.size a ≤ S32768x1024.size a)
instance k0_chk34.dec : ∀ (v300 : BitVec 32), Decidable (k0_chk34 v300) := fun v300 => decidable_of_iff' _ (Iff.of_eq (k0_chk34.eq_1 v300))
theorem k0_off68_inb : ∀ (v300 : BitVec 32) (k0_hw34 : k0_chk34 v300), ∀ a, (k0_off68 v300) a + S1x1024.size a ≤ S32768x1024.size a := fun v300 k0_hw34 => k0_hw34

def k0_off69 (i : grid0.Coords) : Fin 1 → Nat :=
  let arg0 : BitVec 32 := BitVec.ofNat 32 (i 0).val
  let c256_i32 : BitVec 32 := 256#32
  let v0 : BitVec 32 := Scalar.muli arg0 c256_i32
  let c34_i32 : BitVec 32 := 34#32
  let v307 : BitVec 32 := Scalar.addi v0 c34_i32
  let v308 : Index := Scalar.indexCast v307
  ![v308.toNat]
def k0_off70 (v309 : BitVec 32) : Fin 2 → Nat :=
  let c0_i32_139 : BitVec 32 := 0#32
  ![v309.toNat, 0]

def k0_chk35 (v309 : BitVec 32) : Prop :=
  (∀ a, (k0_off70 v309) a + S1x1024.size a ≤ S32768x1024.size a)
instance k0_chk35.dec : ∀ (v309 : BitVec 32), Decidable (k0_chk35 v309) := fun v309 => decidable_of_iff' _ (Iff.of_eq (k0_chk35.eq_1 v309))
theorem k0_off70_inb : ∀ (v309 : BitVec 32) (k0_hw35 : k0_chk35 v309), ∀ a, (k0_off70 v309) a + S1x1024.size a ≤ S32768x1024.size a := fun v309 k0_hw35 => k0_hw35

def k0_off71 (i : grid0.Coords) : Fin 1 → Nat :=
  let arg0 : BitVec 32 := BitVec.ofNat 32 (i 0).val
  let c256_i32 : BitVec 32 := 256#32
  let v0 : BitVec 32 := Scalar.muli arg0 c256_i32
  let c35_i32 : BitVec 32 := 35#32
  let v316 : BitVec 32 := Scalar.addi v0 c35_i32
  let v317 : Index := Scalar.indexCast v316
  ![v317.toNat]
def k0_off72 (v318 : BitVec 32) : Fin 2 → Nat :=
  let c0_i32_143 : BitVec 32 := 0#32
  ![v318.toNat, 0]

def k0_chk36 (v318 : BitVec 32) : Prop :=
  (∀ a, (k0_off72 v318) a + S1x1024.size a ≤ S32768x1024.size a)
instance k0_chk36.dec : ∀ (v318 : BitVec 32), Decidable (k0_chk36 v318) := fun v318 => decidable_of_iff' _ (Iff.of_eq (k0_chk36.eq_1 v318))
theorem k0_off72_inb : ∀ (v318 : BitVec 32) (k0_hw36 : k0_chk36 v318), ∀ a, (k0_off72 v318) a + S1x1024.size a ≤ S32768x1024.size a := fun v318 k0_hw36 => k0_hw36

def k0_off73 (i : grid0.Coords) : Fin 1 → Nat :=
  let arg0 : BitVec 32 := BitVec.ofNat 32 (i 0).val
  let c256_i32 : BitVec 32 := 256#32
  let v0 : BitVec 32 := Scalar.muli arg0 c256_i32
  let c36_i32 : BitVec 32 := 36#32
  let v325 : BitVec 32 := Scalar.addi v0 c36_i32
  let v326 : Index := Scalar.indexCast v325
  ![v326.toNat]
def k0_off74 (v327 : BitVec 32) : Fin 2 → Nat :=
  let c0_i32_147 : BitVec 32 := 0#32
  ![v327.toNat, 0]

def k0_chk37 (v327 : BitVec 32) : Prop :=
  (∀ a, (k0_off74 v327) a + S1x1024.size a ≤ S32768x1024.size a)
instance k0_chk37.dec : ∀ (v327 : BitVec 32), Decidable (k0_chk37 v327) := fun v327 => decidable_of_iff' _ (Iff.of_eq (k0_chk37.eq_1 v327))
theorem k0_off74_inb : ∀ (v327 : BitVec 32) (k0_hw37 : k0_chk37 v327), ∀ a, (k0_off74 v327) a + S1x1024.size a ≤ S32768x1024.size a := fun v327 k0_hw37 => k0_hw37

def k0_off75 (i : grid0.Coords) : Fin 1 → Nat :=
  let arg0 : BitVec 32 := BitVec.ofNat 32 (i 0).val
  let c256_i32 : BitVec 32 := 256#32
  let v0 : BitVec 32 := Scalar.muli arg0 c256_i32
  let c37_i32 : BitVec 32 := 37#32
  let v334 : BitVec 32 := Scalar.addi v0 c37_i32
  let v335 : Index := Scalar.indexCast v334
  ![v335.toNat]
def k0_off76 (v336 : BitVec 32) : Fin 2 → Nat :=
  let c0_i32_151 : BitVec 32 := 0#32
  ![v336.toNat, 0]

def k0_chk38 (v336 : BitVec 32) : Prop :=
  (∀ a, (k0_off76 v336) a + S1x1024.size a ≤ S32768x1024.size a)
instance k0_chk38.dec : ∀ (v336 : BitVec 32), Decidable (k0_chk38 v336) := fun v336 => decidable_of_iff' _ (Iff.of_eq (k0_chk38.eq_1 v336))
theorem k0_off76_inb : ∀ (v336 : BitVec 32) (k0_hw38 : k0_chk38 v336), ∀ a, (k0_off76 v336) a + S1x1024.size a ≤ S32768x1024.size a := fun v336 k0_hw38 => k0_hw38

def k0_off77 (i : grid0.Coords) : Fin 1 → Nat :=
  let arg0 : BitVec 32 := BitVec.ofNat 32 (i 0).val
  let c256_i32 : BitVec 32 := 256#32
  let v0 : BitVec 32 := Scalar.muli arg0 c256_i32
  let c38_i32 : BitVec 32 := 38#32
  let v343 : BitVec 32 := Scalar.addi v0 c38_i32
  let v344 : Index := Scalar.indexCast v343
  ![v344.toNat]
def k0_off78 (v345 : BitVec 32) : Fin 2 → Nat :=
  let c0_i32_155 : BitVec 32 := 0#32
  ![v345.toNat, 0]

def k0_chk39 (v345 : BitVec 32) : Prop :=
  (∀ a, (k0_off78 v345) a + S1x1024.size a ≤ S32768x1024.size a)
instance k0_chk39.dec : ∀ (v345 : BitVec 32), Decidable (k0_chk39 v345) := fun v345 => decidable_of_iff' _ (Iff.of_eq (k0_chk39.eq_1 v345))
theorem k0_off78_inb : ∀ (v345 : BitVec 32) (k0_hw39 : k0_chk39 v345), ∀ a, (k0_off78 v345) a + S1x1024.size a ≤ S32768x1024.size a := fun v345 k0_hw39 => k0_hw39

def k0_off79 (i : grid0.Coords) : Fin 1 → Nat :=
  let arg0 : BitVec 32 := BitVec.ofNat 32 (i 0).val
  let c256_i32 : BitVec 32 := 256#32
  let v0 : BitVec 32 := Scalar.muli arg0 c256_i32
  let c39_i32 : BitVec 32 := 39#32
  let v352 : BitVec 32 := Scalar.addi v0 c39_i32
  let v353 : Index := Scalar.indexCast v352
  ![v353.toNat]
def k0_off80 (v354 : BitVec 32) : Fin 2 → Nat :=
  let c0_i32_159 : BitVec 32 := 0#32
  ![v354.toNat, 0]

def k0_chk40 (v354 : BitVec 32) : Prop :=
  (∀ a, (k0_off80 v354) a + S1x1024.size a ≤ S32768x1024.size a)
instance k0_chk40.dec : ∀ (v354 : BitVec 32), Decidable (k0_chk40 v354) := fun v354 => decidable_of_iff' _ (Iff.of_eq (k0_chk40.eq_1 v354))
theorem k0_off80_inb : ∀ (v354 : BitVec 32) (k0_hw40 : k0_chk40 v354), ∀ a, (k0_off80 v354) a + S1x1024.size a ≤ S32768x1024.size a := fun v354 k0_hw40 => k0_hw40

def k0_off81 (i : grid0.Coords) : Fin 1 → Nat :=
  let arg0 : BitVec 32 := BitVec.ofNat 32 (i 0).val
  let c256_i32 : BitVec 32 := 256#32
  let v0 : BitVec 32 := Scalar.muli arg0 c256_i32
  let c40_i32 : BitVec 32 := 40#32
  let v361 : BitVec 32 := Scalar.addi v0 c40_i32
  let v362 : Index := Scalar.indexCast v361
  ![v362.toNat]
def k0_off82 (v363 : BitVec 32) : Fin 2 → Nat :=
  let c0_i32_163 : BitVec 32 := 0#32
  ![v363.toNat, 0]

def k0_chk41 (v363 : BitVec 32) : Prop :=
  (∀ a, (k0_off82 v363) a + S1x1024.size a ≤ S32768x1024.size a)
instance k0_chk41.dec : ∀ (v363 : BitVec 32), Decidable (k0_chk41 v363) := fun v363 => decidable_of_iff' _ (Iff.of_eq (k0_chk41.eq_1 v363))
theorem k0_off82_inb : ∀ (v363 : BitVec 32) (k0_hw41 : k0_chk41 v363), ∀ a, (k0_off82 v363) a + S1x1024.size a ≤ S32768x1024.size a := fun v363 k0_hw41 => k0_hw41

def k0_off83 (i : grid0.Coords) : Fin 1 → Nat :=
  let arg0 : BitVec 32 := BitVec.ofNat 32 (i 0).val
  let c256_i32 : BitVec 32 := 256#32
  let v0 : BitVec 32 := Scalar.muli arg0 c256_i32
  let c41_i32 : BitVec 32 := 41#32
  let v370 : BitVec 32 := Scalar.addi v0 c41_i32
  let v371 : Index := Scalar.indexCast v370
  ![v371.toNat]
def k0_off84 (v372 : BitVec 32) : Fin 2 → Nat :=
  let c0_i32_167 : BitVec 32 := 0#32
  ![v372.toNat, 0]

def k0_chk42 (v372 : BitVec 32) : Prop :=
  (∀ a, (k0_off84 v372) a + S1x1024.size a ≤ S32768x1024.size a)
instance k0_chk42.dec : ∀ (v372 : BitVec 32), Decidable (k0_chk42 v372) := fun v372 => decidable_of_iff' _ (Iff.of_eq (k0_chk42.eq_1 v372))
theorem k0_off84_inb : ∀ (v372 : BitVec 32) (k0_hw42 : k0_chk42 v372), ∀ a, (k0_off84 v372) a + S1x1024.size a ≤ S32768x1024.size a := fun v372 k0_hw42 => k0_hw42

def k0_off85 (i : grid0.Coords) : Fin 1 → Nat :=
  let arg0 : BitVec 32 := BitVec.ofNat 32 (i 0).val
  let c256_i32 : BitVec 32 := 256#32
  let v0 : BitVec 32 := Scalar.muli arg0 c256_i32
  let c42_i32 : BitVec 32 := 42#32
  let v379 : BitVec 32 := Scalar.addi v0 c42_i32
  let v380 : Index := Scalar.indexCast v379
  ![v380.toNat]
def k0_off86 (v381 : BitVec 32) : Fin 2 → Nat :=
  let c0_i32_171 : BitVec 32 := 0#32
  ![v381.toNat, 0]

def k0_chk43 (v381 : BitVec 32) : Prop :=
  (∀ a, (k0_off86 v381) a + S1x1024.size a ≤ S32768x1024.size a)
instance k0_chk43.dec : ∀ (v381 : BitVec 32), Decidable (k0_chk43 v381) := fun v381 => decidable_of_iff' _ (Iff.of_eq (k0_chk43.eq_1 v381))
theorem k0_off86_inb : ∀ (v381 : BitVec 32) (k0_hw43 : k0_chk43 v381), ∀ a, (k0_off86 v381) a + S1x1024.size a ≤ S32768x1024.size a := fun v381 k0_hw43 => k0_hw43

def k0_off87 (i : grid0.Coords) : Fin 1 → Nat :=
  let arg0 : BitVec 32 := BitVec.ofNat 32 (i 0).val
  let c256_i32 : BitVec 32 := 256#32
  let v0 : BitVec 32 := Scalar.muli arg0 c256_i32
  let c43_i32 : BitVec 32 := 43#32
  let v388 : BitVec 32 := Scalar.addi v0 c43_i32
  let v389 : Index := Scalar.indexCast v388
  ![v389.toNat]
def k0_off88 (v390 : BitVec 32) : Fin 2 → Nat :=
  let c0_i32_175 : BitVec 32 := 0#32
  ![v390.toNat, 0]

def k0_chk44 (v390 : BitVec 32) : Prop :=
  (∀ a, (k0_off88 v390) a + S1x1024.size a ≤ S32768x1024.size a)
instance k0_chk44.dec : ∀ (v390 : BitVec 32), Decidable (k0_chk44 v390) := fun v390 => decidable_of_iff' _ (Iff.of_eq (k0_chk44.eq_1 v390))
theorem k0_off88_inb : ∀ (v390 : BitVec 32) (k0_hw44 : k0_chk44 v390), ∀ a, (k0_off88 v390) a + S1x1024.size a ≤ S32768x1024.size a := fun v390 k0_hw44 => k0_hw44

def k0_off89 (i : grid0.Coords) : Fin 1 → Nat :=
  let arg0 : BitVec 32 := BitVec.ofNat 32 (i 0).val
  let c256_i32 : BitVec 32 := 256#32
  let v0 : BitVec 32 := Scalar.muli arg0 c256_i32
  let c44_i32 : BitVec 32 := 44#32
  let v397 : BitVec 32 := Scalar.addi v0 c44_i32
  let v398 : Index := Scalar.indexCast v397
  ![v398.toNat]
def k0_off90 (v399 : BitVec 32) : Fin 2 → Nat :=
  let c0_i32_179 : BitVec 32 := 0#32
  ![v399.toNat, 0]

def k0_chk45 (v399 : BitVec 32) : Prop :=
  (∀ a, (k0_off90 v399) a + S1x1024.size a ≤ S32768x1024.size a)
instance k0_chk45.dec : ∀ (v399 : BitVec 32), Decidable (k0_chk45 v399) := fun v399 => decidable_of_iff' _ (Iff.of_eq (k0_chk45.eq_1 v399))
theorem k0_off90_inb : ∀ (v399 : BitVec 32) (k0_hw45 : k0_chk45 v399), ∀ a, (k0_off90 v399) a + S1x1024.size a ≤ S32768x1024.size a := fun v399 k0_hw45 => k0_hw45

def k0_off91 (i : grid0.Coords) : Fin 1 → Nat :=
  let arg0 : BitVec 32 := BitVec.ofNat 32 (i 0).val
  let c256_i32 : BitVec 32 := 256#32
  let v0 : BitVec 32 := Scalar.muli arg0 c256_i32
  let c45_i32 : BitVec 32 := 45#32
  let v406 : BitVec 32 := Scalar.addi v0 c45_i32
  let v407 : Index := Scalar.indexCast v406
  ![v407.toNat]
def k0_off92 (v408 : BitVec 32) : Fin 2 → Nat :=
  let c0_i32_183 : BitVec 32 := 0#32
  ![v408.toNat, 0]

def k0_chk46 (v408 : BitVec 32) : Prop :=
  (∀ a, (k0_off92 v408) a + S1x1024.size a ≤ S32768x1024.size a)
instance k0_chk46.dec : ∀ (v408 : BitVec 32), Decidable (k0_chk46 v408) := fun v408 => decidable_of_iff' _ (Iff.of_eq (k0_chk46.eq_1 v408))
theorem k0_off92_inb : ∀ (v408 : BitVec 32) (k0_hw46 : k0_chk46 v408), ∀ a, (k0_off92 v408) a + S1x1024.size a ≤ S32768x1024.size a := fun v408 k0_hw46 => k0_hw46

def k0_off93 (i : grid0.Coords) : Fin 1 → Nat :=
  let arg0 : BitVec 32 := BitVec.ofNat 32 (i 0).val
  let c256_i32 : BitVec 32 := 256#32
  let v0 : BitVec 32 := Scalar.muli arg0 c256_i32
  let c46_i32 : BitVec 32 := 46#32
  let v415 : BitVec 32 := Scalar.addi v0 c46_i32
  let v416 : Index := Scalar.indexCast v415
  ![v416.toNat]
def k0_off94 (v417 : BitVec 32) : Fin 2 → Nat :=
  let c0_i32_187 : BitVec 32 := 0#32
  ![v417.toNat, 0]

def k0_chk47 (v417 : BitVec 32) : Prop :=
  (∀ a, (k0_off94 v417) a + S1x1024.size a ≤ S32768x1024.size a)
instance k0_chk47.dec : ∀ (v417 : BitVec 32), Decidable (k0_chk47 v417) := fun v417 => decidable_of_iff' _ (Iff.of_eq (k0_chk47.eq_1 v417))
theorem k0_off94_inb : ∀ (v417 : BitVec 32) (k0_hw47 : k0_chk47 v417), ∀ a, (k0_off94 v417) a + S1x1024.size a ≤ S32768x1024.size a := fun v417 k0_hw47 => k0_hw47

def k0_off95 (i : grid0.Coords) : Fin 1 → Nat :=
  let arg0 : BitVec 32 := BitVec.ofNat 32 (i 0).val
  let c256_i32 : BitVec 32 := 256#32
  let v0 : BitVec 32 := Scalar.muli arg0 c256_i32
  let c47_i32 : BitVec 32 := 47#32
  let v424 : BitVec 32 := Scalar.addi v0 c47_i32
  let v425 : Index := Scalar.indexCast v424
  ![v425.toNat]
def k0_off96 (v426 : BitVec 32) : Fin 2 → Nat :=
  let c0_i32_191 : BitVec 32 := 0#32
  ![v426.toNat, 0]

def k0_chk48 (v426 : BitVec 32) : Prop :=
  (∀ a, (k0_off96 v426) a + S1x1024.size a ≤ S32768x1024.size a)
instance k0_chk48.dec : ∀ (v426 : BitVec 32), Decidable (k0_chk48 v426) := fun v426 => decidable_of_iff' _ (Iff.of_eq (k0_chk48.eq_1 v426))
theorem k0_off96_inb : ∀ (v426 : BitVec 32) (k0_hw48 : k0_chk48 v426), ∀ a, (k0_off96 v426) a + S1x1024.size a ≤ S32768x1024.size a := fun v426 k0_hw48 => k0_hw48

def k0_off97 (i : grid0.Coords) : Fin 1 → Nat :=
  let arg0 : BitVec 32 := BitVec.ofNat 32 (i 0).val
  let c256_i32 : BitVec 32 := 256#32
  let v0 : BitVec 32 := Scalar.muli arg0 c256_i32
  let c48_i32 : BitVec 32 := 48#32
  let v433 : BitVec 32 := Scalar.addi v0 c48_i32
  let v434 : Index := Scalar.indexCast v433
  ![v434.toNat]
def k0_off98 (v435 : BitVec 32) : Fin 2 → Nat :=
  let c0_i32_195 : BitVec 32 := 0#32
  ![v435.toNat, 0]

def k0_chk49 (v435 : BitVec 32) : Prop :=
  (∀ a, (k0_off98 v435) a + S1x1024.size a ≤ S32768x1024.size a)
instance k0_chk49.dec : ∀ (v435 : BitVec 32), Decidable (k0_chk49 v435) := fun v435 => decidable_of_iff' _ (Iff.of_eq (k0_chk49.eq_1 v435))
theorem k0_off98_inb : ∀ (v435 : BitVec 32) (k0_hw49 : k0_chk49 v435), ∀ a, (k0_off98 v435) a + S1x1024.size a ≤ S32768x1024.size a := fun v435 k0_hw49 => k0_hw49

def k0_off99 (i : grid0.Coords) : Fin 1 → Nat :=
  let arg0 : BitVec 32 := BitVec.ofNat 32 (i 0).val
  let c256_i32 : BitVec 32 := 256#32
  let v0 : BitVec 32 := Scalar.muli arg0 c256_i32
  let c49_i32 : BitVec 32 := 49#32
  let v442 : BitVec 32 := Scalar.addi v0 c49_i32
  let v443 : Index := Scalar.indexCast v442
  ![v443.toNat]
def k0_off100 (v444 : BitVec 32) : Fin 2 → Nat :=
  let c0_i32_199 : BitVec 32 := 0#32
  ![v444.toNat, 0]

def k0_chk50 (v444 : BitVec 32) : Prop :=
  (∀ a, (k0_off100 v444) a + S1x1024.size a ≤ S32768x1024.size a)
instance k0_chk50.dec : ∀ (v444 : BitVec 32), Decidable (k0_chk50 v444) := fun v444 => decidable_of_iff' _ (Iff.of_eq (k0_chk50.eq_1 v444))
theorem k0_off100_inb : ∀ (v444 : BitVec 32) (k0_hw50 : k0_chk50 v444), ∀ a, (k0_off100 v444) a + S1x1024.size a ≤ S32768x1024.size a := fun v444 k0_hw50 => k0_hw50

def k0_off101 (i : grid0.Coords) : Fin 1 → Nat :=
  let arg0 : BitVec 32 := BitVec.ofNat 32 (i 0).val
  let c256_i32 : BitVec 32 := 256#32
  let v0 : BitVec 32 := Scalar.muli arg0 c256_i32
  let c50_i32 : BitVec 32 := 50#32
  let v451 : BitVec 32 := Scalar.addi v0 c50_i32
  let v452 : Index := Scalar.indexCast v451
  ![v452.toNat]
def k0_off102 (v453 : BitVec 32) : Fin 2 → Nat :=
  let c0_i32_203 : BitVec 32 := 0#32
  ![v453.toNat, 0]

def k0_chk51 (v453 : BitVec 32) : Prop :=
  (∀ a, (k0_off102 v453) a + S1x1024.size a ≤ S32768x1024.size a)
instance k0_chk51.dec : ∀ (v453 : BitVec 32), Decidable (k0_chk51 v453) := fun v453 => decidable_of_iff' _ (Iff.of_eq (k0_chk51.eq_1 v453))
theorem k0_off102_inb : ∀ (v453 : BitVec 32) (k0_hw51 : k0_chk51 v453), ∀ a, (k0_off102 v453) a + S1x1024.size a ≤ S32768x1024.size a := fun v453 k0_hw51 => k0_hw51

def k0_off103 (i : grid0.Coords) : Fin 1 → Nat :=
  let arg0 : BitVec 32 := BitVec.ofNat 32 (i 0).val
  let c256_i32 : BitVec 32 := 256#32
  let v0 : BitVec 32 := Scalar.muli arg0 c256_i32
  let c51_i32 : BitVec 32 := 51#32
  let v460 : BitVec 32 := Scalar.addi v0 c51_i32
  let v461 : Index := Scalar.indexCast v460
  ![v461.toNat]
def k0_off104 (v462 : BitVec 32) : Fin 2 → Nat :=
  let c0_i32_207 : BitVec 32 := 0#32
  ![v462.toNat, 0]

def k0_chk52 (v462 : BitVec 32) : Prop :=
  (∀ a, (k0_off104 v462) a + S1x1024.size a ≤ S32768x1024.size a)
instance k0_chk52.dec : ∀ (v462 : BitVec 32), Decidable (k0_chk52 v462) := fun v462 => decidable_of_iff' _ (Iff.of_eq (k0_chk52.eq_1 v462))
theorem k0_off104_inb : ∀ (v462 : BitVec 32) (k0_hw52 : k0_chk52 v462), ∀ a, (k0_off104 v462) a + S1x1024.size a ≤ S32768x1024.size a := fun v462 k0_hw52 => k0_hw52

def k0_off105 (i : grid0.Coords) : Fin 1 → Nat :=
  let arg0 : BitVec 32 := BitVec.ofNat 32 (i 0).val
  let c256_i32 : BitVec 32 := 256#32
  let v0 : BitVec 32 := Scalar.muli arg0 c256_i32
  let c52_i32 : BitVec 32 := 52#32
  let v469 : BitVec 32 := Scalar.addi v0 c52_i32
  let v470 : Index := Scalar.indexCast v469
  ![v470.toNat]
def k0_off106 (v471 : BitVec 32) : Fin 2 → Nat :=
  let c0_i32_211 : BitVec 32 := 0#32
  ![v471.toNat, 0]

def k0_chk53 (v471 : BitVec 32) : Prop :=
  (∀ a, (k0_off106 v471) a + S1x1024.size a ≤ S32768x1024.size a)
instance k0_chk53.dec : ∀ (v471 : BitVec 32), Decidable (k0_chk53 v471) := fun v471 => decidable_of_iff' _ (Iff.of_eq (k0_chk53.eq_1 v471))
theorem k0_off106_inb : ∀ (v471 : BitVec 32) (k0_hw53 : k0_chk53 v471), ∀ a, (k0_off106 v471) a + S1x1024.size a ≤ S32768x1024.size a := fun v471 k0_hw53 => k0_hw53

def k0_off107 (i : grid0.Coords) : Fin 1 → Nat :=
  let arg0 : BitVec 32 := BitVec.ofNat 32 (i 0).val
  let c256_i32 : BitVec 32 := 256#32
  let v0 : BitVec 32 := Scalar.muli arg0 c256_i32
  let c53_i32 : BitVec 32 := 53#32
  let v478 : BitVec 32 := Scalar.addi v0 c53_i32
  let v479 : Index := Scalar.indexCast v478
  ![v479.toNat]
def k0_off108 (v480 : BitVec 32) : Fin 2 → Nat :=
  let c0_i32_215 : BitVec 32 := 0#32
  ![v480.toNat, 0]

def k0_chk54 (v480 : BitVec 32) : Prop :=
  (∀ a, (k0_off108 v480) a + S1x1024.size a ≤ S32768x1024.size a)
instance k0_chk54.dec : ∀ (v480 : BitVec 32), Decidable (k0_chk54 v480) := fun v480 => decidable_of_iff' _ (Iff.of_eq (k0_chk54.eq_1 v480))
theorem k0_off108_inb : ∀ (v480 : BitVec 32) (k0_hw54 : k0_chk54 v480), ∀ a, (k0_off108 v480) a + S1x1024.size a ≤ S32768x1024.size a := fun v480 k0_hw54 => k0_hw54

def k0_off109 (i : grid0.Coords) : Fin 1 → Nat :=
  let arg0 : BitVec 32 := BitVec.ofNat 32 (i 0).val
  let c256_i32 : BitVec 32 := 256#32
  let v0 : BitVec 32 := Scalar.muli arg0 c256_i32
  let c54_i32 : BitVec 32 := 54#32
  let v487 : BitVec 32 := Scalar.addi v0 c54_i32
  let v488 : Index := Scalar.indexCast v487
  ![v488.toNat]
def k0_off110 (v489 : BitVec 32) : Fin 2 → Nat :=
  let c0_i32_219 : BitVec 32 := 0#32
  ![v489.toNat, 0]

def k0_chk55 (v489 : BitVec 32) : Prop :=
  (∀ a, (k0_off110 v489) a + S1x1024.size a ≤ S32768x1024.size a)
instance k0_chk55.dec : ∀ (v489 : BitVec 32), Decidable (k0_chk55 v489) := fun v489 => decidable_of_iff' _ (Iff.of_eq (k0_chk55.eq_1 v489))
theorem k0_off110_inb : ∀ (v489 : BitVec 32) (k0_hw55 : k0_chk55 v489), ∀ a, (k0_off110 v489) a + S1x1024.size a ≤ S32768x1024.size a := fun v489 k0_hw55 => k0_hw55

def k0_off111 (i : grid0.Coords) : Fin 1 → Nat :=
  let arg0 : BitVec 32 := BitVec.ofNat 32 (i 0).val
  let c256_i32 : BitVec 32 := 256#32
  let v0 : BitVec 32 := Scalar.muli arg0 c256_i32
  let c55_i32 : BitVec 32 := 55#32
  let v496 : BitVec 32 := Scalar.addi v0 c55_i32
  let v497 : Index := Scalar.indexCast v496
  ![v497.toNat]
def k0_off112 (v498 : BitVec 32) : Fin 2 → Nat :=
  let c0_i32_223 : BitVec 32 := 0#32
  ![v498.toNat, 0]

def k0_chk56 (v498 : BitVec 32) : Prop :=
  (∀ a, (k0_off112 v498) a + S1x1024.size a ≤ S32768x1024.size a)
instance k0_chk56.dec : ∀ (v498 : BitVec 32), Decidable (k0_chk56 v498) := fun v498 => decidable_of_iff' _ (Iff.of_eq (k0_chk56.eq_1 v498))
theorem k0_off112_inb : ∀ (v498 : BitVec 32) (k0_hw56 : k0_chk56 v498), ∀ a, (k0_off112 v498) a + S1x1024.size a ≤ S32768x1024.size a := fun v498 k0_hw56 => k0_hw56

def k0_off113 (i : grid0.Coords) : Fin 1 → Nat :=
  let arg0 : BitVec 32 := BitVec.ofNat 32 (i 0).val
  let c256_i32 : BitVec 32 := 256#32
  let v0 : BitVec 32 := Scalar.muli arg0 c256_i32
  let c56_i32 : BitVec 32 := 56#32
  let v505 : BitVec 32 := Scalar.addi v0 c56_i32
  let v506 : Index := Scalar.indexCast v505
  ![v506.toNat]
def k0_off114 (v507 : BitVec 32) : Fin 2 → Nat :=
  let c0_i32_227 : BitVec 32 := 0#32
  ![v507.toNat, 0]

def k0_chk57 (v507 : BitVec 32) : Prop :=
  (∀ a, (k0_off114 v507) a + S1x1024.size a ≤ S32768x1024.size a)
instance k0_chk57.dec : ∀ (v507 : BitVec 32), Decidable (k0_chk57 v507) := fun v507 => decidable_of_iff' _ (Iff.of_eq (k0_chk57.eq_1 v507))
theorem k0_off114_inb : ∀ (v507 : BitVec 32) (k0_hw57 : k0_chk57 v507), ∀ a, (k0_off114 v507) a + S1x1024.size a ≤ S32768x1024.size a := fun v507 k0_hw57 => k0_hw57

def k0_off115 (i : grid0.Coords) : Fin 1 → Nat :=
  let arg0 : BitVec 32 := BitVec.ofNat 32 (i 0).val
  let c256_i32 : BitVec 32 := 256#32
  let v0 : BitVec 32 := Scalar.muli arg0 c256_i32
  let c57_i32 : BitVec 32 := 57#32
  let v514 : BitVec 32 := Scalar.addi v0 c57_i32
  let v515 : Index := Scalar.indexCast v514
  ![v515.toNat]
def k0_off116 (v516 : BitVec 32) : Fin 2 → Nat :=
  let c0_i32_231 : BitVec 32 := 0#32
  ![v516.toNat, 0]

def k0_chk58 (v516 : BitVec 32) : Prop :=
  (∀ a, (k0_off116 v516) a + S1x1024.size a ≤ S32768x1024.size a)
instance k0_chk58.dec : ∀ (v516 : BitVec 32), Decidable (k0_chk58 v516) := fun v516 => decidable_of_iff' _ (Iff.of_eq (k0_chk58.eq_1 v516))
theorem k0_off116_inb : ∀ (v516 : BitVec 32) (k0_hw58 : k0_chk58 v516), ∀ a, (k0_off116 v516) a + S1x1024.size a ≤ S32768x1024.size a := fun v516 k0_hw58 => k0_hw58

def k0_off117 (i : grid0.Coords) : Fin 1 → Nat :=
  let arg0 : BitVec 32 := BitVec.ofNat 32 (i 0).val
  let c256_i32 : BitVec 32 := 256#32
  let v0 : BitVec 32 := Scalar.muli arg0 c256_i32
  let c58_i32 : BitVec 32 := 58#32
  let v523 : BitVec 32 := Scalar.addi v0 c58_i32
  let v524 : Index := Scalar.indexCast v523
  ![v524.toNat]
def k0_off118 (v525 : BitVec 32) : Fin 2 → Nat :=
  let c0_i32_235 : BitVec 32 := 0#32
  ![v525.toNat, 0]

def k0_chk59 (v525 : BitVec 32) : Prop :=
  (∀ a, (k0_off118 v525) a + S1x1024.size a ≤ S32768x1024.size a)
instance k0_chk59.dec : ∀ (v525 : BitVec 32), Decidable (k0_chk59 v525) := fun v525 => decidable_of_iff' _ (Iff.of_eq (k0_chk59.eq_1 v525))
theorem k0_off118_inb : ∀ (v525 : BitVec 32) (k0_hw59 : k0_chk59 v525), ∀ a, (k0_off118 v525) a + S1x1024.size a ≤ S32768x1024.size a := fun v525 k0_hw59 => k0_hw59

def k0_off119 (i : grid0.Coords) : Fin 1 → Nat :=
  let arg0 : BitVec 32 := BitVec.ofNat 32 (i 0).val
  let c256_i32 : BitVec 32 := 256#32
  let v0 : BitVec 32 := Scalar.muli arg0 c256_i32
  let c59_i32 : BitVec 32 := 59#32
  let v532 : BitVec 32 := Scalar.addi v0 c59_i32
  let v533 : Index := Scalar.indexCast v532
  ![v533.toNat]
def k0_off120 (v534 : BitVec 32) : Fin 2 → Nat :=
  let c0_i32_239 : BitVec 32 := 0#32
  ![v534.toNat, 0]

def k0_chk60 (v534 : BitVec 32) : Prop :=
  (∀ a, (k0_off120 v534) a + S1x1024.size a ≤ S32768x1024.size a)
instance k0_chk60.dec : ∀ (v534 : BitVec 32), Decidable (k0_chk60 v534) := fun v534 => decidable_of_iff' _ (Iff.of_eq (k0_chk60.eq_1 v534))
theorem k0_off120_inb : ∀ (v534 : BitVec 32) (k0_hw60 : k0_chk60 v534), ∀ a, (k0_off120 v534) a + S1x1024.size a ≤ S32768x1024.size a := fun v534 k0_hw60 => k0_hw60

def k0_off121 (i : grid0.Coords) : Fin 1 → Nat :=
  let arg0 : BitVec 32 := BitVec.ofNat 32 (i 0).val
  let c256_i32 : BitVec 32 := 256#32
  let v0 : BitVec 32 := Scalar.muli arg0 c256_i32
  let c60_i32 : BitVec 32 := 60#32
  let v541 : BitVec 32 := Scalar.addi v0 c60_i32
  let v542 : Index := Scalar.indexCast v541
  ![v542.toNat]
def k0_off122 (v543 : BitVec 32) : Fin 2 → Nat :=
  let c0_i32_243 : BitVec 32 := 0#32
  ![v543.toNat, 0]

def k0_chk61 (v543 : BitVec 32) : Prop :=
  (∀ a, (k0_off122 v543) a + S1x1024.size a ≤ S32768x1024.size a)
instance k0_chk61.dec : ∀ (v543 : BitVec 32), Decidable (k0_chk61 v543) := fun v543 => decidable_of_iff' _ (Iff.of_eq (k0_chk61.eq_1 v543))
theorem k0_off122_inb : ∀ (v543 : BitVec 32) (k0_hw61 : k0_chk61 v543), ∀ a, (k0_off122 v543) a + S1x1024.size a ≤ S32768x1024.size a := fun v543 k0_hw61 => k0_hw61

def k0_off123 (i : grid0.Coords) : Fin 1 → Nat :=
  let arg0 : BitVec 32 := BitVec.ofNat 32 (i 0).val
  let c256_i32 : BitVec 32 := 256#32
  let v0 : BitVec 32 := Scalar.muli arg0 c256_i32
  let c61_i32 : BitVec 32 := 61#32
  let v550 : BitVec 32 := Scalar.addi v0 c61_i32
  let v551 : Index := Scalar.indexCast v550
  ![v551.toNat]
def k0_off124 (v552 : BitVec 32) : Fin 2 → Nat :=
  let c0_i32_247 : BitVec 32 := 0#32
  ![v552.toNat, 0]

def k0_chk62 (v552 : BitVec 32) : Prop :=
  (∀ a, (k0_off124 v552) a + S1x1024.size a ≤ S32768x1024.size a)
instance k0_chk62.dec : ∀ (v552 : BitVec 32), Decidable (k0_chk62 v552) := fun v552 => decidable_of_iff' _ (Iff.of_eq (k0_chk62.eq_1 v552))
theorem k0_off124_inb : ∀ (v552 : BitVec 32) (k0_hw62 : k0_chk62 v552), ∀ a, (k0_off124 v552) a + S1x1024.size a ≤ S32768x1024.size a := fun v552 k0_hw62 => k0_hw62

def k0_off125 (i : grid0.Coords) : Fin 1 → Nat :=
  let arg0 : BitVec 32 := BitVec.ofNat 32 (i 0).val
  let c256_i32 : BitVec 32 := 256#32
  let v0 : BitVec 32 := Scalar.muli arg0 c256_i32
  let c62_i32 : BitVec 32 := 62#32
  let v559 : BitVec 32 := Scalar.addi v0 c62_i32
  let v560 : Index := Scalar.indexCast v559
  ![v560.toNat]
def k0_off126 (v561 : BitVec 32) : Fin 2 → Nat :=
  let c0_i32_251 : BitVec 32 := 0#32
  ![v561.toNat, 0]

def k0_chk63 (v561 : BitVec 32) : Prop :=
  (∀ a, (k0_off126 v561) a + S1x1024.size a ≤ S32768x1024.size a)
instance k0_chk63.dec : ∀ (v561 : BitVec 32), Decidable (k0_chk63 v561) := fun v561 => decidable_of_iff' _ (Iff.of_eq (k0_chk63.eq_1 v561))
theorem k0_off126_inb : ∀ (v561 : BitVec 32) (k0_hw63 : k0_chk63 v561), ∀ a, (k0_off126 v561) a + S1x1024.size a ≤ S32768x1024.size a := fun v561 k0_hw63 => k0_hw63

def k0_off127 (i : grid0.Coords) : Fin 1 → Nat :=
  let arg0 : BitVec 32 := BitVec.ofNat 32 (i 0).val
  let c256_i32 : BitVec 32 := 256#32
  let v0 : BitVec 32 := Scalar.muli arg0 c256_i32
  let c63_i32 : BitVec 32 := 63#32
  let v568 : BitVec 32 := Scalar.addi v0 c63_i32
  let v569 : Index := Scalar.indexCast v568
  ![v569.toNat]
def k0_off128 (v570 : BitVec 32) : Fin 2 → Nat :=
  let c0_i32_255 : BitVec 32 := 0#32
  ![v570.toNat, 0]

def k0_chk64 (v570 : BitVec 32) : Prop :=
  (∀ a, (k0_off128 v570) a + S1x1024.size a ≤ S32768x1024.size a)
instance k0_chk64.dec : ∀ (v570 : BitVec 32), Decidable (k0_chk64 v570) := fun v570 => decidable_of_iff' _ (Iff.of_eq (k0_chk64.eq_1 v570))
theorem k0_off128_inb : ∀ (v570 : BitVec 32) (k0_hw64 : k0_chk64 v570), ∀ a, (k0_off128 v570) a + S1x1024.size a ≤ S32768x1024.size a := fun v570 k0_hw64 => k0_hw64

def k0_off129 (i : grid0.Coords) : Fin 1 → Nat :=
  let arg0 : BitVec 32 := BitVec.ofNat 32 (i 0).val
  let c256_i32 : BitVec 32 := 256#32
  let v0 : BitVec 32 := Scalar.muli arg0 c256_i32
  let c64_i32 : BitVec 32 := 64#32
  let v577 : BitVec 32 := Scalar.addi v0 c64_i32
  let v578 : Index := Scalar.indexCast v577
  ![v578.toNat]
def k0_off130 (v579 : BitVec 32) : Fin 2 → Nat :=
  let c0_i32_259 : BitVec 32 := 0#32
  ![v579.toNat, 0]

def k0_chk65 (v579 : BitVec 32) : Prop :=
  (∀ a, (k0_off130 v579) a + S1x1024.size a ≤ S32768x1024.size a)
instance k0_chk65.dec : ∀ (v579 : BitVec 32), Decidable (k0_chk65 v579) := fun v579 => decidable_of_iff' _ (Iff.of_eq (k0_chk65.eq_1 v579))
theorem k0_off130_inb : ∀ (v579 : BitVec 32) (k0_hw65 : k0_chk65 v579), ∀ a, (k0_off130 v579) a + S1x1024.size a ≤ S32768x1024.size a := fun v579 k0_hw65 => k0_hw65

def k0_off131 (i : grid0.Coords) : Fin 1 → Nat :=
  let arg0 : BitVec 32 := BitVec.ofNat 32 (i 0).val
  let c256_i32 : BitVec 32 := 256#32
  let v0 : BitVec 32 := Scalar.muli arg0 c256_i32
  let c65_i32 : BitVec 32 := 65#32
  let v586 : BitVec 32 := Scalar.addi v0 c65_i32
  let v587 : Index := Scalar.indexCast v586
  ![v587.toNat]
def k0_off132 (v588 : BitVec 32) : Fin 2 → Nat :=
  let c0_i32_263 : BitVec 32 := 0#32
  ![v588.toNat, 0]

def k0_chk66 (v588 : BitVec 32) : Prop :=
  (∀ a, (k0_off132 v588) a + S1x1024.size a ≤ S32768x1024.size a)
instance k0_chk66.dec : ∀ (v588 : BitVec 32), Decidable (k0_chk66 v588) := fun v588 => decidable_of_iff' _ (Iff.of_eq (k0_chk66.eq_1 v588))
theorem k0_off132_inb : ∀ (v588 : BitVec 32) (k0_hw66 : k0_chk66 v588), ∀ a, (k0_off132 v588) a + S1x1024.size a ≤ S32768x1024.size a := fun v588 k0_hw66 => k0_hw66

def k0_off133 (i : grid0.Coords) : Fin 1 → Nat :=
  let arg0 : BitVec 32 := BitVec.ofNat 32 (i 0).val
  let c256_i32 : BitVec 32 := 256#32
  let v0 : BitVec 32 := Scalar.muli arg0 c256_i32
  let c66_i32 : BitVec 32 := 66#32
  let v595 : BitVec 32 := Scalar.addi v0 c66_i32
  let v596 : Index := Scalar.indexCast v595
  ![v596.toNat]
def k0_off134 (v597 : BitVec 32) : Fin 2 → Nat :=
  let c0_i32_267 : BitVec 32 := 0#32
  ![v597.toNat, 0]

def k0_chk67 (v597 : BitVec 32) : Prop :=
  (∀ a, (k0_off134 v597) a + S1x1024.size a ≤ S32768x1024.size a)
instance k0_chk67.dec : ∀ (v597 : BitVec 32), Decidable (k0_chk67 v597) := fun v597 => decidable_of_iff' _ (Iff.of_eq (k0_chk67.eq_1 v597))
theorem k0_off134_inb : ∀ (v597 : BitVec 32) (k0_hw67 : k0_chk67 v597), ∀ a, (k0_off134 v597) a + S1x1024.size a ≤ S32768x1024.size a := fun v597 k0_hw67 => k0_hw67

def k0_off135 (i : grid0.Coords) : Fin 1 → Nat :=
  let arg0 : BitVec 32 := BitVec.ofNat 32 (i 0).val
  let c256_i32 : BitVec 32 := 256#32
  let v0 : BitVec 32 := Scalar.muli arg0 c256_i32
  let c67_i32 : BitVec 32 := 67#32
  let v604 : BitVec 32 := Scalar.addi v0 c67_i32
  let v605 : Index := Scalar.indexCast v604
  ![v605.toNat]
def k0_off136 (v606 : BitVec 32) : Fin 2 → Nat :=
  let c0_i32_271 : BitVec 32 := 0#32
  ![v606.toNat, 0]

def k0_chk68 (v606 : BitVec 32) : Prop :=
  (∀ a, (k0_off136 v606) a + S1x1024.size a ≤ S32768x1024.size a)
instance k0_chk68.dec : ∀ (v606 : BitVec 32), Decidable (k0_chk68 v606) := fun v606 => decidable_of_iff' _ (Iff.of_eq (k0_chk68.eq_1 v606))
theorem k0_off136_inb : ∀ (v606 : BitVec 32) (k0_hw68 : k0_chk68 v606), ∀ a, (k0_off136 v606) a + S1x1024.size a ≤ S32768x1024.size a := fun v606 k0_hw68 => k0_hw68

def k0_off137 (i : grid0.Coords) : Fin 1 → Nat :=
  let arg0 : BitVec 32 := BitVec.ofNat 32 (i 0).val
  let c256_i32 : BitVec 32 := 256#32
  let v0 : BitVec 32 := Scalar.muli arg0 c256_i32
  let c68_i32 : BitVec 32 := 68#32
  let v613 : BitVec 32 := Scalar.addi v0 c68_i32
  let v614 : Index := Scalar.indexCast v613
  ![v614.toNat]
def k0_off138 (v615 : BitVec 32) : Fin 2 → Nat :=
  let c0_i32_275 : BitVec 32 := 0#32
  ![v615.toNat, 0]

def k0_chk69 (v615 : BitVec 32) : Prop :=
  (∀ a, (k0_off138 v615) a + S1x1024.size a ≤ S32768x1024.size a)
instance k0_chk69.dec : ∀ (v615 : BitVec 32), Decidable (k0_chk69 v615) := fun v615 => decidable_of_iff' _ (Iff.of_eq (k0_chk69.eq_1 v615))
theorem k0_off138_inb : ∀ (v615 : BitVec 32) (k0_hw69 : k0_chk69 v615), ∀ a, (k0_off138 v615) a + S1x1024.size a ≤ S32768x1024.size a := fun v615 k0_hw69 => k0_hw69

def k0_off139 (i : grid0.Coords) : Fin 1 → Nat :=
  let arg0 : BitVec 32 := BitVec.ofNat 32 (i 0).val
  let c256_i32 : BitVec 32 := 256#32
  let v0 : BitVec 32 := Scalar.muli arg0 c256_i32
  let c69_i32 : BitVec 32 := 69#32
  let v622 : BitVec 32 := Scalar.addi v0 c69_i32
  let v623 : Index := Scalar.indexCast v622
  ![v623.toNat]
def k0_off140 (v624 : BitVec 32) : Fin 2 → Nat :=
  let c0_i32_279 : BitVec 32 := 0#32
  ![v624.toNat, 0]

def k0_chk70 (v624 : BitVec 32) : Prop :=
  (∀ a, (k0_off140 v624) a + S1x1024.size a ≤ S32768x1024.size a)
instance k0_chk70.dec : ∀ (v624 : BitVec 32), Decidable (k0_chk70 v624) := fun v624 => decidable_of_iff' _ (Iff.of_eq (k0_chk70.eq_1 v624))
theorem k0_off140_inb : ∀ (v624 : BitVec 32) (k0_hw70 : k0_chk70 v624), ∀ a, (k0_off140 v624) a + S1x1024.size a ≤ S32768x1024.size a := fun v624 k0_hw70 => k0_hw70

def k0_off141 (i : grid0.Coords) : Fin 1 → Nat :=
  let arg0 : BitVec 32 := BitVec.ofNat 32 (i 0).val
  let c256_i32 : BitVec 32 := 256#32
  let v0 : BitVec 32 := Scalar.muli arg0 c256_i32
  let c70_i32 : BitVec 32 := 70#32
  let v631 : BitVec 32 := Scalar.addi v0 c70_i32
  let v632 : Index := Scalar.indexCast v631
  ![v632.toNat]
def k0_off142 (v633 : BitVec 32) : Fin 2 → Nat :=
  let c0_i32_283 : BitVec 32 := 0#32
  ![v633.toNat, 0]

def k0_chk71 (v633 : BitVec 32) : Prop :=
  (∀ a, (k0_off142 v633) a + S1x1024.size a ≤ S32768x1024.size a)
instance k0_chk71.dec : ∀ (v633 : BitVec 32), Decidable (k0_chk71 v633) := fun v633 => decidable_of_iff' _ (Iff.of_eq (k0_chk71.eq_1 v633))
theorem k0_off142_inb : ∀ (v633 : BitVec 32) (k0_hw71 : k0_chk71 v633), ∀ a, (k0_off142 v633) a + S1x1024.size a ≤ S32768x1024.size a := fun v633 k0_hw71 => k0_hw71

def k0_off143 (i : grid0.Coords) : Fin 1 → Nat :=
  let arg0 : BitVec 32 := BitVec.ofNat 32 (i 0).val
  let c256_i32 : BitVec 32 := 256#32
  let v0 : BitVec 32 := Scalar.muli arg0 c256_i32
  let c71_i32 : BitVec 32 := 71#32
  let v640 : BitVec 32 := Scalar.addi v0 c71_i32
  let v641 : Index := Scalar.indexCast v640
  ![v641.toNat]
def k0_off144 (v642 : BitVec 32) : Fin 2 → Nat :=
  let c0_i32_287 : BitVec 32 := 0#32
  ![v642.toNat, 0]

def k0_chk72 (v642 : BitVec 32) : Prop :=
  (∀ a, (k0_off144 v642) a + S1x1024.size a ≤ S32768x1024.size a)
instance k0_chk72.dec : ∀ (v642 : BitVec 32), Decidable (k0_chk72 v642) := fun v642 => decidable_of_iff' _ (Iff.of_eq (k0_chk72.eq_1 v642))
theorem k0_off144_inb : ∀ (v642 : BitVec 32) (k0_hw72 : k0_chk72 v642), ∀ a, (k0_off144 v642) a + S1x1024.size a ≤ S32768x1024.size a := fun v642 k0_hw72 => k0_hw72

def k0_off145 (i : grid0.Coords) : Fin 1 → Nat :=
  let arg0 : BitVec 32 := BitVec.ofNat 32 (i 0).val
  let c256_i32 : BitVec 32 := 256#32
  let v0 : BitVec 32 := Scalar.muli arg0 c256_i32
  let c72_i32 : BitVec 32 := 72#32
  let v649 : BitVec 32 := Scalar.addi v0 c72_i32
  let v650 : Index := Scalar.indexCast v649
  ![v650.toNat]
def k0_off146 (v651 : BitVec 32) : Fin 2 → Nat :=
  let c0_i32_291 : BitVec 32 := 0#32
  ![v651.toNat, 0]

def k0_chk73 (v651 : BitVec 32) : Prop :=
  (∀ a, (k0_off146 v651) a + S1x1024.size a ≤ S32768x1024.size a)
instance k0_chk73.dec : ∀ (v651 : BitVec 32), Decidable (k0_chk73 v651) := fun v651 => decidable_of_iff' _ (Iff.of_eq (k0_chk73.eq_1 v651))
theorem k0_off146_inb : ∀ (v651 : BitVec 32) (k0_hw73 : k0_chk73 v651), ∀ a, (k0_off146 v651) a + S1x1024.size a ≤ S32768x1024.size a := fun v651 k0_hw73 => k0_hw73

def k0_off147 (i : grid0.Coords) : Fin 1 → Nat :=
  let arg0 : BitVec 32 := BitVec.ofNat 32 (i 0).val
  let c256_i32 : BitVec 32 := 256#32
  let v0 : BitVec 32 := Scalar.muli arg0 c256_i32
  let c73_i32 : BitVec 32 := 73#32
  let v658 : BitVec 32 := Scalar.addi v0 c73_i32
  let v659 : Index := Scalar.indexCast v658
  ![v659.toNat]
def k0_off148 (v660 : BitVec 32) : Fin 2 → Nat :=
  let c0_i32_295 : BitVec 32 := 0#32
  ![v660.toNat, 0]

def k0_chk74 (v660 : BitVec 32) : Prop :=
  (∀ a, (k0_off148 v660) a + S1x1024.size a ≤ S32768x1024.size a)
instance k0_chk74.dec : ∀ (v660 : BitVec 32), Decidable (k0_chk74 v660) := fun v660 => decidable_of_iff' _ (Iff.of_eq (k0_chk74.eq_1 v660))
theorem k0_off148_inb : ∀ (v660 : BitVec 32) (k0_hw74 : k0_chk74 v660), ∀ a, (k0_off148 v660) a + S1x1024.size a ≤ S32768x1024.size a := fun v660 k0_hw74 => k0_hw74

def k0_off149 (i : grid0.Coords) : Fin 1 → Nat :=
  let arg0 : BitVec 32 := BitVec.ofNat 32 (i 0).val
  let c256_i32 : BitVec 32 := 256#32
  let v0 : BitVec 32 := Scalar.muli arg0 c256_i32
  let c74_i32 : BitVec 32 := 74#32
  let v667 : BitVec 32 := Scalar.addi v0 c74_i32
  let v668 : Index := Scalar.indexCast v667
  ![v668.toNat]
def k0_off150 (v669 : BitVec 32) : Fin 2 → Nat :=
  let c0_i32_299 : BitVec 32 := 0#32
  ![v669.toNat, 0]

def k0_chk75 (v669 : BitVec 32) : Prop :=
  (∀ a, (k0_off150 v669) a + S1x1024.size a ≤ S32768x1024.size a)
instance k0_chk75.dec : ∀ (v669 : BitVec 32), Decidable (k0_chk75 v669) := fun v669 => decidable_of_iff' _ (Iff.of_eq (k0_chk75.eq_1 v669))
theorem k0_off150_inb : ∀ (v669 : BitVec 32) (k0_hw75 : k0_chk75 v669), ∀ a, (k0_off150 v669) a + S1x1024.size a ≤ S32768x1024.size a := fun v669 k0_hw75 => k0_hw75

def k0_off151 (i : grid0.Coords) : Fin 1 → Nat :=
  let arg0 : BitVec 32 := BitVec.ofNat 32 (i 0).val
  let c256_i32 : BitVec 32 := 256#32
  let v0 : BitVec 32 := Scalar.muli arg0 c256_i32
  let c75_i32 : BitVec 32 := 75#32
  let v676 : BitVec 32 := Scalar.addi v0 c75_i32
  let v677 : Index := Scalar.indexCast v676
  ![v677.toNat]
def k0_off152 (v678 : BitVec 32) : Fin 2 → Nat :=
  let c0_i32_303 : BitVec 32 := 0#32
  ![v678.toNat, 0]

def k0_chk76 (v678 : BitVec 32) : Prop :=
  (∀ a, (k0_off152 v678) a + S1x1024.size a ≤ S32768x1024.size a)
instance k0_chk76.dec : ∀ (v678 : BitVec 32), Decidable (k0_chk76 v678) := fun v678 => decidable_of_iff' _ (Iff.of_eq (k0_chk76.eq_1 v678))
theorem k0_off152_inb : ∀ (v678 : BitVec 32) (k0_hw76 : k0_chk76 v678), ∀ a, (k0_off152 v678) a + S1x1024.size a ≤ S32768x1024.size a := fun v678 k0_hw76 => k0_hw76

def k0_off153 (i : grid0.Coords) : Fin 1 → Nat :=
  let arg0 : BitVec 32 := BitVec.ofNat 32 (i 0).val
  let c256_i32 : BitVec 32 := 256#32
  let v0 : BitVec 32 := Scalar.muli arg0 c256_i32
  let c76_i32 : BitVec 32 := 76#32
  let v685 : BitVec 32 := Scalar.addi v0 c76_i32
  let v686 : Index := Scalar.indexCast v685
  ![v686.toNat]
def k0_off154 (v687 : BitVec 32) : Fin 2 → Nat :=
  let c0_i32_307 : BitVec 32 := 0#32
  ![v687.toNat, 0]

def k0_chk77 (v687 : BitVec 32) : Prop :=
  (∀ a, (k0_off154 v687) a + S1x1024.size a ≤ S32768x1024.size a)
instance k0_chk77.dec : ∀ (v687 : BitVec 32), Decidable (k0_chk77 v687) := fun v687 => decidable_of_iff' _ (Iff.of_eq (k0_chk77.eq_1 v687))
theorem k0_off154_inb : ∀ (v687 : BitVec 32) (k0_hw77 : k0_chk77 v687), ∀ a, (k0_off154 v687) a + S1x1024.size a ≤ S32768x1024.size a := fun v687 k0_hw77 => k0_hw77

def k0_off155 (i : grid0.Coords) : Fin 1 → Nat :=
  let arg0 : BitVec 32 := BitVec.ofNat 32 (i 0).val
  let c256_i32 : BitVec 32 := 256#32
  let v0 : BitVec 32 := Scalar.muli arg0 c256_i32
  let c77_i32 : BitVec 32 := 77#32
  let v694 : BitVec 32 := Scalar.addi v0 c77_i32
  let v695 : Index := Scalar.indexCast v694
  ![v695.toNat]
def k0_off156 (v696 : BitVec 32) : Fin 2 → Nat :=
  let c0_i32_311 : BitVec 32 := 0#32
  ![v696.toNat, 0]

def k0_chk78 (v696 : BitVec 32) : Prop :=
  (∀ a, (k0_off156 v696) a + S1x1024.size a ≤ S32768x1024.size a)
instance k0_chk78.dec : ∀ (v696 : BitVec 32), Decidable (k0_chk78 v696) := fun v696 => decidable_of_iff' _ (Iff.of_eq (k0_chk78.eq_1 v696))
theorem k0_off156_inb : ∀ (v696 : BitVec 32) (k0_hw78 : k0_chk78 v696), ∀ a, (k0_off156 v696) a + S1x1024.size a ≤ S32768x1024.size a := fun v696 k0_hw78 => k0_hw78

def k0_off157 (i : grid0.Coords) : Fin 1 → Nat :=
  let arg0 : BitVec 32 := BitVec.ofNat 32 (i 0).val
  let c256_i32 : BitVec 32 := 256#32
  let v0 : BitVec 32 := Scalar.muli arg0 c256_i32
  let c78_i32 : BitVec 32 := 78#32
  let v703 : BitVec 32 := Scalar.addi v0 c78_i32
  let v704 : Index := Scalar.indexCast v703
  ![v704.toNat]
def k0_off158 (v705 : BitVec 32) : Fin 2 → Nat :=
  let c0_i32_315 : BitVec 32 := 0#32
  ![v705.toNat, 0]

def k0_chk79 (v705 : BitVec 32) : Prop :=
  (∀ a, (k0_off158 v705) a + S1x1024.size a ≤ S32768x1024.size a)
instance k0_chk79.dec : ∀ (v705 : BitVec 32), Decidable (k0_chk79 v705) := fun v705 => decidable_of_iff' _ (Iff.of_eq (k0_chk79.eq_1 v705))
theorem k0_off158_inb : ∀ (v705 : BitVec 32) (k0_hw79 : k0_chk79 v705), ∀ a, (k0_off158 v705) a + S1x1024.size a ≤ S32768x1024.size a := fun v705 k0_hw79 => k0_hw79

def k0_off159 (i : grid0.Coords) : Fin 1 → Nat :=
  let arg0 : BitVec 32 := BitVec.ofNat 32 (i 0).val
  let c256_i32 : BitVec 32 := 256#32
  let v0 : BitVec 32 := Scalar.muli arg0 c256_i32
  let c79_i32 : BitVec 32 := 79#32
  let v712 : BitVec 32 := Scalar.addi v0 c79_i32
  let v713 : Index := Scalar.indexCast v712
  ![v713.toNat]
def k0_off160 (v714 : BitVec 32) : Fin 2 → Nat :=
  let c0_i32_319 : BitVec 32 := 0#32
  ![v714.toNat, 0]

def k0_chk80 (v714 : BitVec 32) : Prop :=
  (∀ a, (k0_off160 v714) a + S1x1024.size a ≤ S32768x1024.size a)
instance k0_chk80.dec : ∀ (v714 : BitVec 32), Decidable (k0_chk80 v714) := fun v714 => decidable_of_iff' _ (Iff.of_eq (k0_chk80.eq_1 v714))
theorem k0_off160_inb : ∀ (v714 : BitVec 32) (k0_hw80 : k0_chk80 v714), ∀ a, (k0_off160 v714) a + S1x1024.size a ≤ S32768x1024.size a := fun v714 k0_hw80 => k0_hw80

def k0_off161 (i : grid0.Coords) : Fin 1 → Nat :=
  let arg0 : BitVec 32 := BitVec.ofNat 32 (i 0).val
  let c256_i32 : BitVec 32 := 256#32
  let v0 : BitVec 32 := Scalar.muli arg0 c256_i32
  let c80_i32 : BitVec 32 := 80#32
  let v721 : BitVec 32 := Scalar.addi v0 c80_i32
  let v722 : Index := Scalar.indexCast v721
  ![v722.toNat]
def k0_off162 (v723 : BitVec 32) : Fin 2 → Nat :=
  let c0_i32_323 : BitVec 32 := 0#32
  ![v723.toNat, 0]

def k0_chk81 (v723 : BitVec 32) : Prop :=
  (∀ a, (k0_off162 v723) a + S1x1024.size a ≤ S32768x1024.size a)
instance k0_chk81.dec : ∀ (v723 : BitVec 32), Decidable (k0_chk81 v723) := fun v723 => decidable_of_iff' _ (Iff.of_eq (k0_chk81.eq_1 v723))
theorem k0_off162_inb : ∀ (v723 : BitVec 32) (k0_hw81 : k0_chk81 v723), ∀ a, (k0_off162 v723) a + S1x1024.size a ≤ S32768x1024.size a := fun v723 k0_hw81 => k0_hw81

def k0_off163 (i : grid0.Coords) : Fin 1 → Nat :=
  let arg0 : BitVec 32 := BitVec.ofNat 32 (i 0).val
  let c256_i32 : BitVec 32 := 256#32
  let v0 : BitVec 32 := Scalar.muli arg0 c256_i32
  let c81_i32 : BitVec 32 := 81#32
  let v730 : BitVec 32 := Scalar.addi v0 c81_i32
  let v731 : Index := Scalar.indexCast v730
  ![v731.toNat]
def k0_off164 (v732 : BitVec 32) : Fin 2 → Nat :=
  let c0_i32_327 : BitVec 32 := 0#32
  ![v732.toNat, 0]

def k0_chk82 (v732 : BitVec 32) : Prop :=
  (∀ a, (k0_off164 v732) a + S1x1024.size a ≤ S32768x1024.size a)
instance k0_chk82.dec : ∀ (v732 : BitVec 32), Decidable (k0_chk82 v732) := fun v732 => decidable_of_iff' _ (Iff.of_eq (k0_chk82.eq_1 v732))
theorem k0_off164_inb : ∀ (v732 : BitVec 32) (k0_hw82 : k0_chk82 v732), ∀ a, (k0_off164 v732) a + S1x1024.size a ≤ S32768x1024.size a := fun v732 k0_hw82 => k0_hw82

def k0_off165 (i : grid0.Coords) : Fin 1 → Nat :=
  let arg0 : BitVec 32 := BitVec.ofNat 32 (i 0).val
  let c256_i32 : BitVec 32 := 256#32
  let v0 : BitVec 32 := Scalar.muli arg0 c256_i32
  let c82_i32 : BitVec 32 := 82#32
  let v739 : BitVec 32 := Scalar.addi v0 c82_i32
  let v740 : Index := Scalar.indexCast v739
  ![v740.toNat]
def k0_off166 (v741 : BitVec 32) : Fin 2 → Nat :=
  let c0_i32_331 : BitVec 32 := 0#32
  ![v741.toNat, 0]

def k0_chk83 (v741 : BitVec 32) : Prop :=
  (∀ a, (k0_off166 v741) a + S1x1024.size a ≤ S32768x1024.size a)
instance k0_chk83.dec : ∀ (v741 : BitVec 32), Decidable (k0_chk83 v741) := fun v741 => decidable_of_iff' _ (Iff.of_eq (k0_chk83.eq_1 v741))
theorem k0_off166_inb : ∀ (v741 : BitVec 32) (k0_hw83 : k0_chk83 v741), ∀ a, (k0_off166 v741) a + S1x1024.size a ≤ S32768x1024.size a := fun v741 k0_hw83 => k0_hw83

def k0_off167 (i : grid0.Coords) : Fin 1 → Nat :=
  let arg0 : BitVec 32 := BitVec.ofNat 32 (i 0).val
  let c256_i32 : BitVec 32 := 256#32
  let v0 : BitVec 32 := Scalar.muli arg0 c256_i32
  let c83_i32 : BitVec 32 := 83#32
  let v748 : BitVec 32 := Scalar.addi v0 c83_i32
  let v749 : Index := Scalar.indexCast v748
  ![v749.toNat]
def k0_off168 (v750 : BitVec 32) : Fin 2 → Nat :=
  let c0_i32_335 : BitVec 32 := 0#32
  ![v750.toNat, 0]

def k0_chk84 (v750 : BitVec 32) : Prop :=
  (∀ a, (k0_off168 v750) a + S1x1024.size a ≤ S32768x1024.size a)
instance k0_chk84.dec : ∀ (v750 : BitVec 32), Decidable (k0_chk84 v750) := fun v750 => decidable_of_iff' _ (Iff.of_eq (k0_chk84.eq_1 v750))
theorem k0_off168_inb : ∀ (v750 : BitVec 32) (k0_hw84 : k0_chk84 v750), ∀ a, (k0_off168 v750) a + S1x1024.size a ≤ S32768x1024.size a := fun v750 k0_hw84 => k0_hw84

def k0_off169 (i : grid0.Coords) : Fin 1 → Nat :=
  let arg0 : BitVec 32 := BitVec.ofNat 32 (i 0).val
  let c256_i32 : BitVec 32 := 256#32
  let v0 : BitVec 32 := Scalar.muli arg0 c256_i32
  let c84_i32 : BitVec 32 := 84#32
  let v757 : BitVec 32 := Scalar.addi v0 c84_i32
  let v758 : Index := Scalar.indexCast v757
  ![v758.toNat]
def k0_off170 (v759 : BitVec 32) : Fin 2 → Nat :=
  let c0_i32_339 : BitVec 32 := 0#32
  ![v759.toNat, 0]

def k0_chk85 (v759 : BitVec 32) : Prop :=
  (∀ a, (k0_off170 v759) a + S1x1024.size a ≤ S32768x1024.size a)
instance k0_chk85.dec : ∀ (v759 : BitVec 32), Decidable (k0_chk85 v759) := fun v759 => decidable_of_iff' _ (Iff.of_eq (k0_chk85.eq_1 v759))
theorem k0_off170_inb : ∀ (v759 : BitVec 32) (k0_hw85 : k0_chk85 v759), ∀ a, (k0_off170 v759) a + S1x1024.size a ≤ S32768x1024.size a := fun v759 k0_hw85 => k0_hw85

def k0_off171 (i : grid0.Coords) : Fin 1 → Nat :=
  let arg0 : BitVec 32 := BitVec.ofNat 32 (i 0).val
  let c256_i32 : BitVec 32 := 256#32
  let v0 : BitVec 32 := Scalar.muli arg0 c256_i32
  let c85_i32 : BitVec 32 := 85#32
  let v766 : BitVec 32 := Scalar.addi v0 c85_i32
  let v767 : Index := Scalar.indexCast v766
  ![v767.toNat]
def k0_off172 (v768 : BitVec 32) : Fin 2 → Nat :=
  let c0_i32_343 : BitVec 32 := 0#32
  ![v768.toNat, 0]

def k0_chk86 (v768 : BitVec 32) : Prop :=
  (∀ a, (k0_off172 v768) a + S1x1024.size a ≤ S32768x1024.size a)
instance k0_chk86.dec : ∀ (v768 : BitVec 32), Decidable (k0_chk86 v768) := fun v768 => decidable_of_iff' _ (Iff.of_eq (k0_chk86.eq_1 v768))
theorem k0_off172_inb : ∀ (v768 : BitVec 32) (k0_hw86 : k0_chk86 v768), ∀ a, (k0_off172 v768) a + S1x1024.size a ≤ S32768x1024.size a := fun v768 k0_hw86 => k0_hw86

def k0_off173 (i : grid0.Coords) : Fin 1 → Nat :=
  let arg0 : BitVec 32 := BitVec.ofNat 32 (i 0).val
  let c256_i32 : BitVec 32 := 256#32
  let v0 : BitVec 32 := Scalar.muli arg0 c256_i32
  let c86_i32 : BitVec 32 := 86#32
  let v775 : BitVec 32 := Scalar.addi v0 c86_i32
  let v776 : Index := Scalar.indexCast v775
  ![v776.toNat]
def k0_off174 (v777 : BitVec 32) : Fin 2 → Nat :=
  let c0_i32_347 : BitVec 32 := 0#32
  ![v777.toNat, 0]

def k0_chk87 (v777 : BitVec 32) : Prop :=
  (∀ a, (k0_off174 v777) a + S1x1024.size a ≤ S32768x1024.size a)
instance k0_chk87.dec : ∀ (v777 : BitVec 32), Decidable (k0_chk87 v777) := fun v777 => decidable_of_iff' _ (Iff.of_eq (k0_chk87.eq_1 v777))
theorem k0_off174_inb : ∀ (v777 : BitVec 32) (k0_hw87 : k0_chk87 v777), ∀ a, (k0_off174 v777) a + S1x1024.size a ≤ S32768x1024.size a := fun v777 k0_hw87 => k0_hw87

def k0_off175 (i : grid0.Coords) : Fin 1 → Nat :=
  let arg0 : BitVec 32 := BitVec.ofNat 32 (i 0).val
  let c256_i32 : BitVec 32 := 256#32
  let v0 : BitVec 32 := Scalar.muli arg0 c256_i32
  let c87_i32 : BitVec 32 := 87#32
  let v784 : BitVec 32 := Scalar.addi v0 c87_i32
  let v785 : Index := Scalar.indexCast v784
  ![v785.toNat]
def k0_off176 (v786 : BitVec 32) : Fin 2 → Nat :=
  let c0_i32_351 : BitVec 32 := 0#32
  ![v786.toNat, 0]

def k0_chk88 (v786 : BitVec 32) : Prop :=
  (∀ a, (k0_off176 v786) a + S1x1024.size a ≤ S32768x1024.size a)
instance k0_chk88.dec : ∀ (v786 : BitVec 32), Decidable (k0_chk88 v786) := fun v786 => decidable_of_iff' _ (Iff.of_eq (k0_chk88.eq_1 v786))
theorem k0_off176_inb : ∀ (v786 : BitVec 32) (k0_hw88 : k0_chk88 v786), ∀ a, (k0_off176 v786) a + S1x1024.size a ≤ S32768x1024.size a := fun v786 k0_hw88 => k0_hw88

def k0_off177 (i : grid0.Coords) : Fin 1 → Nat :=
  let arg0 : BitVec 32 := BitVec.ofNat 32 (i 0).val
  let c256_i32 : BitVec 32 := 256#32
  let v0 : BitVec 32 := Scalar.muli arg0 c256_i32
  let c88_i32 : BitVec 32 := 88#32
  let v793 : BitVec 32 := Scalar.addi v0 c88_i32
  let v794 : Index := Scalar.indexCast v793
  ![v794.toNat]
def k0_off178 (v795 : BitVec 32) : Fin 2 → Nat :=
  let c0_i32_355 : BitVec 32 := 0#32
  ![v795.toNat, 0]

def k0_chk89 (v795 : BitVec 32) : Prop :=
  (∀ a, (k0_off178 v795) a + S1x1024.size a ≤ S32768x1024.size a)
instance k0_chk89.dec : ∀ (v795 : BitVec 32), Decidable (k0_chk89 v795) := fun v795 => decidable_of_iff' _ (Iff.of_eq (k0_chk89.eq_1 v795))
theorem k0_off178_inb : ∀ (v795 : BitVec 32) (k0_hw89 : k0_chk89 v795), ∀ a, (k0_off178 v795) a + S1x1024.size a ≤ S32768x1024.size a := fun v795 k0_hw89 => k0_hw89

def k0_off179 (i : grid0.Coords) : Fin 1 → Nat :=
  let arg0 : BitVec 32 := BitVec.ofNat 32 (i 0).val
  let c256_i32 : BitVec 32 := 256#32
  let v0 : BitVec 32 := Scalar.muli arg0 c256_i32
  let c89_i32 : BitVec 32 := 89#32
  let v802 : BitVec 32 := Scalar.addi v0 c89_i32
  let v803 : Index := Scalar.indexCast v802
  ![v803.toNat]
def k0_off180 (v804 : BitVec 32) : Fin 2 → Nat :=
  let c0_i32_359 : BitVec 32 := 0#32
  ![v804.toNat, 0]

def k0_chk90 (v804 : BitVec 32) : Prop :=
  (∀ a, (k0_off180 v804) a + S1x1024.size a ≤ S32768x1024.size a)
instance k0_chk90.dec : ∀ (v804 : BitVec 32), Decidable (k0_chk90 v804) := fun v804 => decidable_of_iff' _ (Iff.of_eq (k0_chk90.eq_1 v804))
theorem k0_off180_inb : ∀ (v804 : BitVec 32) (k0_hw90 : k0_chk90 v804), ∀ a, (k0_off180 v804) a + S1x1024.size a ≤ S32768x1024.size a := fun v804 k0_hw90 => k0_hw90

def k0_off181 (i : grid0.Coords) : Fin 1 → Nat :=
  let arg0 : BitVec 32 := BitVec.ofNat 32 (i 0).val
  let c256_i32 : BitVec 32 := 256#32
  let v0 : BitVec 32 := Scalar.muli arg0 c256_i32
  let c90_i32 : BitVec 32 := 90#32
  let v811 : BitVec 32 := Scalar.addi v0 c90_i32
  let v812 : Index := Scalar.indexCast v811
  ![v812.toNat]
def k0_off182 (v813 : BitVec 32) : Fin 2 → Nat :=
  let c0_i32_363 : BitVec 32 := 0#32
  ![v813.toNat, 0]

def k0_chk91 (v813 : BitVec 32) : Prop :=
  (∀ a, (k0_off182 v813) a + S1x1024.size a ≤ S32768x1024.size a)
instance k0_chk91.dec : ∀ (v813 : BitVec 32), Decidable (k0_chk91 v813) := fun v813 => decidable_of_iff' _ (Iff.of_eq (k0_chk91.eq_1 v813))
theorem k0_off182_inb : ∀ (v813 : BitVec 32) (k0_hw91 : k0_chk91 v813), ∀ a, (k0_off182 v813) a + S1x1024.size a ≤ S32768x1024.size a := fun v813 k0_hw91 => k0_hw91

def k0_off183 (i : grid0.Coords) : Fin 1 → Nat :=
  let arg0 : BitVec 32 := BitVec.ofNat 32 (i 0).val
  let c256_i32 : BitVec 32 := 256#32
  let v0 : BitVec 32 := Scalar.muli arg0 c256_i32
  let c91_i32 : BitVec 32 := 91#32
  let v820 : BitVec 32 := Scalar.addi v0 c91_i32
  let v821 : Index := Scalar.indexCast v820
  ![v821.toNat]
def k0_off184 (v822 : BitVec 32) : Fin 2 → Nat :=
  let c0_i32_367 : BitVec 32 := 0#32
  ![v822.toNat, 0]

def k0_chk92 (v822 : BitVec 32) : Prop :=
  (∀ a, (k0_off184 v822) a + S1x1024.size a ≤ S32768x1024.size a)
instance k0_chk92.dec : ∀ (v822 : BitVec 32), Decidable (k0_chk92 v822) := fun v822 => decidable_of_iff' _ (Iff.of_eq (k0_chk92.eq_1 v822))
theorem k0_off184_inb : ∀ (v822 : BitVec 32) (k0_hw92 : k0_chk92 v822), ∀ a, (k0_off184 v822) a + S1x1024.size a ≤ S32768x1024.size a := fun v822 k0_hw92 => k0_hw92

def k0_off185 (i : grid0.Coords) : Fin 1 → Nat :=
  let arg0 : BitVec 32 := BitVec.ofNat 32 (i 0).val
  let c256_i32 : BitVec 32 := 256#32
  let v0 : BitVec 32 := Scalar.muli arg0 c256_i32
  let c92_i32 : BitVec 32 := 92#32
  let v829 : BitVec 32 := Scalar.addi v0 c92_i32
  let v830 : Index := Scalar.indexCast v829
  ![v830.toNat]
def k0_off186 (v831 : BitVec 32) : Fin 2 → Nat :=
  let c0_i32_371 : BitVec 32 := 0#32
  ![v831.toNat, 0]

def k0_chk93 (v831 : BitVec 32) : Prop :=
  (∀ a, (k0_off186 v831) a + S1x1024.size a ≤ S32768x1024.size a)
instance k0_chk93.dec : ∀ (v831 : BitVec 32), Decidable (k0_chk93 v831) := fun v831 => decidable_of_iff' _ (Iff.of_eq (k0_chk93.eq_1 v831))
theorem k0_off186_inb : ∀ (v831 : BitVec 32) (k0_hw93 : k0_chk93 v831), ∀ a, (k0_off186 v831) a + S1x1024.size a ≤ S32768x1024.size a := fun v831 k0_hw93 => k0_hw93

def k0_off187 (i : grid0.Coords) : Fin 1 → Nat :=
  let arg0 : BitVec 32 := BitVec.ofNat 32 (i 0).val
  let c256_i32 : BitVec 32 := 256#32
  let v0 : BitVec 32 := Scalar.muli arg0 c256_i32
  let c93_i32 : BitVec 32 := 93#32
  let v838 : BitVec 32 := Scalar.addi v0 c93_i32
  let v839 : Index := Scalar.indexCast v838
  ![v839.toNat]
def k0_off188 (v840 : BitVec 32) : Fin 2 → Nat :=
  let c0_i32_375 : BitVec 32 := 0#32
  ![v840.toNat, 0]

def k0_chk94 (v840 : BitVec 32) : Prop :=
  (∀ a, (k0_off188 v840) a + S1x1024.size a ≤ S32768x1024.size a)
instance k0_chk94.dec : ∀ (v840 : BitVec 32), Decidable (k0_chk94 v840) := fun v840 => decidable_of_iff' _ (Iff.of_eq (k0_chk94.eq_1 v840))
theorem k0_off188_inb : ∀ (v840 : BitVec 32) (k0_hw94 : k0_chk94 v840), ∀ a, (k0_off188 v840) a + S1x1024.size a ≤ S32768x1024.size a := fun v840 k0_hw94 => k0_hw94

def k0_off189 (i : grid0.Coords) : Fin 1 → Nat :=
  let arg0 : BitVec 32 := BitVec.ofNat 32 (i 0).val
  let c256_i32 : BitVec 32 := 256#32
  let v0 : BitVec 32 := Scalar.muli arg0 c256_i32
  let c94_i32 : BitVec 32 := 94#32
  let v847 : BitVec 32 := Scalar.addi v0 c94_i32
  let v848 : Index := Scalar.indexCast v847
  ![v848.toNat]
def k0_off190 (v849 : BitVec 32) : Fin 2 → Nat :=
  let c0_i32_379 : BitVec 32 := 0#32
  ![v849.toNat, 0]

def k0_chk95 (v849 : BitVec 32) : Prop :=
  (∀ a, (k0_off190 v849) a + S1x1024.size a ≤ S32768x1024.size a)
instance k0_chk95.dec : ∀ (v849 : BitVec 32), Decidable (k0_chk95 v849) := fun v849 => decidable_of_iff' _ (Iff.of_eq (k0_chk95.eq_1 v849))
theorem k0_off190_inb : ∀ (v849 : BitVec 32) (k0_hw95 : k0_chk95 v849), ∀ a, (k0_off190 v849) a + S1x1024.size a ≤ S32768x1024.size a := fun v849 k0_hw95 => k0_hw95

def k0_off191 (i : grid0.Coords) : Fin 1 → Nat :=
  let arg0 : BitVec 32 := BitVec.ofNat 32 (i 0).val
  let c256_i32 : BitVec 32 := 256#32
  let v0 : BitVec 32 := Scalar.muli arg0 c256_i32
  let c95_i32 : BitVec 32 := 95#32
  let v856 : BitVec 32 := Scalar.addi v0 c95_i32
  let v857 : Index := Scalar.indexCast v856
  ![v857.toNat]
def k0_off192 (v858 : BitVec 32) : Fin 2 → Nat :=
  let c0_i32_383 : BitVec 32 := 0#32
  ![v858.toNat, 0]

def k0_chk96 (v858 : BitVec 32) : Prop :=
  (∀ a, (k0_off192 v858) a + S1x1024.size a ≤ S32768x1024.size a)
instance k0_chk96.dec : ∀ (v858 : BitVec 32), Decidable (k0_chk96 v858) := fun v858 => decidable_of_iff' _ (Iff.of_eq (k0_chk96.eq_1 v858))
theorem k0_off192_inb : ∀ (v858 : BitVec 32) (k0_hw96 : k0_chk96 v858), ∀ a, (k0_off192 v858) a + S1x1024.size a ≤ S32768x1024.size a := fun v858 k0_hw96 => k0_hw96

def k0_off193 (i : grid0.Coords) : Fin 1 → Nat :=
  let arg0 : BitVec 32 := BitVec.ofNat 32 (i 0).val
  let c256_i32 : BitVec 32 := 256#32
  let v0 : BitVec 32 := Scalar.muli arg0 c256_i32
  let c96_i32 : BitVec 32 := 96#32
  let v865 : BitVec 32 := Scalar.addi v0 c96_i32
  let v866 : Index := Scalar.indexCast v865
  ![v866.toNat]
def k0_off194 (v867 : BitVec 32) : Fin 2 → Nat :=
  let c0_i32_387 : BitVec 32 := 0#32
  ![v867.toNat, 0]

def k0_chk97 (v867 : BitVec 32) : Prop :=
  (∀ a, (k0_off194 v867) a + S1x1024.size a ≤ S32768x1024.size a)
instance k0_chk97.dec : ∀ (v867 : BitVec 32), Decidable (k0_chk97 v867) := fun v867 => decidable_of_iff' _ (Iff.of_eq (k0_chk97.eq_1 v867))
theorem k0_off194_inb : ∀ (v867 : BitVec 32) (k0_hw97 : k0_chk97 v867), ∀ a, (k0_off194 v867) a + S1x1024.size a ≤ S32768x1024.size a := fun v867 k0_hw97 => k0_hw97

def k0_off195 (i : grid0.Coords) : Fin 1 → Nat :=
  let arg0 : BitVec 32 := BitVec.ofNat 32 (i 0).val
  let c256_i32 : BitVec 32 := 256#32
  let v0 : BitVec 32 := Scalar.muli arg0 c256_i32
  let c97_i32 : BitVec 32 := 97#32
  let v874 : BitVec 32 := Scalar.addi v0 c97_i32
  let v875 : Index := Scalar.indexCast v874
  ![v875.toNat]
def k0_off196 (v876 : BitVec 32) : Fin 2 → Nat :=
  let c0_i32_391 : BitVec 32 := 0#32
  ![v876.toNat, 0]

def k0_chk98 (v876 : BitVec 32) : Prop :=
  (∀ a, (k0_off196 v876) a + S1x1024.size a ≤ S32768x1024.size a)
instance k0_chk98.dec : ∀ (v876 : BitVec 32), Decidable (k0_chk98 v876) := fun v876 => decidable_of_iff' _ (Iff.of_eq (k0_chk98.eq_1 v876))
theorem k0_off196_inb : ∀ (v876 : BitVec 32) (k0_hw98 : k0_chk98 v876), ∀ a, (k0_off196 v876) a + S1x1024.size a ≤ S32768x1024.size a := fun v876 k0_hw98 => k0_hw98

def k0_off197 (i : grid0.Coords) : Fin 1 → Nat :=
  let arg0 : BitVec 32 := BitVec.ofNat 32 (i 0).val
  let c256_i32 : BitVec 32 := 256#32
  let v0 : BitVec 32 := Scalar.muli arg0 c256_i32
  let c98_i32 : BitVec 32 := 98#32
  let v883 : BitVec 32 := Scalar.addi v0 c98_i32
  let v884 : Index := Scalar.indexCast v883
  ![v884.toNat]
def k0_off198 (v885 : BitVec 32) : Fin 2 → Nat :=
  let c0_i32_395 : BitVec 32 := 0#32
  ![v885.toNat, 0]

def k0_chk99 (v885 : BitVec 32) : Prop :=
  (∀ a, (k0_off198 v885) a + S1x1024.size a ≤ S32768x1024.size a)
instance k0_chk99.dec : ∀ (v885 : BitVec 32), Decidable (k0_chk99 v885) := fun v885 => decidable_of_iff' _ (Iff.of_eq (k0_chk99.eq_1 v885))
theorem k0_off198_inb : ∀ (v885 : BitVec 32) (k0_hw99 : k0_chk99 v885), ∀ a, (k0_off198 v885) a + S1x1024.size a ≤ S32768x1024.size a := fun v885 k0_hw99 => k0_hw99

def k0_off199 (i : grid0.Coords) : Fin 1 → Nat :=
  let arg0 : BitVec 32 := BitVec.ofNat 32 (i 0).val
  let c256_i32 : BitVec 32 := 256#32
  let v0 : BitVec 32 := Scalar.muli arg0 c256_i32
  let c99_i32 : BitVec 32 := 99#32
  let v892 : BitVec 32 := Scalar.addi v0 c99_i32
  let v893 : Index := Scalar.indexCast v892
  ![v893.toNat]
def k0_off200 (v894 : BitVec 32) : Fin 2 → Nat :=
  let c0_i32_399 : BitVec 32 := 0#32
  ![v894.toNat, 0]

def k0_chk100 (v894 : BitVec 32) : Prop :=
  (∀ a, (k0_off200 v894) a + S1x1024.size a ≤ S32768x1024.size a)
instance k0_chk100.dec : ∀ (v894 : BitVec 32), Decidable (k0_chk100 v894) := fun v894 => decidable_of_iff' _ (Iff.of_eq (k0_chk100.eq_1 v894))
theorem k0_off200_inb : ∀ (v894 : BitVec 32) (k0_hw100 : k0_chk100 v894), ∀ a, (k0_off200 v894) a + S1x1024.size a ≤ S32768x1024.size a := fun v894 k0_hw100 => k0_hw100

def k0_off201 (i : grid0.Coords) : Fin 1 → Nat :=
  let arg0 : BitVec 32 := BitVec.ofNat 32 (i 0).val
  let c256_i32 : BitVec 32 := 256#32
  let v0 : BitVec 32 := Scalar.muli arg0 c256_i32
  let c100_i32 : BitVec 32 := 100#32
  let v901 : BitVec 32 := Scalar.addi v0 c100_i32
  let v902 : Index := Scalar.indexCast v901
  ![v902.toNat]
def k0_off202 (v903 : BitVec 32) : Fin 2 → Nat :=
  let c0_i32_403 : BitVec 32 := 0#32
  ![v903.toNat, 0]

def k0_chk101 (v903 : BitVec 32) : Prop :=
  (∀ a, (k0_off202 v903) a + S1x1024.size a ≤ S32768x1024.size a)
instance k0_chk101.dec : ∀ (v903 : BitVec 32), Decidable (k0_chk101 v903) := fun v903 => decidable_of_iff' _ (Iff.of_eq (k0_chk101.eq_1 v903))
theorem k0_off202_inb : ∀ (v903 : BitVec 32) (k0_hw101 : k0_chk101 v903), ∀ a, (k0_off202 v903) a + S1x1024.size a ≤ S32768x1024.size a := fun v903 k0_hw101 => k0_hw101

def k0_off203 (i : grid0.Coords) : Fin 1 → Nat :=
  let arg0 : BitVec 32 := BitVec.ofNat 32 (i 0).val
  let c256_i32 : BitVec 32 := 256#32
  let v0 : BitVec 32 := Scalar.muli arg0 c256_i32
  let c101_i32 : BitVec 32 := 101#32
  let v910 : BitVec 32 := Scalar.addi v0 c101_i32
  let v911 : Index := Scalar.indexCast v910
  ![v911.toNat]
def k0_off204 (v912 : BitVec 32) : Fin 2 → Nat :=
  let c0_i32_407 : BitVec 32 := 0#32
  ![v912.toNat, 0]

def k0_chk102 (v912 : BitVec 32) : Prop :=
  (∀ a, (k0_off204 v912) a + S1x1024.size a ≤ S32768x1024.size a)
instance k0_chk102.dec : ∀ (v912 : BitVec 32), Decidable (k0_chk102 v912) := fun v912 => decidable_of_iff' _ (Iff.of_eq (k0_chk102.eq_1 v912))
theorem k0_off204_inb : ∀ (v912 : BitVec 32) (k0_hw102 : k0_chk102 v912), ∀ a, (k0_off204 v912) a + S1x1024.size a ≤ S32768x1024.size a := fun v912 k0_hw102 => k0_hw102

def k0_off205 (i : grid0.Coords) : Fin 1 → Nat :=
  let arg0 : BitVec 32 := BitVec.ofNat 32 (i 0).val
  let c256_i32 : BitVec 32 := 256#32
  let v0 : BitVec 32 := Scalar.muli arg0 c256_i32
  let c102_i32 : BitVec 32 := 102#32
  let v919 : BitVec 32 := Scalar.addi v0 c102_i32
  let v920 : Index := Scalar.indexCast v919
  ![v920.toNat]
def k0_off206 (v921 : BitVec 32) : Fin 2 → Nat :=
  let c0_i32_411 : BitVec 32 := 0#32
  ![v921.toNat, 0]

def k0_chk103 (v921 : BitVec 32) : Prop :=
  (∀ a, (k0_off206 v921) a + S1x1024.size a ≤ S32768x1024.size a)
instance k0_chk103.dec : ∀ (v921 : BitVec 32), Decidable (k0_chk103 v921) := fun v921 => decidable_of_iff' _ (Iff.of_eq (k0_chk103.eq_1 v921))
theorem k0_off206_inb : ∀ (v921 : BitVec 32) (k0_hw103 : k0_chk103 v921), ∀ a, (k0_off206 v921) a + S1x1024.size a ≤ S32768x1024.size a := fun v921 k0_hw103 => k0_hw103

def k0_off207 (i : grid0.Coords) : Fin 1 → Nat :=
  let arg0 : BitVec 32 := BitVec.ofNat 32 (i 0).val
  let c256_i32 : BitVec 32 := 256#32
  let v0 : BitVec 32 := Scalar.muli arg0 c256_i32
  let c103_i32 : BitVec 32 := 103#32
  let v928 : BitVec 32 := Scalar.addi v0 c103_i32
  let v929 : Index := Scalar.indexCast v928
  ![v929.toNat]
def k0_off208 (v930 : BitVec 32) : Fin 2 → Nat :=
  let c0_i32_415 : BitVec 32 := 0#32
  ![v930.toNat, 0]

def k0_chk104 (v930 : BitVec 32) : Prop :=
  (∀ a, (k0_off208 v930) a + S1x1024.size a ≤ S32768x1024.size a)
instance k0_chk104.dec : ∀ (v930 : BitVec 32), Decidable (k0_chk104 v930) := fun v930 => decidable_of_iff' _ (Iff.of_eq (k0_chk104.eq_1 v930))
theorem k0_off208_inb : ∀ (v930 : BitVec 32) (k0_hw104 : k0_chk104 v930), ∀ a, (k0_off208 v930) a + S1x1024.size a ≤ S32768x1024.size a := fun v930 k0_hw104 => k0_hw104

def k0_off209 (i : grid0.Coords) : Fin 1 → Nat :=
  let arg0 : BitVec 32 := BitVec.ofNat 32 (i 0).val
  let c256_i32 : BitVec 32 := 256#32
  let v0 : BitVec 32 := Scalar.muli arg0 c256_i32
  let c104_i32 : BitVec 32 := 104#32
  let v937 : BitVec 32 := Scalar.addi v0 c104_i32
  let v938 : Index := Scalar.indexCast v937
  ![v938.toNat]
def k0_off210 (v939 : BitVec 32) : Fin 2 → Nat :=
  let c0_i32_419 : BitVec 32 := 0#32
  ![v939.toNat, 0]

def k0_chk105 (v939 : BitVec 32) : Prop :=
  (∀ a, (k0_off210 v939) a + S1x1024.size a ≤ S32768x1024.size a)
instance k0_chk105.dec : ∀ (v939 : BitVec 32), Decidable (k0_chk105 v939) := fun v939 => decidable_of_iff' _ (Iff.of_eq (k0_chk105.eq_1 v939))
theorem k0_off210_inb : ∀ (v939 : BitVec 32) (k0_hw105 : k0_chk105 v939), ∀ a, (k0_off210 v939) a + S1x1024.size a ≤ S32768x1024.size a := fun v939 k0_hw105 => k0_hw105

def k0_off211 (i : grid0.Coords) : Fin 1 → Nat :=
  let arg0 : BitVec 32 := BitVec.ofNat 32 (i 0).val
  let c256_i32 : BitVec 32 := 256#32
  let v0 : BitVec 32 := Scalar.muli arg0 c256_i32
  let c105_i32 : BitVec 32 := 105#32
  let v946 : BitVec 32 := Scalar.addi v0 c105_i32
  let v947 : Index := Scalar.indexCast v946
  ![v947.toNat]
def k0_off212 (v948 : BitVec 32) : Fin 2 → Nat :=
  let c0_i32_423 : BitVec 32 := 0#32
  ![v948.toNat, 0]

def k0_chk106 (v948 : BitVec 32) : Prop :=
  (∀ a, (k0_off212 v948) a + S1x1024.size a ≤ S32768x1024.size a)
instance k0_chk106.dec : ∀ (v948 : BitVec 32), Decidable (k0_chk106 v948) := fun v948 => decidable_of_iff' _ (Iff.of_eq (k0_chk106.eq_1 v948))
theorem k0_off212_inb : ∀ (v948 : BitVec 32) (k0_hw106 : k0_chk106 v948), ∀ a, (k0_off212 v948) a + S1x1024.size a ≤ S32768x1024.size a := fun v948 k0_hw106 => k0_hw106

def k0_off213 (i : grid0.Coords) : Fin 1 → Nat :=
  let arg0 : BitVec 32 := BitVec.ofNat 32 (i 0).val
  let c256_i32 : BitVec 32 := 256#32
  let v0 : BitVec 32 := Scalar.muli arg0 c256_i32
  let c106_i32 : BitVec 32 := 106#32
  let v955 : BitVec 32 := Scalar.addi v0 c106_i32
  let v956 : Index := Scalar.indexCast v955
  ![v956.toNat]
def k0_off214 (v957 : BitVec 32) : Fin 2 → Nat :=
  let c0_i32_427 : BitVec 32 := 0#32
  ![v957.toNat, 0]

def k0_chk107 (v957 : BitVec 32) : Prop :=
  (∀ a, (k0_off214 v957) a + S1x1024.size a ≤ S32768x1024.size a)
instance k0_chk107.dec : ∀ (v957 : BitVec 32), Decidable (k0_chk107 v957) := fun v957 => decidable_of_iff' _ (Iff.of_eq (k0_chk107.eq_1 v957))
theorem k0_off214_inb : ∀ (v957 : BitVec 32) (k0_hw107 : k0_chk107 v957), ∀ a, (k0_off214 v957) a + S1x1024.size a ≤ S32768x1024.size a := fun v957 k0_hw107 => k0_hw107

def k0_off215 (i : grid0.Coords) : Fin 1 → Nat :=
  let arg0 : BitVec 32 := BitVec.ofNat 32 (i 0).val
  let c256_i32 : BitVec 32 := 256#32
  let v0 : BitVec 32 := Scalar.muli arg0 c256_i32
  let c107_i32 : BitVec 32 := 107#32
  let v964 : BitVec 32 := Scalar.addi v0 c107_i32
  let v965 : Index := Scalar.indexCast v964
  ![v965.toNat]
def k0_off216 (v966 : BitVec 32) : Fin 2 → Nat :=
  let c0_i32_431 : BitVec 32 := 0#32
  ![v966.toNat, 0]

def k0_chk108 (v966 : BitVec 32) : Prop :=
  (∀ a, (k0_off216 v966) a + S1x1024.size a ≤ S32768x1024.size a)
instance k0_chk108.dec : ∀ (v966 : BitVec 32), Decidable (k0_chk108 v966) := fun v966 => decidable_of_iff' _ (Iff.of_eq (k0_chk108.eq_1 v966))
theorem k0_off216_inb : ∀ (v966 : BitVec 32) (k0_hw108 : k0_chk108 v966), ∀ a, (k0_off216 v966) a + S1x1024.size a ≤ S32768x1024.size a := fun v966 k0_hw108 => k0_hw108

def k0_off217 (i : grid0.Coords) : Fin 1 → Nat :=
  let arg0 : BitVec 32 := BitVec.ofNat 32 (i 0).val
  let c256_i32 : BitVec 32 := 256#32
  let v0 : BitVec 32 := Scalar.muli arg0 c256_i32
  let c108_i32 : BitVec 32 := 108#32
  let v973 : BitVec 32 := Scalar.addi v0 c108_i32
  let v974 : Index := Scalar.indexCast v973
  ![v974.toNat]
def k0_off218 (v975 : BitVec 32) : Fin 2 → Nat :=
  let c0_i32_435 : BitVec 32 := 0#32
  ![v975.toNat, 0]

def k0_chk109 (v975 : BitVec 32) : Prop :=
  (∀ a, (k0_off218 v975) a + S1x1024.size a ≤ S32768x1024.size a)
instance k0_chk109.dec : ∀ (v975 : BitVec 32), Decidable (k0_chk109 v975) := fun v975 => decidable_of_iff' _ (Iff.of_eq (k0_chk109.eq_1 v975))
theorem k0_off218_inb : ∀ (v975 : BitVec 32) (k0_hw109 : k0_chk109 v975), ∀ a, (k0_off218 v975) a + S1x1024.size a ≤ S32768x1024.size a := fun v975 k0_hw109 => k0_hw109

def k0_off219 (i : grid0.Coords) : Fin 1 → Nat :=
  let arg0 : BitVec 32 := BitVec.ofNat 32 (i 0).val
  let c256_i32 : BitVec 32 := 256#32
  let v0 : BitVec 32 := Scalar.muli arg0 c256_i32
  let c109_i32 : BitVec 32 := 109#32
  let v982 : BitVec 32 := Scalar.addi v0 c109_i32
  let v983 : Index := Scalar.indexCast v982
  ![v983.toNat]
def k0_off220 (v984 : BitVec 32) : Fin 2 → Nat :=
  let c0_i32_439 : BitVec 32 := 0#32
  ![v984.toNat, 0]

def k0_chk110 (v984 : BitVec 32) : Prop :=
  (∀ a, (k0_off220 v984) a + S1x1024.size a ≤ S32768x1024.size a)
instance k0_chk110.dec : ∀ (v984 : BitVec 32), Decidable (k0_chk110 v984) := fun v984 => decidable_of_iff' _ (Iff.of_eq (k0_chk110.eq_1 v984))
theorem k0_off220_inb : ∀ (v984 : BitVec 32) (k0_hw110 : k0_chk110 v984), ∀ a, (k0_off220 v984) a + S1x1024.size a ≤ S32768x1024.size a := fun v984 k0_hw110 => k0_hw110

def k0_off221 (i : grid0.Coords) : Fin 1 → Nat :=
  let arg0 : BitVec 32 := BitVec.ofNat 32 (i 0).val
  let c256_i32 : BitVec 32 := 256#32
  let v0 : BitVec 32 := Scalar.muli arg0 c256_i32
  let c110_i32 : BitVec 32 := 110#32
  let v991 : BitVec 32 := Scalar.addi v0 c110_i32
  let v992 : Index := Scalar.indexCast v991
  ![v992.toNat]
def k0_off222 (v993 : BitVec 32) : Fin 2 → Nat :=
  let c0_i32_443 : BitVec 32 := 0#32
  ![v993.toNat, 0]

def k0_chk111 (v993 : BitVec 32) : Prop :=
  (∀ a, (k0_off222 v993) a + S1x1024.size a ≤ S32768x1024.size a)
instance k0_chk111.dec : ∀ (v993 : BitVec 32), Decidable (k0_chk111 v993) := fun v993 => decidable_of_iff' _ (Iff.of_eq (k0_chk111.eq_1 v993))
theorem k0_off222_inb : ∀ (v993 : BitVec 32) (k0_hw111 : k0_chk111 v993), ∀ a, (k0_off222 v993) a + S1x1024.size a ≤ S32768x1024.size a := fun v993 k0_hw111 => k0_hw111

def k0_off223 (i : grid0.Coords) : Fin 1 → Nat :=
  let arg0 : BitVec 32 := BitVec.ofNat 32 (i 0).val
  let c256_i32 : BitVec 32 := 256#32
  let v0 : BitVec 32 := Scalar.muli arg0 c256_i32
  let c111_i32 : BitVec 32 := 111#32
  let v1000 : BitVec 32 := Scalar.addi v0 c111_i32
  let v1001 : Index := Scalar.indexCast v1000
  ![v1001.toNat]
def k0_off224 (v1002 : BitVec 32) : Fin 2 → Nat :=
  let c0_i32_447 : BitVec 32 := 0#32
  ![v1002.toNat, 0]

def k0_chk112 (v1002 : BitVec 32) : Prop :=
  (∀ a, (k0_off224 v1002) a + S1x1024.size a ≤ S32768x1024.size a)
instance k0_chk112.dec : ∀ (v1002 : BitVec 32), Decidable (k0_chk112 v1002) := fun v1002 => decidable_of_iff' _ (Iff.of_eq (k0_chk112.eq_1 v1002))
theorem k0_off224_inb : ∀ (v1002 : BitVec 32) (k0_hw112 : k0_chk112 v1002), ∀ a, (k0_off224 v1002) a + S1x1024.size a ≤ S32768x1024.size a := fun v1002 k0_hw112 => k0_hw112

def k0_off225 (i : grid0.Coords) : Fin 1 → Nat :=
  let arg0 : BitVec 32 := BitVec.ofNat 32 (i 0).val
  let c256_i32 : BitVec 32 := 256#32
  let v0 : BitVec 32 := Scalar.muli arg0 c256_i32
  let c112_i32 : BitVec 32 := 112#32
  let v1009 : BitVec 32 := Scalar.addi v0 c112_i32
  let v1010 : Index := Scalar.indexCast v1009
  ![v1010.toNat]
def k0_off226 (v1011 : BitVec 32) : Fin 2 → Nat :=
  let c0_i32_451 : BitVec 32 := 0#32
  ![v1011.toNat, 0]

def k0_chk113 (v1011 : BitVec 32) : Prop :=
  (∀ a, (k0_off226 v1011) a + S1x1024.size a ≤ S32768x1024.size a)
instance k0_chk113.dec : ∀ (v1011 : BitVec 32), Decidable (k0_chk113 v1011) := fun v1011 => decidable_of_iff' _ (Iff.of_eq (k0_chk113.eq_1 v1011))
theorem k0_off226_inb : ∀ (v1011 : BitVec 32) (k0_hw113 : k0_chk113 v1011), ∀ a, (k0_off226 v1011) a + S1x1024.size a ≤ S32768x1024.size a := fun v1011 k0_hw113 => k0_hw113

def k0_off227 (i : grid0.Coords) : Fin 1 → Nat :=
  let arg0 : BitVec 32 := BitVec.ofNat 32 (i 0).val
  let c256_i32 : BitVec 32 := 256#32
  let v0 : BitVec 32 := Scalar.muli arg0 c256_i32
  let c113_i32 : BitVec 32 := 113#32
  let v1018 : BitVec 32 := Scalar.addi v0 c113_i32
  let v1019 : Index := Scalar.indexCast v1018
  ![v1019.toNat]
def k0_off228 (v1020 : BitVec 32) : Fin 2 → Nat :=
  let c0_i32_455 : BitVec 32 := 0#32
  ![v1020.toNat, 0]

def k0_chk114 (v1020 : BitVec 32) : Prop :=
  (∀ a, (k0_off228 v1020) a + S1x1024.size a ≤ S32768x1024.size a)
instance k0_chk114.dec : ∀ (v1020 : BitVec 32), Decidable (k0_chk114 v1020) := fun v1020 => decidable_of_iff' _ (Iff.of_eq (k0_chk114.eq_1 v1020))
theorem k0_off228_inb : ∀ (v1020 : BitVec 32) (k0_hw114 : k0_chk114 v1020), ∀ a, (k0_off228 v1020) a + S1x1024.size a ≤ S32768x1024.size a := fun v1020 k0_hw114 => k0_hw114

def k0_off229 (i : grid0.Coords) : Fin 1 → Nat :=
  let arg0 : BitVec 32 := BitVec.ofNat 32 (i 0).val
  let c256_i32 : BitVec 32 := 256#32
  let v0 : BitVec 32 := Scalar.muli arg0 c256_i32
  let c114_i32 : BitVec 32 := 114#32
  let v1027 : BitVec 32 := Scalar.addi v0 c114_i32
  let v1028 : Index := Scalar.indexCast v1027
  ![v1028.toNat]
def k0_off230 (v1029 : BitVec 32) : Fin 2 → Nat :=
  let c0_i32_459 : BitVec 32 := 0#32
  ![v1029.toNat, 0]

def k0_chk115 (v1029 : BitVec 32) : Prop :=
  (∀ a, (k0_off230 v1029) a + S1x1024.size a ≤ S32768x1024.size a)
instance k0_chk115.dec : ∀ (v1029 : BitVec 32), Decidable (k0_chk115 v1029) := fun v1029 => decidable_of_iff' _ (Iff.of_eq (k0_chk115.eq_1 v1029))
theorem k0_off230_inb : ∀ (v1029 : BitVec 32) (k0_hw115 : k0_chk115 v1029), ∀ a, (k0_off230 v1029) a + S1x1024.size a ≤ S32768x1024.size a := fun v1029 k0_hw115 => k0_hw115

def k0_off231 (i : grid0.Coords) : Fin 1 → Nat :=
  let arg0 : BitVec 32 := BitVec.ofNat 32 (i 0).val
  let c256_i32 : BitVec 32 := 256#32
  let v0 : BitVec 32 := Scalar.muli arg0 c256_i32
  let c115_i32 : BitVec 32 := 115#32
  let v1036 : BitVec 32 := Scalar.addi v0 c115_i32
  let v1037 : Index := Scalar.indexCast v1036
  ![v1037.toNat]
def k0_off232 (v1038 : BitVec 32) : Fin 2 → Nat :=
  let c0_i32_463 : BitVec 32 := 0#32
  ![v1038.toNat, 0]

def k0_chk116 (v1038 : BitVec 32) : Prop :=
  (∀ a, (k0_off232 v1038) a + S1x1024.size a ≤ S32768x1024.size a)
instance k0_chk116.dec : ∀ (v1038 : BitVec 32), Decidable (k0_chk116 v1038) := fun v1038 => decidable_of_iff' _ (Iff.of_eq (k0_chk116.eq_1 v1038))
theorem k0_off232_inb : ∀ (v1038 : BitVec 32) (k0_hw116 : k0_chk116 v1038), ∀ a, (k0_off232 v1038) a + S1x1024.size a ≤ S32768x1024.size a := fun v1038 k0_hw116 => k0_hw116

def k0_off233 (i : grid0.Coords) : Fin 1 → Nat :=
  let arg0 : BitVec 32 := BitVec.ofNat 32 (i 0).val
  let c256_i32 : BitVec 32 := 256#32
  let v0 : BitVec 32 := Scalar.muli arg0 c256_i32
  let c116_i32 : BitVec 32 := 116#32
  let v1045 : BitVec 32 := Scalar.addi v0 c116_i32
  let v1046 : Index := Scalar.indexCast v1045
  ![v1046.toNat]
def k0_off234 (v1047 : BitVec 32) : Fin 2 → Nat :=
  let c0_i32_467 : BitVec 32 := 0#32
  ![v1047.toNat, 0]

def k0_chk117 (v1047 : BitVec 32) : Prop :=
  (∀ a, (k0_off234 v1047) a + S1x1024.size a ≤ S32768x1024.size a)
instance k0_chk117.dec : ∀ (v1047 : BitVec 32), Decidable (k0_chk117 v1047) := fun v1047 => decidable_of_iff' _ (Iff.of_eq (k0_chk117.eq_1 v1047))
theorem k0_off234_inb : ∀ (v1047 : BitVec 32) (k0_hw117 : k0_chk117 v1047), ∀ a, (k0_off234 v1047) a + S1x1024.size a ≤ S32768x1024.size a := fun v1047 k0_hw117 => k0_hw117

def k0_off235 (i : grid0.Coords) : Fin 1 → Nat :=
  let arg0 : BitVec 32 := BitVec.ofNat 32 (i 0).val
  let c256_i32 : BitVec 32 := 256#32
  let v0 : BitVec 32 := Scalar.muli arg0 c256_i32
  let c117_i32 : BitVec 32 := 117#32
  let v1054 : BitVec 32 := Scalar.addi v0 c117_i32
  let v1055 : Index := Scalar.indexCast v1054
  ![v1055.toNat]
def k0_off236 (v1056 : BitVec 32) : Fin 2 → Nat :=
  let c0_i32_471 : BitVec 32 := 0#32
  ![v1056.toNat, 0]

def k0_chk118 (v1056 : BitVec 32) : Prop :=
  (∀ a, (k0_off236 v1056) a + S1x1024.size a ≤ S32768x1024.size a)
instance k0_chk118.dec : ∀ (v1056 : BitVec 32), Decidable (k0_chk118 v1056) := fun v1056 => decidable_of_iff' _ (Iff.of_eq (k0_chk118.eq_1 v1056))
theorem k0_off236_inb : ∀ (v1056 : BitVec 32) (k0_hw118 : k0_chk118 v1056), ∀ a, (k0_off236 v1056) a + S1x1024.size a ≤ S32768x1024.size a := fun v1056 k0_hw118 => k0_hw118

def k0_off237 (i : grid0.Coords) : Fin 1 → Nat :=
  let arg0 : BitVec 32 := BitVec.ofNat 32 (i 0).val
  let c256_i32 : BitVec 32 := 256#32
  let v0 : BitVec 32 := Scalar.muli arg0 c256_i32
  let c118_i32 : BitVec 32 := 118#32
  let v1063 : BitVec 32 := Scalar.addi v0 c118_i32
  let v1064 : Index := Scalar.indexCast v1063
  ![v1064.toNat]
def k0_off238 (v1065 : BitVec 32) : Fin 2 → Nat :=
  let c0_i32_475 : BitVec 32 := 0#32
  ![v1065.toNat, 0]

def k0_chk119 (v1065 : BitVec 32) : Prop :=
  (∀ a, (k0_off238 v1065) a + S1x1024.size a ≤ S32768x1024.size a)
instance k0_chk119.dec : ∀ (v1065 : BitVec 32), Decidable (k0_chk119 v1065) := fun v1065 => decidable_of_iff' _ (Iff.of_eq (k0_chk119.eq_1 v1065))
theorem k0_off238_inb : ∀ (v1065 : BitVec 32) (k0_hw119 : k0_chk119 v1065), ∀ a, (k0_off238 v1065) a + S1x1024.size a ≤ S32768x1024.size a := fun v1065 k0_hw119 => k0_hw119

def k0_off239 (i : grid0.Coords) : Fin 1 → Nat :=
  let arg0 : BitVec 32 := BitVec.ofNat 32 (i 0).val
  let c256_i32 : BitVec 32 := 256#32
  let v0 : BitVec 32 := Scalar.muli arg0 c256_i32
  let c119_i32 : BitVec 32 := 119#32
  let v1072 : BitVec 32 := Scalar.addi v0 c119_i32
  let v1073 : Index := Scalar.indexCast v1072
  ![v1073.toNat]
def k0_off240 (v1074 : BitVec 32) : Fin 2 → Nat :=
  let c0_i32_479 : BitVec 32 := 0#32
  ![v1074.toNat, 0]

def k0_chk120 (v1074 : BitVec 32) : Prop :=
  (∀ a, (k0_off240 v1074) a + S1x1024.size a ≤ S32768x1024.size a)
instance k0_chk120.dec : ∀ (v1074 : BitVec 32), Decidable (k0_chk120 v1074) := fun v1074 => decidable_of_iff' _ (Iff.of_eq (k0_chk120.eq_1 v1074))
theorem k0_off240_inb : ∀ (v1074 : BitVec 32) (k0_hw120 : k0_chk120 v1074), ∀ a, (k0_off240 v1074) a + S1x1024.size a ≤ S32768x1024.size a := fun v1074 k0_hw120 => k0_hw120

def k0_off241 (i : grid0.Coords) : Fin 1 → Nat :=
  let arg0 : BitVec 32 := BitVec.ofNat 32 (i 0).val
  let c256_i32 : BitVec 32 := 256#32
  let v0 : BitVec 32 := Scalar.muli arg0 c256_i32
  let c120_i32 : BitVec 32 := 120#32
  let v1081 : BitVec 32 := Scalar.addi v0 c120_i32
  let v1082 : Index := Scalar.indexCast v1081
  ![v1082.toNat]
def k0_off242 (v1083 : BitVec 32) : Fin 2 → Nat :=
  let c0_i32_483 : BitVec 32 := 0#32
  ![v1083.toNat, 0]

def k0_chk121 (v1083 : BitVec 32) : Prop :=
  (∀ a, (k0_off242 v1083) a + S1x1024.size a ≤ S32768x1024.size a)
instance k0_chk121.dec : ∀ (v1083 : BitVec 32), Decidable (k0_chk121 v1083) := fun v1083 => decidable_of_iff' _ (Iff.of_eq (k0_chk121.eq_1 v1083))
theorem k0_off242_inb : ∀ (v1083 : BitVec 32) (k0_hw121 : k0_chk121 v1083), ∀ a, (k0_off242 v1083) a + S1x1024.size a ≤ S32768x1024.size a := fun v1083 k0_hw121 => k0_hw121

def k0_off243 (i : grid0.Coords) : Fin 1 → Nat :=
  let arg0 : BitVec 32 := BitVec.ofNat 32 (i 0).val
  let c256_i32 : BitVec 32 := 256#32
  let v0 : BitVec 32 := Scalar.muli arg0 c256_i32
  let c121_i32 : BitVec 32 := 121#32
  let v1090 : BitVec 32 := Scalar.addi v0 c121_i32
  let v1091 : Index := Scalar.indexCast v1090
  ![v1091.toNat]
def k0_off244 (v1092 : BitVec 32) : Fin 2 → Nat :=
  let c0_i32_487 : BitVec 32 := 0#32
  ![v1092.toNat, 0]

def k0_chk122 (v1092 : BitVec 32) : Prop :=
  (∀ a, (k0_off244 v1092) a + S1x1024.size a ≤ S32768x1024.size a)
instance k0_chk122.dec : ∀ (v1092 : BitVec 32), Decidable (k0_chk122 v1092) := fun v1092 => decidable_of_iff' _ (Iff.of_eq (k0_chk122.eq_1 v1092))
theorem k0_off244_inb : ∀ (v1092 : BitVec 32) (k0_hw122 : k0_chk122 v1092), ∀ a, (k0_off244 v1092) a + S1x1024.size a ≤ S32768x1024.size a := fun v1092 k0_hw122 => k0_hw122

def k0_off245 (i : grid0.Coords) : Fin 1 → Nat :=
  let arg0 : BitVec 32 := BitVec.ofNat 32 (i 0).val
  let c256_i32 : BitVec 32 := 256#32
  let v0 : BitVec 32 := Scalar.muli arg0 c256_i32
  let c122_i32 : BitVec 32 := 122#32
  let v1099 : BitVec 32 := Scalar.addi v0 c122_i32
  let v1100 : Index := Scalar.indexCast v1099
  ![v1100.toNat]
def k0_off246 (v1101 : BitVec 32) : Fin 2 → Nat :=
  let c0_i32_491 : BitVec 32 := 0#32
  ![v1101.toNat, 0]

def k0_chk123 (v1101 : BitVec 32) : Prop :=
  (∀ a, (k0_off246 v1101) a + S1x1024.size a ≤ S32768x1024.size a)
instance k0_chk123.dec : ∀ (v1101 : BitVec 32), Decidable (k0_chk123 v1101) := fun v1101 => decidable_of_iff' _ (Iff.of_eq (k0_chk123.eq_1 v1101))
theorem k0_off246_inb : ∀ (v1101 : BitVec 32) (k0_hw123 : k0_chk123 v1101), ∀ a, (k0_off246 v1101) a + S1x1024.size a ≤ S32768x1024.size a := fun v1101 k0_hw123 => k0_hw123

def k0_off247 (i : grid0.Coords) : Fin 1 → Nat :=
  let arg0 : BitVec 32 := BitVec.ofNat 32 (i 0).val
  let c256_i32 : BitVec 32 := 256#32
  let v0 : BitVec 32 := Scalar.muli arg0 c256_i32
  let c123_i32 : BitVec 32 := 123#32
  let v1108 : BitVec 32 := Scalar.addi v0 c123_i32
  let v1109 : Index := Scalar.indexCast v1108
  ![v1109.toNat]
def k0_off248 (v1110 : BitVec 32) : Fin 2 → Nat :=
  let c0_i32_495 : BitVec 32 := 0#32
  ![v1110.toNat, 0]

def k0_chk124 (v1110 : BitVec 32) : Prop :=
  (∀ a, (k0_off248 v1110) a + S1x1024.size a ≤ S32768x1024.size a)
instance k0_chk124.dec : ∀ (v1110 : BitVec 32), Decidable (k0_chk124 v1110) := fun v1110 => decidable_of_iff' _ (Iff.of_eq (k0_chk124.eq_1 v1110))
theorem k0_off248_inb : ∀ (v1110 : BitVec 32) (k0_hw124 : k0_chk124 v1110), ∀ a, (k0_off248 v1110) a + S1x1024.size a ≤ S32768x1024.size a := fun v1110 k0_hw124 => k0_hw124

def k0_off249 (i : grid0.Coords) : Fin 1 → Nat :=
  let arg0 : BitVec 32 := BitVec.ofNat 32 (i 0).val
  let c256_i32 : BitVec 32 := 256#32
  let v0 : BitVec 32 := Scalar.muli arg0 c256_i32
  let c124_i32 : BitVec 32 := 124#32
  let v1117 : BitVec 32 := Scalar.addi v0 c124_i32
  let v1118 : Index := Scalar.indexCast v1117
  ![v1118.toNat]
def k0_off250 (v1119 : BitVec 32) : Fin 2 → Nat :=
  let c0_i32_499 : BitVec 32 := 0#32
  ![v1119.toNat, 0]

def k0_chk125 (v1119 : BitVec 32) : Prop :=
  (∀ a, (k0_off250 v1119) a + S1x1024.size a ≤ S32768x1024.size a)
instance k0_chk125.dec : ∀ (v1119 : BitVec 32), Decidable (k0_chk125 v1119) := fun v1119 => decidable_of_iff' _ (Iff.of_eq (k0_chk125.eq_1 v1119))
theorem k0_off250_inb : ∀ (v1119 : BitVec 32) (k0_hw125 : k0_chk125 v1119), ∀ a, (k0_off250 v1119) a + S1x1024.size a ≤ S32768x1024.size a := fun v1119 k0_hw125 => k0_hw125

def k0_off251 (i : grid0.Coords) : Fin 1 → Nat :=
  let arg0 : BitVec 32 := BitVec.ofNat 32 (i 0).val
  let c256_i32 : BitVec 32 := 256#32
  let v0 : BitVec 32 := Scalar.muli arg0 c256_i32
  let c125_i32 : BitVec 32 := 125#32
  let v1126 : BitVec 32 := Scalar.addi v0 c125_i32
  let v1127 : Index := Scalar.indexCast v1126
  ![v1127.toNat]
def k0_off252 (v1128 : BitVec 32) : Fin 2 → Nat :=
  let c0_i32_503 : BitVec 32 := 0#32
  ![v1128.toNat, 0]

def k0_chk126 (v1128 : BitVec 32) : Prop :=
  (∀ a, (k0_off252 v1128) a + S1x1024.size a ≤ S32768x1024.size a)
instance k0_chk126.dec : ∀ (v1128 : BitVec 32), Decidable (k0_chk126 v1128) := fun v1128 => decidable_of_iff' _ (Iff.of_eq (k0_chk126.eq_1 v1128))
theorem k0_off252_inb : ∀ (v1128 : BitVec 32) (k0_hw126 : k0_chk126 v1128), ∀ a, (k0_off252 v1128) a + S1x1024.size a ≤ S32768x1024.size a := fun v1128 k0_hw126 => k0_hw126

def k0_off253 (i : grid0.Coords) : Fin 1 → Nat :=
  let arg0 : BitVec 32 := BitVec.ofNat 32 (i 0).val
  let c256_i32 : BitVec 32 := 256#32
  let v0 : BitVec 32 := Scalar.muli arg0 c256_i32
  let c126_i32 : BitVec 32 := 126#32
  let v1135 : BitVec 32 := Scalar.addi v0 c126_i32
  let v1136 : Index := Scalar.indexCast v1135
  ![v1136.toNat]
def k0_off254 (v1137 : BitVec 32) : Fin 2 → Nat :=
  let c0_i32_507 : BitVec 32 := 0#32
  ![v1137.toNat, 0]

def k0_chk127 (v1137 : BitVec 32) : Prop :=
  (∀ a, (k0_off254 v1137) a + S1x1024.size a ≤ S32768x1024.size a)
instance k0_chk127.dec : ∀ (v1137 : BitVec 32), Decidable (k0_chk127 v1137) := fun v1137 => decidable_of_iff' _ (Iff.of_eq (k0_chk127.eq_1 v1137))
theorem k0_off254_inb : ∀ (v1137 : BitVec 32) (k0_hw127 : k0_chk127 v1137), ∀ a, (k0_off254 v1137) a + S1x1024.size a ≤ S32768x1024.size a := fun v1137 k0_hw127 => k0_hw127

def k0_off255 (i : grid0.Coords) : Fin 1 → Nat :=
  let arg0 : BitVec 32 := BitVec.ofNat 32 (i 0).val
  let c256_i32 : BitVec 32 := 256#32
  let v0 : BitVec 32 := Scalar.muli arg0 c256_i32
  let c127_i32 : BitVec 32 := 127#32
  let v1144 : BitVec 32 := Scalar.addi v0 c127_i32
  let v1145 : Index := Scalar.indexCast v1144
  ![v1145.toNat]
def k0_off256 (v1146 : BitVec 32) : Fin 2 → Nat :=
  let c0_i32_511 : BitVec 32 := 0#32
  ![v1146.toNat, 0]

def k0_chk128 (v1146 : BitVec 32) : Prop :=
  (∀ a, (k0_off256 v1146) a + S1x1024.size a ≤ S32768x1024.size a)
instance k0_chk128.dec : ∀ (v1146 : BitVec 32), Decidable (k0_chk128 v1146) := fun v1146 => decidable_of_iff' _ (Iff.of_eq (k0_chk128.eq_1 v1146))
theorem k0_off256_inb : ∀ (v1146 : BitVec 32) (k0_hw128 : k0_chk128 v1146), ∀ a, (k0_off256 v1146) a + S1x1024.size a ≤ S32768x1024.size a := fun v1146 k0_hw128 => k0_hw128

def k0_off257 (i : grid0.Coords) : Fin 1 → Nat :=
  let arg0 : BitVec 32 := BitVec.ofNat 32 (i 0).val
  let c256_i32 : BitVec 32 := 256#32
  let v0 : BitVec 32 := Scalar.muli arg0 c256_i32
  let c128_i32 : BitVec 32 := 128#32
  let v1153 : BitVec 32 := Scalar.addi v0 c128_i32
  let v1154 : Index := Scalar.indexCast v1153
  ![v1154.toNat]
def k0_off258 (v1155 : BitVec 32) : Fin 2 → Nat :=
  let c0_i32_515 : BitVec 32 := 0#32
  ![v1155.toNat, 0]

def k0_chk129 (v1155 : BitVec 32) : Prop :=
  (∀ a, (k0_off258 v1155) a + S1x1024.size a ≤ S32768x1024.size a)
instance k0_chk129.dec : ∀ (v1155 : BitVec 32), Decidable (k0_chk129 v1155) := fun v1155 => decidable_of_iff' _ (Iff.of_eq (k0_chk129.eq_1 v1155))
theorem k0_off258_inb : ∀ (v1155 : BitVec 32) (k0_hw129 : k0_chk129 v1155), ∀ a, (k0_off258 v1155) a + S1x1024.size a ≤ S32768x1024.size a := fun v1155 k0_hw129 => k0_hw129

def k0_off259 (i : grid0.Coords) : Fin 1 → Nat :=
  let arg0 : BitVec 32 := BitVec.ofNat 32 (i 0).val
  let c256_i32 : BitVec 32 := 256#32
  let v0 : BitVec 32 := Scalar.muli arg0 c256_i32
  let c129_i32 : BitVec 32 := 129#32
  let v1162 : BitVec 32 := Scalar.addi v0 c129_i32
  let v1163 : Index := Scalar.indexCast v1162
  ![v1163.toNat]
def k0_off260 (v1164 : BitVec 32) : Fin 2 → Nat :=
  let c0_i32_519 : BitVec 32 := 0#32
  ![v1164.toNat, 0]

def k0_chk130 (v1164 : BitVec 32) : Prop :=
  (∀ a, (k0_off260 v1164) a + S1x1024.size a ≤ S32768x1024.size a)
instance k0_chk130.dec : ∀ (v1164 : BitVec 32), Decidable (k0_chk130 v1164) := fun v1164 => decidable_of_iff' _ (Iff.of_eq (k0_chk130.eq_1 v1164))
theorem k0_off260_inb : ∀ (v1164 : BitVec 32) (k0_hw130 : k0_chk130 v1164), ∀ a, (k0_off260 v1164) a + S1x1024.size a ≤ S32768x1024.size a := fun v1164 k0_hw130 => k0_hw130

def k0_off261 (i : grid0.Coords) : Fin 1 → Nat :=
  let arg0 : BitVec 32 := BitVec.ofNat 32 (i 0).val
  let c256_i32 : BitVec 32 := 256#32
  let v0 : BitVec 32 := Scalar.muli arg0 c256_i32
  let c130_i32 : BitVec 32 := 130#32
  let v1171 : BitVec 32 := Scalar.addi v0 c130_i32
  let v1172 : Index := Scalar.indexCast v1171
  ![v1172.toNat]
def k0_off262 (v1173 : BitVec 32) : Fin 2 → Nat :=
  let c0_i32_523 : BitVec 32 := 0#32
  ![v1173.toNat, 0]

def k0_chk131 (v1173 : BitVec 32) : Prop :=
  (∀ a, (k0_off262 v1173) a + S1x1024.size a ≤ S32768x1024.size a)
instance k0_chk131.dec : ∀ (v1173 : BitVec 32), Decidable (k0_chk131 v1173) := fun v1173 => decidable_of_iff' _ (Iff.of_eq (k0_chk131.eq_1 v1173))
theorem k0_off262_inb : ∀ (v1173 : BitVec 32) (k0_hw131 : k0_chk131 v1173), ∀ a, (k0_off262 v1173) a + S1x1024.size a ≤ S32768x1024.size a := fun v1173 k0_hw131 => k0_hw131

def k0_off263 (i : grid0.Coords) : Fin 1 → Nat :=
  let arg0 : BitVec 32 := BitVec.ofNat 32 (i 0).val
  let c256_i32 : BitVec 32 := 256#32
  let v0 : BitVec 32 := Scalar.muli arg0 c256_i32
  let c131_i32 : BitVec 32 := 131#32
  let v1180 : BitVec 32 := Scalar.addi v0 c131_i32
  let v1181 : Index := Scalar.indexCast v1180
  ![v1181.toNat]
def k0_off264 (v1182 : BitVec 32) : Fin 2 → Nat :=
  let c0_i32_527 : BitVec 32 := 0#32
  ![v1182.toNat, 0]

def k0_chk132 (v1182 : BitVec 32) : Prop :=
  (∀ a, (k0_off264 v1182) a + S1x1024.size a ≤ S32768x1024.size a)
instance k0_chk132.dec : ∀ (v1182 : BitVec 32), Decidable (k0_chk132 v1182) := fun v1182 => decidable_of_iff' _ (Iff.of_eq (k0_chk132.eq_1 v1182))
theorem k0_off264_inb : ∀ (v1182 : BitVec 32) (k0_hw132 : k0_chk132 v1182), ∀ a, (k0_off264 v1182) a + S1x1024.size a ≤ S32768x1024.size a := fun v1182 k0_hw132 => k0_hw132

def k0_off265 (i : grid0.Coords) : Fin 1 → Nat :=
  let arg0 : BitVec 32 := BitVec.ofNat 32 (i 0).val
  let c256_i32 : BitVec 32 := 256#32
  let v0 : BitVec 32 := Scalar.muli arg0 c256_i32
  let c132_i32 : BitVec 32 := 132#32
  let v1189 : BitVec 32 := Scalar.addi v0 c132_i32
  let v1190 : Index := Scalar.indexCast v1189
  ![v1190.toNat]
def k0_off266 (v1191 : BitVec 32) : Fin 2 → Nat :=
  let c0_i32_531 : BitVec 32 := 0#32
  ![v1191.toNat, 0]

def k0_chk133 (v1191 : BitVec 32) : Prop :=
  (∀ a, (k0_off266 v1191) a + S1x1024.size a ≤ S32768x1024.size a)
instance k0_chk133.dec : ∀ (v1191 : BitVec 32), Decidable (k0_chk133 v1191) := fun v1191 => decidable_of_iff' _ (Iff.of_eq (k0_chk133.eq_1 v1191))
theorem k0_off266_inb : ∀ (v1191 : BitVec 32) (k0_hw133 : k0_chk133 v1191), ∀ a, (k0_off266 v1191) a + S1x1024.size a ≤ S32768x1024.size a := fun v1191 k0_hw133 => k0_hw133

def k0_off267 (i : grid0.Coords) : Fin 1 → Nat :=
  let arg0 : BitVec 32 := BitVec.ofNat 32 (i 0).val
  let c256_i32 : BitVec 32 := 256#32
  let v0 : BitVec 32 := Scalar.muli arg0 c256_i32
  let c133_i32 : BitVec 32 := 133#32
  let v1198 : BitVec 32 := Scalar.addi v0 c133_i32
  let v1199 : Index := Scalar.indexCast v1198
  ![v1199.toNat]
def k0_off268 (v1200 : BitVec 32) : Fin 2 → Nat :=
  let c0_i32_535 : BitVec 32 := 0#32
  ![v1200.toNat, 0]

def k0_chk134 (v1200 : BitVec 32) : Prop :=
  (∀ a, (k0_off268 v1200) a + S1x1024.size a ≤ S32768x1024.size a)
instance k0_chk134.dec : ∀ (v1200 : BitVec 32), Decidable (k0_chk134 v1200) := fun v1200 => decidable_of_iff' _ (Iff.of_eq (k0_chk134.eq_1 v1200))
theorem k0_off268_inb : ∀ (v1200 : BitVec 32) (k0_hw134 : k0_chk134 v1200), ∀ a, (k0_off268 v1200) a + S1x1024.size a ≤ S32768x1024.size a := fun v1200 k0_hw134 => k0_hw134

def k0_off269 (i : grid0.Coords) : Fin 1 → Nat :=
  let arg0 : BitVec 32 := BitVec.ofNat 32 (i 0).val
  let c256_i32 : BitVec 32 := 256#32
  let v0 : BitVec 32 := Scalar.muli arg0 c256_i32
  let c134_i32 : BitVec 32 := 134#32
  let v1207 : BitVec 32 := Scalar.addi v0 c134_i32
  let v1208 : Index := Scalar.indexCast v1207
  ![v1208.toNat]
def k0_off270 (v1209 : BitVec 32) : Fin 2 → Nat :=
  let c0_i32_539 : BitVec 32 := 0#32
  ![v1209.toNat, 0]

def k0_chk135 (v1209 : BitVec 32) : Prop :=
  (∀ a, (k0_off270 v1209) a + S1x1024.size a ≤ S32768x1024.size a)
instance k0_chk135.dec : ∀ (v1209 : BitVec 32), Decidable (k0_chk135 v1209) := fun v1209 => decidable_of_iff' _ (Iff.of_eq (k0_chk135.eq_1 v1209))
theorem k0_off270_inb : ∀ (v1209 : BitVec 32) (k0_hw135 : k0_chk135 v1209), ∀ a, (k0_off270 v1209) a + S1x1024.size a ≤ S32768x1024.size a := fun v1209 k0_hw135 => k0_hw135

def k0_off271 (i : grid0.Coords) : Fin 1 → Nat :=
  let arg0 : BitVec 32 := BitVec.ofNat 32 (i 0).val
  let c256_i32 : BitVec 32 := 256#32
  let v0 : BitVec 32 := Scalar.muli arg0 c256_i32
  let c135_i32 : BitVec 32 := 135#32
  let v1216 : BitVec 32 := Scalar.addi v0 c135_i32
  let v1217 : Index := Scalar.indexCast v1216
  ![v1217.toNat]
def k0_off272 (v1218 : BitVec 32) : Fin 2 → Nat :=
  let c0_i32_543 : BitVec 32 := 0#32
  ![v1218.toNat, 0]

def k0_chk136 (v1218 : BitVec 32) : Prop :=
  (∀ a, (k0_off272 v1218) a + S1x1024.size a ≤ S32768x1024.size a)
instance k0_chk136.dec : ∀ (v1218 : BitVec 32), Decidable (k0_chk136 v1218) := fun v1218 => decidable_of_iff' _ (Iff.of_eq (k0_chk136.eq_1 v1218))
theorem k0_off272_inb : ∀ (v1218 : BitVec 32) (k0_hw136 : k0_chk136 v1218), ∀ a, (k0_off272 v1218) a + S1x1024.size a ≤ S32768x1024.size a := fun v1218 k0_hw136 => k0_hw136

def k0_off273 (i : grid0.Coords) : Fin 1 → Nat :=
  let arg0 : BitVec 32 := BitVec.ofNat 32 (i 0).val
  let c256_i32 : BitVec 32 := 256#32
  let v0 : BitVec 32 := Scalar.muli arg0 c256_i32
  let c136_i32 : BitVec 32 := 136#32
  let v1225 : BitVec 32 := Scalar.addi v0 c136_i32
  let v1226 : Index := Scalar.indexCast v1225
  ![v1226.toNat]
def k0_off274 (v1227 : BitVec 32) : Fin 2 → Nat :=
  let c0_i32_547 : BitVec 32 := 0#32
  ![v1227.toNat, 0]

def k0_chk137 (v1227 : BitVec 32) : Prop :=
  (∀ a, (k0_off274 v1227) a + S1x1024.size a ≤ S32768x1024.size a)
instance k0_chk137.dec : ∀ (v1227 : BitVec 32), Decidable (k0_chk137 v1227) := fun v1227 => decidable_of_iff' _ (Iff.of_eq (k0_chk137.eq_1 v1227))
theorem k0_off274_inb : ∀ (v1227 : BitVec 32) (k0_hw137 : k0_chk137 v1227), ∀ a, (k0_off274 v1227) a + S1x1024.size a ≤ S32768x1024.size a := fun v1227 k0_hw137 => k0_hw137

def k0_off275 (i : grid0.Coords) : Fin 1 → Nat :=
  let arg0 : BitVec 32 := BitVec.ofNat 32 (i 0).val
  let c256_i32 : BitVec 32 := 256#32
  let v0 : BitVec 32 := Scalar.muli arg0 c256_i32
  let c137_i32 : BitVec 32 := 137#32
  let v1234 : BitVec 32 := Scalar.addi v0 c137_i32
  let v1235 : Index := Scalar.indexCast v1234
  ![v1235.toNat]
def k0_off276 (v1236 : BitVec 32) : Fin 2 → Nat :=
  let c0_i32_551 : BitVec 32 := 0#32
  ![v1236.toNat, 0]

def k0_chk138 (v1236 : BitVec 32) : Prop :=
  (∀ a, (k0_off276 v1236) a + S1x1024.size a ≤ S32768x1024.size a)
instance k0_chk138.dec : ∀ (v1236 : BitVec 32), Decidable (k0_chk138 v1236) := fun v1236 => decidable_of_iff' _ (Iff.of_eq (k0_chk138.eq_1 v1236))
theorem k0_off276_inb : ∀ (v1236 : BitVec 32) (k0_hw138 : k0_chk138 v1236), ∀ a, (k0_off276 v1236) a + S1x1024.size a ≤ S32768x1024.size a := fun v1236 k0_hw138 => k0_hw138

def k0_off277 (i : grid0.Coords) : Fin 1 → Nat :=
  let arg0 : BitVec 32 := BitVec.ofNat 32 (i 0).val
  let c256_i32 : BitVec 32 := 256#32
  let v0 : BitVec 32 := Scalar.muli arg0 c256_i32
  let c138_i32 : BitVec 32 := 138#32
  let v1243 : BitVec 32 := Scalar.addi v0 c138_i32
  let v1244 : Index := Scalar.indexCast v1243
  ![v1244.toNat]
def k0_off278 (v1245 : BitVec 32) : Fin 2 → Nat :=
  let c0_i32_555 : BitVec 32 := 0#32
  ![v1245.toNat, 0]

def k0_chk139 (v1245 : BitVec 32) : Prop :=
  (∀ a, (k0_off278 v1245) a + S1x1024.size a ≤ S32768x1024.size a)
instance k0_chk139.dec : ∀ (v1245 : BitVec 32), Decidable (k0_chk139 v1245) := fun v1245 => decidable_of_iff' _ (Iff.of_eq (k0_chk139.eq_1 v1245))
theorem k0_off278_inb : ∀ (v1245 : BitVec 32) (k0_hw139 : k0_chk139 v1245), ∀ a, (k0_off278 v1245) a + S1x1024.size a ≤ S32768x1024.size a := fun v1245 k0_hw139 => k0_hw139

def k0_off279 (i : grid0.Coords) : Fin 1 → Nat :=
  let arg0 : BitVec 32 := BitVec.ofNat 32 (i 0).val
  let c256_i32 : BitVec 32 := 256#32
  let v0 : BitVec 32 := Scalar.muli arg0 c256_i32
  let c139_i32 : BitVec 32 := 139#32
  let v1252 : BitVec 32 := Scalar.addi v0 c139_i32
  let v1253 : Index := Scalar.indexCast v1252
  ![v1253.toNat]
def k0_off280 (v1254 : BitVec 32) : Fin 2 → Nat :=
  let c0_i32_559 : BitVec 32 := 0#32
  ![v1254.toNat, 0]

def k0_chk140 (v1254 : BitVec 32) : Prop :=
  (∀ a, (k0_off280 v1254) a + S1x1024.size a ≤ S32768x1024.size a)
instance k0_chk140.dec : ∀ (v1254 : BitVec 32), Decidable (k0_chk140 v1254) := fun v1254 => decidable_of_iff' _ (Iff.of_eq (k0_chk140.eq_1 v1254))
theorem k0_off280_inb : ∀ (v1254 : BitVec 32) (k0_hw140 : k0_chk140 v1254), ∀ a, (k0_off280 v1254) a + S1x1024.size a ≤ S32768x1024.size a := fun v1254 k0_hw140 => k0_hw140

def k0_off281 (i : grid0.Coords) : Fin 1 → Nat :=
  let arg0 : BitVec 32 := BitVec.ofNat 32 (i 0).val
  let c256_i32 : BitVec 32 := 256#32
  let v0 : BitVec 32 := Scalar.muli arg0 c256_i32
  let c140_i32 : BitVec 32 := 140#32
  let v1261 : BitVec 32 := Scalar.addi v0 c140_i32
  let v1262 : Index := Scalar.indexCast v1261
  ![v1262.toNat]
def k0_off282 (v1263 : BitVec 32) : Fin 2 → Nat :=
  let c0_i32_563 : BitVec 32 := 0#32
  ![v1263.toNat, 0]

def k0_chk141 (v1263 : BitVec 32) : Prop :=
  (∀ a, (k0_off282 v1263) a + S1x1024.size a ≤ S32768x1024.size a)
instance k0_chk141.dec : ∀ (v1263 : BitVec 32), Decidable (k0_chk141 v1263) := fun v1263 => decidable_of_iff' _ (Iff.of_eq (k0_chk141.eq_1 v1263))
theorem k0_off282_inb : ∀ (v1263 : BitVec 32) (k0_hw141 : k0_chk141 v1263), ∀ a, (k0_off282 v1263) a + S1x1024.size a ≤ S32768x1024.size a := fun v1263 k0_hw141 => k0_hw141

def k0_off283 (i : grid0.Coords) : Fin 1 → Nat :=
  let arg0 : BitVec 32 := BitVec.ofNat 32 (i 0).val
  let c256_i32 : BitVec 32 := 256#32
  let v0 : BitVec 32 := Scalar.muli arg0 c256_i32
  let c141_i32 : BitVec 32 := 141#32
  let v1270 : BitVec 32 := Scalar.addi v0 c141_i32
  let v1271 : Index := Scalar.indexCast v1270
  ![v1271.toNat]
def k0_off284 (v1272 : BitVec 32) : Fin 2 → Nat :=
  let c0_i32_567 : BitVec 32 := 0#32
  ![v1272.toNat, 0]

def k0_chk142 (v1272 : BitVec 32) : Prop :=
  (∀ a, (k0_off284 v1272) a + S1x1024.size a ≤ S32768x1024.size a)
instance k0_chk142.dec : ∀ (v1272 : BitVec 32), Decidable (k0_chk142 v1272) := fun v1272 => decidable_of_iff' _ (Iff.of_eq (k0_chk142.eq_1 v1272))
theorem k0_off284_inb : ∀ (v1272 : BitVec 32) (k0_hw142 : k0_chk142 v1272), ∀ a, (k0_off284 v1272) a + S1x1024.size a ≤ S32768x1024.size a := fun v1272 k0_hw142 => k0_hw142

def k0_off285 (i : grid0.Coords) : Fin 1 → Nat :=
  let arg0 : BitVec 32 := BitVec.ofNat 32 (i 0).val
  let c256_i32 : BitVec 32 := 256#32
  let v0 : BitVec 32 := Scalar.muli arg0 c256_i32
  let c142_i32 : BitVec 32 := 142#32
  let v1279 : BitVec 32 := Scalar.addi v0 c142_i32
  let v1280 : Index := Scalar.indexCast v1279
  ![v1280.toNat]
def k0_off286 (v1281 : BitVec 32) : Fin 2 → Nat :=
  let c0_i32_571 : BitVec 32 := 0#32
  ![v1281.toNat, 0]

def k0_chk143 (v1281 : BitVec 32) : Prop :=
  (∀ a, (k0_off286 v1281) a + S1x1024.size a ≤ S32768x1024.size a)
instance k0_chk143.dec : ∀ (v1281 : BitVec 32), Decidable (k0_chk143 v1281) := fun v1281 => decidable_of_iff' _ (Iff.of_eq (k0_chk143.eq_1 v1281))
theorem k0_off286_inb : ∀ (v1281 : BitVec 32) (k0_hw143 : k0_chk143 v1281), ∀ a, (k0_off286 v1281) a + S1x1024.size a ≤ S32768x1024.size a := fun v1281 k0_hw143 => k0_hw143

def k0_off287 (i : grid0.Coords) : Fin 1 → Nat :=
  let arg0 : BitVec 32 := BitVec.ofNat 32 (i 0).val
  let c256_i32 : BitVec 32 := 256#32
  let v0 : BitVec 32 := Scalar.muli arg0 c256_i32
  let c143_i32 : BitVec 32 := 143#32
  let v1288 : BitVec 32 := Scalar.addi v0 c143_i32
  let v1289 : Index := Scalar.indexCast v1288
  ![v1289.toNat]
def k0_off288 (v1290 : BitVec 32) : Fin 2 → Nat :=
  let c0_i32_575 : BitVec 32 := 0#32
  ![v1290.toNat, 0]

def k0_chk144 (v1290 : BitVec 32) : Prop :=
  (∀ a, (k0_off288 v1290) a + S1x1024.size a ≤ S32768x1024.size a)
instance k0_chk144.dec : ∀ (v1290 : BitVec 32), Decidable (k0_chk144 v1290) := fun v1290 => decidable_of_iff' _ (Iff.of_eq (k0_chk144.eq_1 v1290))
theorem k0_off288_inb : ∀ (v1290 : BitVec 32) (k0_hw144 : k0_chk144 v1290), ∀ a, (k0_off288 v1290) a + S1x1024.size a ≤ S32768x1024.size a := fun v1290 k0_hw144 => k0_hw144

def k0_off289 (i : grid0.Coords) : Fin 1 → Nat :=
  let arg0 : BitVec 32 := BitVec.ofNat 32 (i 0).val
  let c256_i32 : BitVec 32 := 256#32
  let v0 : BitVec 32 := Scalar.muli arg0 c256_i32
  let c144_i32 : BitVec 32 := 144#32
  let v1297 : BitVec 32 := Scalar.addi v0 c144_i32
  let v1298 : Index := Scalar.indexCast v1297
  ![v1298.toNat]
def k0_off290 (v1299 : BitVec 32) : Fin 2 → Nat :=
  let c0_i32_579 : BitVec 32 := 0#32
  ![v1299.toNat, 0]

def k0_chk145 (v1299 : BitVec 32) : Prop :=
  (∀ a, (k0_off290 v1299) a + S1x1024.size a ≤ S32768x1024.size a)
instance k0_chk145.dec : ∀ (v1299 : BitVec 32), Decidable (k0_chk145 v1299) := fun v1299 => decidable_of_iff' _ (Iff.of_eq (k0_chk145.eq_1 v1299))
theorem k0_off290_inb : ∀ (v1299 : BitVec 32) (k0_hw145 : k0_chk145 v1299), ∀ a, (k0_off290 v1299) a + S1x1024.size a ≤ S32768x1024.size a := fun v1299 k0_hw145 => k0_hw145

def k0_off291 (i : grid0.Coords) : Fin 1 → Nat :=
  let arg0 : BitVec 32 := BitVec.ofNat 32 (i 0).val
  let c256_i32 : BitVec 32 := 256#32
  let v0 : BitVec 32 := Scalar.muli arg0 c256_i32
  let c145_i32 : BitVec 32 := 145#32
  let v1306 : BitVec 32 := Scalar.addi v0 c145_i32
  let v1307 : Index := Scalar.indexCast v1306
  ![v1307.toNat]
def k0_off292 (v1308 : BitVec 32) : Fin 2 → Nat :=
  let c0_i32_583 : BitVec 32 := 0#32
  ![v1308.toNat, 0]

def k0_chk146 (v1308 : BitVec 32) : Prop :=
  (∀ a, (k0_off292 v1308) a + S1x1024.size a ≤ S32768x1024.size a)
instance k0_chk146.dec : ∀ (v1308 : BitVec 32), Decidable (k0_chk146 v1308) := fun v1308 => decidable_of_iff' _ (Iff.of_eq (k0_chk146.eq_1 v1308))
theorem k0_off292_inb : ∀ (v1308 : BitVec 32) (k0_hw146 : k0_chk146 v1308), ∀ a, (k0_off292 v1308) a + S1x1024.size a ≤ S32768x1024.size a := fun v1308 k0_hw146 => k0_hw146

def k0_off293 (i : grid0.Coords) : Fin 1 → Nat :=
  let arg0 : BitVec 32 := BitVec.ofNat 32 (i 0).val
  let c256_i32 : BitVec 32 := 256#32
  let v0 : BitVec 32 := Scalar.muli arg0 c256_i32
  let c146_i32 : BitVec 32 := 146#32
  let v1315 : BitVec 32 := Scalar.addi v0 c146_i32
  let v1316 : Index := Scalar.indexCast v1315
  ![v1316.toNat]
def k0_off294 (v1317 : BitVec 32) : Fin 2 → Nat :=
  let c0_i32_587 : BitVec 32 := 0#32
  ![v1317.toNat, 0]

def k0_chk147 (v1317 : BitVec 32) : Prop :=
  (∀ a, (k0_off294 v1317) a + S1x1024.size a ≤ S32768x1024.size a)
instance k0_chk147.dec : ∀ (v1317 : BitVec 32), Decidable (k0_chk147 v1317) := fun v1317 => decidable_of_iff' _ (Iff.of_eq (k0_chk147.eq_1 v1317))
theorem k0_off294_inb : ∀ (v1317 : BitVec 32) (k0_hw147 : k0_chk147 v1317), ∀ a, (k0_off294 v1317) a + S1x1024.size a ≤ S32768x1024.size a := fun v1317 k0_hw147 => k0_hw147

def k0_off295 (i : grid0.Coords) : Fin 1 → Nat :=
  let arg0 : BitVec 32 := BitVec.ofNat 32 (i 0).val
  let c256_i32 : BitVec 32 := 256#32
  let v0 : BitVec 32 := Scalar.muli arg0 c256_i32
  let c147_i32 : BitVec 32 := 147#32
  let v1324 : BitVec 32 := Scalar.addi v0 c147_i32
  let v1325 : Index := Scalar.indexCast v1324
  ![v1325.toNat]
def k0_off296 (v1326 : BitVec 32) : Fin 2 → Nat :=
  let c0_i32_591 : BitVec 32 := 0#32
  ![v1326.toNat, 0]

def k0_chk148 (v1326 : BitVec 32) : Prop :=
  (∀ a, (k0_off296 v1326) a + S1x1024.size a ≤ S32768x1024.size a)
instance k0_chk148.dec : ∀ (v1326 : BitVec 32), Decidable (k0_chk148 v1326) := fun v1326 => decidable_of_iff' _ (Iff.of_eq (k0_chk148.eq_1 v1326))
theorem k0_off296_inb : ∀ (v1326 : BitVec 32) (k0_hw148 : k0_chk148 v1326), ∀ a, (k0_off296 v1326) a + S1x1024.size a ≤ S32768x1024.size a := fun v1326 k0_hw148 => k0_hw148

def k0_off297 (i : grid0.Coords) : Fin 1 → Nat :=
  let arg0 : BitVec 32 := BitVec.ofNat 32 (i 0).val
  let c256_i32 : BitVec 32 := 256#32
  let v0 : BitVec 32 := Scalar.muli arg0 c256_i32
  let c148_i32 : BitVec 32 := 148#32
  let v1333 : BitVec 32 := Scalar.addi v0 c148_i32
  let v1334 : Index := Scalar.indexCast v1333
  ![v1334.toNat]
def k0_off298 (v1335 : BitVec 32) : Fin 2 → Nat :=
  let c0_i32_595 : BitVec 32 := 0#32
  ![v1335.toNat, 0]

def k0_chk149 (v1335 : BitVec 32) : Prop :=
  (∀ a, (k0_off298 v1335) a + S1x1024.size a ≤ S32768x1024.size a)
instance k0_chk149.dec : ∀ (v1335 : BitVec 32), Decidable (k0_chk149 v1335) := fun v1335 => decidable_of_iff' _ (Iff.of_eq (k0_chk149.eq_1 v1335))
theorem k0_off298_inb : ∀ (v1335 : BitVec 32) (k0_hw149 : k0_chk149 v1335), ∀ a, (k0_off298 v1335) a + S1x1024.size a ≤ S32768x1024.size a := fun v1335 k0_hw149 => k0_hw149

def k0_off299 (i : grid0.Coords) : Fin 1 → Nat :=
  let arg0 : BitVec 32 := BitVec.ofNat 32 (i 0).val
  let c256_i32 : BitVec 32 := 256#32
  let v0 : BitVec 32 := Scalar.muli arg0 c256_i32
  let c149_i32 : BitVec 32 := 149#32
  let v1342 : BitVec 32 := Scalar.addi v0 c149_i32
  let v1343 : Index := Scalar.indexCast v1342
  ![v1343.toNat]
def k0_off300 (v1344 : BitVec 32) : Fin 2 → Nat :=
  let c0_i32_599 : BitVec 32 := 0#32
  ![v1344.toNat, 0]

def k0_chk150 (v1344 : BitVec 32) : Prop :=
  (∀ a, (k0_off300 v1344) a + S1x1024.size a ≤ S32768x1024.size a)
instance k0_chk150.dec : ∀ (v1344 : BitVec 32), Decidable (k0_chk150 v1344) := fun v1344 => decidable_of_iff' _ (Iff.of_eq (k0_chk150.eq_1 v1344))
theorem k0_off300_inb : ∀ (v1344 : BitVec 32) (k0_hw150 : k0_chk150 v1344), ∀ a, (k0_off300 v1344) a + S1x1024.size a ≤ S32768x1024.size a := fun v1344 k0_hw150 => k0_hw150

def k0_off301 (i : grid0.Coords) : Fin 1 → Nat :=
  let arg0 : BitVec 32 := BitVec.ofNat 32 (i 0).val
  let c256_i32 : BitVec 32 := 256#32
  let v0 : BitVec 32 := Scalar.muli arg0 c256_i32
  let c150_i32 : BitVec 32 := 150#32
  let v1351 : BitVec 32 := Scalar.addi v0 c150_i32
  let v1352 : Index := Scalar.indexCast v1351
  ![v1352.toNat]
def k0_off302 (v1353 : BitVec 32) : Fin 2 → Nat :=
  let c0_i32_603 : BitVec 32 := 0#32
  ![v1353.toNat, 0]

def k0_chk151 (v1353 : BitVec 32) : Prop :=
  (∀ a, (k0_off302 v1353) a + S1x1024.size a ≤ S32768x1024.size a)
instance k0_chk151.dec : ∀ (v1353 : BitVec 32), Decidable (k0_chk151 v1353) := fun v1353 => decidable_of_iff' _ (Iff.of_eq (k0_chk151.eq_1 v1353))
theorem k0_off302_inb : ∀ (v1353 : BitVec 32) (k0_hw151 : k0_chk151 v1353), ∀ a, (k0_off302 v1353) a + S1x1024.size a ≤ S32768x1024.size a := fun v1353 k0_hw151 => k0_hw151

def k0_off303 (i : grid0.Coords) : Fin 1 → Nat :=
  let arg0 : BitVec 32 := BitVec.ofNat 32 (i 0).val
  let c256_i32 : BitVec 32 := 256#32
  let v0 : BitVec 32 := Scalar.muli arg0 c256_i32
  let c151_i32 : BitVec 32 := 151#32
  let v1360 : BitVec 32 := Scalar.addi v0 c151_i32
  let v1361 : Index := Scalar.indexCast v1360
  ![v1361.toNat]
def k0_off304 (v1362 : BitVec 32) : Fin 2 → Nat :=
  let c0_i32_607 : BitVec 32 := 0#32
  ![v1362.toNat, 0]

def k0_chk152 (v1362 : BitVec 32) : Prop :=
  (∀ a, (k0_off304 v1362) a + S1x1024.size a ≤ S32768x1024.size a)
instance k0_chk152.dec : ∀ (v1362 : BitVec 32), Decidable (k0_chk152 v1362) := fun v1362 => decidable_of_iff' _ (Iff.of_eq (k0_chk152.eq_1 v1362))
theorem k0_off304_inb : ∀ (v1362 : BitVec 32) (k0_hw152 : k0_chk152 v1362), ∀ a, (k0_off304 v1362) a + S1x1024.size a ≤ S32768x1024.size a := fun v1362 k0_hw152 => k0_hw152

def k0_off305 (i : grid0.Coords) : Fin 1 → Nat :=
  let arg0 : BitVec 32 := BitVec.ofNat 32 (i 0).val
  let c256_i32 : BitVec 32 := 256#32
  let v0 : BitVec 32 := Scalar.muli arg0 c256_i32
  let c152_i32 : BitVec 32 := 152#32
  let v1369 : BitVec 32 := Scalar.addi v0 c152_i32
  let v1370 : Index := Scalar.indexCast v1369
  ![v1370.toNat]
def k0_off306 (v1371 : BitVec 32) : Fin 2 → Nat :=
  let c0_i32_611 : BitVec 32 := 0#32
  ![v1371.toNat, 0]

def k0_chk153 (v1371 : BitVec 32) : Prop :=
  (∀ a, (k0_off306 v1371) a + S1x1024.size a ≤ S32768x1024.size a)
instance k0_chk153.dec : ∀ (v1371 : BitVec 32), Decidable (k0_chk153 v1371) := fun v1371 => decidable_of_iff' _ (Iff.of_eq (k0_chk153.eq_1 v1371))
theorem k0_off306_inb : ∀ (v1371 : BitVec 32) (k0_hw153 : k0_chk153 v1371), ∀ a, (k0_off306 v1371) a + S1x1024.size a ≤ S32768x1024.size a := fun v1371 k0_hw153 => k0_hw153

def k0_off307 (i : grid0.Coords) : Fin 1 → Nat :=
  let arg0 : BitVec 32 := BitVec.ofNat 32 (i 0).val
  let c256_i32 : BitVec 32 := 256#32
  let v0 : BitVec 32 := Scalar.muli arg0 c256_i32
  let c153_i32 : BitVec 32 := 153#32
  let v1378 : BitVec 32 := Scalar.addi v0 c153_i32
  let v1379 : Index := Scalar.indexCast v1378
  ![v1379.toNat]
def k0_off308 (v1380 : BitVec 32) : Fin 2 → Nat :=
  let c0_i32_615 : BitVec 32 := 0#32
  ![v1380.toNat, 0]

def k0_chk154 (v1380 : BitVec 32) : Prop :=
  (∀ a, (k0_off308 v1380) a + S1x1024.size a ≤ S32768x1024.size a)
instance k0_chk154.dec : ∀ (v1380 : BitVec 32), Decidable (k0_chk154 v1380) := fun v1380 => decidable_of_iff' _ (Iff.of_eq (k0_chk154.eq_1 v1380))
theorem k0_off308_inb : ∀ (v1380 : BitVec 32) (k0_hw154 : k0_chk154 v1380), ∀ a, (k0_off308 v1380) a + S1x1024.size a ≤ S32768x1024.size a := fun v1380 k0_hw154 => k0_hw154

def k0_off309 (i : grid0.Coords) : Fin 1 → Nat :=
  let arg0 : BitVec 32 := BitVec.ofNat 32 (i 0).val
  let c256_i32 : BitVec 32 := 256#32
  let v0 : BitVec 32 := Scalar.muli arg0 c256_i32
  let c154_i32 : BitVec 32 := 154#32
  let v1387 : BitVec 32 := Scalar.addi v0 c154_i32
  let v1388 : Index := Scalar.indexCast v1387
  ![v1388.toNat]
def k0_off310 (v1389 : BitVec 32) : Fin 2 → Nat :=
  let c0_i32_619 : BitVec 32 := 0#32
  ![v1389.toNat, 0]

def k0_chk155 (v1389 : BitVec 32) : Prop :=
  (∀ a, (k0_off310 v1389) a + S1x1024.size a ≤ S32768x1024.size a)
instance k0_chk155.dec : ∀ (v1389 : BitVec 32), Decidable (k0_chk155 v1389) := fun v1389 => decidable_of_iff' _ (Iff.of_eq (k0_chk155.eq_1 v1389))
theorem k0_off310_inb : ∀ (v1389 : BitVec 32) (k0_hw155 : k0_chk155 v1389), ∀ a, (k0_off310 v1389) a + S1x1024.size a ≤ S32768x1024.size a := fun v1389 k0_hw155 => k0_hw155

def k0_off311 (i : grid0.Coords) : Fin 1 → Nat :=
  let arg0 : BitVec 32 := BitVec.ofNat 32 (i 0).val
  let c256_i32 : BitVec 32 := 256#32
  let v0 : BitVec 32 := Scalar.muli arg0 c256_i32
  let c155_i32 : BitVec 32 := 155#32
  let v1396 : BitVec 32 := Scalar.addi v0 c155_i32
  let v1397 : Index := Scalar.indexCast v1396
  ![v1397.toNat]
def k0_off312 (v1398 : BitVec 32) : Fin 2 → Nat :=
  let c0_i32_623 : BitVec 32 := 0#32
  ![v1398.toNat, 0]

def k0_chk156 (v1398 : BitVec 32) : Prop :=
  (∀ a, (k0_off312 v1398) a + S1x1024.size a ≤ S32768x1024.size a)
instance k0_chk156.dec : ∀ (v1398 : BitVec 32), Decidable (k0_chk156 v1398) := fun v1398 => decidable_of_iff' _ (Iff.of_eq (k0_chk156.eq_1 v1398))
theorem k0_off312_inb : ∀ (v1398 : BitVec 32) (k0_hw156 : k0_chk156 v1398), ∀ a, (k0_off312 v1398) a + S1x1024.size a ≤ S32768x1024.size a := fun v1398 k0_hw156 => k0_hw156

def k0_off313 (i : grid0.Coords) : Fin 1 → Nat :=
  let arg0 : BitVec 32 := BitVec.ofNat 32 (i 0).val
  let c256_i32 : BitVec 32 := 256#32
  let v0 : BitVec 32 := Scalar.muli arg0 c256_i32
  let c156_i32 : BitVec 32 := 156#32
  let v1405 : BitVec 32 := Scalar.addi v0 c156_i32
  let v1406 : Index := Scalar.indexCast v1405
  ![v1406.toNat]
def k0_off314 (v1407 : BitVec 32) : Fin 2 → Nat :=
  let c0_i32_627 : BitVec 32 := 0#32
  ![v1407.toNat, 0]

def k0_chk157 (v1407 : BitVec 32) : Prop :=
  (∀ a, (k0_off314 v1407) a + S1x1024.size a ≤ S32768x1024.size a)
instance k0_chk157.dec : ∀ (v1407 : BitVec 32), Decidable (k0_chk157 v1407) := fun v1407 => decidable_of_iff' _ (Iff.of_eq (k0_chk157.eq_1 v1407))
theorem k0_off314_inb : ∀ (v1407 : BitVec 32) (k0_hw157 : k0_chk157 v1407), ∀ a, (k0_off314 v1407) a + S1x1024.size a ≤ S32768x1024.size a := fun v1407 k0_hw157 => k0_hw157

def k0_off315 (i : grid0.Coords) : Fin 1 → Nat :=
  let arg0 : BitVec 32 := BitVec.ofNat 32 (i 0).val
  let c256_i32 : BitVec 32 := 256#32
  let v0 : BitVec 32 := Scalar.muli arg0 c256_i32
  let c157_i32 : BitVec 32 := 157#32
  let v1414 : BitVec 32 := Scalar.addi v0 c157_i32
  let v1415 : Index := Scalar.indexCast v1414
  ![v1415.toNat]
def k0_off316 (v1416 : BitVec 32) : Fin 2 → Nat :=
  let c0_i32_631 : BitVec 32 := 0#32
  ![v1416.toNat, 0]

def k0_chk158 (v1416 : BitVec 32) : Prop :=
  (∀ a, (k0_off316 v1416) a + S1x1024.size a ≤ S32768x1024.size a)
instance k0_chk158.dec : ∀ (v1416 : BitVec 32), Decidable (k0_chk158 v1416) := fun v1416 => decidable_of_iff' _ (Iff.of_eq (k0_chk158.eq_1 v1416))
theorem k0_off316_inb : ∀ (v1416 : BitVec 32) (k0_hw158 : k0_chk158 v1416), ∀ a, (k0_off316 v1416) a + S1x1024.size a ≤ S32768x1024.size a := fun v1416 k0_hw158 => k0_hw158

def k0_off317 (i : grid0.Coords) : Fin 1 → Nat :=
  let arg0 : BitVec 32 := BitVec.ofNat 32 (i 0).val
  let c256_i32 : BitVec 32 := 256#32
  let v0 : BitVec 32 := Scalar.muli arg0 c256_i32
  let c158_i32 : BitVec 32 := 158#32
  let v1423 : BitVec 32 := Scalar.addi v0 c158_i32
  let v1424 : Index := Scalar.indexCast v1423
  ![v1424.toNat]
def k0_off318 (v1425 : BitVec 32) : Fin 2 → Nat :=
  let c0_i32_635 : BitVec 32 := 0#32
  ![v1425.toNat, 0]

def k0_chk159 (v1425 : BitVec 32) : Prop :=
  (∀ a, (k0_off318 v1425) a + S1x1024.size a ≤ S32768x1024.size a)
instance k0_chk159.dec : ∀ (v1425 : BitVec 32), Decidable (k0_chk159 v1425) := fun v1425 => decidable_of_iff' _ (Iff.of_eq (k0_chk159.eq_1 v1425))
theorem k0_off318_inb : ∀ (v1425 : BitVec 32) (k0_hw159 : k0_chk159 v1425), ∀ a, (k0_off318 v1425) a + S1x1024.size a ≤ S32768x1024.size a := fun v1425 k0_hw159 => k0_hw159

def k0_off319 (i : grid0.Coords) : Fin 1 → Nat :=
  let arg0 : BitVec 32 := BitVec.ofNat 32 (i 0).val
  let c256_i32 : BitVec 32 := 256#32
  let v0 : BitVec 32 := Scalar.muli arg0 c256_i32
  let c159_i32 : BitVec 32 := 159#32
  let v1432 : BitVec 32 := Scalar.addi v0 c159_i32
  let v1433 : Index := Scalar.indexCast v1432
  ![v1433.toNat]
def k0_off320 (v1434 : BitVec 32) : Fin 2 → Nat :=
  let c0_i32_639 : BitVec 32 := 0#32
  ![v1434.toNat, 0]

def k0_chk160 (v1434 : BitVec 32) : Prop :=
  (∀ a, (k0_off320 v1434) a + S1x1024.size a ≤ S32768x1024.size a)
instance k0_chk160.dec : ∀ (v1434 : BitVec 32), Decidable (k0_chk160 v1434) := fun v1434 => decidable_of_iff' _ (Iff.of_eq (k0_chk160.eq_1 v1434))
theorem k0_off320_inb : ∀ (v1434 : BitVec 32) (k0_hw160 : k0_chk160 v1434), ∀ a, (k0_off320 v1434) a + S1x1024.size a ≤ S32768x1024.size a := fun v1434 k0_hw160 => k0_hw160

def k0_off321 (i : grid0.Coords) : Fin 1 → Nat :=
  let arg0 : BitVec 32 := BitVec.ofNat 32 (i 0).val
  let c256_i32 : BitVec 32 := 256#32
  let v0 : BitVec 32 := Scalar.muli arg0 c256_i32
  let c160_i32 : BitVec 32 := 160#32
  let v1441 : BitVec 32 := Scalar.addi v0 c160_i32
  let v1442 : Index := Scalar.indexCast v1441
  ![v1442.toNat]
def k0_off322 (v1443 : BitVec 32) : Fin 2 → Nat :=
  let c0_i32_643 : BitVec 32 := 0#32
  ![v1443.toNat, 0]

def k0_chk161 (v1443 : BitVec 32) : Prop :=
  (∀ a, (k0_off322 v1443) a + S1x1024.size a ≤ S32768x1024.size a)
instance k0_chk161.dec : ∀ (v1443 : BitVec 32), Decidable (k0_chk161 v1443) := fun v1443 => decidable_of_iff' _ (Iff.of_eq (k0_chk161.eq_1 v1443))
theorem k0_off322_inb : ∀ (v1443 : BitVec 32) (k0_hw161 : k0_chk161 v1443), ∀ a, (k0_off322 v1443) a + S1x1024.size a ≤ S32768x1024.size a := fun v1443 k0_hw161 => k0_hw161

def k0_off323 (i : grid0.Coords) : Fin 1 → Nat :=
  let arg0 : BitVec 32 := BitVec.ofNat 32 (i 0).val
  let c256_i32 : BitVec 32 := 256#32
  let v0 : BitVec 32 := Scalar.muli arg0 c256_i32
  let c161_i32 : BitVec 32 := 161#32
  let v1450 : BitVec 32 := Scalar.addi v0 c161_i32
  let v1451 : Index := Scalar.indexCast v1450
  ![v1451.toNat]
def k0_off324 (v1452 : BitVec 32) : Fin 2 → Nat :=
  let c0_i32_647 : BitVec 32 := 0#32
  ![v1452.toNat, 0]

def k0_chk162 (v1452 : BitVec 32) : Prop :=
  (∀ a, (k0_off324 v1452) a + S1x1024.size a ≤ S32768x1024.size a)
instance k0_chk162.dec : ∀ (v1452 : BitVec 32), Decidable (k0_chk162 v1452) := fun v1452 => decidable_of_iff' _ (Iff.of_eq (k0_chk162.eq_1 v1452))
theorem k0_off324_inb : ∀ (v1452 : BitVec 32) (k0_hw162 : k0_chk162 v1452), ∀ a, (k0_off324 v1452) a + S1x1024.size a ≤ S32768x1024.size a := fun v1452 k0_hw162 => k0_hw162

def k0_off325 (i : grid0.Coords) : Fin 1 → Nat :=
  let arg0 : BitVec 32 := BitVec.ofNat 32 (i 0).val
  let c256_i32 : BitVec 32 := 256#32
  let v0 : BitVec 32 := Scalar.muli arg0 c256_i32
  let c162_i32 : BitVec 32 := 162#32
  let v1459 : BitVec 32 := Scalar.addi v0 c162_i32
  let v1460 : Index := Scalar.indexCast v1459
  ![v1460.toNat]
def k0_off326 (v1461 : BitVec 32) : Fin 2 → Nat :=
  let c0_i32_651 : BitVec 32 := 0#32
  ![v1461.toNat, 0]

def k0_chk163 (v1461 : BitVec 32) : Prop :=
  (∀ a, (k0_off326 v1461) a + S1x1024.size a ≤ S32768x1024.size a)
instance k0_chk163.dec : ∀ (v1461 : BitVec 32), Decidable (k0_chk163 v1461) := fun v1461 => decidable_of_iff' _ (Iff.of_eq (k0_chk163.eq_1 v1461))
theorem k0_off326_inb : ∀ (v1461 : BitVec 32) (k0_hw163 : k0_chk163 v1461), ∀ a, (k0_off326 v1461) a + S1x1024.size a ≤ S32768x1024.size a := fun v1461 k0_hw163 => k0_hw163

def k0_off327 (i : grid0.Coords) : Fin 1 → Nat :=
  let arg0 : BitVec 32 := BitVec.ofNat 32 (i 0).val
  let c256_i32 : BitVec 32 := 256#32
  let v0 : BitVec 32 := Scalar.muli arg0 c256_i32
  let c163_i32 : BitVec 32 := 163#32
  let v1468 : BitVec 32 := Scalar.addi v0 c163_i32
  let v1469 : Index := Scalar.indexCast v1468
  ![v1469.toNat]
def k0_off328 (v1470 : BitVec 32) : Fin 2 → Nat :=
  let c0_i32_655 : BitVec 32 := 0#32
  ![v1470.toNat, 0]

def k0_chk164 (v1470 : BitVec 32) : Prop :=
  (∀ a, (k0_off328 v1470) a + S1x1024.size a ≤ S32768x1024.size a)
instance k0_chk164.dec : ∀ (v1470 : BitVec 32), Decidable (k0_chk164 v1470) := fun v1470 => decidable_of_iff' _ (Iff.of_eq (k0_chk164.eq_1 v1470))
theorem k0_off328_inb : ∀ (v1470 : BitVec 32) (k0_hw164 : k0_chk164 v1470), ∀ a, (k0_off328 v1470) a + S1x1024.size a ≤ S32768x1024.size a := fun v1470 k0_hw164 => k0_hw164

def k0_off329 (i : grid0.Coords) : Fin 1 → Nat :=
  let arg0 : BitVec 32 := BitVec.ofNat 32 (i 0).val
  let c256_i32 : BitVec 32 := 256#32
  let v0 : BitVec 32 := Scalar.muli arg0 c256_i32
  let c164_i32 : BitVec 32 := 164#32
  let v1477 : BitVec 32 := Scalar.addi v0 c164_i32
  let v1478 : Index := Scalar.indexCast v1477
  ![v1478.toNat]
def k0_off330 (v1479 : BitVec 32) : Fin 2 → Nat :=
  let c0_i32_659 : BitVec 32 := 0#32
  ![v1479.toNat, 0]

def k0_chk165 (v1479 : BitVec 32) : Prop :=
  (∀ a, (k0_off330 v1479) a + S1x1024.size a ≤ S32768x1024.size a)
instance k0_chk165.dec : ∀ (v1479 : BitVec 32), Decidable (k0_chk165 v1479) := fun v1479 => decidable_of_iff' _ (Iff.of_eq (k0_chk165.eq_1 v1479))
theorem k0_off330_inb : ∀ (v1479 : BitVec 32) (k0_hw165 : k0_chk165 v1479), ∀ a, (k0_off330 v1479) a + S1x1024.size a ≤ S32768x1024.size a := fun v1479 k0_hw165 => k0_hw165

def k0_off331 (i : grid0.Coords) : Fin 1 → Nat :=
  let arg0 : BitVec 32 := BitVec.ofNat 32 (i 0).val
  let c256_i32 : BitVec 32 := 256#32
  let v0 : BitVec 32 := Scalar.muli arg0 c256_i32
  let c165_i32 : BitVec 32 := 165#32
  let v1486 : BitVec 32 := Scalar.addi v0 c165_i32
  let v1487 : Index := Scalar.indexCast v1486
  ![v1487.toNat]
def k0_off332 (v1488 : BitVec 32) : Fin 2 → Nat :=
  let c0_i32_663 : BitVec 32 := 0#32
  ![v1488.toNat, 0]

def k0_chk166 (v1488 : BitVec 32) : Prop :=
  (∀ a, (k0_off332 v1488) a + S1x1024.size a ≤ S32768x1024.size a)
instance k0_chk166.dec : ∀ (v1488 : BitVec 32), Decidable (k0_chk166 v1488) := fun v1488 => decidable_of_iff' _ (Iff.of_eq (k0_chk166.eq_1 v1488))
theorem k0_off332_inb : ∀ (v1488 : BitVec 32) (k0_hw166 : k0_chk166 v1488), ∀ a, (k0_off332 v1488) a + S1x1024.size a ≤ S32768x1024.size a := fun v1488 k0_hw166 => k0_hw166

def k0_off333 (i : grid0.Coords) : Fin 1 → Nat :=
  let arg0 : BitVec 32 := BitVec.ofNat 32 (i 0).val
  let c256_i32 : BitVec 32 := 256#32
  let v0 : BitVec 32 := Scalar.muli arg0 c256_i32
  let c166_i32 : BitVec 32 := 166#32
  let v1495 : BitVec 32 := Scalar.addi v0 c166_i32
  let v1496 : Index := Scalar.indexCast v1495
  ![v1496.toNat]
def k0_off334 (v1497 : BitVec 32) : Fin 2 → Nat :=
  let c0_i32_667 : BitVec 32 := 0#32
  ![v1497.toNat, 0]

def k0_chk167 (v1497 : BitVec 32) : Prop :=
  (∀ a, (k0_off334 v1497) a + S1x1024.size a ≤ S32768x1024.size a)
instance k0_chk167.dec : ∀ (v1497 : BitVec 32), Decidable (k0_chk167 v1497) := fun v1497 => decidable_of_iff' _ (Iff.of_eq (k0_chk167.eq_1 v1497))
theorem k0_off334_inb : ∀ (v1497 : BitVec 32) (k0_hw167 : k0_chk167 v1497), ∀ a, (k0_off334 v1497) a + S1x1024.size a ≤ S32768x1024.size a := fun v1497 k0_hw167 => k0_hw167

def k0_off335 (i : grid0.Coords) : Fin 1 → Nat :=
  let arg0 : BitVec 32 := BitVec.ofNat 32 (i 0).val
  let c256_i32 : BitVec 32 := 256#32
  let v0 : BitVec 32 := Scalar.muli arg0 c256_i32
  let c167_i32 : BitVec 32 := 167#32
  let v1504 : BitVec 32 := Scalar.addi v0 c167_i32
  let v1505 : Index := Scalar.indexCast v1504
  ![v1505.toNat]
def k0_off336 (v1506 : BitVec 32) : Fin 2 → Nat :=
  let c0_i32_671 : BitVec 32 := 0#32
  ![v1506.toNat, 0]

def k0_chk168 (v1506 : BitVec 32) : Prop :=
  (∀ a, (k0_off336 v1506) a + S1x1024.size a ≤ S32768x1024.size a)
instance k0_chk168.dec : ∀ (v1506 : BitVec 32), Decidable (k0_chk168 v1506) := fun v1506 => decidable_of_iff' _ (Iff.of_eq (k0_chk168.eq_1 v1506))
theorem k0_off336_inb : ∀ (v1506 : BitVec 32) (k0_hw168 : k0_chk168 v1506), ∀ a, (k0_off336 v1506) a + S1x1024.size a ≤ S32768x1024.size a := fun v1506 k0_hw168 => k0_hw168

def k0_off337 (i : grid0.Coords) : Fin 1 → Nat :=
  let arg0 : BitVec 32 := BitVec.ofNat 32 (i 0).val
  let c256_i32 : BitVec 32 := 256#32
  let v0 : BitVec 32 := Scalar.muli arg0 c256_i32
  let c168_i32 : BitVec 32 := 168#32
  let v1513 : BitVec 32 := Scalar.addi v0 c168_i32
  let v1514 : Index := Scalar.indexCast v1513
  ![v1514.toNat]
def k0_off338 (v1515 : BitVec 32) : Fin 2 → Nat :=
  let c0_i32_675 : BitVec 32 := 0#32
  ![v1515.toNat, 0]

def k0_chk169 (v1515 : BitVec 32) : Prop :=
  (∀ a, (k0_off338 v1515) a + S1x1024.size a ≤ S32768x1024.size a)
instance k0_chk169.dec : ∀ (v1515 : BitVec 32), Decidable (k0_chk169 v1515) := fun v1515 => decidable_of_iff' _ (Iff.of_eq (k0_chk169.eq_1 v1515))
theorem k0_off338_inb : ∀ (v1515 : BitVec 32) (k0_hw169 : k0_chk169 v1515), ∀ a, (k0_off338 v1515) a + S1x1024.size a ≤ S32768x1024.size a := fun v1515 k0_hw169 => k0_hw169

def k0_off339 (i : grid0.Coords) : Fin 1 → Nat :=
  let arg0 : BitVec 32 := BitVec.ofNat 32 (i 0).val
  let c256_i32 : BitVec 32 := 256#32
  let v0 : BitVec 32 := Scalar.muli arg0 c256_i32
  let c169_i32 : BitVec 32 := 169#32
  let v1522 : BitVec 32 := Scalar.addi v0 c169_i32
  let v1523 : Index := Scalar.indexCast v1522
  ![v1523.toNat]
def k0_off340 (v1524 : BitVec 32) : Fin 2 → Nat :=
  let c0_i32_679 : BitVec 32 := 0#32
  ![v1524.toNat, 0]

def k0_chk170 (v1524 : BitVec 32) : Prop :=
  (∀ a, (k0_off340 v1524) a + S1x1024.size a ≤ S32768x1024.size a)
instance k0_chk170.dec : ∀ (v1524 : BitVec 32), Decidable (k0_chk170 v1524) := fun v1524 => decidable_of_iff' _ (Iff.of_eq (k0_chk170.eq_1 v1524))
theorem k0_off340_inb : ∀ (v1524 : BitVec 32) (k0_hw170 : k0_chk170 v1524), ∀ a, (k0_off340 v1524) a + S1x1024.size a ≤ S32768x1024.size a := fun v1524 k0_hw170 => k0_hw170

def k0_off341 (i : grid0.Coords) : Fin 1 → Nat :=
  let arg0 : BitVec 32 := BitVec.ofNat 32 (i 0).val
  let c256_i32 : BitVec 32 := 256#32
  let v0 : BitVec 32 := Scalar.muli arg0 c256_i32
  let c170_i32 : BitVec 32 := 170#32
  let v1531 : BitVec 32 := Scalar.addi v0 c170_i32
  let v1532 : Index := Scalar.indexCast v1531
  ![v1532.toNat]
def k0_off342 (v1533 : BitVec 32) : Fin 2 → Nat :=
  let c0_i32_683 : BitVec 32 := 0#32
  ![v1533.toNat, 0]

def k0_chk171 (v1533 : BitVec 32) : Prop :=
  (∀ a, (k0_off342 v1533) a + S1x1024.size a ≤ S32768x1024.size a)
instance k0_chk171.dec : ∀ (v1533 : BitVec 32), Decidable (k0_chk171 v1533) := fun v1533 => decidable_of_iff' _ (Iff.of_eq (k0_chk171.eq_1 v1533))
theorem k0_off342_inb : ∀ (v1533 : BitVec 32) (k0_hw171 : k0_chk171 v1533), ∀ a, (k0_off342 v1533) a + S1x1024.size a ≤ S32768x1024.size a := fun v1533 k0_hw171 => k0_hw171

def k0_off343 (i : grid0.Coords) : Fin 1 → Nat :=
  let arg0 : BitVec 32 := BitVec.ofNat 32 (i 0).val
  let c256_i32 : BitVec 32 := 256#32
  let v0 : BitVec 32 := Scalar.muli arg0 c256_i32
  let c171_i32 : BitVec 32 := 171#32
  let v1540 : BitVec 32 := Scalar.addi v0 c171_i32
  let v1541 : Index := Scalar.indexCast v1540
  ![v1541.toNat]
def k0_off344 (v1542 : BitVec 32) : Fin 2 → Nat :=
  let c0_i32_687 : BitVec 32 := 0#32
  ![v1542.toNat, 0]

def k0_chk172 (v1542 : BitVec 32) : Prop :=
  (∀ a, (k0_off344 v1542) a + S1x1024.size a ≤ S32768x1024.size a)
instance k0_chk172.dec : ∀ (v1542 : BitVec 32), Decidable (k0_chk172 v1542) := fun v1542 => decidable_of_iff' _ (Iff.of_eq (k0_chk172.eq_1 v1542))
theorem k0_off344_inb : ∀ (v1542 : BitVec 32) (k0_hw172 : k0_chk172 v1542), ∀ a, (k0_off344 v1542) a + S1x1024.size a ≤ S32768x1024.size a := fun v1542 k0_hw172 => k0_hw172

def k0_off345 (i : grid0.Coords) : Fin 1 → Nat :=
  let arg0 : BitVec 32 := BitVec.ofNat 32 (i 0).val
  let c256_i32 : BitVec 32 := 256#32
  let v0 : BitVec 32 := Scalar.muli arg0 c256_i32
  let c172_i32 : BitVec 32 := 172#32
  let v1549 : BitVec 32 := Scalar.addi v0 c172_i32
  let v1550 : Index := Scalar.indexCast v1549
  ![v1550.toNat]
def k0_off346 (v1551 : BitVec 32) : Fin 2 → Nat :=
  let c0_i32_691 : BitVec 32 := 0#32
  ![v1551.toNat, 0]

def k0_chk173 (v1551 : BitVec 32) : Prop :=
  (∀ a, (k0_off346 v1551) a + S1x1024.size a ≤ S32768x1024.size a)
instance k0_chk173.dec : ∀ (v1551 : BitVec 32), Decidable (k0_chk173 v1551) := fun v1551 => decidable_of_iff' _ (Iff.of_eq (k0_chk173.eq_1 v1551))
theorem k0_off346_inb : ∀ (v1551 : BitVec 32) (k0_hw173 : k0_chk173 v1551), ∀ a, (k0_off346 v1551) a + S1x1024.size a ≤ S32768x1024.size a := fun v1551 k0_hw173 => k0_hw173

def k0_off347 (i : grid0.Coords) : Fin 1 → Nat :=
  let arg0 : BitVec 32 := BitVec.ofNat 32 (i 0).val
  let c256_i32 : BitVec 32 := 256#32
  let v0 : BitVec 32 := Scalar.muli arg0 c256_i32
  let c173_i32 : BitVec 32 := 173#32
  let v1558 : BitVec 32 := Scalar.addi v0 c173_i32
  let v1559 : Index := Scalar.indexCast v1558
  ![v1559.toNat]
def k0_off348 (v1560 : BitVec 32) : Fin 2 → Nat :=
  let c0_i32_695 : BitVec 32 := 0#32
  ![v1560.toNat, 0]

def k0_chk174 (v1560 : BitVec 32) : Prop :=
  (∀ a, (k0_off348 v1560) a + S1x1024.size a ≤ S32768x1024.size a)
instance k0_chk174.dec : ∀ (v1560 : BitVec 32), Decidable (k0_chk174 v1560) := fun v1560 => decidable_of_iff' _ (Iff.of_eq (k0_chk174.eq_1 v1560))
theorem k0_off348_inb : ∀ (v1560 : BitVec 32) (k0_hw174 : k0_chk174 v1560), ∀ a, (k0_off348 v1560) a + S1x1024.size a ≤ S32768x1024.size a := fun v1560 k0_hw174 => k0_hw174

def k0_off349 (i : grid0.Coords) : Fin 1 → Nat :=
  let arg0 : BitVec 32 := BitVec.ofNat 32 (i 0).val
  let c256_i32 : BitVec 32 := 256#32
  let v0 : BitVec 32 := Scalar.muli arg0 c256_i32
  let c174_i32 : BitVec 32 := 174#32
  let v1567 : BitVec 32 := Scalar.addi v0 c174_i32
  let v1568 : Index := Scalar.indexCast v1567
  ![v1568.toNat]
def k0_off350 (v1569 : BitVec 32) : Fin 2 → Nat :=
  let c0_i32_699 : BitVec 32 := 0#32
  ![v1569.toNat, 0]

def k0_chk175 (v1569 : BitVec 32) : Prop :=
  (∀ a, (k0_off350 v1569) a + S1x1024.size a ≤ S32768x1024.size a)
instance k0_chk175.dec : ∀ (v1569 : BitVec 32), Decidable (k0_chk175 v1569) := fun v1569 => decidable_of_iff' _ (Iff.of_eq (k0_chk175.eq_1 v1569))
theorem k0_off350_inb : ∀ (v1569 : BitVec 32) (k0_hw175 : k0_chk175 v1569), ∀ a, (k0_off350 v1569) a + S1x1024.size a ≤ S32768x1024.size a := fun v1569 k0_hw175 => k0_hw175

def k0_off351 (i : grid0.Coords) : Fin 1 → Nat :=
  let arg0 : BitVec 32 := BitVec.ofNat 32 (i 0).val
  let c256_i32 : BitVec 32 := 256#32
  let v0 : BitVec 32 := Scalar.muli arg0 c256_i32
  let c175_i32 : BitVec 32 := 175#32
  let v1576 : BitVec 32 := Scalar.addi v0 c175_i32
  let v1577 : Index := Scalar.indexCast v1576
  ![v1577.toNat]
def k0_off352 (v1578 : BitVec 32) : Fin 2 → Nat :=
  let c0_i32_703 : BitVec 32 := 0#32
  ![v1578.toNat, 0]

def k0_chk176 (v1578 : BitVec 32) : Prop :=
  (∀ a, (k0_off352 v1578) a + S1x1024.size a ≤ S32768x1024.size a)
instance k0_chk176.dec : ∀ (v1578 : BitVec 32), Decidable (k0_chk176 v1578) := fun v1578 => decidable_of_iff' _ (Iff.of_eq (k0_chk176.eq_1 v1578))
theorem k0_off352_inb : ∀ (v1578 : BitVec 32) (k0_hw176 : k0_chk176 v1578), ∀ a, (k0_off352 v1578) a + S1x1024.size a ≤ S32768x1024.size a := fun v1578 k0_hw176 => k0_hw176

def k0_off353 (i : grid0.Coords) : Fin 1 → Nat :=
  let arg0 : BitVec 32 := BitVec.ofNat 32 (i 0).val
  let c256_i32 : BitVec 32 := 256#32
  let v0 : BitVec 32 := Scalar.muli arg0 c256_i32
  let c176_i32 : BitVec 32 := 176#32
  let v1585 : BitVec 32 := Scalar.addi v0 c176_i32
  let v1586 : Index := Scalar.indexCast v1585
  ![v1586.toNat]
def k0_off354 (v1587 : BitVec 32) : Fin 2 → Nat :=
  let c0_i32_707 : BitVec 32 := 0#32
  ![v1587.toNat, 0]

def k0_chk177 (v1587 : BitVec 32) : Prop :=
  (∀ a, (k0_off354 v1587) a + S1x1024.size a ≤ S32768x1024.size a)
instance k0_chk177.dec : ∀ (v1587 : BitVec 32), Decidable (k0_chk177 v1587) := fun v1587 => decidable_of_iff' _ (Iff.of_eq (k0_chk177.eq_1 v1587))
theorem k0_off354_inb : ∀ (v1587 : BitVec 32) (k0_hw177 : k0_chk177 v1587), ∀ a, (k0_off354 v1587) a + S1x1024.size a ≤ S32768x1024.size a := fun v1587 k0_hw177 => k0_hw177

def k0_off355 (i : grid0.Coords) : Fin 1 → Nat :=
  let arg0 : BitVec 32 := BitVec.ofNat 32 (i 0).val
  let c256_i32 : BitVec 32 := 256#32
  let v0 : BitVec 32 := Scalar.muli arg0 c256_i32
  let c177_i32 : BitVec 32 := 177#32
  let v1594 : BitVec 32 := Scalar.addi v0 c177_i32
  let v1595 : Index := Scalar.indexCast v1594
  ![v1595.toNat]
def k0_off356 (v1596 : BitVec 32) : Fin 2 → Nat :=
  let c0_i32_711 : BitVec 32 := 0#32
  ![v1596.toNat, 0]

def k0_chk178 (v1596 : BitVec 32) : Prop :=
  (∀ a, (k0_off356 v1596) a + S1x1024.size a ≤ S32768x1024.size a)
instance k0_chk178.dec : ∀ (v1596 : BitVec 32), Decidable (k0_chk178 v1596) := fun v1596 => decidable_of_iff' _ (Iff.of_eq (k0_chk178.eq_1 v1596))
theorem k0_off356_inb : ∀ (v1596 : BitVec 32) (k0_hw178 : k0_chk178 v1596), ∀ a, (k0_off356 v1596) a + S1x1024.size a ≤ S32768x1024.size a := fun v1596 k0_hw178 => k0_hw178

def k0_off357 (i : grid0.Coords) : Fin 1 → Nat :=
  let arg0 : BitVec 32 := BitVec.ofNat 32 (i 0).val
  let c256_i32 : BitVec 32 := 256#32
  let v0 : BitVec 32 := Scalar.muli arg0 c256_i32
  let c178_i32 : BitVec 32 := 178#32
  let v1603 : BitVec 32 := Scalar.addi v0 c178_i32
  let v1604 : Index := Scalar.indexCast v1603
  ![v1604.toNat]
def k0_off358 (v1605 : BitVec 32) : Fin 2 → Nat :=
  let c0_i32_715 : BitVec 32 := 0#32
  ![v1605.toNat, 0]

def k0_chk179 (v1605 : BitVec 32) : Prop :=
  (∀ a, (k0_off358 v1605) a + S1x1024.size a ≤ S32768x1024.size a)
instance k0_chk179.dec : ∀ (v1605 : BitVec 32), Decidable (k0_chk179 v1605) := fun v1605 => decidable_of_iff' _ (Iff.of_eq (k0_chk179.eq_1 v1605))
theorem k0_off358_inb : ∀ (v1605 : BitVec 32) (k0_hw179 : k0_chk179 v1605), ∀ a, (k0_off358 v1605) a + S1x1024.size a ≤ S32768x1024.size a := fun v1605 k0_hw179 => k0_hw179

def k0_off359 (i : grid0.Coords) : Fin 1 → Nat :=
  let arg0 : BitVec 32 := BitVec.ofNat 32 (i 0).val
  let c256_i32 : BitVec 32 := 256#32
  let v0 : BitVec 32 := Scalar.muli arg0 c256_i32
  let c179_i32 : BitVec 32 := 179#32
  let v1612 : BitVec 32 := Scalar.addi v0 c179_i32
  let v1613 : Index := Scalar.indexCast v1612
  ![v1613.toNat]
def k0_off360 (v1614 : BitVec 32) : Fin 2 → Nat :=
  let c0_i32_719 : BitVec 32 := 0#32
  ![v1614.toNat, 0]

def k0_chk180 (v1614 : BitVec 32) : Prop :=
  (∀ a, (k0_off360 v1614) a + S1x1024.size a ≤ S32768x1024.size a)
instance k0_chk180.dec : ∀ (v1614 : BitVec 32), Decidable (k0_chk180 v1614) := fun v1614 => decidable_of_iff' _ (Iff.of_eq (k0_chk180.eq_1 v1614))
theorem k0_off360_inb : ∀ (v1614 : BitVec 32) (k0_hw180 : k0_chk180 v1614), ∀ a, (k0_off360 v1614) a + S1x1024.size a ≤ S32768x1024.size a := fun v1614 k0_hw180 => k0_hw180

def k0_off361 (i : grid0.Coords) : Fin 1 → Nat :=
  let arg0 : BitVec 32 := BitVec.ofNat 32 (i 0).val
  let c256_i32 : BitVec 32 := 256#32
  let v0 : BitVec 32 := Scalar.muli arg0 c256_i32
  let c180_i32 : BitVec 32 := 180#32
  let v1621 : BitVec 32 := Scalar.addi v0 c180_i32
  let v1622 : Index := Scalar.indexCast v1621
  ![v1622.toNat]
def k0_off362 (v1623 : BitVec 32) : Fin 2 → Nat :=
  let c0_i32_723 : BitVec 32 := 0#32
  ![v1623.toNat, 0]

def k0_chk181 (v1623 : BitVec 32) : Prop :=
  (∀ a, (k0_off362 v1623) a + S1x1024.size a ≤ S32768x1024.size a)
instance k0_chk181.dec : ∀ (v1623 : BitVec 32), Decidable (k0_chk181 v1623) := fun v1623 => decidable_of_iff' _ (Iff.of_eq (k0_chk181.eq_1 v1623))
theorem k0_off362_inb : ∀ (v1623 : BitVec 32) (k0_hw181 : k0_chk181 v1623), ∀ a, (k0_off362 v1623) a + S1x1024.size a ≤ S32768x1024.size a := fun v1623 k0_hw181 => k0_hw181

def k0_off363 (i : grid0.Coords) : Fin 1 → Nat :=
  let arg0 : BitVec 32 := BitVec.ofNat 32 (i 0).val
  let c256_i32 : BitVec 32 := 256#32
  let v0 : BitVec 32 := Scalar.muli arg0 c256_i32
  let c181_i32 : BitVec 32 := 181#32
  let v1630 : BitVec 32 := Scalar.addi v0 c181_i32
  let v1631 : Index := Scalar.indexCast v1630
  ![v1631.toNat]
def k0_off364 (v1632 : BitVec 32) : Fin 2 → Nat :=
  let c0_i32_727 : BitVec 32 := 0#32
  ![v1632.toNat, 0]

def k0_chk182 (v1632 : BitVec 32) : Prop :=
  (∀ a, (k0_off364 v1632) a + S1x1024.size a ≤ S32768x1024.size a)
instance k0_chk182.dec : ∀ (v1632 : BitVec 32), Decidable (k0_chk182 v1632) := fun v1632 => decidable_of_iff' _ (Iff.of_eq (k0_chk182.eq_1 v1632))
theorem k0_off364_inb : ∀ (v1632 : BitVec 32) (k0_hw182 : k0_chk182 v1632), ∀ a, (k0_off364 v1632) a + S1x1024.size a ≤ S32768x1024.size a := fun v1632 k0_hw182 => k0_hw182

def k0_off365 (i : grid0.Coords) : Fin 1 → Nat :=
  let arg0 : BitVec 32 := BitVec.ofNat 32 (i 0).val
  let c256_i32 : BitVec 32 := 256#32
  let v0 : BitVec 32 := Scalar.muli arg0 c256_i32
  let c182_i32 : BitVec 32 := 182#32
  let v1639 : BitVec 32 := Scalar.addi v0 c182_i32
  let v1640 : Index := Scalar.indexCast v1639
  ![v1640.toNat]
def k0_off366 (v1641 : BitVec 32) : Fin 2 → Nat :=
  let c0_i32_731 : BitVec 32 := 0#32
  ![v1641.toNat, 0]

def k0_chk183 (v1641 : BitVec 32) : Prop :=
  (∀ a, (k0_off366 v1641) a + S1x1024.size a ≤ S32768x1024.size a)
instance k0_chk183.dec : ∀ (v1641 : BitVec 32), Decidable (k0_chk183 v1641) := fun v1641 => decidable_of_iff' _ (Iff.of_eq (k0_chk183.eq_1 v1641))
theorem k0_off366_inb : ∀ (v1641 : BitVec 32) (k0_hw183 : k0_chk183 v1641), ∀ a, (k0_off366 v1641) a + S1x1024.size a ≤ S32768x1024.size a := fun v1641 k0_hw183 => k0_hw183

def k0_off367 (i : grid0.Coords) : Fin 1 → Nat :=
  let arg0 : BitVec 32 := BitVec.ofNat 32 (i 0).val
  let c256_i32 : BitVec 32 := 256#32
  let v0 : BitVec 32 := Scalar.muli arg0 c256_i32
  let c183_i32 : BitVec 32 := 183#32
  let v1648 : BitVec 32 := Scalar.addi v0 c183_i32
  let v1649 : Index := Scalar.indexCast v1648
  ![v1649.toNat]
def k0_off368 (v1650 : BitVec 32) : Fin 2 → Nat :=
  let c0_i32_735 : BitVec 32 := 0#32
  ![v1650.toNat, 0]

def k0_chk184 (v1650 : BitVec 32) : Prop :=
  (∀ a, (k0_off368 v1650) a + S1x1024.size a ≤ S32768x1024.size a)
instance k0_chk184.dec : ∀ (v1650 : BitVec 32), Decidable (k0_chk184 v1650) := fun v1650 => decidable_of_iff' _ (Iff.of_eq (k0_chk184.eq_1 v1650))
theorem k0_off368_inb : ∀ (v1650 : BitVec 32) (k0_hw184 : k0_chk184 v1650), ∀ a, (k0_off368 v1650) a + S1x1024.size a ≤ S32768x1024.size a := fun v1650 k0_hw184 => k0_hw184

def k0_off369 (i : grid0.Coords) : Fin 1 → Nat :=
  let arg0 : BitVec 32 := BitVec.ofNat 32 (i 0).val
  let c256_i32 : BitVec 32 := 256#32
  let v0 : BitVec 32 := Scalar.muli arg0 c256_i32
  let c184_i32 : BitVec 32 := 184#32
  let v1657 : BitVec 32 := Scalar.addi v0 c184_i32
  let v1658 : Index := Scalar.indexCast v1657
  ![v1658.toNat]
def k0_off370 (v1659 : BitVec 32) : Fin 2 → Nat :=
  let c0_i32_739 : BitVec 32 := 0#32
  ![v1659.toNat, 0]

def k0_chk185 (v1659 : BitVec 32) : Prop :=
  (∀ a, (k0_off370 v1659) a + S1x1024.size a ≤ S32768x1024.size a)
instance k0_chk185.dec : ∀ (v1659 : BitVec 32), Decidable (k0_chk185 v1659) := fun v1659 => decidable_of_iff' _ (Iff.of_eq (k0_chk185.eq_1 v1659))
theorem k0_off370_inb : ∀ (v1659 : BitVec 32) (k0_hw185 : k0_chk185 v1659), ∀ a, (k0_off370 v1659) a + S1x1024.size a ≤ S32768x1024.size a := fun v1659 k0_hw185 => k0_hw185

def k0_off371 (i : grid0.Coords) : Fin 1 → Nat :=
  let arg0 : BitVec 32 := BitVec.ofNat 32 (i 0).val
  let c256_i32 : BitVec 32 := 256#32
  let v0 : BitVec 32 := Scalar.muli arg0 c256_i32
  let c185_i32 : BitVec 32 := 185#32
  let v1666 : BitVec 32 := Scalar.addi v0 c185_i32
  let v1667 : Index := Scalar.indexCast v1666
  ![v1667.toNat]
def k0_off372 (v1668 : BitVec 32) : Fin 2 → Nat :=
  let c0_i32_743 : BitVec 32 := 0#32
  ![v1668.toNat, 0]

def k0_chk186 (v1668 : BitVec 32) : Prop :=
  (∀ a, (k0_off372 v1668) a + S1x1024.size a ≤ S32768x1024.size a)
instance k0_chk186.dec : ∀ (v1668 : BitVec 32), Decidable (k0_chk186 v1668) := fun v1668 => decidable_of_iff' _ (Iff.of_eq (k0_chk186.eq_1 v1668))
theorem k0_off372_inb : ∀ (v1668 : BitVec 32) (k0_hw186 : k0_chk186 v1668), ∀ a, (k0_off372 v1668) a + S1x1024.size a ≤ S32768x1024.size a := fun v1668 k0_hw186 => k0_hw186

def k0_off373 (i : grid0.Coords) : Fin 1 → Nat :=
  let arg0 : BitVec 32 := BitVec.ofNat 32 (i 0).val
  let c256_i32 : BitVec 32 := 256#32
  let v0 : BitVec 32 := Scalar.muli arg0 c256_i32
  let c186_i32 : BitVec 32 := 186#32
  let v1675 : BitVec 32 := Scalar.addi v0 c186_i32
  let v1676 : Index := Scalar.indexCast v1675
  ![v1676.toNat]
def k0_off374 (v1677 : BitVec 32) : Fin 2 → Nat :=
  let c0_i32_747 : BitVec 32 := 0#32
  ![v1677.toNat, 0]

def k0_chk187 (v1677 : BitVec 32) : Prop :=
  (∀ a, (k0_off374 v1677) a + S1x1024.size a ≤ S32768x1024.size a)
instance k0_chk187.dec : ∀ (v1677 : BitVec 32), Decidable (k0_chk187 v1677) := fun v1677 => decidable_of_iff' _ (Iff.of_eq (k0_chk187.eq_1 v1677))
theorem k0_off374_inb : ∀ (v1677 : BitVec 32) (k0_hw187 : k0_chk187 v1677), ∀ a, (k0_off374 v1677) a + S1x1024.size a ≤ S32768x1024.size a := fun v1677 k0_hw187 => k0_hw187

def k0_off375 (i : grid0.Coords) : Fin 1 → Nat :=
  let arg0 : BitVec 32 := BitVec.ofNat 32 (i 0).val
  let c256_i32 : BitVec 32 := 256#32
  let v0 : BitVec 32 := Scalar.muli arg0 c256_i32
  let c187_i32 : BitVec 32 := 187#32
  let v1684 : BitVec 32 := Scalar.addi v0 c187_i32
  let v1685 : Index := Scalar.indexCast v1684
  ![v1685.toNat]
def k0_off376 (v1686 : BitVec 32) : Fin 2 → Nat :=
  let c0_i32_751 : BitVec 32 := 0#32
  ![v1686.toNat, 0]

def k0_chk188 (v1686 : BitVec 32) : Prop :=
  (∀ a, (k0_off376 v1686) a + S1x1024.size a ≤ S32768x1024.size a)
instance k0_chk188.dec : ∀ (v1686 : BitVec 32), Decidable (k0_chk188 v1686) := fun v1686 => decidable_of_iff' _ (Iff.of_eq (k0_chk188.eq_1 v1686))
theorem k0_off376_inb : ∀ (v1686 : BitVec 32) (k0_hw188 : k0_chk188 v1686), ∀ a, (k0_off376 v1686) a + S1x1024.size a ≤ S32768x1024.size a := fun v1686 k0_hw188 => k0_hw188

def k0_off377 (i : grid0.Coords) : Fin 1 → Nat :=
  let arg0 : BitVec 32 := BitVec.ofNat 32 (i 0).val
  let c256_i32 : BitVec 32 := 256#32
  let v0 : BitVec 32 := Scalar.muli arg0 c256_i32
  let c188_i32 : BitVec 32 := 188#32
  let v1693 : BitVec 32 := Scalar.addi v0 c188_i32
  let v1694 : Index := Scalar.indexCast v1693
  ![v1694.toNat]
def k0_off378 (v1695 : BitVec 32) : Fin 2 → Nat :=
  let c0_i32_755 : BitVec 32 := 0#32
  ![v1695.toNat, 0]

def k0_chk189 (v1695 : BitVec 32) : Prop :=
  (∀ a, (k0_off378 v1695) a + S1x1024.size a ≤ S32768x1024.size a)
instance k0_chk189.dec : ∀ (v1695 : BitVec 32), Decidable (k0_chk189 v1695) := fun v1695 => decidable_of_iff' _ (Iff.of_eq (k0_chk189.eq_1 v1695))
theorem k0_off378_inb : ∀ (v1695 : BitVec 32) (k0_hw189 : k0_chk189 v1695), ∀ a, (k0_off378 v1695) a + S1x1024.size a ≤ S32768x1024.size a := fun v1695 k0_hw189 => k0_hw189

def k0_off379 (i : grid0.Coords) : Fin 1 → Nat :=
  let arg0 : BitVec 32 := BitVec.ofNat 32 (i 0).val
  let c256_i32 : BitVec 32 := 256#32
  let v0 : BitVec 32 := Scalar.muli arg0 c256_i32
  let c189_i32 : BitVec 32 := 189#32
  let v1702 : BitVec 32 := Scalar.addi v0 c189_i32
  let v1703 : Index := Scalar.indexCast v1702
  ![v1703.toNat]
def k0_off380 (v1704 : BitVec 32) : Fin 2 → Nat :=
  let c0_i32_759 : BitVec 32 := 0#32
  ![v1704.toNat, 0]

def k0_chk190 (v1704 : BitVec 32) : Prop :=
  (∀ a, (k0_off380 v1704) a + S1x1024.size a ≤ S32768x1024.size a)
instance k0_chk190.dec : ∀ (v1704 : BitVec 32), Decidable (k0_chk190 v1704) := fun v1704 => decidable_of_iff' _ (Iff.of_eq (k0_chk190.eq_1 v1704))
theorem k0_off380_inb : ∀ (v1704 : BitVec 32) (k0_hw190 : k0_chk190 v1704), ∀ a, (k0_off380 v1704) a + S1x1024.size a ≤ S32768x1024.size a := fun v1704 k0_hw190 => k0_hw190

def k0_off381 (i : grid0.Coords) : Fin 1 → Nat :=
  let arg0 : BitVec 32 := BitVec.ofNat 32 (i 0).val
  let c256_i32 : BitVec 32 := 256#32
  let v0 : BitVec 32 := Scalar.muli arg0 c256_i32
  let c190_i32 : BitVec 32 := 190#32
  let v1711 : BitVec 32 := Scalar.addi v0 c190_i32
  let v1712 : Index := Scalar.indexCast v1711
  ![v1712.toNat]
def k0_off382 (v1713 : BitVec 32) : Fin 2 → Nat :=
  let c0_i32_763 : BitVec 32 := 0#32
  ![v1713.toNat, 0]

def k0_chk191 (v1713 : BitVec 32) : Prop :=
  (∀ a, (k0_off382 v1713) a + S1x1024.size a ≤ S32768x1024.size a)
instance k0_chk191.dec : ∀ (v1713 : BitVec 32), Decidable (k0_chk191 v1713) := fun v1713 => decidable_of_iff' _ (Iff.of_eq (k0_chk191.eq_1 v1713))
theorem k0_off382_inb : ∀ (v1713 : BitVec 32) (k0_hw191 : k0_chk191 v1713), ∀ a, (k0_off382 v1713) a + S1x1024.size a ≤ S32768x1024.size a := fun v1713 k0_hw191 => k0_hw191

def k0_off383 (i : grid0.Coords) : Fin 1 → Nat :=
  let arg0 : BitVec 32 := BitVec.ofNat 32 (i 0).val
  let c256_i32 : BitVec 32 := 256#32
  let v0 : BitVec 32 := Scalar.muli arg0 c256_i32
  let c191_i32 : BitVec 32 := 191#32
  let v1720 : BitVec 32 := Scalar.addi v0 c191_i32
  let v1721 : Index := Scalar.indexCast v1720
  ![v1721.toNat]
def k0_off384 (v1722 : BitVec 32) : Fin 2 → Nat :=
  let c0_i32_767 : BitVec 32 := 0#32
  ![v1722.toNat, 0]

def k0_chk192 (v1722 : BitVec 32) : Prop :=
  (∀ a, (k0_off384 v1722) a + S1x1024.size a ≤ S32768x1024.size a)
instance k0_chk192.dec : ∀ (v1722 : BitVec 32), Decidable (k0_chk192 v1722) := fun v1722 => decidable_of_iff' _ (Iff.of_eq (k0_chk192.eq_1 v1722))
theorem k0_off384_inb : ∀ (v1722 : BitVec 32) (k0_hw192 : k0_chk192 v1722), ∀ a, (k0_off384 v1722) a + S1x1024.size a ≤ S32768x1024.size a := fun v1722 k0_hw192 => k0_hw192

def k0_off385 (i : grid0.Coords) : Fin 1 → Nat :=
  let arg0 : BitVec 32 := BitVec.ofNat 32 (i 0).val
  let c256_i32 : BitVec 32 := 256#32
  let v0 : BitVec 32 := Scalar.muli arg0 c256_i32
  let c192_i32 : BitVec 32 := 192#32
  let v1729 : BitVec 32 := Scalar.addi v0 c192_i32
  let v1730 : Index := Scalar.indexCast v1729
  ![v1730.toNat]
def k0_off386 (v1731 : BitVec 32) : Fin 2 → Nat :=
  let c0_i32_771 : BitVec 32 := 0#32
  ![v1731.toNat, 0]

def k0_chk193 (v1731 : BitVec 32) : Prop :=
  (∀ a, (k0_off386 v1731) a + S1x1024.size a ≤ S32768x1024.size a)
instance k0_chk193.dec : ∀ (v1731 : BitVec 32), Decidable (k0_chk193 v1731) := fun v1731 => decidable_of_iff' _ (Iff.of_eq (k0_chk193.eq_1 v1731))
theorem k0_off386_inb : ∀ (v1731 : BitVec 32) (k0_hw193 : k0_chk193 v1731), ∀ a, (k0_off386 v1731) a + S1x1024.size a ≤ S32768x1024.size a := fun v1731 k0_hw193 => k0_hw193

def k0_off387 (i : grid0.Coords) : Fin 1 → Nat :=
  let arg0 : BitVec 32 := BitVec.ofNat 32 (i 0).val
  let c256_i32 : BitVec 32 := 256#32
  let v0 : BitVec 32 := Scalar.muli arg0 c256_i32
  let c193_i32 : BitVec 32 := 193#32
  let v1738 : BitVec 32 := Scalar.addi v0 c193_i32
  let v1739 : Index := Scalar.indexCast v1738
  ![v1739.toNat]
def k0_off388 (v1740 : BitVec 32) : Fin 2 → Nat :=
  let c0_i32_775 : BitVec 32 := 0#32
  ![v1740.toNat, 0]

def k0_chk194 (v1740 : BitVec 32) : Prop :=
  (∀ a, (k0_off388 v1740) a + S1x1024.size a ≤ S32768x1024.size a)
instance k0_chk194.dec : ∀ (v1740 : BitVec 32), Decidable (k0_chk194 v1740) := fun v1740 => decidable_of_iff' _ (Iff.of_eq (k0_chk194.eq_1 v1740))
theorem k0_off388_inb : ∀ (v1740 : BitVec 32) (k0_hw194 : k0_chk194 v1740), ∀ a, (k0_off388 v1740) a + S1x1024.size a ≤ S32768x1024.size a := fun v1740 k0_hw194 => k0_hw194

def k0_off389 (i : grid0.Coords) : Fin 1 → Nat :=
  let arg0 : BitVec 32 := BitVec.ofNat 32 (i 0).val
  let c256_i32 : BitVec 32 := 256#32
  let v0 : BitVec 32 := Scalar.muli arg0 c256_i32
  let c194_i32 : BitVec 32 := 194#32
  let v1747 : BitVec 32 := Scalar.addi v0 c194_i32
  let v1748 : Index := Scalar.indexCast v1747
  ![v1748.toNat]
def k0_off390 (v1749 : BitVec 32) : Fin 2 → Nat :=
  let c0_i32_779 : BitVec 32 := 0#32
  ![v1749.toNat, 0]

def k0_chk195 (v1749 : BitVec 32) : Prop :=
  (∀ a, (k0_off390 v1749) a + S1x1024.size a ≤ S32768x1024.size a)
instance k0_chk195.dec : ∀ (v1749 : BitVec 32), Decidable (k0_chk195 v1749) := fun v1749 => decidable_of_iff' _ (Iff.of_eq (k0_chk195.eq_1 v1749))
theorem k0_off390_inb : ∀ (v1749 : BitVec 32) (k0_hw195 : k0_chk195 v1749), ∀ a, (k0_off390 v1749) a + S1x1024.size a ≤ S32768x1024.size a := fun v1749 k0_hw195 => k0_hw195

def k0_off391 (i : grid0.Coords) : Fin 1 → Nat :=
  let arg0 : BitVec 32 := BitVec.ofNat 32 (i 0).val
  let c256_i32 : BitVec 32 := 256#32
  let v0 : BitVec 32 := Scalar.muli arg0 c256_i32
  let c195_i32 : BitVec 32 := 195#32
  let v1756 : BitVec 32 := Scalar.addi v0 c195_i32
  let v1757 : Index := Scalar.indexCast v1756
  ![v1757.toNat]
def k0_off392 (v1758 : BitVec 32) : Fin 2 → Nat :=
  let c0_i32_783 : BitVec 32 := 0#32
  ![v1758.toNat, 0]

def k0_chk196 (v1758 : BitVec 32) : Prop :=
  (∀ a, (k0_off392 v1758) a + S1x1024.size a ≤ S32768x1024.size a)
instance k0_chk196.dec : ∀ (v1758 : BitVec 32), Decidable (k0_chk196 v1758) := fun v1758 => decidable_of_iff' _ (Iff.of_eq (k0_chk196.eq_1 v1758))
theorem k0_off392_inb : ∀ (v1758 : BitVec 32) (k0_hw196 : k0_chk196 v1758), ∀ a, (k0_off392 v1758) a + S1x1024.size a ≤ S32768x1024.size a := fun v1758 k0_hw196 => k0_hw196

def k0_off393 (i : grid0.Coords) : Fin 1 → Nat :=
  let arg0 : BitVec 32 := BitVec.ofNat 32 (i 0).val
  let c256_i32 : BitVec 32 := 256#32
  let v0 : BitVec 32 := Scalar.muli arg0 c256_i32
  let c196_i32 : BitVec 32 := 196#32
  let v1765 : BitVec 32 := Scalar.addi v0 c196_i32
  let v1766 : Index := Scalar.indexCast v1765
  ![v1766.toNat]
def k0_off394 (v1767 : BitVec 32) : Fin 2 → Nat :=
  let c0_i32_787 : BitVec 32 := 0#32
  ![v1767.toNat, 0]

def k0_chk197 (v1767 : BitVec 32) : Prop :=
  (∀ a, (k0_off394 v1767) a + S1x1024.size a ≤ S32768x1024.size a)
instance k0_chk197.dec : ∀ (v1767 : BitVec 32), Decidable (k0_chk197 v1767) := fun v1767 => decidable_of_iff' _ (Iff.of_eq (k0_chk197.eq_1 v1767))
theorem k0_off394_inb : ∀ (v1767 : BitVec 32) (k0_hw197 : k0_chk197 v1767), ∀ a, (k0_off394 v1767) a + S1x1024.size a ≤ S32768x1024.size a := fun v1767 k0_hw197 => k0_hw197

def k0_off395 (i : grid0.Coords) : Fin 1 → Nat :=
  let arg0 : BitVec 32 := BitVec.ofNat 32 (i 0).val
  let c256_i32 : BitVec 32 := 256#32
  let v0 : BitVec 32 := Scalar.muli arg0 c256_i32
  let c197_i32 : BitVec 32 := 197#32
  let v1774 : BitVec 32 := Scalar.addi v0 c197_i32
  let v1775 : Index := Scalar.indexCast v1774
  ![v1775.toNat]
def k0_off396 (v1776 : BitVec 32) : Fin 2 → Nat :=
  let c0_i32_791 : BitVec 32 := 0#32
  ![v1776.toNat, 0]

def k0_chk198 (v1776 : BitVec 32) : Prop :=
  (∀ a, (k0_off396 v1776) a + S1x1024.size a ≤ S32768x1024.size a)
instance k0_chk198.dec : ∀ (v1776 : BitVec 32), Decidable (k0_chk198 v1776) := fun v1776 => decidable_of_iff' _ (Iff.of_eq (k0_chk198.eq_1 v1776))
theorem k0_off396_inb : ∀ (v1776 : BitVec 32) (k0_hw198 : k0_chk198 v1776), ∀ a, (k0_off396 v1776) a + S1x1024.size a ≤ S32768x1024.size a := fun v1776 k0_hw198 => k0_hw198

def k0_off397 (i : grid0.Coords) : Fin 1 → Nat :=
  let arg0 : BitVec 32 := BitVec.ofNat 32 (i 0).val
  let c256_i32 : BitVec 32 := 256#32
  let v0 : BitVec 32 := Scalar.muli arg0 c256_i32
  let c198_i32 : BitVec 32 := 198#32
  let v1783 : BitVec 32 := Scalar.addi v0 c198_i32
  let v1784 : Index := Scalar.indexCast v1783
  ![v1784.toNat]
def k0_off398 (v1785 : BitVec 32) : Fin 2 → Nat :=
  let c0_i32_795 : BitVec 32 := 0#32
  ![v1785.toNat, 0]

def k0_chk199 (v1785 : BitVec 32) : Prop :=
  (∀ a, (k0_off398 v1785) a + S1x1024.size a ≤ S32768x1024.size a)
instance k0_chk199.dec : ∀ (v1785 : BitVec 32), Decidable (k0_chk199 v1785) := fun v1785 => decidable_of_iff' _ (Iff.of_eq (k0_chk199.eq_1 v1785))
theorem k0_off398_inb : ∀ (v1785 : BitVec 32) (k0_hw199 : k0_chk199 v1785), ∀ a, (k0_off398 v1785) a + S1x1024.size a ≤ S32768x1024.size a := fun v1785 k0_hw199 => k0_hw199

def k0_off399 (i : grid0.Coords) : Fin 1 → Nat :=
  let arg0 : BitVec 32 := BitVec.ofNat 32 (i 0).val
  let c256_i32 : BitVec 32 := 256#32
  let v0 : BitVec 32 := Scalar.muli arg0 c256_i32
  let c199_i32 : BitVec 32 := 199#32
  let v1792 : BitVec 32 := Scalar.addi v0 c199_i32
  let v1793 : Index := Scalar.indexCast v1792
  ![v1793.toNat]
def k0_off400 (v1794 : BitVec 32) : Fin 2 → Nat :=
  let c0_i32_799 : BitVec 32 := 0#32
  ![v1794.toNat, 0]

def k0_chk200 (v1794 : BitVec 32) : Prop :=
  (∀ a, (k0_off400 v1794) a + S1x1024.size a ≤ S32768x1024.size a)
instance k0_chk200.dec : ∀ (v1794 : BitVec 32), Decidable (k0_chk200 v1794) := fun v1794 => decidable_of_iff' _ (Iff.of_eq (k0_chk200.eq_1 v1794))
theorem k0_off400_inb : ∀ (v1794 : BitVec 32) (k0_hw200 : k0_chk200 v1794), ∀ a, (k0_off400 v1794) a + S1x1024.size a ≤ S32768x1024.size a := fun v1794 k0_hw200 => k0_hw200

def k0_off401 (i : grid0.Coords) : Fin 1 → Nat :=
  let arg0 : BitVec 32 := BitVec.ofNat 32 (i 0).val
  let c256_i32 : BitVec 32 := 256#32
  let v0 : BitVec 32 := Scalar.muli arg0 c256_i32
  let c200_i32 : BitVec 32 := 200#32
  let v1801 : BitVec 32 := Scalar.addi v0 c200_i32
  let v1802 : Index := Scalar.indexCast v1801
  ![v1802.toNat]
def k0_off402 (v1803 : BitVec 32) : Fin 2 → Nat :=
  let c0_i32_803 : BitVec 32 := 0#32
  ![v1803.toNat, 0]

def k0_chk201 (v1803 : BitVec 32) : Prop :=
  (∀ a, (k0_off402 v1803) a + S1x1024.size a ≤ S32768x1024.size a)
instance k0_chk201.dec : ∀ (v1803 : BitVec 32), Decidable (k0_chk201 v1803) := fun v1803 => decidable_of_iff' _ (Iff.of_eq (k0_chk201.eq_1 v1803))
theorem k0_off402_inb : ∀ (v1803 : BitVec 32) (k0_hw201 : k0_chk201 v1803), ∀ a, (k0_off402 v1803) a + S1x1024.size a ≤ S32768x1024.size a := fun v1803 k0_hw201 => k0_hw201

def k0_off403 (i : grid0.Coords) : Fin 1 → Nat :=
  let arg0 : BitVec 32 := BitVec.ofNat 32 (i 0).val
  let c256_i32 : BitVec 32 := 256#32
  let v0 : BitVec 32 := Scalar.muli arg0 c256_i32
  let c201_i32 : BitVec 32 := 201#32
  let v1810 : BitVec 32 := Scalar.addi v0 c201_i32
  let v1811 : Index := Scalar.indexCast v1810
  ![v1811.toNat]
def k0_off404 (v1812 : BitVec 32) : Fin 2 → Nat :=
  let c0_i32_807 : BitVec 32 := 0#32
  ![v1812.toNat, 0]

def k0_chk202 (v1812 : BitVec 32) : Prop :=
  (∀ a, (k0_off404 v1812) a + S1x1024.size a ≤ S32768x1024.size a)
instance k0_chk202.dec : ∀ (v1812 : BitVec 32), Decidable (k0_chk202 v1812) := fun v1812 => decidable_of_iff' _ (Iff.of_eq (k0_chk202.eq_1 v1812))
theorem k0_off404_inb : ∀ (v1812 : BitVec 32) (k0_hw202 : k0_chk202 v1812), ∀ a, (k0_off404 v1812) a + S1x1024.size a ≤ S32768x1024.size a := fun v1812 k0_hw202 => k0_hw202

def k0_off405 (i : grid0.Coords) : Fin 1 → Nat :=
  let arg0 : BitVec 32 := BitVec.ofNat 32 (i 0).val
  let c256_i32 : BitVec 32 := 256#32
  let v0 : BitVec 32 := Scalar.muli arg0 c256_i32
  let c202_i32 : BitVec 32 := 202#32
  let v1819 : BitVec 32 := Scalar.addi v0 c202_i32
  let v1820 : Index := Scalar.indexCast v1819
  ![v1820.toNat]
def k0_off406 (v1821 : BitVec 32) : Fin 2 → Nat :=
  let c0_i32_811 : BitVec 32 := 0#32
  ![v1821.toNat, 0]

def k0_chk203 (v1821 : BitVec 32) : Prop :=
  (∀ a, (k0_off406 v1821) a + S1x1024.size a ≤ S32768x1024.size a)
instance k0_chk203.dec : ∀ (v1821 : BitVec 32), Decidable (k0_chk203 v1821) := fun v1821 => decidable_of_iff' _ (Iff.of_eq (k0_chk203.eq_1 v1821))
theorem k0_off406_inb : ∀ (v1821 : BitVec 32) (k0_hw203 : k0_chk203 v1821), ∀ a, (k0_off406 v1821) a + S1x1024.size a ≤ S32768x1024.size a := fun v1821 k0_hw203 => k0_hw203

def k0_off407 (i : grid0.Coords) : Fin 1 → Nat :=
  let arg0 : BitVec 32 := BitVec.ofNat 32 (i 0).val
  let c256_i32 : BitVec 32 := 256#32
  let v0 : BitVec 32 := Scalar.muli arg0 c256_i32
  let c203_i32 : BitVec 32 := 203#32
  let v1828 : BitVec 32 := Scalar.addi v0 c203_i32
  let v1829 : Index := Scalar.indexCast v1828
  ![v1829.toNat]
def k0_off408 (v1830 : BitVec 32) : Fin 2 → Nat :=
  let c0_i32_815 : BitVec 32 := 0#32
  ![v1830.toNat, 0]

def k0_chk204 (v1830 : BitVec 32) : Prop :=
  (∀ a, (k0_off408 v1830) a + S1x1024.size a ≤ S32768x1024.size a)
instance k0_chk204.dec : ∀ (v1830 : BitVec 32), Decidable (k0_chk204 v1830) := fun v1830 => decidable_of_iff' _ (Iff.of_eq (k0_chk204.eq_1 v1830))
theorem k0_off408_inb : ∀ (v1830 : BitVec 32) (k0_hw204 : k0_chk204 v1830), ∀ a, (k0_off408 v1830) a + S1x1024.size a ≤ S32768x1024.size a := fun v1830 k0_hw204 => k0_hw204

def k0_off409 (i : grid0.Coords) : Fin 1 → Nat :=
  let arg0 : BitVec 32 := BitVec.ofNat 32 (i 0).val
  let c256_i32 : BitVec 32 := 256#32
  let v0 : BitVec 32 := Scalar.muli arg0 c256_i32
  let c204_i32 : BitVec 32 := 204#32
  let v1837 : BitVec 32 := Scalar.addi v0 c204_i32
  let v1838 : Index := Scalar.indexCast v1837
  ![v1838.toNat]
def k0_off410 (v1839 : BitVec 32) : Fin 2 → Nat :=
  let c0_i32_819 : BitVec 32 := 0#32
  ![v1839.toNat, 0]

def k0_chk205 (v1839 : BitVec 32) : Prop :=
  (∀ a, (k0_off410 v1839) a + S1x1024.size a ≤ S32768x1024.size a)
instance k0_chk205.dec : ∀ (v1839 : BitVec 32), Decidable (k0_chk205 v1839) := fun v1839 => decidable_of_iff' _ (Iff.of_eq (k0_chk205.eq_1 v1839))
theorem k0_off410_inb : ∀ (v1839 : BitVec 32) (k0_hw205 : k0_chk205 v1839), ∀ a, (k0_off410 v1839) a + S1x1024.size a ≤ S32768x1024.size a := fun v1839 k0_hw205 => k0_hw205

def k0_off411 (i : grid0.Coords) : Fin 1 → Nat :=
  let arg0 : BitVec 32 := BitVec.ofNat 32 (i 0).val
  let c256_i32 : BitVec 32 := 256#32
  let v0 : BitVec 32 := Scalar.muli arg0 c256_i32
  let c205_i32 : BitVec 32 := 205#32
  let v1846 : BitVec 32 := Scalar.addi v0 c205_i32
  let v1847 : Index := Scalar.indexCast v1846
  ![v1847.toNat]
def k0_off412 (v1848 : BitVec 32) : Fin 2 → Nat :=
  let c0_i32_823 : BitVec 32 := 0#32
  ![v1848.toNat, 0]

def k0_chk206 (v1848 : BitVec 32) : Prop :=
  (∀ a, (k0_off412 v1848) a + S1x1024.size a ≤ S32768x1024.size a)
instance k0_chk206.dec : ∀ (v1848 : BitVec 32), Decidable (k0_chk206 v1848) := fun v1848 => decidable_of_iff' _ (Iff.of_eq (k0_chk206.eq_1 v1848))
theorem k0_off412_inb : ∀ (v1848 : BitVec 32) (k0_hw206 : k0_chk206 v1848), ∀ a, (k0_off412 v1848) a + S1x1024.size a ≤ S32768x1024.size a := fun v1848 k0_hw206 => k0_hw206

def k0_off413 (i : grid0.Coords) : Fin 1 → Nat :=
  let arg0 : BitVec 32 := BitVec.ofNat 32 (i 0).val
  let c256_i32 : BitVec 32 := 256#32
  let v0 : BitVec 32 := Scalar.muli arg0 c256_i32
  let c206_i32 : BitVec 32 := 206#32
  let v1855 : BitVec 32 := Scalar.addi v0 c206_i32
  let v1856 : Index := Scalar.indexCast v1855
  ![v1856.toNat]
def k0_off414 (v1857 : BitVec 32) : Fin 2 → Nat :=
  let c0_i32_827 : BitVec 32 := 0#32
  ![v1857.toNat, 0]

def k0_chk207 (v1857 : BitVec 32) : Prop :=
  (∀ a, (k0_off414 v1857) a + S1x1024.size a ≤ S32768x1024.size a)
instance k0_chk207.dec : ∀ (v1857 : BitVec 32), Decidable (k0_chk207 v1857) := fun v1857 => decidable_of_iff' _ (Iff.of_eq (k0_chk207.eq_1 v1857))
theorem k0_off414_inb : ∀ (v1857 : BitVec 32) (k0_hw207 : k0_chk207 v1857), ∀ a, (k0_off414 v1857) a + S1x1024.size a ≤ S32768x1024.size a := fun v1857 k0_hw207 => k0_hw207

def k0_off415 (i : grid0.Coords) : Fin 1 → Nat :=
  let arg0 : BitVec 32 := BitVec.ofNat 32 (i 0).val
  let c256_i32 : BitVec 32 := 256#32
  let v0 : BitVec 32 := Scalar.muli arg0 c256_i32
  let c207_i32 : BitVec 32 := 207#32
  let v1864 : BitVec 32 := Scalar.addi v0 c207_i32
  let v1865 : Index := Scalar.indexCast v1864
  ![v1865.toNat]
def k0_off416 (v1866 : BitVec 32) : Fin 2 → Nat :=
  let c0_i32_831 : BitVec 32 := 0#32
  ![v1866.toNat, 0]

def k0_chk208 (v1866 : BitVec 32) : Prop :=
  (∀ a, (k0_off416 v1866) a + S1x1024.size a ≤ S32768x1024.size a)
instance k0_chk208.dec : ∀ (v1866 : BitVec 32), Decidable (k0_chk208 v1866) := fun v1866 => decidable_of_iff' _ (Iff.of_eq (k0_chk208.eq_1 v1866))
theorem k0_off416_inb : ∀ (v1866 : BitVec 32) (k0_hw208 : k0_chk208 v1866), ∀ a, (k0_off416 v1866) a + S1x1024.size a ≤ S32768x1024.size a := fun v1866 k0_hw208 => k0_hw208

def k0_off417 (i : grid0.Coords) : Fin 1 → Nat :=
  let arg0 : BitVec 32 := BitVec.ofNat 32 (i 0).val
  let c256_i32 : BitVec 32 := 256#32
  let v0 : BitVec 32 := Scalar.muli arg0 c256_i32
  let c208_i32 : BitVec 32 := 208#32
  let v1873 : BitVec 32 := Scalar.addi v0 c208_i32
  let v1874 : Index := Scalar.indexCast v1873
  ![v1874.toNat]
def k0_off418 (v1875 : BitVec 32) : Fin 2 → Nat :=
  let c0_i32_835 : BitVec 32 := 0#32
  ![v1875.toNat, 0]

def k0_chk209 (v1875 : BitVec 32) : Prop :=
  (∀ a, (k0_off418 v1875) a + S1x1024.size a ≤ S32768x1024.size a)
instance k0_chk209.dec : ∀ (v1875 : BitVec 32), Decidable (k0_chk209 v1875) := fun v1875 => decidable_of_iff' _ (Iff.of_eq (k0_chk209.eq_1 v1875))
theorem k0_off418_inb : ∀ (v1875 : BitVec 32) (k0_hw209 : k0_chk209 v1875), ∀ a, (k0_off418 v1875) a + S1x1024.size a ≤ S32768x1024.size a := fun v1875 k0_hw209 => k0_hw209

def k0_off419 (i : grid0.Coords) : Fin 1 → Nat :=
  let arg0 : BitVec 32 := BitVec.ofNat 32 (i 0).val
  let c256_i32 : BitVec 32 := 256#32
  let v0 : BitVec 32 := Scalar.muli arg0 c256_i32
  let c209_i32 : BitVec 32 := 209#32
  let v1882 : BitVec 32 := Scalar.addi v0 c209_i32
  let v1883 : Index := Scalar.indexCast v1882
  ![v1883.toNat]
def k0_off420 (v1884 : BitVec 32) : Fin 2 → Nat :=
  let c0_i32_839 : BitVec 32 := 0#32
  ![v1884.toNat, 0]

def k0_chk210 (v1884 : BitVec 32) : Prop :=
  (∀ a, (k0_off420 v1884) a + S1x1024.size a ≤ S32768x1024.size a)
instance k0_chk210.dec : ∀ (v1884 : BitVec 32), Decidable (k0_chk210 v1884) := fun v1884 => decidable_of_iff' _ (Iff.of_eq (k0_chk210.eq_1 v1884))
theorem k0_off420_inb : ∀ (v1884 : BitVec 32) (k0_hw210 : k0_chk210 v1884), ∀ a, (k0_off420 v1884) a + S1x1024.size a ≤ S32768x1024.size a := fun v1884 k0_hw210 => k0_hw210

def k0_off421 (i : grid0.Coords) : Fin 1 → Nat :=
  let arg0 : BitVec 32 := BitVec.ofNat 32 (i 0).val
  let c256_i32 : BitVec 32 := 256#32
  let v0 : BitVec 32 := Scalar.muli arg0 c256_i32
  let c210_i32 : BitVec 32 := 210#32
  let v1891 : BitVec 32 := Scalar.addi v0 c210_i32
  let v1892 : Index := Scalar.indexCast v1891
  ![v1892.toNat]
def k0_off422 (v1893 : BitVec 32) : Fin 2 → Nat :=
  let c0_i32_843 : BitVec 32 := 0#32
  ![v1893.toNat, 0]

def k0_chk211 (v1893 : BitVec 32) : Prop :=
  (∀ a, (k0_off422 v1893) a + S1x1024.size a ≤ S32768x1024.size a)
instance k0_chk211.dec : ∀ (v1893 : BitVec 32), Decidable (k0_chk211 v1893) := fun v1893 => decidable_of_iff' _ (Iff.of_eq (k0_chk211.eq_1 v1893))
theorem k0_off422_inb : ∀ (v1893 : BitVec 32) (k0_hw211 : k0_chk211 v1893), ∀ a, (k0_off422 v1893) a + S1x1024.size a ≤ S32768x1024.size a := fun v1893 k0_hw211 => k0_hw211

def k0_off423 (i : grid0.Coords) : Fin 1 → Nat :=
  let arg0 : BitVec 32 := BitVec.ofNat 32 (i 0).val
  let c256_i32 : BitVec 32 := 256#32
  let v0 : BitVec 32 := Scalar.muli arg0 c256_i32
  let c211_i32 : BitVec 32 := 211#32
  let v1900 : BitVec 32 := Scalar.addi v0 c211_i32
  let v1901 : Index := Scalar.indexCast v1900
  ![v1901.toNat]
def k0_off424 (v1902 : BitVec 32) : Fin 2 → Nat :=
  let c0_i32_847 : BitVec 32 := 0#32
  ![v1902.toNat, 0]

def k0_chk212 (v1902 : BitVec 32) : Prop :=
  (∀ a, (k0_off424 v1902) a + S1x1024.size a ≤ S32768x1024.size a)
instance k0_chk212.dec : ∀ (v1902 : BitVec 32), Decidable (k0_chk212 v1902) := fun v1902 => decidable_of_iff' _ (Iff.of_eq (k0_chk212.eq_1 v1902))
theorem k0_off424_inb : ∀ (v1902 : BitVec 32) (k0_hw212 : k0_chk212 v1902), ∀ a, (k0_off424 v1902) a + S1x1024.size a ≤ S32768x1024.size a := fun v1902 k0_hw212 => k0_hw212

def k0_off425 (i : grid0.Coords) : Fin 1 → Nat :=
  let arg0 : BitVec 32 := BitVec.ofNat 32 (i 0).val
  let c256_i32 : BitVec 32 := 256#32
  let v0 : BitVec 32 := Scalar.muli arg0 c256_i32
  let c212_i32 : BitVec 32 := 212#32
  let v1909 : BitVec 32 := Scalar.addi v0 c212_i32
  let v1910 : Index := Scalar.indexCast v1909
  ![v1910.toNat]
def k0_off426 (v1911 : BitVec 32) : Fin 2 → Nat :=
  let c0_i32_851 : BitVec 32 := 0#32
  ![v1911.toNat, 0]

def k0_chk213 (v1911 : BitVec 32) : Prop :=
  (∀ a, (k0_off426 v1911) a + S1x1024.size a ≤ S32768x1024.size a)
instance k0_chk213.dec : ∀ (v1911 : BitVec 32), Decidable (k0_chk213 v1911) := fun v1911 => decidable_of_iff' _ (Iff.of_eq (k0_chk213.eq_1 v1911))
theorem k0_off426_inb : ∀ (v1911 : BitVec 32) (k0_hw213 : k0_chk213 v1911), ∀ a, (k0_off426 v1911) a + S1x1024.size a ≤ S32768x1024.size a := fun v1911 k0_hw213 => k0_hw213

def k0_off427 (i : grid0.Coords) : Fin 1 → Nat :=
  let arg0 : BitVec 32 := BitVec.ofNat 32 (i 0).val
  let c256_i32 : BitVec 32 := 256#32
  let v0 : BitVec 32 := Scalar.muli arg0 c256_i32
  let c213_i32 : BitVec 32 := 213#32
  let v1918 : BitVec 32 := Scalar.addi v0 c213_i32
  let v1919 : Index := Scalar.indexCast v1918
  ![v1919.toNat]
def k0_off428 (v1920 : BitVec 32) : Fin 2 → Nat :=
  let c0_i32_855 : BitVec 32 := 0#32
  ![v1920.toNat, 0]

def k0_chk214 (v1920 : BitVec 32) : Prop :=
  (∀ a, (k0_off428 v1920) a + S1x1024.size a ≤ S32768x1024.size a)
instance k0_chk214.dec : ∀ (v1920 : BitVec 32), Decidable (k0_chk214 v1920) := fun v1920 => decidable_of_iff' _ (Iff.of_eq (k0_chk214.eq_1 v1920))
theorem k0_off428_inb : ∀ (v1920 : BitVec 32) (k0_hw214 : k0_chk214 v1920), ∀ a, (k0_off428 v1920) a + S1x1024.size a ≤ S32768x1024.size a := fun v1920 k0_hw214 => k0_hw214

def k0_off429 (i : grid0.Coords) : Fin 1 → Nat :=
  let arg0 : BitVec 32 := BitVec.ofNat 32 (i 0).val
  let c256_i32 : BitVec 32 := 256#32
  let v0 : BitVec 32 := Scalar.muli arg0 c256_i32
  let c214_i32 : BitVec 32 := 214#32
  let v1927 : BitVec 32 := Scalar.addi v0 c214_i32
  let v1928 : Index := Scalar.indexCast v1927
  ![v1928.toNat]
def k0_off430 (v1929 : BitVec 32) : Fin 2 → Nat :=
  let c0_i32_859 : BitVec 32 := 0#32
  ![v1929.toNat, 0]

def k0_chk215 (v1929 : BitVec 32) : Prop :=
  (∀ a, (k0_off430 v1929) a + S1x1024.size a ≤ S32768x1024.size a)
instance k0_chk215.dec : ∀ (v1929 : BitVec 32), Decidable (k0_chk215 v1929) := fun v1929 => decidable_of_iff' _ (Iff.of_eq (k0_chk215.eq_1 v1929))
theorem k0_off430_inb : ∀ (v1929 : BitVec 32) (k0_hw215 : k0_chk215 v1929), ∀ a, (k0_off430 v1929) a + S1x1024.size a ≤ S32768x1024.size a := fun v1929 k0_hw215 => k0_hw215

def k0_off431 (i : grid0.Coords) : Fin 1 → Nat :=
  let arg0 : BitVec 32 := BitVec.ofNat 32 (i 0).val
  let c256_i32 : BitVec 32 := 256#32
  let v0 : BitVec 32 := Scalar.muli arg0 c256_i32
  let c215_i32 : BitVec 32 := 215#32
  let v1936 : BitVec 32 := Scalar.addi v0 c215_i32
  let v1937 : Index := Scalar.indexCast v1936
  ![v1937.toNat]
def k0_off432 (v1938 : BitVec 32) : Fin 2 → Nat :=
  let c0_i32_863 : BitVec 32 := 0#32
  ![v1938.toNat, 0]

def k0_chk216 (v1938 : BitVec 32) : Prop :=
  (∀ a, (k0_off432 v1938) a + S1x1024.size a ≤ S32768x1024.size a)
instance k0_chk216.dec : ∀ (v1938 : BitVec 32), Decidable (k0_chk216 v1938) := fun v1938 => decidable_of_iff' _ (Iff.of_eq (k0_chk216.eq_1 v1938))
theorem k0_off432_inb : ∀ (v1938 : BitVec 32) (k0_hw216 : k0_chk216 v1938), ∀ a, (k0_off432 v1938) a + S1x1024.size a ≤ S32768x1024.size a := fun v1938 k0_hw216 => k0_hw216

def k0_off433 (i : grid0.Coords) : Fin 1 → Nat :=
  let arg0 : BitVec 32 := BitVec.ofNat 32 (i 0).val
  let c256_i32 : BitVec 32 := 256#32
  let v0 : BitVec 32 := Scalar.muli arg0 c256_i32
  let c216_i32 : BitVec 32 := 216#32
  let v1945 : BitVec 32 := Scalar.addi v0 c216_i32
  let v1946 : Index := Scalar.indexCast v1945
  ![v1946.toNat]
def k0_off434 (v1947 : BitVec 32) : Fin 2 → Nat :=
  let c0_i32_867 : BitVec 32 := 0#32
  ![v1947.toNat, 0]

def k0_chk217 (v1947 : BitVec 32) : Prop :=
  (∀ a, (k0_off434 v1947) a + S1x1024.size a ≤ S32768x1024.size a)
instance k0_chk217.dec : ∀ (v1947 : BitVec 32), Decidable (k0_chk217 v1947) := fun v1947 => decidable_of_iff' _ (Iff.of_eq (k0_chk217.eq_1 v1947))
theorem k0_off434_inb : ∀ (v1947 : BitVec 32) (k0_hw217 : k0_chk217 v1947), ∀ a, (k0_off434 v1947) a + S1x1024.size a ≤ S32768x1024.size a := fun v1947 k0_hw217 => k0_hw217

def k0_off435 (i : grid0.Coords) : Fin 1 → Nat :=
  let arg0 : BitVec 32 := BitVec.ofNat 32 (i 0).val
  let c256_i32 : BitVec 32 := 256#32
  let v0 : BitVec 32 := Scalar.muli arg0 c256_i32
  let c217_i32 : BitVec 32 := 217#32
  let v1954 : BitVec 32 := Scalar.addi v0 c217_i32
  let v1955 : Index := Scalar.indexCast v1954
  ![v1955.toNat]
def k0_off436 (v1956 : BitVec 32) : Fin 2 → Nat :=
  let c0_i32_871 : BitVec 32 := 0#32
  ![v1956.toNat, 0]

def k0_chk218 (v1956 : BitVec 32) : Prop :=
  (∀ a, (k0_off436 v1956) a + S1x1024.size a ≤ S32768x1024.size a)
instance k0_chk218.dec : ∀ (v1956 : BitVec 32), Decidable (k0_chk218 v1956) := fun v1956 => decidable_of_iff' _ (Iff.of_eq (k0_chk218.eq_1 v1956))
theorem k0_off436_inb : ∀ (v1956 : BitVec 32) (k0_hw218 : k0_chk218 v1956), ∀ a, (k0_off436 v1956) a + S1x1024.size a ≤ S32768x1024.size a := fun v1956 k0_hw218 => k0_hw218

def k0_off437 (i : grid0.Coords) : Fin 1 → Nat :=
  let arg0 : BitVec 32 := BitVec.ofNat 32 (i 0).val
  let c256_i32 : BitVec 32 := 256#32
  let v0 : BitVec 32 := Scalar.muli arg0 c256_i32
  let c218_i32 : BitVec 32 := 218#32
  let v1963 : BitVec 32 := Scalar.addi v0 c218_i32
  let v1964 : Index := Scalar.indexCast v1963
  ![v1964.toNat]
def k0_off438 (v1965 : BitVec 32) : Fin 2 → Nat :=
  let c0_i32_875 : BitVec 32 := 0#32
  ![v1965.toNat, 0]

def k0_chk219 (v1965 : BitVec 32) : Prop :=
  (∀ a, (k0_off438 v1965) a + S1x1024.size a ≤ S32768x1024.size a)
instance k0_chk219.dec : ∀ (v1965 : BitVec 32), Decidable (k0_chk219 v1965) := fun v1965 => decidable_of_iff' _ (Iff.of_eq (k0_chk219.eq_1 v1965))
theorem k0_off438_inb : ∀ (v1965 : BitVec 32) (k0_hw219 : k0_chk219 v1965), ∀ a, (k0_off438 v1965) a + S1x1024.size a ≤ S32768x1024.size a := fun v1965 k0_hw219 => k0_hw219

def k0_off439 (i : grid0.Coords) : Fin 1 → Nat :=
  let arg0 : BitVec 32 := BitVec.ofNat 32 (i 0).val
  let c256_i32 : BitVec 32 := 256#32
  let v0 : BitVec 32 := Scalar.muli arg0 c256_i32
  let c219_i32 : BitVec 32 := 219#32
  let v1972 : BitVec 32 := Scalar.addi v0 c219_i32
  let v1973 : Index := Scalar.indexCast v1972
  ![v1973.toNat]
def k0_off440 (v1974 : BitVec 32) : Fin 2 → Nat :=
  let c0_i32_879 : BitVec 32 := 0#32
  ![v1974.toNat, 0]

def k0_chk220 (v1974 : BitVec 32) : Prop :=
  (∀ a, (k0_off440 v1974) a + S1x1024.size a ≤ S32768x1024.size a)
instance k0_chk220.dec : ∀ (v1974 : BitVec 32), Decidable (k0_chk220 v1974) := fun v1974 => decidable_of_iff' _ (Iff.of_eq (k0_chk220.eq_1 v1974))
theorem k0_off440_inb : ∀ (v1974 : BitVec 32) (k0_hw220 : k0_chk220 v1974), ∀ a, (k0_off440 v1974) a + S1x1024.size a ≤ S32768x1024.size a := fun v1974 k0_hw220 => k0_hw220

def k0_off441 (i : grid0.Coords) : Fin 1 → Nat :=
  let arg0 : BitVec 32 := BitVec.ofNat 32 (i 0).val
  let c256_i32 : BitVec 32 := 256#32
  let v0 : BitVec 32 := Scalar.muli arg0 c256_i32
  let c220_i32 : BitVec 32 := 220#32
  let v1981 : BitVec 32 := Scalar.addi v0 c220_i32
  let v1982 : Index := Scalar.indexCast v1981
  ![v1982.toNat]
def k0_off442 (v1983 : BitVec 32) : Fin 2 → Nat :=
  let c0_i32_883 : BitVec 32 := 0#32
  ![v1983.toNat, 0]

def k0_chk221 (v1983 : BitVec 32) : Prop :=
  (∀ a, (k0_off442 v1983) a + S1x1024.size a ≤ S32768x1024.size a)
instance k0_chk221.dec : ∀ (v1983 : BitVec 32), Decidable (k0_chk221 v1983) := fun v1983 => decidable_of_iff' _ (Iff.of_eq (k0_chk221.eq_1 v1983))
theorem k0_off442_inb : ∀ (v1983 : BitVec 32) (k0_hw221 : k0_chk221 v1983), ∀ a, (k0_off442 v1983) a + S1x1024.size a ≤ S32768x1024.size a := fun v1983 k0_hw221 => k0_hw221

def k0_off443 (i : grid0.Coords) : Fin 1 → Nat :=
  let arg0 : BitVec 32 := BitVec.ofNat 32 (i 0).val
  let c256_i32 : BitVec 32 := 256#32
  let v0 : BitVec 32 := Scalar.muli arg0 c256_i32
  let c221_i32 : BitVec 32 := 221#32
  let v1990 : BitVec 32 := Scalar.addi v0 c221_i32
  let v1991 : Index := Scalar.indexCast v1990
  ![v1991.toNat]
def k0_off444 (v1992 : BitVec 32) : Fin 2 → Nat :=
  let c0_i32_887 : BitVec 32 := 0#32
  ![v1992.toNat, 0]

def k0_chk222 (v1992 : BitVec 32) : Prop :=
  (∀ a, (k0_off444 v1992) a + S1x1024.size a ≤ S32768x1024.size a)
instance k0_chk222.dec : ∀ (v1992 : BitVec 32), Decidable (k0_chk222 v1992) := fun v1992 => decidable_of_iff' _ (Iff.of_eq (k0_chk222.eq_1 v1992))
theorem k0_off444_inb : ∀ (v1992 : BitVec 32) (k0_hw222 : k0_chk222 v1992), ∀ a, (k0_off444 v1992) a + S1x1024.size a ≤ S32768x1024.size a := fun v1992 k0_hw222 => k0_hw222

def k0_off445 (i : grid0.Coords) : Fin 1 → Nat :=
  let arg0 : BitVec 32 := BitVec.ofNat 32 (i 0).val
  let c256_i32 : BitVec 32 := 256#32
  let v0 : BitVec 32 := Scalar.muli arg0 c256_i32
  let c222_i32 : BitVec 32 := 222#32
  let v1999 : BitVec 32 := Scalar.addi v0 c222_i32
  let v2000 : Index := Scalar.indexCast v1999
  ![v2000.toNat]
def k0_off446 (v2001 : BitVec 32) : Fin 2 → Nat :=
  let c0_i32_891 : BitVec 32 := 0#32
  ![v2001.toNat, 0]

def k0_chk223 (v2001 : BitVec 32) : Prop :=
  (∀ a, (k0_off446 v2001) a + S1x1024.size a ≤ S32768x1024.size a)
instance k0_chk223.dec : ∀ (v2001 : BitVec 32), Decidable (k0_chk223 v2001) := fun v2001 => decidable_of_iff' _ (Iff.of_eq (k0_chk223.eq_1 v2001))
theorem k0_off446_inb : ∀ (v2001 : BitVec 32) (k0_hw223 : k0_chk223 v2001), ∀ a, (k0_off446 v2001) a + S1x1024.size a ≤ S32768x1024.size a := fun v2001 k0_hw223 => k0_hw223

def k0_off447 (i : grid0.Coords) : Fin 1 → Nat :=
  let arg0 : BitVec 32 := BitVec.ofNat 32 (i 0).val
  let c256_i32 : BitVec 32 := 256#32
  let v0 : BitVec 32 := Scalar.muli arg0 c256_i32
  let c223_i32 : BitVec 32 := 223#32
  let v2008 : BitVec 32 := Scalar.addi v0 c223_i32
  let v2009 : Index := Scalar.indexCast v2008
  ![v2009.toNat]
def k0_off448 (v2010 : BitVec 32) : Fin 2 → Nat :=
  let c0_i32_895 : BitVec 32 := 0#32
  ![v2010.toNat, 0]

def k0_chk224 (v2010 : BitVec 32) : Prop :=
  (∀ a, (k0_off448 v2010) a + S1x1024.size a ≤ S32768x1024.size a)
instance k0_chk224.dec : ∀ (v2010 : BitVec 32), Decidable (k0_chk224 v2010) := fun v2010 => decidable_of_iff' _ (Iff.of_eq (k0_chk224.eq_1 v2010))
theorem k0_off448_inb : ∀ (v2010 : BitVec 32) (k0_hw224 : k0_chk224 v2010), ∀ a, (k0_off448 v2010) a + S1x1024.size a ≤ S32768x1024.size a := fun v2010 k0_hw224 => k0_hw224

def k0_off449 (i : grid0.Coords) : Fin 1 → Nat :=
  let arg0 : BitVec 32 := BitVec.ofNat 32 (i 0).val
  let c256_i32 : BitVec 32 := 256#32
  let v0 : BitVec 32 := Scalar.muli arg0 c256_i32
  let c224_i32 : BitVec 32 := 224#32
  let v2017 : BitVec 32 := Scalar.addi v0 c224_i32
  let v2018 : Index := Scalar.indexCast v2017
  ![v2018.toNat]
def k0_off450 (v2019 : BitVec 32) : Fin 2 → Nat :=
  let c0_i32_899 : BitVec 32 := 0#32
  ![v2019.toNat, 0]

def k0_chk225 (v2019 : BitVec 32) : Prop :=
  (∀ a, (k0_off450 v2019) a + S1x1024.size a ≤ S32768x1024.size a)
instance k0_chk225.dec : ∀ (v2019 : BitVec 32), Decidable (k0_chk225 v2019) := fun v2019 => decidable_of_iff' _ (Iff.of_eq (k0_chk225.eq_1 v2019))
theorem k0_off450_inb : ∀ (v2019 : BitVec 32) (k0_hw225 : k0_chk225 v2019), ∀ a, (k0_off450 v2019) a + S1x1024.size a ≤ S32768x1024.size a := fun v2019 k0_hw225 => k0_hw225

def k0_off451 (i : grid0.Coords) : Fin 1 → Nat :=
  let arg0 : BitVec 32 := BitVec.ofNat 32 (i 0).val
  let c256_i32 : BitVec 32 := 256#32
  let v0 : BitVec 32 := Scalar.muli arg0 c256_i32
  let c225_i32 : BitVec 32 := 225#32
  let v2026 : BitVec 32 := Scalar.addi v0 c225_i32
  let v2027 : Index := Scalar.indexCast v2026
  ![v2027.toNat]
def k0_off452 (v2028 : BitVec 32) : Fin 2 → Nat :=
  let c0_i32_903 : BitVec 32 := 0#32
  ![v2028.toNat, 0]

def k0_chk226 (v2028 : BitVec 32) : Prop :=
  (∀ a, (k0_off452 v2028) a + S1x1024.size a ≤ S32768x1024.size a)
instance k0_chk226.dec : ∀ (v2028 : BitVec 32), Decidable (k0_chk226 v2028) := fun v2028 => decidable_of_iff' _ (Iff.of_eq (k0_chk226.eq_1 v2028))
theorem k0_off452_inb : ∀ (v2028 : BitVec 32) (k0_hw226 : k0_chk226 v2028), ∀ a, (k0_off452 v2028) a + S1x1024.size a ≤ S32768x1024.size a := fun v2028 k0_hw226 => k0_hw226

def k0_off453 (i : grid0.Coords) : Fin 1 → Nat :=
  let arg0 : BitVec 32 := BitVec.ofNat 32 (i 0).val
  let c256_i32 : BitVec 32 := 256#32
  let v0 : BitVec 32 := Scalar.muli arg0 c256_i32
  let c226_i32 : BitVec 32 := 226#32
  let v2035 : BitVec 32 := Scalar.addi v0 c226_i32
  let v2036 : Index := Scalar.indexCast v2035
  ![v2036.toNat]
def k0_off454 (v2037 : BitVec 32) : Fin 2 → Nat :=
  let c0_i32_907 : BitVec 32 := 0#32
  ![v2037.toNat, 0]

def k0_chk227 (v2037 : BitVec 32) : Prop :=
  (∀ a, (k0_off454 v2037) a + S1x1024.size a ≤ S32768x1024.size a)
instance k0_chk227.dec : ∀ (v2037 : BitVec 32), Decidable (k0_chk227 v2037) := fun v2037 => decidable_of_iff' _ (Iff.of_eq (k0_chk227.eq_1 v2037))
theorem k0_off454_inb : ∀ (v2037 : BitVec 32) (k0_hw227 : k0_chk227 v2037), ∀ a, (k0_off454 v2037) a + S1x1024.size a ≤ S32768x1024.size a := fun v2037 k0_hw227 => k0_hw227

def k0_off455 (i : grid0.Coords) : Fin 1 → Nat :=
  let arg0 : BitVec 32 := BitVec.ofNat 32 (i 0).val
  let c256_i32 : BitVec 32 := 256#32
  let v0 : BitVec 32 := Scalar.muli arg0 c256_i32
  let c227_i32 : BitVec 32 := 227#32
  let v2044 : BitVec 32 := Scalar.addi v0 c227_i32
  let v2045 : Index := Scalar.indexCast v2044
  ![v2045.toNat]
def k0_off456 (v2046 : BitVec 32) : Fin 2 → Nat :=
  let c0_i32_911 : BitVec 32 := 0#32
  ![v2046.toNat, 0]

def k0_chk228 (v2046 : BitVec 32) : Prop :=
  (∀ a, (k0_off456 v2046) a + S1x1024.size a ≤ S32768x1024.size a)
instance k0_chk228.dec : ∀ (v2046 : BitVec 32), Decidable (k0_chk228 v2046) := fun v2046 => decidable_of_iff' _ (Iff.of_eq (k0_chk228.eq_1 v2046))
theorem k0_off456_inb : ∀ (v2046 : BitVec 32) (k0_hw228 : k0_chk228 v2046), ∀ a, (k0_off456 v2046) a + S1x1024.size a ≤ S32768x1024.size a := fun v2046 k0_hw228 => k0_hw228

def k0_off457 (i : grid0.Coords) : Fin 1 → Nat :=
  let arg0 : BitVec 32 := BitVec.ofNat 32 (i 0).val
  let c256_i32 : BitVec 32 := 256#32
  let v0 : BitVec 32 := Scalar.muli arg0 c256_i32
  let c228_i32 : BitVec 32 := 228#32
  let v2053 : BitVec 32 := Scalar.addi v0 c228_i32
  let v2054 : Index := Scalar.indexCast v2053
  ![v2054.toNat]
def k0_off458 (v2055 : BitVec 32) : Fin 2 → Nat :=
  let c0_i32_915 : BitVec 32 := 0#32
  ![v2055.toNat, 0]

def k0_chk229 (v2055 : BitVec 32) : Prop :=
  (∀ a, (k0_off458 v2055) a + S1x1024.size a ≤ S32768x1024.size a)
instance k0_chk229.dec : ∀ (v2055 : BitVec 32), Decidable (k0_chk229 v2055) := fun v2055 => decidable_of_iff' _ (Iff.of_eq (k0_chk229.eq_1 v2055))
theorem k0_off458_inb : ∀ (v2055 : BitVec 32) (k0_hw229 : k0_chk229 v2055), ∀ a, (k0_off458 v2055) a + S1x1024.size a ≤ S32768x1024.size a := fun v2055 k0_hw229 => k0_hw229

def k0_off459 (i : grid0.Coords) : Fin 1 → Nat :=
  let arg0 : BitVec 32 := BitVec.ofNat 32 (i 0).val
  let c256_i32 : BitVec 32 := 256#32
  let v0 : BitVec 32 := Scalar.muli arg0 c256_i32
  let c229_i32 : BitVec 32 := 229#32
  let v2062 : BitVec 32 := Scalar.addi v0 c229_i32
  let v2063 : Index := Scalar.indexCast v2062
  ![v2063.toNat]
def k0_off460 (v2064 : BitVec 32) : Fin 2 → Nat :=
  let c0_i32_919 : BitVec 32 := 0#32
  ![v2064.toNat, 0]

def k0_chk230 (v2064 : BitVec 32) : Prop :=
  (∀ a, (k0_off460 v2064) a + S1x1024.size a ≤ S32768x1024.size a)
instance k0_chk230.dec : ∀ (v2064 : BitVec 32), Decidable (k0_chk230 v2064) := fun v2064 => decidable_of_iff' _ (Iff.of_eq (k0_chk230.eq_1 v2064))
theorem k0_off460_inb : ∀ (v2064 : BitVec 32) (k0_hw230 : k0_chk230 v2064), ∀ a, (k0_off460 v2064) a + S1x1024.size a ≤ S32768x1024.size a := fun v2064 k0_hw230 => k0_hw230

def k0_off461 (i : grid0.Coords) : Fin 1 → Nat :=
  let arg0 : BitVec 32 := BitVec.ofNat 32 (i 0).val
  let c256_i32 : BitVec 32 := 256#32
  let v0 : BitVec 32 := Scalar.muli arg0 c256_i32
  let c230_i32 : BitVec 32 := 230#32
  let v2071 : BitVec 32 := Scalar.addi v0 c230_i32
  let v2072 : Index := Scalar.indexCast v2071
  ![v2072.toNat]
def k0_off462 (v2073 : BitVec 32) : Fin 2 → Nat :=
  let c0_i32_923 : BitVec 32 := 0#32
  ![v2073.toNat, 0]

def k0_chk231 (v2073 : BitVec 32) : Prop :=
  (∀ a, (k0_off462 v2073) a + S1x1024.size a ≤ S32768x1024.size a)
instance k0_chk231.dec : ∀ (v2073 : BitVec 32), Decidable (k0_chk231 v2073) := fun v2073 => decidable_of_iff' _ (Iff.of_eq (k0_chk231.eq_1 v2073))
theorem k0_off462_inb : ∀ (v2073 : BitVec 32) (k0_hw231 : k0_chk231 v2073), ∀ a, (k0_off462 v2073) a + S1x1024.size a ≤ S32768x1024.size a := fun v2073 k0_hw231 => k0_hw231

def k0_off463 (i : grid0.Coords) : Fin 1 → Nat :=
  let arg0 : BitVec 32 := BitVec.ofNat 32 (i 0).val
  let c256_i32 : BitVec 32 := 256#32
  let v0 : BitVec 32 := Scalar.muli arg0 c256_i32
  let c231_i32 : BitVec 32 := 231#32
  let v2080 : BitVec 32 := Scalar.addi v0 c231_i32
  let v2081 : Index := Scalar.indexCast v2080
  ![v2081.toNat]
def k0_off464 (v2082 : BitVec 32) : Fin 2 → Nat :=
  let c0_i32_927 : BitVec 32 := 0#32
  ![v2082.toNat, 0]

def k0_chk232 (v2082 : BitVec 32) : Prop :=
  (∀ a, (k0_off464 v2082) a + S1x1024.size a ≤ S32768x1024.size a)
instance k0_chk232.dec : ∀ (v2082 : BitVec 32), Decidable (k0_chk232 v2082) := fun v2082 => decidable_of_iff' _ (Iff.of_eq (k0_chk232.eq_1 v2082))
theorem k0_off464_inb : ∀ (v2082 : BitVec 32) (k0_hw232 : k0_chk232 v2082), ∀ a, (k0_off464 v2082) a + S1x1024.size a ≤ S32768x1024.size a := fun v2082 k0_hw232 => k0_hw232

def k0_off465 (i : grid0.Coords) : Fin 1 → Nat :=
  let arg0 : BitVec 32 := BitVec.ofNat 32 (i 0).val
  let c256_i32 : BitVec 32 := 256#32
  let v0 : BitVec 32 := Scalar.muli arg0 c256_i32
  let c232_i32 : BitVec 32 := 232#32
  let v2089 : BitVec 32 := Scalar.addi v0 c232_i32
  let v2090 : Index := Scalar.indexCast v2089
  ![v2090.toNat]
def k0_off466 (v2091 : BitVec 32) : Fin 2 → Nat :=
  let c0_i32_931 : BitVec 32 := 0#32
  ![v2091.toNat, 0]

def k0_chk233 (v2091 : BitVec 32) : Prop :=
  (∀ a, (k0_off466 v2091) a + S1x1024.size a ≤ S32768x1024.size a)
instance k0_chk233.dec : ∀ (v2091 : BitVec 32), Decidable (k0_chk233 v2091) := fun v2091 => decidable_of_iff' _ (Iff.of_eq (k0_chk233.eq_1 v2091))
theorem k0_off466_inb : ∀ (v2091 : BitVec 32) (k0_hw233 : k0_chk233 v2091), ∀ a, (k0_off466 v2091) a + S1x1024.size a ≤ S32768x1024.size a := fun v2091 k0_hw233 => k0_hw233

def k0_off467 (i : grid0.Coords) : Fin 1 → Nat :=
  let arg0 : BitVec 32 := BitVec.ofNat 32 (i 0).val
  let c256_i32 : BitVec 32 := 256#32
  let v0 : BitVec 32 := Scalar.muli arg0 c256_i32
  let c233_i32 : BitVec 32 := 233#32
  let v2098 : BitVec 32 := Scalar.addi v0 c233_i32
  let v2099 : Index := Scalar.indexCast v2098
  ![v2099.toNat]
def k0_off468 (v2100 : BitVec 32) : Fin 2 → Nat :=
  let c0_i32_935 : BitVec 32 := 0#32
  ![v2100.toNat, 0]

def k0_chk234 (v2100 : BitVec 32) : Prop :=
  (∀ a, (k0_off468 v2100) a + S1x1024.size a ≤ S32768x1024.size a)
instance k0_chk234.dec : ∀ (v2100 : BitVec 32), Decidable (k0_chk234 v2100) := fun v2100 => decidable_of_iff' _ (Iff.of_eq (k0_chk234.eq_1 v2100))
theorem k0_off468_inb : ∀ (v2100 : BitVec 32) (k0_hw234 : k0_chk234 v2100), ∀ a, (k0_off468 v2100) a + S1x1024.size a ≤ S32768x1024.size a := fun v2100 k0_hw234 => k0_hw234

def k0_off469 (i : grid0.Coords) : Fin 1 → Nat :=
  let arg0 : BitVec 32 := BitVec.ofNat 32 (i 0).val
  let c256_i32 : BitVec 32 := 256#32
  let v0 : BitVec 32 := Scalar.muli arg0 c256_i32
  let c234_i32 : BitVec 32 := 234#32
  let v2107 : BitVec 32 := Scalar.addi v0 c234_i32
  let v2108 : Index := Scalar.indexCast v2107
  ![v2108.toNat]
def k0_off470 (v2109 : BitVec 32) : Fin 2 → Nat :=
  let c0_i32_939 : BitVec 32 := 0#32
  ![v2109.toNat, 0]

def k0_chk235 (v2109 : BitVec 32) : Prop :=
  (∀ a, (k0_off470 v2109) a + S1x1024.size a ≤ S32768x1024.size a)
instance k0_chk235.dec : ∀ (v2109 : BitVec 32), Decidable (k0_chk235 v2109) := fun v2109 => decidable_of_iff' _ (Iff.of_eq (k0_chk235.eq_1 v2109))
theorem k0_off470_inb : ∀ (v2109 : BitVec 32) (k0_hw235 : k0_chk235 v2109), ∀ a, (k0_off470 v2109) a + S1x1024.size a ≤ S32768x1024.size a := fun v2109 k0_hw235 => k0_hw235

def k0_off471 (i : grid0.Coords) : Fin 1 → Nat :=
  let arg0 : BitVec 32 := BitVec.ofNat 32 (i 0).val
  let c256_i32 : BitVec 32 := 256#32
  let v0 : BitVec 32 := Scalar.muli arg0 c256_i32
  let c235_i32 : BitVec 32 := 235#32
  let v2116 : BitVec 32 := Scalar.addi v0 c235_i32
  let v2117 : Index := Scalar.indexCast v2116
  ![v2117.toNat]
def k0_off472 (v2118 : BitVec 32) : Fin 2 → Nat :=
  let c0_i32_943 : BitVec 32 := 0#32
  ![v2118.toNat, 0]

def k0_chk236 (v2118 : BitVec 32) : Prop :=
  (∀ a, (k0_off472 v2118) a + S1x1024.size a ≤ S32768x1024.size a)
instance k0_chk236.dec : ∀ (v2118 : BitVec 32), Decidable (k0_chk236 v2118) := fun v2118 => decidable_of_iff' _ (Iff.of_eq (k0_chk236.eq_1 v2118))
theorem k0_off472_inb : ∀ (v2118 : BitVec 32) (k0_hw236 : k0_chk236 v2118), ∀ a, (k0_off472 v2118) a + S1x1024.size a ≤ S32768x1024.size a := fun v2118 k0_hw236 => k0_hw236

def k0_off473 (i : grid0.Coords) : Fin 1 → Nat :=
  let arg0 : BitVec 32 := BitVec.ofNat 32 (i 0).val
  let c256_i32 : BitVec 32 := 256#32
  let v0 : BitVec 32 := Scalar.muli arg0 c256_i32
  let c236_i32 : BitVec 32 := 236#32
  let v2125 : BitVec 32 := Scalar.addi v0 c236_i32
  let v2126 : Index := Scalar.indexCast v2125
  ![v2126.toNat]
def k0_off474 (v2127 : BitVec 32) : Fin 2 → Nat :=
  let c0_i32_947 : BitVec 32 := 0#32
  ![v2127.toNat, 0]

def k0_chk237 (v2127 : BitVec 32) : Prop :=
  (∀ a, (k0_off474 v2127) a + S1x1024.size a ≤ S32768x1024.size a)
instance k0_chk237.dec : ∀ (v2127 : BitVec 32), Decidable (k0_chk237 v2127) := fun v2127 => decidable_of_iff' _ (Iff.of_eq (k0_chk237.eq_1 v2127))
theorem k0_off474_inb : ∀ (v2127 : BitVec 32) (k0_hw237 : k0_chk237 v2127), ∀ a, (k0_off474 v2127) a + S1x1024.size a ≤ S32768x1024.size a := fun v2127 k0_hw237 => k0_hw237

def k0_off475 (i : grid0.Coords) : Fin 1 → Nat :=
  let arg0 : BitVec 32 := BitVec.ofNat 32 (i 0).val
  let c256_i32 : BitVec 32 := 256#32
  let v0 : BitVec 32 := Scalar.muli arg0 c256_i32
  let c237_i32 : BitVec 32 := 237#32
  let v2134 : BitVec 32 := Scalar.addi v0 c237_i32
  let v2135 : Index := Scalar.indexCast v2134
  ![v2135.toNat]
def k0_off476 (v2136 : BitVec 32) : Fin 2 → Nat :=
  let c0_i32_951 : BitVec 32 := 0#32
  ![v2136.toNat, 0]

def k0_chk238 (v2136 : BitVec 32) : Prop :=
  (∀ a, (k0_off476 v2136) a + S1x1024.size a ≤ S32768x1024.size a)
instance k0_chk238.dec : ∀ (v2136 : BitVec 32), Decidable (k0_chk238 v2136) := fun v2136 => decidable_of_iff' _ (Iff.of_eq (k0_chk238.eq_1 v2136))
theorem k0_off476_inb : ∀ (v2136 : BitVec 32) (k0_hw238 : k0_chk238 v2136), ∀ a, (k0_off476 v2136) a + S1x1024.size a ≤ S32768x1024.size a := fun v2136 k0_hw238 => k0_hw238

def k0_off477 (i : grid0.Coords) : Fin 1 → Nat :=
  let arg0 : BitVec 32 := BitVec.ofNat 32 (i 0).val
  let c256_i32 : BitVec 32 := 256#32
  let v0 : BitVec 32 := Scalar.muli arg0 c256_i32
  let c238_i32 : BitVec 32 := 238#32
  let v2143 : BitVec 32 := Scalar.addi v0 c238_i32
  let v2144 : Index := Scalar.indexCast v2143
  ![v2144.toNat]
def k0_off478 (v2145 : BitVec 32) : Fin 2 → Nat :=
  let c0_i32_955 : BitVec 32 := 0#32
  ![v2145.toNat, 0]

def k0_chk239 (v2145 : BitVec 32) : Prop :=
  (∀ a, (k0_off478 v2145) a + S1x1024.size a ≤ S32768x1024.size a)
instance k0_chk239.dec : ∀ (v2145 : BitVec 32), Decidable (k0_chk239 v2145) := fun v2145 => decidable_of_iff' _ (Iff.of_eq (k0_chk239.eq_1 v2145))
theorem k0_off478_inb : ∀ (v2145 : BitVec 32) (k0_hw239 : k0_chk239 v2145), ∀ a, (k0_off478 v2145) a + S1x1024.size a ≤ S32768x1024.size a := fun v2145 k0_hw239 => k0_hw239

def k0_off479 (i : grid0.Coords) : Fin 1 → Nat :=
  let arg0 : BitVec 32 := BitVec.ofNat 32 (i 0).val
  let c256_i32 : BitVec 32 := 256#32
  let v0 : BitVec 32 := Scalar.muli arg0 c256_i32
  let c239_i32 : BitVec 32 := 239#32
  let v2152 : BitVec 32 := Scalar.addi v0 c239_i32
  let v2153 : Index := Scalar.indexCast v2152
  ![v2153.toNat]
def k0_off480 (v2154 : BitVec 32) : Fin 2 → Nat :=
  let c0_i32_959 : BitVec 32 := 0#32
  ![v2154.toNat, 0]

def k0_chk240 (v2154 : BitVec 32) : Prop :=
  (∀ a, (k0_off480 v2154) a + S1x1024.size a ≤ S32768x1024.size a)
instance k0_chk240.dec : ∀ (v2154 : BitVec 32), Decidable (k0_chk240 v2154) := fun v2154 => decidable_of_iff' _ (Iff.of_eq (k0_chk240.eq_1 v2154))
theorem k0_off480_inb : ∀ (v2154 : BitVec 32) (k0_hw240 : k0_chk240 v2154), ∀ a, (k0_off480 v2154) a + S1x1024.size a ≤ S32768x1024.size a := fun v2154 k0_hw240 => k0_hw240

def k0_off481 (i : grid0.Coords) : Fin 1 → Nat :=
  let arg0 : BitVec 32 := BitVec.ofNat 32 (i 0).val
  let c256_i32 : BitVec 32 := 256#32
  let v0 : BitVec 32 := Scalar.muli arg0 c256_i32
  let c240_i32 : BitVec 32 := 240#32
  let v2161 : BitVec 32 := Scalar.addi v0 c240_i32
  let v2162 : Index := Scalar.indexCast v2161
  ![v2162.toNat]
def k0_off482 (v2163 : BitVec 32) : Fin 2 → Nat :=
  let c0_i32_963 : BitVec 32 := 0#32
  ![v2163.toNat, 0]

def k0_chk241 (v2163 : BitVec 32) : Prop :=
  (∀ a, (k0_off482 v2163) a + S1x1024.size a ≤ S32768x1024.size a)
instance k0_chk241.dec : ∀ (v2163 : BitVec 32), Decidable (k0_chk241 v2163) := fun v2163 => decidable_of_iff' _ (Iff.of_eq (k0_chk241.eq_1 v2163))
theorem k0_off482_inb : ∀ (v2163 : BitVec 32) (k0_hw241 : k0_chk241 v2163), ∀ a, (k0_off482 v2163) a + S1x1024.size a ≤ S32768x1024.size a := fun v2163 k0_hw241 => k0_hw241

def k0_off483 (i : grid0.Coords) : Fin 1 → Nat :=
  let arg0 : BitVec 32 := BitVec.ofNat 32 (i 0).val
  let c256_i32 : BitVec 32 := 256#32
  let v0 : BitVec 32 := Scalar.muli arg0 c256_i32
  let c241_i32 : BitVec 32 := 241#32
  let v2170 : BitVec 32 := Scalar.addi v0 c241_i32
  let v2171 : Index := Scalar.indexCast v2170
  ![v2171.toNat]
def k0_off484 (v2172 : BitVec 32) : Fin 2 → Nat :=
  let c0_i32_967 : BitVec 32 := 0#32
  ![v2172.toNat, 0]

def k0_chk242 (v2172 : BitVec 32) : Prop :=
  (∀ a, (k0_off484 v2172) a + S1x1024.size a ≤ S32768x1024.size a)
instance k0_chk242.dec : ∀ (v2172 : BitVec 32), Decidable (k0_chk242 v2172) := fun v2172 => decidable_of_iff' _ (Iff.of_eq (k0_chk242.eq_1 v2172))
theorem k0_off484_inb : ∀ (v2172 : BitVec 32) (k0_hw242 : k0_chk242 v2172), ∀ a, (k0_off484 v2172) a + S1x1024.size a ≤ S32768x1024.size a := fun v2172 k0_hw242 => k0_hw242

def k0_off485 (i : grid0.Coords) : Fin 1 → Nat :=
  let arg0 : BitVec 32 := BitVec.ofNat 32 (i 0).val
  let c256_i32 : BitVec 32 := 256#32
  let v0 : BitVec 32 := Scalar.muli arg0 c256_i32
  let c242_i32 : BitVec 32 := 242#32
  let v2179 : BitVec 32 := Scalar.addi v0 c242_i32
  let v2180 : Index := Scalar.indexCast v2179
  ![v2180.toNat]
def k0_off486 (v2181 : BitVec 32) : Fin 2 → Nat :=
  let c0_i32_971 : BitVec 32 := 0#32
  ![v2181.toNat, 0]

def k0_chk243 (v2181 : BitVec 32) : Prop :=
  (∀ a, (k0_off486 v2181) a + S1x1024.size a ≤ S32768x1024.size a)
instance k0_chk243.dec : ∀ (v2181 : BitVec 32), Decidable (k0_chk243 v2181) := fun v2181 => decidable_of_iff' _ (Iff.of_eq (k0_chk243.eq_1 v2181))
theorem k0_off486_inb : ∀ (v2181 : BitVec 32) (k0_hw243 : k0_chk243 v2181), ∀ a, (k0_off486 v2181) a + S1x1024.size a ≤ S32768x1024.size a := fun v2181 k0_hw243 => k0_hw243

def k0_off487 (i : grid0.Coords) : Fin 1 → Nat :=
  let arg0 : BitVec 32 := BitVec.ofNat 32 (i 0).val
  let c256_i32 : BitVec 32 := 256#32
  let v0 : BitVec 32 := Scalar.muli arg0 c256_i32
  let c243_i32 : BitVec 32 := 243#32
  let v2188 : BitVec 32 := Scalar.addi v0 c243_i32
  let v2189 : Index := Scalar.indexCast v2188
  ![v2189.toNat]
def k0_off488 (v2190 : BitVec 32) : Fin 2 → Nat :=
  let c0_i32_975 : BitVec 32 := 0#32
  ![v2190.toNat, 0]

def k0_chk244 (v2190 : BitVec 32) : Prop :=
  (∀ a, (k0_off488 v2190) a + S1x1024.size a ≤ S32768x1024.size a)
instance k0_chk244.dec : ∀ (v2190 : BitVec 32), Decidable (k0_chk244 v2190) := fun v2190 => decidable_of_iff' _ (Iff.of_eq (k0_chk244.eq_1 v2190))
theorem k0_off488_inb : ∀ (v2190 : BitVec 32) (k0_hw244 : k0_chk244 v2190), ∀ a, (k0_off488 v2190) a + S1x1024.size a ≤ S32768x1024.size a := fun v2190 k0_hw244 => k0_hw244

def k0_off489 (i : grid0.Coords) : Fin 1 → Nat :=
  let arg0 : BitVec 32 := BitVec.ofNat 32 (i 0).val
  let c256_i32 : BitVec 32 := 256#32
  let v0 : BitVec 32 := Scalar.muli arg0 c256_i32
  let c244_i32 : BitVec 32 := 244#32
  let v2197 : BitVec 32 := Scalar.addi v0 c244_i32
  let v2198 : Index := Scalar.indexCast v2197
  ![v2198.toNat]
def k0_off490 (v2199 : BitVec 32) : Fin 2 → Nat :=
  let c0_i32_979 : BitVec 32 := 0#32
  ![v2199.toNat, 0]

def k0_chk245 (v2199 : BitVec 32) : Prop :=
  (∀ a, (k0_off490 v2199) a + S1x1024.size a ≤ S32768x1024.size a)
instance k0_chk245.dec : ∀ (v2199 : BitVec 32), Decidable (k0_chk245 v2199) := fun v2199 => decidable_of_iff' _ (Iff.of_eq (k0_chk245.eq_1 v2199))
theorem k0_off490_inb : ∀ (v2199 : BitVec 32) (k0_hw245 : k0_chk245 v2199), ∀ a, (k0_off490 v2199) a + S1x1024.size a ≤ S32768x1024.size a := fun v2199 k0_hw245 => k0_hw245

def k0_off491 (i : grid0.Coords) : Fin 1 → Nat :=
  let arg0 : BitVec 32 := BitVec.ofNat 32 (i 0).val
  let c256_i32 : BitVec 32 := 256#32
  let v0 : BitVec 32 := Scalar.muli arg0 c256_i32
  let c245_i32 : BitVec 32 := 245#32
  let v2206 : BitVec 32 := Scalar.addi v0 c245_i32
  let v2207 : Index := Scalar.indexCast v2206
  ![v2207.toNat]
def k0_off492 (v2208 : BitVec 32) : Fin 2 → Nat :=
  let c0_i32_983 : BitVec 32 := 0#32
  ![v2208.toNat, 0]

def k0_chk246 (v2208 : BitVec 32) : Prop :=
  (∀ a, (k0_off492 v2208) a + S1x1024.size a ≤ S32768x1024.size a)
instance k0_chk246.dec : ∀ (v2208 : BitVec 32), Decidable (k0_chk246 v2208) := fun v2208 => decidable_of_iff' _ (Iff.of_eq (k0_chk246.eq_1 v2208))
theorem k0_off492_inb : ∀ (v2208 : BitVec 32) (k0_hw246 : k0_chk246 v2208), ∀ a, (k0_off492 v2208) a + S1x1024.size a ≤ S32768x1024.size a := fun v2208 k0_hw246 => k0_hw246

def k0_off493 (i : grid0.Coords) : Fin 1 → Nat :=
  let arg0 : BitVec 32 := BitVec.ofNat 32 (i 0).val
  let c256_i32 : BitVec 32 := 256#32
  let v0 : BitVec 32 := Scalar.muli arg0 c256_i32
  let c246_i32 : BitVec 32 := 246#32
  let v2215 : BitVec 32 := Scalar.addi v0 c246_i32
  let v2216 : Index := Scalar.indexCast v2215
  ![v2216.toNat]
def k0_off494 (v2217 : BitVec 32) : Fin 2 → Nat :=
  let c0_i32_987 : BitVec 32 := 0#32
  ![v2217.toNat, 0]

def k0_chk247 (v2217 : BitVec 32) : Prop :=
  (∀ a, (k0_off494 v2217) a + S1x1024.size a ≤ S32768x1024.size a)
instance k0_chk247.dec : ∀ (v2217 : BitVec 32), Decidable (k0_chk247 v2217) := fun v2217 => decidable_of_iff' _ (Iff.of_eq (k0_chk247.eq_1 v2217))
theorem k0_off494_inb : ∀ (v2217 : BitVec 32) (k0_hw247 : k0_chk247 v2217), ∀ a, (k0_off494 v2217) a + S1x1024.size a ≤ S32768x1024.size a := fun v2217 k0_hw247 => k0_hw247

def k0_off495 (i : grid0.Coords) : Fin 1 → Nat :=
  let arg0 : BitVec 32 := BitVec.ofNat 32 (i 0).val
  let c256_i32 : BitVec 32 := 256#32
  let v0 : BitVec 32 := Scalar.muli arg0 c256_i32
  let c247_i32 : BitVec 32 := 247#32
  let v2224 : BitVec 32 := Scalar.addi v0 c247_i32
  let v2225 : Index := Scalar.indexCast v2224
  ![v2225.toNat]
def k0_off496 (v2226 : BitVec 32) : Fin 2 → Nat :=
  let c0_i32_991 : BitVec 32 := 0#32
  ![v2226.toNat, 0]

def k0_chk248 (v2226 : BitVec 32) : Prop :=
  (∀ a, (k0_off496 v2226) a + S1x1024.size a ≤ S32768x1024.size a)
instance k0_chk248.dec : ∀ (v2226 : BitVec 32), Decidable (k0_chk248 v2226) := fun v2226 => decidable_of_iff' _ (Iff.of_eq (k0_chk248.eq_1 v2226))
theorem k0_off496_inb : ∀ (v2226 : BitVec 32) (k0_hw248 : k0_chk248 v2226), ∀ a, (k0_off496 v2226) a + S1x1024.size a ≤ S32768x1024.size a := fun v2226 k0_hw248 => k0_hw248

def k0_off497 (i : grid0.Coords) : Fin 1 → Nat :=
  let arg0 : BitVec 32 := BitVec.ofNat 32 (i 0).val
  let c256_i32 : BitVec 32 := 256#32
  let v0 : BitVec 32 := Scalar.muli arg0 c256_i32
  let c248_i32 : BitVec 32 := 248#32
  let v2233 : BitVec 32 := Scalar.addi v0 c248_i32
  let v2234 : Index := Scalar.indexCast v2233
  ![v2234.toNat]
def k0_off498 (v2235 : BitVec 32) : Fin 2 → Nat :=
  let c0_i32_995 : BitVec 32 := 0#32
  ![v2235.toNat, 0]

def k0_chk249 (v2235 : BitVec 32) : Prop :=
  (∀ a, (k0_off498 v2235) a + S1x1024.size a ≤ S32768x1024.size a)
instance k0_chk249.dec : ∀ (v2235 : BitVec 32), Decidable (k0_chk249 v2235) := fun v2235 => decidable_of_iff' _ (Iff.of_eq (k0_chk249.eq_1 v2235))
theorem k0_off498_inb : ∀ (v2235 : BitVec 32) (k0_hw249 : k0_chk249 v2235), ∀ a, (k0_off498 v2235) a + S1x1024.size a ≤ S32768x1024.size a := fun v2235 k0_hw249 => k0_hw249

def k0_off499 (i : grid0.Coords) : Fin 1 → Nat :=
  let arg0 : BitVec 32 := BitVec.ofNat 32 (i 0).val
  let c256_i32 : BitVec 32 := 256#32
  let v0 : BitVec 32 := Scalar.muli arg0 c256_i32
  let c249_i32 : BitVec 32 := 249#32
  let v2242 : BitVec 32 := Scalar.addi v0 c249_i32
  let v2243 : Index := Scalar.indexCast v2242
  ![v2243.toNat]
def k0_off500 (v2244 : BitVec 32) : Fin 2 → Nat :=
  let c0_i32_999 : BitVec 32 := 0#32
  ![v2244.toNat, 0]

def k0_chk250 (v2244 : BitVec 32) : Prop :=
  (∀ a, (k0_off500 v2244) a + S1x1024.size a ≤ S32768x1024.size a)
instance k0_chk250.dec : ∀ (v2244 : BitVec 32), Decidable (k0_chk250 v2244) := fun v2244 => decidable_of_iff' _ (Iff.of_eq (k0_chk250.eq_1 v2244))
theorem k0_off500_inb : ∀ (v2244 : BitVec 32) (k0_hw250 : k0_chk250 v2244), ∀ a, (k0_off500 v2244) a + S1x1024.size a ≤ S32768x1024.size a := fun v2244 k0_hw250 => k0_hw250

def k0_off501 (i : grid0.Coords) : Fin 1 → Nat :=
  let arg0 : BitVec 32 := BitVec.ofNat 32 (i 0).val
  let c256_i32 : BitVec 32 := 256#32
  let v0 : BitVec 32 := Scalar.muli arg0 c256_i32
  let c250_i32 : BitVec 32 := 250#32
  let v2251 : BitVec 32 := Scalar.addi v0 c250_i32
  let v2252 : Index := Scalar.indexCast v2251
  ![v2252.toNat]
def k0_off502 (v2253 : BitVec 32) : Fin 2 → Nat :=
  let c0_i32_1003 : BitVec 32 := 0#32
  ![v2253.toNat, 0]

def k0_chk251 (v2253 : BitVec 32) : Prop :=
  (∀ a, (k0_off502 v2253) a + S1x1024.size a ≤ S32768x1024.size a)
instance k0_chk251.dec : ∀ (v2253 : BitVec 32), Decidable (k0_chk251 v2253) := fun v2253 => decidable_of_iff' _ (Iff.of_eq (k0_chk251.eq_1 v2253))
theorem k0_off502_inb : ∀ (v2253 : BitVec 32) (k0_hw251 : k0_chk251 v2253), ∀ a, (k0_off502 v2253) a + S1x1024.size a ≤ S32768x1024.size a := fun v2253 k0_hw251 => k0_hw251

def k0_off503 (i : grid0.Coords) : Fin 1 → Nat :=
  let arg0 : BitVec 32 := BitVec.ofNat 32 (i 0).val
  let c256_i32 : BitVec 32 := 256#32
  let v0 : BitVec 32 := Scalar.muli arg0 c256_i32
  let c251_i32 : BitVec 32 := 251#32
  let v2260 : BitVec 32 := Scalar.addi v0 c251_i32
  let v2261 : Index := Scalar.indexCast v2260
  ![v2261.toNat]
def k0_off504 (v2262 : BitVec 32) : Fin 2 → Nat :=
  let c0_i32_1007 : BitVec 32 := 0#32
  ![v2262.toNat, 0]

def k0_chk252 (v2262 : BitVec 32) : Prop :=
  (∀ a, (k0_off504 v2262) a + S1x1024.size a ≤ S32768x1024.size a)
instance k0_chk252.dec : ∀ (v2262 : BitVec 32), Decidable (k0_chk252 v2262) := fun v2262 => decidable_of_iff' _ (Iff.of_eq (k0_chk252.eq_1 v2262))
theorem k0_off504_inb : ∀ (v2262 : BitVec 32) (k0_hw252 : k0_chk252 v2262), ∀ a, (k0_off504 v2262) a + S1x1024.size a ≤ S32768x1024.size a := fun v2262 k0_hw252 => k0_hw252

def k0_off505 (i : grid0.Coords) : Fin 1 → Nat :=
  let arg0 : BitVec 32 := BitVec.ofNat 32 (i 0).val
  let c256_i32 : BitVec 32 := 256#32
  let v0 : BitVec 32 := Scalar.muli arg0 c256_i32
  let c252_i32 : BitVec 32 := 252#32
  let v2269 : BitVec 32 := Scalar.addi v0 c252_i32
  let v2270 : Index := Scalar.indexCast v2269
  ![v2270.toNat]
def k0_off506 (v2271 : BitVec 32) : Fin 2 → Nat :=
  let c0_i32_1011 : BitVec 32 := 0#32
  ![v2271.toNat, 0]

def k0_chk253 (v2271 : BitVec 32) : Prop :=
  (∀ a, (k0_off506 v2271) a + S1x1024.size a ≤ S32768x1024.size a)
instance k0_chk253.dec : ∀ (v2271 : BitVec 32), Decidable (k0_chk253 v2271) := fun v2271 => decidable_of_iff' _ (Iff.of_eq (k0_chk253.eq_1 v2271))
theorem k0_off506_inb : ∀ (v2271 : BitVec 32) (k0_hw253 : k0_chk253 v2271), ∀ a, (k0_off506 v2271) a + S1x1024.size a ≤ S32768x1024.size a := fun v2271 k0_hw253 => k0_hw253

def k0_off507 (i : grid0.Coords) : Fin 1 → Nat :=
  let arg0 : BitVec 32 := BitVec.ofNat 32 (i 0).val
  let c256_i32 : BitVec 32 := 256#32
  let v0 : BitVec 32 := Scalar.muli arg0 c256_i32
  let c253_i32 : BitVec 32 := 253#32
  let v2278 : BitVec 32 := Scalar.addi v0 c253_i32
  let v2279 : Index := Scalar.indexCast v2278
  ![v2279.toNat]
def k0_off508 (v2280 : BitVec 32) : Fin 2 → Nat :=
  let c0_i32_1015 : BitVec 32 := 0#32
  ![v2280.toNat, 0]

def k0_chk254 (v2280 : BitVec 32) : Prop :=
  (∀ a, (k0_off508 v2280) a + S1x1024.size a ≤ S32768x1024.size a)
instance k0_chk254.dec : ∀ (v2280 : BitVec 32), Decidable (k0_chk254 v2280) := fun v2280 => decidable_of_iff' _ (Iff.of_eq (k0_chk254.eq_1 v2280))
theorem k0_off508_inb : ∀ (v2280 : BitVec 32) (k0_hw254 : k0_chk254 v2280), ∀ a, (k0_off508 v2280) a + S1x1024.size a ≤ S32768x1024.size a := fun v2280 k0_hw254 => k0_hw254

def k0_off509 (i : grid0.Coords) : Fin 1 → Nat :=
  let arg0 : BitVec 32 := BitVec.ofNat 32 (i 0).val
  let c256_i32 : BitVec 32 := 256#32
  let v0 : BitVec 32 := Scalar.muli arg0 c256_i32
  let c254_i32 : BitVec 32 := 254#32
  let v2287 : BitVec 32 := Scalar.addi v0 c254_i32
  let v2288 : Index := Scalar.indexCast v2287
  ![v2288.toNat]
def k0_off510 (v2289 : BitVec 32) : Fin 2 → Nat :=
  let c0_i32_1019 : BitVec 32 := 0#32
  ![v2289.toNat, 0]

def k0_chk255 (v2289 : BitVec 32) : Prop :=
  (∀ a, (k0_off510 v2289) a + S1x1024.size a ≤ S32768x1024.size a)
instance k0_chk255.dec : ∀ (v2289 : BitVec 32), Decidable (k0_chk255 v2289) := fun v2289 => decidable_of_iff' _ (Iff.of_eq (k0_chk255.eq_1 v2289))
theorem k0_off510_inb : ∀ (v2289 : BitVec 32) (k0_hw255 : k0_chk255 v2289), ∀ a, (k0_off510 v2289) a + S1x1024.size a ≤ S32768x1024.size a := fun v2289 k0_hw255 => k0_hw255

def k0_off511 (i : grid0.Coords) : Fin 1 → Nat :=
  let arg0 : BitVec 32 := BitVec.ofNat 32 (i 0).val
  let c256_i32 : BitVec 32 := 256#32
  let v0 : BitVec 32 := Scalar.muli arg0 c256_i32
  let c255_i32 : BitVec 32 := 255#32
  let v2296 : BitVec 32 := Scalar.addi v0 c255_i32
  let v2297 : Index := Scalar.indexCast v2296
  ![v2297.toNat]
def k0_off512 (v2298 : BitVec 32) : Fin 2 → Nat :=
  let c0_i32_1023 : BitVec 32 := 0#32
  ![v2298.toNat, 0]

def k0_chk256 (v2298 : BitVec 32) : Prop :=
  (∀ a, (k0_off512 v2298) a + S1x1024.size a ≤ S32768x1024.size a)
instance k0_chk256.dec : ∀ (v2298 : BitVec 32), Decidable (k0_chk256 v2298) := fun v2298 => decidable_of_iff' _ (Iff.of_eq (k0_chk256.eq_1 v2298))
theorem k0_off512_inb : ∀ (v2298 : BitVec 32) (k0_hw256 : k0_chk256 v2298), ∀ a, (k0_off512 v2298) a + S1x1024.size a ≤ S32768x1024.size a := fun v2298 k0_hw256 => k0_hw256

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

abbrev pre1 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_3 : BitVec 32 := 0#32
  ![v3.toNat, 0]

def k1_chk1 (v3 : BitVec 32) : Prop :=
  (∀ a, (k1_off2 v3) a + S1x1024.size a ≤ S32768x1024.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x1024.size a ≤ S32768x1024.size a := fun v3 k1_hw1 => k1_hw1

def k1_off3 (i : grid1.Coords) : Fin 1 → Nat :=
  let arg0 : BitVec 32 := BitVec.ofNat 32 (i 0).val
  let c256_i32 : BitVec 32 := 256#32
  let v0 : BitVec 32 := Scalar.muli arg0 c256_i32
  let c1_i32 : BitVec 32 := 1#32
  let v10 : BitVec 32 := Scalar.addi v0 c1_i32
  let v11 : Index := Scalar.indexCast v10
  ![v11.toNat]
def k1_off4 (v12 : BitVec 32) : Fin 2 → Nat :=
  let c0_i32_7 : BitVec 32 := 0#32
  ![v12.toNat, 0]

def k1_chk2 (v12 : BitVec 32) : Prop :=
  (∀ a, (k1_off4 v12) a + S1x1024.size a ≤ S32768x1024.size a)
instance k1_chk2.dec : ∀ (v12 : BitVec 32), Decidable (k1_chk2 v12) := fun v12 => decidable_of_iff' _ (Iff.of_eq (k1_chk2.eq_1 v12))
theorem k1_off4_inb : ∀ (v12 : BitVec 32) (k1_hw2 : k1_chk2 v12), ∀ a, (k1_off4 v12) a + S1x1024.size a ≤ S32768x1024.size a := fun v12 k1_hw2 => k1_hw2

def k1_off5 (i : grid1.Coords) : Fin 1 → Nat :=
  let arg0 : BitVec 32 := BitVec.ofNat 32 (i 0).val
  let c256_i32 : BitVec 32 := 256#32
  let v0 : BitVec 32 := Scalar.muli arg0 c256_i32
  let c2_i32 : BitVec 32 := 2#32
  let v19 : BitVec 32 := Scalar.addi v0 c2_i32
  let v20 : Index := Scalar.indexCast v19
  ![v20.toNat]
def k1_off6 (v21 : BitVec 32) : Fin 2 → Nat :=
  let c0_i32_11 : BitVec 32 := 0#32
  ![v21.toNat, 0]

def k1_chk3 (v21 : BitVec 32) : Prop :=
  (∀ a, (k1_off6 v21) a + S1x1024.size a ≤ S32768x1024.size a)
instance k1_chk3.dec : ∀ (v21 : BitVec 32), Decidable (k1_chk3 v21) := fun v21 => decidable_of_iff' _ (Iff.of_eq (k1_chk3.eq_1 v21))
theorem k1_off6_inb : ∀ (v21 : BitVec 32) (k1_hw3 : k1_chk3 v21), ∀ a, (k1_off6 v21) a + S1x1024.size a ≤ S32768x1024.size a := fun v21 k1_hw3 => k1_hw3

def k1_off7 (i : grid1.Coords) : Fin 1 → Nat :=
  let arg0 : BitVec 32 := BitVec.ofNat 32 (i 0).val
  let c256_i32 : BitVec 32 := 256#32
  let v0 : BitVec 32 := Scalar.muli arg0 c256_i32
  let c3_i32 : BitVec 32 := 3#32
  let v28 : BitVec 32 := Scalar.addi v0 c3_i32
  let v29 : Index := Scalar.indexCast v28
  ![v29.toNat]
def k1_off8 (v30 : BitVec 32) : Fin 2 → Nat :=
  let c0_i32_15 : BitVec 32 := 0#32
  ![v30.toNat, 0]

def k1_chk4 (v30 : BitVec 32) : Prop :=
  (∀ a, (k1_off8 v30) a + S1x1024.size a ≤ S32768x1024.size a)
instance k1_chk4.dec : ∀ (v30 : BitVec 32), Decidable (k1_chk4 v30) := fun v30 => decidable_of_iff' _ (Iff.of_eq (k1_chk4.eq_1 v30))
theorem k1_off8_inb : ∀ (v30 : BitVec 32) (k1_hw4 : k1_chk4 v30), ∀ a, (k1_off8 v30) a + S1x1024.size a ≤ S32768x1024.size a := fun v30 k1_hw4 => k1_hw4

def k1_off9 (i : grid1.Coords) : Fin 1 → Nat :=
  let arg0 : BitVec 32 := BitVec.ofNat 32 (i 0).val
  let c256_i32 : BitVec 32 := 256#32
  let v0 : BitVec 32 := Scalar.muli arg0 c256_i32
  let c4_i32 : BitVec 32 := 4#32
  let v37 : BitVec 32 := Scalar.addi v0 c4_i32
  let v38 : Index := Scalar.indexCast v37
  ![v38.toNat]
def k1_off10 (v39 : BitVec 32) : Fin 2 → Nat :=
  let c0_i32_19 : BitVec 32 := 0#32
  ![v39.toNat, 0]

def k1_chk5 (v39 : BitVec 32) : Prop :=
  (∀ a, (k1_off10 v39) a + S1x1024.size a ≤ S32768x1024.size a)
instance k1_chk5.dec : ∀ (v39 : BitVec 32), Decidable (k1_chk5 v39) := fun v39 => decidable_of_iff' _ (Iff.of_eq (k1_chk5.eq_1 v39))
theorem k1_off10_inb : ∀ (v39 : BitVec 32) (k1_hw5 : k1_chk5 v39), ∀ a, (k1_off10 v39) a + S1x1024.size a ≤ S32768x1024.size a := fun v39 k1_hw5 => k1_hw5

def k1_off11 (i : grid1.Coords) : Fin 1 → Nat :=
  let arg0 : BitVec 32 := BitVec.ofNat 32 (i 0).val
  let c256_i32 : BitVec 32 := 256#32
  let v0 : BitVec 32 := Scalar.muli arg0 c256_i32
  let c5_i32 : BitVec 32 := 5#32
  let v46 : BitVec 32 := Scalar.addi v0 c5_i32
  let v47 : Index := Scalar.indexCast v46
  ![v47.toNat]
def k1_off12 (v48 : BitVec 32) : Fin 2 → Nat :=
  let c0_i32_23 : BitVec 32 := 0#32
  ![v48.toNat, 0]

def k1_chk6 (v48 : BitVec 32) : Prop :=
  (∀ a, (k1_off12 v48) a + S1x1024.size a ≤ S32768x1024.size a)
instance k1_chk6.dec : ∀ (v48 : BitVec 32), Decidable (k1_chk6 v48) := fun v48 => decidable_of_iff' _ (Iff.of_eq (k1_chk6.eq_1 v48))
theorem k1_off12_inb : ∀ (v48 : BitVec 32) (k1_hw6 : k1_chk6 v48), ∀ a, (k1_off12 v48) a + S1x1024.size a ≤ S32768x1024.size a := fun v48 k1_hw6 => k1_hw6

def k1_off13 (i : grid1.Coords) : Fin 1 → Nat :=
  let arg0 : BitVec 32 := BitVec.ofNat 32 (i 0).val
  let c256_i32 : BitVec 32 := 256#32
  let v0 : BitVec 32 := Scalar.muli arg0 c256_i32
  let c6_i32 : BitVec 32 := 6#32
  let v55 : BitVec 32 := Scalar.addi v0 c6_i32
  let v56 : Index := Scalar.indexCast v55
  ![v56.toNat]
def k1_off14 (v57 : BitVec 32) : Fin 2 → Nat :=
  let c0_i32_27 : BitVec 32 := 0#32
  ![v57.toNat, 0]

def k1_chk7 (v57 : BitVec 32) : Prop :=
  (∀ a, (k1_off14 v57) a + S1x1024.size a ≤ S32768x1024.size a)
instance k1_chk7.dec : ∀ (v57 : BitVec 32), Decidable (k1_chk7 v57) := fun v57 => decidable_of_iff' _ (Iff.of_eq (k1_chk7.eq_1 v57))
theorem k1_off14_inb : ∀ (v57 : BitVec 32) (k1_hw7 : k1_chk7 v57), ∀ a, (k1_off14 v57) a + S1x1024.size a ≤ S32768x1024.size a := fun v57 k1_hw7 => k1_hw7

def k1_off15 (i : grid1.Coords) : Fin 1 → Nat :=
  let arg0 : BitVec 32 := BitVec.ofNat 32 (i 0).val
  let c256_i32 : BitVec 32 := 256#32
  let v0 : BitVec 32 := Scalar.muli arg0 c256_i32
  let c7_i32 : BitVec 32 := 7#32
  let v64 : BitVec 32 := Scalar.addi v0 c7_i32
  let v65 : Index := Scalar.indexCast v64
  ![v65.toNat]
def k1_off16 (v66 : BitVec 32) : Fin 2 → Nat :=
  let c0_i32_31 : BitVec 32 := 0#32
  ![v66.toNat, 0]

def k1_chk8 (v66 : BitVec 32) : Prop :=
  (∀ a, (k1_off16 v66) a + S1x1024.size a ≤ S32768x1024.size a)
instance k1_chk8.dec : ∀ (v66 : BitVec 32), Decidable (k1_chk8 v66) := fun v66 => decidable_of_iff' _ (Iff.of_eq (k1_chk8.eq_1 v66))
theorem k1_off16_inb : ∀ (v66 : BitVec 32) (k1_hw8 : k1_chk8 v66), ∀ a, (k1_off16 v66) a + S1x1024.size a ≤ S32768x1024.size a := fun v66 k1_hw8 => k1_hw8

def k1_off17 (i : grid1.Coords) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v73 : BitVec 32 := Scalar.addi v0 c8_i32
  let v74 : Index := Scalar.indexCast v73
  ![v74.toNat]
def k1_off18 (v75 : BitVec 32) : Fin 2 → Nat :=
  let c0_i32_35 : BitVec 32 := 0#32
  ![v75.toNat, 0]

def k1_chk9 (v75 : BitVec 32) : Prop :=
  (∀ a, (k1_off18 v75) a + S1x1024.size a ≤ S32768x1024.size a)
instance k1_chk9.dec : ∀ (v75 : BitVec 32), Decidable (k1_chk9 v75) := fun v75 => decidable_of_iff' _ (Iff.of_eq (k1_chk9.eq_1 v75))
theorem k1_off18_inb : ∀ (v75 : BitVec 32) (k1_hw9 : k1_chk9 v75), ∀ a, (k1_off18 v75) a + S1x1024.size a ≤ S32768x1024.size a := fun v75 k1_hw9 => k1_hw9

def k1_off19 (i : grid1.Coords) : Fin 1 → Nat :=
  let arg0 : BitVec 32 := BitVec.ofNat 32 (i 0).val
  let c256_i32 : BitVec 32 := 256#32
  let v0 : BitVec 32 := Scalar.muli arg0 c256_i32
  let c9_i32 : BitVec 32 := 9#32
  let v82 : BitVec 32 := Scalar.addi v0 c9_i32
  let v83 : Index := Scalar.indexCast v82
  ![v83.toNat]
def k1_off20 (v84 : BitVec 32) : Fin 2 → Nat :=
  let c0_i32_39 : BitVec 32 := 0#32
  ![v84.toNat, 0]

def k1_chk10 (v84 : BitVec 32) : Prop :=
  (∀ a, (k1_off20 v84) a + S1x1024.size a ≤ S32768x1024.size a)
instance k1_chk10.dec : ∀ (v84 : BitVec 32), Decidable (k1_chk10 v84) := fun v84 => decidable_of_iff' _ (Iff.of_eq (k1_chk10.eq_1 v84))
theorem k1_off20_inb : ∀ (v84 : BitVec 32) (k1_hw10 : k1_chk10 v84), ∀ a, (k1_off20 v84) a + S1x1024.size a ≤ S32768x1024.size a := fun v84 k1_hw10 => k1_hw10

def k1_off21 (i : grid1.Coords) : Fin 1 → Nat :=
  let arg0 : BitVec 32 := BitVec.ofNat 32 (i 0).val
  let c256_i32 : BitVec 32 := 256#32
  let v0 : BitVec 32 := Scalar.muli arg0 c256_i32
  let c10_i32 : BitVec 32 := 10#32
  let v91 : BitVec 32 := Scalar.addi v0 c10_i32
  let v92 : Index := Scalar.indexCast v91
  ![v92.toNat]
def k1_off22 (v93 : BitVec 32) : Fin 2 → Nat :=
  let c0_i32_43 : BitVec 32 := 0#32
  ![v93.toNat, 0]

def k1_chk11 (v93 : BitVec 32) : Prop :=
  (∀ a, (k1_off22 v93) a + S1x1024.size a ≤ S32768x1024.size a)
instance k1_chk11.dec : ∀ (v93 : BitVec 32), Decidable (k1_chk11 v93) := fun v93 => decidable_of_iff' _ (Iff.of_eq (k1_chk11.eq_1 v93))
theorem k1_off22_inb : ∀ (v93 : BitVec 32) (k1_hw11 : k1_chk11 v93), ∀ a, (k1_off22 v93) a + S1x1024.size a ≤ S32768x1024.size a := fun v93 k1_hw11 => k1_hw11

def k1_off23 (i : grid1.Coords) : Fin 1 → Nat :=
  let arg0 : BitVec 32 := BitVec.ofNat 32 (i 0).val
  let c256_i32 : BitVec 32 := 256#32
  let v0 : BitVec 32 := Scalar.muli arg0 c256_i32
  let c11_i32 : BitVec 32 := 11#32
  let v100 : BitVec 32 := Scalar.addi v0 c11_i32
  let v101 : Index := Scalar.indexCast v100
  ![v101.toNat]
def k1_off24 (v102 : BitVec 32) : Fin 2 → Nat :=
  let c0_i32_47 : BitVec 32 := 0#32
  ![v102.toNat, 0]

def k1_chk12 (v102 : BitVec 32) : Prop :=
  (∀ a, (k1_off24 v102) a + S1x1024.size a ≤ S32768x1024.size a)
instance k1_chk12.dec : ∀ (v102 : BitVec 32), Decidable (k1_chk12 v102) := fun v102 => decidable_of_iff' _ (Iff.of_eq (k1_chk12.eq_1 v102))
theorem k1_off24_inb : ∀ (v102 : BitVec 32) (k1_hw12 : k1_chk12 v102), ∀ a, (k1_off24 v102) a + S1x1024.size a ≤ S32768x1024.size a := fun v102 k1_hw12 => k1_hw12

def k1_off25 (i : grid1.Coords) : Fin 1 → Nat :=
  let arg0 : BitVec 32 := BitVec.ofNat 32 (i 0).val
  let c256_i32 : BitVec 32 := 256#32
  let v0 : BitVec 32 := Scalar.muli arg0 c256_i32
  let c12_i32 : BitVec 32 := 12#32
  let v109 : BitVec 32 := Scalar.addi v0 c12_i32
  let v110 : Index := Scalar.indexCast v109
  ![v110.toNat]
def k1_off26 (v111 : BitVec 32) : Fin 2 → Nat :=
  let c0_i32_51 : BitVec 32 := 0#32
  ![v111.toNat, 0]

def k1_chk13 (v111 : BitVec 32) : Prop :=
  (∀ a, (k1_off26 v111) a + S1x1024.size a ≤ S32768x1024.size a)
instance k1_chk13.dec : ∀ (v111 : BitVec 32), Decidable (k1_chk13 v111) := fun v111 => decidable_of_iff' _ (Iff.of_eq (k1_chk13.eq_1 v111))
theorem k1_off26_inb : ∀ (v111 : BitVec 32) (k1_hw13 : k1_chk13 v111), ∀ a, (k1_off26 v111) a + S1x1024.size a ≤ S32768x1024.size a := fun v111 k1_hw13 => k1_hw13

def k1_off27 (i : grid1.Coords) : Fin 1 → Nat :=
  let arg0 : BitVec 32 := BitVec.ofNat 32 (i 0).val
  let c256_i32 : BitVec 32 := 256#32
  let v0 : BitVec 32 := Scalar.muli arg0 c256_i32
  let c13_i32 : BitVec 32 := 13#32
  let v118 : BitVec 32 := Scalar.addi v0 c13_i32
  let v119 : Index := Scalar.indexCast v118
  ![v119.toNat]
def k1_off28 (v120 : BitVec 32) : Fin 2 → Nat :=
  let c0_i32_55 : BitVec 32 := 0#32
  ![v120.toNat, 0]

def k1_chk14 (v120 : BitVec 32) : Prop :=
  (∀ a, (k1_off28 v120) a + S1x1024.size a ≤ S32768x1024.size a)
instance k1_chk14.dec : ∀ (v120 : BitVec 32), Decidable (k1_chk14 v120) := fun v120 => decidable_of_iff' _ (Iff.of_eq (k1_chk14.eq_1 v120))
theorem k1_off28_inb : ∀ (v120 : BitVec 32) (k1_hw14 : k1_chk14 v120), ∀ a, (k1_off28 v120) a + S1x1024.size a ≤ S32768x1024.size a := fun v120 k1_hw14 => k1_hw14

def k1_off29 (i : grid1.Coords) : Fin 1 → Nat :=
  let arg0 : BitVec 32 := BitVec.ofNat 32 (i 0).val
  let c256_i32 : BitVec 32 := 256#32
  let v0 : BitVec 32 := Scalar.muli arg0 c256_i32
  let c14_i32 : BitVec 32 := 14#32
  let v127 : BitVec 32 := Scalar.addi v0 c14_i32
  let v128 : Index := Scalar.indexCast v127
  ![v128.toNat]
def k1_off30 (v129 : BitVec 32) : Fin 2 → Nat :=
  let c0_i32_59 : BitVec 32 := 0#32
  ![v129.toNat, 0]

def k1_chk15 (v129 : BitVec 32) : Prop :=
  (∀ a, (k1_off30 v129) a + S1x1024.size a ≤ S32768x1024.size a)
instance k1_chk15.dec : ∀ (v129 : BitVec 32), Decidable (k1_chk15 v129) := fun v129 => decidable_of_iff' _ (Iff.of_eq (k1_chk15.eq_1 v129))
theorem k1_off30_inb : ∀ (v129 : BitVec 32) (k1_hw15 : k1_chk15 v129), ∀ a, (k1_off30 v129) a + S1x1024.size a ≤ S32768x1024.size a := fun v129 k1_hw15 => k1_hw15

def k1_off31 (i : grid1.Coords) : Fin 1 → Nat :=
  let arg0 : BitVec 32 := BitVec.ofNat 32 (i 0).val
  let c256_i32 : BitVec 32 := 256#32
  let v0 : BitVec 32 := Scalar.muli arg0 c256_i32
  let c15_i32 : BitVec 32 := 15#32
  let v136 : BitVec 32 := Scalar.addi v0 c15_i32
  let v137 : Index := Scalar.indexCast v136
  ![v137.toNat]
def k1_off32 (v138 : BitVec 32) : Fin 2 → Nat :=
  let c0_i32_63 : BitVec 32 := 0#32
  ![v138.toNat, 0]

def k1_chk16 (v138 : BitVec 32) : Prop :=
  (∀ a, (k1_off32 v138) a + S1x1024.size a ≤ S32768x1024.size a)
instance k1_chk16.dec : ∀ (v138 : BitVec 32), Decidable (k1_chk16 v138) := fun v138 => decidable_of_iff' _ (Iff.of_eq (k1_chk16.eq_1 v138))
theorem k1_off32_inb : ∀ (v138 : BitVec 32) (k1_hw16 : k1_chk16 v138), ∀ a, (k1_off32 v138) a + S1x1024.size a ≤ S32768x1024.size a := fun v138 k1_hw16 => k1_hw16

def k1_off33 (i : grid1.Coords) : Fin 1 → Nat :=
  let arg0 : BitVec 32 := BitVec.ofNat 32 (i 0).val
  let c256_i32 : BitVec 32 := 256#32
  let v0 : BitVec 32 := Scalar.muli arg0 c256_i32
  let c16_i32 : BitVec 32 := 16#32
  let v145 : BitVec 32 := Scalar.addi v0 c16_i32
  let v146 : Index := Scalar.indexCast v145
  ![v146.toNat]
def k1_off34 (v147 : BitVec 32) : Fin 2 → Nat :=
  let c0_i32_67 : BitVec 32 := 0#32
  ![v147.toNat, 0]

def k1_chk17 (v147 : BitVec 32) : Prop :=
  (∀ a, (k1_off34 v147) a + S1x1024.size a ≤ S32768x1024.size a)
instance k1_chk17.dec : ∀ (v147 : BitVec 32), Decidable (k1_chk17 v147) := fun v147 => decidable_of_iff' _ (Iff.of_eq (k1_chk17.eq_1 v147))
theorem k1_off34_inb : ∀ (v147 : BitVec 32) (k1_hw17 : k1_chk17 v147), ∀ a, (k1_off34 v147) a + S1x1024.size a ≤ S32768x1024.size a := fun v147 k1_hw17 => k1_hw17

def k1_off35 (i : grid1.Coords) : Fin 1 → Nat :=
  let arg0 : BitVec 32 := BitVec.ofNat 32 (i 0).val
  let c256_i32 : BitVec 32 := 256#32
  let v0 : BitVec 32 := Scalar.muli arg0 c256_i32
  let c17_i32 : BitVec 32 := 17#32
  let v154 : BitVec 32 := Scalar.addi v0 c17_i32
  let v155 : Index := Scalar.indexCast v154
  ![v155.toNat]
def k1_off36 (v156 : BitVec 32) : Fin 2 → Nat :=
  let c0_i32_71 : BitVec 32 := 0#32
  ![v156.toNat, 0]

def k1_chk18 (v156 : BitVec 32) : Prop :=
  (∀ a, (k1_off36 v156) a + S1x1024.size a ≤ S32768x1024.size a)
instance k1_chk18.dec : ∀ (v156 : BitVec 32), Decidable (k1_chk18 v156) := fun v156 => decidable_of_iff' _ (Iff.of_eq (k1_chk18.eq_1 v156))
theorem k1_off36_inb : ∀ (v156 : BitVec 32) (k1_hw18 : k1_chk18 v156), ∀ a, (k1_off36 v156) a + S1x1024.size a ≤ S32768x1024.size a := fun v156 k1_hw18 => k1_hw18

def k1_off37 (i : grid1.Coords) : Fin 1 → Nat :=
  let arg0 : BitVec 32 := BitVec.ofNat 32 (i 0).val
  let c256_i32 : BitVec 32 := 256#32
  let v0 : BitVec 32 := Scalar.muli arg0 c256_i32
  let c18_i32 : BitVec 32 := 18#32
  let v163 : BitVec 32 := Scalar.addi v0 c18_i32
  let v164 : Index := Scalar.indexCast v163
  ![v164.toNat]
def k1_off38 (v165 : BitVec 32) : Fin 2 → Nat :=
  let c0_i32_75 : BitVec 32 := 0#32
  ![v165.toNat, 0]

def k1_chk19 (v165 : BitVec 32) : Prop :=
  (∀ a, (k1_off38 v165) a + S1x1024.size a ≤ S32768x1024.size a)
instance k1_chk19.dec : ∀ (v165 : BitVec 32), Decidable (k1_chk19 v165) := fun v165 => decidable_of_iff' _ (Iff.of_eq (k1_chk19.eq_1 v165))
theorem k1_off38_inb : ∀ (v165 : BitVec 32) (k1_hw19 : k1_chk19 v165), ∀ a, (k1_off38 v165) a + S1x1024.size a ≤ S32768x1024.size a := fun v165 k1_hw19 => k1_hw19

def k1_off39 (i : grid1.Coords) : Fin 1 → Nat :=
  let arg0 : BitVec 32 := BitVec.ofNat 32 (i 0).val
  let c256_i32 : BitVec 32 := 256#32
  let v0 : BitVec 32 := Scalar.muli arg0 c256_i32
  let c19_i32 : BitVec 32 := 19#32
  let v172 : BitVec 32 := Scalar.addi v0 c19_i32
  let v173 : Index := Scalar.indexCast v172
  ![v173.toNat]
def k1_off40 (v174 : BitVec 32) : Fin 2 → Nat :=
  let c0_i32_79 : BitVec 32 := 0#32
  ![v174.toNat, 0]

def k1_chk20 (v174 : BitVec 32) : Prop :=
  (∀ a, (k1_off40 v174) a + S1x1024.size a ≤ S32768x1024.size a)
instance k1_chk20.dec : ∀ (v174 : BitVec 32), Decidable (k1_chk20 v174) := fun v174 => decidable_of_iff' _ (Iff.of_eq (k1_chk20.eq_1 v174))
theorem k1_off40_inb : ∀ (v174 : BitVec 32) (k1_hw20 : k1_chk20 v174), ∀ a, (k1_off40 v174) a + S1x1024.size a ≤ S32768x1024.size a := fun v174 k1_hw20 => k1_hw20

def k1_off41 (i : grid1.Coords) : Fin 1 → Nat :=
  let arg0 : BitVec 32 := BitVec.ofNat 32 (i 0).val
  let c256_i32 : BitVec 32 := 256#32
  let v0 : BitVec 32 := Scalar.muli arg0 c256_i32
  let c20_i32 : BitVec 32 := 20#32
  let v181 : BitVec 32 := Scalar.addi v0 c20_i32
  let v182 : Index := Scalar.indexCast v181
  ![v182.toNat]
def k1_off42 (v183 : BitVec 32) : Fin 2 → Nat :=
  let c0_i32_83 : BitVec 32 := 0#32
  ![v183.toNat, 0]

def k1_chk21 (v183 : BitVec 32) : Prop :=
  (∀ a, (k1_off42 v183) a + S1x1024.size a ≤ S32768x1024.size a)
instance k1_chk21.dec : ∀ (v183 : BitVec 32), Decidable (k1_chk21 v183) := fun v183 => decidable_of_iff' _ (Iff.of_eq (k1_chk21.eq_1 v183))
theorem k1_off42_inb : ∀ (v183 : BitVec 32) (k1_hw21 : k1_chk21 v183), ∀ a, (k1_off42 v183) a + S1x1024.size a ≤ S32768x1024.size a := fun v183 k1_hw21 => k1_hw21

def k1_off43 (i : grid1.Coords) : Fin 1 → Nat :=
  let arg0 : BitVec 32 := BitVec.ofNat 32 (i 0).val
  let c256_i32 : BitVec 32 := 256#32
  let v0 : BitVec 32 := Scalar.muli arg0 c256_i32
  let c21_i32 : BitVec 32 := 21#32
  let v190 : BitVec 32 := Scalar.addi v0 c21_i32
  let v191 : Index := Scalar.indexCast v190
  ![v191.toNat]
def k1_off44 (v192 : BitVec 32) : Fin 2 → Nat :=
  let c0_i32_87 : BitVec 32 := 0#32
  ![v192.toNat, 0]

def k1_chk22 (v192 : BitVec 32) : Prop :=
  (∀ a, (k1_off44 v192) a + S1x1024.size a ≤ S32768x1024.size a)
instance k1_chk22.dec : ∀ (v192 : BitVec 32), Decidable (k1_chk22 v192) := fun v192 => decidable_of_iff' _ (Iff.of_eq (k1_chk22.eq_1 v192))
theorem k1_off44_inb : ∀ (v192 : BitVec 32) (k1_hw22 : k1_chk22 v192), ∀ a, (k1_off44 v192) a + S1x1024.size a ≤ S32768x1024.size a := fun v192 k1_hw22 => k1_hw22

def k1_off45 (i : grid1.Coords) : Fin 1 → Nat :=
  let arg0 : BitVec 32 := BitVec.ofNat 32 (i 0).val
  let c256_i32 : BitVec 32 := 256#32
  let v0 : BitVec 32 := Scalar.muli arg0 c256_i32
  let c22_i32 : BitVec 32 := 22#32
  let v199 : BitVec 32 := Scalar.addi v0 c22_i32
  let v200 : Index := Scalar.indexCast v199
  ![v200.toNat]
def k1_off46 (v201 : BitVec 32) : Fin 2 → Nat :=
  let c0_i32_91 : BitVec 32 := 0#32
  ![v201.toNat, 0]

def k1_chk23 (v201 : BitVec 32) : Prop :=
  (∀ a, (k1_off46 v201) a + S1x1024.size a ≤ S32768x1024.size a)
instance k1_chk23.dec : ∀ (v201 : BitVec 32), Decidable (k1_chk23 v201) := fun v201 => decidable_of_iff' _ (Iff.of_eq (k1_chk23.eq_1 v201))
theorem k1_off46_inb : ∀ (v201 : BitVec 32) (k1_hw23 : k1_chk23 v201), ∀ a, (k1_off46 v201) a + S1x1024.size a ≤ S32768x1024.size a := fun v201 k1_hw23 => k1_hw23

def k1_off47 (i : grid1.Coords) : Fin 1 → Nat :=
  let arg0 : BitVec 32 := BitVec.ofNat 32 (i 0).val
  let c256_i32 : BitVec 32 := 256#32
  let v0 : BitVec 32 := Scalar.muli arg0 c256_i32
  let c23_i32 : BitVec 32 := 23#32
  let v208 : BitVec 32 := Scalar.addi v0 c23_i32
  let v209 : Index := Scalar.indexCast v208
  ![v209.toNat]
def k1_off48 (v210 : BitVec 32) : Fin 2 → Nat :=
  let c0_i32_95 : BitVec 32 := 0#32
  ![v210.toNat, 0]

def k1_chk24 (v210 : BitVec 32) : Prop :=
  (∀ a, (k1_off48 v210) a + S1x1024.size a ≤ S32768x1024.size a)
instance k1_chk24.dec : ∀ (v210 : BitVec 32), Decidable (k1_chk24 v210) := fun v210 => decidable_of_iff' _ (Iff.of_eq (k1_chk24.eq_1 v210))
theorem k1_off48_inb : ∀ (v210 : BitVec 32) (k1_hw24 : k1_chk24 v210), ∀ a, (k1_off48 v210) a + S1x1024.size a ≤ S32768x1024.size a := fun v210 k1_hw24 => k1_hw24

def k1_off49 (i : grid1.Coords) : Fin 1 → Nat :=
  let arg0 : BitVec 32 := BitVec.ofNat 32 (i 0).val
  let c256_i32 : BitVec 32 := 256#32
  let v0 : BitVec 32 := Scalar.muli arg0 c256_i32
  let c24_i32 : BitVec 32 := 24#32
  let v217 : BitVec 32 := Scalar.addi v0 c24_i32
  let v218 : Index := Scalar.indexCast v217
  ![v218.toNat]
def k1_off50 (v219 : BitVec 32) : Fin 2 → Nat :=
  let c0_i32_99 : BitVec 32 := 0#32
  ![v219.toNat, 0]

def k1_chk25 (v219 : BitVec 32) : Prop :=
  (∀ a, (k1_off50 v219) a + S1x1024.size a ≤ S32768x1024.size a)
instance k1_chk25.dec : ∀ (v219 : BitVec 32), Decidable (k1_chk25 v219) := fun v219 => decidable_of_iff' _ (Iff.of_eq (k1_chk25.eq_1 v219))
theorem k1_off50_inb : ∀ (v219 : BitVec 32) (k1_hw25 : k1_chk25 v219), ∀ a, (k1_off50 v219) a + S1x1024.size a ≤ S32768x1024.size a := fun v219 k1_hw25 => k1_hw25

def k1_off51 (i : grid1.Coords) : Fin 1 → Nat :=
  let arg0 : BitVec 32 := BitVec.ofNat 32 (i 0).val
  let c256_i32 : BitVec 32 := 256#32
  let v0 : BitVec 32 := Scalar.muli arg0 c256_i32
  let c25_i32 : BitVec 32 := 25#32
  let v226 : BitVec 32 := Scalar.addi v0 c25_i32
  let v227 : Index := Scalar.indexCast v226
  ![v227.toNat]
def k1_off52 (v228 : BitVec 32) : Fin 2 → Nat :=
  let c0_i32_103 : BitVec 32 := 0#32
  ![v228.toNat, 0]

def k1_chk26 (v228 : BitVec 32) : Prop :=
  (∀ a, (k1_off52 v228) a + S1x1024.size a ≤ S32768x1024.size a)
instance k1_chk26.dec : ∀ (v228 : BitVec 32), Decidable (k1_chk26 v228) := fun v228 => decidable_of_iff' _ (Iff.of_eq (k1_chk26.eq_1 v228))
theorem k1_off52_inb : ∀ (v228 : BitVec 32) (k1_hw26 : k1_chk26 v228), ∀ a, (k1_off52 v228) a + S1x1024.size a ≤ S32768x1024.size a := fun v228 k1_hw26 => k1_hw26

def k1_off53 (i : grid1.Coords) : Fin 1 → Nat :=
  let arg0 : BitVec 32 := BitVec.ofNat 32 (i 0).val
  let c256_i32 : BitVec 32 := 256#32
  let v0 : BitVec 32 := Scalar.muli arg0 c256_i32
  let c26_i32 : BitVec 32 := 26#32
  let v235 : BitVec 32 := Scalar.addi v0 c26_i32
  let v236 : Index := Scalar.indexCast v235
  ![v236.toNat]
def k1_off54 (v237 : BitVec 32) : Fin 2 → Nat :=
  let c0_i32_107 : BitVec 32 := 0#32
  ![v237.toNat, 0]

def k1_chk27 (v237 : BitVec 32) : Prop :=
  (∀ a, (k1_off54 v237) a + S1x1024.size a ≤ S32768x1024.size a)
instance k1_chk27.dec : ∀ (v237 : BitVec 32), Decidable (k1_chk27 v237) := fun v237 => decidable_of_iff' _ (Iff.of_eq (k1_chk27.eq_1 v237))
theorem k1_off54_inb : ∀ (v237 : BitVec 32) (k1_hw27 : k1_chk27 v237), ∀ a, (k1_off54 v237) a + S1x1024.size a ≤ S32768x1024.size a := fun v237 k1_hw27 => k1_hw27

def k1_off55 (i : grid1.Coords) : Fin 1 → Nat :=
  let arg0 : BitVec 32 := BitVec.ofNat 32 (i 0).val
  let c256_i32 : BitVec 32 := 256#32
  let v0 : BitVec 32 := Scalar.muli arg0 c256_i32
  let c27_i32 : BitVec 32 := 27#32
  let v244 : BitVec 32 := Scalar.addi v0 c27_i32
  let v245 : Index := Scalar.indexCast v244
  ![v245.toNat]
def k1_off56 (v246 : BitVec 32) : Fin 2 → Nat :=
  let c0_i32_111 : BitVec 32 := 0#32
  ![v246.toNat, 0]

def k1_chk28 (v246 : BitVec 32) : Prop :=
  (∀ a, (k1_off56 v246) a + S1x1024.size a ≤ S32768x1024.size a)
instance k1_chk28.dec : ∀ (v246 : BitVec 32), Decidable (k1_chk28 v246) := fun v246 => decidable_of_iff' _ (Iff.of_eq (k1_chk28.eq_1 v246))
theorem k1_off56_inb : ∀ (v246 : BitVec 32) (k1_hw28 : k1_chk28 v246), ∀ a, (k1_off56 v246) a + S1x1024.size a ≤ S32768x1024.size a := fun v246 k1_hw28 => k1_hw28

def k1_off57 (i : grid1.Coords) : Fin 1 → Nat :=
  let arg0 : BitVec 32 := BitVec.ofNat 32 (i 0).val
  let c256_i32 : BitVec 32 := 256#32
  let v0 : BitVec 32 := Scalar.muli arg0 c256_i32
  let c28_i32 : BitVec 32 := 28#32
  let v253 : BitVec 32 := Scalar.addi v0 c28_i32
  let v254 : Index := Scalar.indexCast v253
  ![v254.toNat]
def k1_off58 (v255 : BitVec 32) : Fin 2 → Nat :=
  let c0_i32_115 : BitVec 32 := 0#32
  ![v255.toNat, 0]

def k1_chk29 (v255 : BitVec 32) : Prop :=
  (∀ a, (k1_off58 v255) a + S1x1024.size a ≤ S32768x1024.size a)
instance k1_chk29.dec : ∀ (v255 : BitVec 32), Decidable (k1_chk29 v255) := fun v255 => decidable_of_iff' _ (Iff.of_eq (k1_chk29.eq_1 v255))
theorem k1_off58_inb : ∀ (v255 : BitVec 32) (k1_hw29 : k1_chk29 v255), ∀ a, (k1_off58 v255) a + S1x1024.size a ≤ S32768x1024.size a := fun v255 k1_hw29 => k1_hw29

def k1_off59 (i : grid1.Coords) : Fin 1 → Nat :=
  let arg0 : BitVec 32 := BitVec.ofNat 32 (i 0).val
  let c256_i32 : BitVec 32 := 256#32
  let v0 : BitVec 32 := Scalar.muli arg0 c256_i32
  let c29_i32 : BitVec 32 := 29#32
  let v262 : BitVec 32 := Scalar.addi v0 c29_i32
  let v263 : Index := Scalar.indexCast v262
  ![v263.toNat]
def k1_off60 (v264 : BitVec 32) : Fin 2 → Nat :=
  let c0_i32_119 : BitVec 32 := 0#32
  ![v264.toNat, 0]

def k1_chk30 (v264 : BitVec 32) : Prop :=
  (∀ a, (k1_off60 v264) a + S1x1024.size a ≤ S32768x1024.size a)
instance k1_chk30.dec : ∀ (v264 : BitVec 32), Decidable (k1_chk30 v264) := fun v264 => decidable_of_iff' _ (Iff.of_eq (k1_chk30.eq_1 v264))
theorem k1_off60_inb : ∀ (v264 : BitVec 32) (k1_hw30 : k1_chk30 v264), ∀ a, (k1_off60 v264) a + S1x1024.size a ≤ S32768x1024.size a := fun v264 k1_hw30 => k1_hw30

def k1_off61 (i : grid1.Coords) : Fin 1 → Nat :=
  let arg0 : BitVec 32 := BitVec.ofNat 32 (i 0).val
  let c256_i32 : BitVec 32 := 256#32
  let v0 : BitVec 32 := Scalar.muli arg0 c256_i32
  let c30_i32 : BitVec 32 := 30#32
  let v271 : BitVec 32 := Scalar.addi v0 c30_i32
  let v272 : Index := Scalar.indexCast v271
  ![v272.toNat]
def k1_off62 (v273 : BitVec 32) : Fin 2 → Nat :=
  let c0_i32_123 : BitVec 32 := 0#32
  ![v273.toNat, 0]

def k1_chk31 (v273 : BitVec 32) : Prop :=
  (∀ a, (k1_off62 v273) a + S1x1024.size a ≤ S32768x1024.size a)
instance k1_chk31.dec : ∀ (v273 : BitVec 32), Decidable (k1_chk31 v273) := fun v273 => decidable_of_iff' _ (Iff.of_eq (k1_chk31.eq_1 v273))
theorem k1_off62_inb : ∀ (v273 : BitVec 32) (k1_hw31 : k1_chk31 v273), ∀ a, (k1_off62 v273) a + S1x1024.size a ≤ S32768x1024.size a := fun v273 k1_hw31 => k1_hw31

def k1_off63 (i : grid1.Coords) : Fin 1 → Nat :=
  let arg0 : BitVec 32 := BitVec.ofNat 32 (i 0).val
  let c256_i32 : BitVec 32 := 256#32
  let v0 : BitVec 32 := Scalar.muli arg0 c256_i32
  let c31_i32 : BitVec 32 := 31#32
  let v280 : BitVec 32 := Scalar.addi v0 c31_i32
  let v281 : Index := Scalar.indexCast v280
  ![v281.toNat]
def k1_off64 (v282 : BitVec 32) : Fin 2 → Nat :=
  let c0_i32_127 : BitVec 32 := 0#32
  ![v282.toNat, 0]

def k1_chk32 (v282 : BitVec 32) : Prop :=
  (∀ a, (k1_off64 v282) a + S1x1024.size a ≤ S32768x1024.size a)
instance k1_chk32.dec : ∀ (v282 : BitVec 32), Decidable (k1_chk32 v282) := fun v282 => decidable_of_iff' _ (Iff.of_eq (k1_chk32.eq_1 v282))
theorem k1_off64_inb : ∀ (v282 : BitVec 32) (k1_hw32 : k1_chk32 v282), ∀ a, (k1_off64 v282) a + S1x1024.size a ≤ S32768x1024.size a := fun v282 k1_hw32 => k1_hw32

def k1_off65 (i : grid1.Coords) : Fin 1 → Nat :=
  let arg0 : BitVec 32 := BitVec.ofNat 32 (i 0).val
  let c256_i32 : BitVec 32 := 256#32
  let v0 : BitVec 32 := Scalar.muli arg0 c256_i32
  let c32_i32 : BitVec 32 := 32#32
  let v289 : BitVec 32 := Scalar.addi v0 c32_i32
  let v290 : Index := Scalar.indexCast v289
  ![v290.toNat]
def k1_off66 (v291 : BitVec 32) : Fin 2 → Nat :=
  let c0_i32_131 : BitVec 32 := 0#32
  ![v291.toNat, 0]

def k1_chk33 (v291 : BitVec 32) : Prop :=
  (∀ a, (k1_off66 v291) a + S1x1024.size a ≤ S32768x1024.size a)
instance k1_chk33.dec : ∀ (v291 : BitVec 32), Decidable (k1_chk33 v291) := fun v291 => decidable_of_iff' _ (Iff.of_eq (k1_chk33.eq_1 v291))
theorem k1_off66_inb : ∀ (v291 : BitVec 32) (k1_hw33 : k1_chk33 v291), ∀ a, (k1_off66 v291) a + S1x1024.size a ≤ S32768x1024.size a := fun v291 k1_hw33 => k1_hw33

def k1_off67 (i : grid1.Coords) : Fin 1 → Nat :=
  let arg0 : BitVec 32 := BitVec.ofNat 32 (i 0).val
  let c256_i32 : BitVec 32 := 256#32
  let v0 : BitVec 32 := Scalar.muli arg0 c256_i32
  let c33_i32 : BitVec 32 := 33#32
  let v298 : BitVec 32 := Scalar.addi v0 c33_i32
  let v299 : Index := Scalar.indexCast v298
  ![v299.toNat]
def k1_off68 (v300 : BitVec 32) : Fin 2 → Nat :=
  let c0_i32_135 : BitVec 32 := 0#32
  ![v300.toNat, 0]

def k1_chk34 (v300 : BitVec 32) : Prop :=
  (∀ a, (k1_off68 v300) a + S1x1024.size a ≤ S32768x1024.size a)
instance k1_chk34.dec : ∀ (v300 : BitVec 32), Decidable (k1_chk34 v300) := fun v300 => decidable_of_iff' _ (Iff.of_eq (k1_chk34.eq_1 v300))
theorem k1_off68_inb : ∀ (v300 : BitVec 32) (k1_hw34 : k1_chk34 v300), ∀ a, (k1_off68 v300) a + S1x1024.size a ≤ S32768x1024.size a := fun v300 k1_hw34 => k1_hw34

def k1_off69 (i : grid1.Coords) : Fin 1 → Nat :=
  let arg0 : BitVec 32 := BitVec.ofNat 32 (i 0).val
  let c256_i32 : BitVec 32 := 256#32
  let v0 : BitVec 32 := Scalar.muli arg0 c256_i32
  let c34_i32 : BitVec 32 := 34#32
  let v307 : BitVec 32 := Scalar.addi v0 c34_i32
  let v308 : Index := Scalar.indexCast v307
  ![v308.toNat]
def k1_off70 (v309 : BitVec 32) : Fin 2 → Nat :=
  let c0_i32_139 : BitVec 32 := 0#32
  ![v309.toNat, 0]

def k1_chk35 (v309 : BitVec 32) : Prop :=
  (∀ a, (k1_off70 v309) a + S1x1024.size a ≤ S32768x1024.size a)
instance k1_chk35.dec : ∀ (v309 : BitVec 32), Decidable (k1_chk35 v309) := fun v309 => decidable_of_iff' _ (Iff.of_eq (k1_chk35.eq_1 v309))
theorem k1_off70_inb : ∀ (v309 : BitVec 32) (k1_hw35 : k1_chk35 v309), ∀ a, (k1_off70 v309) a + S1x1024.size a ≤ S32768x1024.size a := fun v309 k1_hw35 => k1_hw35

def k1_off71 (i : grid1.Coords) : Fin 1 → Nat :=
  let arg0 : BitVec 32 := BitVec.ofNat 32 (i 0).val
  let c256_i32 : BitVec 32 := 256#32
  let v0 : BitVec 32 := Scalar.muli arg0 c256_i32
  let c35_i32 : BitVec 32 := 35#32
  let v316 : BitVec 32 := Scalar.addi v0 c35_i32
  let v317 : Index := Scalar.indexCast v316
  ![v317.toNat]
def k1_off72 (v318 : BitVec 32) : Fin 2 → Nat :=
  let c0_i32_143 : BitVec 32 := 0#32
  ![v318.toNat, 0]

def k1_chk36 (v318 : BitVec 32) : Prop :=
  (∀ a, (k1_off72 v318) a + S1x1024.size a ≤ S32768x1024.size a)
instance k1_chk36.dec : ∀ (v318 : BitVec 32), Decidable (k1_chk36 v318) := fun v318 => decidable_of_iff' _ (Iff.of_eq (k1_chk36.eq_1 v318))
theorem k1_off72_inb : ∀ (v318 : BitVec 32) (k1_hw36 : k1_chk36 v318), ∀ a, (k1_off72 v318) a + S1x1024.size a ≤ S32768x1024.size a := fun v318 k1_hw36 => k1_hw36

def k1_off73 (i : grid1.Coords) : Fin 1 → Nat :=
  let arg0 : BitVec 32 := BitVec.ofNat 32 (i 0).val
  let c256_i32 : BitVec 32 := 256#32
  let v0 : BitVec 32 := Scalar.muli arg0 c256_i32
  let c36_i32 : BitVec 32 := 36#32
  let v325 : BitVec 32 := Scalar.addi v0 c36_i32
  let v326 : Index := Scalar.indexCast v325
  ![v326.toNat]
def k1_off74 (v327 : BitVec 32) : Fin 2 → Nat :=
  let c0_i32_147 : BitVec 32 := 0#32
  ![v327.toNat, 0]

def k1_chk37 (v327 : BitVec 32) : Prop :=
  (∀ a, (k1_off74 v327) a + S1x1024.size a ≤ S32768x1024.size a)
instance k1_chk37.dec : ∀ (v327 : BitVec 32), Decidable (k1_chk37 v327) := fun v327 => decidable_of_iff' _ (Iff.of_eq (k1_chk37.eq_1 v327))
theorem k1_off74_inb : ∀ (v327 : BitVec 32) (k1_hw37 : k1_chk37 v327), ∀ a, (k1_off74 v327) a + S1x1024.size a ≤ S32768x1024.size a := fun v327 k1_hw37 => k1_hw37

def k1_off75 (i : grid1.Coords) : Fin 1 → Nat :=
  let arg0 : BitVec 32 := BitVec.ofNat 32 (i 0).val
  let c256_i32 : BitVec 32 := 256#32
  let v0 : BitVec 32 := Scalar.muli arg0 c256_i32
  let c37_i32 : BitVec 32 := 37#32
  let v334 : BitVec 32 := Scalar.addi v0 c37_i32
  let v335 : Index := Scalar.indexCast v334
  ![v335.toNat]
def k1_off76 (v336 : BitVec 32) : Fin 2 → Nat :=
  let c0_i32_151 : BitVec 32 := 0#32
  ![v336.toNat, 0]

def k1_chk38 (v336 : BitVec 32) : Prop :=
  (∀ a, (k1_off76 v336) a + S1x1024.size a ≤ S32768x1024.size a)
instance k1_chk38.dec : ∀ (v336 : BitVec 32), Decidable (k1_chk38 v336) := fun v336 => decidable_of_iff' _ (Iff.of_eq (k1_chk38.eq_1 v336))
theorem k1_off76_inb : ∀ (v336 : BitVec 32) (k1_hw38 : k1_chk38 v336), ∀ a, (k1_off76 v336) a + S1x1024.size a ≤ S32768x1024.size a := fun v336 k1_hw38 => k1_hw38

def k1_off77 (i : grid1.Coords) : Fin 1 → Nat :=
  let arg0 : BitVec 32 := BitVec.ofNat 32 (i 0).val
  let c256_i32 : BitVec 32 := 256#32
  let v0 : BitVec 32 := Scalar.muli arg0 c256_i32
  let c38_i32 : BitVec 32 := 38#32
  let v343 : BitVec 32 := Scalar.addi v0 c38_i32
  let v344 : Index := Scalar.indexCast v343
  ![v344.toNat]
def k1_off78 (v345 : BitVec 32) : Fin 2 → Nat :=
  let c0_i32_155 : BitVec 32 := 0#32
  ![v345.toNat, 0]

def k1_chk39 (v345 : BitVec 32) : Prop :=
  (∀ a, (k1_off78 v345) a + S1x1024.size a ≤ S32768x1024.size a)
instance k1_chk39.dec : ∀ (v345 : BitVec 32), Decidable (k1_chk39 v345) := fun v345 => decidable_of_iff' _ (Iff.of_eq (k1_chk39.eq_1 v345))
theorem k1_off78_inb : ∀ (v345 : BitVec 32) (k1_hw39 : k1_chk39 v345), ∀ a, (k1_off78 v345) a + S1x1024.size a ≤ S32768x1024.size a := fun v345 k1_hw39 => k1_hw39

def k1_off79 (i : grid1.Coords) : Fin 1 → Nat :=
  let arg0 : BitVec 32 := BitVec.ofNat 32 (i 0).val
  let c256_i32 : BitVec 32 := 256#32
  let v0 : BitVec 32 := Scalar.muli arg0 c256_i32
  let c39_i32 : BitVec 32 := 39#32
  let v352 : BitVec 32 := Scalar.addi v0 c39_i32
  let v353 : Index := Scalar.indexCast v352
  ![v353.toNat]
def k1_off80 (v354 : BitVec 32) : Fin 2 → Nat :=
  let c0_i32_159 : BitVec 32 := 0#32
  ![v354.toNat, 0]

def k1_chk40 (v354 : BitVec 32) : Prop :=
  (∀ a, (k1_off80 v354) a + S1x1024.size a ≤ S32768x1024.size a)
instance k1_chk40.dec : ∀ (v354 : BitVec 32), Decidable (k1_chk40 v354) := fun v354 => decidable_of_iff' _ (Iff.of_eq (k1_chk40.eq_1 v354))
theorem k1_off80_inb : ∀ (v354 : BitVec 32) (k1_hw40 : k1_chk40 v354), ∀ a, (k1_off80 v354) a + S1x1024.size a ≤ S32768x1024.size a := fun v354 k1_hw40 => k1_hw40

def k1_off81 (i : grid1.Coords) : Fin 1 → Nat :=
  let arg0 : BitVec 32 := BitVec.ofNat 32 (i 0).val
  let c256_i32 : BitVec 32 := 256#32
  let v0 : BitVec 32 := Scalar.muli arg0 c256_i32
  let c40_i32 : BitVec 32 := 40#32
  let v361 : BitVec 32 := Scalar.addi v0 c40_i32
  let v362 : Index := Scalar.indexCast v361
  ![v362.toNat]
def k1_off82 (v363 : BitVec 32) : Fin 2 → Nat :=
  let c0_i32_163 : BitVec 32 := 0#32
  ![v363.toNat, 0]

def k1_chk41 (v363 : BitVec 32) : Prop :=
  (∀ a, (k1_off82 v363) a + S1x1024.size a ≤ S32768x1024.size a)
instance k1_chk41.dec : ∀ (v363 : BitVec 32), Decidable (k1_chk41 v363) := fun v363 => decidable_of_iff' _ (Iff.of_eq (k1_chk41.eq_1 v363))
theorem k1_off82_inb : ∀ (v363 : BitVec 32) (k1_hw41 : k1_chk41 v363), ∀ a, (k1_off82 v363) a + S1x1024.size a ≤ S32768x1024.size a := fun v363 k1_hw41 => k1_hw41

def k1_off83 (i : grid1.Coords) : Fin 1 → Nat :=
  let arg0 : BitVec 32 := BitVec.ofNat 32 (i 0).val
  let c256_i32 : BitVec 32 := 256#32
  let v0 : BitVec 32 := Scalar.muli arg0 c256_i32
  let c41_i32 : BitVec 32 := 41#32
  let v370 : BitVec 32 := Scalar.addi v0 c41_i32
  let v371 : Index := Scalar.indexCast v370
  ![v371.toNat]
def k1_off84 (v372 : BitVec 32) : Fin 2 → Nat :=
  let c0_i32_167 : BitVec 32 := 0#32
  ![v372.toNat, 0]

def k1_chk42 (v372 : BitVec 32) : Prop :=
  (∀ a, (k1_off84 v372) a + S1x1024.size a ≤ S32768x1024.size a)
instance k1_chk42.dec : ∀ (v372 : BitVec 32), Decidable (k1_chk42 v372) := fun v372 => decidable_of_iff' _ (Iff.of_eq (k1_chk42.eq_1 v372))
theorem k1_off84_inb : ∀ (v372 : BitVec 32) (k1_hw42 : k1_chk42 v372), ∀ a, (k1_off84 v372) a + S1x1024.size a ≤ S32768x1024.size a := fun v372 k1_hw42 => k1_hw42

def k1_off85 (i : grid1.Coords) : Fin 1 → Nat :=
  let arg0 : BitVec 32 := BitVec.ofNat 32 (i 0).val
  let c256_i32 : BitVec 32 := 256#32
  let v0 : BitVec 32 := Scalar.muli arg0 c256_i32
  let c42_i32 : BitVec 32 := 42#32
  let v379 : BitVec 32 := Scalar.addi v0 c42_i32
  let v380 : Index := Scalar.indexCast v379
  ![v380.toNat]
def k1_off86 (v381 : BitVec 32) : Fin 2 → Nat :=
  let c0_i32_171 : BitVec 32 := 0#32
  ![v381.toNat, 0]

def k1_chk43 (v381 : BitVec 32) : Prop :=
  (∀ a, (k1_off86 v381) a + S1x1024.size a ≤ S32768x1024.size a)
instance k1_chk43.dec : ∀ (v381 : BitVec 32), Decidable (k1_chk43 v381) := fun v381 => decidable_of_iff' _ (Iff.of_eq (k1_chk43.eq_1 v381))
theorem k1_off86_inb : ∀ (v381 : BitVec 32) (k1_hw43 : k1_chk43 v381), ∀ a, (k1_off86 v381) a + S1x1024.size a ≤ S32768x1024.size a := fun v381 k1_hw43 => k1_hw43

def k1_off87 (i : grid1.Coords) : Fin 1 → Nat :=
  let arg0 : BitVec 32 := BitVec.ofNat 32 (i 0).val
  let c256_i32 : BitVec 32 := 256#32
  let v0 : BitVec 32 := Scalar.muli arg0 c256_i32
  let c43_i32 : BitVec 32 := 43#32
  let v388 : BitVec 32 := Scalar.addi v0 c43_i32
  let v389 : Index := Scalar.indexCast v388
  ![v389.toNat]
def k1_off88 (v390 : BitVec 32) : Fin 2 → Nat :=
  let c0_i32_175 : BitVec 32 := 0#32
  ![v390.toNat, 0]

def k1_chk44 (v390 : BitVec 32) : Prop :=
  (∀ a, (k1_off88 v390) a + S1x1024.size a ≤ S32768x1024.size a)
instance k1_chk44.dec : ∀ (v390 : BitVec 32), Decidable (k1_chk44 v390) := fun v390 => decidable_of_iff' _ (Iff.of_eq (k1_chk44.eq_1 v390))
theorem k1_off88_inb : ∀ (v390 : BitVec 32) (k1_hw44 : k1_chk44 v390), ∀ a, (k1_off88 v390) a + S1x1024.size a ≤ S32768x1024.size a := fun v390 k1_hw44 => k1_hw44

def k1_off89 (i : grid1.Coords) : Fin 1 → Nat :=
  let arg0 : BitVec 32 := BitVec.ofNat 32 (i 0).val
  let c256_i32 : BitVec 32 := 256#32
  let v0 : BitVec 32 := Scalar.muli arg0 c256_i32
  let c44_i32 : BitVec 32 := 44#32
  let v397 : BitVec 32 := Scalar.addi v0 c44_i32
  let v398 : Index := Scalar.indexCast v397
  ![v398.toNat]
def k1_off90 (v399 : BitVec 32) : Fin 2 → Nat :=
  let c0_i32_179 : BitVec 32 := 0#32
  ![v399.toNat, 0]

def k1_chk45 (v399 : BitVec 32) : Prop :=
  (∀ a, (k1_off90 v399) a + S1x1024.size a ≤ S32768x1024.size a)
instance k1_chk45.dec : ∀ (v399 : BitVec 32), Decidable (k1_chk45 v399) := fun v399 => decidable_of_iff' _ (Iff.of_eq (k1_chk45.eq_1 v399))
theorem k1_off90_inb : ∀ (v399 : BitVec 32) (k1_hw45 : k1_chk45 v399), ∀ a, (k1_off90 v399) a + S1x1024.size a ≤ S32768x1024.size a := fun v399 k1_hw45 => k1_hw45

def k1_off91 (i : grid1.Coords) : Fin 1 → Nat :=
  let arg0 : BitVec 32 := BitVec.ofNat 32 (i 0).val
  let c256_i32 : BitVec 32 := 256#32
  let v0 : BitVec 32 := Scalar.muli arg0 c256_i32
  let c45_i32 : BitVec 32 := 45#32
  let v406 : BitVec 32 := Scalar.addi v0 c45_i32
  let v407 : Index := Scalar.indexCast v406
  ![v407.toNat]
def k1_off92 (v408 : BitVec 32) : Fin 2 → Nat :=
  let c0_i32_183 : BitVec 32 := 0#32
  ![v408.toNat, 0]

def k1_chk46 (v408 : BitVec 32) : Prop :=
  (∀ a, (k1_off92 v408) a + S1x1024.size a ≤ S32768x1024.size a)
instance k1_chk46.dec : ∀ (v408 : BitVec 32), Decidable (k1_chk46 v408) := fun v408 => decidable_of_iff' _ (Iff.of_eq (k1_chk46.eq_1 v408))
theorem k1_off92_inb : ∀ (v408 : BitVec 32) (k1_hw46 : k1_chk46 v408), ∀ a, (k1_off92 v408) a + S1x1024.size a ≤ S32768x1024.size a := fun v408 k1_hw46 => k1_hw46

def k1_off93 (i : grid1.Coords) : Fin 1 → Nat :=
  let arg0 : BitVec 32 := BitVec.ofNat 32 (i 0).val
  let c256_i32 : BitVec 32 := 256#32
  let v0 : BitVec 32 := Scalar.muli arg0 c256_i32
  let c46_i32 : BitVec 32 := 46#32
  let v415 : BitVec 32 := Scalar.addi v0 c46_i32
  let v416 : Index := Scalar.indexCast v415
  ![v416.toNat]
def k1_off94 (v417 : BitVec 32) : Fin 2 → Nat :=
  let c0_i32_187 : BitVec 32 := 0#32
  ![v417.toNat, 0]

def k1_chk47 (v417 : BitVec 32) : Prop :=
  (∀ a, (k1_off94 v417) a + S1x1024.size a ≤ S32768x1024.size a)
instance k1_chk47.dec : ∀ (v417 : BitVec 32), Decidable (k1_chk47 v417) := fun v417 => decidable_of_iff' _ (Iff.of_eq (k1_chk47.eq_1 v417))
theorem k1_off94_inb : ∀ (v417 : BitVec 32) (k1_hw47 : k1_chk47 v417), ∀ a, (k1_off94 v417) a + S1x1024.size a ≤ S32768x1024.size a := fun v417 k1_hw47 => k1_hw47

def k1_off95 (i : grid1.Coords) : Fin 1 → Nat :=
  let arg0 : BitVec 32 := BitVec.ofNat 32 (i 0).val
  let c256_i32 : BitVec 32 := 256#32
  let v0 : BitVec 32 := Scalar.muli arg0 c256_i32
  let c47_i32 : BitVec 32 := 47#32
  let v424 : BitVec 32 := Scalar.addi v0 c47_i32
  let v425 : Index := Scalar.indexCast v424
  ![v425.toNat]
def k1_off96 (v426 : BitVec 32) : Fin 2 → Nat :=
  let c0_i32_191 : BitVec 32 := 0#32
  ![v426.toNat, 0]

def k1_chk48 (v426 : BitVec 32) : Prop :=
  (∀ a, (k1_off96 v426) a + S1x1024.size a ≤ S32768x1024.size a)
instance k1_chk48.dec : ∀ (v426 : BitVec 32), Decidable (k1_chk48 v426) := fun v426 => decidable_of_iff' _ (Iff.of_eq (k1_chk48.eq_1 v426))
theorem k1_off96_inb : ∀ (v426 : BitVec 32) (k1_hw48 : k1_chk48 v426), ∀ a, (k1_off96 v426) a + S1x1024.size a ≤ S32768x1024.size a := fun v426 k1_hw48 => k1_hw48

def k1_off97 (i : grid1.Coords) : Fin 1 → Nat :=
  let arg0 : BitVec 32 := BitVec.ofNat 32 (i 0).val
  let c256_i32 : BitVec 32 := 256#32
  let v0 : BitVec 32 := Scalar.muli arg0 c256_i32
  let c48_i32 : BitVec 32 := 48#32
  let v433 : BitVec 32 := Scalar.addi v0 c48_i32
  let v434 : Index := Scalar.indexCast v433
  ![v434.toNat]
def k1_off98 (v435 : BitVec 32) : Fin 2 → Nat :=
  let c0_i32_195 : BitVec 32 := 0#32
  ![v435.toNat, 0]

def k1_chk49 (v435 : BitVec 32) : Prop :=
  (∀ a, (k1_off98 v435) a + S1x1024.size a ≤ S32768x1024.size a)
instance k1_chk49.dec : ∀ (v435 : BitVec 32), Decidable (k1_chk49 v435) := fun v435 => decidable_of_iff' _ (Iff.of_eq (k1_chk49.eq_1 v435))
theorem k1_off98_inb : ∀ (v435 : BitVec 32) (k1_hw49 : k1_chk49 v435), ∀ a, (k1_off98 v435) a + S1x1024.size a ≤ S32768x1024.size a := fun v435 k1_hw49 => k1_hw49

def k1_off99 (i : grid1.Coords) : Fin 1 → Nat :=
  let arg0 : BitVec 32 := BitVec.ofNat 32 (i 0).val
  let c256_i32 : BitVec 32 := 256#32
  let v0 : BitVec 32 := Scalar.muli arg0 c256_i32
  let c49_i32 : BitVec 32 := 49#32
  let v442 : BitVec 32 := Scalar.addi v0 c49_i32
  let v443 : Index := Scalar.indexCast v442
  ![v443.toNat]
def k1_off100 (v444 : BitVec 32) : Fin 2 → Nat :=
  let c0_i32_199 : BitVec 32 := 0#32
  ![v444.toNat, 0]

def k1_chk50 (v444 : BitVec 32) : Prop :=
  (∀ a, (k1_off100 v444) a + S1x1024.size a ≤ S32768x1024.size a)
instance k1_chk50.dec : ∀ (v444 : BitVec 32), Decidable (k1_chk50 v444) := fun v444 => decidable_of_iff' _ (Iff.of_eq (k1_chk50.eq_1 v444))
theorem k1_off100_inb : ∀ (v444 : BitVec 32) (k1_hw50 : k1_chk50 v444), ∀ a, (k1_off100 v444) a + S1x1024.size a ≤ S32768x1024.size a := fun v444 k1_hw50 => k1_hw50

def k1_off101 (i : grid1.Coords) : Fin 1 → Nat :=
  let arg0 : BitVec 32 := BitVec.ofNat 32 (i 0).val
  let c256_i32 : BitVec 32 := 256#32
  let v0 : BitVec 32 := Scalar.muli arg0 c256_i32
  let c50_i32 : BitVec 32 := 50#32
  let v451 : BitVec 32 := Scalar.addi v0 c50_i32
  let v452 : Index := Scalar.indexCast v451
  ![v452.toNat]
def k1_off102 (v453 : BitVec 32) : Fin 2 → Nat :=
  let c0_i32_203 : BitVec 32 := 0#32
  ![v453.toNat, 0]

def k1_chk51 (v453 : BitVec 32) : Prop :=
  (∀ a, (k1_off102 v453) a + S1x1024.size a ≤ S32768x1024.size a)
instance k1_chk51.dec : ∀ (v453 : BitVec 32), Decidable (k1_chk51 v453) := fun v453 => decidable_of_iff' _ (Iff.of_eq (k1_chk51.eq_1 v453))
theorem k1_off102_inb : ∀ (v453 : BitVec 32) (k1_hw51 : k1_chk51 v453), ∀ a, (k1_off102 v453) a + S1x1024.size a ≤ S32768x1024.size a := fun v453 k1_hw51 => k1_hw51

def k1_off103 (i : grid1.Coords) : Fin 1 → Nat :=
  let arg0 : BitVec 32 := BitVec.ofNat 32 (i 0).val
  let c256_i32 : BitVec 32 := 256#32
  let v0 : BitVec 32 := Scalar.muli arg0 c256_i32
  let c51_i32 : BitVec 32 := 51#32
  let v460 : BitVec 32 := Scalar.addi v0 c51_i32
  let v461 : Index := Scalar.indexCast v460
  ![v461.toNat]
def k1_off104 (v462 : BitVec 32) : Fin 2 → Nat :=
  let c0_i32_207 : BitVec 32 := 0#32
  ![v462.toNat, 0]

def k1_chk52 (v462 : BitVec 32) : Prop :=
  (∀ a, (k1_off104 v462) a + S1x1024.size a ≤ S32768x1024.size a)
instance k1_chk52.dec : ∀ (v462 : BitVec 32), Decidable (k1_chk52 v462) := fun v462 => decidable_of_iff' _ (Iff.of_eq (k1_chk52.eq_1 v462))
theorem k1_off104_inb : ∀ (v462 : BitVec 32) (k1_hw52 : k1_chk52 v462), ∀ a, (k1_off104 v462) a + S1x1024.size a ≤ S32768x1024.size a := fun v462 k1_hw52 => k1_hw52

def k1_off105 (i : grid1.Coords) : Fin 1 → Nat :=
  let arg0 : BitVec 32 := BitVec.ofNat 32 (i 0).val
  let c256_i32 : BitVec 32 := 256#32
  let v0 : BitVec 32 := Scalar.muli arg0 c256_i32
  let c52_i32 : BitVec 32 := 52#32
  let v469 : BitVec 32 := Scalar.addi v0 c52_i32
  let v470 : Index := Scalar.indexCast v469
  ![v470.toNat]
def k1_off106 (v471 : BitVec 32) : Fin 2 → Nat :=
  let c0_i32_211 : BitVec 32 := 0#32
  ![v471.toNat, 0]

def k1_chk53 (v471 : BitVec 32) : Prop :=
  (∀ a, (k1_off106 v471) a + S1x1024.size a ≤ S32768x1024.size a)
instance k1_chk53.dec : ∀ (v471 : BitVec 32), Decidable (k1_chk53 v471) := fun v471 => decidable_of_iff' _ (Iff.of_eq (k1_chk53.eq_1 v471))
theorem k1_off106_inb : ∀ (v471 : BitVec 32) (k1_hw53 : k1_chk53 v471), ∀ a, (k1_off106 v471) a + S1x1024.size a ≤ S32768x1024.size a := fun v471 k1_hw53 => k1_hw53

def k1_off107 (i : grid1.Coords) : Fin 1 → Nat :=
  let arg0 : BitVec 32 := BitVec.ofNat 32 (i 0).val
  let c256_i32 : BitVec 32 := 256#32
  let v0 : BitVec 32 := Scalar.muli arg0 c256_i32
  let c53_i32 : BitVec 32 := 53#32
  let v478 : BitVec 32 := Scalar.addi v0 c53_i32
  let v479 : Index := Scalar.indexCast v478
  ![v479.toNat]
def k1_off108 (v480 : BitVec 32) : Fin 2 → Nat :=
  let c0_i32_215 : BitVec 32 := 0#32
  ![v480.toNat, 0]

def k1_chk54 (v480 : BitVec 32) : Prop :=
  (∀ a, (k1_off108 v480) a + S1x1024.size a ≤ S32768x1024.size a)
instance k1_chk54.dec : ∀ (v480 : BitVec 32), Decidable (k1_chk54 v480) := fun v480 => decidable_of_iff' _ (Iff.of_eq (k1_chk54.eq_1 v480))
theorem k1_off108_inb : ∀ (v480 : BitVec 32) (k1_hw54 : k1_chk54 v480), ∀ a, (k1_off108 v480) a + S1x1024.size a ≤ S32768x1024.size a := fun v480 k1_hw54 => k1_hw54

def k1_off109 (i : grid1.Coords) : Fin 1 → Nat :=
  let arg0 : BitVec 32 := BitVec.ofNat 32 (i 0).val
  let c256_i32 : BitVec 32 := 256#32
  let v0 : BitVec 32 := Scalar.muli arg0 c256_i32
  let c54_i32 : BitVec 32 := 54#32
  let v487 : BitVec 32 := Scalar.addi v0 c54_i32
  let v488 : Index := Scalar.indexCast v487
  ![v488.toNat]
def k1_off110 (v489 : BitVec 32) : Fin 2 → Nat :=
  let c0_i32_219 : BitVec 32 := 0#32
  ![v489.toNat, 0]

def k1_chk55 (v489 : BitVec 32) : Prop :=
  (∀ a, (k1_off110 v489) a + S1x1024.size a ≤ S32768x1024.size a)
instance k1_chk55.dec : ∀ (v489 : BitVec 32), Decidable (k1_chk55 v489) := fun v489 => decidable_of_iff' _ (Iff.of_eq (k1_chk55.eq_1 v489))
theorem k1_off110_inb : ∀ (v489 : BitVec 32) (k1_hw55 : k1_chk55 v489), ∀ a, (k1_off110 v489) a + S1x1024.size a ≤ S32768x1024.size a := fun v489 k1_hw55 => k1_hw55

def k1_off111 (i : grid1.Coords) : Fin 1 → Nat :=
  let arg0 : BitVec 32 := BitVec.ofNat 32 (i 0).val
  let c256_i32 : BitVec 32 := 256#32
  let v0 : BitVec 32 := Scalar.muli arg0 c256_i32
  let c55_i32 : BitVec 32 := 55#32
  let v496 : BitVec 32 := Scalar.addi v0 c55_i32
  let v497 : Index := Scalar.indexCast v496
  ![v497.toNat]
def k1_off112 (v498 : BitVec 32) : Fin 2 → Nat :=
  let c0_i32_223 : BitVec 32 := 0#32
  ![v498.toNat, 0]

def k1_chk56 (v498 : BitVec 32) : Prop :=
  (∀ a, (k1_off112 v498) a + S1x1024.size a ≤ S32768x1024.size a)
instance k1_chk56.dec : ∀ (v498 : BitVec 32), Decidable (k1_chk56 v498) := fun v498 => decidable_of_iff' _ (Iff.of_eq (k1_chk56.eq_1 v498))
theorem k1_off112_inb : ∀ (v498 : BitVec 32) (k1_hw56 : k1_chk56 v498), ∀ a, (k1_off112 v498) a + S1x1024.size a ≤ S32768x1024.size a := fun v498 k1_hw56 => k1_hw56

def k1_off113 (i : grid1.Coords) : Fin 1 → Nat :=
  let arg0 : BitVec 32 := BitVec.ofNat 32 (i 0).val
  let c256_i32 : BitVec 32 := 256#32
  let v0 : BitVec 32 := Scalar.muli arg0 c256_i32
  let c56_i32 : BitVec 32 := 56#32
  let v505 : BitVec 32 := Scalar.addi v0 c56_i32
  let v506 : Index := Scalar.indexCast v505
  ![v506.toNat]
def k1_off114 (v507 : BitVec 32) : Fin 2 → Nat :=
  let c0_i32_227 : BitVec 32 := 0#32
  ![v507.toNat, 0]

def k1_chk57 (v507 : BitVec 32) : Prop :=
  (∀ a, (k1_off114 v507) a + S1x1024.size a ≤ S32768x1024.size a)
instance k1_chk57.dec : ∀ (v507 : BitVec 32), Decidable (k1_chk57 v507) := fun v507 => decidable_of_iff' _ (Iff.of_eq (k1_chk57.eq_1 v507))
theorem k1_off114_inb : ∀ (v507 : BitVec 32) (k1_hw57 : k1_chk57 v507), ∀ a, (k1_off114 v507) a + S1x1024.size a ≤ S32768x1024.size a := fun v507 k1_hw57 => k1_hw57

def k1_off115 (i : grid1.Coords) : Fin 1 → Nat :=
  let arg0 : BitVec 32 := BitVec.ofNat 32 (i 0).val
  let c256_i32 : BitVec 32 := 256#32
  let v0 : BitVec 32 := Scalar.muli arg0 c256_i32
  let c57_i32 : BitVec 32 := 57#32
  let v514 : BitVec 32 := Scalar.addi v0 c57_i32
  let v515 : Index := Scalar.indexCast v514
  ![v515.toNat]
def k1_off116 (v516 : BitVec 32) : Fin 2 → Nat :=
  let c0_i32_231 : BitVec 32 := 0#32
  ![v516.toNat, 0]

def k1_chk58 (v516 : BitVec 32) : Prop :=
  (∀ a, (k1_off116 v516) a + S1x1024.size a ≤ S32768x1024.size a)
instance k1_chk58.dec : ∀ (v516 : BitVec 32), Decidable (k1_chk58 v516) := fun v516 => decidable_of_iff' _ (Iff.of_eq (k1_chk58.eq_1 v516))
theorem k1_off116_inb : ∀ (v516 : BitVec 32) (k1_hw58 : k1_chk58 v516), ∀ a, (k1_off116 v516) a + S1x1024.size a ≤ S32768x1024.size a := fun v516 k1_hw58 => k1_hw58

def k1_off117 (i : grid1.Coords) : Fin 1 → Nat :=
  let arg0 : BitVec 32 := BitVec.ofNat 32 (i 0).val
  let c256_i32 : BitVec 32 := 256#32
  let v0 : BitVec 32 := Scalar.muli arg0 c256_i32
  let c58_i32 : BitVec 32 := 58#32
  let v523 : BitVec 32 := Scalar.addi v0 c58_i32
  let v524 : Index := Scalar.indexCast v523
  ![v524.toNat]
def k1_off118 (v525 : BitVec 32) : Fin 2 → Nat :=
  let c0_i32_235 : BitVec 32 := 0#32
  ![v525.toNat, 0]

def k1_chk59 (v525 : BitVec 32) : Prop :=
  (∀ a, (k1_off118 v525) a + S1x1024.size a ≤ S32768x1024.size a)
instance k1_chk59.dec : ∀ (v525 : BitVec 32), Decidable (k1_chk59 v525) := fun v525 => decidable_of_iff' _ (Iff.of_eq (k1_chk59.eq_1 v525))
theorem k1_off118_inb : ∀ (v525 : BitVec 32) (k1_hw59 : k1_chk59 v525), ∀ a, (k1_off118 v525) a + S1x1024.size a ≤ S32768x1024.size a := fun v525 k1_hw59 => k1_hw59

def k1_off119 (i : grid1.Coords) : Fin 1 → Nat :=
  let arg0 : BitVec 32 := BitVec.ofNat 32 (i 0).val
  let c256_i32 : BitVec 32 := 256#32
  let v0 : BitVec 32 := Scalar.muli arg0 c256_i32
  let c59_i32 : BitVec 32 := 59#32
  let v532 : BitVec 32 := Scalar.addi v0 c59_i32
  let v533 : Index := Scalar.indexCast v532
  ![v533.toNat]
def k1_off120 (v534 : BitVec 32) : Fin 2 → Nat :=
  let c0_i32_239 : BitVec 32 := 0#32
  ![v534.toNat, 0]

def k1_chk60 (v534 : BitVec 32) : Prop :=
  (∀ a, (k1_off120 v534) a + S1x1024.size a ≤ S32768x1024.size a)
instance k1_chk60.dec : ∀ (v534 : BitVec 32), Decidable (k1_chk60 v534) := fun v534 => decidable_of_iff' _ (Iff.of_eq (k1_chk60.eq_1 v534))
theorem k1_off120_inb : ∀ (v534 : BitVec 32) (k1_hw60 : k1_chk60 v534), ∀ a, (k1_off120 v534) a + S1x1024.size a ≤ S32768x1024.size a := fun v534 k1_hw60 => k1_hw60

def k1_off121 (i : grid1.Coords) : Fin 1 → Nat :=
  let arg0 : BitVec 32 := BitVec.ofNat 32 (i 0).val
  let c256_i32 : BitVec 32 := 256#32
  let v0 : BitVec 32 := Scalar.muli arg0 c256_i32
  let c60_i32 : BitVec 32 := 60#32
  let v541 : BitVec 32 := Scalar.addi v0 c60_i32
  let v542 : Index := Scalar.indexCast v541
  ![v542.toNat]
def k1_off122 (v543 : BitVec 32) : Fin 2 → Nat :=
  let c0_i32_243 : BitVec 32 := 0#32
  ![v543.toNat, 0]

def k1_chk61 (v543 : BitVec 32) : Prop :=
  (∀ a, (k1_off122 v543) a + S1x1024.size a ≤ S32768x1024.size a)
instance k1_chk61.dec : ∀ (v543 : BitVec 32), Decidable (k1_chk61 v543) := fun v543 => decidable_of_iff' _ (Iff.of_eq (k1_chk61.eq_1 v543))
theorem k1_off122_inb : ∀ (v543 : BitVec 32) (k1_hw61 : k1_chk61 v543), ∀ a, (k1_off122 v543) a + S1x1024.size a ≤ S32768x1024.size a := fun v543 k1_hw61 => k1_hw61

def k1_off123 (i : grid1.Coords) : Fin 1 → Nat :=
  let arg0 : BitVec 32 := BitVec.ofNat 32 (i 0).val
  let c256_i32 : BitVec 32 := 256#32
  let v0 : BitVec 32 := Scalar.muli arg0 c256_i32
  let c61_i32 : BitVec 32 := 61#32
  let v550 : BitVec 32 := Scalar.addi v0 c61_i32
  let v551 : Index := Scalar.indexCast v550
  ![v551.toNat]
def k1_off124 (v552 : BitVec 32) : Fin 2 → Nat :=
  let c0_i32_247 : BitVec 32 := 0#32
  ![v552.toNat, 0]

def k1_chk62 (v552 : BitVec 32) : Prop :=
  (∀ a, (k1_off124 v552) a + S1x1024.size a ≤ S32768x1024.size a)
instance k1_chk62.dec : ∀ (v552 : BitVec 32), Decidable (k1_chk62 v552) := fun v552 => decidable_of_iff' _ (Iff.of_eq (k1_chk62.eq_1 v552))
theorem k1_off124_inb : ∀ (v552 : BitVec 32) (k1_hw62 : k1_chk62 v552), ∀ a, (k1_off124 v552) a + S1x1024.size a ≤ S32768x1024.size a := fun v552 k1_hw62 => k1_hw62

def k1_off125 (i : grid1.Coords) : Fin 1 → Nat :=
  let arg0 : BitVec 32 := BitVec.ofNat 32 (i 0).val
  let c256_i32 : BitVec 32 := 256#32
  let v0 : BitVec 32 := Scalar.muli arg0 c256_i32
  let c62_i32 : BitVec 32 := 62#32
  let v559 : BitVec 32 := Scalar.addi v0 c62_i32
  let v560 : Index := Scalar.indexCast v559
  ![v560.toNat]
def k1_off126 (v561 : BitVec 32) : Fin 2 → Nat :=
  let c0_i32_251 : BitVec 32 := 0#32
  ![v561.toNat, 0]

def k1_chk63 (v561 : BitVec 32) : Prop :=
  (∀ a, (k1_off126 v561) a + S1x1024.size a ≤ S32768x1024.size a)
instance k1_chk63.dec : ∀ (v561 : BitVec 32), Decidable (k1_chk63 v561) := fun v561 => decidable_of_iff' _ (Iff.of_eq (k1_chk63.eq_1 v561))
theorem k1_off126_inb : ∀ (v561 : BitVec 32) (k1_hw63 : k1_chk63 v561), ∀ a, (k1_off126 v561) a + S1x1024.size a ≤ S32768x1024.size a := fun v561 k1_hw63 => k1_hw63

def k1_off127 (i : grid1.Coords) : Fin 1 → Nat :=
  let arg0 : BitVec 32 := BitVec.ofNat 32 (i 0).val
  let c256_i32 : BitVec 32 := 256#32
  let v0 : BitVec 32 := Scalar.muli arg0 c256_i32
  let c63_i32 : BitVec 32 := 63#32
  let v568 : BitVec 32 := Scalar.addi v0 c63_i32
  let v569 : Index := Scalar.indexCast v568
  ![v569.toNat]
def k1_off128 (v570 : BitVec 32) : Fin 2 → Nat :=
  let c0_i32_255 : BitVec 32 := 0#32
  ![v570.toNat, 0]

def k1_chk64 (v570 : BitVec 32) : Prop :=
  (∀ a, (k1_off128 v570) a + S1x1024.size a ≤ S32768x1024.size a)
instance k1_chk64.dec : ∀ (v570 : BitVec 32), Decidable (k1_chk64 v570) := fun v570 => decidable_of_iff' _ (Iff.of_eq (k1_chk64.eq_1 v570))
theorem k1_off128_inb : ∀ (v570 : BitVec 32) (k1_hw64 : k1_chk64 v570), ∀ a, (k1_off128 v570) a + S1x1024.size a ≤ S32768x1024.size a := fun v570 k1_hw64 => k1_hw64

def k1_off129 (i : grid1.Coords) : Fin 1 → Nat :=
  let arg0 : BitVec 32 := BitVec.ofNat 32 (i 0).val
  let c256_i32 : BitVec 32 := 256#32
  let v0 : BitVec 32 := Scalar.muli arg0 c256_i32
  let c64_i32 : BitVec 32 := 64#32
  let v577 : BitVec 32 := Scalar.addi v0 c64_i32
  let v578 : Index := Scalar.indexCast v577
  ![v578.toNat]
def k1_off130 (v579 : BitVec 32) : Fin 2 → Nat :=
  let c0_i32_259 : BitVec 32 := 0#32
  ![v579.toNat, 0]

def k1_chk65 (v579 : BitVec 32) : Prop :=
  (∀ a, (k1_off130 v579) a + S1x1024.size a ≤ S32768x1024.size a)
instance k1_chk65.dec : ∀ (v579 : BitVec 32), Decidable (k1_chk65 v579) := fun v579 => decidable_of_iff' _ (Iff.of_eq (k1_chk65.eq_1 v579))
theorem k1_off130_inb : ∀ (v579 : BitVec 32) (k1_hw65 : k1_chk65 v579), ∀ a, (k1_off130 v579) a + S1x1024.size a ≤ S32768x1024.size a := fun v579 k1_hw65 => k1_hw65

def k1_off131 (i : grid1.Coords) : Fin 1 → Nat :=
  let arg0 : BitVec 32 := BitVec.ofNat 32 (i 0).val
  let c256_i32 : BitVec 32 := 256#32
  let v0 : BitVec 32 := Scalar.muli arg0 c256_i32
  let c65_i32 : BitVec 32 := 65#32
  let v586 : BitVec 32 := Scalar.addi v0 c65_i32
  let v587 : Index := Scalar.indexCast v586
  ![v587.toNat]
def k1_off132 (v588 : BitVec 32) : Fin 2 → Nat :=
  let c0_i32_263 : BitVec 32 := 0#32
  ![v588.toNat, 0]

def k1_chk66 (v588 : BitVec 32) : Prop :=
  (∀ a, (k1_off132 v588) a + S1x1024.size a ≤ S32768x1024.size a)
instance k1_chk66.dec : ∀ (v588 : BitVec 32), Decidable (k1_chk66 v588) := fun v588 => decidable_of_iff' _ (Iff.of_eq (k1_chk66.eq_1 v588))
theorem k1_off132_inb : ∀ (v588 : BitVec 32) (k1_hw66 : k1_chk66 v588), ∀ a, (k1_off132 v588) a + S1x1024.size a ≤ S32768x1024.size a := fun v588 k1_hw66 => k1_hw66

def k1_off133 (i : grid1.Coords) : Fin 1 → Nat :=
  let arg0 : BitVec 32 := BitVec.ofNat 32 (i 0).val
  let c256_i32 : BitVec 32 := 256#32
  let v0 : BitVec 32 := Scalar.muli arg0 c256_i32
  let c66_i32 : BitVec 32 := 66#32
  let v595 : BitVec 32 := Scalar.addi v0 c66_i32
  let v596 : Index := Scalar.indexCast v595
  ![v596.toNat]
def k1_off134 (v597 : BitVec 32) : Fin 2 → Nat :=
  let c0_i32_267 : BitVec 32 := 0#32
  ![v597.toNat, 0]

def k1_chk67 (v597 : BitVec 32) : Prop :=
  (∀ a, (k1_off134 v597) a + S1x1024.size a ≤ S32768x1024.size a)
instance k1_chk67.dec : ∀ (v597 : BitVec 32), Decidable (k1_chk67 v597) := fun v597 => decidable_of_iff' _ (Iff.of_eq (k1_chk67.eq_1 v597))
theorem k1_off134_inb : ∀ (v597 : BitVec 32) (k1_hw67 : k1_chk67 v597), ∀ a, (k1_off134 v597) a + S1x1024.size a ≤ S32768x1024.size a := fun v597 k1_hw67 => k1_hw67

def k1_off135 (i : grid1.Coords) : Fin 1 → Nat :=
  let arg0 : BitVec 32 := BitVec.ofNat 32 (i 0).val
  let c256_i32 : BitVec 32 := 256#32
  let v0 : BitVec 32 := Scalar.muli arg0 c256_i32
  let c67_i32 : BitVec 32 := 67#32
  let v604 : BitVec 32 := Scalar.addi v0 c67_i32
  let v605 : Index := Scalar.indexCast v604
  ![v605.toNat]
def k1_off136 (v606 : BitVec 32) : Fin 2 → Nat :=
  let c0_i32_271 : BitVec 32 := 0#32
  ![v606.toNat, 0]

def k1_chk68 (v606 : BitVec 32) : Prop :=
  (∀ a, (k1_off136 v606) a + S1x1024.size a ≤ S32768x1024.size a)
instance k1_chk68.dec : ∀ (v606 : BitVec 32), Decidable (k1_chk68 v606) := fun v606 => decidable_of_iff' _ (Iff.of_eq (k1_chk68.eq_1 v606))
theorem k1_off136_inb : ∀ (v606 : BitVec 32) (k1_hw68 : k1_chk68 v606), ∀ a, (k1_off136 v606) a + S1x1024.size a ≤ S32768x1024.size a := fun v606 k1_hw68 => k1_hw68

def k1_off137 (i : grid1.Coords) : Fin 1 → Nat :=
  let arg0 : BitVec 32 := BitVec.ofNat 32 (i 0).val
  let c256_i32 : BitVec 32 := 256#32
  let v0 : BitVec 32 := Scalar.muli arg0 c256_i32
  let c68_i32 : BitVec 32 := 68#32
  let v613 : BitVec 32 := Scalar.addi v0 c68_i32
  let v614 : Index := Scalar.indexCast v613
  ![v614.toNat]
def k1_off138 (v615 : BitVec 32) : Fin 2 → Nat :=
  let c0_i32_275 : BitVec 32 := 0#32
  ![v615.toNat, 0]

def k1_chk69 (v615 : BitVec 32) : Prop :=
  (∀ a, (k1_off138 v615) a + S1x1024.size a ≤ S32768x1024.size a)
instance k1_chk69.dec : ∀ (v615 : BitVec 32), Decidable (k1_chk69 v615) := fun v615 => decidable_of_iff' _ (Iff.of_eq (k1_chk69.eq_1 v615))
theorem k1_off138_inb : ∀ (v615 : BitVec 32) (k1_hw69 : k1_chk69 v615), ∀ a, (k1_off138 v615) a + S1x1024.size a ≤ S32768x1024.size a := fun v615 k1_hw69 => k1_hw69

def k1_off139 (i : grid1.Coords) : Fin 1 → Nat :=
  let arg0 : BitVec 32 := BitVec.ofNat 32 (i 0).val
  let c256_i32 : BitVec 32 := 256#32
  let v0 : BitVec 32 := Scalar.muli arg0 c256_i32
  let c69_i32 : BitVec 32 := 69#32
  let v622 : BitVec 32 := Scalar.addi v0 c69_i32
  let v623 : Index := Scalar.indexCast v622
  ![v623.toNat]
def k1_off140 (v624 : BitVec 32) : Fin 2 → Nat :=
  let c0_i32_279 : BitVec 32 := 0#32
  ![v624.toNat, 0]

def k1_chk70 (v624 : BitVec 32) : Prop :=
  (∀ a, (k1_off140 v624) a + S1x1024.size a ≤ S32768x1024.size a)
instance k1_chk70.dec : ∀ (v624 : BitVec 32), Decidable (k1_chk70 v624) := fun v624 => decidable_of_iff' _ (Iff.of_eq (k1_chk70.eq_1 v624))
theorem k1_off140_inb : ∀ (v624 : BitVec 32) (k1_hw70 : k1_chk70 v624), ∀ a, (k1_off140 v624) a + S1x1024.size a ≤ S32768x1024.size a := fun v624 k1_hw70 => k1_hw70

def k1_off141 (i : grid1.Coords) : Fin 1 → Nat :=
  let arg0 : BitVec 32 := BitVec.ofNat 32 (i 0).val
  let c256_i32 : BitVec 32 := 256#32
  let v0 : BitVec 32 := Scalar.muli arg0 c256_i32
  let c70_i32 : BitVec 32 := 70#32
  let v631 : BitVec 32 := Scalar.addi v0 c70_i32
  let v632 : Index := Scalar.indexCast v631
  ![v632.toNat]
def k1_off142 (v633 : BitVec 32) : Fin 2 → Nat :=
  let c0_i32_283 : BitVec 32 := 0#32
  ![v633.toNat, 0]

def k1_chk71 (v633 : BitVec 32) : Prop :=
  (∀ a, (k1_off142 v633) a + S1x1024.size a ≤ S32768x1024.size a)
instance k1_chk71.dec : ∀ (v633 : BitVec 32), Decidable (k1_chk71 v633) := fun v633 => decidable_of_iff' _ (Iff.of_eq (k1_chk71.eq_1 v633))
theorem k1_off142_inb : ∀ (v633 : BitVec 32) (k1_hw71 : k1_chk71 v633), ∀ a, (k1_off142 v633) a + S1x1024.size a ≤ S32768x1024.size a := fun v633 k1_hw71 => k1_hw71

def k1_off143 (i : grid1.Coords) : Fin 1 → Nat :=
  let arg0 : BitVec 32 := BitVec.ofNat 32 (i 0).val
  let c256_i32 : BitVec 32 := 256#32
  let v0 : BitVec 32 := Scalar.muli arg0 c256_i32
  let c71_i32 : BitVec 32 := 71#32
  let v640 : BitVec 32 := Scalar.addi v0 c71_i32
  let v641 : Index := Scalar.indexCast v640
  ![v641.toNat]
def k1_off144 (v642 : BitVec 32) : Fin 2 → Nat :=
  let c0_i32_287 : BitVec 32 := 0#32
  ![v642.toNat, 0]

def k1_chk72 (v642 : BitVec 32) : Prop :=
  (∀ a, (k1_off144 v642) a + S1x1024.size a ≤ S32768x1024.size a)
instance k1_chk72.dec : ∀ (v642 : BitVec 32), Decidable (k1_chk72 v642) := fun v642 => decidable_of_iff' _ (Iff.of_eq (k1_chk72.eq_1 v642))
theorem k1_off144_inb : ∀ (v642 : BitVec 32) (k1_hw72 : k1_chk72 v642), ∀ a, (k1_off144 v642) a + S1x1024.size a ≤ S32768x1024.size a := fun v642 k1_hw72 => k1_hw72

def k1_off145 (i : grid1.Coords) : Fin 1 → Nat :=
  let arg0 : BitVec 32 := BitVec.ofNat 32 (i 0).val
  let c256_i32 : BitVec 32 := 256#32
  let v0 : BitVec 32 := Scalar.muli arg0 c256_i32
  let c72_i32 : BitVec 32 := 72#32
  let v649 : BitVec 32 := Scalar.addi v0 c72_i32
  let v650 : Index := Scalar.indexCast v649
  ![v650.toNat]
def k1_off146 (v651 : BitVec 32) : Fin 2 → Nat :=
  let c0_i32_291 : BitVec 32 := 0#32
  ![v651.toNat, 0]

def k1_chk73 (v651 : BitVec 32) : Prop :=
  (∀ a, (k1_off146 v651) a + S1x1024.size a ≤ S32768x1024.size a)
instance k1_chk73.dec : ∀ (v651 : BitVec 32), Decidable (k1_chk73 v651) := fun v651 => decidable_of_iff' _ (Iff.of_eq (k1_chk73.eq_1 v651))
theorem k1_off146_inb : ∀ (v651 : BitVec 32) (k1_hw73 : k1_chk73 v651), ∀ a, (k1_off146 v651) a + S1x1024.size a ≤ S32768x1024.size a := fun v651 k1_hw73 => k1_hw73

def k1_off147 (i : grid1.Coords) : Fin 1 → Nat :=
  let arg0 : BitVec 32 := BitVec.ofNat 32 (i 0).val
  let c256_i32 : BitVec 32 := 256#32
  let v0 : BitVec 32 := Scalar.muli arg0 c256_i32
  let c73_i32 : BitVec 32 := 73#32
  let v658 : BitVec 32 := Scalar.addi v0 c73_i32
  let v659 : Index := Scalar.indexCast v658
  ![v659.toNat]
def k1_off148 (v660 : BitVec 32) : Fin 2 → Nat :=
  let c0_i32_295 : BitVec 32 := 0#32
  ![v660.toNat, 0]

def k1_chk74 (v660 : BitVec 32) : Prop :=
  (∀ a, (k1_off148 v660) a + S1x1024.size a ≤ S32768x1024.size a)
instance k1_chk74.dec : ∀ (v660 : BitVec 32), Decidable (k1_chk74 v660) := fun v660 => decidable_of_iff' _ (Iff.of_eq (k1_chk74.eq_1 v660))
theorem k1_off148_inb : ∀ (v660 : BitVec 32) (k1_hw74 : k1_chk74 v660), ∀ a, (k1_off148 v660) a + S1x1024.size a ≤ S32768x1024.size a := fun v660 k1_hw74 => k1_hw74

def k1_off149 (i : grid1.Coords) : Fin 1 → Nat :=
  let arg0 : BitVec 32 := BitVec.ofNat 32 (i 0).val
  let c256_i32 : BitVec 32 := 256#32
  let v0 : BitVec 32 := Scalar.muli arg0 c256_i32
  let c74_i32 : BitVec 32 := 74#32
  let v667 : BitVec 32 := Scalar.addi v0 c74_i32
  let v668 : Index := Scalar.indexCast v667
  ![v668.toNat]
def k1_off150 (v669 : BitVec 32) : Fin 2 → Nat :=
  let c0_i32_299 : BitVec 32 := 0#32
  ![v669.toNat, 0]

def k1_chk75 (v669 : BitVec 32) : Prop :=
  (∀ a, (k1_off150 v669) a + S1x1024.size a ≤ S32768x1024.size a)
instance k1_chk75.dec : ∀ (v669 : BitVec 32), Decidable (k1_chk75 v669) := fun v669 => decidable_of_iff' _ (Iff.of_eq (k1_chk75.eq_1 v669))
theorem k1_off150_inb : ∀ (v669 : BitVec 32) (k1_hw75 : k1_chk75 v669), ∀ a, (k1_off150 v669) a + S1x1024.size a ≤ S32768x1024.size a := fun v669 k1_hw75 => k1_hw75

def k1_off151 (i : grid1.Coords) : Fin 1 → Nat :=
  let arg0 : BitVec 32 := BitVec.ofNat 32 (i 0).val
  let c256_i32 : BitVec 32 := 256#32
  let v0 : BitVec 32 := Scalar.muli arg0 c256_i32
  let c75_i32 : BitVec 32 := 75#32
  let v676 : BitVec 32 := Scalar.addi v0 c75_i32
  let v677 : Index := Scalar.indexCast v676
  ![v677.toNat]
def k1_off152 (v678 : BitVec 32) : Fin 2 → Nat :=
  let c0_i32_303 : BitVec 32 := 0#32
  ![v678.toNat, 0]

def k1_chk76 (v678 : BitVec 32) : Prop :=
  (∀ a, (k1_off152 v678) a + S1x1024.size a ≤ S32768x1024.size a)
instance k1_chk76.dec : ∀ (v678 : BitVec 32), Decidable (k1_chk76 v678) := fun v678 => decidable_of_iff' _ (Iff.of_eq (k1_chk76.eq_1 v678))
theorem k1_off152_inb : ∀ (v678 : BitVec 32) (k1_hw76 : k1_chk76 v678), ∀ a, (k1_off152 v678) a + S1x1024.size a ≤ S32768x1024.size a := fun v678 k1_hw76 => k1_hw76

def k1_off153 (i : grid1.Coords) : Fin 1 → Nat :=
  let arg0 : BitVec 32 := BitVec.ofNat 32 (i 0).val
  let c256_i32 : BitVec 32 := 256#32
  let v0 : BitVec 32 := Scalar.muli arg0 c256_i32
  let c76_i32 : BitVec 32 := 76#32
  let v685 : BitVec 32 := Scalar.addi v0 c76_i32
  let v686 : Index := Scalar.indexCast v685
  ![v686.toNat]
def k1_off154 (v687 : BitVec 32) : Fin 2 → Nat :=
  let c0_i32_307 : BitVec 32 := 0#32
  ![v687.toNat, 0]

def k1_chk77 (v687 : BitVec 32) : Prop :=
  (∀ a, (k1_off154 v687) a + S1x1024.size a ≤ S32768x1024.size a)
instance k1_chk77.dec : ∀ (v687 : BitVec 32), Decidable (k1_chk77 v687) := fun v687 => decidable_of_iff' _ (Iff.of_eq (k1_chk77.eq_1 v687))
theorem k1_off154_inb : ∀ (v687 : BitVec 32) (k1_hw77 : k1_chk77 v687), ∀ a, (k1_off154 v687) a + S1x1024.size a ≤ S32768x1024.size a := fun v687 k1_hw77 => k1_hw77

def k1_off155 (i : grid1.Coords) : Fin 1 → Nat :=
  let arg0 : BitVec 32 := BitVec.ofNat 32 (i 0).val
  let c256_i32 : BitVec 32 := 256#32
  let v0 : BitVec 32 := Scalar.muli arg0 c256_i32
  let c77_i32 : BitVec 32 := 77#32
  let v694 : BitVec 32 := Scalar.addi v0 c77_i32
  let v695 : Index := Scalar.indexCast v694
  ![v695.toNat]
def k1_off156 (v696 : BitVec 32) : Fin 2 → Nat :=
  let c0_i32_311 : BitVec 32 := 0#32
  ![v696.toNat, 0]

def k1_chk78 (v696 : BitVec 32) : Prop :=
  (∀ a, (k1_off156 v696) a + S1x1024.size a ≤ S32768x1024.size a)
instance k1_chk78.dec : ∀ (v696 : BitVec 32), Decidable (k1_chk78 v696) := fun v696 => decidable_of_iff' _ (Iff.of_eq (k1_chk78.eq_1 v696))
theorem k1_off156_inb : ∀ (v696 : BitVec 32) (k1_hw78 : k1_chk78 v696), ∀ a, (k1_off156 v696) a + S1x1024.size a ≤ S32768x1024.size a := fun v696 k1_hw78 => k1_hw78

def k1_off157 (i : grid1.Coords) : Fin 1 → Nat :=
  let arg0 : BitVec 32 := BitVec.ofNat 32 (i 0).val
  let c256_i32 : BitVec 32 := 256#32
  let v0 : BitVec 32 := Scalar.muli arg0 c256_i32
  let c78_i32 : BitVec 32 := 78#32
  let v703 : BitVec 32 := Scalar.addi v0 c78_i32
  let v704 : Index := Scalar.indexCast v703
  ![v704.toNat]
def k1_off158 (v705 : BitVec 32) : Fin 2 → Nat :=
  let c0_i32_315 : BitVec 32 := 0#32
  ![v705.toNat, 0]

def k1_chk79 (v705 : BitVec 32) : Prop :=
  (∀ a, (k1_off158 v705) a + S1x1024.size a ≤ S32768x1024.size a)
instance k1_chk79.dec : ∀ (v705 : BitVec 32), Decidable (k1_chk79 v705) := fun v705 => decidable_of_iff' _ (Iff.of_eq (k1_chk79.eq_1 v705))
theorem k1_off158_inb : ∀ (v705 : BitVec 32) (k1_hw79 : k1_chk79 v705), ∀ a, (k1_off158 v705) a + S1x1024.size a ≤ S32768x1024.size a := fun v705 k1_hw79 => k1_hw79

def k1_off159 (i : grid1.Coords) : Fin 1 → Nat :=
  let arg0 : BitVec 32 := BitVec.ofNat 32 (i 0).val
  let c256_i32 : BitVec 32 := 256#32
  let v0 : BitVec 32 := Scalar.muli arg0 c256_i32
  let c79_i32 : BitVec 32 := 79#32
  let v712 : BitVec 32 := Scalar.addi v0 c79_i32
  let v713 : Index := Scalar.indexCast v712
  ![v713.toNat]
def k1_off160 (v714 : BitVec 32) : Fin 2 → Nat :=
  let c0_i32_319 : BitVec 32 := 0#32
  ![v714.toNat, 0]

def k1_chk80 (v714 : BitVec 32) : Prop :=
  (∀ a, (k1_off160 v714) a + S1x1024.size a ≤ S32768x1024.size a)
instance k1_chk80.dec : ∀ (v714 : BitVec 32), Decidable (k1_chk80 v714) := fun v714 => decidable_of_iff' _ (Iff.of_eq (k1_chk80.eq_1 v714))
theorem k1_off160_inb : ∀ (v714 : BitVec 32) (k1_hw80 : k1_chk80 v714), ∀ a, (k1_off160 v714) a + S1x1024.size a ≤ S32768x1024.size a := fun v714 k1_hw80 => k1_hw80

def k1_off161 (i : grid1.Coords) : Fin 1 → Nat :=
  let arg0 : BitVec 32 := BitVec.ofNat 32 (i 0).val
  let c256_i32 : BitVec 32 := 256#32
  let v0 : BitVec 32 := Scalar.muli arg0 c256_i32
  let c80_i32 : BitVec 32 := 80#32
  let v721 : BitVec 32 := Scalar.addi v0 c80_i32
  let v722 : Index := Scalar.indexCast v721
  ![v722.toNat]
def k1_off162 (v723 : BitVec 32) : Fin 2 → Nat :=
  let c0_i32_323 : BitVec 32 := 0#32
  ![v723.toNat, 0]

def k1_chk81 (v723 : BitVec 32) : Prop :=
  (∀ a, (k1_off162 v723) a + S1x1024.size a ≤ S32768x1024.size a)
instance k1_chk81.dec : ∀ (v723 : BitVec 32), Decidable (k1_chk81 v723) := fun v723 => decidable_of_iff' _ (Iff.of_eq (k1_chk81.eq_1 v723))
theorem k1_off162_inb : ∀ (v723 : BitVec 32) (k1_hw81 : k1_chk81 v723), ∀ a, (k1_off162 v723) a + S1x1024.size a ≤ S32768x1024.size a := fun v723 k1_hw81 => k1_hw81

def k1_off163 (i : grid1.Coords) : Fin 1 → Nat :=
  let arg0 : BitVec 32 := BitVec.ofNat 32 (i 0).val
  let c256_i32 : BitVec 32 := 256#32
  let v0 : BitVec 32 := Scalar.muli arg0 c256_i32
  let c81_i32 : BitVec 32 := 81#32
  let v730 : BitVec 32 := Scalar.addi v0 c81_i32
  let v731 : Index := Scalar.indexCast v730
  ![v731.toNat]
def k1_off164 (v732 : BitVec 32) : Fin 2 → Nat :=
  let c0_i32_327 : BitVec 32 := 0#32
  ![v732.toNat, 0]

def k1_chk82 (v732 : BitVec 32) : Prop :=
  (∀ a, (k1_off164 v732) a + S1x1024.size a ≤ S32768x1024.size a)
instance k1_chk82.dec : ∀ (v732 : BitVec 32), Decidable (k1_chk82 v732) := fun v732 => decidable_of_iff' _ (Iff.of_eq (k1_chk82.eq_1 v732))
theorem k1_off164_inb : ∀ (v732 : BitVec 32) (k1_hw82 : k1_chk82 v732), ∀ a, (k1_off164 v732) a + S1x1024.size a ≤ S32768x1024.size a := fun v732 k1_hw82 => k1_hw82

def k1_off165 (i : grid1.Coords) : Fin 1 → Nat :=
  let arg0 : BitVec 32 := BitVec.ofNat 32 (i 0).val
  let c256_i32 : BitVec 32 := 256#32
  let v0 : BitVec 32 := Scalar.muli arg0 c256_i32
  let c82_i32 : BitVec 32 := 82#32
  let v739 : BitVec 32 := Scalar.addi v0 c82_i32
  let v740 : Index := Scalar.indexCast v739
  ![v740.toNat]
def k1_off166 (v741 : BitVec 32) : Fin 2 → Nat :=
  let c0_i32_331 : BitVec 32 := 0#32
  ![v741.toNat, 0]

def k1_chk83 (v741 : BitVec 32) : Prop :=
  (∀ a, (k1_off166 v741) a + S1x1024.size a ≤ S32768x1024.size a)
instance k1_chk83.dec : ∀ (v741 : BitVec 32), Decidable (k1_chk83 v741) := fun v741 => decidable_of_iff' _ (Iff.of_eq (k1_chk83.eq_1 v741))
theorem k1_off166_inb : ∀ (v741 : BitVec 32) (k1_hw83 : k1_chk83 v741), ∀ a, (k1_off166 v741) a + S1x1024.size a ≤ S32768x1024.size a := fun v741 k1_hw83 => k1_hw83

def k1_off167 (i : grid1.Coords) : Fin 1 → Nat :=
  let arg0 : BitVec 32 := BitVec.ofNat 32 (i 0).val
  let c256_i32 : BitVec 32 := 256#32
  let v0 : BitVec 32 := Scalar.muli arg0 c256_i32
  let c83_i32 : BitVec 32 := 83#32
  let v748 : BitVec 32 := Scalar.addi v0 c83_i32
  let v749 : Index := Scalar.indexCast v748
  ![v749.toNat]
def k1_off168 (v750 : BitVec 32) : Fin 2 → Nat :=
  let c0_i32_335 : BitVec 32 := 0#32
  ![v750.toNat, 0]

def k1_chk84 (v750 : BitVec 32) : Prop :=
  (∀ a, (k1_off168 v750) a + S1x1024.size a ≤ S32768x1024.size a)
instance k1_chk84.dec : ∀ (v750 : BitVec 32), Decidable (k1_chk84 v750) := fun v750 => decidable_of_iff' _ (Iff.of_eq (k1_chk84.eq_1 v750))
theorem k1_off168_inb : ∀ (v750 : BitVec 32) (k1_hw84 : k1_chk84 v750), ∀ a, (k1_off168 v750) a + S1x1024.size a ≤ S32768x1024.size a := fun v750 k1_hw84 => k1_hw84

def k1_off169 (i : grid1.Coords) : Fin 1 → Nat :=
  let arg0 : BitVec 32 := BitVec.ofNat 32 (i 0).val
  let c256_i32 : BitVec 32 := 256#32
  let v0 : BitVec 32 := Scalar.muli arg0 c256_i32
  let c84_i32 : BitVec 32 := 84#32
  let v757 : BitVec 32 := Scalar.addi v0 c84_i32
  let v758 : Index := Scalar.indexCast v757
  ![v758.toNat]
def k1_off170 (v759 : BitVec 32) : Fin 2 → Nat :=
  let c0_i32_339 : BitVec 32 := 0#32
  ![v759.toNat, 0]

def k1_chk85 (v759 : BitVec 32) : Prop :=
  (∀ a, (k1_off170 v759) a + S1x1024.size a ≤ S32768x1024.size a)
instance k1_chk85.dec : ∀ (v759 : BitVec 32), Decidable (k1_chk85 v759) := fun v759 => decidable_of_iff' _ (Iff.of_eq (k1_chk85.eq_1 v759))
theorem k1_off170_inb : ∀ (v759 : BitVec 32) (k1_hw85 : k1_chk85 v759), ∀ a, (k1_off170 v759) a + S1x1024.size a ≤ S32768x1024.size a := fun v759 k1_hw85 => k1_hw85

def k1_off171 (i : grid1.Coords) : Fin 1 → Nat :=
  let arg0 : BitVec 32 := BitVec.ofNat 32 (i 0).val
  let c256_i32 : BitVec 32 := 256#32
  let v0 : BitVec 32 := Scalar.muli arg0 c256_i32
  let c85_i32 : BitVec 32 := 85#32
  let v766 : BitVec 32 := Scalar.addi v0 c85_i32
  let v767 : Index := Scalar.indexCast v766
  ![v767.toNat]
def k1_off172 (v768 : BitVec 32) : Fin 2 → Nat :=
  let c0_i32_343 : BitVec 32 := 0#32
  ![v768.toNat, 0]

def k1_chk86 (v768 : BitVec 32) : Prop :=
  (∀ a, (k1_off172 v768) a + S1x1024.size a ≤ S32768x1024.size a)
instance k1_chk86.dec : ∀ (v768 : BitVec 32), Decidable (k1_chk86 v768) := fun v768 => decidable_of_iff' _ (Iff.of_eq (k1_chk86.eq_1 v768))
theorem k1_off172_inb : ∀ (v768 : BitVec 32) (k1_hw86 : k1_chk86 v768), ∀ a, (k1_off172 v768) a + S1x1024.size a ≤ S32768x1024.size a := fun v768 k1_hw86 => k1_hw86

def k1_off173 (i : grid1.Coords) : Fin 1 → Nat :=
  let arg0 : BitVec 32 := BitVec.ofNat 32 (i 0).val
  let c256_i32 : BitVec 32 := 256#32
  let v0 : BitVec 32 := Scalar.muli arg0 c256_i32
  let c86_i32 : BitVec 32 := 86#32
  let v775 : BitVec 32 := Scalar.addi v0 c86_i32
  let v776 : Index := Scalar.indexCast v775
  ![v776.toNat]
def k1_off174 (v777 : BitVec 32) : Fin 2 → Nat :=
  let c0_i32_347 : BitVec 32 := 0#32
  ![v777.toNat, 0]

def k1_chk87 (v777 : BitVec 32) : Prop :=
  (∀ a, (k1_off174 v777) a + S1x1024.size a ≤ S32768x1024.size a)
instance k1_chk87.dec : ∀ (v777 : BitVec 32), Decidable (k1_chk87 v777) := fun v777 => decidable_of_iff' _ (Iff.of_eq (k1_chk87.eq_1 v777))
theorem k1_off174_inb : ∀ (v777 : BitVec 32) (k1_hw87 : k1_chk87 v777), ∀ a, (k1_off174 v777) a + S1x1024.size a ≤ S32768x1024.size a := fun v777 k1_hw87 => k1_hw87

def k1_off175 (i : grid1.Coords) : Fin 1 → Nat :=
  let arg0 : BitVec 32 := BitVec.ofNat 32 (i 0).val
  let c256_i32 : BitVec 32 := 256#32
  let v0 : BitVec 32 := Scalar.muli arg0 c256_i32
  let c87_i32 : BitVec 32 := 87#32
  let v784 : BitVec 32 := Scalar.addi v0 c87_i32
  let v785 : Index := Scalar.indexCast v784
  ![v785.toNat]
def k1_off176 (v786 : BitVec 32) : Fin 2 → Nat :=
  let c0_i32_351 : BitVec 32 := 0#32
  ![v786.toNat, 0]

def k1_chk88 (v786 : BitVec 32) : Prop :=
  (∀ a, (k1_off176 v786) a + S1x1024.size a ≤ S32768x1024.size a)
instance k1_chk88.dec : ∀ (v786 : BitVec 32), Decidable (k1_chk88 v786) := fun v786 => decidable_of_iff' _ (Iff.of_eq (k1_chk88.eq_1 v786))
theorem k1_off176_inb : ∀ (v786 : BitVec 32) (k1_hw88 : k1_chk88 v786), ∀ a, (k1_off176 v786) a + S1x1024.size a ≤ S32768x1024.size a := fun v786 k1_hw88 => k1_hw88

def k1_off177 (i : grid1.Coords) : Fin 1 → Nat :=
  let arg0 : BitVec 32 := BitVec.ofNat 32 (i 0).val
  let c256_i32 : BitVec 32 := 256#32
  let v0 : BitVec 32 := Scalar.muli arg0 c256_i32
  let c88_i32 : BitVec 32 := 88#32
  let v793 : BitVec 32 := Scalar.addi v0 c88_i32
  let v794 : Index := Scalar.indexCast v793
  ![v794.toNat]
def k1_off178 (v795 : BitVec 32) : Fin 2 → Nat :=
  let c0_i32_355 : BitVec 32 := 0#32
  ![v795.toNat, 0]

def k1_chk89 (v795 : BitVec 32) : Prop :=
  (∀ a, (k1_off178 v795) a + S1x1024.size a ≤ S32768x1024.size a)
instance k1_chk89.dec : ∀ (v795 : BitVec 32), Decidable (k1_chk89 v795) := fun v795 => decidable_of_iff' _ (Iff.of_eq (k1_chk89.eq_1 v795))
theorem k1_off178_inb : ∀ (v795 : BitVec 32) (k1_hw89 : k1_chk89 v795), ∀ a, (k1_off178 v795) a + S1x1024.size a ≤ S32768x1024.size a := fun v795 k1_hw89 => k1_hw89

def k1_off179 (i : grid1.Coords) : Fin 1 → Nat :=
  let arg0 : BitVec 32 := BitVec.ofNat 32 (i 0).val
  let c256_i32 : BitVec 32 := 256#32
  let v0 : BitVec 32 := Scalar.muli arg0 c256_i32
  let c89_i32 : BitVec 32 := 89#32
  let v802 : BitVec 32 := Scalar.addi v0 c89_i32
  let v803 : Index := Scalar.indexCast v802
  ![v803.toNat]
def k1_off180 (v804 : BitVec 32) : Fin 2 → Nat :=
  let c0_i32_359 : BitVec 32 := 0#32
  ![v804.toNat, 0]

def k1_chk90 (v804 : BitVec 32) : Prop :=
  (∀ a, (k1_off180 v804) a + S1x1024.size a ≤ S32768x1024.size a)
instance k1_chk90.dec : ∀ (v804 : BitVec 32), Decidable (k1_chk90 v804) := fun v804 => decidable_of_iff' _ (Iff.of_eq (k1_chk90.eq_1 v804))
theorem k1_off180_inb : ∀ (v804 : BitVec 32) (k1_hw90 : k1_chk90 v804), ∀ a, (k1_off180 v804) a + S1x1024.size a ≤ S32768x1024.size a := fun v804 k1_hw90 => k1_hw90

def k1_off181 (i : grid1.Coords) : Fin 1 → Nat :=
  let arg0 : BitVec 32 := BitVec.ofNat 32 (i 0).val
  let c256_i32 : BitVec 32 := 256#32
  let v0 : BitVec 32 := Scalar.muli arg0 c256_i32
  let c90_i32 : BitVec 32 := 90#32
  let v811 : BitVec 32 := Scalar.addi v0 c90_i32
  let v812 : Index := Scalar.indexCast v811
  ![v812.toNat]
def k1_off182 (v813 : BitVec 32) : Fin 2 → Nat :=
  let c0_i32_363 : BitVec 32 := 0#32
  ![v813.toNat, 0]

def k1_chk91 (v813 : BitVec 32) : Prop :=
  (∀ a, (k1_off182 v813) a + S1x1024.size a ≤ S32768x1024.size a)
instance k1_chk91.dec : ∀ (v813 : BitVec 32), Decidable (k1_chk91 v813) := fun v813 => decidable_of_iff' _ (Iff.of_eq (k1_chk91.eq_1 v813))
theorem k1_off182_inb : ∀ (v813 : BitVec 32) (k1_hw91 : k1_chk91 v813), ∀ a, (k1_off182 v813) a + S1x1024.size a ≤ S32768x1024.size a := fun v813 k1_hw91 => k1_hw91

def k1_off183 (i : grid1.Coords) : Fin 1 → Nat :=
  let arg0 : BitVec 32 := BitVec.ofNat 32 (i 0).val
  let c256_i32 : BitVec 32 := 256#32
  let v0 : BitVec 32 := Scalar.muli arg0 c256_i32
  let c91_i32 : BitVec 32 := 91#32
  let v820 : BitVec 32 := Scalar.addi v0 c91_i32
  let v821 : Index := Scalar.indexCast v820
  ![v821.toNat]
def k1_off184 (v822 : BitVec 32) : Fin 2 → Nat :=
  let c0_i32_367 : BitVec 32 := 0#32
  ![v822.toNat, 0]

def k1_chk92 (v822 : BitVec 32) : Prop :=
  (∀ a, (k1_off184 v822) a + S1x1024.size a ≤ S32768x1024.size a)
instance k1_chk92.dec : ∀ (v822 : BitVec 32), Decidable (k1_chk92 v822) := fun v822 => decidable_of_iff' _ (Iff.of_eq (k1_chk92.eq_1 v822))
theorem k1_off184_inb : ∀ (v822 : BitVec 32) (k1_hw92 : k1_chk92 v822), ∀ a, (k1_off184 v822) a + S1x1024.size a ≤ S32768x1024.size a := fun v822 k1_hw92 => k1_hw92

def k1_off185 (i : grid1.Coords) : Fin 1 → Nat :=
  let arg0 : BitVec 32 := BitVec.ofNat 32 (i 0).val
  let c256_i32 : BitVec 32 := 256#32
  let v0 : BitVec 32 := Scalar.muli arg0 c256_i32
  let c92_i32 : BitVec 32 := 92#32
  let v829 : BitVec 32 := Scalar.addi v0 c92_i32
  let v830 : Index := Scalar.indexCast v829
  ![v830.toNat]
def k1_off186 (v831 : BitVec 32) : Fin 2 → Nat :=
  let c0_i32_371 : BitVec 32 := 0#32
  ![v831.toNat, 0]

def k1_chk93 (v831 : BitVec 32) : Prop :=
  (∀ a, (k1_off186 v831) a + S1x1024.size a ≤ S32768x1024.size a)
instance k1_chk93.dec : ∀ (v831 : BitVec 32), Decidable (k1_chk93 v831) := fun v831 => decidable_of_iff' _ (Iff.of_eq (k1_chk93.eq_1 v831))
theorem k1_off186_inb : ∀ (v831 : BitVec 32) (k1_hw93 : k1_chk93 v831), ∀ a, (k1_off186 v831) a + S1x1024.size a ≤ S32768x1024.size a := fun v831 k1_hw93 => k1_hw93

def k1_off187 (i : grid1.Coords) : Fin 1 → Nat :=
  let arg0 : BitVec 32 := BitVec.ofNat 32 (i 0).val
  let c256_i32 : BitVec 32 := 256#32
  let v0 : BitVec 32 := Scalar.muli arg0 c256_i32
  let c93_i32 : BitVec 32 := 93#32
  let v838 : BitVec 32 := Scalar.addi v0 c93_i32
  let v839 : Index := Scalar.indexCast v838
  ![v839.toNat]
def k1_off188 (v840 : BitVec 32) : Fin 2 → Nat :=
  let c0_i32_375 : BitVec 32 := 0#32
  ![v840.toNat, 0]

def k1_chk94 (v840 : BitVec 32) : Prop :=
  (∀ a, (k1_off188 v840) a + S1x1024.size a ≤ S32768x1024.size a)
instance k1_chk94.dec : ∀ (v840 : BitVec 32), Decidable (k1_chk94 v840) := fun v840 => decidable_of_iff' _ (Iff.of_eq (k1_chk94.eq_1 v840))
theorem k1_off188_inb : ∀ (v840 : BitVec 32) (k1_hw94 : k1_chk94 v840), ∀ a, (k1_off188 v840) a + S1x1024.size a ≤ S32768x1024.size a := fun v840 k1_hw94 => k1_hw94

def k1_off189 (i : grid1.Coords) : Fin 1 → Nat :=
  let arg0 : BitVec 32 := BitVec.ofNat 32 (i 0).val
  let c256_i32 : BitVec 32 := 256#32
  let v0 : BitVec 32 := Scalar.muli arg0 c256_i32
  let c94_i32 : BitVec 32 := 94#32
  let v847 : BitVec 32 := Scalar.addi v0 c94_i32
  let v848 : Index := Scalar.indexCast v847
  ![v848.toNat]
def k1_off190 (v849 : BitVec 32) : Fin 2 → Nat :=
  let c0_i32_379 : BitVec 32 := 0#32
  ![v849.toNat, 0]

def k1_chk95 (v849 : BitVec 32) : Prop :=
  (∀ a, (k1_off190 v849) a + S1x1024.size a ≤ S32768x1024.size a)
instance k1_chk95.dec : ∀ (v849 : BitVec 32), Decidable (k1_chk95 v849) := fun v849 => decidable_of_iff' _ (Iff.of_eq (k1_chk95.eq_1 v849))
theorem k1_off190_inb : ∀ (v849 : BitVec 32) (k1_hw95 : k1_chk95 v849), ∀ a, (k1_off190 v849) a + S1x1024.size a ≤ S32768x1024.size a := fun v849 k1_hw95 => k1_hw95

def k1_off191 (i : grid1.Coords) : Fin 1 → Nat :=
  let arg0 : BitVec 32 := BitVec.ofNat 32 (i 0).val
  let c256_i32 : BitVec 32 := 256#32
  let v0 : BitVec 32 := Scalar.muli arg0 c256_i32
  let c95_i32 : BitVec 32 := 95#32
  let v856 : BitVec 32 := Scalar.addi v0 c95_i32
  let v857 : Index := Scalar.indexCast v856
  ![v857.toNat]
def k1_off192 (v858 : BitVec 32) : Fin 2 → Nat :=
  let c0_i32_383 : BitVec 32 := 0#32
  ![v858.toNat, 0]

def k1_chk96 (v858 : BitVec 32) : Prop :=
  (∀ a, (k1_off192 v858) a + S1x1024.size a ≤ S32768x1024.size a)
instance k1_chk96.dec : ∀ (v858 : BitVec 32), Decidable (k1_chk96 v858) := fun v858 => decidable_of_iff' _ (Iff.of_eq (k1_chk96.eq_1 v858))
theorem k1_off192_inb : ∀ (v858 : BitVec 32) (k1_hw96 : k1_chk96 v858), ∀ a, (k1_off192 v858) a + S1x1024.size a ≤ S32768x1024.size a := fun v858 k1_hw96 => k1_hw96

def k1_off193 (i : grid1.Coords) : Fin 1 → Nat :=
  let arg0 : BitVec 32 := BitVec.ofNat 32 (i 0).val
  let c256_i32 : BitVec 32 := 256#32
  let v0 : BitVec 32 := Scalar.muli arg0 c256_i32
  let c96_i32 : BitVec 32 := 96#32
  let v865 : BitVec 32 := Scalar.addi v0 c96_i32
  let v866 : Index := Scalar.indexCast v865
  ![v866.toNat]
def k1_off194 (v867 : BitVec 32) : Fin 2 → Nat :=
  let c0_i32_387 : BitVec 32 := 0#32
  ![v867.toNat, 0]

def k1_chk97 (v867 : BitVec 32) : Prop :=
  (∀ a, (k1_off194 v867) a + S1x1024.size a ≤ S32768x1024.size a)
instance k1_chk97.dec : ∀ (v867 : BitVec 32), Decidable (k1_chk97 v867) := fun v867 => decidable_of_iff' _ (Iff.of_eq (k1_chk97.eq_1 v867))
theorem k1_off194_inb : ∀ (v867 : BitVec 32) (k1_hw97 : k1_chk97 v867), ∀ a, (k1_off194 v867) a + S1x1024.size a ≤ S32768x1024.size a := fun v867 k1_hw97 => k1_hw97

def k1_off195 (i : grid1.Coords) : Fin 1 → Nat :=
  let arg0 : BitVec 32 := BitVec.ofNat 32 (i 0).val
  let c256_i32 : BitVec 32 := 256#32
  let v0 : BitVec 32 := Scalar.muli arg0 c256_i32
  let c97_i32 : BitVec 32 := 97#32
  let v874 : BitVec 32 := Scalar.addi v0 c97_i32
  let v875 : Index := Scalar.indexCast v874
  ![v875.toNat]
def k1_off196 (v876 : BitVec 32) : Fin 2 → Nat :=
  let c0_i32_391 : BitVec 32 := 0#32
  ![v876.toNat, 0]

def k1_chk98 (v876 : BitVec 32) : Prop :=
  (∀ a, (k1_off196 v876) a + S1x1024.size a ≤ S32768x1024.size a)
instance k1_chk98.dec : ∀ (v876 : BitVec 32), Decidable (k1_chk98 v876) := fun v876 => decidable_of_iff' _ (Iff.of_eq (k1_chk98.eq_1 v876))
theorem k1_off196_inb : ∀ (v876 : BitVec 32) (k1_hw98 : k1_chk98 v876), ∀ a, (k1_off196 v876) a + S1x1024.size a ≤ S32768x1024.size a := fun v876 k1_hw98 => k1_hw98

def k1_off197 (i : grid1.Coords) : Fin 1 → Nat :=
  let arg0 : BitVec 32 := BitVec.ofNat 32 (i 0).val
  let c256_i32 : BitVec 32 := 256#32
  let v0 : BitVec 32 := Scalar.muli arg0 c256_i32
  let c98_i32 : BitVec 32 := 98#32
  let v883 : BitVec 32 := Scalar.addi v0 c98_i32
  let v884 : Index := Scalar.indexCast v883
  ![v884.toNat]
def k1_off198 (v885 : BitVec 32) : Fin 2 → Nat :=
  let c0_i32_395 : BitVec 32 := 0#32
  ![v885.toNat, 0]

def k1_chk99 (v885 : BitVec 32) : Prop :=
  (∀ a, (k1_off198 v885) a + S1x1024.size a ≤ S32768x1024.size a)
instance k1_chk99.dec : ∀ (v885 : BitVec 32), Decidable (k1_chk99 v885) := fun v885 => decidable_of_iff' _ (Iff.of_eq (k1_chk99.eq_1 v885))
theorem k1_off198_inb : ∀ (v885 : BitVec 32) (k1_hw99 : k1_chk99 v885), ∀ a, (k1_off198 v885) a + S1x1024.size a ≤ S32768x1024.size a := fun v885 k1_hw99 => k1_hw99

def k1_off199 (i : grid1.Coords) : Fin 1 → Nat :=
  let arg0 : BitVec 32 := BitVec.ofNat 32 (i 0).val
  let c256_i32 : BitVec 32 := 256#32
  let v0 : BitVec 32 := Scalar.muli arg0 c256_i32
  let c99_i32 : BitVec 32 := 99#32
  let v892 : BitVec 32 := Scalar.addi v0 c99_i32
  let v893 : Index := Scalar.indexCast v892
  ![v893.toNat]
def k1_off200 (v894 : BitVec 32) : Fin 2 → Nat :=
  let c0_i32_399 : BitVec 32 := 0#32
  ![v894.toNat, 0]

def k1_chk100 (v894 : BitVec 32) : Prop :=
  (∀ a, (k1_off200 v894) a + S1x1024.size a ≤ S32768x1024.size a)
instance k1_chk100.dec : ∀ (v894 : BitVec 32), Decidable (k1_chk100 v894) := fun v894 => decidable_of_iff' _ (Iff.of_eq (k1_chk100.eq_1 v894))
theorem k1_off200_inb : ∀ (v894 : BitVec 32) (k1_hw100 : k1_chk100 v894), ∀ a, (k1_off200 v894) a + S1x1024.size a ≤ S32768x1024.size a := fun v894 k1_hw100 => k1_hw100

def k1_off201 (i : grid1.Coords) : Fin 1 → Nat :=
  let arg0 : BitVec 32 := BitVec.ofNat 32 (i 0).val
  let c256_i32 : BitVec 32 := 256#32
  let v0 : BitVec 32 := Scalar.muli arg0 c256_i32
  let c100_i32 : BitVec 32 := 100#32
  let v901 : BitVec 32 := Scalar.addi v0 c100_i32
  let v902 : Index := Scalar.indexCast v901
  ![v902.toNat]
def k1_off202 (v903 : BitVec 32) : Fin 2 → Nat :=
  let c0_i32_403 : BitVec 32 := 0#32
  ![v903.toNat, 0]

def k1_chk101 (v903 : BitVec 32) : Prop :=
  (∀ a, (k1_off202 v903) a + S1x1024.size a ≤ S32768x1024.size a)
instance k1_chk101.dec : ∀ (v903 : BitVec 32), Decidable (k1_chk101 v903) := fun v903 => decidable_of_iff' _ (Iff.of_eq (k1_chk101.eq_1 v903))
theorem k1_off202_inb : ∀ (v903 : BitVec 32) (k1_hw101 : k1_chk101 v903), ∀ a, (k1_off202 v903) a + S1x1024.size a ≤ S32768x1024.size a := fun v903 k1_hw101 => k1_hw101

def k1_off203 (i : grid1.Coords) : Fin 1 → Nat :=
  let arg0 : BitVec 32 := BitVec.ofNat 32 (i 0).val
  let c256_i32 : BitVec 32 := 256#32
  let v0 : BitVec 32 := Scalar.muli arg0 c256_i32
  let c101_i32 : BitVec 32 := 101#32
  let v910 : BitVec 32 := Scalar.addi v0 c101_i32
  let v911 : Index := Scalar.indexCast v910
  ![v911.toNat]
def k1_off204 (v912 : BitVec 32) : Fin 2 → Nat :=
  let c0_i32_407 : BitVec 32 := 0#32
  ![v912.toNat, 0]

def k1_chk102 (v912 : BitVec 32) : Prop :=
  (∀ a, (k1_off204 v912) a + S1x1024.size a ≤ S32768x1024.size a)
instance k1_chk102.dec : ∀ (v912 : BitVec 32), Decidable (k1_chk102 v912) := fun v912 => decidable_of_iff' _ (Iff.of_eq (k1_chk102.eq_1 v912))
theorem k1_off204_inb : ∀ (v912 : BitVec 32) (k1_hw102 : k1_chk102 v912), ∀ a, (k1_off204 v912) a + S1x1024.size a ≤ S32768x1024.size a := fun v912 k1_hw102 => k1_hw102

def k1_off205 (i : grid1.Coords) : Fin 1 → Nat :=
  let arg0 : BitVec 32 := BitVec.ofNat 32 (i 0).val
  let c256_i32 : BitVec 32 := 256#32
  let v0 : BitVec 32 := Scalar.muli arg0 c256_i32
  let c102_i32 : BitVec 32 := 102#32
  let v919 : BitVec 32 := Scalar.addi v0 c102_i32
  let v920 : Index := Scalar.indexCast v919
  ![v920.toNat]
def k1_off206 (v921 : BitVec 32) : Fin 2 → Nat :=
  let c0_i32_411 : BitVec 32 := 0#32
  ![v921.toNat, 0]

def k1_chk103 (v921 : BitVec 32) : Prop :=
  (∀ a, (k1_off206 v921) a + S1x1024.size a ≤ S32768x1024.size a)
instance k1_chk103.dec : ∀ (v921 : BitVec 32), Decidable (k1_chk103 v921) := fun v921 => decidable_of_iff' _ (Iff.of_eq (k1_chk103.eq_1 v921))
theorem k1_off206_inb : ∀ (v921 : BitVec 32) (k1_hw103 : k1_chk103 v921), ∀ a, (k1_off206 v921) a + S1x1024.size a ≤ S32768x1024.size a := fun v921 k1_hw103 => k1_hw103

def k1_off207 (i : grid1.Coords) : Fin 1 → Nat :=
  let arg0 : BitVec 32 := BitVec.ofNat 32 (i 0).val
  let c256_i32 : BitVec 32 := 256#32
  let v0 : BitVec 32 := Scalar.muli arg0 c256_i32
  let c103_i32 : BitVec 32 := 103#32
  let v928 : BitVec 32 := Scalar.addi v0 c103_i32
  let v929 : Index := Scalar.indexCast v928
  ![v929.toNat]
def k1_off208 (v930 : BitVec 32) : Fin 2 → Nat :=
  let c0_i32_415 : BitVec 32 := 0#32
  ![v930.toNat, 0]

def k1_chk104 (v930 : BitVec 32) : Prop :=
  (∀ a, (k1_off208 v930) a + S1x1024.size a ≤ S32768x1024.size a)
instance k1_chk104.dec : ∀ (v930 : BitVec 32), Decidable (k1_chk104 v930) := fun v930 => decidable_of_iff' _ (Iff.of_eq (k1_chk104.eq_1 v930))
theorem k1_off208_inb : ∀ (v930 : BitVec 32) (k1_hw104 : k1_chk104 v930), ∀ a, (k1_off208 v930) a + S1x1024.size a ≤ S32768x1024.size a := fun v930 k1_hw104 => k1_hw104

def k1_off209 (i : grid1.Coords) : Fin 1 → Nat :=
  let arg0 : BitVec 32 := BitVec.ofNat 32 (i 0).val
  let c256_i32 : BitVec 32 := 256#32
  let v0 : BitVec 32 := Scalar.muli arg0 c256_i32
  let c104_i32 : BitVec 32 := 104#32
  let v937 : BitVec 32 := Scalar.addi v0 c104_i32
  let v938 : Index := Scalar.indexCast v937
  ![v938.toNat]
def k1_off210 (v939 : BitVec 32) : Fin 2 → Nat :=
  let c0_i32_419 : BitVec 32 := 0#32
  ![v939.toNat, 0]

def k1_chk105 (v939 : BitVec 32) : Prop :=
  (∀ a, (k1_off210 v939) a + S1x1024.size a ≤ S32768x1024.size a)
instance k1_chk105.dec : ∀ (v939 : BitVec 32), Decidable (k1_chk105 v939) := fun v939 => decidable_of_iff' _ (Iff.of_eq (k1_chk105.eq_1 v939))
theorem k1_off210_inb : ∀ (v939 : BitVec 32) (k1_hw105 : k1_chk105 v939), ∀ a, (k1_off210 v939) a + S1x1024.size a ≤ S32768x1024.size a := fun v939 k1_hw105 => k1_hw105

def k1_off211 (i : grid1.Coords) : Fin 1 → Nat :=
  let arg0 : BitVec 32 := BitVec.ofNat 32 (i 0).val
  let c256_i32 : BitVec 32 := 256#32
  let v0 : BitVec 32 := Scalar.muli arg0 c256_i32
  let c105_i32 : BitVec 32 := 105#32
  let v946 : BitVec 32 := Scalar.addi v0 c105_i32
  let v947 : Index := Scalar.indexCast v946
  ![v947.toNat]
def k1_off212 (v948 : BitVec 32) : Fin 2 → Nat :=
  let c0_i32_423 : BitVec 32 := 0#32
  ![v948.toNat, 0]

def k1_chk106 (v948 : BitVec 32) : Prop :=
  (∀ a, (k1_off212 v948) a + S1x1024.size a ≤ S32768x1024.size a)
instance k1_chk106.dec : ∀ (v948 : BitVec 32), Decidable (k1_chk106 v948) := fun v948 => decidable_of_iff' _ (Iff.of_eq (k1_chk106.eq_1 v948))
theorem k1_off212_inb : ∀ (v948 : BitVec 32) (k1_hw106 : k1_chk106 v948), ∀ a, (k1_off212 v948) a + S1x1024.size a ≤ S32768x1024.size a := fun v948 k1_hw106 => k1_hw106

def k1_off213 (i : grid1.Coords) : Fin 1 → Nat :=
  let arg0 : BitVec 32 := BitVec.ofNat 32 (i 0).val
  let c256_i32 : BitVec 32 := 256#32
  let v0 : BitVec 32 := Scalar.muli arg0 c256_i32
  let c106_i32 : BitVec 32 := 106#32
  let v955 : BitVec 32 := Scalar.addi v0 c106_i32
  let v956 : Index := Scalar.indexCast v955
  ![v956.toNat]
def k1_off214 (v957 : BitVec 32) : Fin 2 → Nat :=
  let c0_i32_427 : BitVec 32 := 0#32
  ![v957.toNat, 0]

def k1_chk107 (v957 : BitVec 32) : Prop :=
  (∀ a, (k1_off214 v957) a + S1x1024.size a ≤ S32768x1024.size a)
instance k1_chk107.dec : ∀ (v957 : BitVec 32), Decidable (k1_chk107 v957) := fun v957 => decidable_of_iff' _ (Iff.of_eq (k1_chk107.eq_1 v957))
theorem k1_off214_inb : ∀ (v957 : BitVec 32) (k1_hw107 : k1_chk107 v957), ∀ a, (k1_off214 v957) a + S1x1024.size a ≤ S32768x1024.size a := fun v957 k1_hw107 => k1_hw107

def k1_off215 (i : grid1.Coords) : Fin 1 → Nat :=
  let arg0 : BitVec 32 := BitVec.ofNat 32 (i 0).val
  let c256_i32 : BitVec 32 := 256#32
  let v0 : BitVec 32 := Scalar.muli arg0 c256_i32
  let c107_i32 : BitVec 32 := 107#32
  let v964 : BitVec 32 := Scalar.addi v0 c107_i32
  let v965 : Index := Scalar.indexCast v964
  ![v965.toNat]
def k1_off216 (v966 : BitVec 32) : Fin 2 → Nat :=
  let c0_i32_431 : BitVec 32 := 0#32
  ![v966.toNat, 0]

def k1_chk108 (v966 : BitVec 32) : Prop :=
  (∀ a, (k1_off216 v966) a + S1x1024.size a ≤ S32768x1024.size a)
instance k1_chk108.dec : ∀ (v966 : BitVec 32), Decidable (k1_chk108 v966) := fun v966 => decidable_of_iff' _ (Iff.of_eq (k1_chk108.eq_1 v966))
theorem k1_off216_inb : ∀ (v966 : BitVec 32) (k1_hw108 : k1_chk108 v966), ∀ a, (k1_off216 v966) a + S1x1024.size a ≤ S32768x1024.size a := fun v966 k1_hw108 => k1_hw108

def k1_off217 (i : grid1.Coords) : Fin 1 → Nat :=
  let arg0 : BitVec 32 := BitVec.ofNat 32 (i 0).val
  let c256_i32 : BitVec 32 := 256#32
  let v0 : BitVec 32 := Scalar.muli arg0 c256_i32
  let c108_i32 : BitVec 32 := 108#32
  let v973 : BitVec 32 := Scalar.addi v0 c108_i32
  let v974 : Index := Scalar.indexCast v973
  ![v974.toNat]
def k1_off218 (v975 : BitVec 32) : Fin 2 → Nat :=
  let c0_i32_435 : BitVec 32 := 0#32
  ![v975.toNat, 0]

def k1_chk109 (v975 : BitVec 32) : Prop :=
  (∀ a, (k1_off218 v975) a + S1x1024.size a ≤ S32768x1024.size a)
instance k1_chk109.dec : ∀ (v975 : BitVec 32), Decidable (k1_chk109 v975) := fun v975 => decidable_of_iff' _ (Iff.of_eq (k1_chk109.eq_1 v975))
theorem k1_off218_inb : ∀ (v975 : BitVec 32) (k1_hw109 : k1_chk109 v975), ∀ a, (k1_off218 v975) a + S1x1024.size a ≤ S32768x1024.size a := fun v975 k1_hw109 => k1_hw109

def k1_off219 (i : grid1.Coords) : Fin 1 → Nat :=
  let arg0 : BitVec 32 := BitVec.ofNat 32 (i 0).val
  let c256_i32 : BitVec 32 := 256#32
  let v0 : BitVec 32 := Scalar.muli arg0 c256_i32
  let c109_i32 : BitVec 32 := 109#32
  let v982 : BitVec 32 := Scalar.addi v0 c109_i32
  let v983 : Index := Scalar.indexCast v982
  ![v983.toNat]
def k1_off220 (v984 : BitVec 32) : Fin 2 → Nat :=
  let c0_i32_439 : BitVec 32 := 0#32
  ![v984.toNat, 0]

def k1_chk110 (v984 : BitVec 32) : Prop :=
  (∀ a, (k1_off220 v984) a + S1x1024.size a ≤ S32768x1024.size a)
instance k1_chk110.dec : ∀ (v984 : BitVec 32), Decidable (k1_chk110 v984) := fun v984 => decidable_of_iff' _ (Iff.of_eq (k1_chk110.eq_1 v984))
theorem k1_off220_inb : ∀ (v984 : BitVec 32) (k1_hw110 : k1_chk110 v984), ∀ a, (k1_off220 v984) a + S1x1024.size a ≤ S32768x1024.size a := fun v984 k1_hw110 => k1_hw110

def k1_off221 (i : grid1.Coords) : Fin 1 → Nat :=
  let arg0 : BitVec 32 := BitVec.ofNat 32 (i 0).val
  let c256_i32 : BitVec 32 := 256#32
  let v0 : BitVec 32 := Scalar.muli arg0 c256_i32
  let c110_i32 : BitVec 32 := 110#32
  let v991 : BitVec 32 := Scalar.addi v0 c110_i32
  let v992 : Index := Scalar.indexCast v991
  ![v992.toNat]
def k1_off222 (v993 : BitVec 32) : Fin 2 → Nat :=
  let c0_i32_443 : BitVec 32 := 0#32
  ![v993.toNat, 0]

def k1_chk111 (v993 : BitVec 32) : Prop :=
  (∀ a, (k1_off222 v993) a + S1x1024.size a ≤ S32768x1024.size a)
instance k1_chk111.dec : ∀ (v993 : BitVec 32), Decidable (k1_chk111 v993) := fun v993 => decidable_of_iff' _ (Iff.of_eq (k1_chk111.eq_1 v993))
theorem k1_off222_inb : ∀ (v993 : BitVec 32) (k1_hw111 : k1_chk111 v993), ∀ a, (k1_off222 v993) a + S1x1024.size a ≤ S32768x1024.size a := fun v993 k1_hw111 => k1_hw111

def k1_off223 (i : grid1.Coords) : Fin 1 → Nat :=
  let arg0 : BitVec 32 := BitVec.ofNat 32 (i 0).val
  let c256_i32 : BitVec 32 := 256#32
  let v0 : BitVec 32 := Scalar.muli arg0 c256_i32
  let c111_i32 : BitVec 32 := 111#32
  let v1000 : BitVec 32 := Scalar.addi v0 c111_i32
  let v1001 : Index := Scalar.indexCast v1000
  ![v1001.toNat]
def k1_off224 (v1002 : BitVec 32) : Fin 2 → Nat :=
  let c0_i32_447 : BitVec 32 := 0#32
  ![v1002.toNat, 0]

def k1_chk112 (v1002 : BitVec 32) : Prop :=
  (∀ a, (k1_off224 v1002) a + S1x1024.size a ≤ S32768x1024.size a)
instance k1_chk112.dec : ∀ (v1002 : BitVec 32), Decidable (k1_chk112 v1002) := fun v1002 => decidable_of_iff' _ (Iff.of_eq (k1_chk112.eq_1 v1002))
theorem k1_off224_inb : ∀ (v1002 : BitVec 32) (k1_hw112 : k1_chk112 v1002), ∀ a, (k1_off224 v1002) a + S1x1024.size a ≤ S32768x1024.size a := fun v1002 k1_hw112 => k1_hw112

def k1_off225 (i : grid1.Coords) : Fin 1 → Nat :=
  let arg0 : BitVec 32 := BitVec.ofNat 32 (i 0).val
  let c256_i32 : BitVec 32 := 256#32
  let v0 : BitVec 32 := Scalar.muli arg0 c256_i32
  let c112_i32 : BitVec 32 := 112#32
  let v1009 : BitVec 32 := Scalar.addi v0 c112_i32
  let v1010 : Index := Scalar.indexCast v1009
  ![v1010.toNat]
def k1_off226 (v1011 : BitVec 32) : Fin 2 → Nat :=
  let c0_i32_451 : BitVec 32 := 0#32
  ![v1011.toNat, 0]

def k1_chk113 (v1011 : BitVec 32) : Prop :=
  (∀ a, (k1_off226 v1011) a + S1x1024.size a ≤ S32768x1024.size a)
instance k1_chk113.dec : ∀ (v1011 : BitVec 32), Decidable (k1_chk113 v1011) := fun v1011 => decidable_of_iff' _ (Iff.of_eq (k1_chk113.eq_1 v1011))
theorem k1_off226_inb : ∀ (v1011 : BitVec 32) (k1_hw113 : k1_chk113 v1011), ∀ a, (k1_off226 v1011) a + S1x1024.size a ≤ S32768x1024.size a := fun v1011 k1_hw113 => k1_hw113

def k1_off227 (i : grid1.Coords) : Fin 1 → Nat :=
  let arg0 : BitVec 32 := BitVec.ofNat 32 (i 0).val
  let c256_i32 : BitVec 32 := 256#32
  let v0 : BitVec 32 := Scalar.muli arg0 c256_i32
  let c113_i32 : BitVec 32 := 113#32
  let v1018 : BitVec 32 := Scalar.addi v0 c113_i32
  let v1019 : Index := Scalar.indexCast v1018
  ![v1019.toNat]
def k1_off228 (v1020 : BitVec 32) : Fin 2 → Nat :=
  let c0_i32_455 : BitVec 32 := 0#32
  ![v1020.toNat, 0]

def k1_chk114 (v1020 : BitVec 32) : Prop :=
  (∀ a, (k1_off228 v1020) a + S1x1024.size a ≤ S32768x1024.size a)
instance k1_chk114.dec : ∀ (v1020 : BitVec 32), Decidable (k1_chk114 v1020) := fun v1020 => decidable_of_iff' _ (Iff.of_eq (k1_chk114.eq_1 v1020))
theorem k1_off228_inb : ∀ (v1020 : BitVec 32) (k1_hw114 : k1_chk114 v1020), ∀ a, (k1_off228 v1020) a + S1x1024.size a ≤ S32768x1024.size a := fun v1020 k1_hw114 => k1_hw114

def k1_off229 (i : grid1.Coords) : Fin 1 → Nat :=
  let arg0 : BitVec 32 := BitVec.ofNat 32 (i 0).val
  let c256_i32 : BitVec 32 := 256#32
  let v0 : BitVec 32 := Scalar.muli arg0 c256_i32
  let c114_i32 : BitVec 32 := 114#32
  let v1027 : BitVec 32 := Scalar.addi v0 c114_i32
  let v1028 : Index := Scalar.indexCast v1027
  ![v1028.toNat]
def k1_off230 (v1029 : BitVec 32) : Fin 2 → Nat :=
  let c0_i32_459 : BitVec 32 := 0#32
  ![v1029.toNat, 0]

def k1_chk115 (v1029 : BitVec 32) : Prop :=
  (∀ a, (k1_off230 v1029) a + S1x1024.size a ≤ S32768x1024.size a)
instance k1_chk115.dec : ∀ (v1029 : BitVec 32), Decidable (k1_chk115 v1029) := fun v1029 => decidable_of_iff' _ (Iff.of_eq (k1_chk115.eq_1 v1029))
theorem k1_off230_inb : ∀ (v1029 : BitVec 32) (k1_hw115 : k1_chk115 v1029), ∀ a, (k1_off230 v1029) a + S1x1024.size a ≤ S32768x1024.size a := fun v1029 k1_hw115 => k1_hw115

def k1_off231 (i : grid1.Coords) : Fin 1 → Nat :=
  let arg0 : BitVec 32 := BitVec.ofNat 32 (i 0).val
  let c256_i32 : BitVec 32 := 256#32
  let v0 : BitVec 32 := Scalar.muli arg0 c256_i32
  let c115_i32 : BitVec 32 := 115#32
  let v1036 : BitVec 32 := Scalar.addi v0 c115_i32
  let v1037 : Index := Scalar.indexCast v1036
  ![v1037.toNat]
def k1_off232 (v1038 : BitVec 32) : Fin 2 → Nat :=
  let c0_i32_463 : BitVec 32 := 0#32
  ![v1038.toNat, 0]

def k1_chk116 (v1038 : BitVec 32) : Prop :=
  (∀ a, (k1_off232 v1038) a + S1x1024.size a ≤ S32768x1024.size a)
instance k1_chk116.dec : ∀ (v1038 : BitVec 32), Decidable (k1_chk116 v1038) := fun v1038 => decidable_of_iff' _ (Iff.of_eq (k1_chk116.eq_1 v1038))
theorem k1_off232_inb : ∀ (v1038 : BitVec 32) (k1_hw116 : k1_chk116 v1038), ∀ a, (k1_off232 v1038) a + S1x1024.size a ≤ S32768x1024.size a := fun v1038 k1_hw116 => k1_hw116

def k1_off233 (i : grid1.Coords) : Fin 1 → Nat :=
  let arg0 : BitVec 32 := BitVec.ofNat 32 (i 0).val
  let c256_i32 : BitVec 32 := 256#32
  let v0 : BitVec 32 := Scalar.muli arg0 c256_i32
  let c116_i32 : BitVec 32 := 116#32
  let v1045 : BitVec 32 := Scalar.addi v0 c116_i32
  let v1046 : Index := Scalar.indexCast v1045
  ![v1046.toNat]
def k1_off234 (v1047 : BitVec 32) : Fin 2 → Nat :=
  let c0_i32_467 : BitVec 32 := 0#32
  ![v1047.toNat, 0]

def k1_chk117 (v1047 : BitVec 32) : Prop :=
  (∀ a, (k1_off234 v1047) a + S1x1024.size a ≤ S32768x1024.size a)
instance k1_chk117.dec : ∀ (v1047 : BitVec 32), Decidable (k1_chk117 v1047) := fun v1047 => decidable_of_iff' _ (Iff.of_eq (k1_chk117.eq_1 v1047))
theorem k1_off234_inb : ∀ (v1047 : BitVec 32) (k1_hw117 : k1_chk117 v1047), ∀ a, (k1_off234 v1047) a + S1x1024.size a ≤ S32768x1024.size a := fun v1047 k1_hw117 => k1_hw117

def k1_off235 (i : grid1.Coords) : Fin 1 → Nat :=
  let arg0 : BitVec 32 := BitVec.ofNat 32 (i 0).val
  let c256_i32 : BitVec 32 := 256#32
  let v0 : BitVec 32 := Scalar.muli arg0 c256_i32
  let c117_i32 : BitVec 32 := 117#32
  let v1054 : BitVec 32 := Scalar.addi v0 c117_i32
  let v1055 : Index := Scalar.indexCast v1054
  ![v1055.toNat]
def k1_off236 (v1056 : BitVec 32) : Fin 2 → Nat :=
  let c0_i32_471 : BitVec 32 := 0#32
  ![v1056.toNat, 0]

def k1_chk118 (v1056 : BitVec 32) : Prop :=
  (∀ a, (k1_off236 v1056) a + S1x1024.size a ≤ S32768x1024.size a)
instance k1_chk118.dec : ∀ (v1056 : BitVec 32), Decidable (k1_chk118 v1056) := fun v1056 => decidable_of_iff' _ (Iff.of_eq (k1_chk118.eq_1 v1056))
theorem k1_off236_inb : ∀ (v1056 : BitVec 32) (k1_hw118 : k1_chk118 v1056), ∀ a, (k1_off236 v1056) a + S1x1024.size a ≤ S32768x1024.size a := fun v1056 k1_hw118 => k1_hw118

def k1_off237 (i : grid1.Coords) : Fin 1 → Nat :=
  let arg0 : BitVec 32 := BitVec.ofNat 32 (i 0).val
  let c256_i32 : BitVec 32 := 256#32
  let v0 : BitVec 32 := Scalar.muli arg0 c256_i32
  let c118_i32 : BitVec 32 := 118#32
  let v1063 : BitVec 32 := Scalar.addi v0 c118_i32
  let v1064 : Index := Scalar.indexCast v1063
  ![v1064.toNat]
def k1_off238 (v1065 : BitVec 32) : Fin 2 → Nat :=
  let c0_i32_475 : BitVec 32 := 0#32
  ![v1065.toNat, 0]

def k1_chk119 (v1065 : BitVec 32) : Prop :=
  (∀ a, (k1_off238 v1065) a + S1x1024.size a ≤ S32768x1024.size a)
instance k1_chk119.dec : ∀ (v1065 : BitVec 32), Decidable (k1_chk119 v1065) := fun v1065 => decidable_of_iff' _ (Iff.of_eq (k1_chk119.eq_1 v1065))
theorem k1_off238_inb : ∀ (v1065 : BitVec 32) (k1_hw119 : k1_chk119 v1065), ∀ a, (k1_off238 v1065) a + S1x1024.size a ≤ S32768x1024.size a := fun v1065 k1_hw119 => k1_hw119

def k1_off239 (i : grid1.Coords) : Fin 1 → Nat :=
  let arg0 : BitVec 32 := BitVec.ofNat 32 (i 0).val
  let c256_i32 : BitVec 32 := 256#32
  let v0 : BitVec 32 := Scalar.muli arg0 c256_i32
  let c119_i32 : BitVec 32 := 119#32
  let v1072 : BitVec 32 := Scalar.addi v0 c119_i32
  let v1073 : Index := Scalar.indexCast v1072
  ![v1073.toNat]
def k1_off240 (v1074 : BitVec 32) : Fin 2 → Nat :=
  let c0_i32_479 : BitVec 32 := 0#32
  ![v1074.toNat, 0]

def k1_chk120 (v1074 : BitVec 32) : Prop :=
  (∀ a, (k1_off240 v1074) a + S1x1024.size a ≤ S32768x1024.size a)
instance k1_chk120.dec : ∀ (v1074 : BitVec 32), Decidable (k1_chk120 v1074) := fun v1074 => decidable_of_iff' _ (Iff.of_eq (k1_chk120.eq_1 v1074))
theorem k1_off240_inb : ∀ (v1074 : BitVec 32) (k1_hw120 : k1_chk120 v1074), ∀ a, (k1_off240 v1074) a + S1x1024.size a ≤ S32768x1024.size a := fun v1074 k1_hw120 => k1_hw120

def k1_off241 (i : grid1.Coords) : Fin 1 → Nat :=
  let arg0 : BitVec 32 := BitVec.ofNat 32 (i 0).val
  let c256_i32 : BitVec 32 := 256#32
  let v0 : BitVec 32 := Scalar.muli arg0 c256_i32
  let c120_i32 : BitVec 32 := 120#32
  let v1081 : BitVec 32 := Scalar.addi v0 c120_i32
  let v1082 : Index := Scalar.indexCast v1081
  ![v1082.toNat]
def k1_off242 (v1083 : BitVec 32) : Fin 2 → Nat :=
  let c0_i32_483 : BitVec 32 := 0#32
  ![v1083.toNat, 0]

def k1_chk121 (v1083 : BitVec 32) : Prop :=
  (∀ a, (k1_off242 v1083) a + S1x1024.size a ≤ S32768x1024.size a)
instance k1_chk121.dec : ∀ (v1083 : BitVec 32), Decidable (k1_chk121 v1083) := fun v1083 => decidable_of_iff' _ (Iff.of_eq (k1_chk121.eq_1 v1083))
theorem k1_off242_inb : ∀ (v1083 : BitVec 32) (k1_hw121 : k1_chk121 v1083), ∀ a, (k1_off242 v1083) a + S1x1024.size a ≤ S32768x1024.size a := fun v1083 k1_hw121 => k1_hw121

def k1_off243 (i : grid1.Coords) : Fin 1 → Nat :=
  let arg0 : BitVec 32 := BitVec.ofNat 32 (i 0).val
  let c256_i32 : BitVec 32 := 256#32
  let v0 : BitVec 32 := Scalar.muli arg0 c256_i32
  let c121_i32 : BitVec 32 := 121#32
  let v1090 : BitVec 32 := Scalar.addi v0 c121_i32
  let v1091 : Index := Scalar.indexCast v1090
  ![v1091.toNat]
def k1_off244 (v1092 : BitVec 32) : Fin 2 → Nat :=
  let c0_i32_487 : BitVec 32 := 0#32
  ![v1092.toNat, 0]

def k1_chk122 (v1092 : BitVec 32) : Prop :=
  (∀ a, (k1_off244 v1092) a + S1x1024.size a ≤ S32768x1024.size a)
instance k1_chk122.dec : ∀ (v1092 : BitVec 32), Decidable (k1_chk122 v1092) := fun v1092 => decidable_of_iff' _ (Iff.of_eq (k1_chk122.eq_1 v1092))
theorem k1_off244_inb : ∀ (v1092 : BitVec 32) (k1_hw122 : k1_chk122 v1092), ∀ a, (k1_off244 v1092) a + S1x1024.size a ≤ S32768x1024.size a := fun v1092 k1_hw122 => k1_hw122

def k1_off245 (i : grid1.Coords) : Fin 1 → Nat :=
  let arg0 : BitVec 32 := BitVec.ofNat 32 (i 0).val
  let c256_i32 : BitVec 32 := 256#32
  let v0 : BitVec 32 := Scalar.muli arg0 c256_i32
  let c122_i32 : BitVec 32 := 122#32
  let v1099 : BitVec 32 := Scalar.addi v0 c122_i32
  let v1100 : Index := Scalar.indexCast v1099
  ![v1100.toNat]
def k1_off246 (v1101 : BitVec 32) : Fin 2 → Nat :=
  let c0_i32_491 : BitVec 32 := 0#32
  ![v1101.toNat, 0]

def k1_chk123 (v1101 : BitVec 32) : Prop :=
  (∀ a, (k1_off246 v1101) a + S1x1024.size a ≤ S32768x1024.size a)
instance k1_chk123.dec : ∀ (v1101 : BitVec 32), Decidable (k1_chk123 v1101) := fun v1101 => decidable_of_iff' _ (Iff.of_eq (k1_chk123.eq_1 v1101))
theorem k1_off246_inb : ∀ (v1101 : BitVec 32) (k1_hw123 : k1_chk123 v1101), ∀ a, (k1_off246 v1101) a + S1x1024.size a ≤ S32768x1024.size a := fun v1101 k1_hw123 => k1_hw123

def k1_off247 (i : grid1.Coords) : Fin 1 → Nat :=
  let arg0 : BitVec 32 := BitVec.ofNat 32 (i 0).val
  let c256_i32 : BitVec 32 := 256#32
  let v0 : BitVec 32 := Scalar.muli arg0 c256_i32
  let c123_i32 : BitVec 32 := 123#32
  let v1108 : BitVec 32 := Scalar.addi v0 c123_i32
  let v1109 : Index := Scalar.indexCast v1108
  ![v1109.toNat]
def k1_off248 (v1110 : BitVec 32) : Fin 2 → Nat :=
  let c0_i32_495 : BitVec 32 := 0#32
  ![v1110.toNat, 0]

def k1_chk124 (v1110 : BitVec 32) : Prop :=
  (∀ a, (k1_off248 v1110) a + S1x1024.size a ≤ S32768x1024.size a)
instance k1_chk124.dec : ∀ (v1110 : BitVec 32), Decidable (k1_chk124 v1110) := fun v1110 => decidable_of_iff' _ (Iff.of_eq (k1_chk124.eq_1 v1110))
theorem k1_off248_inb : ∀ (v1110 : BitVec 32) (k1_hw124 : k1_chk124 v1110), ∀ a, (k1_off248 v1110) a + S1x1024.size a ≤ S32768x1024.size a := fun v1110 k1_hw124 => k1_hw124

def k1_off249 (i : grid1.Coords) : Fin 1 → Nat :=
  let arg0 : BitVec 32 := BitVec.ofNat 32 (i 0).val
  let c256_i32 : BitVec 32 := 256#32
  let v0 : BitVec 32 := Scalar.muli arg0 c256_i32
  let c124_i32 : BitVec 32 := 124#32
  let v1117 : BitVec 32 := Scalar.addi v0 c124_i32
  let v1118 : Index := Scalar.indexCast v1117
  ![v1118.toNat]
def k1_off250 (v1119 : BitVec 32) : Fin 2 → Nat :=
  let c0_i32_499 : BitVec 32 := 0#32
  ![v1119.toNat, 0]

def k1_chk125 (v1119 : BitVec 32) : Prop :=
  (∀ a, (k1_off250 v1119) a + S1x1024.size a ≤ S32768x1024.size a)
instance k1_chk125.dec : ∀ (v1119 : BitVec 32), Decidable (k1_chk125 v1119) := fun v1119 => decidable_of_iff' _ (Iff.of_eq (k1_chk125.eq_1 v1119))
theorem k1_off250_inb : ∀ (v1119 : BitVec 32) (k1_hw125 : k1_chk125 v1119), ∀ a, (k1_off250 v1119) a + S1x1024.size a ≤ S32768x1024.size a := fun v1119 k1_hw125 => k1_hw125

def k1_off251 (i : grid1.Coords) : Fin 1 → Nat :=
  let arg0 : BitVec 32 := BitVec.ofNat 32 (i 0).val
  let c256_i32 : BitVec 32 := 256#32
  let v0 : BitVec 32 := Scalar.muli arg0 c256_i32
  let c125_i32 : BitVec 32 := 125#32
  let v1126 : BitVec 32 := Scalar.addi v0 c125_i32
  let v1127 : Index := Scalar.indexCast v1126
  ![v1127.toNat]
def k1_off252 (v1128 : BitVec 32) : Fin 2 → Nat :=
  let c0_i32_503 : BitVec 32 := 0#32
  ![v1128.toNat, 0]

def k1_chk126 (v1128 : BitVec 32) : Prop :=
  (∀ a, (k1_off252 v1128) a + S1x1024.size a ≤ S32768x1024.size a)
instance k1_chk126.dec : ∀ (v1128 : BitVec 32), Decidable (k1_chk126 v1128) := fun v1128 => decidable_of_iff' _ (Iff.of_eq (k1_chk126.eq_1 v1128))
theorem k1_off252_inb : ∀ (v1128 : BitVec 32) (k1_hw126 : k1_chk126 v1128), ∀ a, (k1_off252 v1128) a + S1x1024.size a ≤ S32768x1024.size a := fun v1128 k1_hw126 => k1_hw126

def k1_off253 (i : grid1.Coords) : Fin 1 → Nat :=
  let arg0 : BitVec 32 := BitVec.ofNat 32 (i 0).val
  let c256_i32 : BitVec 32 := 256#32
  let v0 : BitVec 32 := Scalar.muli arg0 c256_i32
  let c126_i32 : BitVec 32 := 126#32
  let v1135 : BitVec 32 := Scalar.addi v0 c126_i32
  let v1136 : Index := Scalar.indexCast v1135
  ![v1136.toNat]
def k1_off254 (v1137 : BitVec 32) : Fin 2 → Nat :=
  let c0_i32_507 : BitVec 32 := 0#32
  ![v1137.toNat, 0]

def k1_chk127 (v1137 : BitVec 32) : Prop :=
  (∀ a, (k1_off254 v1137) a + S1x1024.size a ≤ S32768x1024.size a)
instance k1_chk127.dec : ∀ (v1137 : BitVec 32), Decidable (k1_chk127 v1137) := fun v1137 => decidable_of_iff' _ (Iff.of_eq (k1_chk127.eq_1 v1137))
theorem k1_off254_inb : ∀ (v1137 : BitVec 32) (k1_hw127 : k1_chk127 v1137), ∀ a, (k1_off254 v1137) a + S1x1024.size a ≤ S32768x1024.size a := fun v1137 k1_hw127 => k1_hw127

def k1_off255 (i : grid1.Coords) : Fin 1 → Nat :=
  let arg0 : BitVec 32 := BitVec.ofNat 32 (i 0).val
  let c256_i32 : BitVec 32 := 256#32
  let v0 : BitVec 32 := Scalar.muli arg0 c256_i32
  let c127_i32 : BitVec 32 := 127#32
  let v1144 : BitVec 32 := Scalar.addi v0 c127_i32
  let v1145 : Index := Scalar.indexCast v1144
  ![v1145.toNat]
def k1_off256 (v1146 : BitVec 32) : Fin 2 → Nat :=
  let c0_i32_511 : BitVec 32 := 0#32
  ![v1146.toNat, 0]

def k1_chk128 (v1146 : BitVec 32) : Prop :=
  (∀ a, (k1_off256 v1146) a + S1x1024.size a ≤ S32768x1024.size a)
instance k1_chk128.dec : ∀ (v1146 : BitVec 32), Decidable (k1_chk128 v1146) := fun v1146 => decidable_of_iff' _ (Iff.of_eq (k1_chk128.eq_1 v1146))
theorem k1_off256_inb : ∀ (v1146 : BitVec 32) (k1_hw128 : k1_chk128 v1146), ∀ a, (k1_off256 v1146) a + S1x1024.size a ≤ S32768x1024.size a := fun v1146 k1_hw128 => k1_hw128

def k1_off257 (i : grid1.Coords) : Fin 1 → Nat :=
  let arg0 : BitVec 32 := BitVec.ofNat 32 (i 0).val
  let c256_i32 : BitVec 32 := 256#32
  let v0 : BitVec 32 := Scalar.muli arg0 c256_i32
  let c128_i32 : BitVec 32 := 128#32
  let v1153 : BitVec 32 := Scalar.addi v0 c128_i32
  let v1154 : Index := Scalar.indexCast v1153
  ![v1154.toNat]
def k1_off258 (v1155 : BitVec 32) : Fin 2 → Nat :=
  let c0_i32_515 : BitVec 32 := 0#32
  ![v1155.toNat, 0]

def k1_chk129 (v1155 : BitVec 32) : Prop :=
  (∀ a, (k1_off258 v1155) a + S1x1024.size a ≤ S32768x1024.size a)
instance k1_chk129.dec : ∀ (v1155 : BitVec 32), Decidable (k1_chk129 v1155) := fun v1155 => decidable_of_iff' _ (Iff.of_eq (k1_chk129.eq_1 v1155))
theorem k1_off258_inb : ∀ (v1155 : BitVec 32) (k1_hw129 : k1_chk129 v1155), ∀ a, (k1_off258 v1155) a + S1x1024.size a ≤ S32768x1024.size a := fun v1155 k1_hw129 => k1_hw129

def k1_off259 (i : grid1.Coords) : Fin 1 → Nat :=
  let arg0 : BitVec 32 := BitVec.ofNat 32 (i 0).val
  let c256_i32 : BitVec 32 := 256#32
  let v0 : BitVec 32 := Scalar.muli arg0 c256_i32
  let c129_i32 : BitVec 32 := 129#32
  let v1162 : BitVec 32 := Scalar.addi v0 c129_i32
  let v1163 : Index := Scalar.indexCast v1162
  ![v1163.toNat]
def k1_off260 (v1164 : BitVec 32) : Fin 2 → Nat :=
  let c0_i32_519 : BitVec 32 := 0#32
  ![v1164.toNat, 0]

def k1_chk130 (v1164 : BitVec 32) : Prop :=
  (∀ a, (k1_off260 v1164) a + S1x1024.size a ≤ S32768x1024.size a)
instance k1_chk130.dec : ∀ (v1164 : BitVec 32), Decidable (k1_chk130 v1164) := fun v1164 => decidable_of_iff' _ (Iff.of_eq (k1_chk130.eq_1 v1164))
theorem k1_off260_inb : ∀ (v1164 : BitVec 32) (k1_hw130 : k1_chk130 v1164), ∀ a, (k1_off260 v1164) a + S1x1024.size a ≤ S32768x1024.size a := fun v1164 k1_hw130 => k1_hw130

def k1_off261 (i : grid1.Coords) : Fin 1 → Nat :=
  let arg0 : BitVec 32 := BitVec.ofNat 32 (i 0).val
  let c256_i32 : BitVec 32 := 256#32
  let v0 : BitVec 32 := Scalar.muli arg0 c256_i32
  let c130_i32 : BitVec 32 := 130#32
  let v1171 : BitVec 32 := Scalar.addi v0 c130_i32
  let v1172 : Index := Scalar.indexCast v1171
  ![v1172.toNat]
def k1_off262 (v1173 : BitVec 32) : Fin 2 → Nat :=
  let c0_i32_523 : BitVec 32 := 0#32
  ![v1173.toNat, 0]

def k1_chk131 (v1173 : BitVec 32) : Prop :=
  (∀ a, (k1_off262 v1173) a + S1x1024.size a ≤ S32768x1024.size a)
instance k1_chk131.dec : ∀ (v1173 : BitVec 32), Decidable (k1_chk131 v1173) := fun v1173 => decidable_of_iff' _ (Iff.of_eq (k1_chk131.eq_1 v1173))
theorem k1_off262_inb : ∀ (v1173 : BitVec 32) (k1_hw131 : k1_chk131 v1173), ∀ a, (k1_off262 v1173) a + S1x1024.size a ≤ S32768x1024.size a := fun v1173 k1_hw131 => k1_hw131

def k1_off263 (i : grid1.Coords) : Fin 1 → Nat :=
  let arg0 : BitVec 32 := BitVec.ofNat 32 (i 0).val
  let c256_i32 : BitVec 32 := 256#32
  let v0 : BitVec 32 := Scalar.muli arg0 c256_i32
  let c131_i32 : BitVec 32 := 131#32
  let v1180 : BitVec 32 := Scalar.addi v0 c131_i32
  let v1181 : Index := Scalar.indexCast v1180
  ![v1181.toNat]
def k1_off264 (v1182 : BitVec 32) : Fin 2 → Nat :=
  let c0_i32_527 : BitVec 32 := 0#32
  ![v1182.toNat, 0]

def k1_chk132 (v1182 : BitVec 32) : Prop :=
  (∀ a, (k1_off264 v1182) a + S1x1024.size a ≤ S32768x1024.size a)
instance k1_chk132.dec : ∀ (v1182 : BitVec 32), Decidable (k1_chk132 v1182) := fun v1182 => decidable_of_iff' _ (Iff.of_eq (k1_chk132.eq_1 v1182))
theorem k1_off264_inb : ∀ (v1182 : BitVec 32) (k1_hw132 : k1_chk132 v1182), ∀ a, (k1_off264 v1182) a + S1x1024.size a ≤ S32768x1024.size a := fun v1182 k1_hw132 => k1_hw132

def k1_off265 (i : grid1.Coords) : Fin 1 → Nat :=
  let arg0 : BitVec 32 := BitVec.ofNat 32 (i 0).val
  let c256_i32 : BitVec 32 := 256#32
  let v0 : BitVec 32 := Scalar.muli arg0 c256_i32
  let c132_i32 : BitVec 32 := 132#32
  let v1189 : BitVec 32 := Scalar.addi v0 c132_i32
  let v1190 : Index := Scalar.indexCast v1189
  ![v1190.toNat]
def k1_off266 (v1191 : BitVec 32) : Fin 2 → Nat :=
  let c0_i32_531 : BitVec 32 := 0#32
  ![v1191.toNat, 0]

def k1_chk133 (v1191 : BitVec 32) : Prop :=
  (∀ a, (k1_off266 v1191) a + S1x1024.size a ≤ S32768x1024.size a)
instance k1_chk133.dec : ∀ (v1191 : BitVec 32), Decidable (k1_chk133 v1191) := fun v1191 => decidable_of_iff' _ (Iff.of_eq (k1_chk133.eq_1 v1191))
theorem k1_off266_inb : ∀ (v1191 : BitVec 32) (k1_hw133 : k1_chk133 v1191), ∀ a, (k1_off266 v1191) a + S1x1024.size a ≤ S32768x1024.size a := fun v1191 k1_hw133 => k1_hw133

def k1_off267 (i : grid1.Coords) : Fin 1 → Nat :=
  let arg0 : BitVec 32 := BitVec.ofNat 32 (i 0).val
  let c256_i32 : BitVec 32 := 256#32
  let v0 : BitVec 32 := Scalar.muli arg0 c256_i32
  let c133_i32 : BitVec 32 := 133#32
  let v1198 : BitVec 32 := Scalar.addi v0 c133_i32
  let v1199 : Index := Scalar.indexCast v1198
  ![v1199.toNat]
def k1_off268 (v1200 : BitVec 32) : Fin 2 → Nat :=
  let c0_i32_535 : BitVec 32 := 0#32
  ![v1200.toNat, 0]

def k1_chk134 (v1200 : BitVec 32) : Prop :=
  (∀ a, (k1_off268 v1200) a + S1x1024.size a ≤ S32768x1024.size a)
instance k1_chk134.dec : ∀ (v1200 : BitVec 32), Decidable (k1_chk134 v1200) := fun v1200 => decidable_of_iff' _ (Iff.of_eq (k1_chk134.eq_1 v1200))
theorem k1_off268_inb : ∀ (v1200 : BitVec 32) (k1_hw134 : k1_chk134 v1200), ∀ a, (k1_off268 v1200) a + S1x1024.size a ≤ S32768x1024.size a := fun v1200 k1_hw134 => k1_hw134

def k1_off269 (i : grid1.Coords) : Fin 1 → Nat :=
  let arg0 : BitVec 32 := BitVec.ofNat 32 (i 0).val
  let c256_i32 : BitVec 32 := 256#32
  let v0 : BitVec 32 := Scalar.muli arg0 c256_i32
  let c134_i32 : BitVec 32 := 134#32
  let v1207 : BitVec 32 := Scalar.addi v0 c134_i32
  let v1208 : Index := Scalar.indexCast v1207
  ![v1208.toNat]
def k1_off270 (v1209 : BitVec 32) : Fin 2 → Nat :=
  let c0_i32_539 : BitVec 32 := 0#32
  ![v1209.toNat, 0]

def k1_chk135 (v1209 : BitVec 32) : Prop :=
  (∀ a, (k1_off270 v1209) a + S1x1024.size a ≤ S32768x1024.size a)
instance k1_chk135.dec : ∀ (v1209 : BitVec 32), Decidable (k1_chk135 v1209) := fun v1209 => decidable_of_iff' _ (Iff.of_eq (k1_chk135.eq_1 v1209))
theorem k1_off270_inb : ∀ (v1209 : BitVec 32) (k1_hw135 : k1_chk135 v1209), ∀ a, (k1_off270 v1209) a + S1x1024.size a ≤ S32768x1024.size a := fun v1209 k1_hw135 => k1_hw135

def k1_off271 (i : grid1.Coords) : Fin 1 → Nat :=
  let arg0 : BitVec 32 := BitVec.ofNat 32 (i 0).val
  let c256_i32 : BitVec 32 := 256#32
  let v0 : BitVec 32 := Scalar.muli arg0 c256_i32
  let c135_i32 : BitVec 32 := 135#32
  let v1216 : BitVec 32 := Scalar.addi v0 c135_i32
  let v1217 : Index := Scalar.indexCast v1216
  ![v1217.toNat]
def k1_off272 (v1218 : BitVec 32) : Fin 2 → Nat :=
  let c0_i32_543 : BitVec 32 := 0#32
  ![v1218.toNat, 0]

def k1_chk136 (v1218 : BitVec 32) : Prop :=
  (∀ a, (k1_off272 v1218) a + S1x1024.size a ≤ S32768x1024.size a)
instance k1_chk136.dec : ∀ (v1218 : BitVec 32), Decidable (k1_chk136 v1218) := fun v1218 => decidable_of_iff' _ (Iff.of_eq (k1_chk136.eq_1 v1218))
theorem k1_off272_inb : ∀ (v1218 : BitVec 32) (k1_hw136 : k1_chk136 v1218), ∀ a, (k1_off272 v1218) a + S1x1024.size a ≤ S32768x1024.size a := fun v1218 k1_hw136 => k1_hw136

def k1_off273 (i : grid1.Coords) : Fin 1 → Nat :=
  let arg0 : BitVec 32 := BitVec.ofNat 32 (i 0).val
  let c256_i32 : BitVec 32 := 256#32
  let v0 : BitVec 32 := Scalar.muli arg0 c256_i32
  let c136_i32 : BitVec 32 := 136#32
  let v1225 : BitVec 32 := Scalar.addi v0 c136_i32
  let v1226 : Index := Scalar.indexCast v1225
  ![v1226.toNat]
def k1_off274 (v1227 : BitVec 32) : Fin 2 → Nat :=
  let c0_i32_547 : BitVec 32 := 0#32
  ![v1227.toNat, 0]

def k1_chk137 (v1227 : BitVec 32) : Prop :=
  (∀ a, (k1_off274 v1227) a + S1x1024.size a ≤ S32768x1024.size a)
instance k1_chk137.dec : ∀ (v1227 : BitVec 32), Decidable (k1_chk137 v1227) := fun v1227 => decidable_of_iff' _ (Iff.of_eq (k1_chk137.eq_1 v1227))
theorem k1_off274_inb : ∀ (v1227 : BitVec 32) (k1_hw137 : k1_chk137 v1227), ∀ a, (k1_off274 v1227) a + S1x1024.size a ≤ S32768x1024.size a := fun v1227 k1_hw137 => k1_hw137

def k1_off275 (i : grid1.Coords) : Fin 1 → Nat :=
  let arg0 : BitVec 32 := BitVec.ofNat 32 (i 0).val
  let c256_i32 : BitVec 32 := 256#32
  let v0 : BitVec 32 := Scalar.muli arg0 c256_i32
  let c137_i32 : BitVec 32 := 137#32
  let v1234 : BitVec 32 := Scalar.addi v0 c137_i32
  let v1235 : Index := Scalar.indexCast v1234
  ![v1235.toNat]
def k1_off276 (v1236 : BitVec 32) : Fin 2 → Nat :=
  let c0_i32_551 : BitVec 32 := 0#32
  ![v1236.toNat, 0]

def k1_chk138 (v1236 : BitVec 32) : Prop :=
  (∀ a, (k1_off276 v1236) a + S1x1024.size a ≤ S32768x1024.size a)
instance k1_chk138.dec : ∀ (v1236 : BitVec 32), Decidable (k1_chk138 v1236) := fun v1236 => decidable_of_iff' _ (Iff.of_eq (k1_chk138.eq_1 v1236))
theorem k1_off276_inb : ∀ (v1236 : BitVec 32) (k1_hw138 : k1_chk138 v1236), ∀ a, (k1_off276 v1236) a + S1x1024.size a ≤ S32768x1024.size a := fun v1236 k1_hw138 => k1_hw138

def k1_off277 (i : grid1.Coords) : Fin 1 → Nat :=
  let arg0 : BitVec 32 := BitVec.ofNat 32 (i 0).val
  let c256_i32 : BitVec 32 := 256#32
  let v0 : BitVec 32 := Scalar.muli arg0 c256_i32
  let c138_i32 : BitVec 32 := 138#32
  let v1243 : BitVec 32 := Scalar.addi v0 c138_i32
  let v1244 : Index := Scalar.indexCast v1243
  ![v1244.toNat]
def k1_off278 (v1245 : BitVec 32) : Fin 2 → Nat :=
  let c0_i32_555 : BitVec 32 := 0#32
  ![v1245.toNat, 0]

def k1_chk139 (v1245 : BitVec 32) : Prop :=
  (∀ a, (k1_off278 v1245) a + S1x1024.size a ≤ S32768x1024.size a)
instance k1_chk139.dec : ∀ (v1245 : BitVec 32), Decidable (k1_chk139 v1245) := fun v1245 => decidable_of_iff' _ (Iff.of_eq (k1_chk139.eq_1 v1245))
theorem k1_off278_inb : ∀ (v1245 : BitVec 32) (k1_hw139 : k1_chk139 v1245), ∀ a, (k1_off278 v1245) a + S1x1024.size a ≤ S32768x1024.size a := fun v1245 k1_hw139 => k1_hw139

def k1_off279 (i : grid1.Coords) : Fin 1 → Nat :=
  let arg0 : BitVec 32 := BitVec.ofNat 32 (i 0).val
  let c256_i32 : BitVec 32 := 256#32
  let v0 : BitVec 32 := Scalar.muli arg0 c256_i32
  let c139_i32 : BitVec 32 := 139#32
  let v1252 : BitVec 32 := Scalar.addi v0 c139_i32
  let v1253 : Index := Scalar.indexCast v1252
  ![v1253.toNat]
def k1_off280 (v1254 : BitVec 32) : Fin 2 → Nat :=
  let c0_i32_559 : BitVec 32 := 0#32
  ![v1254.toNat, 0]

def k1_chk140 (v1254 : BitVec 32) : Prop :=
  (∀ a, (k1_off280 v1254) a + S1x1024.size a ≤ S32768x1024.size a)
instance k1_chk140.dec : ∀ (v1254 : BitVec 32), Decidable (k1_chk140 v1254) := fun v1254 => decidable_of_iff' _ (Iff.of_eq (k1_chk140.eq_1 v1254))
theorem k1_off280_inb : ∀ (v1254 : BitVec 32) (k1_hw140 : k1_chk140 v1254), ∀ a, (k1_off280 v1254) a + S1x1024.size a ≤ S32768x1024.size a := fun v1254 k1_hw140 => k1_hw140

def k1_off281 (i : grid1.Coords) : Fin 1 → Nat :=
  let arg0 : BitVec 32 := BitVec.ofNat 32 (i 0).val
  let c256_i32 : BitVec 32 := 256#32
  let v0 : BitVec 32 := Scalar.muli arg0 c256_i32
  let c140_i32 : BitVec 32 := 140#32
  let v1261 : BitVec 32 := Scalar.addi v0 c140_i32
  let v1262 : Index := Scalar.indexCast v1261
  ![v1262.toNat]
def k1_off282 (v1263 : BitVec 32) : Fin 2 → Nat :=
  let c0_i32_563 : BitVec 32 := 0#32
  ![v1263.toNat, 0]

def k1_chk141 (v1263 : BitVec 32) : Prop :=
  (∀ a, (k1_off282 v1263) a + S1x1024.size a ≤ S32768x1024.size a)
instance k1_chk141.dec : ∀ (v1263 : BitVec 32), Decidable (k1_chk141 v1263) := fun v1263 => decidable_of_iff' _ (Iff.of_eq (k1_chk141.eq_1 v1263))
theorem k1_off282_inb : ∀ (v1263 : BitVec 32) (k1_hw141 : k1_chk141 v1263), ∀ a, (k1_off282 v1263) a + S1x1024.size a ≤ S32768x1024.size a := fun v1263 k1_hw141 => k1_hw141

def k1_off283 (i : grid1.Coords) : Fin 1 → Nat :=
  let arg0 : BitVec 32 := BitVec.ofNat 32 (i 0).val
  let c256_i32 : BitVec 32 := 256#32
  let v0 : BitVec 32 := Scalar.muli arg0 c256_i32
  let c141_i32 : BitVec 32 := 141#32
  let v1270 : BitVec 32 := Scalar.addi v0 c141_i32
  let v1271 : Index := Scalar.indexCast v1270
  ![v1271.toNat]
def k1_off284 (v1272 : BitVec 32) : Fin 2 → Nat :=
  let c0_i32_567 : BitVec 32 := 0#32
  ![v1272.toNat, 0]

def k1_chk142 (v1272 : BitVec 32) : Prop :=
  (∀ a, (k1_off284 v1272) a + S1x1024.size a ≤ S32768x1024.size a)
instance k1_chk142.dec : ∀ (v1272 : BitVec 32), Decidable (k1_chk142 v1272) := fun v1272 => decidable_of_iff' _ (Iff.of_eq (k1_chk142.eq_1 v1272))
theorem k1_off284_inb : ∀ (v1272 : BitVec 32) (k1_hw142 : k1_chk142 v1272), ∀ a, (k1_off284 v1272) a + S1x1024.size a ≤ S32768x1024.size a := fun v1272 k1_hw142 => k1_hw142

def k1_off285 (i : grid1.Coords) : Fin 1 → Nat :=
  let arg0 : BitVec 32 := BitVec.ofNat 32 (i 0).val
  let c256_i32 : BitVec 32 := 256#32
  let v0 : BitVec 32 := Scalar.muli arg0 c256_i32
  let c142_i32 : BitVec 32 := 142#32
  let v1279 : BitVec 32 := Scalar.addi v0 c142_i32
  let v1280 : Index := Scalar.indexCast v1279
  ![v1280.toNat]
def k1_off286 (v1281 : BitVec 32) : Fin 2 → Nat :=
  let c0_i32_571 : BitVec 32 := 0#32
  ![v1281.toNat, 0]

def k1_chk143 (v1281 : BitVec 32) : Prop :=
  (∀ a, (k1_off286 v1281) a + S1x1024.size a ≤ S32768x1024.size a)
instance k1_chk143.dec : ∀ (v1281 : BitVec 32), Decidable (k1_chk143 v1281) := fun v1281 => decidable_of_iff' _ (Iff.of_eq (k1_chk143.eq_1 v1281))
theorem k1_off286_inb : ∀ (v1281 : BitVec 32) (k1_hw143 : k1_chk143 v1281), ∀ a, (k1_off286 v1281) a + S1x1024.size a ≤ S32768x1024.size a := fun v1281 k1_hw143 => k1_hw143

def k1_off287 (i : grid1.Coords) : Fin 1 → Nat :=
  let arg0 : BitVec 32 := BitVec.ofNat 32 (i 0).val
  let c256_i32 : BitVec 32 := 256#32
  let v0 : BitVec 32 := Scalar.muli arg0 c256_i32
  let c143_i32 : BitVec 32 := 143#32
  let v1288 : BitVec 32 := Scalar.addi v0 c143_i32
  let v1289 : Index := Scalar.indexCast v1288
  ![v1289.toNat]
def k1_off288 (v1290 : BitVec 32) : Fin 2 → Nat :=
  let c0_i32_575 : BitVec 32 := 0#32
  ![v1290.toNat, 0]

def k1_chk144 (v1290 : BitVec 32) : Prop :=
  (∀ a, (k1_off288 v1290) a + S1x1024.size a ≤ S32768x1024.size a)
instance k1_chk144.dec : ∀ (v1290 : BitVec 32), Decidable (k1_chk144 v1290) := fun v1290 => decidable_of_iff' _ (Iff.of_eq (k1_chk144.eq_1 v1290))
theorem k1_off288_inb : ∀ (v1290 : BitVec 32) (k1_hw144 : k1_chk144 v1290), ∀ a, (k1_off288 v1290) a + S1x1024.size a ≤ S32768x1024.size a := fun v1290 k1_hw144 => k1_hw144

def k1_off289 (i : grid1.Coords) : Fin 1 → Nat :=
  let arg0 : BitVec 32 := BitVec.ofNat 32 (i 0).val
  let c256_i32 : BitVec 32 := 256#32
  let v0 : BitVec 32 := Scalar.muli arg0 c256_i32
  let c144_i32 : BitVec 32 := 144#32
  let v1297 : BitVec 32 := Scalar.addi v0 c144_i32
  let v1298 : Index := Scalar.indexCast v1297
  ![v1298.toNat]
def k1_off290 (v1299 : BitVec 32) : Fin 2 → Nat :=
  let c0_i32_579 : BitVec 32 := 0#32
  ![v1299.toNat, 0]

def k1_chk145 (v1299 : BitVec 32) : Prop :=
  (∀ a, (k1_off290 v1299) a + S1x1024.size a ≤ S32768x1024.size a)
instance k1_chk145.dec : ∀ (v1299 : BitVec 32), Decidable (k1_chk145 v1299) := fun v1299 => decidable_of_iff' _ (Iff.of_eq (k1_chk145.eq_1 v1299))
theorem k1_off290_inb : ∀ (v1299 : BitVec 32) (k1_hw145 : k1_chk145 v1299), ∀ a, (k1_off290 v1299) a + S1x1024.size a ≤ S32768x1024.size a := fun v1299 k1_hw145 => k1_hw145

def k1_off291 (i : grid1.Coords) : Fin 1 → Nat :=
  let arg0 : BitVec 32 := BitVec.ofNat 32 (i 0).val
  let c256_i32 : BitVec 32 := 256#32
  let v0 : BitVec 32 := Scalar.muli arg0 c256_i32
  let c145_i32 : BitVec 32 := 145#32
  let v1306 : BitVec 32 := Scalar.addi v0 c145_i32
  let v1307 : Index := Scalar.indexCast v1306
  ![v1307.toNat]
def k1_off292 (v1308 : BitVec 32) : Fin 2 → Nat :=
  let c0_i32_583 : BitVec 32 := 0#32
  ![v1308.toNat, 0]

def k1_chk146 (v1308 : BitVec 32) : Prop :=
  (∀ a, (k1_off292 v1308) a + S1x1024.size a ≤ S32768x1024.size a)
instance k1_chk146.dec : ∀ (v1308 : BitVec 32), Decidable (k1_chk146 v1308) := fun v1308 => decidable_of_iff' _ (Iff.of_eq (k1_chk146.eq_1 v1308))
theorem k1_off292_inb : ∀ (v1308 : BitVec 32) (k1_hw146 : k1_chk146 v1308), ∀ a, (k1_off292 v1308) a + S1x1024.size a ≤ S32768x1024.size a := fun v1308 k1_hw146 => k1_hw146

def k1_off293 (i : grid1.Coords) : Fin 1 → Nat :=
  let arg0 : BitVec 32 := BitVec.ofNat 32 (i 0).val
  let c256_i32 : BitVec 32 := 256#32
  let v0 : BitVec 32 := Scalar.muli arg0 c256_i32
  let c146_i32 : BitVec 32 := 146#32
  let v1315 : BitVec 32 := Scalar.addi v0 c146_i32
  let v1316 : Index := Scalar.indexCast v1315
  ![v1316.toNat]
def k1_off294 (v1317 : BitVec 32) : Fin 2 → Nat :=
  let c0_i32_587 : BitVec 32 := 0#32
  ![v1317.toNat, 0]

def k1_chk147 (v1317 : BitVec 32) : Prop :=
  (∀ a, (k1_off294 v1317) a + S1x1024.size a ≤ S32768x1024.size a)
instance k1_chk147.dec : ∀ (v1317 : BitVec 32), Decidable (k1_chk147 v1317) := fun v1317 => decidable_of_iff' _ (Iff.of_eq (k1_chk147.eq_1 v1317))
theorem k1_off294_inb : ∀ (v1317 : BitVec 32) (k1_hw147 : k1_chk147 v1317), ∀ a, (k1_off294 v1317) a + S1x1024.size a ≤ S32768x1024.size a := fun v1317 k1_hw147 => k1_hw147

def k1_off295 (i : grid1.Coords) : Fin 1 → Nat :=
  let arg0 : BitVec 32 := BitVec.ofNat 32 (i 0).val
  let c256_i32 : BitVec 32 := 256#32
  let v0 : BitVec 32 := Scalar.muli arg0 c256_i32
  let c147_i32 : BitVec 32 := 147#32
  let v1324 : BitVec 32 := Scalar.addi v0 c147_i32
  let v1325 : Index := Scalar.indexCast v1324
  ![v1325.toNat]
def k1_off296 (v1326 : BitVec 32) : Fin 2 → Nat :=
  let c0_i32_591 : BitVec 32 := 0#32
  ![v1326.toNat, 0]

def k1_chk148 (v1326 : BitVec 32) : Prop :=
  (∀ a, (k1_off296 v1326) a + S1x1024.size a ≤ S32768x1024.size a)
instance k1_chk148.dec : ∀ (v1326 : BitVec 32), Decidable (k1_chk148 v1326) := fun v1326 => decidable_of_iff' _ (Iff.of_eq (k1_chk148.eq_1 v1326))
theorem k1_off296_inb : ∀ (v1326 : BitVec 32) (k1_hw148 : k1_chk148 v1326), ∀ a, (k1_off296 v1326) a + S1x1024.size a ≤ S32768x1024.size a := fun v1326 k1_hw148 => k1_hw148

def k1_off297 (i : grid1.Coords) : Fin 1 → Nat :=
  let arg0 : BitVec 32 := BitVec.ofNat 32 (i 0).val
  let c256_i32 : BitVec 32 := 256#32
  let v0 : BitVec 32 := Scalar.muli arg0 c256_i32
  let c148_i32 : BitVec 32 := 148#32
  let v1333 : BitVec 32 := Scalar.addi v0 c148_i32
  let v1334 : Index := Scalar.indexCast v1333
  ![v1334.toNat]
def k1_off298 (v1335 : BitVec 32) : Fin 2 → Nat :=
  let c0_i32_595 : BitVec 32 := 0#32
  ![v1335.toNat, 0]

def k1_chk149 (v1335 : BitVec 32) : Prop :=
  (∀ a, (k1_off298 v1335) a + S1x1024.size a ≤ S32768x1024.size a)
instance k1_chk149.dec : ∀ (v1335 : BitVec 32), Decidable (k1_chk149 v1335) := fun v1335 => decidable_of_iff' _ (Iff.of_eq (k1_chk149.eq_1 v1335))
theorem k1_off298_inb : ∀ (v1335 : BitVec 32) (k1_hw149 : k1_chk149 v1335), ∀ a, (k1_off298 v1335) a + S1x1024.size a ≤ S32768x1024.size a := fun v1335 k1_hw149 => k1_hw149

def k1_off299 (i : grid1.Coords) : Fin 1 → Nat :=
  let arg0 : BitVec 32 := BitVec.ofNat 32 (i 0).val
  let c256_i32 : BitVec 32 := 256#32
  let v0 : BitVec 32 := Scalar.muli arg0 c256_i32
  let c149_i32 : BitVec 32 := 149#32
  let v1342 : BitVec 32 := Scalar.addi v0 c149_i32
  let v1343 : Index := Scalar.indexCast v1342
  ![v1343.toNat]
def k1_off300 (v1344 : BitVec 32) : Fin 2 → Nat :=
  let c0_i32_599 : BitVec 32 := 0#32
  ![v1344.toNat, 0]

def k1_chk150 (v1344 : BitVec 32) : Prop :=
  (∀ a, (k1_off300 v1344) a + S1x1024.size a ≤ S32768x1024.size a)
instance k1_chk150.dec : ∀ (v1344 : BitVec 32), Decidable (k1_chk150 v1344) := fun v1344 => decidable_of_iff' _ (Iff.of_eq (k1_chk150.eq_1 v1344))
theorem k1_off300_inb : ∀ (v1344 : BitVec 32) (k1_hw150 : k1_chk150 v1344), ∀ a, (k1_off300 v1344) a + S1x1024.size a ≤ S32768x1024.size a := fun v1344 k1_hw150 => k1_hw150

def k1_off301 (i : grid1.Coords) : Fin 1 → Nat :=
  let arg0 : BitVec 32 := BitVec.ofNat 32 (i 0).val
  let c256_i32 : BitVec 32 := 256#32
  let v0 : BitVec 32 := Scalar.muli arg0 c256_i32
  let c150_i32 : BitVec 32 := 150#32
  let v1351 : BitVec 32 := Scalar.addi v0 c150_i32
  let v1352 : Index := Scalar.indexCast v1351
  ![v1352.toNat]
def k1_off302 (v1353 : BitVec 32) : Fin 2 → Nat :=
  let c0_i32_603 : BitVec 32 := 0#32
  ![v1353.toNat, 0]

def k1_chk151 (v1353 : BitVec 32) : Prop :=
  (∀ a, (k1_off302 v1353) a + S1x1024.size a ≤ S32768x1024.size a)
instance k1_chk151.dec : ∀ (v1353 : BitVec 32), Decidable (k1_chk151 v1353) := fun v1353 => decidable_of_iff' _ (Iff.of_eq (k1_chk151.eq_1 v1353))
theorem k1_off302_inb : ∀ (v1353 : BitVec 32) (k1_hw151 : k1_chk151 v1353), ∀ a, (k1_off302 v1353) a + S1x1024.size a ≤ S32768x1024.size a := fun v1353 k1_hw151 => k1_hw151

def k1_off303 (i : grid1.Coords) : Fin 1 → Nat :=
  let arg0 : BitVec 32 := BitVec.ofNat 32 (i 0).val
  let c256_i32 : BitVec 32 := 256#32
  let v0 : BitVec 32 := Scalar.muli arg0 c256_i32
  let c151_i32 : BitVec 32 := 151#32
  let v1360 : BitVec 32 := Scalar.addi v0 c151_i32
  let v1361 : Index := Scalar.indexCast v1360
  ![v1361.toNat]
def k1_off304 (v1362 : BitVec 32) : Fin 2 → Nat :=
  let c0_i32_607 : BitVec 32 := 0#32
  ![v1362.toNat, 0]

def k1_chk152 (v1362 : BitVec 32) : Prop :=
  (∀ a, (k1_off304 v1362) a + S1x1024.size a ≤ S32768x1024.size a)
instance k1_chk152.dec : ∀ (v1362 : BitVec 32), Decidable (k1_chk152 v1362) := fun v1362 => decidable_of_iff' _ (Iff.of_eq (k1_chk152.eq_1 v1362))
theorem k1_off304_inb : ∀ (v1362 : BitVec 32) (k1_hw152 : k1_chk152 v1362), ∀ a, (k1_off304 v1362) a + S1x1024.size a ≤ S32768x1024.size a := fun v1362 k1_hw152 => k1_hw152

def k1_off305 (i : grid1.Coords) : Fin 1 → Nat :=
  let arg0 : BitVec 32 := BitVec.ofNat 32 (i 0).val
  let c256_i32 : BitVec 32 := 256#32
  let v0 : BitVec 32 := Scalar.muli arg0 c256_i32
  let c152_i32 : BitVec 32 := 152#32
  let v1369 : BitVec 32 := Scalar.addi v0 c152_i32
  let v1370 : Index := Scalar.indexCast v1369
  ![v1370.toNat]
def k1_off306 (v1371 : BitVec 32) : Fin 2 → Nat :=
  let c0_i32_611 : BitVec 32 := 0#32
  ![v1371.toNat, 0]

def k1_chk153 (v1371 : BitVec 32) : Prop :=
  (∀ a, (k1_off306 v1371) a + S1x1024.size a ≤ S32768x1024.size a)
instance k1_chk153.dec : ∀ (v1371 : BitVec 32), Decidable (k1_chk153 v1371) := fun v1371 => decidable_of_iff' _ (Iff.of_eq (k1_chk153.eq_1 v1371))
theorem k1_off306_inb : ∀ (v1371 : BitVec 32) (k1_hw153 : k1_chk153 v1371), ∀ a, (k1_off306 v1371) a + S1x1024.size a ≤ S32768x1024.size a := fun v1371 k1_hw153 => k1_hw153

def k1_off307 (i : grid1.Coords) : Fin 1 → Nat :=
  let arg0 : BitVec 32 := BitVec.ofNat 32 (i 0).val
  let c256_i32 : BitVec 32 := 256#32
  let v0 : BitVec 32 := Scalar.muli arg0 c256_i32
  let c153_i32 : BitVec 32 := 153#32
  let v1378 : BitVec 32 := Scalar.addi v0 c153_i32
  let v1379 : Index := Scalar.indexCast v1378
  ![v1379.toNat]
def k1_off308 (v1380 : BitVec 32) : Fin 2 → Nat :=
  let c0_i32_615 : BitVec 32 := 0#32
  ![v1380.toNat, 0]

def k1_chk154 (v1380 : BitVec 32) : Prop :=
  (∀ a, (k1_off308 v1380) a + S1x1024.size a ≤ S32768x1024.size a)
instance k1_chk154.dec : ∀ (v1380 : BitVec 32), Decidable (k1_chk154 v1380) := fun v1380 => decidable_of_iff' _ (Iff.of_eq (k1_chk154.eq_1 v1380))
theorem k1_off308_inb : ∀ (v1380 : BitVec 32) (k1_hw154 : k1_chk154 v1380), ∀ a, (k1_off308 v1380) a + S1x1024.size a ≤ S32768x1024.size a := fun v1380 k1_hw154 => k1_hw154

def k1_off309 (i : grid1.Coords) : Fin 1 → Nat :=
  let arg0 : BitVec 32 := BitVec.ofNat 32 (i 0).val
  let c256_i32 : BitVec 32 := 256#32
  let v0 : BitVec 32 := Scalar.muli arg0 c256_i32
  let c154_i32 : BitVec 32 := 154#32
  let v1387 : BitVec 32 := Scalar.addi v0 c154_i32
  let v1388 : Index := Scalar.indexCast v1387
  ![v1388.toNat]
def k1_off310 (v1389 : BitVec 32) : Fin 2 → Nat :=
  let c0_i32_619 : BitVec 32 := 0#32
  ![v1389.toNat, 0]

def k1_chk155 (v1389 : BitVec 32) : Prop :=
  (∀ a, (k1_off310 v1389) a + S1x1024.size a ≤ S32768x1024.size a)
instance k1_chk155.dec : ∀ (v1389 : BitVec 32), Decidable (k1_chk155 v1389) := fun v1389 => decidable_of_iff' _ (Iff.of_eq (k1_chk155.eq_1 v1389))
theorem k1_off310_inb : ∀ (v1389 : BitVec 32) (k1_hw155 : k1_chk155 v1389), ∀ a, (k1_off310 v1389) a + S1x1024.size a ≤ S32768x1024.size a := fun v1389 k1_hw155 => k1_hw155

def k1_off311 (i : grid1.Coords) : Fin 1 → Nat :=
  let arg0 : BitVec 32 := BitVec.ofNat 32 (i 0).val
  let c256_i32 : BitVec 32 := 256#32
  let v0 : BitVec 32 := Scalar.muli arg0 c256_i32
  let c155_i32 : BitVec 32 := 155#32
  let v1396 : BitVec 32 := Scalar.addi v0 c155_i32
  let v1397 : Index := Scalar.indexCast v1396
  ![v1397.toNat]
def k1_off312 (v1398 : BitVec 32) : Fin 2 → Nat :=
  let c0_i32_623 : BitVec 32 := 0#32
  ![v1398.toNat, 0]

def k1_chk156 (v1398 : BitVec 32) : Prop :=
  (∀ a, (k1_off312 v1398) a + S1x1024.size a ≤ S32768x1024.size a)
instance k1_chk156.dec : ∀ (v1398 : BitVec 32), Decidable (k1_chk156 v1398) := fun v1398 => decidable_of_iff' _ (Iff.of_eq (k1_chk156.eq_1 v1398))
theorem k1_off312_inb : ∀ (v1398 : BitVec 32) (k1_hw156 : k1_chk156 v1398), ∀ a, (k1_off312 v1398) a + S1x1024.size a ≤ S32768x1024.size a := fun v1398 k1_hw156 => k1_hw156

def k1_off313 (i : grid1.Coords) : Fin 1 → Nat :=
  let arg0 : BitVec 32 := BitVec.ofNat 32 (i 0).val
  let c256_i32 : BitVec 32 := 256#32
  let v0 : BitVec 32 := Scalar.muli arg0 c256_i32
  let c156_i32 : BitVec 32 := 156#32
  let v1405 : BitVec 32 := Scalar.addi v0 c156_i32
  let v1406 : Index := Scalar.indexCast v1405
  ![v1406.toNat]
def k1_off314 (v1407 : BitVec 32) : Fin 2 → Nat :=
  let c0_i32_627 : BitVec 32 := 0#32
  ![v1407.toNat, 0]

def k1_chk157 (v1407 : BitVec 32) : Prop :=
  (∀ a, (k1_off314 v1407) a + S1x1024.size a ≤ S32768x1024.size a)
instance k1_chk157.dec : ∀ (v1407 : BitVec 32), Decidable (k1_chk157 v1407) := fun v1407 => decidable_of_iff' _ (Iff.of_eq (k1_chk157.eq_1 v1407))
theorem k1_off314_inb : ∀ (v1407 : BitVec 32) (k1_hw157 : k1_chk157 v1407), ∀ a, (k1_off314 v1407) a + S1x1024.size a ≤ S32768x1024.size a := fun v1407 k1_hw157 => k1_hw157

def k1_off315 (i : grid1.Coords) : Fin 1 → Nat :=
  let arg0 : BitVec 32 := BitVec.ofNat 32 (i 0).val
  let c256_i32 : BitVec 32 := 256#32
  let v0 : BitVec 32 := Scalar.muli arg0 c256_i32
  let c157_i32 : BitVec 32 := 157#32
  let v1414 : BitVec 32 := Scalar.addi v0 c157_i32
  let v1415 : Index := Scalar.indexCast v1414
  ![v1415.toNat]
def k1_off316 (v1416 : BitVec 32) : Fin 2 → Nat :=
  let c0_i32_631 : BitVec 32 := 0#32
  ![v1416.toNat, 0]

def k1_chk158 (v1416 : BitVec 32) : Prop :=
  (∀ a, (k1_off316 v1416) a + S1x1024.size a ≤ S32768x1024.size a)
instance k1_chk158.dec : ∀ (v1416 : BitVec 32), Decidable (k1_chk158 v1416) := fun v1416 => decidable_of_iff' _ (Iff.of_eq (k1_chk158.eq_1 v1416))
theorem k1_off316_inb : ∀ (v1416 : BitVec 32) (k1_hw158 : k1_chk158 v1416), ∀ a, (k1_off316 v1416) a + S1x1024.size a ≤ S32768x1024.size a := fun v1416 k1_hw158 => k1_hw158

def k1_off317 (i : grid1.Coords) : Fin 1 → Nat :=
  let arg0 : BitVec 32 := BitVec.ofNat 32 (i 0).val
  let c256_i32 : BitVec 32 := 256#32
  let v0 : BitVec 32 := Scalar.muli arg0 c256_i32
  let c158_i32 : BitVec 32 := 158#32
  let v1423 : BitVec 32 := Scalar.addi v0 c158_i32
  let v1424 : Index := Scalar.indexCast v1423
  ![v1424.toNat]
def k1_off318 (v1425 : BitVec 32) : Fin 2 → Nat :=
  let c0_i32_635 : BitVec 32 := 0#32
  ![v1425.toNat, 0]

def k1_chk159 (v1425 : BitVec 32) : Prop :=
  (∀ a, (k1_off318 v1425) a + S1x1024.size a ≤ S32768x1024.size a)
instance k1_chk159.dec : ∀ (v1425 : BitVec 32), Decidable (k1_chk159 v1425) := fun v1425 => decidable_of_iff' _ (Iff.of_eq (k1_chk159.eq_1 v1425))
theorem k1_off318_inb : ∀ (v1425 : BitVec 32) (k1_hw159 : k1_chk159 v1425), ∀ a, (k1_off318 v1425) a + S1x1024.size a ≤ S32768x1024.size a := fun v1425 k1_hw159 => k1_hw159

def k1_off319 (i : grid1.Coords) : Fin 1 → Nat :=
  let arg0 : BitVec 32 := BitVec.ofNat 32 (i 0).val
  let c256_i32 : BitVec 32 := 256#32
  let v0 : BitVec 32 := Scalar.muli arg0 c256_i32
  let c159_i32 : BitVec 32 := 159#32
  let v1432 : BitVec 32 := Scalar.addi v0 c159_i32
  let v1433 : Index := Scalar.indexCast v1432
  ![v1433.toNat]
def k1_off320 (v1434 : BitVec 32) : Fin 2 → Nat :=
  let c0_i32_639 : BitVec 32 := 0#32
  ![v1434.toNat, 0]

def k1_chk160 (v1434 : BitVec 32) : Prop :=
  (∀ a, (k1_off320 v1434) a + S1x1024.size a ≤ S32768x1024.size a)
instance k1_chk160.dec : ∀ (v1434 : BitVec 32), Decidable (k1_chk160 v1434) := fun v1434 => decidable_of_iff' _ (Iff.of_eq (k1_chk160.eq_1 v1434))
theorem k1_off320_inb : ∀ (v1434 : BitVec 32) (k1_hw160 : k1_chk160 v1434), ∀ a, (k1_off320 v1434) a + S1x1024.size a ≤ S32768x1024.size a := fun v1434 k1_hw160 => k1_hw160

def k1_off321 (i : grid1.Coords) : Fin 1 → Nat :=
  let arg0 : BitVec 32 := BitVec.ofNat 32 (i 0).val
  let c256_i32 : BitVec 32 := 256#32
  let v0 : BitVec 32 := Scalar.muli arg0 c256_i32
  let c160_i32 : BitVec 32 := 160#32
  let v1441 : BitVec 32 := Scalar.addi v0 c160_i32
  let v1442 : Index := Scalar.indexCast v1441
  ![v1442.toNat]
def k1_off322 (v1443 : BitVec 32) : Fin 2 → Nat :=
  let c0_i32_643 : BitVec 32 := 0#32
  ![v1443.toNat, 0]

def k1_chk161 (v1443 : BitVec 32) : Prop :=
  (∀ a, (k1_off322 v1443) a + S1x1024.size a ≤ S32768x1024.size a)
instance k1_chk161.dec : ∀ (v1443 : BitVec 32), Decidable (k1_chk161 v1443) := fun v1443 => decidable_of_iff' _ (Iff.of_eq (k1_chk161.eq_1 v1443))
theorem k1_off322_inb : ∀ (v1443 : BitVec 32) (k1_hw161 : k1_chk161 v1443), ∀ a, (k1_off322 v1443) a + S1x1024.size a ≤ S32768x1024.size a := fun v1443 k1_hw161 => k1_hw161

def k1_off323 (i : grid1.Coords) : Fin 1 → Nat :=
  let arg0 : BitVec 32 := BitVec.ofNat 32 (i 0).val
  let c256_i32 : BitVec 32 := 256#32
  let v0 : BitVec 32 := Scalar.muli arg0 c256_i32
  let c161_i32 : BitVec 32 := 161#32
  let v1450 : BitVec 32 := Scalar.addi v0 c161_i32
  let v1451 : Index := Scalar.indexCast v1450
  ![v1451.toNat]
def k1_off324 (v1452 : BitVec 32) : Fin 2 → Nat :=
  let c0_i32_647 : BitVec 32 := 0#32
  ![v1452.toNat, 0]

def k1_chk162 (v1452 : BitVec 32) : Prop :=
  (∀ a, (k1_off324 v1452) a + S1x1024.size a ≤ S32768x1024.size a)
instance k1_chk162.dec : ∀ (v1452 : BitVec 32), Decidable (k1_chk162 v1452) := fun v1452 => decidable_of_iff' _ (Iff.of_eq (k1_chk162.eq_1 v1452))
theorem k1_off324_inb : ∀ (v1452 : BitVec 32) (k1_hw162 : k1_chk162 v1452), ∀ a, (k1_off324 v1452) a + S1x1024.size a ≤ S32768x1024.size a := fun v1452 k1_hw162 => k1_hw162

def k1_off325 (i : grid1.Coords) : Fin 1 → Nat :=
  let arg0 : BitVec 32 := BitVec.ofNat 32 (i 0).val
  let c256_i32 : BitVec 32 := 256#32
  let v0 : BitVec 32 := Scalar.muli arg0 c256_i32
  let c162_i32 : BitVec 32 := 162#32
  let v1459 : BitVec 32 := Scalar.addi v0 c162_i32
  let v1460 : Index := Scalar.indexCast v1459
  ![v1460.toNat]
def k1_off326 (v1461 : BitVec 32) : Fin 2 → Nat :=
  let c0_i32_651 : BitVec 32 := 0#32
  ![v1461.toNat, 0]

def k1_chk163 (v1461 : BitVec 32) : Prop :=
  (∀ a, (k1_off326 v1461) a + S1x1024.size a ≤ S32768x1024.size a)
instance k1_chk163.dec : ∀ (v1461 : BitVec 32), Decidable (k1_chk163 v1461) := fun v1461 => decidable_of_iff' _ (Iff.of_eq (k1_chk163.eq_1 v1461))
theorem k1_off326_inb : ∀ (v1461 : BitVec 32) (k1_hw163 : k1_chk163 v1461), ∀ a, (k1_off326 v1461) a + S1x1024.size a ≤ S32768x1024.size a := fun v1461 k1_hw163 => k1_hw163

def k1_off327 (i : grid1.Coords) : Fin 1 → Nat :=
  let arg0 : BitVec 32 := BitVec.ofNat 32 (i 0).val
  let c256_i32 : BitVec 32 := 256#32
  let v0 : BitVec 32 := Scalar.muli arg0 c256_i32
  let c163_i32 : BitVec 32 := 163#32
  let v1468 : BitVec 32 := Scalar.addi v0 c163_i32
  let v1469 : Index := Scalar.indexCast v1468
  ![v1469.toNat]
def k1_off328 (v1470 : BitVec 32) : Fin 2 → Nat :=
  let c0_i32_655 : BitVec 32 := 0#32
  ![v1470.toNat, 0]

def k1_chk164 (v1470 : BitVec 32) : Prop :=
  (∀ a, (k1_off328 v1470) a + S1x1024.size a ≤ S32768x1024.size a)
instance k1_chk164.dec : ∀ (v1470 : BitVec 32), Decidable (k1_chk164 v1470) := fun v1470 => decidable_of_iff' _ (Iff.of_eq (k1_chk164.eq_1 v1470))
theorem k1_off328_inb : ∀ (v1470 : BitVec 32) (k1_hw164 : k1_chk164 v1470), ∀ a, (k1_off328 v1470) a + S1x1024.size a ≤ S32768x1024.size a := fun v1470 k1_hw164 => k1_hw164

def k1_off329 (i : grid1.Coords) : Fin 1 → Nat :=
  let arg0 : BitVec 32 := BitVec.ofNat 32 (i 0).val
  let c256_i32 : BitVec 32 := 256#32
  let v0 : BitVec 32 := Scalar.muli arg0 c256_i32
  let c164_i32 : BitVec 32 := 164#32
  let v1477 : BitVec 32 := Scalar.addi v0 c164_i32
  let v1478 : Index := Scalar.indexCast v1477
  ![v1478.toNat]
def k1_off330 (v1479 : BitVec 32) : Fin 2 → Nat :=
  let c0_i32_659 : BitVec 32 := 0#32
  ![v1479.toNat, 0]

def k1_chk165 (v1479 : BitVec 32) : Prop :=
  (∀ a, (k1_off330 v1479) a + S1x1024.size a ≤ S32768x1024.size a)
instance k1_chk165.dec : ∀ (v1479 : BitVec 32), Decidable (k1_chk165 v1479) := fun v1479 => decidable_of_iff' _ (Iff.of_eq (k1_chk165.eq_1 v1479))
theorem k1_off330_inb : ∀ (v1479 : BitVec 32) (k1_hw165 : k1_chk165 v1479), ∀ a, (k1_off330 v1479) a + S1x1024.size a ≤ S32768x1024.size a := fun v1479 k1_hw165 => k1_hw165

def k1_off331 (i : grid1.Coords) : Fin 1 → Nat :=
  let arg0 : BitVec 32 := BitVec.ofNat 32 (i 0).val
  let c256_i32 : BitVec 32 := 256#32
  let v0 : BitVec 32 := Scalar.muli arg0 c256_i32
  let c165_i32 : BitVec 32 := 165#32
  let v1486 : BitVec 32 := Scalar.addi v0 c165_i32
  let v1487 : Index := Scalar.indexCast v1486
  ![v1487.toNat]
def k1_off332 (v1488 : BitVec 32) : Fin 2 → Nat :=
  let c0_i32_663 : BitVec 32 := 0#32
  ![v1488.toNat, 0]

def k1_chk166 (v1488 : BitVec 32) : Prop :=
  (∀ a, (k1_off332 v1488) a + S1x1024.size a ≤ S32768x1024.size a)
instance k1_chk166.dec : ∀ (v1488 : BitVec 32), Decidable (k1_chk166 v1488) := fun v1488 => decidable_of_iff' _ (Iff.of_eq (k1_chk166.eq_1 v1488))
theorem k1_off332_inb : ∀ (v1488 : BitVec 32) (k1_hw166 : k1_chk166 v1488), ∀ a, (k1_off332 v1488) a + S1x1024.size a ≤ S32768x1024.size a := fun v1488 k1_hw166 => k1_hw166

def k1_off333 (i : grid1.Coords) : Fin 1 → Nat :=
  let arg0 : BitVec 32 := BitVec.ofNat 32 (i 0).val
  let c256_i32 : BitVec 32 := 256#32
  let v0 : BitVec 32 := Scalar.muli arg0 c256_i32
  let c166_i32 : BitVec 32 := 166#32
  let v1495 : BitVec 32 := Scalar.addi v0 c166_i32
  let v1496 : Index := Scalar.indexCast v1495
  ![v1496.toNat]
def k1_off334 (v1497 : BitVec 32) : Fin 2 → Nat :=
  let c0_i32_667 : BitVec 32 := 0#32
  ![v1497.toNat, 0]

def k1_chk167 (v1497 : BitVec 32) : Prop :=
  (∀ a, (k1_off334 v1497) a + S1x1024.size a ≤ S32768x1024.size a)
instance k1_chk167.dec : ∀ (v1497 : BitVec 32), Decidable (k1_chk167 v1497) := fun v1497 => decidable_of_iff' _ (Iff.of_eq (k1_chk167.eq_1 v1497))
theorem k1_off334_inb : ∀ (v1497 : BitVec 32) (k1_hw167 : k1_chk167 v1497), ∀ a, (k1_off334 v1497) a + S1x1024.size a ≤ S32768x1024.size a := fun v1497 k1_hw167 => k1_hw167

def k1_off335 (i : grid1.Coords) : Fin 1 → Nat :=
  let arg0 : BitVec 32 := BitVec.ofNat 32 (i 0).val
  let c256_i32 : BitVec 32 := 256#32
  let v0 : BitVec 32 := Scalar.muli arg0 c256_i32
  let c167_i32 : BitVec 32 := 167#32
  let v1504 : BitVec 32 := Scalar.addi v0 c167_i32
  let v1505 : Index := Scalar.indexCast v1504
  ![v1505.toNat]
def k1_off336 (v1506 : BitVec 32) : Fin 2 → Nat :=
  let c0_i32_671 : BitVec 32 := 0#32
  ![v1506.toNat, 0]

def k1_chk168 (v1506 : BitVec 32) : Prop :=
  (∀ a, (k1_off336 v1506) a + S1x1024.size a ≤ S32768x1024.size a)
instance k1_chk168.dec : ∀ (v1506 : BitVec 32), Decidable (k1_chk168 v1506) := fun v1506 => decidable_of_iff' _ (Iff.of_eq (k1_chk168.eq_1 v1506))
theorem k1_off336_inb : ∀ (v1506 : BitVec 32) (k1_hw168 : k1_chk168 v1506), ∀ a, (k1_off336 v1506) a + S1x1024.size a ≤ S32768x1024.size a := fun v1506 k1_hw168 => k1_hw168

def k1_off337 (i : grid1.Coords) : Fin 1 → Nat :=
  let arg0 : BitVec 32 := BitVec.ofNat 32 (i 0).val
  let c256_i32 : BitVec 32 := 256#32
  let v0 : BitVec 32 := Scalar.muli arg0 c256_i32
  let c168_i32 : BitVec 32 := 168#32
  let v1513 : BitVec 32 := Scalar.addi v0 c168_i32
  let v1514 : Index := Scalar.indexCast v1513
  ![v1514.toNat]
def k1_off338 (v1515 : BitVec 32) : Fin 2 → Nat :=
  let c0_i32_675 : BitVec 32 := 0#32
  ![v1515.toNat, 0]

def k1_chk169 (v1515 : BitVec 32) : Prop :=
  (∀ a, (k1_off338 v1515) a + S1x1024.size a ≤ S32768x1024.size a)
instance k1_chk169.dec : ∀ (v1515 : BitVec 32), Decidable (k1_chk169 v1515) := fun v1515 => decidable_of_iff' _ (Iff.of_eq (k1_chk169.eq_1 v1515))
theorem k1_off338_inb : ∀ (v1515 : BitVec 32) (k1_hw169 : k1_chk169 v1515), ∀ a, (k1_off338 v1515) a + S1x1024.size a ≤ S32768x1024.size a := fun v1515 k1_hw169 => k1_hw169

def k1_off339 (i : grid1.Coords) : Fin 1 → Nat :=
  let arg0 : BitVec 32 := BitVec.ofNat 32 (i 0).val
  let c256_i32 : BitVec 32 := 256#32
  let v0 : BitVec 32 := Scalar.muli arg0 c256_i32
  let c169_i32 : BitVec 32 := 169#32
  let v1522 : BitVec 32 := Scalar.addi v0 c169_i32
  let v1523 : Index := Scalar.indexCast v1522
  ![v1523.toNat]
def k1_off340 (v1524 : BitVec 32) : Fin 2 → Nat :=
  let c0_i32_679 : BitVec 32 := 0#32
  ![v1524.toNat, 0]

def k1_chk170 (v1524 : BitVec 32) : Prop :=
  (∀ a, (k1_off340 v1524) a + S1x1024.size a ≤ S32768x1024.size a)
instance k1_chk170.dec : ∀ (v1524 : BitVec 32), Decidable (k1_chk170 v1524) := fun v1524 => decidable_of_iff' _ (Iff.of_eq (k1_chk170.eq_1 v1524))
theorem k1_off340_inb : ∀ (v1524 : BitVec 32) (k1_hw170 : k1_chk170 v1524), ∀ a, (k1_off340 v1524) a + S1x1024.size a ≤ S32768x1024.size a := fun v1524 k1_hw170 => k1_hw170

def k1_off341 (i : grid1.Coords) : Fin 1 → Nat :=
  let arg0 : BitVec 32 := BitVec.ofNat 32 (i 0).val
  let c256_i32 : BitVec 32 := 256#32
  let v0 : BitVec 32 := Scalar.muli arg0 c256_i32
  let c170_i32 : BitVec 32 := 170#32
  let v1531 : BitVec 32 := Scalar.addi v0 c170_i32
  let v1532 : Index := Scalar.indexCast v1531
  ![v1532.toNat]
def k1_off342 (v1533 : BitVec 32) : Fin 2 → Nat :=
  let c0_i32_683 : BitVec 32 := 0#32
  ![v1533.toNat, 0]

def k1_chk171 (v1533 : BitVec 32) : Prop :=
  (∀ a, (k1_off342 v1533) a + S1x1024.size a ≤ S32768x1024.size a)
instance k1_chk171.dec : ∀ (v1533 : BitVec 32), Decidable (k1_chk171 v1533) := fun v1533 => decidable_of_iff' _ (Iff.of_eq (k1_chk171.eq_1 v1533))
theorem k1_off342_inb : ∀ (v1533 : BitVec 32) (k1_hw171 : k1_chk171 v1533), ∀ a, (k1_off342 v1533) a + S1x1024.size a ≤ S32768x1024.size a := fun v1533 k1_hw171 => k1_hw171

def k1_off343 (i : grid1.Coords) : Fin 1 → Nat :=
  let arg0 : BitVec 32 := BitVec.ofNat 32 (i 0).val
  let c256_i32 : BitVec 32 := 256#32
  let v0 : BitVec 32 := Scalar.muli arg0 c256_i32
  let c171_i32 : BitVec 32 := 171#32
  let v1540 : BitVec 32 := Scalar.addi v0 c171_i32
  let v1541 : Index := Scalar.indexCast v1540
  ![v1541.toNat]
def k1_off344 (v1542 : BitVec 32) : Fin 2 → Nat :=
  let c0_i32_687 : BitVec 32 := 0#32
  ![v1542.toNat, 0]

def k1_chk172 (v1542 : BitVec 32) : Prop :=
  (∀ a, (k1_off344 v1542) a + S1x1024.size a ≤ S32768x1024.size a)
instance k1_chk172.dec : ∀ (v1542 : BitVec 32), Decidable (k1_chk172 v1542) := fun v1542 => decidable_of_iff' _ (Iff.of_eq (k1_chk172.eq_1 v1542))
theorem k1_off344_inb : ∀ (v1542 : BitVec 32) (k1_hw172 : k1_chk172 v1542), ∀ a, (k1_off344 v1542) a + S1x1024.size a ≤ S32768x1024.size a := fun v1542 k1_hw172 => k1_hw172

def k1_off345 (i : grid1.Coords) : Fin 1 → Nat :=
  let arg0 : BitVec 32 := BitVec.ofNat 32 (i 0).val
  let c256_i32 : BitVec 32 := 256#32
  let v0 : BitVec 32 := Scalar.muli arg0 c256_i32
  let c172_i32 : BitVec 32 := 172#32
  let v1549 : BitVec 32 := Scalar.addi v0 c172_i32
  let v1550 : Index := Scalar.indexCast v1549
  ![v1550.toNat]
def k1_off346 (v1551 : BitVec 32) : Fin 2 → Nat :=
  let c0_i32_691 : BitVec 32 := 0#32
  ![v1551.toNat, 0]

def k1_chk173 (v1551 : BitVec 32) : Prop :=
  (∀ a, (k1_off346 v1551) a + S1x1024.size a ≤ S32768x1024.size a)
instance k1_chk173.dec : ∀ (v1551 : BitVec 32), Decidable (k1_chk173 v1551) := fun v1551 => decidable_of_iff' _ (Iff.of_eq (k1_chk173.eq_1 v1551))
theorem k1_off346_inb : ∀ (v1551 : BitVec 32) (k1_hw173 : k1_chk173 v1551), ∀ a, (k1_off346 v1551) a + S1x1024.size a ≤ S32768x1024.size a := fun v1551 k1_hw173 => k1_hw173

def k1_off347 (i : grid1.Coords) : Fin 1 → Nat :=
  let arg0 : BitVec 32 := BitVec.ofNat 32 (i 0).val
  let c256_i32 : BitVec 32 := 256#32
  let v0 : BitVec 32 := Scalar.muli arg0 c256_i32
  let c173_i32 : BitVec 32 := 173#32
  let v1558 : BitVec 32 := Scalar.addi v0 c173_i32
  let v1559 : Index := Scalar.indexCast v1558
  ![v1559.toNat]
def k1_off348 (v1560 : BitVec 32) : Fin 2 → Nat :=
  let c0_i32_695 : BitVec 32 := 0#32
  ![v1560.toNat, 0]

def k1_chk174 (v1560 : BitVec 32) : Prop :=
  (∀ a, (k1_off348 v1560) a + S1x1024.size a ≤ S32768x1024.size a)
instance k1_chk174.dec : ∀ (v1560 : BitVec 32), Decidable (k1_chk174 v1560) := fun v1560 => decidable_of_iff' _ (Iff.of_eq (k1_chk174.eq_1 v1560))
theorem k1_off348_inb : ∀ (v1560 : BitVec 32) (k1_hw174 : k1_chk174 v1560), ∀ a, (k1_off348 v1560) a + S1x1024.size a ≤ S32768x1024.size a := fun v1560 k1_hw174 => k1_hw174

def k1_off349 (i : grid1.Coords) : Fin 1 → Nat :=
  let arg0 : BitVec 32 := BitVec.ofNat 32 (i 0).val
  let c256_i32 : BitVec 32 := 256#32
  let v0 : BitVec 32 := Scalar.muli arg0 c256_i32
  let c174_i32 : BitVec 32 := 174#32
  let v1567 : BitVec 32 := Scalar.addi v0 c174_i32
  let v1568 : Index := Scalar.indexCast v1567
  ![v1568.toNat]
def k1_off350 (v1569 : BitVec 32) : Fin 2 → Nat :=
  let c0_i32_699 : BitVec 32 := 0#32
  ![v1569.toNat, 0]

def k1_chk175 (v1569 : BitVec 32) : Prop :=
  (∀ a, (k1_off350 v1569) a + S1x1024.size a ≤ S32768x1024.size a)
instance k1_chk175.dec : ∀ (v1569 : BitVec 32), Decidable (k1_chk175 v1569) := fun v1569 => decidable_of_iff' _ (Iff.of_eq (k1_chk175.eq_1 v1569))
theorem k1_off350_inb : ∀ (v1569 : BitVec 32) (k1_hw175 : k1_chk175 v1569), ∀ a, (k1_off350 v1569) a + S1x1024.size a ≤ S32768x1024.size a := fun v1569 k1_hw175 => k1_hw175

def k1_off351 (i : grid1.Coords) : Fin 1 → Nat :=
  let arg0 : BitVec 32 := BitVec.ofNat 32 (i 0).val
  let c256_i32 : BitVec 32 := 256#32
  let v0 : BitVec 32 := Scalar.muli arg0 c256_i32
  let c175_i32 : BitVec 32 := 175#32
  let v1576 : BitVec 32 := Scalar.addi v0 c175_i32
  let v1577 : Index := Scalar.indexCast v1576
  ![v1577.toNat]
def k1_off352 (v1578 : BitVec 32) : Fin 2 → Nat :=
  let c0_i32_703 : BitVec 32 := 0#32
  ![v1578.toNat, 0]

def k1_chk176 (v1578 : BitVec 32) : Prop :=
  (∀ a, (k1_off352 v1578) a + S1x1024.size a ≤ S32768x1024.size a)
instance k1_chk176.dec : ∀ (v1578 : BitVec 32), Decidable (k1_chk176 v1578) := fun v1578 => decidable_of_iff' _ (Iff.of_eq (k1_chk176.eq_1 v1578))
theorem k1_off352_inb : ∀ (v1578 : BitVec 32) (k1_hw176 : k1_chk176 v1578), ∀ a, (k1_off352 v1578) a + S1x1024.size a ≤ S32768x1024.size a := fun v1578 k1_hw176 => k1_hw176

def k1_off353 (i : grid1.Coords) : Fin 1 → Nat :=
  let arg0 : BitVec 32 := BitVec.ofNat 32 (i 0).val
  let c256_i32 : BitVec 32 := 256#32
  let v0 : BitVec 32 := Scalar.muli arg0 c256_i32
  let c176_i32 : BitVec 32 := 176#32
  let v1585 : BitVec 32 := Scalar.addi v0 c176_i32
  let v1586 : Index := Scalar.indexCast v1585
  ![v1586.toNat]
def k1_off354 (v1587 : BitVec 32) : Fin 2 → Nat :=
  let c0_i32_707 : BitVec 32 := 0#32
  ![v1587.toNat, 0]

def k1_chk177 (v1587 : BitVec 32) : Prop :=
  (∀ a, (k1_off354 v1587) a + S1x1024.size a ≤ S32768x1024.size a)
instance k1_chk177.dec : ∀ (v1587 : BitVec 32), Decidable (k1_chk177 v1587) := fun v1587 => decidable_of_iff' _ (Iff.of_eq (k1_chk177.eq_1 v1587))
theorem k1_off354_inb : ∀ (v1587 : BitVec 32) (k1_hw177 : k1_chk177 v1587), ∀ a, (k1_off354 v1587) a + S1x1024.size a ≤ S32768x1024.size a := fun v1587 k1_hw177 => k1_hw177

def k1_off355 (i : grid1.Coords) : Fin 1 → Nat :=
  let arg0 : BitVec 32 := BitVec.ofNat 32 (i 0).val
  let c256_i32 : BitVec 32 := 256#32
  let v0 : BitVec 32 := Scalar.muli arg0 c256_i32
  let c177_i32 : BitVec 32 := 177#32
  let v1594 : BitVec 32 := Scalar.addi v0 c177_i32
  let v1595 : Index := Scalar.indexCast v1594
  ![v1595.toNat]
def k1_off356 (v1596 : BitVec 32) : Fin 2 → Nat :=
  let c0_i32_711 : BitVec 32 := 0#32
  ![v1596.toNat, 0]

def k1_chk178 (v1596 : BitVec 32) : Prop :=
  (∀ a, (k1_off356 v1596) a + S1x1024.size a ≤ S32768x1024.size a)
instance k1_chk178.dec : ∀ (v1596 : BitVec 32), Decidable (k1_chk178 v1596) := fun v1596 => decidable_of_iff' _ (Iff.of_eq (k1_chk178.eq_1 v1596))
theorem k1_off356_inb : ∀ (v1596 : BitVec 32) (k1_hw178 : k1_chk178 v1596), ∀ a, (k1_off356 v1596) a + S1x1024.size a ≤ S32768x1024.size a := fun v1596 k1_hw178 => k1_hw178

def k1_off357 (i : grid1.Coords) : Fin 1 → Nat :=
  let arg0 : BitVec 32 := BitVec.ofNat 32 (i 0).val
  let c256_i32 : BitVec 32 := 256#32
  let v0 : BitVec 32 := Scalar.muli arg0 c256_i32
  let c178_i32 : BitVec 32 := 178#32
  let v1603 : BitVec 32 := Scalar.addi v0 c178_i32
  let v1604 : Index := Scalar.indexCast v1603
  ![v1604.toNat]
def k1_off358 (v1605 : BitVec 32) : Fin 2 → Nat :=
  let c0_i32_715 : BitVec 32 := 0#32
  ![v1605.toNat, 0]

def k1_chk179 (v1605 : BitVec 32) : Prop :=
  (∀ a, (k1_off358 v1605) a + S1x1024.size a ≤ S32768x1024.size a)
instance k1_chk179.dec : ∀ (v1605 : BitVec 32), Decidable (k1_chk179 v1605) := fun v1605 => decidable_of_iff' _ (Iff.of_eq (k1_chk179.eq_1 v1605))
theorem k1_off358_inb : ∀ (v1605 : BitVec 32) (k1_hw179 : k1_chk179 v1605), ∀ a, (k1_off358 v1605) a + S1x1024.size a ≤ S32768x1024.size a := fun v1605 k1_hw179 => k1_hw179

def k1_off359 (i : grid1.Coords) : Fin 1 → Nat :=
  let arg0 : BitVec 32 := BitVec.ofNat 32 (i 0).val
  let c256_i32 : BitVec 32 := 256#32
  let v0 : BitVec 32 := Scalar.muli arg0 c256_i32
  let c179_i32 : BitVec 32 := 179#32
  let v1612 : BitVec 32 := Scalar.addi v0 c179_i32
  let v1613 : Index := Scalar.indexCast v1612
  ![v1613.toNat]
def k1_off360 (v1614 : BitVec 32) : Fin 2 → Nat :=
  let c0_i32_719 : BitVec 32 := 0#32
  ![v1614.toNat, 0]

def k1_chk180 (v1614 : BitVec 32) : Prop :=
  (∀ a, (k1_off360 v1614) a + S1x1024.size a ≤ S32768x1024.size a)
instance k1_chk180.dec : ∀ (v1614 : BitVec 32), Decidable (k1_chk180 v1614) := fun v1614 => decidable_of_iff' _ (Iff.of_eq (k1_chk180.eq_1 v1614))
theorem k1_off360_inb : ∀ (v1614 : BitVec 32) (k1_hw180 : k1_chk180 v1614), ∀ a, (k1_off360 v1614) a + S1x1024.size a ≤ S32768x1024.size a := fun v1614 k1_hw180 => k1_hw180

def k1_off361 (i : grid1.Coords) : Fin 1 → Nat :=
  let arg0 : BitVec 32 := BitVec.ofNat 32 (i 0).val
  let c256_i32 : BitVec 32 := 256#32
  let v0 : BitVec 32 := Scalar.muli arg0 c256_i32
  let c180_i32 : BitVec 32 := 180#32
  let v1621 : BitVec 32 := Scalar.addi v0 c180_i32
  let v1622 : Index := Scalar.indexCast v1621
  ![v1622.toNat]
def k1_off362 (v1623 : BitVec 32) : Fin 2 → Nat :=
  let c0_i32_723 : BitVec 32 := 0#32
  ![v1623.toNat, 0]

def k1_chk181 (v1623 : BitVec 32) : Prop :=
  (∀ a, (k1_off362 v1623) a + S1x1024.size a ≤ S32768x1024.size a)
instance k1_chk181.dec : ∀ (v1623 : BitVec 32), Decidable (k1_chk181 v1623) := fun v1623 => decidable_of_iff' _ (Iff.of_eq (k1_chk181.eq_1 v1623))
theorem k1_off362_inb : ∀ (v1623 : BitVec 32) (k1_hw181 : k1_chk181 v1623), ∀ a, (k1_off362 v1623) a + S1x1024.size a ≤ S32768x1024.size a := fun v1623 k1_hw181 => k1_hw181

def k1_off363 (i : grid1.Coords) : Fin 1 → Nat :=
  let arg0 : BitVec 32 := BitVec.ofNat 32 (i 0).val
  let c256_i32 : BitVec 32 := 256#32
  let v0 : BitVec 32 := Scalar.muli arg0 c256_i32
  let c181_i32 : BitVec 32 := 181#32
  let v1630 : BitVec 32 := Scalar.addi v0 c181_i32
  let v1631 : Index := Scalar.indexCast v1630
  ![v1631.toNat]
def k1_off364 (v1632 : BitVec 32) : Fin 2 → Nat :=
  let c0_i32_727 : BitVec 32 := 0#32
  ![v1632.toNat, 0]

def k1_chk182 (v1632 : BitVec 32) : Prop :=
  (∀ a, (k1_off364 v1632) a + S1x1024.size a ≤ S32768x1024.size a)
instance k1_chk182.dec : ∀ (v1632 : BitVec 32), Decidable (k1_chk182 v1632) := fun v1632 => decidable_of_iff' _ (Iff.of_eq (k1_chk182.eq_1 v1632))
theorem k1_off364_inb : ∀ (v1632 : BitVec 32) (k1_hw182 : k1_chk182 v1632), ∀ a, (k1_off364 v1632) a + S1x1024.size a ≤ S32768x1024.size a := fun v1632 k1_hw182 => k1_hw182

def k1_off365 (i : grid1.Coords) : Fin 1 → Nat :=
  let arg0 : BitVec 32 := BitVec.ofNat 32 (i 0).val
  let c256_i32 : BitVec 32 := 256#32
  let v0 : BitVec 32 := Scalar.muli arg0 c256_i32
  let c182_i32 : BitVec 32 := 182#32
  let v1639 : BitVec 32 := Scalar.addi v0 c182_i32
  let v1640 : Index := Scalar.indexCast v1639
  ![v1640.toNat]
def k1_off366 (v1641 : BitVec 32) : Fin 2 → Nat :=
  let c0_i32_731 : BitVec 32 := 0#32
  ![v1641.toNat, 0]

def k1_chk183 (v1641 : BitVec 32) : Prop :=
  (∀ a, (k1_off366 v1641) a + S1x1024.size a ≤ S32768x1024.size a)
instance k1_chk183.dec : ∀ (v1641 : BitVec 32), Decidable (k1_chk183 v1641) := fun v1641 => decidable_of_iff' _ (Iff.of_eq (k1_chk183.eq_1 v1641))
theorem k1_off366_inb : ∀ (v1641 : BitVec 32) (k1_hw183 : k1_chk183 v1641), ∀ a, (k1_off366 v1641) a + S1x1024.size a ≤ S32768x1024.size a := fun v1641 k1_hw183 => k1_hw183

def k1_off367 (i : grid1.Coords) : Fin 1 → Nat :=
  let arg0 : BitVec 32 := BitVec.ofNat 32 (i 0).val
  let c256_i32 : BitVec 32 := 256#32
  let v0 : BitVec 32 := Scalar.muli arg0 c256_i32
  let c183_i32 : BitVec 32 := 183#32
  let v1648 : BitVec 32 := Scalar.addi v0 c183_i32
  let v1649 : Index := Scalar.indexCast v1648
  ![v1649.toNat]
def k1_off368 (v1650 : BitVec 32) : Fin 2 → Nat :=
  let c0_i32_735 : BitVec 32 := 0#32
  ![v1650.toNat, 0]

def k1_chk184 (v1650 : BitVec 32) : Prop :=
  (∀ a, (k1_off368 v1650) a + S1x1024.size a ≤ S32768x1024.size a)
instance k1_chk184.dec : ∀ (v1650 : BitVec 32), Decidable (k1_chk184 v1650) := fun v1650 => decidable_of_iff' _ (Iff.of_eq (k1_chk184.eq_1 v1650))
theorem k1_off368_inb : ∀ (v1650 : BitVec 32) (k1_hw184 : k1_chk184 v1650), ∀ a, (k1_off368 v1650) a + S1x1024.size a ≤ S32768x1024.size a := fun v1650 k1_hw184 => k1_hw184

def k1_off369 (i : grid1.Coords) : Fin 1 → Nat :=
  let arg0 : BitVec 32 := BitVec.ofNat 32 (i 0).val
  let c256_i32 : BitVec 32 := 256#32
  let v0 : BitVec 32 := Scalar.muli arg0 c256_i32
  let c184_i32 : BitVec 32 := 184#32
  let v1657 : BitVec 32 := Scalar.addi v0 c184_i32
  let v1658 : Index := Scalar.indexCast v1657
  ![v1658.toNat]
def k1_off370 (v1659 : BitVec 32) : Fin 2 → Nat :=
  let c0_i32_739 : BitVec 32 := 0#32
  ![v1659.toNat, 0]

def k1_chk185 (v1659 : BitVec 32) : Prop :=
  (∀ a, (k1_off370 v1659) a + S1x1024.size a ≤ S32768x1024.size a)
instance k1_chk185.dec : ∀ (v1659 : BitVec 32), Decidable (k1_chk185 v1659) := fun v1659 => decidable_of_iff' _ (Iff.of_eq (k1_chk185.eq_1 v1659))
theorem k1_off370_inb : ∀ (v1659 : BitVec 32) (k1_hw185 : k1_chk185 v1659), ∀ a, (k1_off370 v1659) a + S1x1024.size a ≤ S32768x1024.size a := fun v1659 k1_hw185 => k1_hw185

def k1_off371 (i : grid1.Coords) : Fin 1 → Nat :=
  let arg0 : BitVec 32 := BitVec.ofNat 32 (i 0).val
  let c256_i32 : BitVec 32 := 256#32
  let v0 : BitVec 32 := Scalar.muli arg0 c256_i32
  let c185_i32 : BitVec 32 := 185#32
  let v1666 : BitVec 32 := Scalar.addi v0 c185_i32
  let v1667 : Index := Scalar.indexCast v1666
  ![v1667.toNat]
def k1_off372 (v1668 : BitVec 32) : Fin 2 → Nat :=
  let c0_i32_743 : BitVec 32 := 0#32
  ![v1668.toNat, 0]

def k1_chk186 (v1668 : BitVec 32) : Prop :=
  (∀ a, (k1_off372 v1668) a + S1x1024.size a ≤ S32768x1024.size a)
instance k1_chk186.dec : ∀ (v1668 : BitVec 32), Decidable (k1_chk186 v1668) := fun v1668 => decidable_of_iff' _ (Iff.of_eq (k1_chk186.eq_1 v1668))
theorem k1_off372_inb : ∀ (v1668 : BitVec 32) (k1_hw186 : k1_chk186 v1668), ∀ a, (k1_off372 v1668) a + S1x1024.size a ≤ S32768x1024.size a := fun v1668 k1_hw186 => k1_hw186

def k1_off373 (i : grid1.Coords) : Fin 1 → Nat :=
  let arg0 : BitVec 32 := BitVec.ofNat 32 (i 0).val
  let c256_i32 : BitVec 32 := 256#32
  let v0 : BitVec 32 := Scalar.muli arg0 c256_i32
  let c186_i32 : BitVec 32 := 186#32
  let v1675 : BitVec 32 := Scalar.addi v0 c186_i32
  let v1676 : Index := Scalar.indexCast v1675
  ![v1676.toNat]
def k1_off374 (v1677 : BitVec 32) : Fin 2 → Nat :=
  let c0_i32_747 : BitVec 32 := 0#32
  ![v1677.toNat, 0]

def k1_chk187 (v1677 : BitVec 32) : Prop :=
  (∀ a, (k1_off374 v1677) a + S1x1024.size a ≤ S32768x1024.size a)
instance k1_chk187.dec : ∀ (v1677 : BitVec 32), Decidable (k1_chk187 v1677) := fun v1677 => decidable_of_iff' _ (Iff.of_eq (k1_chk187.eq_1 v1677))
theorem k1_off374_inb : ∀ (v1677 : BitVec 32) (k1_hw187 : k1_chk187 v1677), ∀ a, (k1_off374 v1677) a + S1x1024.size a ≤ S32768x1024.size a := fun v1677 k1_hw187 => k1_hw187

def k1_off375 (i : grid1.Coords) : Fin 1 → Nat :=
  let arg0 : BitVec 32 := BitVec.ofNat 32 (i 0).val
  let c256_i32 : BitVec 32 := 256#32
  let v0 : BitVec 32 := Scalar.muli arg0 c256_i32
  let c187_i32 : BitVec 32 := 187#32
  let v1684 : BitVec 32 := Scalar.addi v0 c187_i32
  let v1685 : Index := Scalar.indexCast v1684
  ![v1685.toNat]
def k1_off376 (v1686 : BitVec 32) : Fin 2 → Nat :=
  let c0_i32_751 : BitVec 32 := 0#32
  ![v1686.toNat, 0]

def k1_chk188 (v1686 : BitVec 32) : Prop :=
  (∀ a, (k1_off376 v1686) a + S1x1024.size a ≤ S32768x1024.size a)
instance k1_chk188.dec : ∀ (v1686 : BitVec 32), Decidable (k1_chk188 v1686) := fun v1686 => decidable_of_iff' _ (Iff.of_eq (k1_chk188.eq_1 v1686))
theorem k1_off376_inb : ∀ (v1686 : BitVec 32) (k1_hw188 : k1_chk188 v1686), ∀ a, (k1_off376 v1686) a + S1x1024.size a ≤ S32768x1024.size a := fun v1686 k1_hw188 => k1_hw188

def k1_off377 (i : grid1.Coords) : Fin 1 → Nat :=
  let arg0 : BitVec 32 := BitVec.ofNat 32 (i 0).val
  let c256_i32 : BitVec 32 := 256#32
  let v0 : BitVec 32 := Scalar.muli arg0 c256_i32
  let c188_i32 : BitVec 32 := 188#32
  let v1693 : BitVec 32 := Scalar.addi v0 c188_i32
  let v1694 : Index := Scalar.indexCast v1693
  ![v1694.toNat]
def k1_off378 (v1695 : BitVec 32) : Fin 2 → Nat :=
  let c0_i32_755 : BitVec 32 := 0#32
  ![v1695.toNat, 0]

def k1_chk189 (v1695 : BitVec 32) : Prop :=
  (∀ a, (k1_off378 v1695) a + S1x1024.size a ≤ S32768x1024.size a)
instance k1_chk189.dec : ∀ (v1695 : BitVec 32), Decidable (k1_chk189 v1695) := fun v1695 => decidable_of_iff' _ (Iff.of_eq (k1_chk189.eq_1 v1695))
theorem k1_off378_inb : ∀ (v1695 : BitVec 32) (k1_hw189 : k1_chk189 v1695), ∀ a, (k1_off378 v1695) a + S1x1024.size a ≤ S32768x1024.size a := fun v1695 k1_hw189 => k1_hw189

def k1_off379 (i : grid1.Coords) : Fin 1 → Nat :=
  let arg0 : BitVec 32 := BitVec.ofNat 32 (i 0).val
  let c256_i32 : BitVec 32 := 256#32
  let v0 : BitVec 32 := Scalar.muli arg0 c256_i32
  let c189_i32 : BitVec 32 := 189#32
  let v1702 : BitVec 32 := Scalar.addi v0 c189_i32
  let v1703 : Index := Scalar.indexCast v1702
  ![v1703.toNat]
def k1_off380 (v1704 : BitVec 32) : Fin 2 → Nat :=
  let c0_i32_759 : BitVec 32 := 0#32
  ![v1704.toNat, 0]

def k1_chk190 (v1704 : BitVec 32) : Prop :=
  (∀ a, (k1_off380 v1704) a + S1x1024.size a ≤ S32768x1024.size a)
instance k1_chk190.dec : ∀ (v1704 : BitVec 32), Decidable (k1_chk190 v1704) := fun v1704 => decidable_of_iff' _ (Iff.of_eq (k1_chk190.eq_1 v1704))
theorem k1_off380_inb : ∀ (v1704 : BitVec 32) (k1_hw190 : k1_chk190 v1704), ∀ a, (k1_off380 v1704) a + S1x1024.size a ≤ S32768x1024.size a := fun v1704 k1_hw190 => k1_hw190

def k1_off381 (i : grid1.Coords) : Fin 1 → Nat :=
  let arg0 : BitVec 32 := BitVec.ofNat 32 (i 0).val
  let c256_i32 : BitVec 32 := 256#32
  let v0 : BitVec 32 := Scalar.muli arg0 c256_i32
  let c190_i32 : BitVec 32 := 190#32
  let v1711 : BitVec 32 := Scalar.addi v0 c190_i32
  let v1712 : Index := Scalar.indexCast v1711
  ![v1712.toNat]
def k1_off382 (v1713 : BitVec 32) : Fin 2 → Nat :=
  let c0_i32_763 : BitVec 32 := 0#32
  ![v1713.toNat, 0]

def k1_chk191 (v1713 : BitVec 32) : Prop :=
  (∀ a, (k1_off382 v1713) a + S1x1024.size a ≤ S32768x1024.size a)
instance k1_chk191.dec : ∀ (v1713 : BitVec 32), Decidable (k1_chk191 v1713) := fun v1713 => decidable_of_iff' _ (Iff.of_eq (k1_chk191.eq_1 v1713))
theorem k1_off382_inb : ∀ (v1713 : BitVec 32) (k1_hw191 : k1_chk191 v1713), ∀ a, (k1_off382 v1713) a + S1x1024.size a ≤ S32768x1024.size a := fun v1713 k1_hw191 => k1_hw191

def k1_off383 (i : grid1.Coords) : Fin 1 → Nat :=
  let arg0 : BitVec 32 := BitVec.ofNat 32 (i 0).val
  let c256_i32 : BitVec 32 := 256#32
  let v0 : BitVec 32 := Scalar.muli arg0 c256_i32
  let c191_i32 : BitVec 32 := 191#32
  let v1720 : BitVec 32 := Scalar.addi v0 c191_i32
  let v1721 : Index := Scalar.indexCast v1720
  ![v1721.toNat]
def k1_off384 (v1722 : BitVec 32) : Fin 2 → Nat :=
  let c0_i32_767 : BitVec 32 := 0#32
  ![v1722.toNat, 0]

def k1_chk192 (v1722 : BitVec 32) : Prop :=
  (∀ a, (k1_off384 v1722) a + S1x1024.size a ≤ S32768x1024.size a)
instance k1_chk192.dec : ∀ (v1722 : BitVec 32), Decidable (k1_chk192 v1722) := fun v1722 => decidable_of_iff' _ (Iff.of_eq (k1_chk192.eq_1 v1722))
theorem k1_off384_inb : ∀ (v1722 : BitVec 32) (k1_hw192 : k1_chk192 v1722), ∀ a, (k1_off384 v1722) a + S1x1024.size a ≤ S32768x1024.size a := fun v1722 k1_hw192 => k1_hw192

def k1_off385 (i : grid1.Coords) : Fin 1 → Nat :=
  let arg0 : BitVec 32 := BitVec.ofNat 32 (i 0).val
  let c256_i32 : BitVec 32 := 256#32
  let v0 : BitVec 32 := Scalar.muli arg0 c256_i32
  let c192_i32 : BitVec 32 := 192#32
  let v1729 : BitVec 32 := Scalar.addi v0 c192_i32
  let v1730 : Index := Scalar.indexCast v1729
  ![v1730.toNat]
def k1_off386 (v1731 : BitVec 32) : Fin 2 → Nat :=
  let c0_i32_771 : BitVec 32 := 0#32
  ![v1731.toNat, 0]

def k1_chk193 (v1731 : BitVec 32) : Prop :=
  (∀ a, (k1_off386 v1731) a + S1x1024.size a ≤ S32768x1024.size a)
instance k1_chk193.dec : ∀ (v1731 : BitVec 32), Decidable (k1_chk193 v1731) := fun v1731 => decidable_of_iff' _ (Iff.of_eq (k1_chk193.eq_1 v1731))
theorem k1_off386_inb : ∀ (v1731 : BitVec 32) (k1_hw193 : k1_chk193 v1731), ∀ a, (k1_off386 v1731) a + S1x1024.size a ≤ S32768x1024.size a := fun v1731 k1_hw193 => k1_hw193

def k1_off387 (i : grid1.Coords) : Fin 1 → Nat :=
  let arg0 : BitVec 32 := BitVec.ofNat 32 (i 0).val
  let c256_i32 : BitVec 32 := 256#32
  let v0 : BitVec 32 := Scalar.muli arg0 c256_i32
  let c193_i32 : BitVec 32 := 193#32
  let v1738 : BitVec 32 := Scalar.addi v0 c193_i32
  let v1739 : Index := Scalar.indexCast v1738
  ![v1739.toNat]
def k1_off388 (v1740 : BitVec 32) : Fin 2 → Nat :=
  let c0_i32_775 : BitVec 32 := 0#32
  ![v1740.toNat, 0]

def k1_chk194 (v1740 : BitVec 32) : Prop :=
  (∀ a, (k1_off388 v1740) a + S1x1024.size a ≤ S32768x1024.size a)
instance k1_chk194.dec : ∀ (v1740 : BitVec 32), Decidable (k1_chk194 v1740) := fun v1740 => decidable_of_iff' _ (Iff.of_eq (k1_chk194.eq_1 v1740))
theorem k1_off388_inb : ∀ (v1740 : BitVec 32) (k1_hw194 : k1_chk194 v1740), ∀ a, (k1_off388 v1740) a + S1x1024.size a ≤ S32768x1024.size a := fun v1740 k1_hw194 => k1_hw194

def k1_off389 (i : grid1.Coords) : Fin 1 → Nat :=
  let arg0 : BitVec 32 := BitVec.ofNat 32 (i 0).val
  let c256_i32 : BitVec 32 := 256#32
  let v0 : BitVec 32 := Scalar.muli arg0 c256_i32
  let c194_i32 : BitVec 32 := 194#32
  let v1747 : BitVec 32 := Scalar.addi v0 c194_i32
  let v1748 : Index := Scalar.indexCast v1747
  ![v1748.toNat]
def k1_off390 (v1749 : BitVec 32) : Fin 2 → Nat :=
  let c0_i32_779 : BitVec 32 := 0#32
  ![v1749.toNat, 0]

def k1_chk195 (v1749 : BitVec 32) : Prop :=
  (∀ a, (k1_off390 v1749) a + S1x1024.size a ≤ S32768x1024.size a)
instance k1_chk195.dec : ∀ (v1749 : BitVec 32), Decidable (k1_chk195 v1749) := fun v1749 => decidable_of_iff' _ (Iff.of_eq (k1_chk195.eq_1 v1749))
theorem k1_off390_inb : ∀ (v1749 : BitVec 32) (k1_hw195 : k1_chk195 v1749), ∀ a, (k1_off390 v1749) a + S1x1024.size a ≤ S32768x1024.size a := fun v1749 k1_hw195 => k1_hw195

def k1_off391 (i : grid1.Coords) : Fin 1 → Nat :=
  let arg0 : BitVec 32 := BitVec.ofNat 32 (i 0).val
  let c256_i32 : BitVec 32 := 256#32
  let v0 : BitVec 32 := Scalar.muli arg0 c256_i32
  let c195_i32 : BitVec 32 := 195#32
  let v1756 : BitVec 32 := Scalar.addi v0 c195_i32
  let v1757 : Index := Scalar.indexCast v1756
  ![v1757.toNat]
def k1_off392 (v1758 : BitVec 32) : Fin 2 → Nat :=
  let c0_i32_783 : BitVec 32 := 0#32
  ![v1758.toNat, 0]

def k1_chk196 (v1758 : BitVec 32) : Prop :=
  (∀ a, (k1_off392 v1758) a + S1x1024.size a ≤ S32768x1024.size a)
instance k1_chk196.dec : ∀ (v1758 : BitVec 32), Decidable (k1_chk196 v1758) := fun v1758 => decidable_of_iff' _ (Iff.of_eq (k1_chk196.eq_1 v1758))
theorem k1_off392_inb : ∀ (v1758 : BitVec 32) (k1_hw196 : k1_chk196 v1758), ∀ a, (k1_off392 v1758) a + S1x1024.size a ≤ S32768x1024.size a := fun v1758 k1_hw196 => k1_hw196

def k1_off393 (i : grid1.Coords) : Fin 1 → Nat :=
  let arg0 : BitVec 32 := BitVec.ofNat 32 (i 0).val
  let c256_i32 : BitVec 32 := 256#32
  let v0 : BitVec 32 := Scalar.muli arg0 c256_i32
  let c196_i32 : BitVec 32 := 196#32
  let v1765 : BitVec 32 := Scalar.addi v0 c196_i32
  let v1766 : Index := Scalar.indexCast v1765
  ![v1766.toNat]
def k1_off394 (v1767 : BitVec 32) : Fin 2 → Nat :=
  let c0_i32_787 : BitVec 32 := 0#32
  ![v1767.toNat, 0]

def k1_chk197 (v1767 : BitVec 32) : Prop :=
  (∀ a, (k1_off394 v1767) a + S1x1024.size a ≤ S32768x1024.size a)
instance k1_chk197.dec : ∀ (v1767 : BitVec 32), Decidable (k1_chk197 v1767) := fun v1767 => decidable_of_iff' _ (Iff.of_eq (k1_chk197.eq_1 v1767))
theorem k1_off394_inb : ∀ (v1767 : BitVec 32) (k1_hw197 : k1_chk197 v1767), ∀ a, (k1_off394 v1767) a + S1x1024.size a ≤ S32768x1024.size a := fun v1767 k1_hw197 => k1_hw197

def k1_off395 (i : grid1.Coords) : Fin 1 → Nat :=
  let arg0 : BitVec 32 := BitVec.ofNat 32 (i 0).val
  let c256_i32 : BitVec 32 := 256#32
  let v0 : BitVec 32 := Scalar.muli arg0 c256_i32
  let c197_i32 : BitVec 32 := 197#32
  let v1774 : BitVec 32 := Scalar.addi v0 c197_i32
  let v1775 : Index := Scalar.indexCast v1774
  ![v1775.toNat]
def k1_off396 (v1776 : BitVec 32) : Fin 2 → Nat :=
  let c0_i32_791 : BitVec 32 := 0#32
  ![v1776.toNat, 0]

def k1_chk198 (v1776 : BitVec 32) : Prop :=
  (∀ a, (k1_off396 v1776) a + S1x1024.size a ≤ S32768x1024.size a)
instance k1_chk198.dec : ∀ (v1776 : BitVec 32), Decidable (k1_chk198 v1776) := fun v1776 => decidable_of_iff' _ (Iff.of_eq (k1_chk198.eq_1 v1776))
theorem k1_off396_inb : ∀ (v1776 : BitVec 32) (k1_hw198 : k1_chk198 v1776), ∀ a, (k1_off396 v1776) a + S1x1024.size a ≤ S32768x1024.size a := fun v1776 k1_hw198 => k1_hw198

def k1_off397 (i : grid1.Coords) : Fin 1 → Nat :=
  let arg0 : BitVec 32 := BitVec.ofNat 32 (i 0).val
  let c256_i32 : BitVec 32 := 256#32
  let v0 : BitVec 32 := Scalar.muli arg0 c256_i32
  let c198_i32 : BitVec 32 := 198#32
  let v1783 : BitVec 32 := Scalar.addi v0 c198_i32
  let v1784 : Index := Scalar.indexCast v1783
  ![v1784.toNat]
def k1_off398 (v1785 : BitVec 32) : Fin 2 → Nat :=
  let c0_i32_795 : BitVec 32 := 0#32
  ![v1785.toNat, 0]

def k1_chk199 (v1785 : BitVec 32) : Prop :=
  (∀ a, (k1_off398 v1785) a + S1x1024.size a ≤ S32768x1024.size a)
instance k1_chk199.dec : ∀ (v1785 : BitVec 32), Decidable (k1_chk199 v1785) := fun v1785 => decidable_of_iff' _ (Iff.of_eq (k1_chk199.eq_1 v1785))
theorem k1_off398_inb : ∀ (v1785 : BitVec 32) (k1_hw199 : k1_chk199 v1785), ∀ a, (k1_off398 v1785) a + S1x1024.size a ≤ S32768x1024.size a := fun v1785 k1_hw199 => k1_hw199

def k1_off399 (i : grid1.Coords) : Fin 1 → Nat :=
  let arg0 : BitVec 32 := BitVec.ofNat 32 (i 0).val
  let c256_i32 : BitVec 32 := 256#32
  let v0 : BitVec 32 := Scalar.muli arg0 c256_i32
  let c199_i32 : BitVec 32 := 199#32
  let v1792 : BitVec 32 := Scalar.addi v0 c199_i32
  let v1793 : Index := Scalar.indexCast v1792
  ![v1793.toNat]
def k1_off400 (v1794 : BitVec 32) : Fin 2 → Nat :=
  let c0_i32_799 : BitVec 32 := 0#32
  ![v1794.toNat, 0]

def k1_chk200 (v1794 : BitVec 32) : Prop :=
  (∀ a, (k1_off400 v1794) a + S1x1024.size a ≤ S32768x1024.size a)
instance k1_chk200.dec : ∀ (v1794 : BitVec 32), Decidable (k1_chk200 v1794) := fun v1794 => decidable_of_iff' _ (Iff.of_eq (k1_chk200.eq_1 v1794))
theorem k1_off400_inb : ∀ (v1794 : BitVec 32) (k1_hw200 : k1_chk200 v1794), ∀ a, (k1_off400 v1794) a + S1x1024.size a ≤ S32768x1024.size a := fun v1794 k1_hw200 => k1_hw200

def k1_off401 (i : grid1.Coords) : Fin 1 → Nat :=
  let arg0 : BitVec 32 := BitVec.ofNat 32 (i 0).val
  let c256_i32 : BitVec 32 := 256#32
  let v0 : BitVec 32 := Scalar.muli arg0 c256_i32
  let c200_i32 : BitVec 32 := 200#32
  let v1801 : BitVec 32 := Scalar.addi v0 c200_i32
  let v1802 : Index := Scalar.indexCast v1801
  ![v1802.toNat]
def k1_off402 (v1803 : BitVec 32) : Fin 2 → Nat :=
  let c0_i32_803 : BitVec 32 := 0#32
  ![v1803.toNat, 0]

def k1_chk201 (v1803 : BitVec 32) : Prop :=
  (∀ a, (k1_off402 v1803) a + S1x1024.size a ≤ S32768x1024.size a)
instance k1_chk201.dec : ∀ (v1803 : BitVec 32), Decidable (k1_chk201 v1803) := fun v1803 => decidable_of_iff' _ (Iff.of_eq (k1_chk201.eq_1 v1803))
theorem k1_off402_inb : ∀ (v1803 : BitVec 32) (k1_hw201 : k1_chk201 v1803), ∀ a, (k1_off402 v1803) a + S1x1024.size a ≤ S32768x1024.size a := fun v1803 k1_hw201 => k1_hw201

def k1_off403 (i : grid1.Coords) : Fin 1 → Nat :=
  let arg0 : BitVec 32 := BitVec.ofNat 32 (i 0).val
  let c256_i32 : BitVec 32 := 256#32
  let v0 : BitVec 32 := Scalar.muli arg0 c256_i32
  let c201_i32 : BitVec 32 := 201#32
  let v1810 : BitVec 32 := Scalar.addi v0 c201_i32
  let v1811 : Index := Scalar.indexCast v1810
  ![v1811.toNat]
def k1_off404 (v1812 : BitVec 32) : Fin 2 → Nat :=
  let c0_i32_807 : BitVec 32 := 0#32
  ![v1812.toNat, 0]

def k1_chk202 (v1812 : BitVec 32) : Prop :=
  (∀ a, (k1_off404 v1812) a + S1x1024.size a ≤ S32768x1024.size a)
instance k1_chk202.dec : ∀ (v1812 : BitVec 32), Decidable (k1_chk202 v1812) := fun v1812 => decidable_of_iff' _ (Iff.of_eq (k1_chk202.eq_1 v1812))
theorem k1_off404_inb : ∀ (v1812 : BitVec 32) (k1_hw202 : k1_chk202 v1812), ∀ a, (k1_off404 v1812) a + S1x1024.size a ≤ S32768x1024.size a := fun v1812 k1_hw202 => k1_hw202

def k1_off405 (i : grid1.Coords) : Fin 1 → Nat :=
  let arg0 : BitVec 32 := BitVec.ofNat 32 (i 0).val
  let c256_i32 : BitVec 32 := 256#32
  let v0 : BitVec 32 := Scalar.muli arg0 c256_i32
  let c202_i32 : BitVec 32 := 202#32
  let v1819 : BitVec 32 := Scalar.addi v0 c202_i32
  let v1820 : Index := Scalar.indexCast v1819
  ![v1820.toNat]
def k1_off406 (v1821 : BitVec 32) : Fin 2 → Nat :=
  let c0_i32_811 : BitVec 32 := 0#32
  ![v1821.toNat, 0]

def k1_chk203 (v1821 : BitVec 32) : Prop :=
  (∀ a, (k1_off406 v1821) a + S1x1024.size a ≤ S32768x1024.size a)
instance k1_chk203.dec : ∀ (v1821 : BitVec 32), Decidable (k1_chk203 v1821) := fun v1821 => decidable_of_iff' _ (Iff.of_eq (k1_chk203.eq_1 v1821))
theorem k1_off406_inb : ∀ (v1821 : BitVec 32) (k1_hw203 : k1_chk203 v1821), ∀ a, (k1_off406 v1821) a + S1x1024.size a ≤ S32768x1024.size a := fun v1821 k1_hw203 => k1_hw203

def k1_off407 (i : grid1.Coords) : Fin 1 → Nat :=
  let arg0 : BitVec 32 := BitVec.ofNat 32 (i 0).val
  let c256_i32 : BitVec 32 := 256#32
  let v0 : BitVec 32 := Scalar.muli arg0 c256_i32
  let c203_i32 : BitVec 32 := 203#32
  let v1828 : BitVec 32 := Scalar.addi v0 c203_i32
  let v1829 : Index := Scalar.indexCast v1828
  ![v1829.toNat]
def k1_off408 (v1830 : BitVec 32) : Fin 2 → Nat :=
  let c0_i32_815 : BitVec 32 := 0#32
  ![v1830.toNat, 0]

def k1_chk204 (v1830 : BitVec 32) : Prop :=
  (∀ a, (k1_off408 v1830) a + S1x1024.size a ≤ S32768x1024.size a)
instance k1_chk204.dec : ∀ (v1830 : BitVec 32), Decidable (k1_chk204 v1830) := fun v1830 => decidable_of_iff' _ (Iff.of_eq (k1_chk204.eq_1 v1830))
theorem k1_off408_inb : ∀ (v1830 : BitVec 32) (k1_hw204 : k1_chk204 v1830), ∀ a, (k1_off408 v1830) a + S1x1024.size a ≤ S32768x1024.size a := fun v1830 k1_hw204 => k1_hw204

def k1_off409 (i : grid1.Coords) : Fin 1 → Nat :=
  let arg0 : BitVec 32 := BitVec.ofNat 32 (i 0).val
  let c256_i32 : BitVec 32 := 256#32
  let v0 : BitVec 32 := Scalar.muli arg0 c256_i32
  let c204_i32 : BitVec 32 := 204#32
  let v1837 : BitVec 32 := Scalar.addi v0 c204_i32
  let v1838 : Index := Scalar.indexCast v1837
  ![v1838.toNat]
def k1_off410 (v1839 : BitVec 32) : Fin 2 → Nat :=
  let c0_i32_819 : BitVec 32 := 0#32
  ![v1839.toNat, 0]

def k1_chk205 (v1839 : BitVec 32) : Prop :=
  (∀ a, (k1_off410 v1839) a + S1x1024.size a ≤ S32768x1024.size a)
instance k1_chk205.dec : ∀ (v1839 : BitVec 32), Decidable (k1_chk205 v1839) := fun v1839 => decidable_of_iff' _ (Iff.of_eq (k1_chk205.eq_1 v1839))
theorem k1_off410_inb : ∀ (v1839 : BitVec 32) (k1_hw205 : k1_chk205 v1839), ∀ a, (k1_off410 v1839) a + S1x1024.size a ≤ S32768x1024.size a := fun v1839 k1_hw205 => k1_hw205

def k1_off411 (i : grid1.Coords) : Fin 1 → Nat :=
  let arg0 : BitVec 32 := BitVec.ofNat 32 (i 0).val
  let c256_i32 : BitVec 32 := 256#32
  let v0 : BitVec 32 := Scalar.muli arg0 c256_i32
  let c205_i32 : BitVec 32 := 205#32
  let v1846 : BitVec 32 := Scalar.addi v0 c205_i32
  let v1847 : Index := Scalar.indexCast v1846
  ![v1847.toNat]
def k1_off412 (v1848 : BitVec 32) : Fin 2 → Nat :=
  let c0_i32_823 : BitVec 32 := 0#32
  ![v1848.toNat, 0]

def k1_chk206 (v1848 : BitVec 32) : Prop :=
  (∀ a, (k1_off412 v1848) a + S1x1024.size a ≤ S32768x1024.size a)
instance k1_chk206.dec : ∀ (v1848 : BitVec 32), Decidable (k1_chk206 v1848) := fun v1848 => decidable_of_iff' _ (Iff.of_eq (k1_chk206.eq_1 v1848))
theorem k1_off412_inb : ∀ (v1848 : BitVec 32) (k1_hw206 : k1_chk206 v1848), ∀ a, (k1_off412 v1848) a + S1x1024.size a ≤ S32768x1024.size a := fun v1848 k1_hw206 => k1_hw206

def k1_off413 (i : grid1.Coords) : Fin 1 → Nat :=
  let arg0 : BitVec 32 := BitVec.ofNat 32 (i 0).val
  let c256_i32 : BitVec 32 := 256#32
  let v0 : BitVec 32 := Scalar.muli arg0 c256_i32
  let c206_i32 : BitVec 32 := 206#32
  let v1855 : BitVec 32 := Scalar.addi v0 c206_i32
  let v1856 : Index := Scalar.indexCast v1855
  ![v1856.toNat]
def k1_off414 (v1857 : BitVec 32) : Fin 2 → Nat :=
  let c0_i32_827 : BitVec 32 := 0#32
  ![v1857.toNat, 0]

def k1_chk207 (v1857 : BitVec 32) : Prop :=
  (∀ a, (k1_off414 v1857) a + S1x1024.size a ≤ S32768x1024.size a)
instance k1_chk207.dec : ∀ (v1857 : BitVec 32), Decidable (k1_chk207 v1857) := fun v1857 => decidable_of_iff' _ (Iff.of_eq (k1_chk207.eq_1 v1857))
theorem k1_off414_inb : ∀ (v1857 : BitVec 32) (k1_hw207 : k1_chk207 v1857), ∀ a, (k1_off414 v1857) a + S1x1024.size a ≤ S32768x1024.size a := fun v1857 k1_hw207 => k1_hw207

def k1_off415 (i : grid1.Coords) : Fin 1 → Nat :=
  let arg0 : BitVec 32 := BitVec.ofNat 32 (i 0).val
  let c256_i32 : BitVec 32 := 256#32
  let v0 : BitVec 32 := Scalar.muli arg0 c256_i32
  let c207_i32 : BitVec 32 := 207#32
  let v1864 : BitVec 32 := Scalar.addi v0 c207_i32
  let v1865 : Index := Scalar.indexCast v1864
  ![v1865.toNat]
def k1_off416 (v1866 : BitVec 32) : Fin 2 → Nat :=
  let c0_i32_831 : BitVec 32 := 0#32
  ![v1866.toNat, 0]

def k1_chk208 (v1866 : BitVec 32) : Prop :=
  (∀ a, (k1_off416 v1866) a + S1x1024.size a ≤ S32768x1024.size a)
instance k1_chk208.dec : ∀ (v1866 : BitVec 32), Decidable (k1_chk208 v1866) := fun v1866 => decidable_of_iff' _ (Iff.of_eq (k1_chk208.eq_1 v1866))
theorem k1_off416_inb : ∀ (v1866 : BitVec 32) (k1_hw208 : k1_chk208 v1866), ∀ a, (k1_off416 v1866) a + S1x1024.size a ≤ S32768x1024.size a := fun v1866 k1_hw208 => k1_hw208

def k1_off417 (i : grid1.Coords) : Fin 1 → Nat :=
  let arg0 : BitVec 32 := BitVec.ofNat 32 (i 0).val
  let c256_i32 : BitVec 32 := 256#32
  let v0 : BitVec 32 := Scalar.muli arg0 c256_i32
  let c208_i32 : BitVec 32 := 208#32
  let v1873 : BitVec 32 := Scalar.addi v0 c208_i32
  let v1874 : Index := Scalar.indexCast v1873
  ![v1874.toNat]
def k1_off418 (v1875 : BitVec 32) : Fin 2 → Nat :=
  let c0_i32_835 : BitVec 32 := 0#32
  ![v1875.toNat, 0]

def k1_chk209 (v1875 : BitVec 32) : Prop :=
  (∀ a, (k1_off418 v1875) a + S1x1024.size a ≤ S32768x1024.size a)
instance k1_chk209.dec : ∀ (v1875 : BitVec 32), Decidable (k1_chk209 v1875) := fun v1875 => decidable_of_iff' _ (Iff.of_eq (k1_chk209.eq_1 v1875))
theorem k1_off418_inb : ∀ (v1875 : BitVec 32) (k1_hw209 : k1_chk209 v1875), ∀ a, (k1_off418 v1875) a + S1x1024.size a ≤ S32768x1024.size a := fun v1875 k1_hw209 => k1_hw209

def k1_off419 (i : grid1.Coords) : Fin 1 → Nat :=
  let arg0 : BitVec 32 := BitVec.ofNat 32 (i 0).val
  let c256_i32 : BitVec 32 := 256#32
  let v0 : BitVec 32 := Scalar.muli arg0 c256_i32
  let c209_i32 : BitVec 32 := 209#32
  let v1882 : BitVec 32 := Scalar.addi v0 c209_i32
  let v1883 : Index := Scalar.indexCast v1882
  ![v1883.toNat]
def k1_off420 (v1884 : BitVec 32) : Fin 2 → Nat :=
  let c0_i32_839 : BitVec 32 := 0#32
  ![v1884.toNat, 0]

def k1_chk210 (v1884 : BitVec 32) : Prop :=
  (∀ a, (k1_off420 v1884) a + S1x1024.size a ≤ S32768x1024.size a)
instance k1_chk210.dec : ∀ (v1884 : BitVec 32), Decidable (k1_chk210 v1884) := fun v1884 => decidable_of_iff' _ (Iff.of_eq (k1_chk210.eq_1 v1884))
theorem k1_off420_inb : ∀ (v1884 : BitVec 32) (k1_hw210 : k1_chk210 v1884), ∀ a, (k1_off420 v1884) a + S1x1024.size a ≤ S32768x1024.size a := fun v1884 k1_hw210 => k1_hw210

def k1_off421 (i : grid1.Coords) : Fin 1 → Nat :=
  let arg0 : BitVec 32 := BitVec.ofNat 32 (i 0).val
  let c256_i32 : BitVec 32 := 256#32
  let v0 : BitVec 32 := Scalar.muli arg0 c256_i32
  let c210_i32 : BitVec 32 := 210#32
  let v1891 : BitVec 32 := Scalar.addi v0 c210_i32
  let v1892 : Index := Scalar.indexCast v1891
  ![v1892.toNat]
def k1_off422 (v1893 : BitVec 32) : Fin 2 → Nat :=
  let c0_i32_843 : BitVec 32 := 0#32
  ![v1893.toNat, 0]

def k1_chk211 (v1893 : BitVec 32) : Prop :=
  (∀ a, (k1_off422 v1893) a + S1x1024.size a ≤ S32768x1024.size a)
instance k1_chk211.dec : ∀ (v1893 : BitVec 32), Decidable (k1_chk211 v1893) := fun v1893 => decidable_of_iff' _ (Iff.of_eq (k1_chk211.eq_1 v1893))
theorem k1_off422_inb : ∀ (v1893 : BitVec 32) (k1_hw211 : k1_chk211 v1893), ∀ a, (k1_off422 v1893) a + S1x1024.size a ≤ S32768x1024.size a := fun v1893 k1_hw211 => k1_hw211

def k1_off423 (i : grid1.Coords) : Fin 1 → Nat :=
  let arg0 : BitVec 32 := BitVec.ofNat 32 (i 0).val
  let c256_i32 : BitVec 32 := 256#32
  let v0 : BitVec 32 := Scalar.muli arg0 c256_i32
  let c211_i32 : BitVec 32 := 211#32
  let v1900 : BitVec 32 := Scalar.addi v0 c211_i32
  let v1901 : Index := Scalar.indexCast v1900
  ![v1901.toNat]
def k1_off424 (v1902 : BitVec 32) : Fin 2 → Nat :=
  let c0_i32_847 : BitVec 32 := 0#32
  ![v1902.toNat, 0]

def k1_chk212 (v1902 : BitVec 32) : Prop :=
  (∀ a, (k1_off424 v1902) a + S1x1024.size a ≤ S32768x1024.size a)
instance k1_chk212.dec : ∀ (v1902 : BitVec 32), Decidable (k1_chk212 v1902) := fun v1902 => decidable_of_iff' _ (Iff.of_eq (k1_chk212.eq_1 v1902))
theorem k1_off424_inb : ∀ (v1902 : BitVec 32) (k1_hw212 : k1_chk212 v1902), ∀ a, (k1_off424 v1902) a + S1x1024.size a ≤ S32768x1024.size a := fun v1902 k1_hw212 => k1_hw212

def k1_off425 (i : grid1.Coords) : Fin 1 → Nat :=
  let arg0 : BitVec 32 := BitVec.ofNat 32 (i 0).val
  let c256_i32 : BitVec 32 := 256#32
  let v0 : BitVec 32 := Scalar.muli arg0 c256_i32
  let c212_i32 : BitVec 32 := 212#32
  let v1909 : BitVec 32 := Scalar.addi v0 c212_i32
  let v1910 : Index := Scalar.indexCast v1909
  ![v1910.toNat]
def k1_off426 (v1911 : BitVec 32) : Fin 2 → Nat :=
  let c0_i32_851 : BitVec 32 := 0#32
  ![v1911.toNat, 0]

def k1_chk213 (v1911 : BitVec 32) : Prop :=
  (∀ a, (k1_off426 v1911) a + S1x1024.size a ≤ S32768x1024.size a)
instance k1_chk213.dec : ∀ (v1911 : BitVec 32), Decidable (k1_chk213 v1911) := fun v1911 => decidable_of_iff' _ (Iff.of_eq (k1_chk213.eq_1 v1911))
theorem k1_off426_inb : ∀ (v1911 : BitVec 32) (k1_hw213 : k1_chk213 v1911), ∀ a, (k1_off426 v1911) a + S1x1024.size a ≤ S32768x1024.size a := fun v1911 k1_hw213 => k1_hw213

def k1_off427 (i : grid1.Coords) : Fin 1 → Nat :=
  let arg0 : BitVec 32 := BitVec.ofNat 32 (i 0).val
  let c256_i32 : BitVec 32 := 256#32
  let v0 : BitVec 32 := Scalar.muli arg0 c256_i32
  let c213_i32 : BitVec 32 := 213#32
  let v1918 : BitVec 32 := Scalar.addi v0 c213_i32
  let v1919 : Index := Scalar.indexCast v1918
  ![v1919.toNat]
def k1_off428 (v1920 : BitVec 32) : Fin 2 → Nat :=
  let c0_i32_855 : BitVec 32 := 0#32
  ![v1920.toNat, 0]

def k1_chk214 (v1920 : BitVec 32) : Prop :=
  (∀ a, (k1_off428 v1920) a + S1x1024.size a ≤ S32768x1024.size a)
instance k1_chk214.dec : ∀ (v1920 : BitVec 32), Decidable (k1_chk214 v1920) := fun v1920 => decidable_of_iff' _ (Iff.of_eq (k1_chk214.eq_1 v1920))
theorem k1_off428_inb : ∀ (v1920 : BitVec 32) (k1_hw214 : k1_chk214 v1920), ∀ a, (k1_off428 v1920) a + S1x1024.size a ≤ S32768x1024.size a := fun v1920 k1_hw214 => k1_hw214

def k1_off429 (i : grid1.Coords) : Fin 1 → Nat :=
  let arg0 : BitVec 32 := BitVec.ofNat 32 (i 0).val
  let c256_i32 : BitVec 32 := 256#32
  let v0 : BitVec 32 := Scalar.muli arg0 c256_i32
  let c214_i32 : BitVec 32 := 214#32
  let v1927 : BitVec 32 := Scalar.addi v0 c214_i32
  let v1928 : Index := Scalar.indexCast v1927
  ![v1928.toNat]
def k1_off430 (v1929 : BitVec 32) : Fin 2 → Nat :=
  let c0_i32_859 : BitVec 32 := 0#32
  ![v1929.toNat, 0]

def k1_chk215 (v1929 : BitVec 32) : Prop :=
  (∀ a, (k1_off430 v1929) a + S1x1024.size a ≤ S32768x1024.size a)
instance k1_chk215.dec : ∀ (v1929 : BitVec 32), Decidable (k1_chk215 v1929) := fun v1929 => decidable_of_iff' _ (Iff.of_eq (k1_chk215.eq_1 v1929))
theorem k1_off430_inb : ∀ (v1929 : BitVec 32) (k1_hw215 : k1_chk215 v1929), ∀ a, (k1_off430 v1929) a + S1x1024.size a ≤ S32768x1024.size a := fun v1929 k1_hw215 => k1_hw215

def k1_off431 (i : grid1.Coords) : Fin 1 → Nat :=
  let arg0 : BitVec 32 := BitVec.ofNat 32 (i 0).val
  let c256_i32 : BitVec 32 := 256#32
  let v0 : BitVec 32 := Scalar.muli arg0 c256_i32
  let c215_i32 : BitVec 32 := 215#32
  let v1936 : BitVec 32 := Scalar.addi v0 c215_i32
  let v1937 : Index := Scalar.indexCast v1936
  ![v1937.toNat]
def k1_off432 (v1938 : BitVec 32) : Fin 2 → Nat :=
  let c0_i32_863 : BitVec 32 := 0#32
  ![v1938.toNat, 0]

def k1_chk216 (v1938 : BitVec 32) : Prop :=
  (∀ a, (k1_off432 v1938) a + S1x1024.size a ≤ S32768x1024.size a)
instance k1_chk216.dec : ∀ (v1938 : BitVec 32), Decidable (k1_chk216 v1938) := fun v1938 => decidable_of_iff' _ (Iff.of_eq (k1_chk216.eq_1 v1938))
theorem k1_off432_inb : ∀ (v1938 : BitVec 32) (k1_hw216 : k1_chk216 v1938), ∀ a, (k1_off432 v1938) a + S1x1024.size a ≤ S32768x1024.size a := fun v1938 k1_hw216 => k1_hw216

def k1_off433 (i : grid1.Coords) : Fin 1 → Nat :=
  let arg0 : BitVec 32 := BitVec.ofNat 32 (i 0).val
  let c256_i32 : BitVec 32 := 256#32
  let v0 : BitVec 32 := Scalar.muli arg0 c256_i32
  let c216_i32 : BitVec 32 := 216#32
  let v1945 : BitVec 32 := Scalar.addi v0 c216_i32
  let v1946 : Index := Scalar.indexCast v1945
  ![v1946.toNat]
def k1_off434 (v1947 : BitVec 32) : Fin 2 → Nat :=
  let c0_i32_867 : BitVec 32 := 0#32
  ![v1947.toNat, 0]

def k1_chk217 (v1947 : BitVec 32) : Prop :=
  (∀ a, (k1_off434 v1947) a + S1x1024.size a ≤ S32768x1024.size a)
instance k1_chk217.dec : ∀ (v1947 : BitVec 32), Decidable (k1_chk217 v1947) := fun v1947 => decidable_of_iff' _ (Iff.of_eq (k1_chk217.eq_1 v1947))
theorem k1_off434_inb : ∀ (v1947 : BitVec 32) (k1_hw217 : k1_chk217 v1947), ∀ a, (k1_off434 v1947) a + S1x1024.size a ≤ S32768x1024.size a := fun v1947 k1_hw217 => k1_hw217

def k1_off435 (i : grid1.Coords) : Fin 1 → Nat :=
  let arg0 : BitVec 32 := BitVec.ofNat 32 (i 0).val
  let c256_i32 : BitVec 32 := 256#32
  let v0 : BitVec 32 := Scalar.muli arg0 c256_i32
  let c217_i32 : BitVec 32 := 217#32
  let v1954 : BitVec 32 := Scalar.addi v0 c217_i32
  let v1955 : Index := Scalar.indexCast v1954
  ![v1955.toNat]
def k1_off436 (v1956 : BitVec 32) : Fin 2 → Nat :=
  let c0_i32_871 : BitVec 32 := 0#32
  ![v1956.toNat, 0]

def k1_chk218 (v1956 : BitVec 32) : Prop :=
  (∀ a, (k1_off436 v1956) a + S1x1024.size a ≤ S32768x1024.size a)
instance k1_chk218.dec : ∀ (v1956 : BitVec 32), Decidable (k1_chk218 v1956) := fun v1956 => decidable_of_iff' _ (Iff.of_eq (k1_chk218.eq_1 v1956))
theorem k1_off436_inb : ∀ (v1956 : BitVec 32) (k1_hw218 : k1_chk218 v1956), ∀ a, (k1_off436 v1956) a + S1x1024.size a ≤ S32768x1024.size a := fun v1956 k1_hw218 => k1_hw218

def k1_off437 (i : grid1.Coords) : Fin 1 → Nat :=
  let arg0 : BitVec 32 := BitVec.ofNat 32 (i 0).val
  let c256_i32 : BitVec 32 := 256#32
  let v0 : BitVec 32 := Scalar.muli arg0 c256_i32
  let c218_i32 : BitVec 32 := 218#32
  let v1963 : BitVec 32 := Scalar.addi v0 c218_i32
  let v1964 : Index := Scalar.indexCast v1963
  ![v1964.toNat]
def k1_off438 (v1965 : BitVec 32) : Fin 2 → Nat :=
  let c0_i32_875 : BitVec 32 := 0#32
  ![v1965.toNat, 0]

def k1_chk219 (v1965 : BitVec 32) : Prop :=
  (∀ a, (k1_off438 v1965) a + S1x1024.size a ≤ S32768x1024.size a)
instance k1_chk219.dec : ∀ (v1965 : BitVec 32), Decidable (k1_chk219 v1965) := fun v1965 => decidable_of_iff' _ (Iff.of_eq (k1_chk219.eq_1 v1965))
theorem k1_off438_inb : ∀ (v1965 : BitVec 32) (k1_hw219 : k1_chk219 v1965), ∀ a, (k1_off438 v1965) a + S1x1024.size a ≤ S32768x1024.size a := fun v1965 k1_hw219 => k1_hw219

def k1_off439 (i : grid1.Coords) : Fin 1 → Nat :=
  let arg0 : BitVec 32 := BitVec.ofNat 32 (i 0).val
  let c256_i32 : BitVec 32 := 256#32
  let v0 : BitVec 32 := Scalar.muli arg0 c256_i32
  let c219_i32 : BitVec 32 := 219#32
  let v1972 : BitVec 32 := Scalar.addi v0 c219_i32
  let v1973 : Index := Scalar.indexCast v1972
  ![v1973.toNat]
def k1_off440 (v1974 : BitVec 32) : Fin 2 → Nat :=
  let c0_i32_879 : BitVec 32 := 0#32
  ![v1974.toNat, 0]

def k1_chk220 (v1974 : BitVec 32) : Prop :=
  (∀ a, (k1_off440 v1974) a + S1x1024.size a ≤ S32768x1024.size a)
instance k1_chk220.dec : ∀ (v1974 : BitVec 32), Decidable (k1_chk220 v1974) := fun v1974 => decidable_of_iff' _ (Iff.of_eq (k1_chk220.eq_1 v1974))
theorem k1_off440_inb : ∀ (v1974 : BitVec 32) (k1_hw220 : k1_chk220 v1974), ∀ a, (k1_off440 v1974) a + S1x1024.size a ≤ S32768x1024.size a := fun v1974 k1_hw220 => k1_hw220

def k1_off441 (i : grid1.Coords) : Fin 1 → Nat :=
  let arg0 : BitVec 32 := BitVec.ofNat 32 (i 0).val
  let c256_i32 : BitVec 32 := 256#32
  let v0 : BitVec 32 := Scalar.muli arg0 c256_i32
  let c220_i32 : BitVec 32 := 220#32
  let v1981 : BitVec 32 := Scalar.addi v0 c220_i32
  let v1982 : Index := Scalar.indexCast v1981
  ![v1982.toNat]
def k1_off442 (v1983 : BitVec 32) : Fin 2 → Nat :=
  let c0_i32_883 : BitVec 32 := 0#32
  ![v1983.toNat, 0]

def k1_chk221 (v1983 : BitVec 32) : Prop :=
  (∀ a, (k1_off442 v1983) a + S1x1024.size a ≤ S32768x1024.size a)
instance k1_chk221.dec : ∀ (v1983 : BitVec 32), Decidable (k1_chk221 v1983) := fun v1983 => decidable_of_iff' _ (Iff.of_eq (k1_chk221.eq_1 v1983))
theorem k1_off442_inb : ∀ (v1983 : BitVec 32) (k1_hw221 : k1_chk221 v1983), ∀ a, (k1_off442 v1983) a + S1x1024.size a ≤ S32768x1024.size a := fun v1983 k1_hw221 => k1_hw221

def k1_off443 (i : grid1.Coords) : Fin 1 → Nat :=
  let arg0 : BitVec 32 := BitVec.ofNat 32 (i 0).val
  let c256_i32 : BitVec 32 := 256#32
  let v0 : BitVec 32 := Scalar.muli arg0 c256_i32
  let c221_i32 : BitVec 32 := 221#32
  let v1990 : BitVec 32 := Scalar.addi v0 c221_i32
  let v1991 : Index := Scalar.indexCast v1990
  ![v1991.toNat]
def k1_off444 (v1992 : BitVec 32) : Fin 2 → Nat :=
  let c0_i32_887 : BitVec 32 := 0#32
  ![v1992.toNat, 0]

def k1_chk222 (v1992 : BitVec 32) : Prop :=
  (∀ a, (k1_off444 v1992) a + S1x1024.size a ≤ S32768x1024.size a)
instance k1_chk222.dec : ∀ (v1992 : BitVec 32), Decidable (k1_chk222 v1992) := fun v1992 => decidable_of_iff' _ (Iff.of_eq (k1_chk222.eq_1 v1992))
theorem k1_off444_inb : ∀ (v1992 : BitVec 32) (k1_hw222 : k1_chk222 v1992), ∀ a, (k1_off444 v1992) a + S1x1024.size a ≤ S32768x1024.size a := fun v1992 k1_hw222 => k1_hw222

def k1_off445 (i : grid1.Coords) : Fin 1 → Nat :=
  let arg0 : BitVec 32 := BitVec.ofNat 32 (i 0).val
  let c256_i32 : BitVec 32 := 256#32
  let v0 : BitVec 32 := Scalar.muli arg0 c256_i32
  let c222_i32 : BitVec 32 := 222#32
  let v1999 : BitVec 32 := Scalar.addi v0 c222_i32
  let v2000 : Index := Scalar.indexCast v1999
  ![v2000.toNat]
def k1_off446 (v2001 : BitVec 32) : Fin 2 → Nat :=
  let c0_i32_891 : BitVec 32 := 0#32
  ![v2001.toNat, 0]

def k1_chk223 (v2001 : BitVec 32) : Prop :=
  (∀ a, (k1_off446 v2001) a + S1x1024.size a ≤ S32768x1024.size a)
instance k1_chk223.dec : ∀ (v2001 : BitVec 32), Decidable (k1_chk223 v2001) := fun v2001 => decidable_of_iff' _ (Iff.of_eq (k1_chk223.eq_1 v2001))
theorem k1_off446_inb : ∀ (v2001 : BitVec 32) (k1_hw223 : k1_chk223 v2001), ∀ a, (k1_off446 v2001) a + S1x1024.size a ≤ S32768x1024.size a := fun v2001 k1_hw223 => k1_hw223

def k1_off447 (i : grid1.Coords) : Fin 1 → Nat :=
  let arg0 : BitVec 32 := BitVec.ofNat 32 (i 0).val
  let c256_i32 : BitVec 32 := 256#32
  let v0 : BitVec 32 := Scalar.muli arg0 c256_i32
  let c223_i32 : BitVec 32 := 223#32
  let v2008 : BitVec 32 := Scalar.addi v0 c223_i32
  let v2009 : Index := Scalar.indexCast v2008
  ![v2009.toNat]
def k1_off448 (v2010 : BitVec 32) : Fin 2 → Nat :=
  let c0_i32_895 : BitVec 32 := 0#32
  ![v2010.toNat, 0]

def k1_chk224 (v2010 : BitVec 32) : Prop :=
  (∀ a, (k1_off448 v2010) a + S1x1024.size a ≤ S32768x1024.size a)
instance k1_chk224.dec : ∀ (v2010 : BitVec 32), Decidable (k1_chk224 v2010) := fun v2010 => decidable_of_iff' _ (Iff.of_eq (k1_chk224.eq_1 v2010))
theorem k1_off448_inb : ∀ (v2010 : BitVec 32) (k1_hw224 : k1_chk224 v2010), ∀ a, (k1_off448 v2010) a + S1x1024.size a ≤ S32768x1024.size a := fun v2010 k1_hw224 => k1_hw224

def k1_off449 (i : grid1.Coords) : Fin 1 → Nat :=
  let arg0 : BitVec 32 := BitVec.ofNat 32 (i 0).val
  let c256_i32 : BitVec 32 := 256#32
  let v0 : BitVec 32 := Scalar.muli arg0 c256_i32
  let c224_i32 : BitVec 32 := 224#32
  let v2017 : BitVec 32 := Scalar.addi v0 c224_i32
  let v2018 : Index := Scalar.indexCast v2017
  ![v2018.toNat]
def k1_off450 (v2019 : BitVec 32) : Fin 2 → Nat :=
  let c0_i32_899 : BitVec 32 := 0#32
  ![v2019.toNat, 0]

def k1_chk225 (v2019 : BitVec 32) : Prop :=
  (∀ a, (k1_off450 v2019) a + S1x1024.size a ≤ S32768x1024.size a)
instance k1_chk225.dec : ∀ (v2019 : BitVec 32), Decidable (k1_chk225 v2019) := fun v2019 => decidable_of_iff' _ (Iff.of_eq (k1_chk225.eq_1 v2019))
theorem k1_off450_inb : ∀ (v2019 : BitVec 32) (k1_hw225 : k1_chk225 v2019), ∀ a, (k1_off450 v2019) a + S1x1024.size a ≤ S32768x1024.size a := fun v2019 k1_hw225 => k1_hw225

def k1_off451 (i : grid1.Coords) : Fin 1 → Nat :=
  let arg0 : BitVec 32 := BitVec.ofNat 32 (i 0).val
  let c256_i32 : BitVec 32 := 256#32
  let v0 : BitVec 32 := Scalar.muli arg0 c256_i32
  let c225_i32 : BitVec 32 := 225#32
  let v2026 : BitVec 32 := Scalar.addi v0 c225_i32
  let v2027 : Index := Scalar.indexCast v2026
  ![v2027.toNat]
def k1_off452 (v2028 : BitVec 32) : Fin 2 → Nat :=
  let c0_i32_903 : BitVec 32 := 0#32
  ![v2028.toNat, 0]

def k1_chk226 (v2028 : BitVec 32) : Prop :=
  (∀ a, (k1_off452 v2028) a + S1x1024.size a ≤ S32768x1024.size a)
instance k1_chk226.dec : ∀ (v2028 : BitVec 32), Decidable (k1_chk226 v2028) := fun v2028 => decidable_of_iff' _ (Iff.of_eq (k1_chk226.eq_1 v2028))
theorem k1_off452_inb : ∀ (v2028 : BitVec 32) (k1_hw226 : k1_chk226 v2028), ∀ a, (k1_off452 v2028) a + S1x1024.size a ≤ S32768x1024.size a := fun v2028 k1_hw226 => k1_hw226

def k1_off453 (i : grid1.Coords) : Fin 1 → Nat :=
  let arg0 : BitVec 32 := BitVec.ofNat 32 (i 0).val
  let c256_i32 : BitVec 32 := 256#32
  let v0 : BitVec 32 := Scalar.muli arg0 c256_i32
  let c226_i32 : BitVec 32 := 226#32
  let v2035 : BitVec 32 := Scalar.addi v0 c226_i32
  let v2036 : Index := Scalar.indexCast v2035
  ![v2036.toNat]
def k1_off454 (v2037 : BitVec 32) : Fin 2 → Nat :=
  let c0_i32_907 : BitVec 32 := 0#32
  ![v2037.toNat, 0]

def k1_chk227 (v2037 : BitVec 32) : Prop :=
  (∀ a, (k1_off454 v2037) a + S1x1024.size a ≤ S32768x1024.size a)
instance k1_chk227.dec : ∀ (v2037 : BitVec 32), Decidable (k1_chk227 v2037) := fun v2037 => decidable_of_iff' _ (Iff.of_eq (k1_chk227.eq_1 v2037))
theorem k1_off454_inb : ∀ (v2037 : BitVec 32) (k1_hw227 : k1_chk227 v2037), ∀ a, (k1_off454 v2037) a + S1x1024.size a ≤ S32768x1024.size a := fun v2037 k1_hw227 => k1_hw227

def k1_off455 (i : grid1.Coords) : Fin 1 → Nat :=
  let arg0 : BitVec 32 := BitVec.ofNat 32 (i 0).val
  let c256_i32 : BitVec 32 := 256#32
  let v0 : BitVec 32 := Scalar.muli arg0 c256_i32
  let c227_i32 : BitVec 32 := 227#32
  let v2044 : BitVec 32 := Scalar.addi v0 c227_i32
  let v2045 : Index := Scalar.indexCast v2044
  ![v2045.toNat]
def k1_off456 (v2046 : BitVec 32) : Fin 2 → Nat :=
  let c0_i32_911 : BitVec 32 := 0#32
  ![v2046.toNat, 0]

def k1_chk228 (v2046 : BitVec 32) : Prop :=
  (∀ a, (k1_off456 v2046) a + S1x1024.size a ≤ S32768x1024.size a)
instance k1_chk228.dec : ∀ (v2046 : BitVec 32), Decidable (k1_chk228 v2046) := fun v2046 => decidable_of_iff' _ (Iff.of_eq (k1_chk228.eq_1 v2046))
theorem k1_off456_inb : ∀ (v2046 : BitVec 32) (k1_hw228 : k1_chk228 v2046), ∀ a, (k1_off456 v2046) a + S1x1024.size a ≤ S32768x1024.size a := fun v2046 k1_hw228 => k1_hw228

def k1_off457 (i : grid1.Coords) : Fin 1 → Nat :=
  let arg0 : BitVec 32 := BitVec.ofNat 32 (i 0).val
  let c256_i32 : BitVec 32 := 256#32
  let v0 : BitVec 32 := Scalar.muli arg0 c256_i32
  let c228_i32 : BitVec 32 := 228#32
  let v2053 : BitVec 32 := Scalar.addi v0 c228_i32
  let v2054 : Index := Scalar.indexCast v2053
  ![v2054.toNat]
def k1_off458 (v2055 : BitVec 32) : Fin 2 → Nat :=
  let c0_i32_915 : BitVec 32 := 0#32
  ![v2055.toNat, 0]

def k1_chk229 (v2055 : BitVec 32) : Prop :=
  (∀ a, (k1_off458 v2055) a + S1x1024.size a ≤ S32768x1024.size a)
instance k1_chk229.dec : ∀ (v2055 : BitVec 32), Decidable (k1_chk229 v2055) := fun v2055 => decidable_of_iff' _ (Iff.of_eq (k1_chk229.eq_1 v2055))
theorem k1_off458_inb : ∀ (v2055 : BitVec 32) (k1_hw229 : k1_chk229 v2055), ∀ a, (k1_off458 v2055) a + S1x1024.size a ≤ S32768x1024.size a := fun v2055 k1_hw229 => k1_hw229

def k1_off459 (i : grid1.Coords) : Fin 1 → Nat :=
  let arg0 : BitVec 32 := BitVec.ofNat 32 (i 0).val
  let c256_i32 : BitVec 32 := 256#32
  let v0 : BitVec 32 := Scalar.muli arg0 c256_i32
  let c229_i32 : BitVec 32 := 229#32
  let v2062 : BitVec 32 := Scalar.addi v0 c229_i32
  let v2063 : Index := Scalar.indexCast v2062
  ![v2063.toNat]
def k1_off460 (v2064 : BitVec 32) : Fin 2 → Nat :=
  let c0_i32_919 : BitVec 32 := 0#32
  ![v2064.toNat, 0]

def k1_chk230 (v2064 : BitVec 32) : Prop :=
  (∀ a, (k1_off460 v2064) a + S1x1024.size a ≤ S32768x1024.size a)
instance k1_chk230.dec : ∀ (v2064 : BitVec 32), Decidable (k1_chk230 v2064) := fun v2064 => decidable_of_iff' _ (Iff.of_eq (k1_chk230.eq_1 v2064))
theorem k1_off460_inb : ∀ (v2064 : BitVec 32) (k1_hw230 : k1_chk230 v2064), ∀ a, (k1_off460 v2064) a + S1x1024.size a ≤ S32768x1024.size a := fun v2064 k1_hw230 => k1_hw230

def k1_off461 (i : grid1.Coords) : Fin 1 → Nat :=
  let arg0 : BitVec 32 := BitVec.ofNat 32 (i 0).val
  let c256_i32 : BitVec 32 := 256#32
  let v0 : BitVec 32 := Scalar.muli arg0 c256_i32
  let c230_i32 : BitVec 32 := 230#32
  let v2071 : BitVec 32 := Scalar.addi v0 c230_i32
  let v2072 : Index := Scalar.indexCast v2071
  ![v2072.toNat]
def k1_off462 (v2073 : BitVec 32) : Fin 2 → Nat :=
  let c0_i32_923 : BitVec 32 := 0#32
  ![v2073.toNat, 0]

def k1_chk231 (v2073 : BitVec 32) : Prop :=
  (∀ a, (k1_off462 v2073) a + S1x1024.size a ≤ S32768x1024.size a)
instance k1_chk231.dec : ∀ (v2073 : BitVec 32), Decidable (k1_chk231 v2073) := fun v2073 => decidable_of_iff' _ (Iff.of_eq (k1_chk231.eq_1 v2073))
theorem k1_off462_inb : ∀ (v2073 : BitVec 32) (k1_hw231 : k1_chk231 v2073), ∀ a, (k1_off462 v2073) a + S1x1024.size a ≤ S32768x1024.size a := fun v2073 k1_hw231 => k1_hw231

def k1_off463 (i : grid1.Coords) : Fin 1 → Nat :=
  let arg0 : BitVec 32 := BitVec.ofNat 32 (i 0).val
  let c256_i32 : BitVec 32 := 256#32
  let v0 : BitVec 32 := Scalar.muli arg0 c256_i32
  let c231_i32 : BitVec 32 := 231#32
  let v2080 : BitVec 32 := Scalar.addi v0 c231_i32
  let v2081 : Index := Scalar.indexCast v2080
  ![v2081.toNat]
def k1_off464 (v2082 : BitVec 32) : Fin 2 → Nat :=
  let c0_i32_927 : BitVec 32 := 0#32
  ![v2082.toNat, 0]

def k1_chk232 (v2082 : BitVec 32) : Prop :=
  (∀ a, (k1_off464 v2082) a + S1x1024.size a ≤ S32768x1024.size a)
instance k1_chk232.dec : ∀ (v2082 : BitVec 32), Decidable (k1_chk232 v2082) := fun v2082 => decidable_of_iff' _ (Iff.of_eq (k1_chk232.eq_1 v2082))
theorem k1_off464_inb : ∀ (v2082 : BitVec 32) (k1_hw232 : k1_chk232 v2082), ∀ a, (k1_off464 v2082) a + S1x1024.size a ≤ S32768x1024.size a := fun v2082 k1_hw232 => k1_hw232

def k1_off465 (i : grid1.Coords) : Fin 1 → Nat :=
  let arg0 : BitVec 32 := BitVec.ofNat 32 (i 0).val
  let c256_i32 : BitVec 32 := 256#32
  let v0 : BitVec 32 := Scalar.muli arg0 c256_i32
  let c232_i32 : BitVec 32 := 232#32
  let v2089 : BitVec 32 := Scalar.addi v0 c232_i32
  let v2090 : Index := Scalar.indexCast v2089
  ![v2090.toNat]
def k1_off466 (v2091 : BitVec 32) : Fin 2 → Nat :=
  let c0_i32_931 : BitVec 32 := 0#32
  ![v2091.toNat, 0]

def k1_chk233 (v2091 : BitVec 32) : Prop :=
  (∀ a, (k1_off466 v2091) a + S1x1024.size a ≤ S32768x1024.size a)
instance k1_chk233.dec : ∀ (v2091 : BitVec 32), Decidable (k1_chk233 v2091) := fun v2091 => decidable_of_iff' _ (Iff.of_eq (k1_chk233.eq_1 v2091))
theorem k1_off466_inb : ∀ (v2091 : BitVec 32) (k1_hw233 : k1_chk233 v2091), ∀ a, (k1_off466 v2091) a + S1x1024.size a ≤ S32768x1024.size a := fun v2091 k1_hw233 => k1_hw233

def k1_off467 (i : grid1.Coords) : Fin 1 → Nat :=
  let arg0 : BitVec 32 := BitVec.ofNat 32 (i 0).val
  let c256_i32 : BitVec 32 := 256#32
  let v0 : BitVec 32 := Scalar.muli arg0 c256_i32
  let c233_i32 : BitVec 32 := 233#32
  let v2098 : BitVec 32 := Scalar.addi v0 c233_i32
  let v2099 : Index := Scalar.indexCast v2098
  ![v2099.toNat]
def k1_off468 (v2100 : BitVec 32) : Fin 2 → Nat :=
  let c0_i32_935 : BitVec 32 := 0#32
  ![v2100.toNat, 0]

def k1_chk234 (v2100 : BitVec 32) : Prop :=
  (∀ a, (k1_off468 v2100) a + S1x1024.size a ≤ S32768x1024.size a)
instance k1_chk234.dec : ∀ (v2100 : BitVec 32), Decidable (k1_chk234 v2100) := fun v2100 => decidable_of_iff' _ (Iff.of_eq (k1_chk234.eq_1 v2100))
theorem k1_off468_inb : ∀ (v2100 : BitVec 32) (k1_hw234 : k1_chk234 v2100), ∀ a, (k1_off468 v2100) a + S1x1024.size a ≤ S32768x1024.size a := fun v2100 k1_hw234 => k1_hw234

def k1_off469 (i : grid1.Coords) : Fin 1 → Nat :=
  let arg0 : BitVec 32 := BitVec.ofNat 32 (i 0).val
  let c256_i32 : BitVec 32 := 256#32
  let v0 : BitVec 32 := Scalar.muli arg0 c256_i32
  let c234_i32 : BitVec 32 := 234#32
  let v2107 : BitVec 32 := Scalar.addi v0 c234_i32
  let v2108 : Index := Scalar.indexCast v2107
  ![v2108.toNat]
def k1_off470 (v2109 : BitVec 32) : Fin 2 → Nat :=
  let c0_i32_939 : BitVec 32 := 0#32
  ![v2109.toNat, 0]

def k1_chk235 (v2109 : BitVec 32) : Prop :=
  (∀ a, (k1_off470 v2109) a + S1x1024.size a ≤ S32768x1024.size a)
instance k1_chk235.dec : ∀ (v2109 : BitVec 32), Decidable (k1_chk235 v2109) := fun v2109 => decidable_of_iff' _ (Iff.of_eq (k1_chk235.eq_1 v2109))
theorem k1_off470_inb : ∀ (v2109 : BitVec 32) (k1_hw235 : k1_chk235 v2109), ∀ a, (k1_off470 v2109) a + S1x1024.size a ≤ S32768x1024.size a := fun v2109 k1_hw235 => k1_hw235

def k1_off471 (i : grid1.Coords) : Fin 1 → Nat :=
  let arg0 : BitVec 32 := BitVec.ofNat 32 (i 0).val
  let c256_i32 : BitVec 32 := 256#32
  let v0 : BitVec 32 := Scalar.muli arg0 c256_i32
  let c235_i32 : BitVec 32 := 235#32
  let v2116 : BitVec 32 := Scalar.addi v0 c235_i32
  let v2117 : Index := Scalar.indexCast v2116
  ![v2117.toNat]
def k1_off472 (v2118 : BitVec 32) : Fin 2 → Nat :=
  let c0_i32_943 : BitVec 32 := 0#32
  ![v2118.toNat, 0]

def k1_chk236 (v2118 : BitVec 32) : Prop :=
  (∀ a, (k1_off472 v2118) a + S1x1024.size a ≤ S32768x1024.size a)
instance k1_chk236.dec : ∀ (v2118 : BitVec 32), Decidable (k1_chk236 v2118) := fun v2118 => decidable_of_iff' _ (Iff.of_eq (k1_chk236.eq_1 v2118))
theorem k1_off472_inb : ∀ (v2118 : BitVec 32) (k1_hw236 : k1_chk236 v2118), ∀ a, (k1_off472 v2118) a + S1x1024.size a ≤ S32768x1024.size a := fun v2118 k1_hw236 => k1_hw236

def k1_off473 (i : grid1.Coords) : Fin 1 → Nat :=
  let arg0 : BitVec 32 := BitVec.ofNat 32 (i 0).val
  let c256_i32 : BitVec 32 := 256#32
  let v0 : BitVec 32 := Scalar.muli arg0 c256_i32
  let c236_i32 : BitVec 32 := 236#32
  let v2125 : BitVec 32 := Scalar.addi v0 c236_i32
  let v2126 : Index := Scalar.indexCast v2125
  ![v2126.toNat]
def k1_off474 (v2127 : BitVec 32) : Fin 2 → Nat :=
  let c0_i32_947 : BitVec 32 := 0#32
  ![v2127.toNat, 0]

def k1_chk237 (v2127 : BitVec 32) : Prop :=
  (∀ a, (k1_off474 v2127) a + S1x1024.size a ≤ S32768x1024.size a)
instance k1_chk237.dec : ∀ (v2127 : BitVec 32), Decidable (k1_chk237 v2127) := fun v2127 => decidable_of_iff' _ (Iff.of_eq (k1_chk237.eq_1 v2127))
theorem k1_off474_inb : ∀ (v2127 : BitVec 32) (k1_hw237 : k1_chk237 v2127), ∀ a, (k1_off474 v2127) a + S1x1024.size a ≤ S32768x1024.size a := fun v2127 k1_hw237 => k1_hw237

def k1_off475 (i : grid1.Coords) : Fin 1 → Nat :=
  let arg0 : BitVec 32 := BitVec.ofNat 32 (i 0).val
  let c256_i32 : BitVec 32 := 256#32
  let v0 : BitVec 32 := Scalar.muli arg0 c256_i32
  let c237_i32 : BitVec 32 := 237#32
  let v2134 : BitVec 32 := Scalar.addi v0 c237_i32
  let v2135 : Index := Scalar.indexCast v2134
  ![v2135.toNat]
def k1_off476 (v2136 : BitVec 32) : Fin 2 → Nat :=
  let c0_i32_951 : BitVec 32 := 0#32
  ![v2136.toNat, 0]

def k1_chk238 (v2136 : BitVec 32) : Prop :=
  (∀ a, (k1_off476 v2136) a + S1x1024.size a ≤ S32768x1024.size a)
instance k1_chk238.dec : ∀ (v2136 : BitVec 32), Decidable (k1_chk238 v2136) := fun v2136 => decidable_of_iff' _ (Iff.of_eq (k1_chk238.eq_1 v2136))
theorem k1_off476_inb : ∀ (v2136 : BitVec 32) (k1_hw238 : k1_chk238 v2136), ∀ a, (k1_off476 v2136) a + S1x1024.size a ≤ S32768x1024.size a := fun v2136 k1_hw238 => k1_hw238

def k1_off477 (i : grid1.Coords) : Fin 1 → Nat :=
  let arg0 : BitVec 32 := BitVec.ofNat 32 (i 0).val
  let c256_i32 : BitVec 32 := 256#32
  let v0 : BitVec 32 := Scalar.muli arg0 c256_i32
  let c238_i32 : BitVec 32 := 238#32
  let v2143 : BitVec 32 := Scalar.addi v0 c238_i32
  let v2144 : Index := Scalar.indexCast v2143
  ![v2144.toNat]
def k1_off478 (v2145 : BitVec 32) : Fin 2 → Nat :=
  let c0_i32_955 : BitVec 32 := 0#32
  ![v2145.toNat, 0]

def k1_chk239 (v2145 : BitVec 32) : Prop :=
  (∀ a, (k1_off478 v2145) a + S1x1024.size a ≤ S32768x1024.size a)
instance k1_chk239.dec : ∀ (v2145 : BitVec 32), Decidable (k1_chk239 v2145) := fun v2145 => decidable_of_iff' _ (Iff.of_eq (k1_chk239.eq_1 v2145))
theorem k1_off478_inb : ∀ (v2145 : BitVec 32) (k1_hw239 : k1_chk239 v2145), ∀ a, (k1_off478 v2145) a + S1x1024.size a ≤ S32768x1024.size a := fun v2145 k1_hw239 => k1_hw239

def k1_off479 (i : grid1.Coords) : Fin 1 → Nat :=
  let arg0 : BitVec 32 := BitVec.ofNat 32 (i 0).val
  let c256_i32 : BitVec 32 := 256#32
  let v0 : BitVec 32 := Scalar.muli arg0 c256_i32
  let c239_i32 : BitVec 32 := 239#32
  let v2152 : BitVec 32 := Scalar.addi v0 c239_i32
  let v2153 : Index := Scalar.indexCast v2152
  ![v2153.toNat]
def k1_off480 (v2154 : BitVec 32) : Fin 2 → Nat :=
  let c0_i32_959 : BitVec 32 := 0#32
  ![v2154.toNat, 0]

def k1_chk240 (v2154 : BitVec 32) : Prop :=
  (∀ a, (k1_off480 v2154) a + S1x1024.size a ≤ S32768x1024.size a)
instance k1_chk240.dec : ∀ (v2154 : BitVec 32), Decidable (k1_chk240 v2154) := fun v2154 => decidable_of_iff' _ (Iff.of_eq (k1_chk240.eq_1 v2154))
theorem k1_off480_inb : ∀ (v2154 : BitVec 32) (k1_hw240 : k1_chk240 v2154), ∀ a, (k1_off480 v2154) a + S1x1024.size a ≤ S32768x1024.size a := fun v2154 k1_hw240 => k1_hw240

def k1_off481 (i : grid1.Coords) : Fin 1 → Nat :=
  let arg0 : BitVec 32 := BitVec.ofNat 32 (i 0).val
  let c256_i32 : BitVec 32 := 256#32
  let v0 : BitVec 32 := Scalar.muli arg0 c256_i32
  let c240_i32 : BitVec 32 := 240#32
  let v2161 : BitVec 32 := Scalar.addi v0 c240_i32
  let v2162 : Index := Scalar.indexCast v2161
  ![v2162.toNat]
def k1_off482 (v2163 : BitVec 32) : Fin 2 → Nat :=
  let c0_i32_963 : BitVec 32 := 0#32
  ![v2163.toNat, 0]

def k1_chk241 (v2163 : BitVec 32) : Prop :=
  (∀ a, (k1_off482 v2163) a + S1x1024.size a ≤ S32768x1024.size a)
instance k1_chk241.dec : ∀ (v2163 : BitVec 32), Decidable (k1_chk241 v2163) := fun v2163 => decidable_of_iff' _ (Iff.of_eq (k1_chk241.eq_1 v2163))
theorem k1_off482_inb : ∀ (v2163 : BitVec 32) (k1_hw241 : k1_chk241 v2163), ∀ a, (k1_off482 v2163) a + S1x1024.size a ≤ S32768x1024.size a := fun v2163 k1_hw241 => k1_hw241

def k1_off483 (i : grid1.Coords) : Fin 1 → Nat :=
  let arg0 : BitVec 32 := BitVec.ofNat 32 (i 0).val
  let c256_i32 : BitVec 32 := 256#32
  let v0 : BitVec 32 := Scalar.muli arg0 c256_i32
  let c241_i32 : BitVec 32 := 241#32
  let v2170 : BitVec 32 := Scalar.addi v0 c241_i32
  let v2171 : Index := Scalar.indexCast v2170
  ![v2171.toNat]
def k1_off484 (v2172 : BitVec 32) : Fin 2 → Nat :=
  let c0_i32_967 : BitVec 32 := 0#32
  ![v2172.toNat, 0]

def k1_chk242 (v2172 : BitVec 32) : Prop :=
  (∀ a, (k1_off484 v2172) a + S1x1024.size a ≤ S32768x1024.size a)
instance k1_chk242.dec : ∀ (v2172 : BitVec 32), Decidable (k1_chk242 v2172) := fun v2172 => decidable_of_iff' _ (Iff.of_eq (k1_chk242.eq_1 v2172))
theorem k1_off484_inb : ∀ (v2172 : BitVec 32) (k1_hw242 : k1_chk242 v2172), ∀ a, (k1_off484 v2172) a + S1x1024.size a ≤ S32768x1024.size a := fun v2172 k1_hw242 => k1_hw242

def k1_off485 (i : grid1.Coords) : Fin 1 → Nat :=
  let arg0 : BitVec 32 := BitVec.ofNat 32 (i 0).val
  let c256_i32 : BitVec 32 := 256#32
  let v0 : BitVec 32 := Scalar.muli arg0 c256_i32
  let c242_i32 : BitVec 32 := 242#32
  let v2179 : BitVec 32 := Scalar.addi v0 c242_i32
  let v2180 : Index := Scalar.indexCast v2179
  ![v2180.toNat]
def k1_off486 (v2181 : BitVec 32) : Fin 2 → Nat :=
  let c0_i32_971 : BitVec 32 := 0#32
  ![v2181.toNat, 0]

def k1_chk243 (v2181 : BitVec 32) : Prop :=
  (∀ a, (k1_off486 v2181) a + S1x1024.size a ≤ S32768x1024.size a)
instance k1_chk243.dec : ∀ (v2181 : BitVec 32), Decidable (k1_chk243 v2181) := fun v2181 => decidable_of_iff' _ (Iff.of_eq (k1_chk243.eq_1 v2181))
theorem k1_off486_inb : ∀ (v2181 : BitVec 32) (k1_hw243 : k1_chk243 v2181), ∀ a, (k1_off486 v2181) a + S1x1024.size a ≤ S32768x1024.size a := fun v2181 k1_hw243 => k1_hw243

def k1_off487 (i : grid1.Coords) : Fin 1 → Nat :=
  let arg0 : BitVec 32 := BitVec.ofNat 32 (i 0).val
  let c256_i32 : BitVec 32 := 256#32
  let v0 : BitVec 32 := Scalar.muli arg0 c256_i32
  let c243_i32 : BitVec 32 := 243#32
  let v2188 : BitVec 32 := Scalar.addi v0 c243_i32
  let v2189 : Index := Scalar.indexCast v2188
  ![v2189.toNat]
def k1_off488 (v2190 : BitVec 32) : Fin 2 → Nat :=
  let c0_i32_975 : BitVec 32 := 0#32
  ![v2190.toNat, 0]

def k1_chk244 (v2190 : BitVec 32) : Prop :=
  (∀ a, (k1_off488 v2190) a + S1x1024.size a ≤ S32768x1024.size a)
instance k1_chk244.dec : ∀ (v2190 : BitVec 32), Decidable (k1_chk244 v2190) := fun v2190 => decidable_of_iff' _ (Iff.of_eq (k1_chk244.eq_1 v2190))
theorem k1_off488_inb : ∀ (v2190 : BitVec 32) (k1_hw244 : k1_chk244 v2190), ∀ a, (k1_off488 v2190) a + S1x1024.size a ≤ S32768x1024.size a := fun v2190 k1_hw244 => k1_hw244

def k1_off489 (i : grid1.Coords) : Fin 1 → Nat :=
  let arg0 : BitVec 32 := BitVec.ofNat 32 (i 0).val
  let c256_i32 : BitVec 32 := 256#32
  let v0 : BitVec 32 := Scalar.muli arg0 c256_i32
  let c244_i32 : BitVec 32 := 244#32
  let v2197 : BitVec 32 := Scalar.addi v0 c244_i32
  let v2198 : Index := Scalar.indexCast v2197
  ![v2198.toNat]
def k1_off490 (v2199 : BitVec 32) : Fin 2 → Nat :=
  let c0_i32_979 : BitVec 32 := 0#32
  ![v2199.toNat, 0]

def k1_chk245 (v2199 : BitVec 32) : Prop :=
  (∀ a, (k1_off490 v2199) a + S1x1024.size a ≤ S32768x1024.size a)
instance k1_chk245.dec : ∀ (v2199 : BitVec 32), Decidable (k1_chk245 v2199) := fun v2199 => decidable_of_iff' _ (Iff.of_eq (k1_chk245.eq_1 v2199))
theorem k1_off490_inb : ∀ (v2199 : BitVec 32) (k1_hw245 : k1_chk245 v2199), ∀ a, (k1_off490 v2199) a + S1x1024.size a ≤ S32768x1024.size a := fun v2199 k1_hw245 => k1_hw245

def k1_off491 (i : grid1.Coords) : Fin 1 → Nat :=
  let arg0 : BitVec 32 := BitVec.ofNat 32 (i 0).val
  let c256_i32 : BitVec 32 := 256#32
  let v0 : BitVec 32 := Scalar.muli arg0 c256_i32
  let c245_i32 : BitVec 32 := 245#32
  let v2206 : BitVec 32 := Scalar.addi v0 c245_i32
  let v2207 : Index := Scalar.indexCast v2206
  ![v2207.toNat]
def k1_off492 (v2208 : BitVec 32) : Fin 2 → Nat :=
  let c0_i32_983 : BitVec 32 := 0#32
  ![v2208.toNat, 0]

def k1_chk246 (v2208 : BitVec 32) : Prop :=
  (∀ a, (k1_off492 v2208) a + S1x1024.size a ≤ S32768x1024.size a)
instance k1_chk246.dec : ∀ (v2208 : BitVec 32), Decidable (k1_chk246 v2208) := fun v2208 => decidable_of_iff' _ (Iff.of_eq (k1_chk246.eq_1 v2208))
theorem k1_off492_inb : ∀ (v2208 : BitVec 32) (k1_hw246 : k1_chk246 v2208), ∀ a, (k1_off492 v2208) a + S1x1024.size a ≤ S32768x1024.size a := fun v2208 k1_hw246 => k1_hw246

def k1_off493 (i : grid1.Coords) : Fin 1 → Nat :=
  let arg0 : BitVec 32 := BitVec.ofNat 32 (i 0).val
  let c256_i32 : BitVec 32 := 256#32
  let v0 : BitVec 32 := Scalar.muli arg0 c256_i32
  let c246_i32 : BitVec 32 := 246#32
  let v2215 : BitVec 32 := Scalar.addi v0 c246_i32
  let v2216 : Index := Scalar.indexCast v2215
  ![v2216.toNat]
def k1_off494 (v2217 : BitVec 32) : Fin 2 → Nat :=
  let c0_i32_987 : BitVec 32 := 0#32
  ![v2217.toNat, 0]

def k1_chk247 (v2217 : BitVec 32) : Prop :=
  (∀ a, (k1_off494 v2217) a + S1x1024.size a ≤ S32768x1024.size a)
instance k1_chk247.dec : ∀ (v2217 : BitVec 32), Decidable (k1_chk247 v2217) := fun v2217 => decidable_of_iff' _ (Iff.of_eq (k1_chk247.eq_1 v2217))
theorem k1_off494_inb : ∀ (v2217 : BitVec 32) (k1_hw247 : k1_chk247 v2217), ∀ a, (k1_off494 v2217) a + S1x1024.size a ≤ S32768x1024.size a := fun v2217 k1_hw247 => k1_hw247

def k1_off495 (i : grid1.Coords) : Fin 1 → Nat :=
  let arg0 : BitVec 32 := BitVec.ofNat 32 (i 0).val
  let c256_i32 : BitVec 32 := 256#32
  let v0 : BitVec 32 := Scalar.muli arg0 c256_i32
  let c247_i32 : BitVec 32 := 247#32
  let v2224 : BitVec 32 := Scalar.addi v0 c247_i32
  let v2225 : Index := Scalar.indexCast v2224
  ![v2225.toNat]
def k1_off496 (v2226 : BitVec 32) : Fin 2 → Nat :=
  let c0_i32_991 : BitVec 32 := 0#32
  ![v2226.toNat, 0]

def k1_chk248 (v2226 : BitVec 32) : Prop :=
  (∀ a, (k1_off496 v2226) a + S1x1024.size a ≤ S32768x1024.size a)
instance k1_chk248.dec : ∀ (v2226 : BitVec 32), Decidable (k1_chk248 v2226) := fun v2226 => decidable_of_iff' _ (Iff.of_eq (k1_chk248.eq_1 v2226))
theorem k1_off496_inb : ∀ (v2226 : BitVec 32) (k1_hw248 : k1_chk248 v2226), ∀ a, (k1_off496 v2226) a + S1x1024.size a ≤ S32768x1024.size a := fun v2226 k1_hw248 => k1_hw248

def k1_off497 (i : grid1.Coords) : Fin 1 → Nat :=
  let arg0 : BitVec 32 := BitVec.ofNat 32 (i 0).val
  let c256_i32 : BitVec 32 := 256#32
  let v0 : BitVec 32 := Scalar.muli arg0 c256_i32
  let c248_i32 : BitVec 32 := 248#32
  let v2233 : BitVec 32 := Scalar.addi v0 c248_i32
  let v2234 : Index := Scalar.indexCast v2233
  ![v2234.toNat]
def k1_off498 (v2235 : BitVec 32) : Fin 2 → Nat :=
  let c0_i32_995 : BitVec 32 := 0#32
  ![v2235.toNat, 0]

def k1_chk249 (v2235 : BitVec 32) : Prop :=
  (∀ a, (k1_off498 v2235) a + S1x1024.size a ≤ S32768x1024.size a)
instance k1_chk249.dec : ∀ (v2235 : BitVec 32), Decidable (k1_chk249 v2235) := fun v2235 => decidable_of_iff' _ (Iff.of_eq (k1_chk249.eq_1 v2235))
theorem k1_off498_inb : ∀ (v2235 : BitVec 32) (k1_hw249 : k1_chk249 v2235), ∀ a, (k1_off498 v2235) a + S1x1024.size a ≤ S32768x1024.size a := fun v2235 k1_hw249 => k1_hw249

def k1_off499 (i : grid1.Coords) : Fin 1 → Nat :=
  let arg0 : BitVec 32 := BitVec.ofNat 32 (i 0).val
  let c256_i32 : BitVec 32 := 256#32
  let v0 : BitVec 32 := Scalar.muli arg0 c256_i32
  let c249_i32 : BitVec 32 := 249#32
  let v2242 : BitVec 32 := Scalar.addi v0 c249_i32
  let v2243 : Index := Scalar.indexCast v2242
  ![v2243.toNat]
def k1_off500 (v2244 : BitVec 32) : Fin 2 → Nat :=
  let c0_i32_999 : BitVec 32 := 0#32
  ![v2244.toNat, 0]

def k1_chk250 (v2244 : BitVec 32) : Prop :=
  (∀ a, (k1_off500 v2244) a + S1x1024.size a ≤ S32768x1024.size a)
instance k1_chk250.dec : ∀ (v2244 : BitVec 32), Decidable (k1_chk250 v2244) := fun v2244 => decidable_of_iff' _ (Iff.of_eq (k1_chk250.eq_1 v2244))
theorem k1_off500_inb : ∀ (v2244 : BitVec 32) (k1_hw250 : k1_chk250 v2244), ∀ a, (k1_off500 v2244) a + S1x1024.size a ≤ S32768x1024.size a := fun v2244 k1_hw250 => k1_hw250

def k1_off501 (i : grid1.Coords) : Fin 1 → Nat :=
  let arg0 : BitVec 32 := BitVec.ofNat 32 (i 0).val
  let c256_i32 : BitVec 32 := 256#32
  let v0 : BitVec 32 := Scalar.muli arg0 c256_i32
  let c250_i32 : BitVec 32 := 250#32
  let v2251 : BitVec 32 := Scalar.addi v0 c250_i32
  let v2252 : Index := Scalar.indexCast v2251
  ![v2252.toNat]
def k1_off502 (v2253 : BitVec 32) : Fin 2 → Nat :=
  let c0_i32_1003 : BitVec 32 := 0#32
  ![v2253.toNat, 0]

def k1_chk251 (v2253 : BitVec 32) : Prop :=
  (∀ a, (k1_off502 v2253) a + S1x1024.size a ≤ S32768x1024.size a)
instance k1_chk251.dec : ∀ (v2253 : BitVec 32), Decidable (k1_chk251 v2253) := fun v2253 => decidable_of_iff' _ (Iff.of_eq (k1_chk251.eq_1 v2253))
theorem k1_off502_inb : ∀ (v2253 : BitVec 32) (k1_hw251 : k1_chk251 v2253), ∀ a, (k1_off502 v2253) a + S1x1024.size a ≤ S32768x1024.size a := fun v2253 k1_hw251 => k1_hw251

def k1_off503 (i : grid1.Coords) : Fin 1 → Nat :=
  let arg0 : BitVec 32 := BitVec.ofNat 32 (i 0).val
  let c256_i32 : BitVec 32 := 256#32
  let v0 : BitVec 32 := Scalar.muli arg0 c256_i32
  let c251_i32 : BitVec 32 := 251#32
  let v2260 : BitVec 32 := Scalar.addi v0 c251_i32
  let v2261 : Index := Scalar.indexCast v2260
  ![v2261.toNat]
def k1_off504 (v2262 : BitVec 32) : Fin 2 → Nat :=
  let c0_i32_1007 : BitVec 32 := 0#32
  ![v2262.toNat, 0]

def k1_chk252 (v2262 : BitVec 32) : Prop :=
  (∀ a, (k1_off504 v2262) a + S1x1024.size a ≤ S32768x1024.size a)
instance k1_chk252.dec : ∀ (v2262 : BitVec 32), Decidable (k1_chk252 v2262) := fun v2262 => decidable_of_iff' _ (Iff.of_eq (k1_chk252.eq_1 v2262))
theorem k1_off504_inb : ∀ (v2262 : BitVec 32) (k1_hw252 : k1_chk252 v2262), ∀ a, (k1_off504 v2262) a + S1x1024.size a ≤ S32768x1024.size a := fun v2262 k1_hw252 => k1_hw252

def k1_off505 (i : grid1.Coords) : Fin 1 → Nat :=
  let arg0 : BitVec 32 := BitVec.ofNat 32 (i 0).val
  let c256_i32 : BitVec 32 := 256#32
  let v0 : BitVec 32 := Scalar.muli arg0 c256_i32
  let c252_i32 : BitVec 32 := 252#32
  let v2269 : BitVec 32 := Scalar.addi v0 c252_i32
  let v2270 : Index := Scalar.indexCast v2269
  ![v2270.toNat]
def k1_off506 (v2271 : BitVec 32) : Fin 2 → Nat :=
  let c0_i32_1011 : BitVec 32 := 0#32
  ![v2271.toNat, 0]

def k1_chk253 (v2271 : BitVec 32) : Prop :=
  (∀ a, (k1_off506 v2271) a + S1x1024.size a ≤ S32768x1024.size a)
instance k1_chk253.dec : ∀ (v2271 : BitVec 32), Decidable (k1_chk253 v2271) := fun v2271 => decidable_of_iff' _ (Iff.of_eq (k1_chk253.eq_1 v2271))
theorem k1_off506_inb : ∀ (v2271 : BitVec 32) (k1_hw253 : k1_chk253 v2271), ∀ a, (k1_off506 v2271) a + S1x1024.size a ≤ S32768x1024.size a := fun v2271 k1_hw253 => k1_hw253

def k1_off507 (i : grid1.Coords) : Fin 1 → Nat :=
  let arg0 : BitVec 32 := BitVec.ofNat 32 (i 0).val
  let c256_i32 : BitVec 32 := 256#32
  let v0 : BitVec 32 := Scalar.muli arg0 c256_i32
  let c253_i32 : BitVec 32 := 253#32
  let v2278 : BitVec 32 := Scalar.addi v0 c253_i32
  let v2279 : Index := Scalar.indexCast v2278
  ![v2279.toNat]
def k1_off508 (v2280 : BitVec 32) : Fin 2 → Nat :=
  let c0_i32_1015 : BitVec 32 := 0#32
  ![v2280.toNat, 0]

def k1_chk254 (v2280 : BitVec 32) : Prop :=
  (∀ a, (k1_off508 v2280) a + S1x1024.size a ≤ S32768x1024.size a)
instance k1_chk254.dec : ∀ (v2280 : BitVec 32), Decidable (k1_chk254 v2280) := fun v2280 => decidable_of_iff' _ (Iff.of_eq (k1_chk254.eq_1 v2280))
theorem k1_off508_inb : ∀ (v2280 : BitVec 32) (k1_hw254 : k1_chk254 v2280), ∀ a, (k1_off508 v2280) a + S1x1024.size a ≤ S32768x1024.size a := fun v2280 k1_hw254 => k1_hw254

def k1_off509 (i : grid1.Coords) : Fin 1 → Nat :=
  let arg0 : BitVec 32 := BitVec.ofNat 32 (i 0).val
  let c256_i32 : BitVec 32 := 256#32
  let v0 : BitVec 32 := Scalar.muli arg0 c256_i32
  let c254_i32 : BitVec 32 := 254#32
  let v2287 : BitVec 32 := Scalar.addi v0 c254_i32
  let v2288 : Index := Scalar.indexCast v2287
  ![v2288.toNat]
def k1_off510 (v2289 : BitVec 32) : Fin 2 → Nat :=
  let c0_i32_1019 : BitVec 32 := 0#32
  ![v2289.toNat, 0]

def k1_chk255 (v2289 : BitVec 32) : Prop :=
  (∀ a, (k1_off510 v2289) a + S1x1024.size a ≤ S32768x1024.size a)
instance k1_chk255.dec : ∀ (v2289 : BitVec 32), Decidable (k1_chk255 v2289) := fun v2289 => decidable_of_iff' _ (Iff.of_eq (k1_chk255.eq_1 v2289))
theorem k1_off510_inb : ∀ (v2289 : BitVec 32) (k1_hw255 : k1_chk255 v2289), ∀ a, (k1_off510 v2289) a + S1x1024.size a ≤ S32768x1024.size a := fun v2289 k1_hw255 => k1_hw255

def k1_off511 (i : grid1.Coords) : Fin 1 → Nat :=
  let arg0 : BitVec 32 := BitVec.ofNat 32 (i 0).val
  let c256_i32 : BitVec 32 := 256#32
  let v0 : BitVec 32 := Scalar.muli arg0 c256_i32
  let c255_i32 : BitVec 32 := 255#32
  let v2296 : BitVec 32 := Scalar.addi v0 c255_i32
  let v2297 : Index := Scalar.indexCast v2296
  ![v2297.toNat]
def k1_off512 (v2298 : BitVec 32) : Fin 2 → Nat :=
  let c0_i32_1023 : BitVec 32 := 0#32
  ![v2298.toNat, 0]

def k1_chk256 (v2298 : BitVec 32) : Prop :=
  (∀ a, (k1_off512 v2298) a + S1x1024.size a ≤ S32768x1024.size a)
instance k1_chk256.dec : ∀ (v2298 : BitVec 32), Decidable (k1_chk256 v2298) := fun v2298 => decidable_of_iff' _ (Iff.of_eq (k1_chk256.eq_1 v2298))
theorem k1_off512_inb : ∀ (v2298 : BitVec 32) (k1_hw256 : k1_chk256 v2298), ∀ a, (k1_off512 v2298) a + S1x1024.size a ≤ S32768x1024.size a := fun v2298 k1_hw256 => k1_hw256

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

class K0.Facts₀ : Prop where
  hrank0 : 0 < grid0.rank
  k0_off1_inb : ∀ i : grid0.Coords, ∀ a, (k0_off1 i) a + S1.size a ≤ S16384.size a
  k0_off3_inb : ∀ i : grid0.Coords, ∀ a, (k0_off3 i) a + S1.size a ≤ S16384.size a
  k0_off5_inb : ∀ i : grid0.Coords, ∀ a, (k0_off5 i) a + S1.size a ≤ S16384.size a
  k0_off7_inb : ∀ i : grid0.Coords, ∀ a, (k0_off7 i) a + S1.size a ≤ S16384.size a
  k0_off9_inb : ∀ i : grid0.Coords, ∀ a, (k0_off9 i) a + S1.size a ≤ S16384.size a
  k0_off11_inb : ∀ i : grid0.Coords, ∀ a, (k0_off11 i) a + S1.size a ≤ S16384.size a
  k0_off13_inb : ∀ i : grid0.Coords, ∀ a, (k0_off13 i) a + S1.size a ≤ S16384.size a
  k0_off15_inb : ∀ i : grid0.Coords, ∀ a, (k0_off15 i) a + S1.size a ≤ S16384.size a
  k0_off17_inb : ∀ i : grid0.Coords, ∀ a, (k0_off17 i) a + S1.size a ≤ S16384.size a
  k0_off19_inb : ∀ i : grid0.Coords, ∀ a, (k0_off19 i) a + S1.size a ≤ S16384.size a
  k0_off21_inb : ∀ i : grid0.Coords, ∀ a, (k0_off21 i) a + S1.size a ≤ S16384.size a
  k0_off23_inb : ∀ i : grid0.Coords, ∀ a, (k0_off23 i) a + S1.size a ≤ S16384.size a
  k0_off25_inb : ∀ i : grid0.Coords, ∀ a, (k0_off25 i) a + S1.size a ≤ S16384.size a
  k0_off27_inb : ∀ i : grid0.Coords, ∀ a, (k0_off27 i) a + S1.size a ≤ S16384.size a
  k0_off29_inb : ∀ i : grid0.Coords, ∀ a, (k0_off29 i) a + S1.size a ≤ S16384.size a
  k0_off31_inb : ∀ i : grid0.Coords, ∀ a, (k0_off31 i) a + S1.size a ≤ S16384.size a
  k0_off33_inb : ∀ i : grid0.Coords, ∀ a, (k0_off33 i) a + S1.size a ≤ S16384.size a
  k0_off35_inb : ∀ i : grid0.Coords, ∀ a, (k0_off35 i) a + S1.size a ≤ S16384.size a
  k0_off37_inb : ∀ i : grid0.Coords, ∀ a, (k0_off37 i) a + S1.size a ≤ S16384.size a
  k0_off39_inb : ∀ i : grid0.Coords, ∀ a, (k0_off39 i) a + S1.size a ≤ S16384.size a
  k0_off41_inb : ∀ i : grid0.Coords, ∀ a, (k0_off41 i) a + S1.size a ≤ S16384.size a
  k0_off43_inb : ∀ i : grid0.Coords, ∀ a, (k0_off43 i) a + S1.size a ≤ S16384.size a
  k0_off45_inb : ∀ i : grid0.Coords, ∀ a, (k0_off45 i) a + S1.size a ≤ S16384.size a
  k0_off47_inb : ∀ i : grid0.Coords, ∀ a, (k0_off47 i) a + S1.size a ≤ S16384.size a
  k0_off49_inb : ∀ i : grid0.Coords, ∀ a, (k0_off49 i) a + S1.size a ≤ S16384.size a
  k0_off51_inb : ∀ i : grid0.Coords, ∀ a, (k0_off51 i) a + S1.size a ≤ S16384.size a
  k0_off53_inb : ∀ i : grid0.Coords, ∀ a, (k0_off53 i) a + S1.size a ≤ S16384.size a
  k0_off55_inb : ∀ i : grid0.Coords, ∀ a, (k0_off55 i) a + S1.size a ≤ S16384.size a
  k0_off57_inb : ∀ i : grid0.Coords, ∀ a, (k0_off57 i) a + S1.size a ≤ S16384.size a
  k0_off59_inb : ∀ i : grid0.Coords, ∀ a, (k0_off59 i) a + S1.size a ≤ S16384.size a
  k0_off61_inb : ∀ i : grid0.Coords, ∀ a, (k0_off61 i) a + S1.size a ≤ S16384.size a
  k0_off63_inb : ∀ i : grid0.Coords, ∀ a, (k0_off63 i) a + S1.size a ≤ S16384.size a
  k0_off65_inb : ∀ i : grid0.Coords, ∀ a, (k0_off65 i) a + S1.size a ≤ S16384.size a
  k0_off67_inb : ∀ i : grid0.Coords, ∀ a, (k0_off67 i) a + S1.size a ≤ S16384.size a
  k0_off69_inb : ∀ i : grid0.Coords, ∀ a, (k0_off69 i) a + S1.size a ≤ S16384.size a
  k0_off71_inb : ∀ i : grid0.Coords, ∀ a, (k0_off71 i) a + S1.size a ≤ S16384.size a
  k0_off73_inb : ∀ i : grid0.Coords, ∀ a, (k0_off73 i) a + S1.size a ≤ S16384.size a
  k0_off75_inb : ∀ i : grid0.Coords, ∀ a, (k0_off75 i) a + S1.size a ≤ S16384.size a
  k0_off77_inb : ∀ i : grid0.Coords, ∀ a, (k0_off77 i) a + S1.size a ≤ S16384.size a
  k0_off79_inb : ∀ i : grid0.Coords, ∀ a, (k0_off79 i) a + S1.size a ≤ S16384.size a
  k0_off81_inb : ∀ i : grid0.Coords, ∀ a, (k0_off81 i) a + S1.size a ≤ S16384.size a
  k0_off83_inb : ∀ i : grid0.Coords, ∀ a, (k0_off83 i) a + S1.size a ≤ S16384.size a
  k0_off85_inb : ∀ i : grid0.Coords, ∀ a, (k0_off85 i) a + S1.size a ≤ S16384.size a
  k0_off87_inb : ∀ i : grid0.Coords, ∀ a, (k0_off87 i) a + S1.size a ≤ S16384.size a
  k0_off89_inb : ∀ i : grid0.Coords, ∀ a, (k0_off89 i) a + S1.size a ≤ S16384.size a
  k0_off91_inb : ∀ i : grid0.Coords, ∀ a, (k0_off91 i) a + S1.size a ≤ S16384.size a
  k0_off93_inb : ∀ i : grid0.Coords, ∀ a, (k0_off93 i) a + S1.size a ≤ S16384.size a
  k0_off95_inb : ∀ i : grid0.Coords, ∀ a, (k0_off95 i) a + S1.size a ≤ S16384.size a
  k0_off97_inb : ∀ i : grid0.Coords, ∀ a, (k0_off97 i) a + S1.size a ≤ S16384.size a
  k0_off99_inb : ∀ i : grid0.Coords, ∀ a, (k0_off99 i) a + S1.size a ≤ S16384.size a
  k0_off101_inb : ∀ i : grid0.Coords, ∀ a, (k0_off101 i) a + S1.size a ≤ S16384.size a
  k0_off103_inb : ∀ i : grid0.Coords, ∀ a, (k0_off103 i) a + S1.size a ≤ S16384.size a
  k0_off105_inb : ∀ i : grid0.Coords, ∀ a, (k0_off105 i) a + S1.size a ≤ S16384.size a
  k0_off107_inb : ∀ i : grid0.Coords, ∀ a, (k0_off107 i) a + S1.size a ≤ S16384.size a
  k0_off109_inb : ∀ i : grid0.Coords, ∀ a, (k0_off109 i) a + S1.size a ≤ S16384.size a
  k0_off111_inb : ∀ i : grid0.Coords, ∀ a, (k0_off111 i) a + S1.size a ≤ S16384.size a
  k0_off113_inb : ∀ i : grid0.Coords, ∀ a, (k0_off113 i) a + S1.size a ≤ S16384.size a
  k0_off115_inb : ∀ i : grid0.Coords, ∀ a, (k0_off115 i) a + S1.size a ≤ S16384.size a
  k0_off117_inb : ∀ i : grid0.Coords, ∀ a, (k0_off117 i) a + S1.size a ≤ S16384.size a
  k0_off119_inb : ∀ i : grid0.Coords, ∀ a, (k0_off119 i) a + S1.size a ≤ S16384.size a
  k0_off121_inb : ∀ i : grid0.Coords, ∀ a, (k0_off121 i) a + S1.size a ≤ S16384.size a
  k0_off123_inb : ∀ i : grid0.Coords, ∀ a, (k0_off123 i) a + S1.size a ≤ S16384.size a
  k0_off125_inb : ∀ i : grid0.Coords, ∀ a, (k0_off125 i) a + S1.size a ≤ S16384.size a
  k0_off127_inb : ∀ i : grid0.Coords, ∀ a, (k0_off127 i) a + S1.size a ≤ S16384.size a
  k0_off129_inb : ∀ i : grid0.Coords, ∀ a, (k0_off129 i) a + S1.size a ≤ S16384.size a
  k0_off131_inb : ∀ i : grid0.Coords, ∀ a, (k0_off131 i) a + S1.size a ≤ S16384.size a
  k0_off133_inb : ∀ i : grid0.Coords, ∀ a, (k0_off133 i) a + S1.size a ≤ S16384.size a
  k0_off135_inb : ∀ i : grid0.Coords, ∀ a, (k0_off135 i) a + S1.size a ≤ S16384.size a
  k0_off137_inb : ∀ i : grid0.Coords, ∀ a, (k0_off137 i) a + S1.size a ≤ S16384.size a
  k0_off139_inb : ∀ i : grid0.Coords, ∀ a, (k0_off139 i) a + S1.size a ≤ S16384.size a
  k0_off141_inb : ∀ i : grid0.Coords, ∀ a, (k0_off141 i) a + S1.size a ≤ S16384.size a
  k0_off143_inb : ∀ i : grid0.Coords, ∀ a, (k0_off143 i) a + S1.size a ≤ S16384.size a
  k0_off145_inb : ∀ i : grid0.Coords, ∀ a, (k0_off145 i) a + S1.size a ≤ S16384.size a
  k0_off147_inb : ∀ i : grid0.Coords, ∀ a, (k0_off147 i) a + S1.size a ≤ S16384.size a
  k0_off149_inb : ∀ i : grid0.Coords, ∀ a, (k0_off149 i) a + S1.size a ≤ S16384.size a
  k0_off151_inb : ∀ i : grid0.Coords, ∀ a, (k0_off151 i) a + S1.size a ≤ S16384.size a
  k0_off153_inb : ∀ i : grid0.Coords, ∀ a, (k0_off153 i) a + S1.size a ≤ S16384.size a
  k0_off155_inb : ∀ i : grid0.Coords, ∀ a, (k0_off155 i) a + S1.size a ≤ S16384.size a
  k0_off157_inb : ∀ i : grid0.Coords, ∀ a, (k0_off157 i) a + S1.size a ≤ S16384.size a
  k0_off159_inb : ∀ i : grid0.Coords, ∀ a, (k0_off159 i) a + S1.size a ≤ S16384.size a
  k0_off161_inb : ∀ i : grid0.Coords, ∀ a, (k0_off161 i) a + S1.size a ≤ S16384.size a
  k0_off163_inb : ∀ i : grid0.Coords, ∀ a, (k0_off163 i) a + S1.size a ≤ S16384.size a
  k0_off165_inb : ∀ i : grid0.Coords, ∀ a, (k0_off165 i) a + S1.size a ≤ S16384.size a
  k0_off167_inb : ∀ i : grid0.Coords, ∀ a, (k0_off167 i) a + S1.size a ≤ S16384.size a
  k0_off169_inb : ∀ i : grid0.Coords, ∀ a, (k0_off169 i) a + S1.size a ≤ S16384.size a
  k0_off171_inb : ∀ i : grid0.Coords, ∀ a, (k0_off171 i) a + S1.size a ≤ S16384.size a
  k0_off173_inb : ∀ i : grid0.Coords, ∀ a, (k0_off173 i) a + S1.size a ≤ S16384.size a
  k0_off175_inb : ∀ i : grid0.Coords, ∀ a, (k0_off175 i) a + S1.size a ≤ S16384.size a
  k0_off177_inb : ∀ i : grid0.Coords, ∀ a, (k0_off177 i) a + S1.size a ≤ S16384.size a
  k0_off179_inb : ∀ i : grid0.Coords, ∀ a, (k0_off179 i) a + S1.size a ≤ S16384.size a
  k0_off181_inb : ∀ i : grid0.Coords, ∀ a, (k0_off181 i) a + S1.size a ≤ S16384.size a
  k0_off183_inb : ∀ i : grid0.Coords, ∀ a, (k0_off183 i) a + S1.size a ≤ S16384.size a
  k0_off185_inb : ∀ i : grid0.Coords, ∀ a, (k0_off185 i) a + S1.size a ≤ S16384.size a
  k0_off187_inb : ∀ i : grid0.Coords, ∀ a, (k0_off187 i) a + S1.size a ≤ S16384.size a
  k0_off189_inb : ∀ i : grid0.Coords, ∀ a, (k0_off189 i) a + S1.size a ≤ S16384.size a
  k0_off191_inb : ∀ i : grid0.Coords, ∀ a, (k0_off191 i) a + S1.size a ≤ S16384.size a
  k0_off193_inb : ∀ i : grid0.Coords, ∀ a, (k0_off193 i) a + S1.size a ≤ S16384.size a
  k0_off195_inb : ∀ i : grid0.Coords, ∀ a, (k0_off195 i) a + S1.size a ≤ S16384.size a
  k0_off197_inb : ∀ i : grid0.Coords, ∀ a, (k0_off197 i) a + S1.size a ≤ S16384.size a
  k0_off199_inb : ∀ i : grid0.Coords, ∀ a, (k0_off199 i) a + S1.size a ≤ S16384.size a
  k0_off201_inb : ∀ i : grid0.Coords, ∀ a, (k0_off201 i) a + S1.size a ≤ S16384.size a
  k0_off203_inb : ∀ i : grid0.Coords, ∀ a, (k0_off203 i) a + S1.size a ≤ S16384.size a
  k0_off205_inb : ∀ i : grid0.Coords, ∀ a, (k0_off205 i) a + S1.size a ≤ S16384.size a
  k0_off207_inb : ∀ i : grid0.Coords, ∀ a, (k0_off207 i) a + S1.size a ≤ S16384.size a
  k0_off209_inb : ∀ i : grid0.Coords, ∀ a, (k0_off209 i) a + S1.size a ≤ S16384.size a
  k0_off211_inb : ∀ i : grid0.Coords, ∀ a, (k0_off211 i) a + S1.size a ≤ S16384.size a
  k0_off213_inb : ∀ i : grid0.Coords, ∀ a, (k0_off213 i) a + S1.size a ≤ S16384.size a
  k0_off215_inb : ∀ i : grid0.Coords, ∀ a, (k0_off215 i) a + S1.size a ≤ S16384.size a
  k0_off217_inb : ∀ i : grid0.Coords, ∀ a, (k0_off217 i) a + S1.size a ≤ S16384.size a
  k0_off219_inb : ∀ i : grid0.Coords, ∀ a, (k0_off219 i) a + S1.size a ≤ S16384.size a
  k0_off221_inb : ∀ i : grid0.Coords, ∀ a, (k0_off221 i) a + S1.size a ≤ S16384.size a
  k0_off223_inb : ∀ i : grid0.Coords, ∀ a, (k0_off223 i) a + S1.size a ≤ S16384.size a
  k0_off225_inb : ∀ i : grid0.Coords, ∀ a, (k0_off225 i) a + S1.size a ≤ S16384.size a
  k0_off227_inb : ∀ i : grid0.Coords, ∀ a, (k0_off227 i) a + S1.size a ≤ S16384.size a
  k0_off229_inb : ∀ i : grid0.Coords, ∀ a, (k0_off229 i) a + S1.size a ≤ S16384.size a
  k0_off231_inb : ∀ i : grid0.Coords, ∀ a, (k0_off231 i) a + S1.size a ≤ S16384.size a
  k0_off233_inb : ∀ i : grid0.Coords, ∀ a, (k0_off233 i) a + S1.size a ≤ S16384.size a
  k0_off235_inb : ∀ i : grid0.Coords, ∀ a, (k0_off235 i) a + S1.size a ≤ S16384.size a
  k0_off237_inb : ∀ i : grid0.Coords, ∀ a, (k0_off237 i) a + S1.size a ≤ S16384.size a
  k0_off239_inb : ∀ i : grid0.Coords, ∀ a, (k0_off239 i) a + S1.size a ≤ S16384.size a
  k0_off241_inb : ∀ i : grid0.Coords, ∀ a, (k0_off241 i) a + S1.size a ≤ S16384.size a
  k0_off243_inb : ∀ i : grid0.Coords, ∀ a, (k0_off243 i) a + S1.size a ≤ S16384.size a
  k0_off245_inb : ∀ i : grid0.Coords, ∀ a, (k0_off245 i) a + S1.size a ≤ S16384.size a
  k0_off247_inb : ∀ i : grid0.Coords, ∀ a, (k0_off247 i) a + S1.size a ≤ S16384.size a
  k0_off249_inb : ∀ i : grid0.Coords, ∀ a, (k0_off249 i) a + S1.size a ≤ S16384.size a
  k0_off251_inb : ∀ i : grid0.Coords, ∀ a, (k0_off251 i) a + S1.size a ≤ S16384.size a
  k0_off253_inb : ∀ i : grid0.Coords, ∀ a, (k0_off253 i) a + S1.size a ≤ S16384.size a
  k0_off255_inb : ∀ i : grid0.Coords, ∀ a, (k0_off255 i) a + S1.size a ≤ S16384.size a
  k0_off257_inb : ∀ i : grid0.Coords, ∀ a, (k0_off257 i) a + S1.size a ≤ S16384.size a
  k0_off259_inb : ∀ i : grid0.Coords, ∀ a, (k0_off259 i) a + S1.size a ≤ S16384.size a
  k0_off261_inb : ∀ i : grid0.Coords, ∀ a, (k0_off261 i) a + S1.size a ≤ S16384.size a
  k0_off263_inb : ∀ i : grid0.Coords, ∀ a, (k0_off263 i) a + S1.size a ≤ S16384.size a
  k0_off265_inb : ∀ i : grid0.Coords, ∀ a, (k0_off265 i) a + S1.size a ≤ S16384.size a
  k0_off267_inb : ∀ i : grid0.Coords, ∀ a, (k0_off267 i) a + S1.size a ≤ S16384.size a
  k0_off269_inb : ∀ i : grid0.Coords, ∀ a, (k0_off269 i) a + S1.size a ≤ S16384.size a
  k0_off271_inb : ∀ i : grid0.Coords, ∀ a, (k0_off271 i) a + S1.size a ≤ S16384.size a
  k0_off273_inb : ∀ i : grid0.Coords, ∀ a, (k0_off273 i) a + S1.size a ≤ S16384.size a
  k0_off275_inb : ∀ i : grid0.Coords, ∀ a, (k0_off275 i) a + S1.size a ≤ S16384.size a
  k0_off277_inb : ∀ i : grid0.Coords, ∀ a, (k0_off277 i) a + S1.size a ≤ S16384.size a
  k0_off279_inb : ∀ i : grid0.Coords, ∀ a, (k0_off279 i) a + S1.size a ≤ S16384.size a
  k0_off281_inb : ∀ i : grid0.Coords, ∀ a, (k0_off281 i) a + S1.size a ≤ S16384.size a
  k0_off283_inb : ∀ i : grid0.Coords, ∀ a, (k0_off283 i) a + S1.size a ≤ S16384.size a
  k0_off285_inb : ∀ i : grid0.Coords, ∀ a, (k0_off285 i) a + S1.size a ≤ S16384.size a
  k0_off287_inb : ∀ i : grid0.Coords, ∀ a, (k0_off287 i) a + S1.size a ≤ S16384.size a
  k0_off289_inb : ∀ i : grid0.Coords, ∀ a, (k0_off289 i) a + S1.size a ≤ S16384.size a
  k0_off291_inb : ∀ i : grid0.Coords, ∀ a, (k0_off291 i) a + S1.size a ≤ S16384.size a
  k0_off293_inb : ∀ i : grid0.Coords, ∀ a, (k0_off293 i) a + S1.size a ≤ S16384.size a
  k0_off295_inb : ∀ i : grid0.Coords, ∀ a, (k0_off295 i) a + S1.size a ≤ S16384.size a
  k0_off297_inb : ∀ i : grid0.Coords, ∀ a, (k0_off297 i) a + S1.size a ≤ S16384.size a
  k0_off299_inb : ∀ i : grid0.Coords, ∀ a, (k0_off299 i) a + S1.size a ≤ S16384.size a
  k0_off301_inb : ∀ i : grid0.Coords, ∀ a, (k0_off301 i) a + S1.size a ≤ S16384.size a
  k0_off303_inb : ∀ i : grid0.Coords, ∀ a, (k0_off303 i) a + S1.size a ≤ S16384.size a
  k0_off305_inb : ∀ i : grid0.Coords, ∀ a, (k0_off305 i) a + S1.size a ≤ S16384.size a
  k0_off307_inb : ∀ i : grid0.Coords, ∀ a, (k0_off307 i) a + S1.size a ≤ S16384.size a
  k0_off309_inb : ∀ i : grid0.Coords, ∀ a, (k0_off309 i) a + S1.size a ≤ S16384.size a
  k0_off311_inb : ∀ i : grid0.Coords, ∀ a, (k0_off311 i) a + S1.size a ≤ S16384.size a
  k0_off313_inb : ∀ i : grid0.Coords, ∀ a, (k0_off313 i) a + S1.size a ≤ S16384.size a
  k0_off315_inb : ∀ i : grid0.Coords, ∀ a, (k0_off315 i) a + S1.size a ≤ S16384.size a
  k0_off317_inb : ∀ i : grid0.Coords, ∀ a, (k0_off317 i) a + S1.size a ≤ S16384.size a
  k0_off319_inb : ∀ i : grid0.Coords, ∀ a, (k0_off319 i) a + S1.size a ≤ S16384.size a
  k0_off321_inb : ∀ i : grid0.Coords, ∀ a, (k0_off321 i) a + S1.size a ≤ S16384.size a
  k0_off323_inb : ∀ i : grid0.Coords, ∀ a, (k0_off323 i) a + S1.size a ≤ S16384.size a
  k0_off325_inb : ∀ i : grid0.Coords, ∀ a, (k0_off325 i) a + S1.size a ≤ S16384.size a
  k0_off327_inb : ∀ i : grid0.Coords, ∀ a, (k0_off327 i) a + S1.size a ≤ S16384.size a
  k0_off329_inb : ∀ i : grid0.Coords, ∀ a, (k0_off329 i) a + S1.size a ≤ S16384.size a
  k0_off331_inb : ∀ i : grid0.Coords, ∀ a, (k0_off331 i) a + S1.size a ≤ S16384.size a
  k0_off333_inb : ∀ i : grid0.Coords, ∀ a, (k0_off333 i) a + S1.size a ≤ S16384.size a
  k0_off335_inb : ∀ i : grid0.Coords, ∀ a, (k0_off335 i) a + S1.size a ≤ S16384.size a
  k0_off337_inb : ∀ i : grid0.Coords, ∀ a, (k0_off337 i) a + S1.size a ≤ S16384.size a
  k0_off339_inb : ∀ i : grid0.Coords, ∀ a, (k0_off339 i) a + S1.size a ≤ S16384.size a
  k0_off341_inb : ∀ i : grid0.Coords, ∀ a, (k0_off341 i) a + S1.size a ≤ S16384.size a
  k0_off343_inb : ∀ i : grid0.Coords, ∀ a, (k0_off343 i) a + S1.size a ≤ S16384.size a
  k0_off345_inb : ∀ i : grid0.Coords, ∀ a, (k0_off345 i) a + S1.size a ≤ S16384.size a
  k0_off347_inb : ∀ i : grid0.Coords, ∀ a, (k0_off347 i) a + S1.size a ≤ S16384.size a
  k0_off349_inb : ∀ i : grid0.Coords, ∀ a, (k0_off349 i) a + S1.size a ≤ S16384.size a
  k0_off351_inb : ∀ i : grid0.Coords, ∀ a, (k0_off351 i) a + S1.size a ≤ S16384.size a
  k0_off353_inb : ∀ i : grid0.Coords, ∀ a, (k0_off353 i) a + S1.size a ≤ S16384.size a
  k0_off355_inb : ∀ i : grid0.Coords, ∀ a, (k0_off355 i) a + S1.size a ≤ S16384.size a
  k0_off357_inb : ∀ i : grid0.Coords, ∀ a, (k0_off357 i) a + S1.size a ≤ S16384.size a
  k0_off359_inb : ∀ i : grid0.Coords, ∀ a, (k0_off359 i) a + S1.size a ≤ S16384.size a
  k0_off361_inb : ∀ i : grid0.Coords, ∀ a, (k0_off361 i) a + S1.size a ≤ S16384.size a
  k0_off363_inb : ∀ i : grid0.Coords, ∀ a, (k0_off363 i) a + S1.size a ≤ S16384.size a
  k0_off365_inb : ∀ i : grid0.Coords, ∀ a, (k0_off365 i) a + S1.size a ≤ S16384.size a
  k0_off367_inb : ∀ i : grid0.Coords, ∀ a, (k0_off367 i) a + S1.size a ≤ S16384.size a
  k0_off369_inb : ∀ i : grid0.Coords, ∀ a, (k0_off369 i) a + S1.size a ≤ S16384.size a
  k0_off371_inb : ∀ i : grid0.Coords, ∀ a, (k0_off371 i) a + S1.size a ≤ S16384.size a
  k0_off373_inb : ∀ i : grid0.Coords, ∀ a, (k0_off373 i) a + S1.size a ≤ S16384.size a
  k0_off375_inb : ∀ i : grid0.Coords, ∀ a, (k0_off375 i) a + S1.size a ≤ S16384.size a
  k0_off377_inb : ∀ i : grid0.Coords, ∀ a, (k0_off377 i) a + S1.size a ≤ S16384.size a
  k0_off379_inb : ∀ i : grid0.Coords, ∀ a, (k0_off379 i) a + S1.size a ≤ S16384.size a
  k0_off381_inb : ∀ i : grid0.Coords, ∀ a, (k0_off381 i) a + S1.size a ≤ S16384.size a
  k0_off383_inb : ∀ i : grid0.Coords, ∀ a, (k0_off383 i) a + S1.size a ≤ S16384.size a
  k0_off385_inb : ∀ i : grid0.Coords, ∀ a, (k0_off385 i) a + S1.size a ≤ S16384.size a
  k0_off387_inb : ∀ i : grid0.Coords, ∀ a, (k0_off387 i) a + S1.size a ≤ S16384.size a
  k0_off389_inb : ∀ i : grid0.Coords, ∀ a, (k0_off389 i) a + S1.size a ≤ S16384.size a
  k0_off391_inb : ∀ i : grid0.Coords, ∀ a, (k0_off391 i) a + S1.size a ≤ S16384.size a
  k0_off393_inb : ∀ i : grid0.Coords, ∀ a, (k0_off393 i) a + S1.size a ≤ S16384.size a
  k0_off395_inb : ∀ i : grid0.Coords, ∀ a, (k0_off395 i) a + S1.size a ≤ S16384.size a
  k0_off397_inb : ∀ i : grid0.Coords, ∀ a, (k0_off397 i) a + S1.size a ≤ S16384.size a
  k0_off399_inb : ∀ i : grid0.Coords, ∀ a, (k0_off399 i) a + S1.size a ≤ S16384.size a
  k0_off401_inb : ∀ i : grid0.Coords, ∀ a, (k0_off401 i) a + S1.size a ≤ S16384.size a
  k0_off403_inb : ∀ i : grid0.Coords, ∀ a, (k0_off403 i) a + S1.size a ≤ S16384.size a
  k0_off405_inb : ∀ i : grid0.Coords, ∀ a, (k0_off405 i) a + S1.size a ≤ S16384.size a
  k0_off407_inb : ∀ i : grid0.Coords, ∀ a, (k0_off407 i) a + S1.size a ≤ S16384.size a
  k0_off409_inb : ∀ i : grid0.Coords, ∀ a, (k0_off409 i) a + S1.size a ≤ S16384.size a
  k0_off411_inb : ∀ i : grid0.Coords, ∀ a, (k0_off411 i) a + S1.size a ≤ S16384.size a
  k0_off413_inb : ∀ i : grid0.Coords, ∀ a, (k0_off413 i) a + S1.size a ≤ S16384.size a
  k0_off415_inb : ∀ i : grid0.Coords, ∀ a, (k0_off415 i) a + S1.size a ≤ S16384.size a
  k0_off417_inb : ∀ i : grid0.Coords, ∀ a, (k0_off417 i) a + S1.size a ≤ S16384.size a
  k0_off419_inb : ∀ i : grid0.Coords, ∀ a, (k0_off419 i) a + S1.size a ≤ S16384.size a
  k0_off421_inb : ∀ i : grid0.Coords, ∀ a, (k0_off421 i) a + S1.size a ≤ S16384.size a
  k0_off423_inb : ∀ i : grid0.Coords, ∀ a, (k0_off423 i) a + S1.size a ≤ S16384.size a
  k0_off425_inb : ∀ i : grid0.Coords, ∀ a, (k0_off425 i) a + S1.size a ≤ S16384.size a
  k0_off427_inb : ∀ i : grid0.Coords, ∀ a, (k0_off427 i) a + S1.size a ≤ S16384.size a
  k0_off429_inb : ∀ i : grid0.Coords, ∀ a, (k0_off429 i) a + S1.size a ≤ S16384.size a
  k0_off431_inb : ∀ i : grid0.Coords, ∀ a, (k0_off431 i) a + S1.size a ≤ S16384.size a
  k0_off433_inb : ∀ i : grid0.Coords, ∀ a, (k0_off433 i) a + S1.size a ≤ S16384.size a
  k0_off435_inb : ∀ i : grid0.Coords, ∀ a, (k0_off435 i) a + S1.size a ≤ S16384.size a
  k0_off437_inb : ∀ i : grid0.Coords, ∀ a, (k0_off437 i) a + S1.size a ≤ S16384.size a
  k0_off439_inb : ∀ i : grid0.Coords, ∀ a, (k0_off439 i) a + S1.size a ≤ S16384.size a
  k0_off441_inb : ∀ i : grid0.Coords, ∀ a, (k0_off441 i) a + S1.size a ≤ S16384.size a
  k0_off443_inb : ∀ i : grid0.Coords, ∀ a, (k0_off443 i) a + S1.size a ≤ S16384.size a
  k0_off445_inb : ∀ i : grid0.Coords, ∀ a, (k0_off445 i) a + S1.size a ≤ S16384.size a
  k0_off447_inb : ∀ i : grid0.Coords, ∀ a, (k0_off447 i) a + S1.size a ≤ S16384.size a
  k0_off449_inb : ∀ i : grid0.Coords, ∀ a, (k0_off449 i) a + S1.size a ≤ S16384.size a
  k0_off451_inb : ∀ i : grid0.Coords, ∀ a, (k0_off451 i) a + S1.size a ≤ S16384.size a
  k0_off453_inb : ∀ i : grid0.Coords, ∀ a, (k0_off453 i) a + S1.size a ≤ S16384.size a
  k0_off455_inb : ∀ i : grid0.Coords, ∀ a, (k0_off455 i) a + S1.size a ≤ S16384.size a
  k0_off457_inb : ∀ i : grid0.Coords, ∀ a, (k0_off457 i) a + S1.size a ≤ S16384.size a
  k0_off459_inb : ∀ i : grid0.Coords, ∀ a, (k0_off459 i) a + S1.size a ≤ S16384.size a
  k0_off461_inb : ∀ i : grid0.Coords, ∀ a, (k0_off461 i) a + S1.size a ≤ S16384.size a
  k0_off463_inb : ∀ i : grid0.Coords, ∀ a, (k0_off463 i) a + S1.size a ≤ S16384.size a
  k0_off465_inb : ∀ i : grid0.Coords, ∀ a, (k0_off465 i) a + S1.size a ≤ S16384.size a
  k0_off467_inb : ∀ i : grid0.Coords, ∀ a, (k0_off467 i) a + S1.size a ≤ S16384.size a
  k0_off469_inb : ∀ i : grid0.Coords, ∀ a, (k0_off469 i) a + S1.size a ≤ S16384.size a
  k0_off471_inb : ∀ i : grid0.Coords, ∀ a, (k0_off471 i) a + S1.size a ≤ S16384.size a
  k0_off473_inb : ∀ i : grid0.Coords, ∀ a, (k0_off473 i) a + S1.size a ≤ S16384.size a
  k0_off475_inb : ∀ i : grid0.Coords, ∀ a, (k0_off475 i) a + S1.size a ≤ S16384.size a
  k0_off477_inb : ∀ i : grid0.Coords, ∀ a, (k0_off477 i) a + S1.size a ≤ S16384.size a
  k0_off479_inb : ∀ i : grid0.Coords, ∀ a, (k0_off479 i) a + S1.size a ≤ S16384.size a
  k0_off481_inb : ∀ i : grid0.Coords, ∀ a, (k0_off481 i) a + S1.size a ≤ S16384.size a
  k0_off483_inb : ∀ i : grid0.Coords, ∀ a, (k0_off483 i) a + S1.size a ≤ S16384.size a
  k0_off485_inb : ∀ i : grid0.Coords, ∀ a, (k0_off485 i) a + S1.size a ≤ S16384.size a
  k0_off487_inb : ∀ i : grid0.Coords, ∀ a, (k0_off487 i) a + S1.size a ≤ S16384.size a
  k0_off489_inb : ∀ i : grid0.Coords, ∀ a, (k0_off489 i) a + S1.size a ≤ S16384.size a
  k0_off491_inb : ∀ i : grid0.Coords, ∀ a, (k0_off491 i) a + S1.size a ≤ S16384.size a
  k0_off493_inb : ∀ i : grid0.Coords, ∀ a, (k0_off493 i) a + S1.size a ≤ S16384.size a
  k0_off495_inb : ∀ i : grid0.Coords, ∀ a, (k0_off495 i) a + S1.size a ≤ S16384.size a
  k0_off497_inb : ∀ i : grid0.Coords, ∀ a, (k0_off497 i) a + S1.size a ≤ S16384.size a
  k0_off499_inb : ∀ i : grid0.Coords, ∀ a, (k0_off499 i) a + S1.size a ≤ S16384.size a
  k0_off501_inb : ∀ i : grid0.Coords, ∀ a, (k0_off501 i) a + S1.size a ≤ S16384.size a
  k0_off503_inb : ∀ i : grid0.Coords, ∀ a, (k0_off503 i) a + S1.size a ≤ S16384.size a
  k0_off505_inb : ∀ i : grid0.Coords, ∀ a, (k0_off505 i) a + S1.size a ≤ S16384.size a
  k0_off507_inb : ∀ i : grid0.Coords, ∀ a, (k0_off507 i) a + S1.size a ≤ S16384.size a
  k0_off509_inb : ∀ i : grid0.Coords, ∀ a, (k0_off509 i) a + S1.size a ≤ S16384.size a
  k0_off511_inb : ∀ i : grid0.Coords, ∀ a, (k0_off511 i) a + S1.size a ≤ S16384.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S1024x1024.size a ≤ S1024x1024.size a
  hwx0_0 : ∀ i : grid0.Coords, EltTy.bits .bf16 = 32 ∨ (Rect.block (s := S1024x1024) S1024x1024.size (cc0_transform_1 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S256x1024.size a ≤ S16384x1024.size a
  hwx0_1 : ∀ i : grid0.Coords, EltTy.bits .f32 = 32 ∨ (Rect.block (s := S16384x1024) S256x1024.size (cc0_transform_2 i) (hinb0_1 i)).WholeWords (EltTy.packing .f32)

class K1.Facts₀ : Prop where
  hrank1 : 0 < grid1.rank
  k1_off1_inb : ∀ i : grid1.Coords, ∀ a, (k1_off1 i) a + S1.size a ≤ S16384.size a
  k1_off3_inb : ∀ i : grid1.Coords, ∀ a, (k1_off3 i) a + S1.size a ≤ S16384.size a
  k1_off5_inb : ∀ i : grid1.Coords, ∀ a, (k1_off5 i) a + S1.size a ≤ S16384.size a
  k1_off7_inb : ∀ i : grid1.Coords, ∀ a, (k1_off7 i) a + S1.size a ≤ S16384.size a
  k1_off9_inb : ∀ i : grid1.Coords, ∀ a, (k1_off9 i) a + S1.size a ≤ S16384.size a
  k1_off11_inb : ∀ i : grid1.Coords, ∀ a, (k1_off11 i) a + S1.size a ≤ S16384.size a
  k1_off13_inb : ∀ i : grid1.Coords, ∀ a, (k1_off13 i) a + S1.size a ≤ S16384.size a
  k1_off15_inb : ∀ i : grid1.Coords, ∀ a, (k1_off15 i) a + S1.size a ≤ S16384.size a
  k1_off17_inb : ∀ i : grid1.Coords, ∀ a, (k1_off17 i) a + S1.size a ≤ S16384.size a
  k1_off19_inb : ∀ i : grid1.Coords, ∀ a, (k1_off19 i) a + S1.size a ≤ S16384.size a
  k1_off21_inb : ∀ i : grid1.Coords, ∀ a, (k1_off21 i) a + S1.size a ≤ S16384.size a
  k1_off23_inb : ∀ i : grid1.Coords, ∀ a, (k1_off23 i) a + S1.size a ≤ S16384.size a
  k1_off25_inb : ∀ i : grid1.Coords, ∀ a, (k1_off25 i) a + S1.size a ≤ S16384.size a
  k1_off27_inb : ∀ i : grid1.Coords, ∀ a, (k1_off27 i) a + S1.size a ≤ S16384.size a
  k1_off29_inb : ∀ i : grid1.Coords, ∀ a, (k1_off29 i) a + S1.size a ≤ S16384.size a
  k1_off31_inb : ∀ i : grid1.Coords, ∀ a, (k1_off31 i) a + S1.size a ≤ S16384.size a
  k1_off33_inb : ∀ i : grid1.Coords, ∀ a, (k1_off33 i) a + S1.size a ≤ S16384.size a
  k1_off35_inb : ∀ i : grid1.Coords, ∀ a, (k1_off35 i) a + S1.size a ≤ S16384.size a
  k1_off37_inb : ∀ i : grid1.Coords, ∀ a, (k1_off37 i) a + S1.size a ≤ S16384.size a
  k1_off39_inb : ∀ i : grid1.Coords, ∀ a, (k1_off39 i) a + S1.size a ≤ S16384.size a
  k1_off41_inb : ∀ i : grid1.Coords, ∀ a, (k1_off41 i) a + S1.size a ≤ S16384.size a
  k1_off43_inb : ∀ i : grid1.Coords, ∀ a, (k1_off43 i) a + S1.size a ≤ S16384.size a
  k1_off45_inb : ∀ i : grid1.Coords, ∀ a, (k1_off45 i) a + S1.size a ≤ S16384.size a
  k1_off47_inb : ∀ i : grid1.Coords, ∀ a, (k1_off47 i) a + S1.size a ≤ S16384.size a
  k1_off49_inb : ∀ i : grid1.Coords, ∀ a, (k1_off49 i) a + S1.size a ≤ S16384.size a
  k1_off51_inb : ∀ i : grid1.Coords, ∀ a, (k1_off51 i) a + S1.size a ≤ S16384.size a
  k1_off53_inb : ∀ i : grid1.Coords, ∀ a, (k1_off53 i) a + S1.size a ≤ S16384.size a
  k1_off55_inb : ∀ i : grid1.Coords, ∀ a, (k1_off55 i) a + S1.size a ≤ S16384.size a
  k1_off57_inb : ∀ i : grid1.Coords, ∀ a, (k1_off57 i) a + S1.size a ≤ S16384.size a
  k1_off59_inb : ∀ i : grid1.Coords, ∀ a, (k1_off59 i) a + S1.size a ≤ S16384.size a
  k1_off61_inb : ∀ i : grid1.Coords, ∀ a, (k1_off61 i) a + S1.size a ≤ S16384.size a
  k1_off63_inb : ∀ i : grid1.Coords, ∀ a, (k1_off63 i) a + S1.size a ≤ S16384.size a
  k1_off65_inb : ∀ i : grid1.Coords, ∀ a, (k1_off65 i) a + S1.size a ≤ S16384.size a
  k1_off67_inb : ∀ i : grid1.Coords, ∀ a, (k1_off67 i) a + S1.size a ≤ S16384.size a
  k1_off69_inb : ∀ i : grid1.Coords, ∀ a, (k1_off69 i) a + S1.size a ≤ S16384.size a
  k1_off71_inb : ∀ i : grid1.Coords, ∀ a, (k1_off71 i) a + S1.size a ≤ S16384.size a
  k1_off73_inb : ∀ i : grid1.Coords, ∀ a, (k1_off73 i) a + S1.size a ≤ S16384.size a
  k1_off75_inb : ∀ i : grid1.Coords, ∀ a, (k1_off75 i) a + S1.size a ≤ S16384.size a
  k1_off77_inb : ∀ i : grid1.Coords, ∀ a, (k1_off77 i) a + S1.size a ≤ S16384.size a
  k1_off79_inb : ∀ i : grid1.Coords, ∀ a, (k1_off79 i) a + S1.size a ≤ S16384.size a
  k1_off81_inb : ∀ i : grid1.Coords, ∀ a, (k1_off81 i) a + S1.size a ≤ S16384.size a
  k1_off83_inb : ∀ i : grid1.Coords, ∀ a, (k1_off83 i) a + S1.size a ≤ S16384.size a
  k1_off85_inb : ∀ i : grid1.Coords, ∀ a, (k1_off85 i) a + S1.size a ≤ S16384.size a
  k1_off87_inb : ∀ i : grid1.Coords, ∀ a, (k1_off87 i) a + S1.size a ≤ S16384.size a
  k1_off89_inb : ∀ i : grid1.Coords, ∀ a, (k1_off89 i) a + S1.size a ≤ S16384.size a
  k1_off91_inb : ∀ i : grid1.Coords, ∀ a, (k1_off91 i) a + S1.size a ≤ S16384.size a
  k1_off93_inb : ∀ i : grid1.Coords, ∀ a, (k1_off93 i) a + S1.size a ≤ S16384.size a
  k1_off95_inb : ∀ i : grid1.Coords, ∀ a, (k1_off95 i) a + S1.size a ≤ S16384.size a
  k1_off97_inb : ∀ i : grid1.Coords, ∀ a, (k1_off97 i) a + S1.size a ≤ S16384.size a
  k1_off99_inb : ∀ i : grid1.Coords, ∀ a, (k1_off99 i) a + S1.size a ≤ S16384.size a
  k1_off101_inb : ∀ i : grid1.Coords, ∀ a, (k1_off101 i) a + S1.size a ≤ S16384.size a
  k1_off103_inb : ∀ i : grid1.Coords, ∀ a, (k1_off103 i) a + S1.size a ≤ S16384.size a
  k1_off105_inb : ∀ i : grid1.Coords, ∀ a, (k1_off105 i) a + S1.size a ≤ S16384.size a
  k1_off107_inb : ∀ i : grid1.Coords, ∀ a, (k1_off107 i) a + S1.size a ≤ S16384.size a
  k1_off109_inb : ∀ i : grid1.Coords, ∀ a, (k1_off109 i) a + S1.size a ≤ S16384.size a
  k1_off111_inb : ∀ i : grid1.Coords, ∀ a, (k1_off111 i) a + S1.size a ≤ S16384.size a
  k1_off113_inb : ∀ i : grid1.Coords, ∀ a, (k1_off113 i) a + S1.size a ≤ S16384.size a
  k1_off115_inb : ∀ i : grid1.Coords, ∀ a, (k1_off115 i) a + S1.size a ≤ S16384.size a
  k1_off117_inb : ∀ i : grid1.Coords, ∀ a, (k1_off117 i) a + S1.size a ≤ S16384.size a
  k1_off119_inb : ∀ i : grid1.Coords, ∀ a, (k1_off119 i) a + S1.size a ≤ S16384.size a
  k1_off121_inb : ∀ i : grid1.Coords, ∀ a, (k1_off121 i) a + S1.size a ≤ S16384.size a
  k1_off123_inb : ∀ i : grid1.Coords, ∀ a, (k1_off123 i) a + S1.size a ≤ S16384.size a
  k1_off125_inb : ∀ i : grid1.Coords, ∀ a, (k1_off125 i) a + S1.size a ≤ S16384.size a
  k1_off127_inb : ∀ i : grid1.Coords, ∀ a, (k1_off127 i) a + S1.size a ≤ S16384.size a
  k1_off129_inb : ∀ i : grid1.Coords, ∀ a, (k1_off129 i) a + S1.size a ≤ S16384.size a
  k1_off131_inb : ∀ i : grid1.Coords, ∀ a, (k1_off131 i) a + S1.size a ≤ S16384.size a
  k1_off133_inb : ∀ i : grid1.Coords, ∀ a, (k1_off133 i) a + S1.size a ≤ S16384.size a
  k1_off135_inb : ∀ i : grid1.Coords, ∀ a, (k1_off135 i) a + S1.size a ≤ S16384.size a
  k1_off137_inb : ∀ i : grid1.Coords, ∀ a, (k1_off137 i) a + S1.size a ≤ S16384.size a
  k1_off139_inb : ∀ i : grid1.Coords, ∀ a, (k1_off139 i) a + S1.size a ≤ S16384.size a
  k1_off141_inb : ∀ i : grid1.Coords, ∀ a, (k1_off141 i) a + S1.size a ≤ S16384.size a
  k1_off143_inb : ∀ i : grid1.Coords, ∀ a, (k1_off143 i) a + S1.size a ≤ S16384.size a
  k1_off145_inb : ∀ i : grid1.Coords, ∀ a, (k1_off145 i) a + S1.size a ≤ S16384.size a
  k1_off147_inb : ∀ i : grid1.Coords, ∀ a, (k1_off147 i) a + S1.size a ≤ S16384.size a
  k1_off149_inb : ∀ i : grid1.Coords, ∀ a, (k1_off149 i) a + S1.size a ≤ S16384.size a
  k1_off151_inb : ∀ i : grid1.Coords, ∀ a, (k1_off151 i) a + S1.size a ≤ S16384.size a
  k1_off153_inb : ∀ i : grid1.Coords, ∀ a, (k1_off153 i) a + S1.size a ≤ S16384.size a
  k1_off155_inb : ∀ i : grid1.Coords, ∀ a, (k1_off155 i) a + S1.size a ≤ S16384.size a
  k1_off157_inb : ∀ i : grid1.Coords, ∀ a, (k1_off157 i) a + S1.size a ≤ S16384.size a
  k1_off159_inb : ∀ i : grid1.Coords, ∀ a, (k1_off159 i) a + S1.size a ≤ S16384.size a
  k1_off161_inb : ∀ i : grid1.Coords, ∀ a, (k1_off161 i) a + S1.size a ≤ S16384.size a
  k1_off163_inb : ∀ i : grid1.Coords, ∀ a, (k1_off163 i) a + S1.size a ≤ S16384.size a
  k1_off165_inb : ∀ i : grid1.Coords, ∀ a, (k1_off165 i) a + S1.size a ≤ S16384.size a
  k1_off167_inb : ∀ i : grid1.Coords, ∀ a, (k1_off167 i) a + S1.size a ≤ S16384.size a
  k1_off169_inb : ∀ i : grid1.Coords, ∀ a, (k1_off169 i) a + S1.size a ≤ S16384.size a
  k1_off171_inb : ∀ i : grid1.Coords, ∀ a, (k1_off171 i) a + S1.size a ≤ S16384.size a
  k1_off173_inb : ∀ i : grid1.Coords, ∀ a, (k1_off173 i) a + S1.size a ≤ S16384.size a
  k1_off175_inb : ∀ i : grid1.Coords, ∀ a, (k1_off175 i) a + S1.size a ≤ S16384.size a
  k1_off177_inb : ∀ i : grid1.Coords, ∀ a, (k1_off177 i) a + S1.size a ≤ S16384.size a
  k1_off179_inb : ∀ i : grid1.Coords, ∀ a, (k1_off179 i) a + S1.size a ≤ S16384.size a
  k1_off181_inb : ∀ i : grid1.Coords, ∀ a, (k1_off181 i) a + S1.size a ≤ S16384.size a
  k1_off183_inb : ∀ i : grid1.Coords, ∀ a, (k1_off183 i) a + S1.size a ≤ S16384.size a
  k1_off185_inb : ∀ i : grid1.Coords, ∀ a, (k1_off185 i) a + S1.size a ≤ S16384.size a
  k1_off187_inb : ∀ i : grid1.Coords, ∀ a, (k1_off187 i) a + S1.size a ≤ S16384.size a
  k1_off189_inb : ∀ i : grid1.Coords, ∀ a, (k1_off189 i) a + S1.size a ≤ S16384.size a
  k1_off191_inb : ∀ i : grid1.Coords, ∀ a, (k1_off191 i) a + S1.size a ≤ S16384.size a
  k1_off193_inb : ∀ i : grid1.Coords, ∀ a, (k1_off193 i) a + S1.size a ≤ S16384.size a
  k1_off195_inb : ∀ i : grid1.Coords, ∀ a, (k1_off195 i) a + S1.size a ≤ S16384.size a
  k1_off197_inb : ∀ i : grid1.Coords, ∀ a, (k1_off197 i) a + S1.size a ≤ S16384.size a
  k1_off199_inb : ∀ i : grid1.Coords, ∀ a, (k1_off199 i) a + S1.size a ≤ S16384.size a
  k1_off201_inb : ∀ i : grid1.Coords, ∀ a, (k1_off201 i) a + S1.size a ≤ S16384.size a
  k1_off203_inb : ∀ i : grid1.Coords, ∀ a, (k1_off203 i) a + S1.size a ≤ S16384.size a
  k1_off205_inb : ∀ i : grid1.Coords, ∀ a, (k1_off205 i) a + S1.size a ≤ S16384.size a
  k1_off207_inb : ∀ i : grid1.Coords, ∀ a, (k1_off207 i) a + S1.size a ≤ S16384.size a
  k1_off209_inb : ∀ i : grid1.Coords, ∀ a, (k1_off209 i) a + S1.size a ≤ S16384.size a
  k1_off211_inb : ∀ i : grid1.Coords, ∀ a, (k1_off211 i) a + S1.size a ≤ S16384.size a
  k1_off213_inb : ∀ i : grid1.Coords, ∀ a, (k1_off213 i) a + S1.size a ≤ S16384.size a
  k1_off215_inb : ∀ i : grid1.Coords, ∀ a, (k1_off215 i) a + S1.size a ≤ S16384.size a
  k1_off217_inb : ∀ i : grid1.Coords, ∀ a, (k1_off217 i) a + S1.size a ≤ S16384.size a
  k1_off219_inb : ∀ i : grid1.Coords, ∀ a, (k1_off219 i) a + S1.size a ≤ S16384.size a
  k1_off221_inb : ∀ i : grid1.Coords, ∀ a, (k1_off221 i) a + S1.size a ≤ S16384.size a
  k1_off223_inb : ∀ i : grid1.Coords, ∀ a, (k1_off223 i) a + S1.size a ≤ S16384.size a
  k1_off225_inb : ∀ i : grid1.Coords, ∀ a, (k1_off225 i) a + S1.size a ≤ S16384.size a
  k1_off227_inb : ∀ i : grid1.Coords, ∀ a, (k1_off227 i) a + S1.size a ≤ S16384.size a
  k1_off229_inb : ∀ i : grid1.Coords, ∀ a, (k1_off229 i) a + S1.size a ≤ S16384.size a
  k1_off231_inb : ∀ i : grid1.Coords, ∀ a, (k1_off231 i) a + S1.size a ≤ S16384.size a
  k1_off233_inb : ∀ i : grid1.Coords, ∀ a, (k1_off233 i) a + S1.size a ≤ S16384.size a
  k1_off235_inb : ∀ i : grid1.Coords, ∀ a, (k1_off235 i) a + S1.size a ≤ S16384.size a
  k1_off237_inb : ∀ i : grid1.Coords, ∀ a, (k1_off237 i) a + S1.size a ≤ S16384.size a
  k1_off239_inb : ∀ i : grid1.Coords, ∀ a, (k1_off239 i) a + S1.size a ≤ S16384.size a
  k1_off241_inb : ∀ i : grid1.Coords, ∀ a, (k1_off241 i) a + S1.size a ≤ S16384.size a
  k1_off243_inb : ∀ i : grid1.Coords, ∀ a, (k1_off243 i) a + S1.size a ≤ S16384.size a
  k1_off245_inb : ∀ i : grid1.Coords, ∀ a, (k1_off245 i) a + S1.size a ≤ S16384.size a
  k1_off247_inb : ∀ i : grid1.Coords, ∀ a, (k1_off247 i) a + S1.size a ≤ S16384.size a
  k1_off249_inb : ∀ i : grid1.Coords, ∀ a, (k1_off249 i) a + S1.size a ≤ S16384.size a
  k1_off251_inb : ∀ i : grid1.Coords, ∀ a, (k1_off251 i) a + S1.size a ≤ S16384.size a
  k1_off253_inb : ∀ i : grid1.Coords, ∀ a, (k1_off253 i) a + S1.size a ≤ S16384.size a
  k1_off255_inb : ∀ i : grid1.Coords, ∀ a, (k1_off255 i) a + S1.size a ≤ S16384.size a
  k1_off257_inb : ∀ i : grid1.Coords, ∀ a, (k1_off257 i) a + S1.size a ≤ S16384.size a
  k1_off259_inb : ∀ i : grid1.Coords, ∀ a, (k1_off259 i) a + S1.size a ≤ S16384.size a
  k1_off261_inb : ∀ i : grid1.Coords, ∀ a, (k1_off261 i) a + S1.size a ≤ S16384.size a
  k1_off263_inb : ∀ i : grid1.Coords, ∀ a, (k1_off263 i) a + S1.size a ≤ S16384.size a
  k1_off265_inb : ∀ i : grid1.Coords, ∀ a, (k1_off265 i) a + S1.size a ≤ S16384.size a
  k1_off267_inb : ∀ i : grid1.Coords, ∀ a, (k1_off267 i) a + S1.size a ≤ S16384.size a
  k1_off269_inb : ∀ i : grid1.Coords, ∀ a, (k1_off269 i) a + S1.size a ≤ S16384.size a
  k1_off271_inb : ∀ i : grid1.Coords, ∀ a, (k1_off271 i) a + S1.size a ≤ S16384.size a
  k1_off273_inb : ∀ i : grid1.Coords, ∀ a, (k1_off273 i) a + S1.size a ≤ S16384.size a
  k1_off275_inb : ∀ i : grid1.Coords, ∀ a, (k1_off275 i) a + S1.size a ≤ S16384.size a
  k1_off277_inb : ∀ i : grid1.Coords, ∀ a, (k1_off277 i) a + S1.size a ≤ S16384.size a
  k1_off279_inb : ∀ i : grid1.Coords, ∀ a, (k1_off279 i) a + S1.size a ≤ S16384.size a
  k1_off281_inb : ∀ i : grid1.Coords, ∀ a, (k1_off281 i) a + S1.size a ≤ S16384.size a
  k1_off283_inb : ∀ i : grid1.Coords, ∀ a, (k1_off283 i) a + S1.size a ≤ S16384.size a
  k1_off285_inb : ∀ i : grid1.Coords, ∀ a, (k1_off285 i) a + S1.size a ≤ S16384.size a
  k1_off287_inb : ∀ i : grid1.Coords, ∀ a, (k1_off287 i) a + S1.size a ≤ S16384.size a
  k1_off289_inb : ∀ i : grid1.Coords, ∀ a, (k1_off289 i) a + S1.size a ≤ S16384.size a
  k1_off291_inb : ∀ i : grid1.Coords, ∀ a, (k1_off291 i) a + S1.size a ≤ S16384.size a
  k1_off293_inb : ∀ i : grid1.Coords, ∀ a, (k1_off293 i) a + S1.size a ≤ S16384.size a
  k1_off295_inb : ∀ i : grid1.Coords, ∀ a, (k1_off295 i) a + S1.size a ≤ S16384.size a
  k1_off297_inb : ∀ i : grid1.Coords, ∀ a, (k1_off297 i) a + S1.size a ≤ S16384.size a
  k1_off299_inb : ∀ i : grid1.Coords, ∀ a, (k1_off299 i) a + S1.size a ≤ S16384.size a
  k1_off301_inb : ∀ i : grid1.Coords, ∀ a, (k1_off301 i) a + S1.size a ≤ S16384.size a
  k1_off303_inb : ∀ i : grid1.Coords, ∀ a, (k1_off303 i) a + S1.size a ≤ S16384.size a
  k1_off305_inb : ∀ i : grid1.Coords, ∀ a, (k1_off305 i) a + S1.size a ≤ S16384.size a
  k1_off307_inb : ∀ i : grid1.Coords, ∀ a, (k1_off307 i) a + S1.size a ≤ S16384.size a
  k1_off309_inb : ∀ i : grid1.Coords, ∀ a, (k1_off309 i) a + S1.size a ≤ S16384.size a
  k1_off311_inb : ∀ i : grid1.Coords, ∀ a, (k1_off311 i) a + S1.size a ≤ S16384.size a
  k1_off313_inb : ∀ i : grid1.Coords, ∀ a, (k1_off313 i) a + S1.size a ≤ S16384.size a
  k1_off315_inb : ∀ i : grid1.Coords, ∀ a, (k1_off315 i) a + S1.size a ≤ S16384.size a
  k1_off317_inb : ∀ i : grid1.Coords, ∀ a, (k1_off317 i) a + S1.size a ≤ S16384.size a
  k1_off319_inb : ∀ i : grid1.Coords, ∀ a, (k1_off319 i) a + S1.size a ≤ S16384.size a
  k1_off321_inb : ∀ i : grid1.Coords, ∀ a, (k1_off321 i) a + S1.size a ≤ S16384.size a
  k1_off323_inb : ∀ i : grid1.Coords, ∀ a, (k1_off323 i) a + S1.size a ≤ S16384.size a
  k1_off325_inb : ∀ i : grid1.Coords, ∀ a, (k1_off325 i) a + S1.size a ≤ S16384.size a
  k1_off327_inb : ∀ i : grid1.Coords, ∀ a, (k1_off327 i) a + S1.size a ≤ S16384.size a
  k1_off329_inb : ∀ i : grid1.Coords, ∀ a, (k1_off329 i) a + S1.size a ≤ S16384.size a
  k1_off331_inb : ∀ i : grid1.Coords, ∀ a, (k1_off331 i) a + S1.size a ≤ S16384.size a
  k1_off333_inb : ∀ i : grid1.Coords, ∀ a, (k1_off333 i) a + S1.size a ≤ S16384.size a
  k1_off335_inb : ∀ i : grid1.Coords, ∀ a, (k1_off335 i) a + S1.size a ≤ S16384.size a
  k1_off337_inb : ∀ i : grid1.Coords, ∀ a, (k1_off337 i) a + S1.size a ≤ S16384.size a
  k1_off339_inb : ∀ i : grid1.Coords, ∀ a, (k1_off339 i) a + S1.size a ≤ S16384.size a
  k1_off341_inb : ∀ i : grid1.Coords, ∀ a, (k1_off341 i) a + S1.size a ≤ S16384.size a
  k1_off343_inb : ∀ i : grid1.Coords, ∀ a, (k1_off343 i) a + S1.size a ≤ S16384.size a
  k1_off345_inb : ∀ i : grid1.Coords, ∀ a, (k1_off345 i) a + S1.size a ≤ S16384.size a
  k1_off347_inb : ∀ i : grid1.Coords, ∀ a, (k1_off347 i) a + S1.size a ≤ S16384.size a
  k1_off349_inb : ∀ i : grid1.Coords, ∀ a, (k1_off349 i) a + S1.size a ≤ S16384.size a
  k1_off351_inb : ∀ i : grid1.Coords, ∀ a, (k1_off351 i) a + S1.size a ≤ S16384.size a
  k1_off353_inb : ∀ i : grid1.Coords, ∀ a, (k1_off353 i) a + S1.size a ≤ S16384.size a
  k1_off355_inb : ∀ i : grid1.Coords, ∀ a, (k1_off355 i) a + S1.size a ≤ S16384.size a
  k1_off357_inb : ∀ i : grid1.Coords, ∀ a, (k1_off357 i) a + S1.size a ≤ S16384.size a
  k1_off359_inb : ∀ i : grid1.Coords, ∀ a, (k1_off359 i) a + S1.size a ≤ S16384.size a
  k1_off361_inb : ∀ i : grid1.Coords, ∀ a, (k1_off361 i) a + S1.size a ≤ S16384.size a
  k1_off363_inb : ∀ i : grid1.Coords, ∀ a, (k1_off363 i) a + S1.size a ≤ S16384.size a
  k1_off365_inb : ∀ i : grid1.Coords, ∀ a, (k1_off365 i) a + S1.size a ≤ S16384.size a
  k1_off367_inb : ∀ i : grid1.Coords, ∀ a, (k1_off367 i) a + S1.size a ≤ S16384.size a
  k1_off369_inb : ∀ i : grid1.Coords, ∀ a, (k1_off369 i) a + S1.size a ≤ S16384.size a
  k1_off371_inb : ∀ i : grid1.Coords, ∀ a, (k1_off371 i) a + S1.size a ≤ S16384.size a
  k1_off373_inb : ∀ i : grid1.Coords, ∀ a, (k1_off373 i) a + S1.size a ≤ S16384.size a
  k1_off375_inb : ∀ i : grid1.Coords, ∀ a, (k1_off375 i) a + S1.size a ≤ S16384.size a
  k1_off377_inb : ∀ i : grid1.Coords, ∀ a, (k1_off377 i) a + S1.size a ≤ S16384.size a
  k1_off379_inb : ∀ i : grid1.Coords, ∀ a, (k1_off379 i) a + S1.size a ≤ S16384.size a
  k1_off381_inb : ∀ i : grid1.Coords, ∀ a, (k1_off381 i) a + S1.size a ≤ S16384.size a
  k1_off383_inb : ∀ i : grid1.Coords, ∀ a, (k1_off383 i) a + S1.size a ≤ S16384.size a
  k1_off385_inb : ∀ i : grid1.Coords, ∀ a, (k1_off385 i) a + S1.size a ≤ S16384.size a
  k1_off387_inb : ∀ i : grid1.Coords, ∀ a, (k1_off387 i) a + S1.size a ≤ S16384.size a
  k1_off389_inb : ∀ i : grid1.Coords, ∀ a, (k1_off389 i) a + S1.size a ≤ S16384.size a
  k1_off391_inb : ∀ i : grid1.Coords, ∀ a, (k1_off391 i) a + S1.size a ≤ S16384.size a
  k1_off393_inb : ∀ i : grid1.Coords, ∀ a, (k1_off393 i) a + S1.size a ≤ S16384.size a
  k1_off395_inb : ∀ i : grid1.Coords, ∀ a, (k1_off395 i) a + S1.size a ≤ S16384.size a
  k1_off397_inb : ∀ i : grid1.Coords, ∀ a, (k1_off397 i) a + S1.size a ≤ S16384.size a
  k1_off399_inb : ∀ i : grid1.Coords, ∀ a, (k1_off399 i) a + S1.size a ≤ S16384.size a
  k1_off401_inb : ∀ i : grid1.Coords, ∀ a, (k1_off401 i) a + S1.size a ≤ S16384.size a
  k1_off403_inb : ∀ i : grid1.Coords, ∀ a, (k1_off403 i) a + S1.size a ≤ S16384.size a
  k1_off405_inb : ∀ i : grid1.Coords, ∀ a, (k1_off405 i) a + S1.size a ≤ S16384.size a
  k1_off407_inb : ∀ i : grid1.Coords, ∀ a, (k1_off407 i) a + S1.size a ≤ S16384.size a
  k1_off409_inb : ∀ i : grid1.Coords, ∀ a, (k1_off409 i) a + S1.size a ≤ S16384.size a
  k1_off411_inb : ∀ i : grid1.Coords, ∀ a, (k1_off411 i) a + S1.size a ≤ S16384.size a
  k1_off413_inb : ∀ i : grid1.Coords, ∀ a, (k1_off413 i) a + S1.size a ≤ S16384.size a
  k1_off415_inb : ∀ i : grid1.Coords, ∀ a, (k1_off415 i) a + S1.size a ≤ S16384.size a
  k1_off417_inb : ∀ i : grid1.Coords, ∀ a, (k1_off417 i) a + S1.size a ≤ S16384.size a
  k1_off419_inb : ∀ i : grid1.Coords, ∀ a, (k1_off419 i) a + S1.size a ≤ S16384.size a
  k1_off421_inb : ∀ i : grid1.Coords, ∀ a, (k1_off421 i) a + S1.size a ≤ S16384.size a
  k1_off423_inb : ∀ i : grid1.Coords, ∀ a, (k1_off423 i) a + S1.size a ≤ S16384.size a
  k1_off425_inb : ∀ i : grid1.Coords, ∀ a, (k1_off425 i) a + S1.size a ≤ S16384.size a
  k1_off427_inb : ∀ i : grid1.Coords, ∀ a, (k1_off427 i) a + S1.size a ≤ S16384.size a
  k1_off429_inb : ∀ i : grid1.Coords, ∀ a, (k1_off429 i) a + S1.size a ≤ S16384.size a
  k1_off431_inb : ∀ i : grid1.Coords, ∀ a, (k1_off431 i) a + S1.size a ≤ S16384.size a
  k1_off433_inb : ∀ i : grid1.Coords, ∀ a, (k1_off433 i) a + S1.size a ≤ S16384.size a
  k1_off435_inb : ∀ i : grid1.Coords, ∀ a, (k1_off435 i) a + S1.size a ≤ S16384.size a
  k1_off437_inb : ∀ i : grid1.Coords, ∀ a, (k1_off437 i) a + S1.size a ≤ S16384.size a
  k1_off439_inb : ∀ i : grid1.Coords, ∀ a, (k1_off439 i) a + S1.size a ≤ S16384.size a
  k1_off441_inb : ∀ i : grid1.Coords, ∀ a, (k1_off441 i) a + S1.size a ≤ S16384.size a
  k1_off443_inb : ∀ i : grid1.Coords, ∀ a, (k1_off443 i) a + S1.size a ≤ S16384.size a
  k1_off445_inb : ∀ i : grid1.Coords, ∀ a, (k1_off445 i) a + S1.size a ≤ S16384.size a
  k1_off447_inb : ∀ i : grid1.Coords, ∀ a, (k1_off447 i) a + S1.size a ≤ S16384.size a
  k1_off449_inb : ∀ i : grid1.Coords, ∀ a, (k1_off449 i) a + S1.size a ≤ S16384.size a
  k1_off451_inb : ∀ i : grid1.Coords, ∀ a, (k1_off451 i) a + S1.size a ≤ S16384.size a
  k1_off453_inb : ∀ i : grid1.Coords, ∀ a, (k1_off453 i) a + S1.size a ≤ S16384.size a
  k1_off455_inb : ∀ i : grid1.Coords, ∀ a, (k1_off455 i) a + S1.size a ≤ S16384.size a
  k1_off457_inb : ∀ i : grid1.Coords, ∀ a, (k1_off457 i) a + S1.size a ≤ S16384.size a
  k1_off459_inb : ∀ i : grid1.Coords, ∀ a, (k1_off459 i) a + S1.size a ≤ S16384.size a
  k1_off461_inb : ∀ i : grid1.Coords, ∀ a, (k1_off461 i) a + S1.size a ≤ S16384.size a
  k1_off463_inb : ∀ i : grid1.Coords, ∀ a, (k1_off463 i) a + S1.size a ≤ S16384.size a
  k1_off465_inb : ∀ i : grid1.Coords, ∀ a, (k1_off465 i) a + S1.size a ≤ S16384.size a
  k1_off467_inb : ∀ i : grid1.Coords, ∀ a, (k1_off467 i) a + S1.size a ≤ S16384.size a
  k1_off469_inb : ∀ i : grid1.Coords, ∀ a, (k1_off469 i) a + S1.size a ≤ S16384.size a
  k1_off471_inb : ∀ i : grid1.Coords, ∀ a, (k1_off471 i) a + S1.size a ≤ S16384.size a
  k1_off473_inb : ∀ i : grid1.Coords, ∀ a, (k1_off473 i) a + S1.size a ≤ S16384.size a
  k1_off475_inb : ∀ i : grid1.Coords, ∀ a, (k1_off475 i) a + S1.size a ≤ S16384.size a
  k1_off477_inb : ∀ i : grid1.Coords, ∀ a, (k1_off477 i) a + S1.size a ≤ S16384.size a
  k1_off479_inb : ∀ i : grid1.Coords, ∀ a, (k1_off479 i) a + S1.size a ≤ S16384.size a
  k1_off481_inb : ∀ i : grid1.Coords, ∀ a, (k1_off481 i) a + S1.size a ≤ S16384.size a
  k1_off483_inb : ∀ i : grid1.Coords, ∀ a, (k1_off483 i) a + S1.size a ≤ S16384.size a
  k1_off485_inb : ∀ i : grid1.Coords, ∀ a, (k1_off485 i) a + S1.size a ≤ S16384.size a
  k1_off487_inb : ∀ i : grid1.Coords, ∀ a, (k1_off487 i) a + S1.size a ≤ S16384.size a
  k1_off489_inb : ∀ i : grid1.Coords, ∀ a, (k1_off489 i) a + S1.size a ≤ S16384.size a
  k1_off491_inb : ∀ i : grid1.Coords, ∀ a, (k1_off491 i) a + S1.size a ≤ S16384.size a
  k1_off493_inb : ∀ i : grid1.Coords, ∀ a, (k1_off493 i) a + S1.size a ≤ S16384.size a
  k1_off495_inb : ∀ i : grid1.Coords, ∀ a, (k1_off495 i) a + S1.size a ≤ S16384.size a
  k1_off497_inb : ∀ i : grid1.Coords, ∀ a, (k1_off497 i) a + S1.size a ≤ S16384.size a
  k1_off499_inb : ∀ i : grid1.Coords, ∀ a, (k1_off499 i) a + S1.size a ≤ S16384.size a
  k1_off501_inb : ∀ i : grid1.Coords, ∀ a, (k1_off501 i) a + S1.size a ≤ S16384.size a
  k1_off503_inb : ∀ i : grid1.Coords, ∀ a, (k1_off503 i) a + S1.size a ≤ S16384.size a
  k1_off505_inb : ∀ i : grid1.Coords, ∀ a, (k1_off505 i) a + S1.size a ≤ S16384.size a
  k1_off507_inb : ∀ i : grid1.Coords, ∀ a, (k1_off507 i) a + S1.size a ≤ S16384.size a
  k1_off509_inb : ∀ i : grid1.Coords, ∀ a, (k1_off509 i) a + S1.size a ≤ S16384.size a
  k1_off511_inb : ∀ i : grid1.Coords, ∀ a, (k1_off511 i) a + S1.size a ≤ S16384.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S256x1024.size a ≤ S16384x1024.size a
  hwx1_0 : ∀ i : grid1.Coords, EltTy.bits .f32 = 32 ∨ (Rect.block (s := S16384x1024) S256x1024.size (cc1_transform_1 i) (hinb1_0 i)).WholeWords (EltTy.packing .f32)

class Shapes1.Facts₀ : Prop where
  shapeCasts_S4x8192x1024_S32768x1024 : S4x8192x1024.ShapeCasts S32768x1024
  bitsLt_bf16_f32 : FTy.bits .bf16 < FTy.bits .f32
  transposes_S1024x1024_S1024x1024_1_0 : S1024x1024.Transposes [1, 0] S1024x1024
  numel1_S1 : S1.numel = 1
  inb_S256_S1_0 : ∀ a, (![0] : Fin 1 → Nat) a + S1.size a ≤ S256.size a
  squeezes_S1_S_ : S1.Squeezes S_
  inb_S256x1024_S1x1024_0_0 : ∀ a, (![0, 0] : Fin 2 → Nat) a + S1x1024.size a ≤ S256x1024.size a
  squeezes_S1x1024_S1024 : S1x1024.Squeezes S1024
  inb_S256_S1_1 : ∀ a, (![1] : Fin 1 → Nat) a + S1.size a ≤ S256.size a
  inb_S256x1024_S1x1024_1_0 : ∀ a, (![1, 0] : Fin 2 → Nat) a + S1x1024.size a ≤ S256x1024.size a
  inb_S256_S1_2 : ∀ a, (![2] : Fin 1 → Nat) a + S1.size a ≤ S256.size a
  inb_S256x1024_S1x1024_2_0 : ∀ a, (![2, 0] : Fin 2 → Nat) a + S1x1024.size a ≤ S256x1024.size a
  inb_S256_S1_3 : ∀ a, (![3] : Fin 1 → Nat) a + S1.size a ≤ S256.size a
  inb_S256x1024_S1x1024_3_0 : ∀ a, (![3, 0] : Fin 2 → Nat) a + S1x1024.size a ≤ S256x1024.size a
  inb_S256_S1_4 : ∀ a, (![4] : Fin 1 → Nat) a + S1.size a ≤ S256.size a
  inb_S256x1024_S1x1024_4_0 : ∀ a, (![4, 0] : Fin 2 → Nat) a + S1x1024.size a ≤ S256x1024.size a
  inb_S256_S1_5 : ∀ a, (![5] : Fin 1 → Nat) a + S1.size a ≤ S256.size a
  inb_S256x1024_S1x1024_5_0 : ∀ a, (![5, 0] : Fin 2 → Nat) a + S1x1024.size a ≤ S256x1024.size a
  inb_S256_S1_6 : ∀ a, (![6] : Fin 1 → Nat) a + S1.size a ≤ S256.size a
  inb_S256x1024_S1x1024_6_0 : ∀ a, (![6, 0] : Fin 2 → Nat) a + S1x1024.size a ≤ S256x1024.size a
  inb_S256_S1_7 : ∀ a, (![7] : Fin 1 → Nat) a + S1.size a ≤ S256.size a
  inb_S256x1024_S1x1024_7_0 : ∀ a, (![7, 0] : Fin 2 → Nat) a + S1x1024.size a ≤ S256x1024.size a
  inb_S256_S1_8 : ∀ a, (![8] : Fin 1 → Nat) a + S1.size a ≤ S256.size a
  inb_S256x1024_S1x1024_8_0 : ∀ a, (![8, 0] : Fin 2 → Nat) a + S1x1024.size a ≤ S256x1024.size a
  inb_S256_S1_9 : ∀ a, (![9] : Fin 1 → Nat) a + S1.size a ≤ S256.size a
  inb_S256x1024_S1x1024_9_0 : ∀ a, (![9, 0] : Fin 2 → Nat) a + S1x1024.size a ≤ S256x1024.size a
  inb_S256_S1_10 : ∀ a, (![10] : Fin 1 → Nat) a + S1.size a ≤ S256.size a
  inb_S256x1024_S1x1024_10_0 : ∀ a, (![10, 0] : Fin 2 → Nat) a + S1x1024.size a ≤ S256x1024.size a
  inb_S256_S1_11 : ∀ a, (![11] : Fin 1 → Nat) a + S1.size a ≤ S256.size a
  inb_S256x1024_S1x1024_11_0 : ∀ a, (![11, 0] : Fin 2 → Nat) a + S1x1024.size a ≤ S256x1024.size a
  inb_S256_S1_12 : ∀ a, (![12] : Fin 1 → Nat) a + S1.size a ≤ S256.size a
  inb_S256x1024_S1x1024_12_0 : ∀ a, (![12, 0] : Fin 2 → Nat) a + S1x1024.size a ≤ S256x1024.size a
  inb_S256_S1_13 : ∀ a, (![13] : Fin 1 → Nat) a + S1.size a ≤ S256.size a
  inb_S256x1024_S1x1024_13_0 : ∀ a, (![13, 0] : Fin 2 → Nat) a + S1x1024.size a ≤ S256x1024.size a
  inb_S256_S1_14 : ∀ a, (![14] : Fin 1 → Nat) a + S1.size a ≤ S256.size a
  inb_S256x1024_S1x1024_14_0 : ∀ a, (![14, 0] : Fin 2 → Nat) a + S1x1024.size a ≤ S256x1024.size a
  inb_S256_S1_15 : ∀ a, (![15] : Fin 1 → Nat) a + S1.size a ≤ S256.size a
  inb_S256x1024_S1x1024_15_0 : ∀ a, (![15, 0] : Fin 2 → Nat) a + S1x1024.size a ≤ S256x1024.size a
  inb_S256_S1_16 : ∀ a, (![16] : Fin 1 → Nat) a + S1.size a ≤ S256.size a
  inb_S256x1024_S1x1024_16_0 : ∀ a, (![16, 0] : Fin 2 → Nat) a + S1x1024.size a ≤ S256x1024.size a
  inb_S256_S1_17 : ∀ a, (![17] : Fin 1 → Nat) a + S1.size a ≤ S256.size a
  inb_S256x1024_S1x1024_17_0 : ∀ a, (![17, 0] : Fin 2 → Nat) a + S1x1024.size a ≤ S256x1024.size a
  inb_S256_S1_18 : ∀ a, (![18] : Fin 1 → Nat) a + S1.size a ≤ S256.size a
  inb_S256x1024_S1x1024_18_0 : ∀ a, (![18, 0] : Fin 2 → Nat) a + S1x1024.size a ≤ S256x1024.size a
  inb_S256_S1_19 : ∀ a, (![19] : Fin 1 → Nat) a + S1.size a ≤ S256.size a
  inb_S256x1024_S1x1024_19_0 : ∀ a, (![19, 0] : Fin 2 → Nat) a + S1x1024.size a ≤ S256x1024.size a
  inb_S256_S1_20 : ∀ a, (![20] : Fin 1 → Nat) a + S1.size a ≤ S256.size a
  inb_S256x1024_S1x1024_20_0 : ∀ a, (![20, 0] : Fin 2 → Nat) a + S1x1024.size a ≤ S256x1024.size a
  inb_S256_S1_21 : ∀ a, (![21] : Fin 1 → Nat) a + S1.size a ≤ S256.size a
  inb_S256x1024_S1x1024_21_0 : ∀ a, (![21, 0] : Fin 2 → Nat) a + S1x1024.size a ≤ S256x1024.size a
  inb_S256_S1_22 : ∀ a, (![22] : Fin 1 → Nat) a + S1.size a ≤ S256.size a
  inb_S256x1024_S1x1024_22_0 : ∀ a, (![22, 0] : Fin 2 → Nat) a + S1x1024.size a ≤ S256x1024.size a
  inb_S256_S1_23 : ∀ a, (![23] : Fin 1 → Nat) a + S1.size a ≤ S256.size a
  inb_S256x1024_S1x1024_23_0 : ∀ a, (![23, 0] : Fin 2 → Nat) a + S1x1024.size a ≤ S256x1024.size a
  inb_S256_S1_24 : ∀ a, (![24] : Fin 1 → Nat) a + S1.size a ≤ S256.size a
  inb_S256x1024_S1x1024_24_0 : ∀ a, (![24, 0] : Fin 2 → Nat) a + S1x1024.size a ≤ S256x1024.size a
  inb_S256_S1_25 : ∀ a, (![25] : Fin 1 → Nat) a + S1.size a ≤ S256.size a
  inb_S256x1024_S1x1024_25_0 : ∀ a, (![25, 0] : Fin 2 → Nat) a + S1x1024.size a ≤ S256x1024.size a
  inb_S256_S1_26 : ∀ a, (![26] : Fin 1 → Nat) a + S1.size a ≤ S256.size a
  inb_S256x1024_S1x1024_26_0 : ∀ a, (![26, 0] : Fin 2 → Nat) a + S1x1024.size a ≤ S256x1024.size a
  inb_S256_S1_27 : ∀ a, (![27] : Fin 1 → Nat) a + S1.size a ≤ S256.size a
  inb_S256x1024_S1x1024_27_0 : ∀ a, (![27, 0] : Fin 2 → Nat) a + S1x1024.size a ≤ S256x1024.size a
  inb_S256_S1_28 : ∀ a, (![28] : Fin 1 → Nat) a + S1.size a ≤ S256.size a
  inb_S256x1024_S1x1024_28_0 : ∀ a, (![28, 0] : Fin 2 → Nat) a + S1x1024.size a ≤ S256x1024.size a
  inb_S256_S1_29 : ∀ a, (![29] : Fin 1 → Nat) a + S1.size a ≤ S256.size a
  inb_S256x1024_S1x1024_29_0 : ∀ a, (![29, 0] : Fin 2 → Nat) a + S1x1024.size a ≤ S256x1024.size a
  inb_S256_S1_30 : ∀ a, (![30] : Fin 1 → Nat) a + S1.size a ≤ S256.size a
  inb_S256x1024_S1x1024_30_0 : ∀ a, (![30, 0] : Fin 2 → Nat) a + S1x1024.size a ≤ S256x1024.size a
  inb_S256_S1_31 : ∀ a, (![31] : Fin 1 → Nat) a + S1.size a ≤ S256.size a
  inb_S256x1024_S1x1024_31_0 : ∀ a, (![31, 0] : Fin 2 → Nat) a + S1x1024.size a ≤ S256x1024.size a
  inb_S256_S1_32 : ∀ a, (![32] : Fin 1 → Nat) a + S1.size a ≤ S256.size a
  inb_S256x1024_S1x1024_32_0 : ∀ a, (![32, 0] : Fin 2 → Nat) a + S1x1024.size a ≤ S256x1024.size a
  inb_S256_S1_33 : ∀ a, (![33] : Fin 1 → Nat) a + S1.size a ≤ S256.size a
  inb_S256x1024_S1x1024_33_0 : ∀ a, (![33, 0] : Fin 2 → Nat) a + S1x1024.size a ≤ S256x1024.size a
  inb_S256_S1_34 : ∀ a, (![34] : Fin 1 → Nat) a + S1.size a ≤ S256.size a
  inb_S256x1024_S1x1024_34_0 : ∀ a, (![34, 0] : Fin 2 → Nat) a + S1x1024.size a ≤ S256x1024.size a
  inb_S256_S1_35 : ∀ a, (![35] : Fin 1 → Nat) a + S1.size a ≤ S256.size a
  inb_S256x1024_S1x1024_35_0 : ∀ a, (![35, 0] : Fin 2 → Nat) a + S1x1024.size a ≤ S256x1024.size a
  inb_S256_S1_36 : ∀ a, (![36] : Fin 1 → Nat) a + S1.size a ≤ S256.size a
  inb_S256x1024_S1x1024_36_0 : ∀ a, (![36, 0] : Fin 2 → Nat) a + S1x1024.size a ≤ S256x1024.size a
  inb_S256_S1_37 : ∀ a, (![37] : Fin 1 → Nat) a + S1.size a ≤ S256.size a
  inb_S256x1024_S1x1024_37_0 : ∀ a, (![37, 0] : Fin 2 → Nat) a + S1x1024.size a ≤ S256x1024.size a
  inb_S256_S1_38 : ∀ a, (![38] : Fin 1 → Nat) a + S1.size a ≤ S256.size a
  inb_S256x1024_S1x1024_38_0 : ∀ a, (![38, 0] : Fin 2 → Nat) a + S1x1024.size a ≤ S256x1024.size a
  inb_S256_S1_39 : ∀ a, (![39] : Fin 1 → Nat) a + S1.size a ≤ S256.size a
  inb_S256x1024_S1x1024_39_0 : ∀ a, (![39, 0] : Fin 2 → Nat) a + S1x1024.size a ≤ S256x1024.size a
  inb_S256_S1_40 : ∀ a, (![40] : Fin 1 → Nat) a + S1.size a ≤ S256.size a
  inb_S256x1024_S1x1024_40_0 : ∀ a, (![40, 0] : Fin 2 → Nat) a + S1x1024.size a ≤ S256x1024.size a
  inb_S256_S1_41 : ∀ a, (![41] : Fin 1 → Nat) a + S1.size a ≤ S256.size a
  inb_S256x1024_S1x1024_41_0 : ∀ a, (![41, 0] : Fin 2 → Nat) a + S1x1024.size a ≤ S256x1024.size a
  inb_S256_S1_42 : ∀ a, (![42] : Fin 1 → Nat) a + S1.size a ≤ S256.size a
  inb_S256x1024_S1x1024_42_0 : ∀ a, (![42, 0] : Fin 2 → Nat) a + S1x1024.size a ≤ S256x1024.size a
  inb_S256_S1_43 : ∀ a, (![43] : Fin 1 → Nat) a + S1.size a ≤ S256.size a
  inb_S256x1024_S1x1024_43_0 : ∀ a, (![43, 0] : Fin 2 → Nat) a + S1x1024.size a ≤ S256x1024.size a
  inb_S256_S1_44 : ∀ a, (![44] : Fin 1 → Nat) a + S1.size a ≤ S256.size a
  inb_S256x1024_S1x1024_44_0 : ∀ a, (![44, 0] : Fin 2 → Nat) a + S1x1024.size a ≤ S256x1024.size a
  inb_S256_S1_45 : ∀ a, (![45] : Fin 1 → Nat) a + S1.size a ≤ S256.size a
  inb_S256x1024_S1x1024_45_0 : ∀ a, (![45, 0] : Fin 2 → Nat) a + S1x1024.size a ≤ S256x1024.size a
  inb_S256_S1_46 : ∀ a, (![46] : Fin 1 → Nat) a + S1.size a ≤ S256.size a
  inb_S256x1024_S1x1024_46_0 : ∀ a, (![46, 0] : Fin 2 → Nat) a + S1x1024.size a ≤ S256x1024.size a
  inb_S256_S1_47 : ∀ a, (![47] : Fin 1 → Nat) a + S1.size a ≤ S256.size a
  inb_S256x1024_S1x1024_47_0 : ∀ a, (![47, 0] : Fin 2 → Nat) a + S1x1024.size a ≤ S256x1024.size a
  inb_S256_S1_48 : ∀ a, (![48] : Fin 1 → Nat) a + S1.size a ≤ S256.size a
  inb_S256x1024_S1x1024_48_0 : ∀ a, (![48, 0] : Fin 2 → Nat) a + S1x1024.size a ≤ S256x1024.size a
  inb_S256_S1_49 : ∀ a, (![49] : Fin 1 → Nat) a + S1.size a ≤ S256.size a
  inb_S256x1024_S1x1024_49_0 : ∀ a, (![49, 0] : Fin 2 → Nat) a + S1x1024.size a ≤ S256x1024.size a
  inb_S256_S1_50 : ∀ a, (![50] : Fin 1 → Nat) a + S1.size a ≤ S256.size a
  inb_S256x1024_S1x1024_50_0 : ∀ a, (![50, 0] : Fin 2 → Nat) a + S1x1024.size a ≤ S256x1024.size a
  inb_S256_S1_51 : ∀ a, (![51] : Fin 1 → Nat) a + S1.size a ≤ S256.size a
  inb_S256x1024_S1x1024_51_0 : ∀ a, (![51, 0] : Fin 2 → Nat) a + S1x1024.size a ≤ S256x1024.size a
  inb_S256_S1_52 : ∀ a, (![52] : Fin 1 → Nat) a + S1.size a ≤ S256.size a
  inb_S256x1024_S1x1024_52_0 : ∀ a, (![52, 0] : Fin 2 → Nat) a + S1x1024.size a ≤ S256x1024.size a
  inb_S256_S1_53 : ∀ a, (![53] : Fin 1 → Nat) a + S1.size a ≤ S256.size a
  inb_S256x1024_S1x1024_53_0 : ∀ a, (![53, 0] : Fin 2 → Nat) a + S1x1024.size a ≤ S256x1024.size a
  inb_S256_S1_54 : ∀ a, (![54] : Fin 1 → Nat) a + S1.size a ≤ S256.size a
  inb_S256x1024_S1x1024_54_0 : ∀ a, (![54, 0] : Fin 2 → Nat) a + S1x1024.size a ≤ S256x1024.size a
  inb_S256_S1_55 : ∀ a, (![55] : Fin 1 → Nat) a + S1.size a ≤ S256.size a
  inb_S256x1024_S1x1024_55_0 : ∀ a, (![55, 0] : Fin 2 → Nat) a + S1x1024.size a ≤ S256x1024.size a
  inb_S256_S1_56 : ∀ a, (![56] : Fin 1 → Nat) a + S1.size a ≤ S256.size a
  inb_S256x1024_S1x1024_56_0 : ∀ a, (![56, 0] : Fin 2 → Nat) a + S1x1024.size a ≤ S256x1024.size a
  inb_S256_S1_57 : ∀ a, (![57] : Fin 1 → Nat) a + S1.size a ≤ S256.size a
  inb_S256x1024_S1x1024_57_0 : ∀ a, (![57, 0] : Fin 2 → Nat) a + S1x1024.size a ≤ S256x1024.size a
  inb_S256_S1_58 : ∀ a, (![58] : Fin 1 → Nat) a + S1.size a ≤ S256.size a
  inb_S256x1024_S1x1024_58_0 : ∀ a, (![58, 0] : Fin 2 → Nat) a + S1x1024.size a ≤ S256x1024.size a
  inb_S256_S1_59 : ∀ a, (![59] : Fin 1 → Nat) a + S1.size a ≤ S256.size a
  inb_S256x1024_S1x1024_59_0 : ∀ a, (![59, 0] : Fin 2 → Nat) a + S1x1024.size a ≤ S256x1024.size a
  inb_S256_S1_60 : ∀ a, (![60] : Fin 1 → Nat) a + S1.size a ≤ S256.size a
  inb_S256x1024_S1x1024_60_0 : ∀ a, (![60, 0] : Fin 2 → Nat) a + S1x1024.size a ≤ S256x1024.size a
  inb_S256_S1_61 : ∀ a, (![61] : Fin 1 → Nat) a + S1.size a ≤ S256.size a
  inb_S256x1024_S1x1024_61_0 : ∀ a, (![61, 0] : Fin 2 → Nat) a + S1x1024.size a ≤ S256x1024.size a
  inb_S256_S1_62 : ∀ a, (![62] : Fin 1 → Nat) a + S1.size a ≤ S256.size a
  inb_S256x1024_S1x1024_62_0 : ∀ a, (![62, 0] : Fin 2 → Nat) a + S1x1024.size a ≤ S256x1024.size a
  inb_S256_S1_63 : ∀ a, (![63] : Fin 1 → Nat) a + S1.size a ≤ S256.size a
  inb_S256x1024_S1x1024_63_0 : ∀ a, (![63, 0] : Fin 2 → Nat) a + S1x1024.size a ≤ S256x1024.size a
  inb_S256_S1_64 : ∀ a, (![64] : Fin 1 → Nat) a + S1.size a ≤ S256.size a
  inb_S256x1024_S1x1024_64_0 : ∀ a, (![64, 0] : Fin 2 → Nat) a + S1x1024.size a ≤ S256x1024.size a
  inb_S256_S1_65 : ∀ a, (![65] : Fin 1 → Nat) a + S1.size a ≤ S256.size a
  inb_S256x1024_S1x1024_65_0 : ∀ a, (![65, 0] : Fin 2 → Nat) a + S1x1024.size a ≤ S256x1024.size a
  inb_S256_S1_66 : ∀ a, (![66] : Fin 1 → Nat) a + S1.size a ≤ S256.size a
  inb_S256x1024_S1x1024_66_0 : ∀ a, (![66, 0] : Fin 2 → Nat) a + S1x1024.size a ≤ S256x1024.size a
  inb_S256_S1_67 : ∀ a, (![67] : Fin 1 → Nat) a + S1.size a ≤ S256.size a
  inb_S256x1024_S1x1024_67_0 : ∀ a, (![67, 0] : Fin 2 → Nat) a + S1x1024.size a ≤ S256x1024.size a
  inb_S256_S1_68 : ∀ a, (![68] : Fin 1 → Nat) a + S1.size a ≤ S256.size a
  inb_S256x1024_S1x1024_68_0 : ∀ a, (![68, 0] : Fin 2 → Nat) a + S1x1024.size a ≤ S256x1024.size a
  inb_S256_S1_69 : ∀ a, (![69] : Fin 1 → Nat) a + S1.size a ≤ S256.size a
  inb_S256x1024_S1x1024_69_0 : ∀ a, (![69, 0] : Fin 2 → Nat) a + S1x1024.size a ≤ S256x1024.size a
  inb_S256_S1_70 : ∀ a, (![70] : Fin 1 → Nat) a + S1.size a ≤ S256.size a
  inb_S256x1024_S1x1024_70_0 : ∀ a, (![70, 0] : Fin 2 → Nat) a + S1x1024.size a ≤ S256x1024.size a
  inb_S256_S1_71 : ∀ a, (![71] : Fin 1 → Nat) a + S1.size a ≤ S256.size a
  inb_S256x1024_S1x1024_71_0 : ∀ a, (![71, 0] : Fin 2 → Nat) a + S1x1024.size a ≤ S256x1024.size a
  inb_S256_S1_72 : ∀ a, (![72] : Fin 1 → Nat) a + S1.size a ≤ S256.size a
  inb_S256x1024_S1x1024_72_0 : ∀ a, (![72, 0] : Fin 2 → Nat) a + S1x1024.size a ≤ S256x1024.size a
  inb_S256_S1_73 : ∀ a, (![73] : Fin 1 → Nat) a + S1.size a ≤ S256.size a
  inb_S256x1024_S1x1024_73_0 : ∀ a, (![73, 0] : Fin 2 → Nat) a + S1x1024.size a ≤ S256x1024.size a
  inb_S256_S1_74 : ∀ a, (![74] : Fin 1 → Nat) a + S1.size a ≤ S256.size a
  inb_S256x1024_S1x1024_74_0 : ∀ a, (![74, 0] : Fin 2 → Nat) a + S1x1024.size a ≤ S256x1024.size a
  inb_S256_S1_75 : ∀ a, (![75] : Fin 1 → Nat) a + S1.size a ≤ S256.size a
  inb_S256x1024_S1x1024_75_0 : ∀ a, (![75, 0] : Fin 2 → Nat) a + S1x1024.size a ≤ S256x1024.size a
  inb_S256_S1_76 : ∀ a, (![76] : Fin 1 → Nat) a + S1.size a ≤ S256.size a
  inb_S256x1024_S1x1024_76_0 : ∀ a, (![76, 0] : Fin 2 → Nat) a + S1x1024.size a ≤ S256x1024.size a
  inb_S256_S1_77 : ∀ a, (![77] : Fin 1 → Nat) a + S1.size a ≤ S256.size a
  inb_S256x1024_S1x1024_77_0 : ∀ a, (![77, 0] : Fin 2 → Nat) a + S1x1024.size a ≤ S256x1024.size a
  inb_S256_S1_78 : ∀ a, (![78] : Fin 1 → Nat) a + S1.size a ≤ S256.size a
  inb_S256x1024_S1x1024_78_0 : ∀ a, (![78, 0] : Fin 2 → Nat) a + S1x1024.size a ≤ S256x1024.size a
  inb_S256_S1_79 : ∀ a, (![79] : Fin 1 → Nat) a + S1.size a ≤ S256.size a
  inb_S256x1024_S1x1024_79_0 : ∀ a, (![79, 0] : Fin 2 → Nat) a + S1x1024.size a ≤ S256x1024.size a
  inb_S256_S1_80 : ∀ a, (![80] : Fin 1 → Nat) a + S1.size a ≤ S256.size a
  inb_S256x1024_S1x1024_80_0 : ∀ a, (![80, 0] : Fin 2 → Nat) a + S1x1024.size a ≤ S256x1024.size a
  inb_S256_S1_81 : ∀ a, (![81] : Fin 1 → Nat) a + S1.size a ≤ S256.size a
  inb_S256x1024_S1x1024_81_0 : ∀ a, (![81, 0] : Fin 2 → Nat) a + S1x1024.size a ≤ S256x1024.size a
  inb_S256_S1_82 : ∀ a, (![82] : Fin 1 → Nat) a + S1.size a ≤ S256.size a
  inb_S256x1024_S1x1024_82_0 : ∀ a, (![82, 0] : Fin 2 → Nat) a + S1x1024.size a ≤ S256x1024.size a
  inb_S256_S1_83 : ∀ a, (![83] : Fin 1 → Nat) a + S1.size a ≤ S256.size a
  inb_S256x1024_S1x1024_83_0 : ∀ a, (![83, 0] : Fin 2 → Nat) a + S1x1024.size a ≤ S256x1024.size a
  inb_S256_S1_84 : ∀ a, (![84] : Fin 1 → Nat) a + S1.size a ≤ S256.size a
  inb_S256x1024_S1x1024_84_0 : ∀ a, (![84, 0] : Fin 2 → Nat) a + S1x1024.size a ≤ S256x1024.size a
  inb_S256_S1_85 : ∀ a, (![85] : Fin 1 → Nat) a + S1.size a ≤ S256.size a
  inb_S256x1024_S1x1024_85_0 : ∀ a, (![85, 0] : Fin 2 → Nat) a + S1x1024.size a ≤ S256x1024.size a
  inb_S256_S1_86 : ∀ a, (![86] : Fin 1 → Nat) a + S1.size a ≤ S256.size a
  inb_S256x1024_S1x1024_86_0 : ∀ a, (![86, 0] : Fin 2 → Nat) a + S1x1024.size a ≤ S256x1024.size a
  inb_S256_S1_87 : ∀ a, (![87] : Fin 1 → Nat) a + S1.size a ≤ S256.size a
  inb_S256x1024_S1x1024_87_0 : ∀ a, (![87, 0] : Fin 2 → Nat) a + S1x1024.size a ≤ S256x1024.size a
  inb_S256_S1_88 : ∀ a, (![88] : Fin 1 → Nat) a + S1.size a ≤ S256.size a
  inb_S256x1024_S1x1024_88_0 : ∀ a, (![88, 0] : Fin 2 → Nat) a + S1x1024.size a ≤ S256x1024.size a
  inb_S256_S1_89 : ∀ a, (![89] : Fin 1 → Nat) a + S1.size a ≤ S256.size a
  inb_S256x1024_S1x1024_89_0 : ∀ a, (![89, 0] : Fin 2 → Nat) a + S1x1024.size a ≤ S256x1024.size a
  inb_S256_S1_90 : ∀ a, (![90] : Fin 1 → Nat) a + S1.size a ≤ S256.size a
  inb_S256x1024_S1x1024_90_0 : ∀ a, (![90, 0] : Fin 2 → Nat) a + S1x1024.size a ≤ S256x1024.size a
  inb_S256_S1_91 : ∀ a, (![91] : Fin 1 → Nat) a + S1.size a ≤ S256.size a
  inb_S256x1024_S1x1024_91_0 : ∀ a, (![91, 0] : Fin 2 → Nat) a + S1x1024.size a ≤ S256x1024.size a
  inb_S256_S1_92 : ∀ a, (![92] : Fin 1 → Nat) a + S1.size a ≤ S256.size a
  inb_S256x1024_S1x1024_92_0 : ∀ a, (![92, 0] : Fin 2 → Nat) a + S1x1024.size a ≤ S256x1024.size a
  inb_S256_S1_93 : ∀ a, (![93] : Fin 1 → Nat) a + S1.size a ≤ S256.size a
  inb_S256x1024_S1x1024_93_0 : ∀ a, (![93, 0] : Fin 2 → Nat) a + S1x1024.size a ≤ S256x1024.size a
  inb_S256_S1_94 : ∀ a, (![94] : Fin 1 → Nat) a + S1.size a ≤ S256.size a
  inb_S256x1024_S1x1024_94_0 : ∀ a, (![94, 0] : Fin 2 → Nat) a + S1x1024.size a ≤ S256x1024.size a
  inb_S256_S1_95 : ∀ a, (![95] : Fin 1 → Nat) a + S1.size a ≤ S256.size a
  inb_S256x1024_S1x1024_95_0 : ∀ a, (![95, 0] : Fin 2 → Nat) a + S1x1024.size a ≤ S256x1024.size a
  inb_S256_S1_96 : ∀ a, (![96] : Fin 1 → Nat) a + S1.size a ≤ S256.size a
  inb_S256x1024_S1x1024_96_0 : ∀ a, (![96, 0] : Fin 2 → Nat) a + S1x1024.size a ≤ S256x1024.size a
  inb_S256_S1_97 : ∀ a, (![97] : Fin 1 → Nat) a + S1.size a ≤ S256.size a
  inb_S256x1024_S1x1024_97_0 : ∀ a, (![97, 0] : Fin 2 → Nat) a + S1x1024.size a ≤ S256x1024.size a
  inb_S256_S1_98 : ∀ a, (![98] : Fin 1 → Nat) a + S1.size a ≤ S256.size a
  inb_S256x1024_S1x1024_98_0 : ∀ a, (![98, 0] : Fin 2 → Nat) a + S1x1024.size a ≤ S256x1024.size a
  inb_S256_S1_99 : ∀ a, (![99] : Fin 1 → Nat) a + S1.size a ≤ S256.size a
  inb_S256x1024_S1x1024_99_0 : ∀ a, (![99, 0] : Fin 2 → Nat) a + S1x1024.size a ≤ S256x1024.size a
  inb_S256_S1_100 : ∀ a, (![100] : Fin 1 → Nat) a + S1.size a ≤ S256.size a
  inb_S256x1024_S1x1024_100_0 : ∀ a, (![100, 0] : Fin 2 → Nat) a + S1x1024.size a ≤ S256x1024.size a
  inb_S256_S1_101 : ∀ a, (![101] : Fin 1 → Nat) a + S1.size a ≤ S256.size a
  inb_S256x1024_S1x1024_101_0 : ∀ a, (![101, 0] : Fin 2 → Nat) a + S1x1024.size a ≤ S256x1024.size a
  inb_S256_S1_102 : ∀ a, (![102] : Fin 1 → Nat) a + S1.size a ≤ S256.size a
  inb_S256x1024_S1x1024_102_0 : ∀ a, (![102, 0] : Fin 2 → Nat) a + S1x1024.size a ≤ S256x1024.size a
  inb_S256_S1_103 : ∀ a, (![103] : Fin 1 → Nat) a + S1.size a ≤ S256.size a
  inb_S256x1024_S1x1024_103_0 : ∀ a, (![103, 0] : Fin 2 → Nat) a + S1x1024.size a ≤ S256x1024.size a
  inb_S256_S1_104 : ∀ a, (![104] : Fin 1 → Nat) a + S1.size a ≤ S256.size a
  inb_S256x1024_S1x1024_104_0 : ∀ a, (![104, 0] : Fin 2 → Nat) a + S1x1024.size a ≤ S256x1024.size a
  inb_S256_S1_105 : ∀ a, (![105] : Fin 1 → Nat) a + S1.size a ≤ S256.size a
  inb_S256x1024_S1x1024_105_0 : ∀ a, (![105, 0] : Fin 2 → Nat) a + S1x1024.size a ≤ S256x1024.size a
  inb_S256_S1_106 : ∀ a, (![106] : Fin 1 → Nat) a + S1.size a ≤ S256.size a
  inb_S256x1024_S1x1024_106_0 : ∀ a, (![106, 0] : Fin 2 → Nat) a + S1x1024.size a ≤ S256x1024.size a
  inb_S256_S1_107 : ∀ a, (![107] : Fin 1 → Nat) a + S1.size a ≤ S256.size a
  inb_S256x1024_S1x1024_107_0 : ∀ a, (![107, 0] : Fin 2 → Nat) a + S1x1024.size a ≤ S256x1024.size a
  inb_S256_S1_108 : ∀ a, (![108] : Fin 1 → Nat) a + S1.size a ≤ S256.size a
  inb_S256x1024_S1x1024_108_0 : ∀ a, (![108, 0] : Fin 2 → Nat) a + S1x1024.size a ≤ S256x1024.size a
  inb_S256_S1_109 : ∀ a, (![109] : Fin 1 → Nat) a + S1.size a ≤ S256.size a
  inb_S256x1024_S1x1024_109_0 : ∀ a, (![109, 0] : Fin 2 → Nat) a + S1x1024.size a ≤ S256x1024.size a
  inb_S256_S1_110 : ∀ a, (![110] : Fin 1 → Nat) a + S1.size a ≤ S256.size a
  inb_S256x1024_S1x1024_110_0 : ∀ a, (![110, 0] : Fin 2 → Nat) a + S1x1024.size a ≤ S256x1024.size a
  inb_S256_S1_111 : ∀ a, (![111] : Fin 1 → Nat) a + S1.size a ≤ S256.size a
  inb_S256x1024_S1x1024_111_0 : ∀ a, (![111, 0] : Fin 2 → Nat) a + S1x1024.size a ≤ S256x1024.size a
  inb_S256_S1_112 : ∀ a, (![112] : Fin 1 → Nat) a + S1.size a ≤ S256.size a
  inb_S256x1024_S1x1024_112_0 : ∀ a, (![112, 0] : Fin 2 → Nat) a + S1x1024.size a ≤ S256x1024.size a
  inb_S256_S1_113 : ∀ a, (![113] : Fin 1 → Nat) a + S1.size a ≤ S256.size a
  inb_S256x1024_S1x1024_113_0 : ∀ a, (![113, 0] : Fin 2 → Nat) a + S1x1024.size a ≤ S256x1024.size a
  inb_S256_S1_114 : ∀ a, (![114] : Fin 1 → Nat) a + S1.size a ≤ S256.size a
  inb_S256x1024_S1x1024_114_0 : ∀ a, (![114, 0] : Fin 2 → Nat) a + S1x1024.size a ≤ S256x1024.size a
  inb_S256_S1_115 : ∀ a, (![115] : Fin 1 → Nat) a + S1.size a ≤ S256.size a
  inb_S256x1024_S1x1024_115_0 : ∀ a, (![115, 0] : Fin 2 → Nat) a + S1x1024.size a ≤ S256x1024.size a
  inb_S256_S1_116 : ∀ a, (![116] : Fin 1 → Nat) a + S1.size a ≤ S256.size a
  inb_S256x1024_S1x1024_116_0 : ∀ a, (![116, 0] : Fin 2 → Nat) a + S1x1024.size a ≤ S256x1024.size a
  inb_S256_S1_117 : ∀ a, (![117] : Fin 1 → Nat) a + S1.size a ≤ S256.size a
  inb_S256x1024_S1x1024_117_0 : ∀ a, (![117, 0] : Fin 2 → Nat) a + S1x1024.size a ≤ S256x1024.size a
  inb_S256_S1_118 : ∀ a, (![118] : Fin 1 → Nat) a + S1.size a ≤ S256.size a
  inb_S256x1024_S1x1024_118_0 : ∀ a, (![118, 0] : Fin 2 → Nat) a + S1x1024.size a ≤ S256x1024.size a
  inb_S256_S1_119 : ∀ a, (![119] : Fin 1 → Nat) a + S1.size a ≤ S256.size a
  inb_S256x1024_S1x1024_119_0 : ∀ a, (![119, 0] : Fin 2 → Nat) a + S1x1024.size a ≤ S256x1024.size a
  inb_S256_S1_120 : ∀ a, (![120] : Fin 1 → Nat) a + S1.size a ≤ S256.size a
  inb_S256x1024_S1x1024_120_0 : ∀ a, (![120, 0] : Fin 2 → Nat) a + S1x1024.size a ≤ S256x1024.size a
  inb_S256_S1_121 : ∀ a, (![121] : Fin 1 → Nat) a + S1.size a ≤ S256.size a
  inb_S256x1024_S1x1024_121_0 : ∀ a, (![121, 0] : Fin 2 → Nat) a + S1x1024.size a ≤ S256x1024.size a
  inb_S256_S1_122 : ∀ a, (![122] : Fin 1 → Nat) a + S1.size a ≤ S256.size a
  inb_S256x1024_S1x1024_122_0 : ∀ a, (![122, 0] : Fin 2 → Nat) a + S1x1024.size a ≤ S256x1024.size a
  inb_S256_S1_123 : ∀ a, (![123] : Fin 1 → Nat) a + S1.size a ≤ S256.size a
  inb_S256x1024_S1x1024_123_0 : ∀ a, (![123, 0] : Fin 2 → Nat) a + S1x1024.size a ≤ S256x1024.size a
  inb_S256_S1_124 : ∀ a, (![124] : Fin 1 → Nat) a + S1.size a ≤ S256.size a
  inb_S256x1024_S1x1024_124_0 : ∀ a, (![124, 0] : Fin 2 → Nat) a + S1x1024.size a ≤ S256x1024.size a
  inb_S256_S1_125 : ∀ a, (![125] : Fin 1 → Nat) a + S1.size a ≤ S256.size a
  inb_S256x1024_S1x1024_125_0 : ∀ a, (![125, 0] : Fin 2 → Nat) a + S1x1024.size a ≤ S256x1024.size a
  inb_S256_S1_126 : ∀ a, (![126] : Fin 1 → Nat) a + S1.size a ≤ S256.size a
  inb_S256x1024_S1x1024_126_0 : ∀ a, (![126, 0] : Fin 2 → Nat) a + S1x1024.size a ≤ S256x1024.size a
  inb_S256_S1_127 : ∀ a, (![127] : Fin 1 → Nat) a + S1.size a ≤ S256.size a
  inb_S256x1024_S1x1024_127_0 : ∀ a, (![127, 0] : Fin 2 → Nat) a + S1x1024.size a ≤ S256x1024.size a
  inb_S256_S1_128 : ∀ a, (![128] : Fin 1 → Nat) a + S1.size a ≤ S256.size a
  inb_S256x1024_S1x1024_128_0 : ∀ a, (![128, 0] : Fin 2 → Nat) a + S1x1024.size a ≤ S256x1024.size a
  inb_S256_S1_129 : ∀ a, (![129] : Fin 1 → Nat) a + S1.size a ≤ S256.size a
  inb_S256x1024_S1x1024_129_0 : ∀ a, (![129, 0] : Fin 2 → Nat) a + S1x1024.size a ≤ S256x1024.size a
  inb_S256_S1_130 : ∀ a, (![130] : Fin 1 → Nat) a + S1.size a ≤ S256.size a
  inb_S256x1024_S1x1024_130_0 : ∀ a, (![130, 0] : Fin 2 → Nat) a + S1x1024.size a ≤ S256x1024.size a
  inb_S256_S1_131 : ∀ a, (![131] : Fin 1 → Nat) a + S1.size a ≤ S256.size a
  inb_S256x1024_S1x1024_131_0 : ∀ a, (![131, 0] : Fin 2 → Nat) a + S1x1024.size a ≤ S256x1024.size a
  inb_S256_S1_132 : ∀ a, (![132] : Fin 1 → Nat) a + S1.size a ≤ S256.size a
  inb_S256x1024_S1x1024_132_0 : ∀ a, (![132, 0] : Fin 2 → Nat) a + S1x1024.size a ≤ S256x1024.size a
  inb_S256_S1_133 : ∀ a, (![133] : Fin 1 → Nat) a + S1.size a ≤ S256.size a
  inb_S256x1024_S1x1024_133_0 : ∀ a, (![133, 0] : Fin 2 → Nat) a + S1x1024.size a ≤ S256x1024.size a
  inb_S256_S1_134 : ∀ a, (![134] : Fin 1 → Nat) a + S1.size a ≤ S256.size a
  inb_S256x1024_S1x1024_134_0 : ∀ a, (![134, 0] : Fin 2 → Nat) a + S1x1024.size a ≤ S256x1024.size a
  inb_S256_S1_135 : ∀ a, (![135] : Fin 1 → Nat) a + S1.size a ≤ S256.size a
  inb_S256x1024_S1x1024_135_0 : ∀ a, (![135, 0] : Fin 2 → Nat) a + S1x1024.size a ≤ S256x1024.size a
  inb_S256_S1_136 : ∀ a, (![136] : Fin 1 → Nat) a + S1.size a ≤ S256.size a
  inb_S256x1024_S1x1024_136_0 : ∀ a, (![136, 0] : Fin 2 → Nat) a + S1x1024.size a ≤ S256x1024.size a
  inb_S256_S1_137 : ∀ a, (![137] : Fin 1 → Nat) a + S1.size a ≤ S256.size a
  inb_S256x1024_S1x1024_137_0 : ∀ a, (![137, 0] : Fin 2 → Nat) a + S1x1024.size a ≤ S256x1024.size a
  inb_S256_S1_138 : ∀ a, (![138] : Fin 1 → Nat) a + S1.size a ≤ S256.size a
  inb_S256x1024_S1x1024_138_0 : ∀ a, (![138, 0] : Fin 2 → Nat) a + S1x1024.size a ≤ S256x1024.size a
  inb_S256_S1_139 : ∀ a, (![139] : Fin 1 → Nat) a + S1.size a ≤ S256.size a
  inb_S256x1024_S1x1024_139_0 : ∀ a, (![139, 0] : Fin 2 → Nat) a + S1x1024.size a ≤ S256x1024.size a
  inb_S256_S1_140 : ∀ a, (![140] : Fin 1 → Nat) a + S1.size a ≤ S256.size a
  inb_S256x1024_S1x1024_140_0 : ∀ a, (![140, 0] : Fin 2 → Nat) a + S1x1024.size a ≤ S256x1024.size a
  inb_S256_S1_141 : ∀ a, (![141] : Fin 1 → Nat) a + S1.size a ≤ S256.size a
  inb_S256x1024_S1x1024_141_0 : ∀ a, (![141, 0] : Fin 2 → Nat) a + S1x1024.size a ≤ S256x1024.size a
  inb_S256_S1_142 : ∀ a, (![142] : Fin 1 → Nat) a + S1.size a ≤ S256.size a
  inb_S256x1024_S1x1024_142_0 : ∀ a, (![142, 0] : Fin 2 → Nat) a + S1x1024.size a ≤ S256x1024.size a
  inb_S256_S1_143 : ∀ a, (![143] : Fin 1 → Nat) a + S1.size a ≤ S256.size a
  inb_S256x1024_S1x1024_143_0 : ∀ a, (![143, 0] : Fin 2 → Nat) a + S1x1024.size a ≤ S256x1024.size a
  inb_S256_S1_144 : ∀ a, (![144] : Fin 1 → Nat) a + S1.size a ≤ S256.size a
  inb_S256x1024_S1x1024_144_0 : ∀ a, (![144, 0] : Fin 2 → Nat) a + S1x1024.size a ≤ S256x1024.size a
  inb_S256_S1_145 : ∀ a, (![145] : Fin 1 → Nat) a + S1.size a ≤ S256.size a
  inb_S256x1024_S1x1024_145_0 : ∀ a, (![145, 0] : Fin 2 → Nat) a + S1x1024.size a ≤ S256x1024.size a
  inb_S256_S1_146 : ∀ a, (![146] : Fin 1 → Nat) a + S1.size a ≤ S256.size a
  inb_S256x1024_S1x1024_146_0 : ∀ a, (![146, 0] : Fin 2 → Nat) a + S1x1024.size a ≤ S256x1024.size a
  inb_S256_S1_147 : ∀ a, (![147] : Fin 1 → Nat) a + S1.size a ≤ S256.size a
  inb_S256x1024_S1x1024_147_0 : ∀ a, (![147, 0] : Fin 2 → Nat) a + S1x1024.size a ≤ S256x1024.size a
  inb_S256_S1_148 : ∀ a, (![148] : Fin 1 → Nat) a + S1.size a ≤ S256.size a
  inb_S256x1024_S1x1024_148_0 : ∀ a, (![148, 0] : Fin 2 → Nat) a + S1x1024.size a ≤ S256x1024.size a
  inb_S256_S1_149 : ∀ a, (![149] : Fin 1 → Nat) a + S1.size a ≤ S256.size a
  inb_S256x1024_S1x1024_149_0 : ∀ a, (![149, 0] : Fin 2 → Nat) a + S1x1024.size a ≤ S256x1024.size a
  inb_S256_S1_150 : ∀ a, (![150] : Fin 1 → Nat) a + S1.size a ≤ S256.size a
  inb_S256x1024_S1x1024_150_0 : ∀ a, (![150, 0] : Fin 2 → Nat) a + S1x1024.size a ≤ S256x1024.size a
  inb_S256_S1_151 : ∀ a, (![151] : Fin 1 → Nat) a + S1.size a ≤ S256.size a
  inb_S256x1024_S1x1024_151_0 : ∀ a, (![151, 0] : Fin 2 → Nat) a + S1x1024.size a ≤ S256x1024.size a
  inb_S256_S1_152 : ∀ a, (![152] : Fin 1 → Nat) a + S1.size a ≤ S256.size a
  inb_S256x1024_S1x1024_152_0 : ∀ a, (![152, 0] : Fin 2 → Nat) a + S1x1024.size a ≤ S256x1024.size a
  inb_S256_S1_153 : ∀ a, (![153] : Fin 1 → Nat) a + S1.size a ≤ S256.size a
  inb_S256x1024_S1x1024_153_0 : ∀ a, (![153, 0] : Fin 2 → Nat) a + S1x1024.size a ≤ S256x1024.size a
  inb_S256_S1_154 : ∀ a, (![154] : Fin 1 → Nat) a + S1.size a ≤ S256.size a
  inb_S256x1024_S1x1024_154_0 : ∀ a, (![154, 0] : Fin 2 → Nat) a + S1x1024.size a ≤ S256x1024.size a
  inb_S256_S1_155 : ∀ a, (![155] : Fin 1 → Nat) a + S1.size a ≤ S256.size a
  inb_S256x1024_S1x1024_155_0 : ∀ a, (![155, 0] : Fin 2 → Nat) a + S1x1024.size a ≤ S256x1024.size a
  inb_S256_S1_156 : ∀ a, (![156] : Fin 1 → Nat) a + S1.size a ≤ S256.size a
  inb_S256x1024_S1x1024_156_0 : ∀ a, (![156, 0] : Fin 2 → Nat) a + S1x1024.size a ≤ S256x1024.size a
  inb_S256_S1_157 : ∀ a, (![157] : Fin 1 → Nat) a + S1.size a ≤ S256.size a
  inb_S256x1024_S1x1024_157_0 : ∀ a, (![157, 0] : Fin 2 → Nat) a + S1x1024.size a ≤ S256x1024.size a
  inb_S256_S1_158 : ∀ a, (![158] : Fin 1 → Nat) a + S1.size a ≤ S256.size a
  inb_S256x1024_S1x1024_158_0 : ∀ a, (![158, 0] : Fin 2 → Nat) a + S1x1024.size a ≤ S256x1024.size a
  inb_S256_S1_159 : ∀ a, (![159] : Fin 1 → Nat) a + S1.size a ≤ S256.size a
  inb_S256x1024_S1x1024_159_0 : ∀ a, (![159, 0] : Fin 2 → Nat) a + S1x1024.size a ≤ S256x1024.size a
  inb_S256_S1_160 : ∀ a, (![160] : Fin 1 → Nat) a + S1.size a ≤ S256.size a
  inb_S256x1024_S1x1024_160_0 : ∀ a, (![160, 0] : Fin 2 → Nat) a + S1x1024.size a ≤ S256x1024.size a
  inb_S256_S1_161 : ∀ a, (![161] : Fin 1 → Nat) a + S1.size a ≤ S256.size a
  inb_S256x1024_S1x1024_161_0 : ∀ a, (![161, 0] : Fin 2 → Nat) a + S1x1024.size a ≤ S256x1024.size a
  inb_S256_S1_162 : ∀ a, (![162] : Fin 1 → Nat) a + S1.size a ≤ S256.size a
  inb_S256x1024_S1x1024_162_0 : ∀ a, (![162, 0] : Fin 2 → Nat) a + S1x1024.size a ≤ S256x1024.size a
  inb_S256_S1_163 : ∀ a, (![163] : Fin 1 → Nat) a + S1.size a ≤ S256.size a
  inb_S256x1024_S1x1024_163_0 : ∀ a, (![163, 0] : Fin 2 → Nat) a + S1x1024.size a ≤ S256x1024.size a
  inb_S256_S1_164 : ∀ a, (![164] : Fin 1 → Nat) a + S1.size a ≤ S256.size a
  inb_S256x1024_S1x1024_164_0 : ∀ a, (![164, 0] : Fin 2 → Nat) a + S1x1024.size a ≤ S256x1024.size a
  inb_S256_S1_165 : ∀ a, (![165] : Fin 1 → Nat) a + S1.size a ≤ S256.size a
  inb_S256x1024_S1x1024_165_0 : ∀ a, (![165, 0] : Fin 2 → Nat) a + S1x1024.size a ≤ S256x1024.size a
  inb_S256_S1_166 : ∀ a, (![166] : Fin 1 → Nat) a + S1.size a ≤ S256.size a
  inb_S256x1024_S1x1024_166_0 : ∀ a, (![166, 0] : Fin 2 → Nat) a + S1x1024.size a ≤ S256x1024.size a
  inb_S256_S1_167 : ∀ a, (![167] : Fin 1 → Nat) a + S1.size a ≤ S256.size a
  inb_S256x1024_S1x1024_167_0 : ∀ a, (![167, 0] : Fin 2 → Nat) a + S1x1024.size a ≤ S256x1024.size a
  inb_S256_S1_168 : ∀ a, (![168] : Fin 1 → Nat) a + S1.size a ≤ S256.size a
  inb_S256x1024_S1x1024_168_0 : ∀ a, (![168, 0] : Fin 2 → Nat) a + S1x1024.size a ≤ S256x1024.size a
  inb_S256_S1_169 : ∀ a, (![169] : Fin 1 → Nat) a + S1.size a ≤ S256.size a
  inb_S256x1024_S1x1024_169_0 : ∀ a, (![169, 0] : Fin 2 → Nat) a + S1x1024.size a ≤ S256x1024.size a
  inb_S256_S1_170 : ∀ a, (![170] : Fin 1 → Nat) a + S1.size a ≤ S256.size a
  inb_S256x1024_S1x1024_170_0 : ∀ a, (![170, 0] : Fin 2 → Nat) a + S1x1024.size a ≤ S256x1024.size a
  inb_S256_S1_171 : ∀ a, (![171] : Fin 1 → Nat) a + S1.size a ≤ S256.size a
  inb_S256x1024_S1x1024_171_0 : ∀ a, (![171, 0] : Fin 2 → Nat) a + S1x1024.size a ≤ S256x1024.size a
  inb_S256_S1_172 : ∀ a, (![172] : Fin 1 → Nat) a + S1.size a ≤ S256.size a
  inb_S256x1024_S1x1024_172_0 : ∀ a, (![172, 0] : Fin 2 → Nat) a + S1x1024.size a ≤ S256x1024.size a
  inb_S256_S1_173 : ∀ a, (![173] : Fin 1 → Nat) a + S1.size a ≤ S256.size a
  inb_S256x1024_S1x1024_173_0 : ∀ a, (![173, 0] : Fin 2 → Nat) a + S1x1024.size a ≤ S256x1024.size a
  inb_S256_S1_174 : ∀ a, (![174] : Fin 1 → Nat) a + S1.size a ≤ S256.size a
  inb_S256x1024_S1x1024_174_0 : ∀ a, (![174, 0] : Fin 2 → Nat) a + S1x1024.size a ≤ S256x1024.size a
  inb_S256_S1_175 : ∀ a, (![175] : Fin 1 → Nat) a + S1.size a ≤ S256.size a
  inb_S256x1024_S1x1024_175_0 : ∀ a, (![175, 0] : Fin 2 → Nat) a + S1x1024.size a ≤ S256x1024.size a
  inb_S256_S1_176 : ∀ a, (![176] : Fin 1 → Nat) a + S1.size a ≤ S256.size a
  inb_S256x1024_S1x1024_176_0 : ∀ a, (![176, 0] : Fin 2 → Nat) a + S1x1024.size a ≤ S256x1024.size a
  inb_S256_S1_177 : ∀ a, (![177] : Fin 1 → Nat) a + S1.size a ≤ S256.size a
  inb_S256x1024_S1x1024_177_0 : ∀ a, (![177, 0] : Fin 2 → Nat) a + S1x1024.size a ≤ S256x1024.size a
  inb_S256_S1_178 : ∀ a, (![178] : Fin 1 → Nat) a + S1.size a ≤ S256.size a
  inb_S256x1024_S1x1024_178_0 : ∀ a, (![178, 0] : Fin 2 → Nat) a + S1x1024.size a ≤ S256x1024.size a
  inb_S256_S1_179 : ∀ a, (![179] : Fin 1 → Nat) a + S1.size a ≤ S256.size a
  inb_S256x1024_S1x1024_179_0 : ∀ a, (![179, 0] : Fin 2 → Nat) a + S1x1024.size a ≤ S256x1024.size a
  inb_S256_S1_180 : ∀ a, (![180] : Fin 1 → Nat) a + S1.size a ≤ S256.size a
  inb_S256x1024_S1x1024_180_0 : ∀ a, (![180, 0] : Fin 2 → Nat) a + S1x1024.size a ≤ S256x1024.size a
  inb_S256_S1_181 : ∀ a, (![181] : Fin 1 → Nat) a + S1.size a ≤ S256.size a
  inb_S256x1024_S1x1024_181_0 : ∀ a, (![181, 0] : Fin 2 → Nat) a + S1x1024.size a ≤ S256x1024.size a
  inb_S256_S1_182 : ∀ a, (![182] : Fin 1 → Nat) a + S1.size a ≤ S256.size a
  inb_S256x1024_S1x1024_182_0 : ∀ a, (![182, 0] : Fin 2 → Nat) a + S1x1024.size a ≤ S256x1024.size a
  inb_S256_S1_183 : ∀ a, (![183] : Fin 1 → Nat) a + S1.size a ≤ S256.size a
  inb_S256x1024_S1x1024_183_0 : ∀ a, (![183, 0] : Fin 2 → Nat) a + S1x1024.size a ≤ S256x1024.size a
  inb_S256_S1_184 : ∀ a, (![184] : Fin 1 → Nat) a + S1.size a ≤ S256.size a
  inb_S256x1024_S1x1024_184_0 : ∀ a, (![184, 0] : Fin 2 → Nat) a + S1x1024.size a ≤ S256x1024.size a
  inb_S256_S1_185 : ∀ a, (![185] : Fin 1 → Nat) a + S1.size a ≤ S256.size a
  inb_S256x1024_S1x1024_185_0 : ∀ a, (![185, 0] : Fin 2 → Nat) a + S1x1024.size a ≤ S256x1024.size a
  inb_S256_S1_186 : ∀ a, (![186] : Fin 1 → Nat) a + S1.size a ≤ S256.size a
  inb_S256x1024_S1x1024_186_0 : ∀ a, (![186, 0] : Fin 2 → Nat) a + S1x1024.size a ≤ S256x1024.size a
  inb_S256_S1_187 : ∀ a, (![187] : Fin 1 → Nat) a + S1.size a ≤ S256.size a
  inb_S256x1024_S1x1024_187_0 : ∀ a, (![187, 0] : Fin 2 → Nat) a + S1x1024.size a ≤ S256x1024.size a
  inb_S256_S1_188 : ∀ a, (![188] : Fin 1 → Nat) a + S1.size a ≤ S256.size a
  inb_S256x1024_S1x1024_188_0 : ∀ a, (![188, 0] : Fin 2 → Nat) a + S1x1024.size a ≤ S256x1024.size a
  inb_S256_S1_189 : ∀ a, (![189] : Fin 1 → Nat) a + S1.size a ≤ S256.size a
  inb_S256x1024_S1x1024_189_0 : ∀ a, (![189, 0] : Fin 2 → Nat) a + S1x1024.size a ≤ S256x1024.size a
  inb_S256_S1_190 : ∀ a, (![190] : Fin 1 → Nat) a + S1.size a ≤ S256.size a
  inb_S256x1024_S1x1024_190_0 : ∀ a, (![190, 0] : Fin 2 → Nat) a + S1x1024.size a ≤ S256x1024.size a
  inb_S256_S1_191 : ∀ a, (![191] : Fin 1 → Nat) a + S1.size a ≤ S256.size a
  inb_S256x1024_S1x1024_191_0 : ∀ a, (![191, 0] : Fin 2 → Nat) a + S1x1024.size a ≤ S256x1024.size a
  inb_S256_S1_192 : ∀ a, (![192] : Fin 1 → Nat) a + S1.size a ≤ S256.size a
  inb_S256x1024_S1x1024_192_0 : ∀ a, (![192, 0] : Fin 2 → Nat) a + S1x1024.size a ≤ S256x1024.size a
  inb_S256_S1_193 : ∀ a, (![193] : Fin 1 → Nat) a + S1.size a ≤ S256.size a
  inb_S256x1024_S1x1024_193_0 : ∀ a, (![193, 0] : Fin 2 → Nat) a + S1x1024.size a ≤ S256x1024.size a
  inb_S256_S1_194 : ∀ a, (![194] : Fin 1 → Nat) a + S1.size a ≤ S256.size a
  inb_S256x1024_S1x1024_194_0 : ∀ a, (![194, 0] : Fin 2 → Nat) a + S1x1024.size a ≤ S256x1024.size a
  inb_S256_S1_195 : ∀ a, (![195] : Fin 1 → Nat) a + S1.size a ≤ S256.size a
  inb_S256x1024_S1x1024_195_0 : ∀ a, (![195, 0] : Fin 2 → Nat) a + S1x1024.size a ≤ S256x1024.size a
  inb_S256_S1_196 : ∀ a, (![196] : Fin 1 → Nat) a + S1.size a ≤ S256.size a
  inb_S256x1024_S1x1024_196_0 : ∀ a, (![196, 0] : Fin 2 → Nat) a + S1x1024.size a ≤ S256x1024.size a
  inb_S256_S1_197 : ∀ a, (![197] : Fin 1 → Nat) a + S1.size a ≤ S256.size a
  inb_S256x1024_S1x1024_197_0 : ∀ a, (![197, 0] : Fin 2 → Nat) a + S1x1024.size a ≤ S256x1024.size a
  inb_S256_S1_198 : ∀ a, (![198] : Fin 1 → Nat) a + S1.size a ≤ S256.size a
  inb_S256x1024_S1x1024_198_0 : ∀ a, (![198, 0] : Fin 2 → Nat) a + S1x1024.size a ≤ S256x1024.size a
  inb_S256_S1_199 : ∀ a, (![199] : Fin 1 → Nat) a + S1.size a ≤ S256.size a
  inb_S256x1024_S1x1024_199_0 : ∀ a, (![199, 0] : Fin 2 → Nat) a + S1x1024.size a ≤ S256x1024.size a
  inb_S256_S1_200 : ∀ a, (![200] : Fin 1 → Nat) a + S1.size a ≤ S256.size a
  inb_S256x1024_S1x1024_200_0 : ∀ a, (![200, 0] : Fin 2 → Nat) a + S1x1024.size a ≤ S256x1024.size a
  inb_S256_S1_201 : ∀ a, (![201] : Fin 1 → Nat) a + S1.size a ≤ S256.size a
  inb_S256x1024_S1x1024_201_0 : ∀ a, (![201, 0] : Fin 2 → Nat) a + S1x1024.size a ≤ S256x1024.size a
  inb_S256_S1_202 : ∀ a, (![202] : Fin 1 → Nat) a + S1.size a ≤ S256.size a
  inb_S256x1024_S1x1024_202_0 : ∀ a, (![202, 0] : Fin 2 → Nat) a + S1x1024.size a ≤ S256x1024.size a
  inb_S256_S1_203 : ∀ a, (![203] : Fin 1 → Nat) a + S1.size a ≤ S256.size a
  inb_S256x1024_S1x1024_203_0 : ∀ a, (![203, 0] : Fin 2 → Nat) a + S1x1024.size a ≤ S256x1024.size a
  inb_S256_S1_204 : ∀ a, (![204] : Fin 1 → Nat) a + S1.size a ≤ S256.size a
  inb_S256x1024_S1x1024_204_0 : ∀ a, (![204, 0] : Fin 2 → Nat) a + S1x1024.size a ≤ S256x1024.size a
  inb_S256_S1_205 : ∀ a, (![205] : Fin 1 → Nat) a + S1.size a ≤ S256.size a
  inb_S256x1024_S1x1024_205_0 : ∀ a, (![205, 0] : Fin 2 → Nat) a + S1x1024.size a ≤ S256x1024.size a
  inb_S256_S1_206 : ∀ a, (![206] : Fin 1 → Nat) a + S1.size a ≤ S256.size a
  inb_S256x1024_S1x1024_206_0 : ∀ a, (![206, 0] : Fin 2 → Nat) a + S1x1024.size a ≤ S256x1024.size a
  inb_S256_S1_207 : ∀ a, (![207] : Fin 1 → Nat) a + S1.size a ≤ S256.size a
  inb_S256x1024_S1x1024_207_0 : ∀ a, (![207, 0] : Fin 2 → Nat) a + S1x1024.size a ≤ S256x1024.size a
  inb_S256_S1_208 : ∀ a, (![208] : Fin 1 → Nat) a + S1.size a ≤ S256.size a
  inb_S256x1024_S1x1024_208_0 : ∀ a, (![208, 0] : Fin 2 → Nat) a + S1x1024.size a ≤ S256x1024.size a
  inb_S256_S1_209 : ∀ a, (![209] : Fin 1 → Nat) a + S1.size a ≤ S256.size a
  inb_S256x1024_S1x1024_209_0 : ∀ a, (![209, 0] : Fin 2 → Nat) a + S1x1024.size a ≤ S256x1024.size a
  inb_S256_S1_210 : ∀ a, (![210] : Fin 1 → Nat) a + S1.size a ≤ S256.size a
  inb_S256x1024_S1x1024_210_0 : ∀ a, (![210, 0] : Fin 2 → Nat) a + S1x1024.size a ≤ S256x1024.size a
  inb_S256_S1_211 : ∀ a, (![211] : Fin 1 → Nat) a + S1.size a ≤ S256.size a
  inb_S256x1024_S1x1024_211_0 : ∀ a, (![211, 0] : Fin 2 → Nat) a + S1x1024.size a ≤ S256x1024.size a
  inb_S256_S1_212 : ∀ a, (![212] : Fin 1 → Nat) a + S1.size a ≤ S256.size a
  inb_S256x1024_S1x1024_212_0 : ∀ a, (![212, 0] : Fin 2 → Nat) a + S1x1024.size a ≤ S256x1024.size a
  inb_S256_S1_213 : ∀ a, (![213] : Fin 1 → Nat) a + S1.size a ≤ S256.size a
  inb_S256x1024_S1x1024_213_0 : ∀ a, (![213, 0] : Fin 2 → Nat) a + S1x1024.size a ≤ S256x1024.size a
  inb_S256_S1_214 : ∀ a, (![214] : Fin 1 → Nat) a + S1.size a ≤ S256.size a
  inb_S256x1024_S1x1024_214_0 : ∀ a, (![214, 0] : Fin 2 → Nat) a + S1x1024.size a ≤ S256x1024.size a
  inb_S256_S1_215 : ∀ a, (![215] : Fin 1 → Nat) a + S1.size a ≤ S256.size a
  inb_S256x1024_S1x1024_215_0 : ∀ a, (![215, 0] : Fin 2 → Nat) a + S1x1024.size a ≤ S256x1024.size a
  inb_S256_S1_216 : ∀ a, (![216] : Fin 1 → Nat) a + S1.size a ≤ S256.size a
  inb_S256x1024_S1x1024_216_0 : ∀ a, (![216, 0] : Fin 2 → Nat) a + S1x1024.size a ≤ S256x1024.size a
  inb_S256_S1_217 : ∀ a, (![217] : Fin 1 → Nat) a + S1.size a ≤ S256.size a
  inb_S256x1024_S1x1024_217_0 : ∀ a, (![217, 0] : Fin 2 → Nat) a + S1x1024.size a ≤ S256x1024.size a
  inb_S256_S1_218 : ∀ a, (![218] : Fin 1 → Nat) a + S1.size a ≤ S256.size a
  inb_S256x1024_S1x1024_218_0 : ∀ a, (![218, 0] : Fin 2 → Nat) a + S1x1024.size a ≤ S256x1024.size a
  inb_S256_S1_219 : ∀ a, (![219] : Fin 1 → Nat) a + S1.size a ≤ S256.size a
  inb_S256x1024_S1x1024_219_0 : ∀ a, (![219, 0] : Fin 2 → Nat) a + S1x1024.size a ≤ S256x1024.size a
  inb_S256_S1_220 : ∀ a, (![220] : Fin 1 → Nat) a + S1.size a ≤ S256.size a
  inb_S256x1024_S1x1024_220_0 : ∀ a, (![220, 0] : Fin 2 → Nat) a + S1x1024.size a ≤ S256x1024.size a
  inb_S256_S1_221 : ∀ a, (![221] : Fin 1 → Nat) a + S1.size a ≤ S256.size a
  inb_S256x1024_S1x1024_221_0 : ∀ a, (![221, 0] : Fin 2 → Nat) a + S1x1024.size a ≤ S256x1024.size a
  inb_S256_S1_222 : ∀ a, (![222] : Fin 1 → Nat) a + S1.size a ≤ S256.size a
  inb_S256x1024_S1x1024_222_0 : ∀ a, (![222, 0] : Fin 2 → Nat) a + S1x1024.size a ≤ S256x1024.size a
  inb_S256_S1_223 : ∀ a, (![223] : Fin 1 → Nat) a + S1.size a ≤ S256.size a
  inb_S256x1024_S1x1024_223_0 : ∀ a, (![223, 0] : Fin 2 → Nat) a + S1x1024.size a ≤ S256x1024.size a
  inb_S256_S1_224 : ∀ a, (![224] : Fin 1 → Nat) a + S1.size a ≤ S256.size a
  inb_S256x1024_S1x1024_224_0 : ∀ a, (![224, 0] : Fin 2 → Nat) a + S1x1024.size a ≤ S256x1024.size a
  inb_S256_S1_225 : ∀ a, (![225] : Fin 1 → Nat) a + S1.size a ≤ S256.size a
  inb_S256x1024_S1x1024_225_0 : ∀ a, (![225, 0] : Fin 2 → Nat) a + S1x1024.size a ≤ S256x1024.size a
  inb_S256_S1_226 : ∀ a, (![226] : Fin 1 → Nat) a + S1.size a ≤ S256.size a
  inb_S256x1024_S1x1024_226_0 : ∀ a, (![226, 0] : Fin 2 → Nat) a + S1x1024.size a ≤ S256x1024.size a
  inb_S256_S1_227 : ∀ a, (![227] : Fin 1 → Nat) a + S1.size a ≤ S256.size a
  inb_S256x1024_S1x1024_227_0 : ∀ a, (![227, 0] : Fin 2 → Nat) a + S1x1024.size a ≤ S256x1024.size a
  inb_S256_S1_228 : ∀ a, (![228] : Fin 1 → Nat) a + S1.size a ≤ S256.size a
  inb_S256x1024_S1x1024_228_0 : ∀ a, (![228, 0] : Fin 2 → Nat) a + S1x1024.size a ≤ S256x1024.size a
  inb_S256_S1_229 : ∀ a, (![229] : Fin 1 → Nat) a + S1.size a ≤ S256.size a
  inb_S256x1024_S1x1024_229_0 : ∀ a, (![229, 0] : Fin 2 → Nat) a + S1x1024.size a ≤ S256x1024.size a
  inb_S256_S1_230 : ∀ a, (![230] : Fin 1 → Nat) a + S1.size a ≤ S256.size a
  inb_S256x1024_S1x1024_230_0 : ∀ a, (![230, 0] : Fin 2 → Nat) a + S1x1024.size a ≤ S256x1024.size a
  inb_S256_S1_231 : ∀ a, (![231] : Fin 1 → Nat) a + S1.size a ≤ S256.size a
  inb_S256x1024_S1x1024_231_0 : ∀ a, (![231, 0] : Fin 2 → Nat) a + S1x1024.size a ≤ S256x1024.size a
  inb_S256_S1_232 : ∀ a, (![232] : Fin 1 → Nat) a + S1.size a ≤ S256.size a
  inb_S256x1024_S1x1024_232_0 : ∀ a, (![232, 0] : Fin 2 → Nat) a + S1x1024.size a ≤ S256x1024.size a
  inb_S256_S1_233 : ∀ a, (![233] : Fin 1 → Nat) a + S1.size a ≤ S256.size a
  inb_S256x1024_S1x1024_233_0 : ∀ a, (![233, 0] : Fin 2 → Nat) a + S1x1024.size a ≤ S256x1024.size a
  inb_S256_S1_234 : ∀ a, (![234] : Fin 1 → Nat) a + S1.size a ≤ S256.size a
  inb_S256x1024_S1x1024_234_0 : ∀ a, (![234, 0] : Fin 2 → Nat) a + S1x1024.size a ≤ S256x1024.size a
  inb_S256_S1_235 : ∀ a, (![235] : Fin 1 → Nat) a + S1.size a ≤ S256.size a
  inb_S256x1024_S1x1024_235_0 : ∀ a, (![235, 0] : Fin 2 → Nat) a + S1x1024.size a ≤ S256x1024.size a
  inb_S256_S1_236 : ∀ a, (![236] : Fin 1 → Nat) a + S1.size a ≤ S256.size a
  inb_S256x1024_S1x1024_236_0 : ∀ a, (![236, 0] : Fin 2 → Nat) a + S1x1024.size a ≤ S256x1024.size a
  inb_S256_S1_237 : ∀ a, (![237] : Fin 1 → Nat) a + S1.size a ≤ S256.size a
  inb_S256x1024_S1x1024_237_0 : ∀ a, (![237, 0] : Fin 2 → Nat) a + S1x1024.size a ≤ S256x1024.size a
  inb_S256_S1_238 : ∀ a, (![238] : Fin 1 → Nat) a + S1.size a ≤ S256.size a
  inb_S256x1024_S1x1024_238_0 : ∀ a, (![238, 0] : Fin 2 → Nat) a + S1x1024.size a ≤ S256x1024.size a
  inb_S256_S1_239 : ∀ a, (![239] : Fin 1 → Nat) a + S1.size a ≤ S256.size a
  inb_S256x1024_S1x1024_239_0 : ∀ a, (![239, 0] : Fin 2 → Nat) a + S1x1024.size a ≤ S256x1024.size a
  inb_S256_S1_240 : ∀ a, (![240] : Fin 1 → Nat) a + S1.size a ≤ S256.size a
  inb_S256x1024_S1x1024_240_0 : ∀ a, (![240, 0] : Fin 2 → Nat) a + S1x1024.size a ≤ S256x1024.size a
  inb_S256_S1_241 : ∀ a, (![241] : Fin 1 → Nat) a + S1.size a ≤ S256.size a
  inb_S256x1024_S1x1024_241_0 : ∀ a, (![241, 0] : Fin 2 → Nat) a + S1x1024.size a ≤ S256x1024.size a
  inb_S256_S1_242 : ∀ a, (![242] : Fin 1 → Nat) a + S1.size a ≤ S256.size a
  inb_S256x1024_S1x1024_242_0 : ∀ a, (![242, 0] : Fin 2 → Nat) a + S1x1024.size a ≤ S256x1024.size a
  inb_S256_S1_243 : ∀ a, (![243] : Fin 1 → Nat) a + S1.size a ≤ S256.size a
  inb_S256x1024_S1x1024_243_0 : ∀ a, (![243, 0] : Fin 2 → Nat) a + S1x1024.size a ≤ S256x1024.size a
  inb_S256_S1_244 : ∀ a, (![244] : Fin 1 → Nat) a + S1.size a ≤ S256.size a
  inb_S256x1024_S1x1024_244_0 : ∀ a, (![244, 0] : Fin 2 → Nat) a + S1x1024.size a ≤ S256x1024.size a
  inb_S256_S1_245 : ∀ a, (![245] : Fin 1 → Nat) a + S1.size a ≤ S256.size a
  inb_S256x1024_S1x1024_245_0 : ∀ a, (![245, 0] : Fin 2 → Nat) a + S1x1024.size a ≤ S256x1024.size a
  inb_S256_S1_246 : ∀ a, (![246] : Fin 1 → Nat) a + S1.size a ≤ S256.size a
  inb_S256x1024_S1x1024_246_0 : ∀ a, (![246, 0] : Fin 2 → Nat) a + S1x1024.size a ≤ S256x1024.size a
  inb_S256_S1_247 : ∀ a, (![247] : Fin 1 → Nat) a + S1.size a ≤ S256.size a
  inb_S256x1024_S1x1024_247_0 : ∀ a, (![247, 0] : Fin 2 → Nat) a + S1x1024.size a ≤ S256x1024.size a
  inb_S256_S1_248 : ∀ a, (![248] : Fin 1 → Nat) a + S1.size a ≤ S256.size a
  inb_S256x1024_S1x1024_248_0 : ∀ a, (![248, 0] : Fin 2 → Nat) a + S1x1024.size a ≤ S256x1024.size a
  inb_S256_S1_249 : ∀ a, (![249] : Fin 1 → Nat) a + S1.size a ≤ S256.size a
  inb_S256x1024_S1x1024_249_0 : ∀ a, (![249, 0] : Fin 2 → Nat) a + S1x1024.size a ≤ S256x1024.size a
  inb_S256_S1_250 : ∀ a, (![250] : Fin 1 → Nat) a + S1.size a ≤ S256.size a
  inb_S256x1024_S1x1024_250_0 : ∀ a, (![250, 0] : Fin 2 → Nat) a + S1x1024.size a ≤ S256x1024.size a
  inb_S256_S1_251 : ∀ a, (![251] : Fin 1 → Nat) a + S1.size a ≤ S256.size a
  inb_S256x1024_S1x1024_251_0 : ∀ a, (![251, 0] : Fin 2 → Nat) a + S1x1024.size a ≤ S256x1024.size a
  inb_S256_S1_252 : ∀ a, (![252] : Fin 1 → Nat) a + S1.size a ≤ S256.size a
  inb_S256x1024_S1x1024_252_0 : ∀ a, (![252, 0] : Fin 2 → Nat) a + S1x1024.size a ≤ S256x1024.size a
  inb_S256_S1_253 : ∀ a, (![253] : Fin 1 → Nat) a + S1.size a ≤ S256.size a
  inb_S256x1024_S1x1024_253_0 : ∀ a, (![253, 0] : Fin 2 → Nat) a + S1x1024.size a ≤ S256x1024.size a
  inb_S256_S1_254 : ∀ a, (![254] : Fin 1 → Nat) a + S1.size a ≤ S256.size a
  inb_S256x1024_S1x1024_254_0 : ∀ a, (![254, 0] : Fin 2 → Nat) a + S1x1024.size a ≤ S256x1024.size a
  inb_S256_S1_255 : ∀ a, (![255] : Fin 1 → Nat) a + S1.size a ≤ S256.size a
  inb_S256x1024_S1x1024_255_0 : ∀ a, (![255, 0] : Fin 2 → Nat) a + S1x1024.size a ≤ S256x1024.size a
  inb_S32768x1024_S1x1024_0_0 : ∀ a, (![0, 0] : Fin 2 → Nat) a + S1x1024.size a ≤ S32768x1024.size a
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x1024_S4x4096x1024 : S16384x1024.ShapeCasts S4x4096x1024
  dot_S256x1024_S1024x1024_S256x1024_1_0_0_1_n_n_wf : DotDims.WF S256x1024 S1024x1024 S256x1024 [1] [0] [0] [1] [] []
  scatter_S32768x1024_S16384x1_S16384x1024_1_0_0_1_wf : ScatterDims.WF S32768x1024 S16384x1 S16384x1024 [1] [0] [0] 1
  hcc0_scratch1 : 3 + S256.numel ≤ 517
  hcc1_scratch0 : 261 + S256.numel ≤ 517

class Facts₀ : Prop where
  k0 : K0.Facts₀
  k1 : K1.Facts₀
  shapes1 : Shapes1.Facts₀
attribute [instance] Facts₀.k0 Facts₀.k1 Facts₀.shapes1

variable [Facts₀]

abbrev cc0_scratch1 : DmaSems sig S256 := SemArray.consecutive 3 S256 hcc0_scratch1
abbrev cc1_scratch0 : DmaSems sig S256 := SemArray.consecutive 261 S256 hcc1_scratch0
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def scatter_S32768x1024_S16384x1_S16384x1024_1_0_0_1 : ScatterDims S32768x1024 S16384x1 S16384x1024 where
  updateWindowDims := [1]
  insertedWindowDims := [0]
  scatterDimsToOperandDims := [0]
  indexVectorDim := 1
  wf := scatter_S32768x1024_S16384x1_S16384x1024_1_0_0_1_wf

abbrev spec0_0 : Pipeline.WinSpec sig grid0.rank :=
  Pipeline.WinSpec.ofSpec (Memref.whole main_v2) S1024x1024.size reads0_0 false true 1 stage0_0 sem0_0 nbuf0_0 hstage0_0

abbrev spec0_1 : Pipeline.WinSpec sig grid0.rank :=
  Pipeline.WinSpec.ofSpec (Memref.whole main_v3) S256x1024.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_1 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))
abbrev spec1_0 : Pipeline.WinSpec sig grid1.rank :=
  Pipeline.WinSpec.ofSpec (Memref.whole main_v13) S256x1024.size reads1_0 true false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_1 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S4x8192x1024 : Shape := ⟨3, ![4, 8192, 1024]⟩
abbrev S1024x1024 : Shape := ⟨2, ![1024, 1024]⟩
abbrev S16384 : Shape := ⟨1, ![16384]⟩
abbrev S32768x1024 : Shape := ⟨2, ![32768, 1024]⟩
abbrev S_ : Shape := ⟨0, ![]⟩
abbrev S16384x1 : Shape := ⟨2, ![16384, 1]⟩
abbrev S16384x1024 : Shape := ⟨2, ![16384, 1024]⟩
abbrev S4x4096x1024 : Shape := ⟨3, ![4, 4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S16384, .i32⟩
  | .hbm, ⟨3, _⟩ => ⟨S16384, .i32⟩
  | .hbm, ⟨4, _⟩ => ⟨S32768x1024, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x1024, .f32⟩
  | .hbm, ⟨14, _⟩ => ⟨S1024x1024, .f32⟩
  | .hbm, ⟨15, _⟩ => ⟨S16384x1024, .f32⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S32768x1024, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384x1024, .f32⟩
  | .hbm, ⟨37, _⟩ => ⟨S4x4096x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  shapeCasts_S4x8192x1024_S32768x1024 : S4x8192x1024.ShapeCasts S32768x1024
  bcast_S_S16384 : S_.BroadcastsInDim S16384 (![] : Fin 0 → Fin S16384.rank)
  bcast_S16384_S16384x1_0 : S16384.BroadcastsInDim S16384x1 (![0] : Fin 1 → Fin S16384x1.rank)
  transposes_S1024x1024_S1024x1024_1_0 : S1024x1024.Transposes [1, 0] S1024x1024
  shapeCasts_S16384x1024_S4x4096x1024 : S16384x1024.ShapeCasts S4x4096x1024
  gather_S32768x1024_S16384x1_S16384x1024_1_0_n_n_0_1_11024_wf : GatherDims.WF S32768x1024 S16384x1 S16384x1024 [1] [0] [] [0] [] 1 ![1, 1024]
  dot_S16384x1024_S1024x1024_S16384x1024_1_0_0_1_n_n_wf : DotDims.WF S16384x1024 S1024x1024 S16384x1024 [1] [0] [0] [1] [] []
  scatter_S32768x1024_S16384x1_S16384x1024_1_0_0_1_wf : ScatterDims.WF S32768x1024 S16384x1 S16384x1024 [1] [0] [0] 1

variable [Facts₀]

def gather_S32768x1024_S16384x1_S16384x1024_1_0_n_n_0_1_11024 : GatherDims S32768x1024 S16384x1 S16384x1024 where
  offsetDims := [1]
  collapsedSliceDims := [0]
  operandBatchingDims := []
  startIndicesBatchingDims := []
  startIndexMap := [0]
  indexVectorDim := 1
  sliceSizes := ![1, 1024]
  wf := gather_S32768x1024_S16384x1_S16384x1024_1_0_n_n_0_1_11024_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def scatter_S32768x1024_S16384x1_S16384x1024_1_0_0_1 : ScatterDims S32768x1024 S16384x1 S16384x1024 where
  updateWindowDims := [1]
  insertedWindowDims := [0]
  scatterDimsToOperandDims := [0]
  indexVectorDim := 1
  wf := scatter_S32768x1024_S16384x1_S16384x1024_1_0_0_1_wf

class Facts : Prop extends Facts₀ where

variable [Facts]
-- ==== Proof.PreDecode.lean ====
import proofs.«409488_j73529840107771_1_alg».proof.Pre_finite_inputs
import Idealize.ShloMosaic.Lib.ReduceAll
import Idealize.ShloMosaic.Lib.StableHlo.Predicate

noncomputable section

namespace Cert.PreDecode

open Idealize.ShloMosaic Cert.Pre_finite_inputs

instance : Subsingleton S_.Idx := ⟨fun a b => funext fun d => d.elim0⟩

theorem toNat_lt (w : BitVec 32) (h0 : IntOp.cmpi .sge w (0#32) = 1#1) (h1 : IntOp.cmpi .slt w (32768#32) = 1#1) :
    w.toNat < 32768 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

theorem all_lt [Facts] (a : IVec S16384 32) (j : S_.Idx)
    (e : Host.reduce IntOp.andi
        (andi (cmpi .sge a (broadcastInDim S16384 ![] Facts.bcast_S_S16384 (constantI S_ 32 0#32)))
          (cmpi .slt a (broadcastInDim S16384 ![] Facts.bcast_S_S16384 (constantI S_ 32 32768#32))))
        (constantI S_ 1 1#1) Facts.reducesTo_S16384_S_d0 Facts.h_S_ j = 1#1) :
    ∀ i, (a i).toNat < 32768 := by
  intro i
  have hi := Host.reduce_andi_all _ _ _ _ j e i
  obtain ⟨h0, h1⟩ := IntOp.andi_eq_one.1 hi
  exact toNat_lt (a i) h0 h1

theorem ids_lt {F : FTy → Type} [FloatOps F] [Cert.Pre_finite_inputs.Facts]
    (x : FVec F Cert.Pre_finite_inputs.S4x8192x1024 .f32) (W : FVec F Cert.Pre_finite_inputs.S1024x1024 .f32)
    (a2 a3 : IVec Cert.Pre_finite_inputs.S16384 32)
    (h : Cert.Pre_finite_inputs.fn (F := F) x W a2 a3 = (fun _ => 1#1)) :
    (∀ i, (a2 i).toNat < 32768) ∧ (∀ i, (a3 i).toNat < 32768) := by
  have e := congrFun h (fun d => d.elim0)
  dsimp only [fn, fn_part1] at e
  obtain ⟨e12, e3⟩ := IntOp.andi_eq_one.1 e
  obtain ⟨_, e2⟩ := IntOp.andi_eq_one.1 e12
  exact ⟨all_lt a2 _ e2, all_lt a3 _ e3⟩

end Cert.PreDecode

end
-- ==== Proof.Spec.lean ====
import Idealize.ShloMosaic.PureOps
import Idealize.ShloMosaic.Lib.ValueIdx

noncomputable section

namespace Cert.Spec

open Idealize.ShloMosaic Idealize.ShloMosaic.ValueIdx

variable {F : FTy → Type}

abbrev SIds : Shape := ⟨1, ![16384]⟩
abbrev SSrc : Shape := ⟨2, ![32768, 1024]⟩
abbrev SBlk : Shape := ⟨2, ![256, 1024]⟩
abbrev SOut : Shape := ⟨2, ![16384, 1024]⟩

def rowOf (ids : IVec SIds 32) (n : ℕ) : Fin 32768 := Fin.ofNat 32768 (ids (ix1 (Fin.ofNat 16384 n))).toNat

def gatherAll (ids : IVec SIds 32) (x : Vec F SSrc .f32) : Vec F SOut .f32 :=
  fun y => x (ix2 (rowOf ids (y 0).val) (⟨(y 1).val, idx2_lt1 y⟩ : Fin 1024))

def gatherRows (g : ℕ) (ids : IVec SIds 32) (x : Vec F SSrc .f32) : Vec F SBlk .f32 :=
  fun y => x (ix2 (rowOf ids (256 * g + (y 0).val)) (⟨(y 1).val, idx2_lt1 y⟩ : Fin 1024))

theorem gatherRows_apply (g : ℕ) (hg : g < 64) (ids : IVec SIds 32) (x : Vec F SSrc .f32) (r : Fin 256) (q : Fin 1024) :
    gatherRows g ids x (ix2 r q) = gatherAll ids x (ix2 (⟨256 * g + r.val, by omega⟩ : Fin 16384) q) := rfl

end Cert.Spec

end
-- ==== Proof.Iface.lean ====
import proofs.«409488_j73529840107771_1_alg».proof.Proof.Gen.KernelIdeal.Skeleton
import proofs.«409488_j73529840107771_1_alg».proof.Proof.Gen.KernelIdeal.Launch
import proofs.«409488_j73529840107771_1_alg».proof.Proof.Spec
import Idealize.ShloMosaic.Lib.Tactic
import Idealize.ShloMosaic.Lib.Batch
import Idealize.ShloMosaic.Lib.Pipeline.Kit
import Idealize.ShloMosaic.Lib.Pipeline.Frame

noncomputable section

namespace Cert.KernelIdeal.Iface

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev osem0 : Fin 256 → SemLoc sig := fun k => SemLoc.dma (cc0_scratch1.ix (ValueIdx.ix1 k))

abbrev osem1 : Fin 256 → SemLoc sig := fun k => SemLoc.dma (cc1_scratch0.ix (ValueIdx.ix1 k))

end Cert.KernelIdeal.Iface

end
-- ==== Proof.RowsDef0.lean ====
import proofs.«409488_j73529840107771_1_alg».proof.Proof.Iface

noncomputable section

namespace Cert.KernelIdeal.Rows0

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.KernelIdeal.Iface

abbrev TBL : Memref sig .tc .smem S16384 .i32 := Memref.whole main_arg3
abbrev SRC : Memref sig .tc .hbm S32768x1024 .f32 := Memref.whole main_v0
abbrev base : ℕ := 3

theorem row_inb (w : BitVec 32) (h : w.toNat < 32768) : ∀ a, (![w.toNat, 0] : Fin 2 → Nat) a + S1x1024.size a ≤ S32768x1024.size a := by
  intro a
  fin_cases a
  · show w.toNat + 1 ≤ 32768
    omega
  · show 0 + 1024 ≤ 1024
    omega

theorem dst_inb (r : ℕ) (h : r < 256) : ∀ a, (![r, 0] : Fin 2 → Nat) a + S1x1024.size a ≤ S256x1024.size a := by
  intro a
  fin_cases a
  · show r + 1 ≤ 256
    omega
  · show 0 + 1024 ≤ 1024
    omega

abbrev rowM (M : Memref sig .tc .vmem S256x1024 .f32) (r : ℕ) (h : ∀ a, (![r, 0] : Fin 2 → ℕ) a + S1x1024.size a ≤ S256x1024.size a) : Memref sig .tc .vmem S1024 .f32 :=
  (M.slice (Rect.unit (s := S256x1024) ![r, 0] S1x1024.size h) (fun _ => rfl)).squeeze S1024 Shapes1.Facts₀.squeezes_S1x1024_S1024

/-- Row r of the buffer, held through exactly its own 1024 elements at the contents d of the whole buffer. -/
abbrev rowH (c : Dev nD) (M : Memref sig .tc .vmem S256x1024 .f32) (r : ℕ) (h : ∀ a, (![r, 0] : Fin 2 → ℕ) a + S1x1024.size a ≤ S256x1024.size a) (d : Bf (F := F) c M) : sProp 𝕄 :=
  (rowM M r h).view.loc (c : Thread nD τ) ↦[(rowM M r h).view.set]{fullShare} d

abbrev tokS (c : Dev nD) (i : ℕ) (f : Bf (F := F) c SRC) : sProp 𝕄 :=
  SRC.view.loc (c : Thread nD τ) ↦{Transfers.shareTokN fullShare i} f

abbrev sv (c : Dev nD) (i : DmaSem sig) : sProp 𝕄 := semVal ((c : Thread nD τ), SemLoc.dma i) 0

abbrev wordAt (c : Dev nD) (off : Fin 1 → ℕ) (h : ∀ a, off a + S1.size a ≤ S16384.size a) (pf : Bf (F := F) c TBL) : BitVec 32 :=
  View.readAt (Elt F) TBL.view (Rect.unit (s := S16384) off S1.size h).toLoadRect pf (Shape.Idx.first (show 0 < S1.numel by decide))

abbrev rowPay (c : Dev nD) (w : BitVec 32) (h : ∀ a, (![w.toNat, 0] : Fin 2 → ℕ) a + S1x1024.size a ≤ S32768x1024.size a) (f : Bf (F := F) c SRC) : S1024.Idx → Elt F .f32 :=
  ReadAs.same.apply (View.read (Elt F) ((SRC.slice (Rect.unit (s := S32768x1024) ![w.toNat, 0] S1x1024.size h) (fun _ => rfl)).squeeze S1024 Shapes1.Facts₀.squeezes_S1x1024_S1024).view f)

section Landed

variable (c : Dev nD) (M : Memref sig .tc .vmem S256x1024 .f32)
  (offs : Fin 256 → Fin 1 → ℕ) (hin : ∀ r a, offs r a + S1.size a ≤ S16384.size a)
  (pf : Bf (F := F) c TBL) (hpf : ∀ j, (pf j).toNat < 32768) (f : Bf (F := F) c SRC) (d : Bf (F := F) c M)

/-- The buffer's contents once copy r has landed: d with the source row that the table word names written over row r. -/
abbrev landed (r : Fin 256) : Bf (F := F) c M :=
  (rowM M r.val (dst_inb r.val r.isLt)).view.writes (Elt F) d
    [⟨Rect.whole S1024, rowPay c (wordAt c (offs r) (hin r) pf) (row_inb _ (hpf _)) f⟩]

end Landed

end Cert.KernelIdeal.Rows0

end
-- ==== Proof.RowsGlue0.lean ====
import proofs.«409488_j73529840107771_1_alg».proof.Proof.RowsDef0

noncomputable section

namespace Cert.KernelIdeal.Rows0

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.KernelIdeal.Iface

/-- One contents out of 256 row-wise ones: each element takes the value of the family member whose row it lies in. -/
def glued (c : Dev nD) (M : Memref sig .tc .vmem S256x1024 .f32) (fs : Fin 256 → Bf (F := F) c M) : Bf (F := F) c M :=
  fun i => fs (Classical.epsilon fun r : Fin 256 => i ∈ (rowM M r.val (dst_inb r.val r.isLt)).view.set) i

end Cert.KernelIdeal.Rows0

end
-- ==== Proof.Rows0.lean ====
import proofs.«409488_j73529840107771_1_alg».proof.Proof.RowsGlue0

noncomputable section

namespace Cert.KernelIdeal.Rows0

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.KernelIdeal.Iface

theorem rowM_set (M : Memref sig .tc .vmem S256x1024 .f32) (r : ℕ) (h : ∀ a, (![r, 0] : Fin 2 → ℕ) a + S1x1024.size a ≤ S256x1024.size a) :
    (rowM M r h).view.set = (Rect.unit (s := S256x1024) ![r, 0] S1x1024.size h).set.map M.view.emb := by
  show ((M.view.slice _).reshape _ _).set = _
  rw [View.set_reshape, View.set_slice]

/-- Distinct rows are disjoint: their rectangles are separated on the row axis. -/
theorem rowM_disjoint (M : Memref sig .tc .vmem S256x1024 .f32) (r r' : Fin 256) (hne : r ≠ r') :
    Disjoint (rowM M r.val (dst_inb r.val r.isLt)).view.set (rowM M r'.val (dst_inb r'.val r'.isLt)).view.set := by
  rw [rowM_set, rowM_set]
  refine (Finset.disjoint_map _).mpr (Rect.unit_disjoint 0 ?_)
  have hv : r.val ≠ r'.val := fun e => hne (Fin.ext e)
  show r.val + 1 ≤ r'.val ∨ r'.val + 1 ≤ r.val
  omega

/-- The 256 rows cover the buffer: an element lies in the row its first coordinate names. -/
theorem rowM_cover (M : Memref sig .tc .vmem S256x1024 .f32) :
    M.view.set = Finset.univ.biUnion fun r : Fin 256 => (rowM M r.val (dst_inb r.val r.isLt)).view.set := by
  ext i
  rw [Finset.mem_biUnion]
  constructor
  · intro hi
    rw [View.set] at hi
    obtain ⟨x, -, rfl⟩ := Finset.mem_map.mp hi
    refine ⟨⟨(x 0).val, (x 0).isLt⟩, Finset.mem_univ _, ?_⟩
    rw [rowM_set]
    refine Finset.mem_map_of_mem _ (Rect.mem_set_unit.mpr fun a => ?_)
    fin_cases a
    · exact ⟨Nat.le_refl _, Nat.lt_succ_self _⟩
    · refine ⟨Nat.zero_le _, ?_⟩
      have h1 : (x 1).val < 1024 := (x 1).isLt
      show (x 1).val < 0 + 1024
      omega
  · rintro ⟨r, -, hi⟩
    rw [rowM_set] at hi
    obtain ⟨x, -, rfl⟩ := Finset.mem_map.mp hi
    exact M.view.emb_mem_set x

section Landed

variable (c : Dev nD) (M : Memref sig .tc .vmem S256x1024 .f32)
  (offs : Fin 256 → Fin 1 → ℕ) (hin : ∀ r a, offs r a + S1.size a ≤ S16384.size a)
  (pf : Bf (F := F) c TBL) (hpf : ∀ j, (pf j).toNat < 32768) (f : Bf (F := F) c SRC) (d : Bf (F := F) c M)

/-- A buffer held whole is its 256 rows held separately, since the rows are disjoint and cover it. -/
theorem rows_split (hM : M.IsWhole) :
    (M.view.loc (c : Thread nD τ) ↦[M.view.set]{fullShare} d : sProp 𝕄)
      ⊢ bigSep Finset.univ fun r : Fin 256 => rowH c M r.val (dst_inb r.val r.isLt) d := by
  have h : (M.view.loc (c : Thread nD τ) ↦[Finset.univ.biUnion fun r : Fin 256 => (rowM M r.val (dst_inb r.val r.isLt)).view.set]{fullShare} d : sProp 𝕄)
      = bigSep Finset.univ fun r : Fin 256 => M.view.loc (c : Thread nD τ) ↦[(rowM M r.val (dst_inb r.val r.isLt)).view.set]{fullShare} d :=
    pointsTo_biUnion Finset.univ _ fun r _ r' _ hne => rowM_disjoint M r r' hne
  rw [← rowM_cover M] at h
  rw [h]

/-- 256 rows held at contents of their own are the whole buffer at some contents agreeing with each on its row. -/
theorem rows_join (hM : M.IsWhole) (fs : Fin 256 → Bf (F := F) c M) :
    (bigSep Finset.univ fun r : Fin 256 => rowH c M r.val (dst_inb r.val r.isLt) (fs r))
      ⊢ (iprop(∃ g : Bf (F := F) c M, ⌜∀ r : Fin 256, ∀ i ∈ (rowM M r.val (dst_inb r.val r.isLt)).view.set, g i = fs r i⌝
            ∗ M.view.loc (c : Thread nD τ) ↦[M.view.set]{fullShare} g) : sProp 𝕄) := by
  have h : (bigSep Finset.univ fun r : Fin 256 => M.view.loc (c : Thread nD τ) ↦[(rowM M r.val (dst_inb r.val r.isLt)).view.set]{fullShare} fs r)
      ⊢ (iprop(∃ g : Bf (F := F) c M, ⌜∀ r ∈ (Finset.univ : Finset (Fin 256)), ∀ i ∈ (rowM M r.val (dst_inb r.val r.isLt)).view.set, g i = fs r i⌝
            ∗ M.view.loc (c : Thread nD τ) ↦[Finset.univ.biUnion fun r : Fin 256 => (rowM M r.val (dst_inb r.val r.isLt)).view.set]{fullShare} g) : sProp 𝕄) :=
    pointsTo_biUnion_join Finset.univ _ fs (fs ⟨0, by decide⟩) fun r _ r' _ hne => rowM_disjoint M r r' hne
  rw [← rowM_cover M] at h
  refine h.trans ?_
  iintro ⟨%g, %hg, H⟩
  iexists g
  isplitr
  · ipureintro; exact fun r i hi => hg r (Finset.mem_univ r) i hi
  · iexact H

end Landed

/-- The source held whole gives 256 read shares, numbered base … base + 255, and a remainder that takes them back. -/
theorem toks_split (c : Dev nD) (f : Bf (F := F) c SRC) :
    (pt c SRC f : sProp 𝕄) ⊢ iprop((∃ R : sProp 𝕄, R ∗ ⌜iprop(R ∗ bigSep Finset.univ fun r : Fin 256 => tokS c (base + r.val) f) ⊢ (pt c SRC f : sProp 𝕄)⌝)
        ∗ bigSep Finset.univ fun r : Fin 256 => tokS c (base + r.val) f) := by

  let emb : Fin 256 ↪ ℕ := ⟨fun r => base + r.val, fun a b h => Fin.ext (Nat.add_left_cancel h)⟩
  have hsub : Finset.univ.map emb ⊆ Finset.range (base + 256) := by
    intro i hi
    obtain ⟨r, -, rfl⟩ := Finset.mem_map.mp hi
    refine Finset.mem_range.mpr ?_
    show base + r.val < base + 256
    omega
  have hb : bigSep (Finset.range (base + 256)) (fun i => (tokS c i f : sProp 𝕄))
      = iprop((bigSep Finset.univ fun r : Fin 256 => tokS c (base + r.val) f)
          ∗ bigSep (Finset.range (base + 256) \ Finset.univ.map emb) (fun i => tokS c i f)) := by
    rw [bigSep_sdiff_split hsub, bigSep_map]
    rfl

  have h : (pt c SRC f : sProp 𝕄)
      ⊣⊢ iprop((SRC.view.loc (c : Thread nD τ) ↦{Transfers.shareDrop fullShare (base + 256)} f)
          ∗ bigSep (Finset.range (base + 256)) (fun i => tokS c i f)) :=
    Transfers.pointsTo_toks_range fullShare (base + 256)
  rw [hb] at h
  refine h.1.trans ?_
  iintro ⟨HD, HT, HR⟩
  isplitr [HT]
  · iexists iprop((SRC.view.loc (c : Thread nD τ) ↦{Transfers.shareDrop fullShare (base + 256)} f)
        ∗ bigSep (Finset.range (base + 256) \ Finset.univ.map emb) (fun i => tokS c i f))
    isplitl [HD HR]
    · isplitl [HD]
      · iexact HD
      · iexact HR
    · ipureintro
      refine .trans ?_ h.2
      iintro ⟨⟨HD, HR⟩, HT⟩
      isplitl [HD]
      · iexact HD
      isplitl [HT]
      · iexact HT
      · iexact HR
  · iexact HT

theorem cells_eq (c : Dev nD) :
    (Pipeline.ownSems0 (Ix := Unit) (Name := ℕ) (U := Pipeline.UD sig nD τ) (Lvl := ℕ) (Val := Elt F) (τ := τ) osem0 c : sProp 𝕄)
      = bigSep Finset.univ fun r : Fin 256 => sv c (cc0_scratch1.ix (ValueIdx.ix1 r)) := by
  rfl

/-- On row r the glued contents are the r-th member's: an element lies in one row only. -/
theorem glued_on (c : Dev nD) (M : Memref sig .tc .vmem S256x1024 .f32) (fs : Fin 256 → Bf (F := F) c M) (r : Fin 256) (i)
    (hi : i ∈ (rowM M r.val (dst_inb r.val r.isLt)).view.set) : glued c M fs i = fs r i := by
  have hsp : i ∈ (rowM M (Classical.epsilon fun r' : Fin 256 => i ∈ (rowM M r'.val (dst_inb r'.val r'.isLt)).view.set).val (dst_inb _ (Fin.isLt _))).view.set :=
    Classical.epsilon_spec (p := fun r' : Fin 256 => i ∈ (rowM M r'.val (dst_inb r'.val r'.isLt)).view.set) ⟨r, hi⟩
  have key : ∀ e : Fin 256, i ∈ (rowM M e.val (dst_inb e.val e.isLt)).view.set → e = r := fun e he => by
    by_contra hne
    exact Finset.disjoint_left.mp (rowM_disjoint M e r hne) he hi
  unfold glued
  rw [key _ hsp]

/-- The rows, each at its own member, are the whole buffer at the glued contents. -/
theorem rows_join_glued (c : Dev nD) (M : Memref sig .tc .vmem S256x1024 .f32) (fs : Fin 256 → Bf (F := F) c M) :
    (bigSep Finset.univ fun r : Fin 256 => rowH c M r.val (dst_inb r.val r.isLt) (fs r))
      ⊢ (M.view.loc (c : Thread nD τ) ↦[M.view.set]{fullShare} glued c M fs : sProp 𝕄) := by
  have hc : (bigSep Finset.univ fun r : Fin 256 => rowH c M r.val (dst_inb r.val r.isLt) (fs r) : sProp 𝕄)
      = bigSep Finset.univ fun r : Fin 256 => M.view.loc (c : Thread nD τ) ↦[(rowM M r.val (dst_inb r.val r.isLt)).view.set]{fullShare} glued c M fs :=
    bigSep_congr fun r _ => pointsTo_congr fun i hi => (glued_on c M fs r i hi).symm
  have h : (M.view.loc (c : Thread nD τ) ↦[Finset.univ.biUnion fun r : Fin 256 => (rowM M r.val (dst_inb r.val r.isLt)).view.set]{fullShare} glued c M fs : sProp 𝕄)
      = bigSep Finset.univ fun r : Fin 256 => M.view.loc (c : Thread nD τ) ↦[(rowM M r.val (dst_inb r.val r.isLt)).view.set]{fullShare} glued c M fs :=
    pointsTo_biUnion Finset.univ _ fun r _ r' _ hne => rowM_disjoint M r r' hne
  rw [← rowM_cover M] at h
  rw [hc, h]

end Cert.KernelIdeal.Rows0

end
-- ==== Proof.RowsVal0.lean ====
import proofs.«409488_j73529840107771_1_alg».proof.Proof.Rows0

noncomputable section

namespace Cert.KernelIdeal.Rows0

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.KernelIdeal.Iface

/-- For g < 64 and r < 256 the 32-bit word 256·g + r does not wrap. -/
theorem offW_eq (g : ℕ) (hg : g < 64) (r : ℕ) (hr : r < 256) :
    (![(Scalar.indexCast (Scalar.addi (Scalar.muli (BitVec.ofNat 32 g) 256#32) (BitVec.ofNat 32 r))).toNat] : Fin 1 → ℕ) = ![256 * g + r] := by
  have h : (Scalar.indexCast (Scalar.addi (Scalar.muli (BitVec.ofNat 32 g) 256#32) (BitVec.ofNat 32 r))).toNat = 256 * g + r := by
    show ((BitVec.ofNat 32 g) * 256#32 + (BitVec.ofNat 32 r)).toNat = 256 * g + r
    rw [BitVec.toNat_add, BitVec.toNat_mul, BitVec.toNat_ofNat, BitVec.toNat_ofNat, BitVec.toNat_ofNat]
    omega
  exact congrArg (fun n : ℕ => (![n] : Fin 1 → ℕ)) h

theorem rowView_emb {κ : Kind} {sp : Space} {e : EltTy} {n0 n1 : ℕ} (v : View sig κ sp (⟨2, ![n0, n1]⟩ : Shape) e) (r : ℕ) (hr : r < n0)
    (inb : ∀ a, (![r, 0] : Fin 2 → ℕ) a + (![1, n1] : Fin 2 → ℕ) a ≤ (⟨2, ![n0, n1]⟩ : Shape).size a)
    (hsq : (⟨1, ![n1]⟩ : Shape).numel = (⟨2, ![1, n1]⟩ : Shape).numel) (q : Fin n1) :
    ((v.slice (Rect.unit (s := (⟨2, ![n0, n1]⟩ : Shape)) ![r, 0] ![1, n1] inb)).reshape (⟨1, ![n1]⟩ : Shape) hsq).emb (ValueIdx.ix1 q)
      = v.emb (ValueIdx.ix2 (⟨r, hr⟩ : Fin n0) q) := by
  show v.emb ((Rect.unit (s := (⟨2, ![n0, n1]⟩ : Shape)) ![r, 0] ![1, n1] inb).emb (Shape.reshapeEquiv hsq (ValueIdx.ix1 q))) = _
  have hc := Shape.reshapeEquiv_cons_one (n := 1) (d := ![n1]) hsq (ValueIdx.ix1 q)
  rw [hc]
  congr 1
  funext a
  apply Fin.ext
  fin_cases a
  · show r + 1 * 0 = r
    omega
  · show 0 + 1 * q.val = q.val
    omega

theorem wordAt_eq (c : Dev nD) (off : Fin 1 → ℕ) (h : ∀ a, off a + S1.size a ≤ S16384.size a) (pf : Bf (F := F) c TBL)
    (n : ℕ) (hn : n < 16384) (hoff : off 0 = n) :
    wordAt c off h pf = pf (ValueIdx.ix1 (⟨n, hn⟩ : Fin 16384)) := by
  show pf ((Rect.unit (s := S16384) off S1.size h).toLoadRect.idx (Shape.Idx.first (show 0 < S1.numel by decide))) = _
  congr 1
  funext a
  apply Fin.ext
  fin_cases a
  show off 0 + 1 * (Shape.Idx.first (show 0 < S1.numel by decide) (0 : Fin 1)).val = n
  have h0 : (Shape.Idx.first (show 0 < S1.numel by decide) (0 : Fin 1)).val = 0 := by
    have := (Shape.Idx.first (show 0 < S1.numel by decide) (0 : Fin 1)).isLt
    have e : S1.size (0 : Fin 1) = 1 := by decide
    omega
  omega

theorem rowPay_apply (c : Dev nD) (w : BitVec 32) (hw : w.toNat < 32768)
    (h : ∀ a, (![w.toNat, 0] : Fin 2 → ℕ) a + S1x1024.size a ≤ S32768x1024.size a) (f : Bf (F := F) c SRC) (q : Fin 1024) :
    rowPay c w h f (ValueIdx.ix1 q) = f (ValueIdx.ix2 (⟨w.toNat, hw⟩ : Fin 32768) q) := by
  show View.read (Elt F) ((SRC.slice (Rect.unit (s := S32768x1024) ![w.toNat, 0] S1x1024.size h) (fun _ => rfl)).squeeze S1024 Shapes1.Facts₀.squeezes_S1x1024_S1024).view f (ValueIdx.ix1 q) = _
  rw [View.read_apply]
  have e := rowView_emb (n0 := 32768) (n1 := 1024) SRC.view w.toNat hw h Shapes1.Facts₀.squeezes_S1x1024_S1024.numel_eq q
  show _root_.cast _ (f (((SRC.view.slice (Rect.unit (s := S32768x1024) ![w.toNat, 0] S1x1024.size h)).reshape S1024 Shapes1.Facts₀.squeezes_S1x1024_S1024.numel_eq).emb (ValueIdx.ix1 q))) = _
  rw [e]
  rfl

section LandedRead

variable (c : Dev nD) (M : Memref sig .tc .vmem S256x1024 .f32)
  (offs : Fin 256 → Fin 1 → ℕ) (hin : ∀ r a, offs r a + S1.size a ≤ S16384.size a)
  (pf : Bf (F := F) c TBL) (hpf : ∀ j, (pf j).toNat < 32768) (f : Bf (F := F) c SRC) (d : Bf (F := F) c M)

theorem landed_row_read (r : Fin 256) (q : Fin 1024) :
    (rowM M r.val (dst_inb r.val r.isLt)).view.read (Elt F) (landed c M offs hin pf hpf f d r) (ValueIdx.ix1 q)
      = rowPay c (wordAt c (offs r) (hin r) pf) (row_inb _ (hpf _)) f (ValueIdx.ix1 q) := by
  have h := View.read_writes_cons_emb (rowM M r.val (dst_inb r.val r.isLt)).view d (Rect.whole S1024)
    (rowPay c (wordAt c (offs r) (hin r) pf) (row_inb _ (hpf _)) f) [] (ValueIdx.ix1 q)
  rw [Rect.emb_whole_apply] at h
  exact h

theorem whole_read_row (G : Bf (F := F) c M) (r : Fin 256) (q : Fin 1024) :
    M.view.read (Elt F) G (ValueIdx.ix2 r q)
      = (rowM M r.val (dst_inb r.val r.isLt)).view.read (Elt F) G (ValueIdx.ix1 q) := by
  have e := rowView_emb (n0 := 256) (n1 := 1024) M.view r.val r.isLt (dst_inb r.val r.isLt) Shapes1.Facts₀.squeezes_S1x1024_S1024.numel_eq q
  rw [View.read_apply, View.read_apply]
  show _ = _root_.cast _ (G (((M.view.slice (Rect.unit (s := S256x1024) ![r.val, 0] S1x1024.size (dst_inb r.val r.isLt))).reshape S1024 Shapes1.Facts₀.squeezes_S1x1024_S1024.numel_eq).emb (ValueIdx.ix1 q)))
  rw [e]

/-- Entry (r, q) of contents agreeing with every landed row is the source's entry (ids[256·g + r], q). -/
theorem landed_read_at (g : ℕ) (hg : g < 64) (hoffs : ∀ r : Fin 256, offs r = ![256 * g + r.val]) (G : Bf (F := F) c M)
    (hG : ∀ r : Fin 256, ∀ i ∈ (rowM M r.val (dst_inb r.val r.isLt)).view.set, G i = landed c M offs hin pf hpf f d r i)
    (r : Fin 256) (q : Fin 1024) :
    M.view.read (Elt F) G (ValueIdx.ix2 r q) = Cert.Spec.gatherRows g pf f (ValueIdx.ix2 r q) := by
  have hn : 256 * g + r.val < 16384 := by have := r.isLt; omega
  have hw : wordAt c (offs r) (hin r) pf = pf (ValueIdx.ix1 (⟨256 * g + r.val, hn⟩ : Fin 16384)) :=
    wordAt_eq c (offs r) (hin r) pf (256 * g + r.val) hn (by rw [hoffs r]; rfl)
  have hwlt : (wordAt c (offs r) (hin r) pf).toNat < 32768 := by rw [hw]; exact hpf _
  rw [whole_read_row c M G r q,
    View.read_congr_at (ValueIdx.ix1 q) (hG r _ ((rowM M r.val (dst_inb r.val r.isLt)).view.emb_mem_set _)),
    landed_row_read c M offs hin pf hpf f d r q, rowPay_apply c (wordAt c (offs r) (hin r) pf) hwlt]
  show _ = f (ValueIdx.ix2 (Cert.Spec.rowOf pf (256 * g + r.val)) (⟨q.val, _⟩ : Fin 1024))
  congr 1
  have e1 : (Fin.ofNat 16384 (256 * g + r.val) : Fin 16384) = ⟨256 * g + r.val, hn⟩ := Fin.ext (Nat.mod_eq_of_lt hn)
  have e2 : Cert.Spec.rowOf pf (256 * g + r.val) = ⟨(wordAt c (offs r) (hin r) pf).toNat, hwlt⟩ := by
    unfold Cert.Spec.rowOf
    rw [e1]
    apply Fin.ext
    show (pf (ValueIdx.ix1 (⟨256 * g + r.val, hn⟩ : Fin 16384))).toNat % 32768 = (wordAt c (offs r) (hin r) pf).toNat
    rw [hw]
    exact Nat.mod_eq_of_lt (hpf _)
  rw [e2]

/-- Contents agreeing with every landed row read, through the whole buffer, as block g of the gathered matrix. -/
theorem landed_read (hM : M.IsWhole) (g : ℕ) (hg : g < 64) (hoffs : ∀ r : Fin 256, offs r = ![256 * g + r.val]) (G : Bf (F := F) c M)
    (hG : ∀ r : Fin 256, ∀ i ∈ (rowM M r.val (dst_inb r.val r.isLt)).view.set, G i = landed c M offs hin pf hpf f d r i) :
    M.view.read (Elt F) G = Cert.Spec.gatherRows g pf f := by
  funext y
  rw [ValueIdx.eq_ix2 y]
  exact landed_read_at c M offs hin pf hpf f d g hg hoffs G hG (y 0) (y 1)

end LandedRead

end Cert.KernelIdeal.Rows0

end
-- ==== Proof.ExecOffs0.lean ====
import proofs.«409488_j73529840107771_1_alg».proof.Proof.RowsVal0

noncomputable section

namespace Cert.KernelIdeal.Exec0

open Cert.KernelIdeal Cert.KernelIdeal.Gen

open Idealize.ShloMosaic
open Cert.KernelIdeal.Iface Cert.KernelIdeal.Rows0

/-- The table position copy r reads at grid step t: the word 256·t + r, spelt as each of the body's 256 offset computations spells its own. -/
def offs (t : Fin grid0.N) (r : Fin 256) : Fin 1 → ℕ :=
  ![(Scalar.indexCast (Scalar.addi (Scalar.muli (BitVec.ofNat 32 (grid0.coords t 0).val) 256#32) (BitVec.ofNat 32 r.val))).toNat]

/-- The word arithmetic does not wrap: position r at step g is 256·g + r. -/
theorem hoffs (t : Fin grid0.N) (r : Fin 256) : offs t r = ![256 * (grid0.coords t 0).val + r.val] :=
  offW_eq _ (grid0.coords t 0).isLt _ r.isLt

/-- Each position is inside the table: 256·g + r + 1 ≤ 16384 for g below 64 and r below 256. -/
theorem hin (t : Fin grid0.N) (r : Fin 256) : ∀ a, offs t r a + S1.size a ≤ S16384.size a := by
  rw [hoffs t r]
  intro a
  have hg : (grid0.coords t 0).val < 64 := (grid0.coords t 0).isLt
  have hr := r.isLt
  fin_cases a
  show 256 * (grid0.coords t 0).val + r.val + 1 ≤ 16384
  omega

end Cert.KernelIdeal.Exec0

end
-- ==== Proof.Chains.lean ====
import Idealize.ShloMosaic.Lib.Pipeline.Kit

namespace Cert.Chains

open Idealize.ShloMosaic Idealize.SL Idealize.SL.RA Idealize.SL.BI
open scoped Idealize.SL.BI
open Idealize.SL.BI.BIBase

/-- A family over the 256 rows is its members conjoined one by one, in order. -/
theorem bigSep_fin256 {M : Type} [URA M] (Φ : (r : ℕ) → r < 256 → sProp M) :
    bigSep Finset.univ (fun r : Fin 256 => Φ r.val r.isLt) = iprop(Φ 0 (by decide) ∗ Φ 1 (by decide) ∗ Φ 2 (by decide) ∗ Φ 3 (by decide) ∗ Φ 4 (by decide) ∗ Φ 5 (by decide) ∗ Φ 6 (by decide) ∗ Φ 7 (by decide) ∗ Φ 8 (by decide) ∗ Φ 9 (by decide) ∗ Φ 10 (by decide) ∗ Φ 11 (by decide) ∗ Φ 12 (by decide) ∗ Φ 13 (by decide) ∗ Φ 14 (by decide) ∗ Φ 15 (by decide) ∗ Φ 16 (by decide) ∗ Φ 17 (by decide) ∗ Φ 18 (by decide) ∗ Φ 19 (by decide) ∗ Φ 20 (by decide) ∗ Φ 21 (by decide) ∗ Φ 22 (by decide) ∗ Φ 23 (by decide) ∗ Φ 24 (by decide) ∗ Φ 25 (by decide) ∗ Φ 26 (by decide) ∗ Φ 27 (by decide) ∗ Φ 28 (by decide) ∗ Φ 29 (by decide) ∗ Φ 30 (by decide) ∗ Φ 31 (by decide) ∗ Φ 32 (by decide) ∗ Φ 33 (by decide) ∗ Φ 34 (by decide) ∗ Φ 35 (by decide) ∗ Φ 36 (by decide) ∗ Φ 37 (by decide) ∗ Φ 38 (by decide) ∗ Φ 39 (by decide) ∗ Φ 40 (by decide) ∗ Φ 41 (by decide) ∗ Φ 42 (by decide) ∗ Φ 43 (by decide) ∗ Φ 44 (by decide) ∗ Φ 45 (by decide) ∗ Φ 46 (by decide) ∗ Φ 47 (by decide) ∗ Φ 48 (by decide) ∗ Φ 49 (by decide) ∗ Φ 50 (by decide) ∗ Φ 51 (by decide) ∗ Φ 52 (by decide) ∗ Φ 53 (by decide) ∗ Φ 54 (by decide) ∗ Φ 55 (by decide) ∗ Φ 56 (by decide) ∗ Φ 57 (by decide) ∗ Φ 58 (by decide) ∗ Φ 59 (by decide) ∗ Φ 60 (by decide) ∗ Φ 61 (by decide) ∗ Φ 62 (by decide) ∗ Φ 63 (by decide) ∗ Φ 64 (by decide) ∗ Φ 65 (by decide) ∗ Φ 66 (by decide) ∗ Φ 67 (by decide) ∗ Φ 68 (by decide) ∗ Φ 69 (by decide) ∗ Φ 70 (by decide) ∗ Φ 71 (by decide) ∗ Φ 72 (by decide) ∗ Φ 73 (by decide) ∗ Φ 74 (by decide) ∗ Φ 75 (by decide) ∗ Φ 76 (by decide) ∗ Φ 77 (by decide) ∗ Φ 78 (by decide) ∗ Φ 79 (by decide) ∗ Φ 80 (by decide) ∗ Φ 81 (by decide) ∗ Φ 82 (by decide) ∗ Φ 83 (by decide) ∗ Φ 84 (by decide) ∗ Φ 85 (by decide) ∗ Φ 86 (by decide) ∗ Φ 87 (by decide) ∗ Φ 88 (by decide) ∗ Φ 89 (by decide) ∗ Φ 90 (by decide) ∗ Φ 91 (by decide) ∗ Φ 92 (by decide) ∗ Φ 93 (by decide) ∗ Φ 94 (by decide) ∗ Φ 95 (by decide) ∗ Φ 96 (by decide) ∗ Φ 97 (by decide) ∗ Φ 98 (by decide) ∗ Φ 99 (by decide) ∗ Φ 100 (by decide) ∗ Φ 101 (by decide) ∗ Φ 102 (by decide) ∗ Φ 103 (by decide) ∗ Φ 104 (by decide) ∗ Φ 105 (by decide) ∗ Φ 106 (by decide) ∗ Φ 107 (by decide) ∗ Φ 108 (by decide) ∗ Φ 109 (by decide) ∗ Φ 110 (by decide) ∗ Φ 111 (by decide) ∗ Φ 112 (by decide) ∗ Φ 113 (by decide) ∗ Φ 114 (by decide) ∗ Φ 115 (by decide) ∗ Φ 116 (by decide) ∗ Φ 117 (by decide) ∗ Φ 118 (by decide) ∗ Φ 119 (by decide) ∗ Φ 120 (by decide) ∗ Φ 121 (by decide) ∗ Φ 122 (by decide) ∗ Φ 123 (by decide) ∗ Φ 124 (by decide) ∗ Φ 125 (by decide) ∗ Φ 126 (by decide) ∗ Φ 127 (by decide) ∗ Φ 128 (by decide) ∗ Φ 129 (by decide) ∗ Φ 130 (by decide) ∗ Φ 131 (by decide) ∗ Φ 132 (by decide) ∗ Φ 133 (by decide) ∗ Φ 134 (by decide) ∗ Φ 135 (by decide) ∗ Φ 136 (by decide) ∗ Φ 137 (by decide) ∗ Φ 138 (by decide) ∗ Φ 139 (by decide) ∗ Φ 140 (by decide) ∗ Φ 141 (by decide) ∗ Φ 142 (by decide) ∗ Φ 143 (by decide) ∗ Φ 144 (by decide) ∗ Φ 145 (by decide) ∗ Φ 146 (by decide) ∗ Φ 147 (by decide) ∗ Φ 148 (by decide) ∗ Φ 149 (by decide) ∗ Φ 150 (by decide) ∗ Φ 151 (by decide) ∗ Φ 152 (by decide) ∗ Φ 153 (by decide) ∗ Φ 154 (by decide) ∗ Φ 155 (by decide) ∗ Φ 156 (by decide) ∗ Φ 157 (by decide) ∗ Φ 158 (by decide) ∗ Φ 159 (by decide) ∗ Φ 160 (by decide) ∗ Φ 161 (by decide) ∗ Φ 162 (by decide) ∗ Φ 163 (by decide) ∗ Φ 164 (by decide) ∗ Φ 165 (by decide) ∗ Φ 166 (by decide) ∗ Φ 167 (by decide) ∗ Φ 168 (by decide) ∗ Φ 169 (by decide) ∗ Φ 170 (by decide) ∗ Φ 171 (by decide) ∗ Φ 172 (by decide) ∗ Φ 173 (by decide) ∗ Φ 174 (by decide) ∗ Φ 175 (by decide) ∗ Φ 176 (by decide) ∗ Φ 177 (by decide) ∗ Φ 178 (by decide) ∗ Φ 179 (by decide) ∗ Φ 180 (by decide) ∗ Φ 181 (by decide) ∗ Φ 182 (by decide) ∗ Φ 183 (by decide) ∗ Φ 184 (by decide) ∗ Φ 185 (by decide) ∗ Φ 186 (by decide) ∗ Φ 187 (by decide) ∗ Φ 188 (by decide) ∗ Φ 189 (by decide) ∗ Φ 190 (by decide) ∗ Φ 191 (by decide) ∗ Φ 192 (by decide) ∗ Φ 193 (by decide) ∗ Φ 194 (by decide) ∗ Φ 195 (by decide) ∗ Φ 196 (by decide) ∗ Φ 197 (by decide) ∗ Φ 198 (by decide) ∗ Φ 199 (by decide) ∗ Φ 200 (by decide) ∗ Φ 201 (by decide) ∗ Φ 202 (by decide) ∗ Φ 203 (by decide) ∗ Φ 204 (by decide) ∗ Φ 205 (by decide) ∗ Φ 206 (by decide) ∗ Φ 207 (by decide) ∗ Φ 208 (by decide) ∗ Φ 209 (by decide) ∗ Φ 210 (by decide) ∗ Φ 211 (by decide) ∗ Φ 212 (by decide) ∗ Φ 213 (by decide) ∗ Φ 214 (by decide) ∗ Φ 215 (by decide) ∗ Φ 216 (by decide) ∗ Φ 217 (by decide) ∗ Φ 218 (by decide) ∗ Φ 219 (by decide) ∗ Φ 220 (by decide) ∗ Φ 221 (by decide) ∗ Φ 222 (by decide) ∗ Φ 223 (by decide) ∗ Φ 224 (by decide) ∗ Φ 225 (by decide) ∗ Φ 226 (by decide) ∗ Φ 227 (by decide) ∗ Φ 228 (by decide) ∗ Φ 229 (by decide) ∗ Φ 230 (by decide) ∗ Φ 231 (by decide) ∗ Φ 232 (by decide) ∗ Φ 233 (by decide) ∗ Φ 234 (by decide) ∗ Φ 235 (by decide) ∗ Φ 236 (by decide) ∗ Φ 237 (by decide) ∗ Φ 238 (by decide) ∗ Φ 239 (by decide) ∗ Φ 240 (by decide) ∗ Φ 241 (by decide) ∗ Φ 242 (by decide) ∗ Φ 243 (by decide) ∗ Φ 244 (by decide) ∗ Φ 245 (by decide) ∗ Φ 246 (by decide) ∗ Φ 247 (by decide) ∗ Φ 248 (by decide) ∗ Φ 249 (by decide) ∗ Φ 250 (by decide) ∗ Φ 251 (by decide) ∗ Φ 252 (by decide) ∗ Φ 253 (by decide) ∗ Φ 254 (by decide) ∗ Φ 255 (by decide)) :=
  bigSep_univ_eq_bigSepL [(0 : Fin 256), (1 : Fin 256), (2 : Fin 256), (3 : Fin 256), (4 : Fin 256), (5 : Fin 256), (6 : Fin 256), (7 : Fin 256), (8 : Fin 256), (9 : Fin 256), (10 : Fin 256), (11 : Fin 256), (12 : Fin 256), (13 : Fin 256), (14 : Fin 256), (15 : Fin 256), (16 : Fin 256), (17 : Fin 256), (18 : Fin 256), (19 : Fin 256), (20 : Fin 256), (21 : Fin 256), (22 : Fin 256), (23 : Fin 256), (24 : Fin 256), (25 : Fin 256), (26 : Fin 256), (27 : Fin 256), (28 : Fin 256), (29 : Fin 256), (30 : Fin 256), (31 : Fin 256), (32 : Fin 256), (33 : Fin 256), (34 : Fin 256), (35 : Fin 256), (36 : Fin 256), (37 : Fin 256), (38 : Fin 256), (39 : Fin 256), (40 : Fin 256), (41 : Fin 256), (42 : Fin 256), (43 : Fin 256), (44 : Fin 256), (45 : Fin 256), (46 : Fin 256), (47 : Fin 256), (48 : Fin 256), (49 : Fin 256), (50 : Fin 256), (51 : Fin 256), (52 : Fin 256), (53 : Fin 256), (54 : Fin 256), (55 : Fin 256), (56 : Fin 256), (57 : Fin 256), (58 : Fin 256), (59 : Fin 256), (60 : Fin 256), (61 : Fin 256), (62 : Fin 256), (63 : Fin 256), (64 : Fin 256), (65 : Fin 256), (66 : Fin 256), (67 : Fin 256), (68 : Fin 256), (69 : Fin 256), (70 : Fin 256), (71 : Fin 256), (72 : Fin 256), (73 : Fin 256), (74 : Fin 256), (75 : Fin 256), (76 : Fin 256), (77 : Fin 256), (78 : Fin 256), (79 : Fin 256), (80 : Fin 256), (81 : Fin 256), (82 : Fin 256), (83 : Fin 256), (84 : Fin 256), (85 : Fin 256), (86 : Fin 256), (87 : Fin 256), (88 : Fin 256), (89 : Fin 256), (90 : Fin 256), (91 : Fin 256), (92 : Fin 256), (93 : Fin 256), (94 : Fin 256), (95 : Fin 256), (96 : Fin 256), (97 : Fin 256), (98 : Fin 256), (99 : Fin 256), (100 : Fin 256), (101 : Fin 256), (102 : Fin 256), (103 : Fin 256), (104 : Fin 256), (105 : Fin 256), (106 : Fin 256), (107 : Fin 256), (108 : Fin 256), (109 : Fin 256), (110 : Fin 256), (111 : Fin 256), (112 : Fin 256), (113 : Fin 256), (114 : Fin 256), (115 : Fin 256), (116 : Fin 256), (117 : Fin 256), (118 : Fin 256), (119 : Fin 256), (120 : Fin 256), (121 : Fin 256), (122 : Fin 256), (123 : Fin 256), (124 : Fin 256), (125 : Fin 256), (126 : Fin 256), (127 : Fin 256), (128 : Fin 256), (129 : Fin 256), (130 : Fin 256), (131 : Fin 256), (132 : Fin 256), (133 : Fin 256), (134 : Fin 256), (135 : Fin 256), (136 : Fin 256), (137 : Fin 256), (138 : Fin 256), (139 : Fin 256), (140 : Fin 256), (141 : Fin 256), (142 : Fin 256), (143 : Fin 256), (144 : Fin 256), (145 : Fin 256), (146 : Fin 256), (147 : Fin 256), (148 : Fin 256), (149 : Fin 256), (150 : Fin 256), (151 : Fin 256), (152 : Fin 256), (153 : Fin 256), (154 : Fin 256), (155 : Fin 256), (156 : Fin 256), (157 : Fin 256), (158 : Fin 256), (159 : Fin 256), (160 : Fin 256), (161 : Fin 256), (162 : Fin 256), (163 : Fin 256), (164 : Fin 256), (165 : Fin 256), (166 : Fin 256), (167 : Fin 256), (168 : Fin 256), (169 : Fin 256), (170 : Fin 256), (171 : Fin 256), (172 : Fin 256), (173 : Fin 256), (174 : Fin 256), (175 : Fin 256), (176 : Fin 256), (177 : Fin 256), (178 : Fin 256), (179 : Fin 256), (180 : Fin 256), (181 : Fin 256), (182 : Fin 256), (183 : Fin 256), (184 : Fin 256), (185 : Fin 256), (186 : Fin 256), (187 : Fin 256), (188 : Fin 256), (189 : Fin 256), (190 : Fin 256), (191 : Fin 256), (192 : Fin 256), (193 : Fin 256), (194 : Fin 256), (195 : Fin 256), (196 : Fin 256), (197 : Fin 256), (198 : Fin 256), (199 : Fin 256), (200 : Fin 256), (201 : Fin 256), (202 : Fin 256), (203 : Fin 256), (204 : Fin 256), (205 : Fin 256), (206 : Fin 256), (207 : Fin 256), (208 : Fin 256), (209 : Fin 256), (210 : Fin 256), (211 : Fin 256), (212 : Fin 256), (213 : Fin 256), (214 : Fin 256), (215 : Fin 256), (216 : Fin 256), (217 : Fin 256), (218 : Fin 256), (219 : Fin 256), (220 : Fin 256), (221 : Fin 256), (222 : Fin 256), (223 : Fin 256), (224 : Fin 256), (225 : Fin 256), (226 : Fin 256), (227 : Fin 256), (228 : Fin 256), (229 : Fin 256), (230 : Fin 256), (231 : Fin 256), (232 : Fin 256), (233 : Fin 256), (234 : Fin 256), (235 : Fin 256), (236 : Fin 256), (237 : Fin 256), (238 : Fin 256), (239 : Fin 256), (240 : Fin 256), (241 : Fin 256), (242 : Fin 256), (243 : Fin 256), (244 : Fin 256), (245 : Fin 256), (246 : Fin 256), (247 : Fin 256), (248 : Fin 256), (249 : Fin 256), (250 : Fin 256), (251 : Fin 256), (252 : Fin 256), (253 : Fin 256), (254 : Fin 256), (255 : Fin 256)] (by decide) (by decide) (fun r : Fin 256 => Φ r.val r.isLt)

end Cert.Chains
-- ==== Proof.Exec0.lean ====
import proofs.«409488_j73529840107771_1_alg».proof.Proof.ExecOffs0
import proofs.«409488_j73529840107771_1_alg».proof.Proof.Rows0
import proofs.«409488_j73529840107771_1_alg».proof.Proof.Chains

noncomputable section

namespace Cert.KernelIdeal.Exec0

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Iface Cert.KernelIdeal.Rows0

variable {F : FTy → Type} [FloatOps F]

local notation "𝕄" => MT nD τ sig Unit (Elt F) ℕ (Pipeline.UD sig nD τ) ℕ

set_option maxHeartbeats 40000000 in
/-- The body's run: 256 copies started, 256 waited, the landed rows joined into the whole scratch, then the tail's load, product and store; L is the pieces the run writes into the output block. -/
noncomputable def run [∀ e, Nonempty (Elt F e)] (c : Dev nD) (t : Fin grid0.N)
    (M3 : Memref sig .tc .vmem S1024x1024 .bf16) (h3 : M3.IsWhole) (M4 : Memref sig .tc .vmem S256x1024 .f32) (h4 : M4.IsWhole)
    (pf : Bf (F := F) c TBL) (hpf : ∀ j, (pf j).toNat < 32768) (f : Bf (F := F) c SRC) (d : Bf (F := F) c (Memref.whole cc0_scratch0))
    (w3 : Bf (F := F) c M3) (f4 : Bf (F := F) c M4) :
    { L : List (View.Piece (Elt F) S256x1024 .f32) //
      ∀ (W : Waits sig Unit) (K : PUnit → sProp 𝕄),
        iprop(pt c TBL pf
            ∗ (bigSep Finset.univ fun r : Fin 256 => tokS c (base + r.val) f)
            ∗ (bigSep Finset.univ fun r : Fin 256 => rowH c (Memref.whole cc0_scratch0) r.val (dst_inb r.val r.isLt) d)
            ∗ (sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20 ∗ sv c 21 ∗ sv c 22 ∗ sv c 23 ∗ sv c 24 ∗ sv c 25 ∗ sv c 26 ∗ sv c 27 ∗ sv c 28 ∗ sv c 29 ∗ sv c 30 ∗ sv c 31 ∗ sv c 32 ∗ sv c 33 ∗ sv c 34 ∗ sv c 35 ∗ sv c 36 ∗ sv c 37 ∗ sv c 38 ∗ sv c 39 ∗ sv c 40 ∗ sv c 41 ∗ sv c 42 ∗ sv c 43 ∗ sv c 44 ∗ sv c 45 ∗ sv c 46 ∗ sv c 47 ∗ sv c 48 ∗ sv c 49 ∗ sv c 50 ∗ sv c 51 ∗ sv c 52 ∗ sv c 53 ∗ sv c 54 ∗ sv c 55 ∗ sv c 56 ∗ sv c 57 ∗ sv c 58 ∗ sv c 59 ∗ sv c 60 ∗ sv c 61 ∗ sv c 62 ∗ sv c 63 ∗ sv c 64 ∗ sv c 65 ∗ sv c 66 ∗ sv c 67 ∗ sv c 68 ∗ sv c 69 ∗ sv c 70 ∗ sv c 71 ∗ sv c 72 ∗ sv c 73 ∗ sv c 74 ∗ sv c 75 ∗ sv c 76 ∗ sv c 77 ∗ sv c 78 ∗ sv c 79 ∗ sv c 80 ∗ sv c 81 ∗ sv c 82 ∗ sv c 83 ∗ sv c 84 ∗ sv c 85 ∗ sv c 86 ∗ sv c 87 ∗ sv c 88 ∗ sv c 89 ∗ sv c 90 ∗ sv c 91 ∗ sv c 92 ∗ sv c 93 ∗ sv c 94 ∗ sv c 95 ∗ sv c 96 ∗ sv c 97 ∗ sv c 98 ∗ sv c 99 ∗ sv c 100 ∗ sv c 101 ∗ sv c 102 ∗ sv c 103 ∗ sv c 104 ∗ sv c 105 ∗ sv c 106 ∗ sv c 107 ∗ sv c 108 ∗ sv c 109 ∗ sv c 110 ∗ sv c 111 ∗ sv c 112 ∗ sv c 113 ∗ sv c 114 ∗ sv c 115 ∗ sv c 116 ∗ sv c 117 ∗ sv c 118 ∗ sv c 119 ∗ sv c 120 ∗ sv c 121 ∗ sv c 122 ∗ sv c 123 ∗ sv c 124 ∗ sv c 125 ∗ sv c 126 ∗ sv c 127 ∗ sv c 128 ∗ sv c 129 ∗ sv c 130 ∗ sv c 131 ∗ sv c 132 ∗ sv c 133 ∗ sv c 134 ∗ sv c 135 ∗ sv c 136 ∗ sv c 137 ∗ sv c 138 ∗ sv c 139 ∗ sv c 140 ∗ sv c 141 ∗ sv c 142 ∗ sv c 143 ∗ sv c 144 ∗ sv c 145 ∗ sv c 146 ∗ sv c 147 ∗ sv c 148 ∗ sv c 149 ∗ sv c 150 ∗ sv c 151 ∗ sv c 152 ∗ sv c 153 ∗ sv c 154 ∗ sv c 155 ∗ sv c 156 ∗ sv c 157 ∗ sv c 158 ∗ sv c 159 ∗ sv c 160 ∗ sv c 161 ∗ sv c 162 ∗ sv c 163 ∗ sv c 164 ∗ sv c 165 ∗ sv c 166 ∗ sv c 167 ∗ sv c 168 ∗ sv c 169 ∗ sv c 170 ∗ sv c 171 ∗ sv c 172 ∗ sv c 173 ∗ sv c 174 ∗ sv c 175 ∗ sv c 176 ∗ sv c 177 ∗ sv c 178 ∗ sv c 179 ∗ sv c 180 ∗ sv c 181 ∗ sv c 182 ∗ sv c 183 ∗ sv c 184 ∗ sv c 185 ∗ sv c 186 ∗ sv c 187 ∗ sv c 188 ∗ sv c 189 ∗ sv c 190 ∗ sv c 191 ∗ sv c 192 ∗ sv c 193 ∗ sv c 194 ∗ sv c 195 ∗ sv c 196 ∗ sv c 197 ∗ sv c 198 ∗ sv c 199 ∗ sv c 200 ∗ sv c 201 ∗ sv c 202 ∗ sv c 203 ∗ sv c 204 ∗ sv c 205 ∗ sv c 206 ∗ sv c 207 ∗ sv c 208 ∗ sv c 209 ∗ sv c 210 ∗ sv c 211 ∗ sv c 212 ∗ sv c 213 ∗ sv c 214 ∗ sv c 215 ∗ sv c 216 ∗ sv c 217 ∗ sv c 218 ∗ sv c 219 ∗ sv c 220 ∗ sv c 221 ∗ sv c 222 ∗ sv c 223 ∗ sv c 224 ∗ sv c 225 ∗ sv c 226 ∗ sv c 227 ∗ sv c 228 ∗ sv c 229 ∗ sv c 230 ∗ sv c 231 ∗ sv c 232 ∗ sv c 233 ∗ sv c 234 ∗ sv c 235 ∗ sv c 236 ∗ sv c 237 ∗ sv c 238 ∗ sv c 239 ∗ sv c 240 ∗ sv c 241 ∗ sv c 242 ∗ sv c 243 ∗ sv c 244 ∗ sv c 245 ∗ sv c 246 ∗ sv c 247 ∗ sv c 248 ∗ sv c 249 ∗ sv c 250 ∗ sv c 251 ∗ sv c 252 ∗ sv c 253 ∗ sv c 254 ∗ sv c 255 ∗ sv c 256 ∗ sv c 257 ∗ sv c 258)
            ∗ pt c M3 w3 ∗ pt c M4 f4
            ∗ owes (c : Thread nD τ) 0 W
            ∗ (iprop(pt c TBL pf
                ∗ (bigSep Finset.univ fun r : Fin 256 => tokS c (base + r.val) f)
                ∗ ((Memref.whole cc0_scratch0).view.loc (c : Thread nD τ) ↦[(Memref.whole cc0_scratch0).view.set]{fullShare} glued c (Memref.whole cc0_scratch0) (landed c (Memref.whole cc0_scratch0) (offs t) (hin t) pf hpf f d))
                ∗ (sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20 ∗ sv c 21 ∗ sv c 22 ∗ sv c 23 ∗ sv c 24 ∗ sv c 25 ∗ sv c 26 ∗ sv c 27 ∗ sv c 28 ∗ sv c 29 ∗ sv c 30 ∗ sv c 31 ∗ sv c 32 ∗ sv c 33 ∗ sv c 34 ∗ sv c 35 ∗ sv c 36 ∗ sv c 37 ∗ sv c 38 ∗ sv c 39 ∗ sv c 40 ∗ sv c 41 ∗ sv c 42 ∗ sv c 43 ∗ sv c 44 ∗ sv c 45 ∗ sv c 46 ∗ sv c 47 ∗ sv c 48 ∗ sv c 49 ∗ sv c 50 ∗ sv c 51 ∗ sv c 52 ∗ sv c 53 ∗ sv c 54 ∗ sv c 55 ∗ sv c 56 ∗ sv c 57 ∗ sv c 58 ∗ sv c 59 ∗ sv c 60 ∗ sv c 61 ∗ sv c 62 ∗ sv c 63 ∗ sv c 64 ∗ sv c 65 ∗ sv c 66 ∗ sv c 67 ∗ sv c 68 ∗ sv c 69 ∗ sv c 70 ∗ sv c 71 ∗ sv c 72 ∗ sv c 73 ∗ sv c 74 ∗ sv c 75 ∗ sv c 76 ∗ sv c 77 ∗ sv c 78 ∗ sv c 79 ∗ sv c 80 ∗ sv c 81 ∗ sv c 82 ∗ sv c 83 ∗ sv c 84 ∗ sv c 85 ∗ sv c 86 ∗ sv c 87 ∗ sv c 88 ∗ sv c 89 ∗ sv c 90 ∗ sv c 91 ∗ sv c 92 ∗ sv c 93 ∗ sv c 94 ∗ sv c 95 ∗ sv c 96 ∗ sv c 97 ∗ sv c 98 ∗ sv c 99 ∗ sv c 100 ∗ sv c 101 ∗ sv c 102 ∗ sv c 103 ∗ sv c 104 ∗ sv c 105 ∗ sv c 106 ∗ sv c 107 ∗ sv c 108 ∗ sv c 109 ∗ sv c 110 ∗ sv c 111 ∗ sv c 112 ∗ sv c 113 ∗ sv c 114 ∗ sv c 115 ∗ sv c 116 ∗ sv c 117 ∗ sv c 118 ∗ sv c 119 ∗ sv c 120 ∗ sv c 121 ∗ sv c 122 ∗ sv c 123 ∗ sv c 124 ∗ sv c 125 ∗ sv c 126 ∗ sv c 127 ∗ sv c 128 ∗ sv c 129 ∗ sv c 130 ∗ sv c 131 ∗ sv c 132 ∗ sv c 133 ∗ sv c 134 ∗ sv c 135 ∗ sv c 136 ∗ sv c 137 ∗ sv c 138 ∗ sv c 139 ∗ sv c 140 ∗ sv c 141 ∗ sv c 142 ∗ sv c 143 ∗ sv c 144 ∗ sv c 145 ∗ sv c 146 ∗ sv c 147 ∗ sv c 148 ∗ sv c 149 ∗ sv c 150 ∗ sv c 151 ∗ sv c 152 ∗ sv c 153 ∗ sv c 154 ∗ sv c 155 ∗ sv c 156 ∗ sv c 157 ∗ sv c 158 ∗ sv c 159 ∗ sv c 160 ∗ sv c 161 ∗ sv c 162 ∗ sv c 163 ∗ sv c 164 ∗ sv c 165 ∗ sv c 166 ∗ sv c 167 ∗ sv c 168 ∗ sv c 169 ∗ sv c 170 ∗ sv c 171 ∗ sv c 172 ∗ sv c 173 ∗ sv c 174 ∗ sv c 175 ∗ sv c 176 ∗ sv c 177 ∗ sv c 178 ∗ sv c 179 ∗ sv c 180 ∗ sv c 181 ∗ sv c 182 ∗ sv c 183 ∗ sv c 184 ∗ sv c 185 ∗ sv c 186 ∗ sv c 187 ∗ sv c 188 ∗ sv c 189 ∗ sv c 190 ∗ sv c 191 ∗ sv c 192 ∗ sv c 193 ∗ sv c 194 ∗ sv c 195 ∗ sv c 196 ∗ sv c 197 ∗ sv c 198 ∗ sv c 199 ∗ sv c 200 ∗ sv c 201 ∗ sv c 202 ∗ sv c 203 ∗ sv c 204 ∗ sv c 205 ∗ sv c 206 ∗ sv c 207 ∗ sv c 208 ∗ sv c 209 ∗ sv c 210 ∗ sv c 211 ∗ sv c 212 ∗ sv c 213 ∗ sv c 214 ∗ sv c 215 ∗ sv c 216 ∗ sv c 217 ∗ sv c 218 ∗ sv c 219 ∗ sv c 220 ∗ sv c 221 ∗ sv c 222 ∗ sv c 223 ∗ sv c 224 ∗ sv c 225 ∗ sv c 226 ∗ sv c 227 ∗ sv c 228 ∗ sv c 229 ∗ sv c 230 ∗ sv c 231 ∗ sv c 232 ∗ sv c 233 ∗ sv c 234 ∗ sv c 235 ∗ sv c 236 ∗ sv c 237 ∗ sv c 238 ∗ sv c 239 ∗ sv c 240 ∗ sv c 241 ∗ sv c 242 ∗ sv c 243 ∗ sv c 244 ∗ sv c 245 ∗ sv c 246 ∗ sv c 247 ∗ sv c 248 ∗ sv c 249 ∗ sv c 250 ∗ sv c 251 ∗ sv c 252 ∗ sv c 253 ∗ sv c 254 ∗ sv c 255 ∗ sv c 256 ∗ sv c 257 ∗ sv c 258)
                ∗ pt c M3 w3 ∗ pt c M4 (M4.view.writes (Elt F) f4 L)
                ∗ (∃ W', owes (c : Thread nD τ) 0 W')) -∗ K ⟨⟩))
        ⊢ wp frame (wpE (defs₀ (F := F)) Variants.none c none) Set.univ
            (cc0__gather_matmul_kernel (grid0.coords t) (Memref.whole main_arg3) (Memref.isWhole_whole _) (Memref.whole main_v0) (Memref.isWhole_whole _) M3 h3 M4 h4 (Memref.whole cc0_scratch0) (Memref.isWhole_whole _) cc0_scratch1) K } := by
  refine ⟨?_, fun W K => ?run⟩
  case run =>
    rw [Cert.Chains.bigSep_fin256 (fun r _ => tokS c (base + r) f),
      Cert.Chains.bigSep_fin256 (fun r h => rowH c (Memref.whole cc0_scratch0) r (dst_inb r h) d)]
    iintro ⟨Ht, ⟨X0, X1, X2, X3, X4, X5, X6, X7, X8, X9, X10, X11, X12, X13, X14, X15, X16, X17, X18, X19, X20, X21, X22, X23, X24, X25, X26, X27, X28, X29, X30, X31, X32, X33, X34, X35, X36, X37, X38, X39, X40, X41, X42, X43, X44, X45, X46, X47, X48, X49, X50, X51, X52, X53, X54, X55, X56, X57, X58, X59, X60, X61, X62, X63, X64, X65, X66, X67, X68, X69, X70, X71, X72, X73, X74, X75, X76, X77, X78, X79, X80, X81, X82, X83, X84, X85, X86, X87, X88, X89, X90, X91, X92, X93, X94, X95, X96, X97, X98, X99, X100, X101, X102, X103, X104, X105, X106, X107, X108, X109, X110, X111, X112, X113, X114, X115, X116, X117, X118, X119, X120, X121, X122, X123, X124, X125, X126, X127, X128, X129, X130, X131, X132, X133, X134, X135, X136, X137, X138, X139, X140, X141, X142, X143, X144, X145, X146, X147, X148, X149, X150, X151, X152, X153, X154, X155, X156, X157, X158, X159, X160, X161, X162, X163, X164, X165, X166, X167, X168, X169, X170, X171, X172, X173, X174, X175, X176, X177, X178, X179, X180, X181, X182, X183, X184, X185, X186, X187, X188, X189, X190, X191, X192, X193, X194, X195, X196, X197, X198, X199, X200, X201, X202, X203, X204, X205, X206, X207, X208, X209, X210, X211, X212, X213, X214, X215, X216, X217, X218, X219, X220, X221, X222, X223, X224, X225, X226, X227, X228, X229, X230, X231, X232, X233, X234, X235, X236, X237, X238, X239, X240, X241, X242, X243, X244, X245, X246, X247, X248, X249, X250, X251, X252, X253, X254, X255⟩, ⟨R0, R1, R2, R3, R4, R5, R6, R7, R8, R9, R10, R11, R12, R13, R14, R15, R16, R17, R18, R19, R20, R21, R22, R23, R24, R25, R26, R27, R28, R29, R30, R31, R32, R33, R34, R35, R36, R37, R38, R39, R40, R41, R42, R43, R44, R45, R46, R47, R48, R49, R50, R51, R52, R53, R54, R55, R56, R57, R58, R59, R60, R61, R62, R63, R64, R65, R66, R67, R68, R69, R70, R71, R72, R73, R74, R75, R76, R77, R78, R79, R80, R81, R82, R83, R84, R85, R86, R87, R88, R89, R90, R91, R92, R93, R94, R95, R96, R97, R98, R99, R100, R101, R102, R103, R104, R105, R106, R107, R108, R109, R110, R111, R112, R113, R114, R115, R116, R117, R118, R119, R120, R121, R122, R123, R124, R125, R126, R127, R128, R129, R130, R131, R132, R133, R134, R135, R136, R137, R138, R139, R140, R141, R142, R143, R144, R145, R146, R147, R148, R149, R150, R151, R152, R153, R154, R155, R156, R157, R158, R159, R160, R161, R162, R163, R164, R165, R166, R167, R168, R169, R170, R171, R172, R173, R174, R175, R176, R177, R178, R179, R180, R181, R182, R183, R184, R185, R186, R187, R188, R189, R190, R191, R192, R193, R194, R195, R196, R197, R198, R199, R200, R201, R202, R203, R204, R205, R206, R207, R208, R209, R210, R211, R212, R213, R214, R215, R216, R217, R218, R219, R220, R221, R222, R223, R224, R225, R226, R227, R228, R229, R230, R231, R232, R233, R234, R235, R236, R237, R238, R239, R240, R241, R242, R243, R244, R245, R246, R247, R248, R249, R250, R251, R252, R253, R254, R255⟩, ⟨D0, D1, D2, D3, D4, D5, D6, D7, D8, D9, D10, D11, D12, D13, D14, D15, D16, D17, D18, D19, D20, D21, D22, D23, D24, D25, D26, D27, D28, D29, D30, D31, D32, D33, D34, D35, D36, D37, D38, D39, D40, D41, D42, D43, D44, D45, D46, D47, D48, D49, D50, D51, D52, D53, D54, D55, D56, D57, D58, D59, D60, D61, D62, D63, D64, D65, D66, D67, D68, D69, D70, D71, D72, D73, D74, D75, D76, D77, D78, D79, D80, D81, D82, D83, D84, D85, D86, D87, D88, D89, D90, D91, D92, D93, D94, D95, D96, D97, D98, D99, D100, D101, D102, D103, D104, D105, D106, D107, D108, D109, D110, D111, D112, D113, D114, D115, D116, D117, D118, D119, D120, D121, D122, D123, D124, D125, D126, D127, D128, D129, D130, D131, D132, D133, D134, D135, D136, D137, D138, D139, D140, D141, D142, D143, D144, D145, D146, D147, D148, D149, D150, D151, D152, D153, D154, D155, D156, D157, D158, D159, D160, D161, D162, D163, D164, D165, D166, D167, D168, D169, D170, D171, D172, D173, D174, D175, D176, D177, D178, D179, D180, D181, D182, D183, D184, D185, D186, D187, D188, D189, D190, D191, D192, D193, D194, D195, D196, D197, D198, D199, D200, D201, D202, D203, D204, D205, D206, D207, D208, D209, D210, D211, D212, D213, D214, D215, D216, D217, D218, D219, D220, D221, D222, D223, D224, D225, D226, D227, D228, D229, D230, D231, D232, D233, D234, D235, D236, D237, D238, D239, D240, D241, D242, D243, D244, D245, D246, D247, D248, D249, D250, D251, D252, D253, D254, D255⟩, H3, H4, HO, Hk⟩
    simp only [cc0__gather_matmul_kernel_eq_skeleton]; unfold cc0__gather_matmul_kernel_skel
    sl_exec_parts (disch := exact row_inb _ (hpf _))
    ihave HS := (rows_join_glued c (Memref.whole cc0_scratch0) (landed c (Memref.whole cc0_scratch0) (offs t) (hin t) pf hpf f d)) $$ [R0 R1 R2 R3 R4 R5 R6 R7 R8 R9 R10 R11 R12 R13 R14 R15 R16 R17 R18 R19 R20 R21 R22 R23 R24 R25 R26 R27 R28 R29 R30 R31 R32 R33 R34 R35 R36 R37 R38 R39 R40 R41 R42 R43 R44 R45 R46 R47 R48 R49 R50 R51 R52 R53 R54 R55 R56 R57 R58 R59 R60 R61 R62 R63 R64 R65 R66 R67 R68 R69 R70 R71 R72 R73 R74 R75 R76 R77 R78 R79 R80 R81 R82 R83 R84 R85 R86 R87 R88 R89 R90 R91 R92 R93 R94 R95 R96 R97 R98 R99 R100 R101 R102 R103 R104 R105 R106 R107 R108 R109 R110 R111 R112 R113 R114 R115 R116 R117 R118 R119 R120 R121 R122 R123 R124 R125 R126 R127 R128 R129 R130 R131 R132 R133 R134 R135 R136 R137 R138 R139 R140 R141 R142 R143 R144 R145 R146 R147 R148 R149 R150 R151 R152 R153 R154 R155 R156 R157 R158 R159 R160 R161 R162 R163 R164 R165 R166 R167 R168 R169 R170 R171 R172 R173 R174 R175 R176 R177 R178 R179 R180 R181 R182 R183 R184 R185 R186 R187 R188 R189 R190 R191 R192 R193 R194 R195 R196 R197 R198 R199 R200 R201 R202 R203 R204 R205 R206 R207 R208 R209 R210 R211 R212 R213 R214 R215 R216 R217 R218 R219 R220 R221 R222 R223 R224 R225 R226 R227 R228 R229 R230 R231 R232 R233 R234 R235 R236 R237 R238 R239 R240 R241 R242 R243 R244 R245 R246 R247 R248 R249 R250 R251 R252 R253 R254 R255]
    · iapply (Entails.of_eq (Cert.Chains.bigSep_fin256 (fun r h => rowH c (Memref.whole cc0_scratch0) r (dst_inb r h) (landed c (Memref.whole cc0_scratch0) (offs t) (hin t) pf hpf f d ⟨r, h⟩))).symm)
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [R18]; · iexact R18
      isplitl [R19]; · iexact R19
      isplitl [R20]; · iexact R20
      isplitl [R21]; · iexact R21
      isplitl [R22]; · iexact R22
      isplitl [R23]; · iexact R23
      isplitl [R24]; · iexact R24
      isplitl [R25]; · iexact R25
      isplitl [R26]; · iexact R26
      isplitl [R27]; · iexact R27
      isplitl [R28]; · iexact R28
      isplitl [R29]; · iexact R29
      isplitl [R30]; · iexact R30
      isplitl [R31]; · iexact R31
      isplitl [R32]; · iexact R32
      isplitl [R33]; · iexact R33
      isplitl [R34]; · iexact R34
      isplitl [R35]; · iexact R35
      isplitl [R36]; · iexact R36
      isplitl [R37]; · iexact R37
      isplitl [R38]; · iexact R38
      isplitl [R39]; · iexact R39
      isplitl [R40]; · iexact R40
      isplitl [R41]; · iexact R41
      isplitl [R42]; · iexact R42
      isplitl [R43]; · iexact R43
      isplitl [R44]; · iexact R44
      isplitl [R45]; · iexact R45
      isplitl [R46]; · iexact R46
      isplitl [R47]; · iexact R47
      isplitl [R48]; · iexact R48
      isplitl [R49]; · iexact R49
      isplitl [R50]; · iexact R50
      isplitl [R51]; · iexact R51
      isplitl [R52]; · iexact R52
      isplitl [R53]; · iexact R53
      isplitl [R54]; · iexact R54
      isplitl [R55]; · iexact R55
      isplitl [R56]; · iexact R56
      isplitl [R57]; · iexact R57
      isplitl [R58]; · iexact R58
      isplitl [R59]; · iexact R59
      isplitl [R60]; · iexact R60
      isplitl [R61]; · iexact R61
      isplitl [R62]; · iexact R62
      isplitl [R63]; · iexact R63
      isplitl [R64]; · iexact R64
      isplitl [R65]; · iexact R65
      isplitl [R66]; · iexact R66
      isplitl [R67]; · iexact R67
      isplitl [R68]; · iexact R68
      isplitl [R69]; · iexact R69
      isplitl [R70]; · iexact R70
      isplitl [R71]; · iexact R71
      isplitl [R72]; · iexact R72
      isplitl [R73]; · iexact R73
      isplitl [R74]; · iexact R74
      isplitl [R75]; · iexact R75
      isplitl [R76]; · iexact R76
      isplitl [R77]; · iexact R77
      isplitl [R78]; · iexact R78
      isplitl [R79]; · iexact R79
      isplitl [R80]; · iexact R80
      isplitl [R81]; · iexact R81
      isplitl [R82]; · iexact R82
      isplitl [R83]; · iexact R83
      isplitl [R84]; · iexact R84
      isplitl [R85]; · iexact R85
      isplitl [R86]; · iexact R86
      isplitl [R87]; · iexact R87
      isplitl [R88]; · iexact R88
      isplitl [R89]; · iexact R89
      isplitl [R90]; · iexact R90
      isplitl [R91]; · iexact R91
      isplitl [R92]; · iexact R92
      isplitl [R93]; · iexact R93
      isplitl [R94]; · iexact R94
      isplitl [R95]; · iexact R95
      isplitl [R96]; · iexact R96
      isplitl [R97]; · iexact R97
      isplitl [R98]; · iexact R98
      isplitl [R99]; · iexact R99
      isplitl [R100]; · iexact R100
      isplitl [R101]; · iexact R101
      isplitl [R102]; · iexact R102
      isplitl [R103]; · iexact R103
      isplitl [R104]; · iexact R104
      isplitl [R105]; · iexact R105
      isplitl [R106]; · iexact R106
      isplitl [R107]; · iexact R107
      isplitl [R108]; · iexact R108
      isplitl [R109]; · iexact R109
      isplitl [R110]; · iexact R110
      isplitl [R111]; · iexact R111
      isplitl [R112]; · iexact R112
      isplitl [R113]; · iexact R113
      isplitl [R114]; · iexact R114
      isplitl [R115]; · iexact R115
      isplitl [R116]; · iexact R116
      isplitl [R117]; · iexact R117
      isplitl [R118]; · iexact R118
      isplitl [R119]; · iexact R119
      isplitl [R120]; · iexact R120
      isplitl [R121]; · iexact R121
      isplitl [R122]; · iexact R122
      isplitl [R123]; · iexact R123
      isplitl [R124]; · iexact R124
      isplitl [R125]; · iexact R125
      isplitl [R126]; · iexact R126
      isplitl [R127]; · iexact R127
      isplitl [R128]; · iexact R128
      isplitl [R129]; · iexact R129
      isplitl [R130]; · iexact R130
      isplitl [R131]; · iexact R131
      isplitl [R132]; · iexact R132
      isplitl [R133]; · iexact R133
      isplitl [R134]; · iexact R134
      isplitl [R135]; · iexact R135
      isplitl [R136]; · iexact R136
      isplitl [R137]; · iexact R137
      isplitl [R138]; · iexact R138
      isplitl [R139]; · iexact R139
      isplitl [R140]; · iexact R140
      isplitl [R141]; · iexact R141
      isplitl [R142]; · iexact R142
      isplitl [R143]; · iexact R143
      isplitl [R144]; · iexact R144
      isplitl [R145]; · iexact R145
      isplitl [R146]; · iexact R146
      isplitl [R147]; · iexact R147
      isplitl [R148]; · iexact R148
      isplitl [R149]; · iexact R149
      isplitl [R150]; · iexact R150
      isplitl [R151]; · iexact R151
      isplitl [R152]; · iexact R152
      isplitl [R153]; · iexact R153
      isplitl [R154]; · iexact R154
      isplitl [R155]; · iexact R155
      isplitl [R156]; · iexact R156
      isplitl [R157]; · iexact R157
      isplitl [R158]; · iexact R158
      isplitl [R159]; · iexact R159
      isplitl [R160]; · iexact R160
      isplitl [R161]; · iexact R161
      isplitl [R162]; · iexact R162
      isplitl [R163]; · iexact R163
      isplitl [R164]; · iexact R164
      isplitl [R165]; · iexact R165
      isplitl [R166]; · iexact R166
      isplitl [R167]; · iexact R167
      isplitl [R168]; · iexact R168
      isplitl [R169]; · iexact R169
      isplitl [R170]; · iexact R170
      isplitl [R171]; · iexact R171
      isplitl [R172]; · iexact R172
      isplitl [R173]; · iexact R173
      isplitl [R174]; · iexact R174
      isplitl [R175]; · iexact R175
      isplitl [R176]; · iexact R176
      isplitl [R177]; · iexact R177
      isplitl [R178]; · iexact R178
      isplitl [R179]; · iexact R179
      isplitl [R180]; · iexact R180
      isplitl [R181]; · iexact R181
      isplitl [R182]; · iexact R182
      isplitl [R183]; · iexact R183
      isplitl [R184]; · iexact R184
      isplitl [R185]; · iexact R185
      isplitl [R186]; · iexact R186
      isplitl [R187]; · iexact R187
      isplitl [R188]; · iexact R188
      isplitl [R189]; · iexact R189
      isplitl [R190]; · iexact R190
      isplitl [R191]; · iexact R191
      isplitl [R192]; · iexact R192
      isplitl [R193]; · iexact R193
      isplitl [R194]; · iexact R194
      isplitl [R195]; · iexact R195
      isplitl [R196]; · iexact R196
      isplitl [R197]; · iexact R197
      isplitl [R198]; · iexact R198
      isplitl [R199]; · iexact R199
      isplitl [R200]; · iexact R200
      isplitl [R201]; · iexact R201
      isplitl [R202]; · iexact R202
      isplitl [R203]; · iexact R203
      isplitl [R204]; · iexact R204
      isplitl [R205]; · iexact R205
      isplitl [R206]; · iexact R206
      isplitl [R207]; · iexact R207
      isplitl [R208]; · iexact R208
      isplitl [R209]; · iexact R209
      isplitl [R210]; · iexact R210
      isplitl [R211]; · iexact R211
      isplitl [R212]; · iexact R212
      isplitl [R213]; · iexact R213
      isplitl [R214]; · iexact R214
      isplitl [R215]; · iexact R215
      isplitl [R216]; · iexact R216
      isplitl [R217]; · iexact R217
      isplitl [R218]; · iexact R218
      isplitl [R219]; · iexact R219
      isplitl [R220]; · iexact R220
      isplitl [R221]; · iexact R221
      isplitl [R222]; · iexact R222
      isplitl [R223]; · iexact R223
      isplitl [R224]; · iexact R224
      isplitl [R225]; · iexact R225
      isplitl [R226]; · iexact R226
      isplitl [R227]; · iexact R227
      isplitl [R228]; · iexact R228
      isplitl [R229]; · iexact R229
      isplitl [R230]; · iexact R230
      isplitl [R231]; · iexact R231
      isplitl [R232]; · iexact R232
      isplitl [R233]; · iexact R233
      isplitl [R234]; · iexact R234
      isplitl [R235]; · iexact R235
      isplitl [R236]; · iexact R236
      isplitl [R237]; · iexact R237
      isplitl [R238]; · iexact R238
      isplitl [R239]; · iexact R239
      isplitl [R240]; · iexact R240
      isplitl [R241]; · iexact R241
      isplitl [R242]; · iexact R242
      isplitl [R243]; · iexact R243
      isplitl [R244]; · iexact R244
      isplitl [R245]; · iexact R245
      isplitl [R246]; · iexact R246
      isplitl [R247]; · iexact R247
      isplitl [R248]; · iexact R248
      isplitl [R249]; · iexact R249
      isplitl [R250]; · iexact R250
      isplitl [R251]; · iexact R251
      isplitl [R252]; · iexact R252
      isplitl [R253]; · iexact R253
      isplitl [R254]; · iexact R254
      iexact R255
    sl_exec
    sl_step
    iapply Hk
    isplitl [Ht]; · iexact Ht
    isplitl [X0 X1 X2 X3 X4 X5 X6 X7 X8 X9 X10 X11 X12 X13 X14 X15 X16 X17 X18 X19 X20 X21 X22 X23 X24 X25 X26 X27 X28 X29 X30 X31 X32 X33 X34 X35 X36 X37 X38 X39 X40 X41 X42 X43 X44 X45 X46 X47 X48 X49 X50 X51 X52 X53 X54 X55 X56 X57 X58 X59 X60 X61 X62 X63 X64 X65 X66 X67 X68 X69 X70 X71 X72 X73 X74 X75 X76 X77 X78 X79 X80 X81 X82 X83 X84 X85 X86 X87 X88 X89 X90 X91 X92 X93 X94 X95 X96 X97 X98 X99 X100 X101 X102 X103 X104 X105 X106 X107 X108 X109 X110 X111 X112 X113 X114 X115 X116 X117 X118 X119 X120 X121 X122 X123 X124 X125 X126 X127 X128 X129 X130 X131 X132 X133 X134 X135 X136 X137 X138 X139 X140 X141 X142 X143 X144 X145 X146 X147 X148 X149 X150 X151 X152 X153 X154 X155 X156 X157 X158 X159 X160 X161 X162 X163 X164 X165 X166 X167 X168 X169 X170 X171 X172 X173 X174 X175 X176 X177 X178 X179 X180 X181 X182 X183 X184 X185 X186 X187 X188 X189 X190 X191 X192 X193 X194 X195 X196 X197 X198 X199 X200 X201 X202 X203 X204 X205 X206 X207 X208 X209 X210 X211 X212 X213 X214 X215 X216 X217 X218 X219 X220 X221 X222 X223 X224 X225 X226 X227 X228 X229 X230 X231 X232 X233 X234 X235 X236 X237 X238 X239 X240 X241 X242 X243 X244 X245 X246 X247 X248 X249 X250 X251 X252 X253 X254 X255]
    · isplitl [X0]; · iexact X0
      isplitl [X1]; · iexact X1
      isplitl [X2]; · iexact X2
      isplitl [X3]; · iexact X3
      isplitl [X4]; · iexact X4
      isplitl [X5]; · iexact X5
      isplitl [X6]; · iexact X6
      isplitl [X7]; · iexact X7
      isplitl [X8]; · iexact X8
      isplitl [X9]; · iexact X9
      isplitl [X10]; · iexact X10
      isplitl [X11]; · iexact X11
      isplitl [X12]; · iexact X12
      isplitl [X13]; · iexact X13
      isplitl [X14]; · iexact X14
      isplitl [X15]; · iexact X15
      isplitl [X16]; · iexact X16
      isplitl [X17]; · iexact X17
      isplitl [X18]; · iexact X18
      isplitl [X19]; · iexact X19
      isplitl [X20]; · iexact X20
      isplitl [X21]; · iexact X21
      isplitl [X22]; · iexact X22
      isplitl [X23]; · iexact X23
      isplitl [X24]; · iexact X24
      isplitl [X25]; · iexact X25
      isplitl [X26]; · iexact X26
      isplitl [X27]; · iexact X27
      isplitl [X28]; · iexact X28
      isplitl [X29]; · iexact X29
      isplitl [X30]; · iexact X30
      isplitl [X31]; · iexact X31
      isplitl [X32]; · iexact X32
      isplitl [X33]; · iexact X33
      isplitl [X34]; · iexact X34
      isplitl [X35]; · iexact X35
      isplitl [X36]; · iexact X36
      isplitl [X37]; · iexact X37
      isplitl [X38]; · iexact X38
      isplitl [X39]; · iexact X39
      isplitl [X40]; · iexact X40
      isplitl [X41]; · iexact X41
      isplitl [X42]; · iexact X42
      isplitl [X43]; · iexact X43
      isplitl [X44]; · iexact X44
      isplitl [X45]; · iexact X45
      isplitl [X46]; · iexact X46
      isplitl [X47]; · iexact X47
      isplitl [X48]; · iexact X48
      isplitl [X49]; · iexact X49
      isplitl [X50]; · iexact X50
      isplitl [X51]; · iexact X51
      isplitl [X52]; · iexact X52
      isplitl [X53]; · iexact X53
      isplitl [X54]; · iexact X54
      isplitl [X55]; · iexact X55
      isplitl [X56]; · iexact X56
      isplitl [X57]; · iexact X57
      isplitl [X58]; · iexact X58
      isplitl [X59]; · iexact X59
      isplitl [X60]; · iexact X60
      isplitl [X61]; · iexact X61
      isplitl [X62]; · iexact X62
      isplitl [X63]; · iexact X63
      isplitl [X64]; · iexact X64
      isplitl [X65]; · iexact X65
      isplitl [X66]; · iexact X66
      isplitl [X67]; · iexact X67
      isplitl [X68]; · iexact X68
      isplitl [X69]; · iexact X69
      isplitl [X70]; · iexact X70
      isplitl [X71]; · iexact X71
      isplitl [X72]; · iexact X72
      isplitl [X73]; · iexact X73
      isplitl [X74]; · iexact X74
      isplitl [X75]; · iexact X75
      isplitl [X76]; · iexact X76
      isplitl [X77]; · iexact X77
      isplitl [X78]; · iexact X78
      isplitl [X79]; · iexact X79
      isplitl [X80]; · iexact X80
      isplitl [X81]; · iexact X81
      isplitl [X82]; · iexact X82
      isplitl [X83]; · iexact X83
      isplitl [X84]; · iexact X84
      isplitl [X85]; · iexact X85
      isplitl [X86]; · iexact X86
      isplitl [X87]; · iexact X87
      isplitl [X88]; · iexact X88
      isplitl [X89]; · iexact X89
      isplitl [X90]; · iexact X90
      isplitl [X91]; · iexact X91
      isplitl [X92]; · iexact X92
      isplitl [X93]; · iexact X93
      isplitl [X94]; · iexact X94
      isplitl [X95]; · iexact X95
      isplitl [X96]; · iexact X96
      isplitl [X97]; · iexact X97
      isplitl [X98]; · iexact X98
      isplitl [X99]; · iexact X99
      isplitl [X100]; · iexact X100
      isplitl [X101]; · iexact X101
      isplitl [X102]; · iexact X102
      isplitl [X103]; · iexact X103
      isplitl [X104]; · iexact X104
      isplitl [X105]; · iexact X105
      isplitl [X106]; · iexact X106
      isplitl [X107]; · iexact X107
      isplitl [X108]; · iexact X108
      isplitl [X109]; · iexact X109
      isplitl [X110]; · iexact X110
      isplitl [X111]; · iexact X111
      isplitl [X112]; · iexact X112
      isplitl [X113]; · iexact X113
      isplitl [X114]; · iexact X114
      isplitl [X115]; · iexact X115
      isplitl [X116]; · iexact X116
      isplitl [X117]; · iexact X117
      isplitl [X118]; · iexact X118
      isplitl [X119]; · iexact X119
      isplitl [X120]; · iexact X120
      isplitl [X121]; · iexact X121
      isplitl [X122]; · iexact X122
      isplitl [X123]; · iexact X123
      isplitl [X124]; · iexact X124
      isplitl [X125]; · iexact X125
      isplitl [X126]; · iexact X126
      isplitl [X127]; · iexact X127
      isplitl [X128]; · iexact X128
      isplitl [X129]; · iexact X129
      isplitl [X130]; · iexact X130
      isplitl [X131]; · iexact X131
      isplitl [X132]; · iexact X132
      isplitl [X133]; · iexact X133
      isplitl [X134]; · iexact X134
      isplitl [X135]; · iexact X135
      isplitl [X136]; · iexact X136
      isplitl [X137]; · iexact X137
      isplitl [X138]; · iexact X138
      isplitl [X139]; · iexact X139
      isplitl [X140]; · iexact X140
      isplitl [X141]; · iexact X141
      isplitl [X142]; · iexact X142
      isplitl [X143]; · iexact X143
      isplitl [X144]; · iexact X144
      isplitl [X145]; · iexact X145
      isplitl [X146]; · iexact X146
      isplitl [X147]; · iexact X147
      isplitl [X148]; · iexact X148
      isplitl [X149]; · iexact X149
      isplitl [X150]; · iexact X150
      isplitl [X151]; · iexact X151
      isplitl [X152]; · iexact X152
      isplitl [X153]; · iexact X153
      isplitl [X154]; · iexact X154
      isplitl [X155]; · iexact X155
      isplitl [X156]; · iexact X156
      isplitl [X157]; · iexact X157
      isplitl [X158]; · iexact X158
      isplitl [X159]; · iexact X159
      isplitl [X160]; · iexact X160
      isplitl [X161]; · iexact X161
      isplitl [X162]; · iexact X162
      isplitl [X163]; · iexact X163
      isplitl [X164]; · iexact X164
      isplitl [X165]; · iexact X165
      isplitl [X166]; · iexact X166
      isplitl [X167]; · iexact X167
      isplitl [X168]; · iexact X168
      isplitl [X169]; · iexact X169
      isplitl [X170]; · iexact X170
      isplitl [X171]; · iexact X171
      isplitl [X172]; · iexact X172
      isplitl [X173]; · iexact X173
      isplitl [X174]; · iexact X174
      isplitl [X175]; · iexact X175
      isplitl [X176]; · iexact X176
      isplitl [X177]; · iexact X177
      isplitl [X178]; · iexact X178
      isplitl [X179]; · iexact X179
      isplitl [X180]; · iexact X180
      isplitl [X181]; · iexact X181
      isplitl [X182]; · iexact X182
      isplitl [X183]; · iexact X183
      isplitl [X184]; · iexact X184
      isplitl [X185]; · iexact X185
      isplitl [X186]; · iexact X186
      isplitl [X187]; · iexact X187
      isplitl [X188]; · iexact X188
      isplitl [X189]; · iexact X189
      isplitl [X190]; · iexact X190
      isplitl [X191]; · iexact X191
      isplitl [X192]; · iexact X192
      isplitl [X193]; · iexact X193
      isplitl [X194]; · iexact X194
      isplitl [X195]; · iexact X195
      isplitl [X196]; · iexact X196
      isplitl [X197]; · iexact X197
      isplitl [X198]; · iexact X198
      isplitl [X199]; · iexact X199
      isplitl [X200]; · iexact X200
      isplitl [X201]; · iexact X201
      isplitl [X202]; · iexact X202
      isplitl [X203]; · iexact X203
      isplitl [X204]; · iexact X204
      isplitl [X205]; · iexact X205
      isplitl [X206]; · iexact X206
      isplitl [X207]; · iexact X207
      isplitl [X208]; · iexact X208
      isplitl [X209]; · iexact X209
      isplitl [X210]; · iexact X210
      isplitl [X211]; · iexact X211
      isplitl [X212]; · iexact X212
      isplitl [X213]; · iexact X213
      isplitl [X214]; · iexact X214
      isplitl [X215]; · iexact X215
      isplitl [X216]; · iexact X216
      isplitl [X217]; · iexact X217
      isplitl [X218]; · iexact X218
      isplitl [X219]; · iexact X219
      isplitl [X220]; · iexact X220
      isplitl [X221]; · iexact X221
      isplitl [X222]; · iexact X222
      isplitl [X223]; · iexact X223
      isplitl [X224]; · iexact X224
      isplitl [X225]; · iexact X225
      isplitl [X226]; · iexact X226
      isplitl [X227]; · iexact X227
      isplitl [X228]; · iexact X228
      isplitl [X229]; · iexact X229
      isplitl [X230]; · iexact X230
      isplitl [X231]; · iexact X231
      isplitl [X232]; · iexact X232
      isplitl [X233]; · iexact X233
      isplitl [X234]; · iexact X234
      isplitl [X235]; · iexact X235
      isplitl [X236]; · iexact X236
      isplitl [X237]; · iexact X237
      isplitl [X238]; · iexact X238
      isplitl [X239]; · iexact X239
      isplitl [X240]; · iexact X240
      isplitl [X241]; · iexact X241
      isplitl [X242]; · iexact X242
      isplitl [X243]; · iexact X243
      isplitl [X244]; · iexact X244
      isplitl [X245]; · iexact X245
      isplitl [X246]; · iexact X246
      isplitl [X247]; · iexact X247
      isplitl [X248]; · iexact X248
      isplitl [X249]; · iexact X249
      isplitl [X250]; · iexact X250
      isplitl [X251]; · iexact X251
      isplitl [X252]; · iexact X252
      isplitl [X253]; · iexact X253
      isplitl [X254]; · iexact X254
      iexact X255
    isplitl [HS]; · iexact HS
    isplitl [D0 D1 D2 D3 D4 D5 D6 D7 D8 D9 D10 D11 D12 D13 D14 D15 D16 D17 D18 D19 D20 D21 D22 D23 D24 D25 D26 D27 D28 D29 D30 D31 D32 D33 D34 D35 D36 D37 D38 D39 D40 D41 D42 D43 D44 D45 D46 D47 D48 D49 D50 D51 D52 D53 D54 D55 D56 D57 D58 D59 D60 D61 D62 D63 D64 D65 D66 D67 D68 D69 D70 D71 D72 D73 D74 D75 D76 D77 D78 D79 D80 D81 D82 D83 D84 D85 D86 D87 D88 D89 D90 D91 D92 D93 D94 D95 D96 D97 D98 D99 D100 D101 D102 D103 D104 D105 D106 D107 D108 D109 D110 D111 D112 D113 D114 D115 D116 D117 D118 D119 D120 D121 D122 D123 D124 D125 D126 D127 D128 D129 D130 D131 D132 D133 D134 D135 D136 D137 D138 D139 D140 D141 D142 D143 D144 D145 D146 D147 D148 D149 D150 D151 D152 D153 D154 D155 D156 D157 D158 D159 D160 D161 D162 D163 D164 D165 D166 D167 D168 D169 D170 D171 D172 D173 D174 D175 D176 D177 D178 D179 D180 D181 D182 D183 D184 D185 D186 D187 D188 D189 D190 D191 D192 D193 D194 D195 D196 D197 D198 D199 D200 D201 D202 D203 D204 D205 D206 D207 D208 D209 D210 D211 D212 D213 D214 D215 D216 D217 D218 D219 D220 D221 D222 D223 D224 D225 D226 D227 D228 D229 D230 D231 D232 D233 D234 D235 D236 D237 D238 D239 D240 D241 D242 D243 D244 D245 D246 D247 D248 D249 D250 D251 D252 D253 D254 D255]
    · isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      isplitl [D10]; · iexact D10
      isplitl [D11]; · iexact D11
      isplitl [D12]; · iexact D12
      isplitl [D13]; · iexact D13
      isplitl [D14]; · iexact D14
      isplitl [D15]; · iexact D15
      isplitl [D16]; · iexact D16
      isplitl [D17]; · iexact D17
      isplitl [D18]; · iexact D18
      isplitl [D19]; · iexact D19
      isplitl [D20]; · iexact D20
      isplitl [D21]; · iexact D21
      isplitl [D22]; · iexact D22
      isplitl [D23]; · iexact D23
      isplitl [D24]; · iexact D24
      isplitl [D25]; · iexact D25
      isplitl [D26]; · iexact D26
      isplitl [D27]; · iexact D27
      isplitl [D28]; · iexact D28
      isplitl [D29]; · iexact D29
      isplitl [D30]; · iexact D30
      isplitl [D31]; · iexact D31
      isplitl [D32]; · iexact D32
      isplitl [D33]; · iexact D33
      isplitl [D34]; · iexact D34
      isplitl [D35]; · iexact D35
      isplitl [D36]; · iexact D36
      isplitl [D37]; · iexact D37
      isplitl [D38]; · iexact D38
      isplitl [D39]; · iexact D39
      isplitl [D40]; · iexact D40
      isplitl [D41]; · iexact D41
      isplitl [D42]; · iexact D42
      isplitl [D43]; · iexact D43
      isplitl [D44]; · iexact D44
      isplitl [D45]; · iexact D45
      isplitl [D46]; · iexact D46
      isplitl [D47]; · iexact D47
      isplitl [D48]; · iexact D48
      isplitl [D49]; · iexact D49
      isplitl [D50]; · iexact D50
      isplitl [D51]; · iexact D51
      isplitl [D52]; · iexact D52
      isplitl [D53]; · iexact D53
      isplitl [D54]; · iexact D54
      isplitl [D55]; · iexact D55
      isplitl [D56]; · iexact D56
      isplitl [D57]; · iexact D57
      isplitl [D58]; · iexact D58
      isplitl [D59]; · iexact D59
      isplitl [D60]; · iexact D60
      isplitl [D61]; · iexact D61
      isplitl [D62]; · iexact D62
      isplitl [D63]; · iexact D63
      isplitl [D64]; · iexact D64
      isplitl [D65]; · iexact D65
      isplitl [D66]; · iexact D66
      isplitl [D67]; · iexact D67
      isplitl [D68]; · iexact D68
      isplitl [D69]; · iexact D69
      isplitl [D70]; · iexact D70
      isplitl [D71]; · iexact D71
      isplitl [D72]; · iexact D72
      isplitl [D73]; · iexact D73
      isplitl [D74]; · iexact D74
      isplitl [D75]; · iexact D75
      isplitl [D76]; · iexact D76
      isplitl [D77]; · iexact D77
      isplitl [D78]; · iexact D78
      isplitl [D79]; · iexact D79
      isplitl [D80]; · iexact D80
      isplitl [D81]; · iexact D81
      isplitl [D82]; · iexact D82
      isplitl [D83]; · iexact D83
      isplitl [D84]; · iexact D84
      isplitl [D85]; · iexact D85
      isplitl [D86]; · iexact D86
      isplitl [D87]; · iexact D87
      isplitl [D88]; · iexact D88
      isplitl [D89]; · iexact D89
      isplitl [D90]; · iexact D90
      isplitl [D91]; · iexact D91
      isplitl [D92]; · iexact D92
      isplitl [D93]; · iexact D93
      isplitl [D94]; · iexact D94
      isplitl [D95]; · iexact D95
      isplitl [D96]; · iexact D96
      isplitl [D97]; · iexact D97
      isplitl [D98]; · iexact D98
      isplitl [D99]; · iexact D99
      isplitl [D100]; · iexact D100
      isplitl [D101]; · iexact D101
      isplitl [D102]; · iexact D102
      isplitl [D103]; · iexact D103
      isplitl [D104]; · iexact D104
      isplitl [D105]; · iexact D105
      isplitl [D106]; · iexact D106
      isplitl [D107]; · iexact D107
      isplitl [D108]; · iexact D108
      isplitl [D109]; · iexact D109
      isplitl [D110]; · iexact D110
      isplitl [D111]; · iexact D111
      isplitl [D112]; · iexact D112
      isplitl [D113]; · iexact D113
      isplitl [D114]; · iexact D114
      isplitl [D115]; · iexact D115
      isplitl [D116]; · iexact D116
      isplitl [D117]; · iexact D117
      isplitl [D118]; · iexact D118
      isplitl [D119]; · iexact D119
      isplitl [D120]; · iexact D120
      isplitl [D121]; · iexact D121
      isplitl [D122]; · iexact D122
      isplitl [D123]; · iexact D123
      isplitl [D124]; · iexact D124
      isplitl [D125]; · iexact D125
      isplitl [D126]; · iexact D126
      isplitl [D127]; · iexact D127
      isplitl [D128]; · iexact D128
      isplitl [D129]; · iexact D129
      isplitl [D130]; · iexact D130
      isplitl [D131]; · iexact D131
      isplitl [D132]; · iexact D132
      isplitl [D133]; · iexact D133
      isplitl [D134]; · iexact D134
      isplitl [D135]; · iexact D135
      isplitl [D136]; · iexact D136
      isplitl [D137]; · iexact D137
      isplitl [D138]; · iexact D138
      isplitl [D139]; · iexact D139
      isplitl [D140]; · iexact D140
      isplitl [D141]; · iexact D141
      isplitl [D142]; · iexact D142
      isplitl [D143]; · iexact D143
      isplitl [D144]; · iexact D144
      isplitl [D145]; · iexact D145
      isplitl [D146]; · iexact D146
      isplitl [D147]; · iexact D147
      isplitl [D148]; · iexact D148
      isplitl [D149]; · iexact D149
      isplitl [D150]; · iexact D150
      isplitl [D151]; · iexact D151
      isplitl [D152]; · iexact D152
      isplitl [D153]; · iexact D153
      isplitl [D154]; · iexact D154
      isplitl [D155]; · iexact D155
      isplitl [D156]; · iexact D156
      isplitl [D157]; · iexact D157
      isplitl [D158]; · iexact D158
      isplitl [D159]; · iexact D159
      isplitl [D160]; · iexact D160
      isplitl [D161]; · iexact D161
      isplitl [D162]; · iexact D162
      isplitl [D163]; · iexact D163
      isplitl [D164]; · iexact D164
      isplitl [D165]; · iexact D165
      isplitl [D166]; · iexact D166
      isplitl [D167]; · iexact D167
      isplitl [D168]; · iexact D168
      isplitl [D169]; · iexact D169
      isplitl [D170]; · iexact D170
      isplitl [D171]; · iexact D171
      isplitl [D172]; · iexact D172
      isplitl [D173]; · iexact D173
      isplitl [D174]; · iexact D174
      isplitl [D175]; · iexact D175
      isplitl [D176]; · iexact D176
      isplitl [D177]; · iexact D177
      isplitl [D178]; · iexact D178
      isplitl [D179]; · iexact D179
      isplitl [D180]; · iexact D180
      isplitl [D181]; · iexact D181
      isplitl [D182]; · iexact D182
      isplitl [D183]; · iexact D183
      isplitl [D184]; · iexact D184
      isplitl [D185]; · iexact D185
      isplitl [D186]; · iexact D186
      isplitl [D187]; · iexact D187
      isplitl [D188]; · iexact D188
      isplitl [D189]; · iexact D189
      isplitl [D190]; · iexact D190
      isplitl [D191]; · iexact D191
      isplitl [D192]; · iexact D192
      isplitl [D193]; · iexact D193
      isplitl [D194]; · iexact D194
      isplitl [D195]; · iexact D195
      isplitl [D196]; · iexact D196
      isplitl [D197]; · iexact D197
      isplitl [D198]; · iexact D198
      isplitl [D199]; · iexact D199
      isplitl [D200]; · iexact D200
      isplitl [D201]; · iexact D201
      isplitl [D202]; · iexact D202
      isplitl [D203]; · iexact D203
      isplitl [D204]; · iexact D204
      isplitl [D205]; · iexact D205
      isplitl [D206]; · iexact D206
      isplitl [D207]; · iexact D207
      isplitl [D208]; · iexact D208
      isplitl [D209]; · iexact D209
      isplitl [D210]; · iexact D210
      isplitl [D211]; · iexact D211
      isplitl [D212]; · iexact D212
      isplitl [D213]; · iexact D213
      isplitl [D214]; · iexact D214
      isplitl [D215]; · iexact D215
      isplitl [D216]; · iexact D216
      isplitl [D217]; · iexact D217
      isplitl [D218]; · iexact D218
      isplitl [D219]; · iexact D219
      isplitl [D220]; · iexact D220
      isplitl [D221]; · iexact D221
      isplitl [D222]; · iexact D222
      isplitl [D223]; · iexact D223
      isplitl [D224]; · iexact D224
      isplitl [D225]; · iexact D225
      isplitl [D226]; · iexact D226
      isplitl [D227]; · iexact D227
      isplitl [D228]; · iexact D228
      isplitl [D229]; · iexact D229
      isplitl [D230]; · iexact D230
      isplitl [D231]; · iexact D231
      isplitl [D232]; · iexact D232
      isplitl [D233]; · iexact D233
      isplitl [D234]; · iexact D234
      isplitl [D235]; · iexact D235
      isplitl [D236]; · iexact D236
      isplitl [D237]; · iexact D237
      isplitl [D238]; · iexact D238
      isplitl [D239]; · iexact D239
      isplitl [D240]; · iexact D240
      isplitl [D241]; · iexact D241
      isplitl [D242]; · iexact D242
      isplitl [D243]; · iexact D243
      isplitl [D244]; · iexact D244
      isplitl [D245]; · iexact D245
      isplitl [D246]; · iexact D246
      isplitl [D247]; · iexact D247
      isplitl [D248]; · iexact D248
      isplitl [D249]; · iexact D249
      isplitl [D250]; · iexact D250
      isplitl [D251]; · iexact D251
      isplitl [D252]; · iexact D252
      isplitl [D253]; · iexact D253
      isplitl [D254]; · iexact D254
      iexact D255
    isplitl [H3]; · iexact H3
    isplitl [H4]; · iexact H4
    iexists _; iexact HO

end Cert.KernelIdeal.Exec0

end
-- ==== Proof.Exec0Piece.lean ====
import proofs.«409488_j73529840107771_1_alg».proof.Proof.Exec0
import proofs.«409488_j73529840107771_1_alg».proof.Proof.ExecOffs0
import proofs.«409488_j73529840107771_1_alg».proof.Proof.RowsVal0
import Idealize.ShloMosaic.Lib.Pipeline.FrameBody
import Idealize.ShloMosaic.Lib.Pipeline.Value

noncomputable section

namespace Cert.KernelIdeal.Exec0

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.KernelIdeal.Iface Cert.KernelIdeal.Rows0

theorem coords_val : ∀ t : Fin grid0.N, (grid0.coords t 0).val = t.val := by decide

theorem zero2 : (![0, 0] : Fin 2 → ℕ) = fun _ => 0 := by
  funext a; fin_cases a <;> rfl

set_option maxHeartbeats 4000000 in
/-- The run writes one piece covering the whole output block: the product of the scratch, which holds the gathered rows, with the weight block. -/
theorem piece_read [∀ e, Nonempty (Elt F e)] (c : Dev nD) (t : Fin grid0.N)
    (M3 : Memref sig .tc .vmem S1024x1024 .bf16) (h3 : M3.IsWhole) (M4 : Memref sig .tc .vmem S256x1024 .f32) (h4 : M4.IsWhole)
    (pf : Bf (F := F) c TBL) (hpf : ∀ j, (pf j).toNat < 32768) (f : Bf (F := F) c SRC) (d : Bf (F := F) c (Memref.whole cc0_scratch0))
    (w3 : Bf (F := F) c M3) (f4 : Bf (F := F) c M4) :
    M4.view.read (Elt F) (M4.view.writes (Elt F) f4 (run c t M3 h3 M4 h4 pf hpf f d w3 f4).1)
      = k0_pay1 (Cert.Spec.gatherRows t.val pf f) (M3.view.read (Elt F) w3)
:= by
  have hL : (run c t M3 h3 M4 h4 pf hpf f d w3 f4).1
      = [⟨Rect.unit (s := S256x1024) ![0, 0] S256x1024.size Shapes1.Facts₀.inb_S256x1024_S256x1024_0_0,
          k0_pay1 (View.readAt (Elt F) (Memref.whole cc0_scratch0).view (Rect.unit (s := S256x1024) ![0, 0] S256x1024.size Shapes1.Facts₀.inb_S256x1024_S256x1024_0_0)
                    (glued c (Memref.whole cc0_scratch0) (landed c (Memref.whole cc0_scratch0) (offs t) (hin t) pf hpf f d)))
                  (View.readAt (Elt F) M3.view (Rect.unit (s := S1024x1024) ![0, 0] S1024x1024.size Shapes1.Facts₀.inb_S1024x1024_S1024x1024_0_0) w3)⟩] := rfl
  rw [hL]
  rw [View.read_writes_eq_canon _ _ _ (fun y => ⟨_, List.mem_singleton_self _,
    View.mem_set_unit_zero (S := S256x1024) zero2 Shapes1.Facts₀.inb_S256x1024_S256x1024_0_0 y⟩)]
  rw [View.canon_unit_zero (S := S256x1024) zero2, View.readAt_eq_ld, View.readAt_eq_ld, View.ld_unit_zero (S := S1024x1024) zero2, View.ld_unit_zero (S := S256x1024) zero2]
  refine congrArg (fun A => k0_pay1 A (M3.view.read (Elt F) w3)) ?_
  rw [← coords_val t]
  exact landed_read c (Memref.whole cc0_scratch0) (offs t) (hin t) pf hpf f d (Memref.isWhole_whole _) (grid0.coords t 0).val (grid0.coords t 0).isLt (hoffs t) _
    (fun r i hi => glued_on c (Memref.whole cc0_scratch0) _ r i hi)

end Cert.KernelIdeal.Exec0

end
-- ==== Proof.Body0.lean ====
import proofs.«409488_j73529840107771_1_alg».proof.Proof.Exec0
import proofs.«409488_j73529840107771_1_alg».proof.Proof.ExecOffs0
import proofs.«409488_j73529840107771_1_alg».proof.Proof.Exec0Piece
import proofs.«409488_j73529840107771_1_alg».proof.Proof.Rows0
import proofs.«409488_j73529840107771_1_alg».proof.Proof.RowsVal0
import proofs.«409488_j73529840107771_1_alg».proof.Proof.Chains

noncomputable section

namespace Cert.KernelIdeal.Body0

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.KernelIdeal.Iface Cert.KernelIdeal.Rows0 Cert.KernelIdeal.Exec0

theorem scr_own (c : Dev nD) (ds : Bf (F := F) c (Memref.whole cc0_scratch0)) :
    (pt c (Memref.whole cc0_scratch0) ds : sProp 𝕄) = ((Memref.whole cc0_scratch0).view.loc (c : Thread nD τ) ↦[(Memref.whole cc0_scratch0).view.set]{fullShare} ds) := by
  rw [(Memref.isWhole_whole cc0_scratch0).set_eq_univ]

set_option maxHeartbeats 8000000 in
/-- One grid step of the first kernel: the scratch is filled row by row with block t of the gathered matrix, and the output block is its product with the weights. -/
theorem kernelRun0 [∀ e, Nonempty (Elt F e)] (c : Dev nD) (t : Fin grid0.N)
    (M3 : Memref sig .tc .vmem S1024x1024 .bf16) (h3 : M3.IsWhole) (M4 : Memref sig .tc .vmem S256x1024 .f32) (h4 : M4.IsWhole)
    (w : Vec F S1024x1024 .bf16)
    (pf : Bf (F := F) c (Memref.whole main_arg3)) (hpf : ∀ j, (pf j).toNat < 32768)
    (f : Bf (F := F) c (Memref.whole main_v0))
    (W : Waits sig Unit) (K : PUnit → sProp 𝕄) :
    iprop(owns (c : Thread nD τ) M3 fullShare w ∗ (∃ d, owns (c : Thread nD τ) M4 fullShare d)
        ∗ (∃ d, pt c (Memref.whole cc0_scratch0) d)
        ∗ Pipeline.ownSems0 (Ix := Unit) (Name := ℕ) (U := Pipeline.UD sig nD τ) (Lvl := ℕ) (Val := Elt F) (τ := τ) osem0 c
        ∗ pt c (Memref.whole main_arg3) pf ∗ pt c (Memref.whole main_v0) f ∗ owes (c : Thread nD τ) 0 W
        ∗ (iprop(owns (c : Thread nD τ) M3 fullShare w
              ∗ owns (c : Thread nD τ) M4 fullShare (k0_pay1 (Cert.Spec.gatherRows t.val pf f) w)
              ∗ (∃ d, pt c (Memref.whole cc0_scratch0) d)
              ∗ Pipeline.ownSems0 (Ix := Unit) (Name := ℕ) (U := Pipeline.UD sig nD τ) (Lvl := ℕ) (Val := Elt F) (τ := τ) osem0 c
              ∗ pt c (Memref.whole main_arg3) pf ∗ pt c (Memref.whole main_v0) f ∗ (∃ W', owes (c : Thread nD τ) 0 W')) -∗ K ⟨⟩))
      ⊢ wp frame (wpE (defs₀ (F := F)) Variants.none c none) Set.univ
          (cc0__gather_matmul_kernel (grid0.coords t) (Memref.whole main_arg3) (Memref.isWhole_whole _) (Memref.whole main_v0) (Memref.isWhole_whole _) M3 h3 M4 h4 (Memref.whole cc0_scratch0) (Memref.isWhole_whole _) cc0_scratch1) K := by
  rw [cells_eq]
  unfold owns
  rw [h3.set_eq_univ, h4.set_eq_univ]
  iintro ⟨⟨%w3, %hw3, H3⟩, ⟨%d4, %f4, -, H4⟩, ⟨%ds, Hs⟩, Hsems, Htbl, Hsrc, HO, Hk⟩
  ihave Hs' := (Entails.of_eq (scr_own c ds)) $$ Hs
  ihave HR := (rows_split c (Memref.whole cc0_scratch0) ds (Memref.isWhole_whole _)) $$ Hs'
  ihave HT := (toks_split c f) $$ Hsrc
  icases HT with ⟨⟨%Rm, HRm, %hback⟩, HX⟩
  iapply ((run c t M3 h3 M4 h4 pf hpf f ds w3 f4).2 W K)
  isplitl [Htbl]; · iexact Htbl
  isplitl [HX]; · iexact HX
  isplitl [HR]; · iexact HR
  isplitl [Hsems]
  · iapply (Entails.of_eq (Cert.Chains.bigSep_fin256 (fun r h => sv c (cc0_scratch1.ix (ValueIdx.ix1 ⟨r, h⟩)))))
    iexact Hsems
  isplitl [H3]; · iexact H3
  isplitl [H4]; · iexact H4
  isplitl [HO]; · iexact HO
  iintro ⟨Htbl, HXc, HS, HDc, H3, H4, HO'⟩
  ihave Hsrc' := hback $$ [HRm HXc]
  · isplitl [HRm]; · iexact HRm
    iexact HXc
  iapply Hk
  isplitl [H3]
  · iexists w3; isplitr; · ipureintro; exact hw3
    iexact H3
  isplitl [H4]
  · iexists _; isplitr; swap; · iexact H4
    ipureintro
    rw [← hw3]
    exact piece_read c t M3 h3 M4 h4 pf hpf f ds w3 f4
  isplitl [HS]
  · iexists _
    iapply (Entails.of_eq (scr_own c _).symm)
    iexact HS
  isplitl [HDc]
  · iapply (Entails.of_eq (Cert.Chains.bigSep_fin256 (fun r h => sv c (cc0_scratch1.ix (ValueIdx.ix1 ⟨r, h⟩)))).symm)
    iexact HDc
  isplitl [Htbl]; · iexact Htbl
  isplitl [Hsrc']; · iexact Hsrc'
  iexact HO'

end Cert.KernelIdeal.Body0

end
-- ==== Proof.Region0.lean ====
import proofs.«409488_j73529840107771_1_alg».proof.Proof.Body0
import Idealize.ShloMosaic.Lib.Pipeline.FrameBody

noncomputable section

namespace Cert.KernelIdeal.Region0

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.KernelIdeal.Iface

variable (V : (c : Dev nD) → (b : Ref sig .tc) → Buf (Elt F) ((c : Thread nD τ).loc b))

def H0 : Finset (Ref sig .tc) := {main_v0, main_arg3}

def wblk (a : (pcfg0 (F := F)).Adm) (c : Dev nD) (t : Fin (cfg0 a).N) : (((cfg0 a).win 0).xblock ((cfg0 a).grid.coords t)).Idx → Elt F ((cfg0 a).win 0).elt :=
  (((cfg0 a).win 0).blk t).view.read (Elt F) (V c (Pipeline.arrRef spec0 0))

def dat0 (a : (pcfg0 (F := F)).Adm) (c : Dev nD) : Dat τ (Elt F) Unit ℕ (Pipeline.UD sig nD τ) ℕ (cfg0 a) c where
  A w := V c (Pipeline.arrRef spec0 w)
  after w t := match w with
    | ⟨0, _⟩ => wblk V a c t
    | ⟨1, _⟩ => k0_pay1 (Cert.Spec.gatherRows t.val (V c main_arg3) (V c main_v0)) (wblk V a c t)
  Φ _ := Pipeline.ΦD osem0 spec0 H0 V c
  q _ := fullShare
  owed _ := 0

theorem before_w (a : (pcfg0 (F := F)).Adm) (c : Dev nD) (t : Fin (cfg0 a).N) (d) :
    (dat0 V a c).before 0 t d = wblk V a c t :=
  ((dat0 V a c).before_in_eq_fetched 0 rfl (fun _ => rfl) (fun _ _ _ => rfl) (fun _ => rfl) t d).trans rfl

theorem heldBufs_eq (c : Dev nD) :
    (bigSep H0 (fun b => ((c : Thread nD τ).loc b) ↦{fullShare} V c b) : sProp 𝕄)
      = iprop(pt c (Memref.whole main_v0) (V c main_v0) ∗ pt c (Memref.whole main_arg3) (V c main_arg3)) := by
  rw [BI.bigSep_eq_bigSepL_of_eq [main_v0, main_arg3] (by decide) (by decide)]; rfl

theorem inv_eq (c : Dev nD) :
    (Pipeline.ΦD osem0 spec0 H0 V c : sProp 𝕄)
      = iprop(((∃ f, pt c (Memref.whole cc0_scratch0) f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f))
          ∗ (∃ r, prngReg c r)
          ∗ Pipeline.ownSems0 (Ix := Unit) (Name := ℕ) (U := Pipeline.UD sig nD τ) (Lvl := ℕ) (Val := Elt F) (τ := τ) osem0 c
          ∗ pt c (Memref.whole main_v0) (V c main_v0) ∗ pt c (Memref.whole main_arg3) (V c main_arg3)) := by
  rw [Pipeline.ΦD_eq, scopedRest0_eq, heldBufs_eq]

abbrev stgW (a : (pcfg0 (F := F)).Adm) (t : Fin (cfg0 a).N) : Memref sig .tc .vmem S1024x1024 .bf16 := spec0_0.stage ((cfg0 a).slots t 0)
abbrev stgO (a : (pcfg0 (F := F)).Adm) (t : Fin (cfg0 a).N) : Memref sig .tc .vmem S256x1024 .f32 := spec0_1.stage ((cfg0 a).slots t 1)
abbrev hstgW (a : (pcfg0 (F := F)).Adm) (t : Fin (cfg0 a).N) : (stgW a t).IsWhole := hstage0_0 (((cfg0 a).slots t 0).cast nbuf0_0)
abbrev hstgO (a : (pcfg0 (F := F)).Adm) (t : Fin (cfg0 a).N) : (stgO a t).IsWhole := hstage0_1 (((cfg0 a).slots t 1).cast nbuf0_1)

theorem prog_eq (a : (pcfg0 (F := F)).Adm) (t : Fin (cfg0 a).N) :
    defs₀ (F := F) .tc (cfg0 a).body ((cfg0 a).bodyArgs t ((cfg0 a).slots t))
      = cc0__gather_matmul_kernel (grid0.coords t) (Memref.whole main_arg3) (Memref.isWhole_whole _) (Memref.whole main_v0) (Memref.isWhole_whole _)
          (stgW a t) (hstgW a t) (stgO a t) (hstgO a t) (Memref.whole cc0_scratch0) (Memref.isWhole_whole _) cc0_scratch1 := rfl

theorem body_obligation0 [∀ e, Nonempty (Elt F e)] (a : (pcfg0 (F := F)).Adm) (c : Dev nD)
    (hpf : ∀ j, (V c main_arg3 j).toNat < 32768) :
    BodyObligation (dat0 (F := F) V a c) (defs₀ (F := F)) Variants.none () Set.univ := by

  intro t
  rw [bigSep_W0, bigSep_W0]
  dsimp only
  rw [show defs₀ (F := F) .tc 0 (t, (cfg0 a).slots t) = _ from prog_eq a t]
  rw [show (dat0 V a c).Φ t.succ = _ from inv_eq V c, show (dat0 V a c).Φ t.castSucc = _ from inv_eq V c]
  unfold Dat.owesAt Pipeline.owesWithin
  rw [show (dat0 V a c).owed t.castSucc = 0 from rfl, show (dat0 V a c).owed t.succ = 0 from rfl]
  iintro ⟨⟨⟨Hsc, Hs0, Hs1⟩, Hg, Hq, Hx, Hi⟩, ⟨%W, -, HW⟩, ⟨%d0, Hw⟩, ⟨%d1, Ho⟩⟩
  rw [before_w V a c t d0]
  iapply (Body0.kernelRun0 c t (stgW a t) (hstgW a t) (stgO a t) (hstgO a t) (wblk V a c t) (V c main_arg3) hpf (V c main_v0) W _)
  isplitl [Hw]; · iexact Hw
  isplitl [Ho]; · iexists _; iexact Ho
  isplitl [Hsc]; · iexact Hsc
  isplitl [Hq]; · iexact Hq
  isplitl [Hi]; · iexact Hi
  isplitl [Hx]; · iexact Hx
  isplitl [HW]; · iexact HW
  iintro ⟨Hw, Ho, Hsc, Hq, Hi, Hx, ⟨%W', HW'⟩⟩
  isplitl [Hsc Hs0 Hs1 Hg Hq Hx Hi]
  · isplitl [Hsc Hs0 Hs1]
    · isplitl [Hsc]; · iexact Hsc
      isplitl [Hs0]; · iexact Hs0
      iexact Hs1
    isplitl [Hg]; · iexact Hg
    isplitl [Hq]; · iexact Hq
    isplitl [Hx]; · iexact Hx
    iexact Hi
  isplitl [HW']
  · iexists W'; isplitr; · ipureintro; exact fun _ _ => Or.inl trivial
    iexact HW'
  isplitl [Hw]; · iexact Hw
  iexact Ho

end Cert.KernelIdeal.Region0

end
-- ==== Proof.RowsDef1.lean ====
import proofs.«409488_j73529840107771_1_alg».proof.Proof.Iface

noncomputable section

namespace Cert.KernelIdeal.Rows1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.KernelIdeal.Iface

abbrev TBL : Memref sig .tc .smem S16384 .i32 := Memref.whole main_arg2
abbrev SRC : Memref sig .tc .hbm S32768x1024 .f32 := Memref.whole main_v12
abbrev base : ℕ := 261

theorem row_inb (w : BitVec 32) (h : w.toNat < 32768) : ∀ a, (![w.toNat, 0] : Fin 2 → Nat) a + S1x1024.size a ≤ S32768x1024.size a := by
  intro a
  fin_cases a
  · show w.toNat + 1 ≤ 32768
    omega
  · show 0 + 1024 ≤ 1024
    omega

theorem dst_inb (r : ℕ) (h : r < 256) : ∀ a, (![r, 0] : Fin 2 → Nat) a + S1x1024.size a ≤ S256x1024.size a := by
  intro a
  fin_cases a
  · show r + 1 ≤ 256
    omega
  · show 0 + 1024 ≤ 1024
    omega

abbrev rowM (M : Memref sig .tc .vmem S256x1024 .f32) (r : ℕ) (h : ∀ a, (![r, 0] : Fin 2 → ℕ) a + S1x1024.size a ≤ S256x1024.size a) : Memref sig .tc .vmem S1024 .f32 :=
  (M.slice (Rect.unit (s := S256x1024) ![r, 0] S1x1024.size h) (fun _ => rfl)).squeeze S1024 Shapes1.Facts₀.squeezes_S1x1024_S1024

/-- Row r of the buffer, held through exactly its own 1024 elements at the contents d of the whole buffer. -/
abbrev rowH (c : Dev nD) (M : Memref sig .tc .vmem S256x1024 .f32) (r : ℕ) (h : ∀ a, (![r, 0] : Fin 2 → ℕ) a + S1x1024.size a ≤ S256x1024.size a) (d : Bf (F := F) c M) : sProp 𝕄 :=
  (rowM M r h).view.loc (c : Thread nD τ) ↦[(rowM M r h).view.set]{fullShare} d

abbrev tokS (c : Dev nD) (i : ℕ) (f : Bf (F := F) c SRC) : sProp 𝕄 :=
  SRC.view.loc (c : Thread nD τ) ↦{Transfers.shareTokN fullShare i} f

abbrev sv (c : Dev nD) (i : DmaSem sig) : sProp 𝕄 := semVal ((c : Thread nD τ), SemLoc.dma i) 0

abbrev wordAt (c : Dev nD) (off : Fin 1 → ℕ) (h : ∀ a, off a + S1.size a ≤ S16384.size a) (pf : Bf (F := F) c TBL) : BitVec 32 :=
  View.readAt (Elt F) TBL.view (Rect.unit (s := S16384) off S1.size h).toLoadRect pf (Shape.Idx.first (show 0 < S1.numel by decide))

abbrev rowPay (c : Dev nD) (w : BitVec 32) (h : ∀ a, (![w.toNat, 0] : Fin 2 → ℕ) a + S1x1024.size a ≤ S32768x1024.size a) (f : Bf (F := F) c SRC) : S1024.Idx → Elt F .f32 :=
  ReadAs.same.apply (View.read (Elt F) ((SRC.slice (Rect.unit (s := S32768x1024) ![w.toNat, 0] S1x1024.size h) (fun _ => rfl)).squeeze S1024 Shapes1.Facts₀.squeezes_S1x1024_S1024).view f)

section Landed

variable (c : Dev nD) (M : Memref sig .tc .vmem S256x1024 .f32)
  (offs : Fin 256 → Fin 1 → ℕ) (hin : ∀ r a, offs r a + S1.size a ≤ S16384.size a)
  (pf : Bf (F := F) c TBL) (hpf : ∀ j, (pf j).toNat < 32768) (f : Bf (F := F) c SRC) (d : Bf (F := F) c M)

/-- The buffer's contents once copy r has landed: d with the source row that the table word names written over row r. -/
abbrev landed (r : Fin 256) : Bf (F := F) c M :=
  (rowM M r.val (dst_inb r.val r.isLt)).view.writes (Elt F) d
    [⟨Rect.whole S1024, rowPay c (wordAt c (offs r) (hin r) pf) (row_inb _ (hpf _)) f⟩]

end Landed

end Cert.KernelIdeal.Rows1

end
-- ==== Proof.RowsGlue1.lean ====
import proofs.«409488_j73529840107771_1_alg».proof.Proof.RowsDef1

noncomputable section

namespace Cert.KernelIdeal.Rows1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.KernelIdeal.Iface

/-- One contents out of 256 row-wise ones: each element takes the value of the family member whose row it lies in. -/
def glued (c : Dev nD) (M : Memref sig .tc .vmem S256x1024 .f32) (fs : Fin 256 → Bf (F := F) c M) : Bf (F := F) c M :=
  fun i => fs (Classical.epsilon fun r : Fin 256 => i ∈ (rowM M r.val (dst_inb r.val r.isLt)).view.set) i

end Cert.KernelIdeal.Rows1

end
-- ==== Proof.Rows1.lean ====
import proofs.«409488_j73529840107771_1_alg».proof.Proof.RowsGlue1

noncomputable section

namespace Cert.KernelIdeal.Rows1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.KernelIdeal.Iface

theorem rowM_set (M : Memref sig .tc .vmem S256x1024 .f32) (r : ℕ) (h : ∀ a, (![r, 0] : Fin 2 → ℕ) a + S1x1024.size a ≤ S256x1024.size a) :
    (rowM M r h).view.set = (Rect.unit (s := S256x1024) ![r, 0] S1x1024.size h).set.map M.view.emb := by
  show ((M.view.slice _).reshape _ _).set = _
  rw [View.set_reshape, View.set_slice]

/-- Distinct rows are disjoint: their rectangles are separated on the row axis. -/
theorem rowM_disjoint (M : Memref sig .tc .vmem S256x1024 .f32) (r r' : Fin 256) (hne : r ≠ r') :
    Disjoint (rowM M r.val (dst_inb r.val r.isLt)).view.set (rowM M r'.val (dst_inb r'.val r'.isLt)).view.set := by
  rw [rowM_set, rowM_set]
  refine (Finset.disjoint_map _).mpr (Rect.unit_disjoint 0 ?_)
  have hv : r.val ≠ r'.val := fun e => hne (Fin.ext e)
  show r.val + 1 ≤ r'.val ∨ r'.val + 1 ≤ r.val
  omega

/-- The 256 rows cover the buffer: an element lies in the row its first coordinate names. -/
theorem rowM_cover (M : Memref sig .tc .vmem S256x1024 .f32) :
    M.view.set = Finset.univ.biUnion fun r : Fin 256 => (rowM M r.val (dst_inb r.val r.isLt)).view.set := by
  ext i
  rw [Finset.mem_biUnion]
  constructor
  · intro hi
    rw [View.set] at hi
    obtain ⟨x, -, rfl⟩ := Finset.mem_map.mp hi
    refine ⟨⟨(x 0).val, (x 0).isLt⟩, Finset.mem_univ _, ?_⟩
    rw [rowM_set]
    refine Finset.mem_map_of_mem _ (Rect.mem_set_unit.mpr fun a => ?_)
    fin_cases a
    · exact ⟨Nat.le_refl _, Nat.lt_succ_self _⟩
    · refine ⟨Nat.zero_le _, ?_⟩
      have h1 : (x 1).val < 1024 := (x 1).isLt
      show (x 1).val < 0 + 1024
      omega
  · rintro ⟨r, -, hi⟩
    rw [rowM_set] at hi
    obtain ⟨x, -, rfl⟩ := Finset.mem_map.mp hi
    exact M.view.emb_mem_set x

section Landed

variable (c : Dev nD) (M : Memref sig .tc .vmem S256x1024 .f32)
  (offs : Fin 256 → Fin 1 → ℕ) (hin : ∀ r a, offs r a + S1.size a ≤ S16384.size a)
  (pf : Bf (F := F) c TBL) (hpf : ∀ j, (pf j).toNat < 32768) (f : Bf (F := F) c SRC) (d : Bf (F := F) c M)

/-- A buffer held whole is its 256 rows held separately, since the rows are disjoint and cover it. -/
theorem rows_split (hM : M.IsWhole) :
    (M.view.loc (c : Thread nD τ) ↦[M.view.set]{fullShare} d : sProp 𝕄)
      ⊢ bigSep Finset.univ fun r : Fin 256 => rowH c M r.val (dst_inb r.val r.isLt) d := by
  have h : (M.view.loc (c : Thread nD τ) ↦[Finset.univ.biUnion fun r : Fin 256 => (rowM M r.val (dst_inb r.val r.isLt)).view.set]{fullShare} d : sProp 𝕄)
      = bigSep Finset.univ fun r : Fin 256 => M.view.loc (c : Thread nD τ) ↦[(rowM M r.val (dst_inb r.val r.isLt)).view.set]{fullShare} d :=
    pointsTo_biUnion Finset.univ _ fun r _ r' _ hne => rowM_disjoint M r r' hne
  rw [← rowM_cover M] at h
  rw [h]

/-- 256 rows held at contents of their own are the whole buffer at some contents agreeing with each on its row. -/
theorem rows_join (hM : M.IsWhole) (fs : Fin 256 → Bf (F := F) c M) :
    (bigSep Finset.univ fun r : Fin 256 => rowH c M r.val (dst_inb r.val r.isLt) (fs r))
      ⊢ (iprop(∃ g : Bf (F := F) c M, ⌜∀ r : Fin 256, ∀ i ∈ (rowM M r.val (dst_inb r.val r.isLt)).view.set, g i = fs r i⌝
            ∗ M.view.loc (c : Thread nD τ) ↦[M.view.set]{fullShare} g) : sProp 𝕄) := by
  have h : (bigSep Finset.univ fun r : Fin 256 => M.view.loc (c : Thread nD τ) ↦[(rowM M r.val (dst_inb r.val r.isLt)).view.set]{fullShare} fs r)
      ⊢ (iprop(∃ g : Bf (F := F) c M, ⌜∀ r ∈ (Finset.univ : Finset (Fin 256)), ∀ i ∈ (rowM M r.val (dst_inb r.val r.isLt)).view.set, g i = fs r i⌝
            ∗ M.view.loc (c : Thread nD τ) ↦[Finset.univ.biUnion fun r : Fin 256 => (rowM M r.val (dst_inb r.val r.isLt)).view.set]{fullShare} g) : sProp 𝕄) :=
    pointsTo_biUnion_join Finset.univ _ fs (fs ⟨0, by decide⟩) fun r _ r' _ hne => rowM_disjoint M r r' hne
  rw [← rowM_cover M] at h
  refine h.trans ?_
  iintro ⟨%g, %hg, H⟩
  iexists g
  isplitr
  · ipureintro; exact fun r i hi => hg r (Finset.mem_univ r) i hi
  · iexact H

end Landed

/-- The source held whole gives 256 read shares, numbered base … base + 255, and a remainder that takes them back. -/
theorem toks_split (c : Dev nD) (f : Bf (F := F) c SRC) :
    (pt c SRC f : sProp 𝕄) ⊢ iprop((∃ R : sProp 𝕄, R ∗ ⌜iprop(R ∗ bigSep Finset.univ fun r : Fin 256 => tokS c (base + r.val) f) ⊢ (pt c SRC f : sProp 𝕄)⌝)
        ∗ bigSep Finset.univ fun r : Fin 256 => tokS c (base + r.val) f) := by

  let emb : Fin 256 ↪ ℕ := ⟨fun r => base + r.val, fun a b h => Fin.ext (Nat.add_left_cancel h)⟩
  have hsub : Finset.univ.map emb ⊆ Finset.range (base + 256) := by
    intro i hi
    obtain ⟨r, -, rfl⟩ := Finset.mem_map.mp hi
    refine Finset.mem_range.mpr ?_
    show base + r.val < base + 256
    omega
  have hb : bigSep (Finset.range (base + 256)) (fun i => (tokS c i f : sProp 𝕄))
      = iprop((bigSep Finset.univ fun r : Fin 256 => tokS c (base + r.val) f)
          ∗ bigSep (Finset.range (base + 256) \ Finset.univ.map emb) (fun i => tokS c i f)) := by
    rw [bigSep_sdiff_split hsub, bigSep_map]
    rfl

  have h : (pt c SRC f : sProp 𝕄)
      ⊣⊢ iprop((SRC.view.loc (c : Thread nD τ) ↦{Transfers.shareDrop fullShare (base + 256)} f)
          ∗ bigSep (Finset.range (base + 256)) (fun i => tokS c i f)) :=
    Transfers.pointsTo_toks_range fullShare (base + 256)
  rw [hb] at h
  refine h.1.trans ?_
  iintro ⟨HD, HT, HR⟩
  isplitr [HT]
  · iexists iprop((SRC.view.loc (c : Thread nD τ) ↦{Transfers.shareDrop fullShare (base + 256)} f)
        ∗ bigSep (Finset.range (base + 256) \ Finset.univ.map emb) (fun i => tokS c i f))
    isplitl [HD HR]
    · isplitl [HD]
      · iexact HD
      · iexact HR
    · ipureintro
      refine .trans ?_ h.2
      iintro ⟨⟨HD, HR⟩, HT⟩
      isplitl [HD]
      · iexact HD
      isplitl [HT]
      · iexact HT
      · iexact HR
  · iexact HT

theorem cells_eq (c : Dev nD) :
    (Pipeline.ownSems0 (Ix := Unit) (Name := ℕ) (U := Pipeline.UD sig nD τ) (Lvl := ℕ) (Val := Elt F) (τ := τ) osem1 c : sProp 𝕄)
      = bigSep Finset.univ fun r : Fin 256 => sv c (cc1_scratch0.ix (ValueIdx.ix1 r)) := by
  rfl

/-- On row r the glued contents are the r-th member's: an element lies in one row only. -/
theorem glued_on (c : Dev nD) (M : Memref sig .tc .vmem S256x1024 .f32) (fs : Fin 256 → Bf (F := F) c M) (r : Fin 256) (i)
    (hi : i ∈ (rowM M r.val (dst_inb r.val r.isLt)).view.set) : glued c M fs i = fs r i := by
  have hsp : i ∈ (rowM M (Classical.epsilon fun r' : Fin 256 => i ∈ (rowM M r'.val (dst_inb r'.val r'.isLt)).view.set).val (dst_inb _ (Fin.isLt _))).view.set :=
    Classical.epsilon_spec (p := fun r' : Fin 256 => i ∈ (rowM M r'.val (dst_inb r'.val r'.isLt)).view.set) ⟨r, hi⟩
  have key : ∀ e : Fin 256, i ∈ (rowM M e.val (dst_inb e.val e.isLt)).view.set → e = r := fun e he => by
    by_contra hne
    exact Finset.disjoint_left.mp (rowM_disjoint M e r hne) he hi
  unfold glued
  rw [key _ hsp]

/-- The rows, each at its own member, are the whole buffer at the glued contents. -/
theorem rows_join_glued (c : Dev nD) (M : Memref sig .tc .vmem S256x1024 .f32) (fs : Fin 256 → Bf (F := F) c M) :
    (bigSep Finset.univ fun r : Fin 256 => rowH c M r.val (dst_inb r.val r.isLt) (fs r))
      ⊢ (M.view.loc (c : Thread nD τ) ↦[M.view.set]{fullShare} glued c M fs : sProp 𝕄) := by
  have hc : (bigSep Finset.univ fun r : Fin 256 => rowH c M r.val (dst_inb r.val r.isLt) (fs r) : sProp 𝕄)
      = bigSep Finset.univ fun r : Fin 256 => M.view.loc (c : Thread nD τ) ↦[(rowM M r.val (dst_inb r.val r.isLt)).view.set]{fullShare} glued c M fs :=
    bigSep_congr fun r _ => pointsTo_congr fun i hi => (glued_on c M fs r i hi).symm
  have h : (M.view.loc (c : Thread nD τ) ↦[Finset.univ.biUnion fun r : Fin 256 => (rowM M r.val (dst_inb r.val r.isLt)).view.set]{fullShare} glued c M fs : sProp 𝕄)
      = bigSep Finset.univ fun r : Fin 256 => M.view.loc (c : Thread nD τ) ↦[(rowM M r.val (dst_inb r.val r.isLt)).view.set]{fullShare} glued c M fs :=
    pointsTo_biUnion Finset.univ _ fun r _ r' _ hne => rowM_disjoint M r r' hne
  rw [← rowM_cover M] at h
  rw [hc, h]

end Cert.KernelIdeal.Rows1

end
-- ==== Proof.RowsVal1.lean ====
import proofs.«409488_j73529840107771_1_alg».proof.Proof.Rows1

noncomputable section

namespace Cert.KernelIdeal.Rows1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.KernelIdeal.Iface

/-- For g < 64 and r < 256 the 32-bit word 256·g + r does not wrap. -/
theorem offW_eq (g : ℕ) (hg : g < 64) (r : ℕ) (hr : r < 256) :
    (![(Scalar.indexCast (Scalar.addi (Scalar.muli (BitVec.ofNat 32 g) 256#32) (BitVec.ofNat 32 r))).toNat] : Fin 1 → ℕ) = ![256 * g + r] := by
  have h : (Scalar.indexCast (Scalar.addi (Scalar.muli (BitVec.ofNat 32 g) 256#32) (BitVec.ofNat 32 r))).toNat = 256 * g + r := by
    show ((BitVec.ofNat 32 g) * 256#32 + (BitVec.ofNat 32 r)).toNat = 256 * g + r
    rw [BitVec.toNat_add, BitVec.toNat_mul, BitVec.toNat_ofNat, BitVec.toNat_ofNat, BitVec.toNat_ofNat]
    omega
  exact congrArg (fun n : ℕ => (![n] : Fin 1 → ℕ)) h

theorem rowView_emb {κ : Kind} {sp : Space} {e : EltTy} {n0 n1 : ℕ} (v : View sig κ sp (⟨2, ![n0, n1]⟩ : Shape) e) (r : ℕ) (hr : r < n0)
    (inb : ∀ a, (![r, 0] : Fin 2 → ℕ) a + (![1, n1] : Fin 2 → ℕ) a ≤ (⟨2, ![n0, n1]⟩ : Shape).size a)
    (hsq : (⟨1, ![n1]⟩ : Shape).numel = (⟨2, ![1, n1]⟩ : Shape).numel) (q : Fin n1) :
    ((v.slice (Rect.unit (s := (⟨2, ![n0, n1]⟩ : Shape)) ![r, 0] ![1, n1] inb)).reshape (⟨1, ![n1]⟩ : Shape) hsq).emb (ValueIdx.ix1 q)
      = v.emb (ValueIdx.ix2 (⟨r, hr⟩ : Fin n0) q) := by
  show v.emb ((Rect.unit (s := (⟨2, ![n0, n1]⟩ : Shape)) ![r, 0] ![1, n1] inb).emb (Shape.reshapeEquiv hsq (ValueIdx.ix1 q))) = _
  have hc := Shape.reshapeEquiv_cons_one (n := 1) (d := ![n1]) hsq (ValueIdx.ix1 q)
  rw [hc]
  congr 1
  funext a
  apply Fin.ext
  fin_cases a
  · show r + 1 * 0 = r
    omega
  · show 0 + 1 * q.val = q.val
    omega

theorem wordAt_eq (c : Dev nD) (off : Fin 1 → ℕ) (h : ∀ a, off a + S1.size a ≤ S16384.size a) (pf : Bf (F := F) c TBL)
    (n : ℕ) (hn : n < 16384) (hoff : off 0 = n) :
    wordAt c off h pf = pf (ValueIdx.ix1 (⟨n, hn⟩ : Fin 16384)) := by
  show pf ((Rect.unit (s := S16384) off S1.size h).toLoadRect.idx (Shape.Idx.first (show 0 < S1.numel by decide))) = _
  congr 1
  funext a
  apply Fin.ext
  fin_cases a
  show off 0 + 1 * (Shape.Idx.first (show 0 < S1.numel by decide) (0 : Fin 1)).val = n
  have h0 : (Shape.Idx.first (show 0 < S1.numel by decide) (0 : Fin 1)).val = 0 := by
    have := (Shape.Idx.first (show 0 < S1.numel by decide) (0 : Fin 1)).isLt
    have e : S1.size (0 : Fin 1) = 1 := by decide
    omega
  omega

theorem rowPay_apply (c : Dev nD) (w : BitVec 32) (hw : w.toNat < 32768)
    (h : ∀ a, (![w.toNat, 0] : Fin 2 → ℕ) a + S1x1024.size a ≤ S32768x1024.size a) (f : Bf (F := F) c SRC) (q : Fin 1024) :
    rowPay c w h f (ValueIdx.ix1 q) = f (ValueIdx.ix2 (⟨w.toNat, hw⟩ : Fin 32768) q) := by
  show View.read (Elt F) ((SRC.slice (Rect.unit (s := S32768x1024) ![w.toNat, 0] S1x1024.size h) (fun _ => rfl)).squeeze S1024 Shapes1.Facts₀.squeezes_S1x1024_S1024).view f (ValueIdx.ix1 q) = _
  rw [View.read_apply]
  have e := rowView_emb (n0 := 32768) (n1 := 1024) SRC.view w.toNat hw h Shapes1.Facts₀.squeezes_S1x1024_S1024.numel_eq q
  show _root_.cast _ (f (((SRC.view.slice (Rect.unit (s := S32768x1024) ![w.toNat, 0] S1x1024.size h)).reshape S1024 Shapes1.Facts₀.squeezes_S1x1024_S1024.numel_eq).emb (ValueIdx.ix1 q))) = _
  rw [e]
  rfl

section LandedRead

variable (c : Dev nD) (M : Memref sig .tc .vmem S256x1024 .f32)
  (offs : Fin 256 → Fin 1 → ℕ) (hin : ∀ r a, offs r a + S1.size a ≤ S16384.size a)
  (pf : Bf (F := F) c TBL) (hpf : ∀ j, (pf j).toNat < 32768) (f : Bf (F := F) c SRC) (d : Bf (F := F) c M)

theorem landed_row_read (r : Fin 256) (q : Fin 1024) :
    (rowM M r.val (dst_inb r.val r.isLt)).view.read (Elt F) (landed c M offs hin pf hpf f d r) (ValueIdx.ix1 q)
      = rowPay c (wordAt c (offs r) (hin r) pf) (row_inb _ (hpf _)) f (ValueIdx.ix1 q) := by
  have h := View.read_writes_cons_emb (rowM M r.val (dst_inb r.val r.isLt)).view d (Rect.whole S1024)
    (rowPay c (wordAt c (offs r) (hin r) pf) (row_inb _ (hpf _)) f) [] (ValueIdx.ix1 q)
  rw [Rect.emb_whole_apply] at h
  exact h

theorem whole_read_row (G : Bf (F := F) c M) (r : Fin 256) (q : Fin 1024) :
    M.view.read (Elt F) G (ValueIdx.ix2 r q)
      = (rowM M r.val (dst_inb r.val r.isLt)).view.read (Elt F) G (ValueIdx.ix1 q) := by
  have e := rowView_emb (n0 := 256) (n1 := 1024) M.view r.val r.isLt (dst_inb r.val r.isLt) Shapes1.Facts₀.squeezes_S1x1024_S1024.numel_eq q
  rw [View.read_apply, View.read_apply]
  show _ = _root_.cast _ (G (((M.view.slice (Rect.unit (s := S256x1024) ![r.val, 0] S1x1024.size (dst_inb r.val r.isLt))).reshape S1024 Shapes1.Facts₀.squeezes_S1x1024_S1024.numel_eq).emb (ValueIdx.ix1 q)))
  rw [e]

/-- Entry (r, q) of contents agreeing with every landed row is the source's entry (ids[256·g + r], q). -/
theorem landed_read_at (g : ℕ) (hg : g < 64) (hoffs : ∀ r : Fin 256, offs r = ![256 * g + r.val]) (G : Bf (F := F) c M)
    (hG : ∀ r : Fin 256, ∀ i ∈ (rowM M r.val (dst_inb r.val r.isLt)).view.set, G i = landed c M offs hin pf hpf f d r i)
    (r : Fin 256) (q : Fin 1024) :
    M.view.read (Elt F) G (ValueIdx.ix2 r q) = Cert.Spec.gatherRows g pf f (ValueIdx.ix2 r q) := by
  have hn : 256 * g + r.val < 16384 := by have := r.isLt; omega
  have hw : wordAt c (offs r) (hin r) pf = pf (ValueIdx.ix1 (⟨256 * g + r.val, hn⟩ : Fin 16384)) :=
    wordAt_eq c (offs r) (hin r) pf (256 * g + r.val) hn (by rw [hoffs r]; rfl)
  have hwlt : (wordAt c (offs r) (hin r) pf).toNat < 32768 := by rw [hw]; exact hpf _
  rw [whole_read_row c M G r q,
    View.read_congr_at (ValueIdx.ix1 q) (hG r _ ((rowM M r.val (dst_inb r.val r.isLt)).view.emb_mem_set _)),
    landed_row_read c M offs hin pf hpf f d r q, rowPay_apply c (wordAt c (offs r) (hin r) pf) hwlt]
  show _ = f (ValueIdx.ix2 (Cert.Spec.rowOf pf (256 * g + r.val)) (⟨q.val, _⟩ : Fin 1024))
  congr 1
  have e1 : (Fin.ofNat 16384 (256 * g + r.val) : Fin 16384) = ⟨256 * g + r.val, hn⟩ := Fin.ext (Nat.mod_eq_of_lt hn)
  have e2 : Cert.Spec.rowOf pf (256 * g + r.val) = ⟨(wordAt c (offs r) (hin r) pf).toNat, hwlt⟩ := by
    unfold Cert.Spec.rowOf
    rw [e1]
    apply Fin.ext
    show (pf (ValueIdx.ix1 (⟨256 * g + r.val, hn⟩ : Fin 16384))).toNat % 32768 = (wordAt c (offs r) (hin r) pf).toNat
    rw [hw]
    exact Nat.mod_eq_of_lt (hpf _)
  rw [e2]

/-- Contents agreeing with every landed row read, through the whole buffer, as block g of the gathered matrix. -/
theorem landed_read (hM : M.IsWhole) (g : ℕ) (hg : g < 64) (hoffs : ∀ r : Fin 256, offs r = ![256 * g + r.val]) (G : Bf (F := F) c M)
    (hG : ∀ r : Fin 256, ∀ i ∈ (rowM M r.val (dst_inb r.val r.isLt)).view.set, G i = landed c M offs hin pf hpf f d r i) :
    M.view.read (Elt F) G = Cert.Spec.gatherRows g pf f := by
  funext y
  rw [ValueIdx.eq_ix2 y]
  exact landed_read_at c M offs hin pf hpf f d g hg hoffs G hG (y 0) (y 1)

end LandedRead

end Cert.KernelIdeal.Rows1

end
-- ==== Proof.ExecOffs1.lean ====
import proofs.«409488_j73529840107771_1_alg».proof.Proof.RowsVal1

noncomputable section

namespace Cert.KernelIdeal.Exec1

open Cert.KernelIdeal Cert.KernelIdeal.Gen

open Idealize.ShloMosaic
open Cert.KernelIdeal.Iface Cert.KernelIdeal.Rows1

/-- The table position copy r reads at grid step t: the word 256·t + r, spelt as each of the body's 256 offset computations spells its own. -/
def offs (t : Fin grid1.N) (r : Fin 256) : Fin 1 → ℕ :=
  ![(Scalar.indexCast (Scalar.addi (Scalar.muli (BitVec.ofNat 32 (grid1.coords t 0).val) 256#32) (BitVec.ofNat 32 r.val))).toNat]

/-- The word arithmetic does not wrap: position r at step g is 256·g + r. -/
theorem hoffs (t : Fin grid1.N) (r : Fin 256) : offs t r = ![256 * (grid1.coords t 0).val + r.val] :=
  offW_eq _ (grid1.coords t 0).isLt _ r.isLt

/-- Each position is inside the table: 256·g + r + 1 ≤ 16384 for g below 64 and r below 256. -/
theorem hin (t : Fin grid1.N) (r : Fin 256) : ∀ a, offs t r a + S1.size a ≤ S16384.size a := by
  rw [hoffs t r]
  intro a
  have hg : (grid1.coords t 0).val < 64 := (grid1.coords t 0).isLt
  have hr := r.isLt
  fin_cases a
  show 256 * (grid1.coords t 0).val + r.val + 1 ≤ 16384
  omega

end Cert.KernelIdeal.Exec1

end
-- ==== Proof.Exec1.lean ====
import proofs.«409488_j73529840107771_1_alg».proof.Proof.ExecOffs1
import proofs.«409488_j73529840107771_1_alg».proof.Proof.Rows1
import proofs.«409488_j73529840107771_1_alg».proof.Proof.Chains

noncomputable section

namespace Cert.KernelIdeal.Exec1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Iface Cert.KernelIdeal.Rows1

variable {F : FTy → Type} [FloatOps F]

local notation "𝕄" => MT nD τ sig Unit (Elt F) ℕ (Pipeline.UD sig nD τ) ℕ

set_option maxHeartbeats 40000000 in
/-- The body's run: 256 copies started, 256 waited; every row of the block lands, all else comes back as it was. -/
theorem run [∀ e, Nonempty (Elt F e)] (c : Dev nD) (t : Fin grid1.N) (M : Memref sig .tc .vmem S256x1024 .f32) (hM : M.IsWhole)
    (pf : Bf (F := F) c TBL) (hpf : ∀ j, (pf j).toNat < 32768) (f : Bf (F := F) c SRC) (d : Bf (F := F) c M)
    (W : Waits sig Unit) (K : PUnit → sProp 𝕄) :
    iprop(pt c TBL pf
        ∗ (bigSep Finset.univ fun r : Fin 256 => tokS c (base + r.val) f)
        ∗ (bigSep Finset.univ fun r : Fin 256 => rowH c M r.val (dst_inb r.val r.isLt) d)
        ∗ (sv c 261 ∗ sv c 262 ∗ sv c 263 ∗ sv c 264 ∗ sv c 265 ∗ sv c 266 ∗ sv c 267 ∗ sv c 268 ∗ sv c 269 ∗ sv c 270 ∗ sv c 271 ∗ sv c 272 ∗ sv c 273 ∗ sv c 274 ∗ sv c 275 ∗ sv c 276 ∗ sv c 277 ∗ sv c 278 ∗ sv c 279 ∗ sv c 280 ∗ sv c 281 ∗ sv c 282 ∗ sv c 283 ∗ sv c 284 ∗ sv c 285 ∗ sv c 286 ∗ sv c 287 ∗ sv c 288 ∗ sv c 289 ∗ sv c 290 ∗ sv c 291 ∗ sv c 292 ∗ sv c 293 ∗ sv c 294 ∗ sv c 295 ∗ sv c 296 ∗ sv c 297 ∗ sv c 298 ∗ sv c 299 ∗ sv c 300 ∗ sv c 301 ∗ sv c 302 ∗ sv c 303 ∗ sv c 304 ∗ sv c 305 ∗ sv c 306 ∗ sv c 307 ∗ sv c 308 ∗ sv c 309 ∗ sv c 310 ∗ sv c 311 ∗ sv c 312 ∗ sv c 313 ∗ sv c 314 ∗ sv c 315 ∗ sv c 316 ∗ sv c 317 ∗ sv c 318 ∗ sv c 319 ∗ sv c 320 ∗ sv c 321 ∗ sv c 322 ∗ sv c 323 ∗ sv c 324 ∗ sv c 325 ∗ sv c 326 ∗ sv c 327 ∗ sv c 328 ∗ sv c 329 ∗ sv c 330 ∗ sv c 331 ∗ sv c 332 ∗ sv c 333 ∗ sv c 334 ∗ sv c 335 ∗ sv c 336 ∗ sv c 337 ∗ sv c 338 ∗ sv c 339 ∗ sv c 340 ∗ sv c 341 ∗ sv c 342 ∗ sv c 343 ∗ sv c 344 ∗ sv c 345 ∗ sv c 346 ∗ sv c 347 ∗ sv c 348 ∗ sv c 349 ∗ sv c 350 ∗ sv c 351 ∗ sv c 352 ∗ sv c 353 ∗ sv c 354 ∗ sv c 355 ∗ sv c 356 ∗ sv c 357 ∗ sv c 358 ∗ sv c 359 ∗ sv c 360 ∗ sv c 361 ∗ sv c 362 ∗ sv c 363 ∗ sv c 364 ∗ sv c 365 ∗ sv c 366 ∗ sv c 367 ∗ sv c 368 ∗ sv c 369 ∗ sv c 370 ∗ sv c 371 ∗ sv c 372 ∗ sv c 373 ∗ sv c 374 ∗ sv c 375 ∗ sv c 376 ∗ sv c 377 ∗ sv c 378 ∗ sv c 379 ∗ sv c 380 ∗ sv c 381 ∗ sv c 382 ∗ sv c 383 ∗ sv c 384 ∗ sv c 385 ∗ sv c 386 ∗ sv c 387 ∗ sv c 388 ∗ sv c 389 ∗ sv c 390 ∗ sv c 391 ∗ sv c 392 ∗ sv c 393 ∗ sv c 394 ∗ sv c 395 ∗ sv c 396 ∗ sv c 397 ∗ sv c 398 ∗ sv c 399 ∗ sv c 400 ∗ sv c 401 ∗ sv c 402 ∗ sv c 403 ∗ sv c 404 ∗ sv c 405 ∗ sv c 406 ∗ sv c 407 ∗ sv c 408 ∗ sv c 409 ∗ sv c 410 ∗ sv c 411 ∗ sv c 412 ∗ sv c 413 ∗ sv c 414 ∗ sv c 415 ∗ sv c 416 ∗ sv c 417 ∗ sv c 418 ∗ sv c 419 ∗ sv c 420 ∗ sv c 421 ∗ sv c 422 ∗ sv c 423 ∗ sv c 424 ∗ sv c 425 ∗ sv c 426 ∗ sv c 427 ∗ sv c 428 ∗ sv c 429 ∗ sv c 430 ∗ sv c 431 ∗ sv c 432 ∗ sv c 433 ∗ sv c 434 ∗ sv c 435 ∗ sv c 436 ∗ sv c 437 ∗ sv c 438 ∗ sv c 439 ∗ sv c 440 ∗ sv c 441 ∗ sv c 442 ∗ sv c 443 ∗ sv c 444 ∗ sv c 445 ∗ sv c 446 ∗ sv c 447 ∗ sv c 448 ∗ sv c 449 ∗ sv c 450 ∗ sv c 451 ∗ sv c 452 ∗ sv c 453 ∗ sv c 454 ∗ sv c 455 ∗ sv c 456 ∗ sv c 457 ∗ sv c 458 ∗ sv c 459 ∗ sv c 460 ∗ sv c 461 ∗ sv c 462 ∗ sv c 463 ∗ sv c 464 ∗ sv c 465 ∗ sv c 466 ∗ sv c 467 ∗ sv c 468 ∗ sv c 469 ∗ sv c 470 ∗ sv c 471 ∗ sv c 472 ∗ sv c 473 ∗ sv c 474 ∗ sv c 475 ∗ sv c 476 ∗ sv c 477 ∗ sv c 478 ∗ sv c 479 ∗ sv c 480 ∗ sv c 481 ∗ sv c 482 ∗ sv c 483 ∗ sv c 484 ∗ sv c 485 ∗ sv c 486 ∗ sv c 487 ∗ sv c 488 ∗ sv c 489 ∗ sv c 490 ∗ sv c 491 ∗ sv c 492 ∗ sv c 493 ∗ sv c 494 ∗ sv c 495 ∗ sv c 496 ∗ sv c 497 ∗ sv c 498 ∗ sv c 499 ∗ sv c 500 ∗ sv c 501 ∗ sv c 502 ∗ sv c 503 ∗ sv c 504 ∗ sv c 505 ∗ sv c 506 ∗ sv c 507 ∗ sv c 508 ∗ sv c 509 ∗ sv c 510 ∗ sv c 511 ∗ sv c 512 ∗ sv c 513 ∗ sv c 514 ∗ sv c 515 ∗ sv c 516)
        ∗ owes (c : Thread nD τ) 0 W
        ∗ (iprop(pt c TBL pf
            ∗ (bigSep Finset.univ fun r : Fin 256 => tokS c (base + r.val) f)
            ∗ (bigSep Finset.univ fun r : Fin 256 => rowH c M r.val (dst_inb r.val r.isLt) (landed c M (offs t) (hin t) pf hpf f d r))
            ∗ (sv c 261 ∗ sv c 262 ∗ sv c 263 ∗ sv c 264 ∗ sv c 265 ∗ sv c 266 ∗ sv c 267 ∗ sv c 268 ∗ sv c 269 ∗ sv c 270 ∗ sv c 271 ∗ sv c 272 ∗ sv c 273 ∗ sv c 274 ∗ sv c 275 ∗ sv c 276 ∗ sv c 277 ∗ sv c 278 ∗ sv c 279 ∗ sv c 280 ∗ sv c 281 ∗ sv c 282 ∗ sv c 283 ∗ sv c 284 ∗ sv c 285 ∗ sv c 286 ∗ sv c 287 ∗ sv c 288 ∗ sv c 289 ∗ sv c 290 ∗ sv c 291 ∗ sv c 292 ∗ sv c 293 ∗ sv c 294 ∗ sv c 295 ∗ sv c 296 ∗ sv c 297 ∗ sv c 298 ∗ sv c 299 ∗ sv c 300 ∗ sv c 301 ∗ sv c 302 ∗ sv c 303 ∗ sv c 304 ∗ sv c 305 ∗ sv c 306 ∗ sv c 307 ∗ sv c 308 ∗ sv c 309 ∗ sv c 310 ∗ sv c 311 ∗ sv c 312 ∗ sv c 313 ∗ sv c 314 ∗ sv c 315 ∗ sv c 316 ∗ sv c 317 ∗ sv c 318 ∗ sv c 319 ∗ sv c 320 ∗ sv c 321 ∗ sv c 322 ∗ sv c 323 ∗ sv c 324 ∗ sv c 325 ∗ sv c 326 ∗ sv c 327 ∗ sv c 328 ∗ sv c 329 ∗ sv c 330 ∗ sv c 331 ∗ sv c 332 ∗ sv c 333 ∗ sv c 334 ∗ sv c 335 ∗ sv c 336 ∗ sv c 337 ∗ sv c 338 ∗ sv c 339 ∗ sv c 340 ∗ sv c 341 ∗ sv c 342 ∗ sv c 343 ∗ sv c 344 ∗ sv c 345 ∗ sv c 346 ∗ sv c 347 ∗ sv c 348 ∗ sv c 349 ∗ sv c 350 ∗ sv c 351 ∗ sv c 352 ∗ sv c 353 ∗ sv c 354 ∗ sv c 355 ∗ sv c 356 ∗ sv c 357 ∗ sv c 358 ∗ sv c 359 ∗ sv c 360 ∗ sv c 361 ∗ sv c 362 ∗ sv c 363 ∗ sv c 364 ∗ sv c 365 ∗ sv c 366 ∗ sv c 367 ∗ sv c 368 ∗ sv c 369 ∗ sv c 370 ∗ sv c 371 ∗ sv c 372 ∗ sv c 373 ∗ sv c 374 ∗ sv c 375 ∗ sv c 376 ∗ sv c 377 ∗ sv c 378 ∗ sv c 379 ∗ sv c 380 ∗ sv c 381 ∗ sv c 382 ∗ sv c 383 ∗ sv c 384 ∗ sv c 385 ∗ sv c 386 ∗ sv c 387 ∗ sv c 388 ∗ sv c 389 ∗ sv c 390 ∗ sv c 391 ∗ sv c 392 ∗ sv c 393 ∗ sv c 394 ∗ sv c 395 ∗ sv c 396 ∗ sv c 397 ∗ sv c 398 ∗ sv c 399 ∗ sv c 400 ∗ sv c 401 ∗ sv c 402 ∗ sv c 403 ∗ sv c 404 ∗ sv c 405 ∗ sv c 406 ∗ sv c 407 ∗ sv c 408 ∗ sv c 409 ∗ sv c 410 ∗ sv c 411 ∗ sv c 412 ∗ sv c 413 ∗ sv c 414 ∗ sv c 415 ∗ sv c 416 ∗ sv c 417 ∗ sv c 418 ∗ sv c 419 ∗ sv c 420 ∗ sv c 421 ∗ sv c 422 ∗ sv c 423 ∗ sv c 424 ∗ sv c 425 ∗ sv c 426 ∗ sv c 427 ∗ sv c 428 ∗ sv c 429 ∗ sv c 430 ∗ sv c 431 ∗ sv c 432 ∗ sv c 433 ∗ sv c 434 ∗ sv c 435 ∗ sv c 436 ∗ sv c 437 ∗ sv c 438 ∗ sv c 439 ∗ sv c 440 ∗ sv c 441 ∗ sv c 442 ∗ sv c 443 ∗ sv c 444 ∗ sv c 445 ∗ sv c 446 ∗ sv c 447 ∗ sv c 448 ∗ sv c 449 ∗ sv c 450 ∗ sv c 451 ∗ sv c 452 ∗ sv c 453 ∗ sv c 454 ∗ sv c 455 ∗ sv c 456 ∗ sv c 457 ∗ sv c 458 ∗ sv c 459 ∗ sv c 460 ∗ sv c 461 ∗ sv c 462 ∗ sv c 463 ∗ sv c 464 ∗ sv c 465 ∗ sv c 466 ∗ sv c 467 ∗ sv c 468 ∗ sv c 469 ∗ sv c 470 ∗ sv c 471 ∗ sv c 472 ∗ sv c 473 ∗ sv c 474 ∗ sv c 475 ∗ sv c 476 ∗ sv c 477 ∗ sv c 478 ∗ sv c 479 ∗ sv c 480 ∗ sv c 481 ∗ sv c 482 ∗ sv c 483 ∗ sv c 484 ∗ sv c 485 ∗ sv c 486 ∗ sv c 487 ∗ sv c 488 ∗ sv c 489 ∗ sv c 490 ∗ sv c 491 ∗ sv c 492 ∗ sv c 493 ∗ sv c 494 ∗ sv c 495 ∗ sv c 496 ∗ sv c 497 ∗ sv c 498 ∗ sv c 499 ∗ sv c 500 ∗ sv c 501 ∗ sv c 502 ∗ sv c 503 ∗ sv c 504 ∗ sv c 505 ∗ sv c 506 ∗ sv c 507 ∗ sv c 508 ∗ sv c 509 ∗ sv c 510 ∗ sv c 511 ∗ sv c 512 ∗ sv c 513 ∗ sv c 514 ∗ sv c 515 ∗ sv c 516)
            ∗ (∃ W', owes (c : Thread nD τ) 0 W')) -∗ K ⟨⟩))
    ⊢ wp frame (wpE (defs₀ (F := F)) Variants.none c none) Set.univ
        (cc1__gather_kernel (grid1.coords t) (Memref.whole main_arg2) (Memref.isWhole_whole _) (Memref.whole main_v12) (Memref.isWhole_whole _) M hM cc1_scratch0) K := by
  rw [Cert.Chains.bigSep_fin256 (fun r _ => tokS c (base + r) f),
    Cert.Chains.bigSep_fin256 (fun r h => rowH c M r (dst_inb r h) d),
    Cert.Chains.bigSep_fin256 (fun r h => rowH c M r (dst_inb r h) (landed c M (offs t) (hin t) pf hpf f d ⟨r, h⟩))]
  iintro ⟨Ht, ⟨X0, X1, X2, X3, X4, X5, X6, X7, X8, X9, X10, X11, X12, X13, X14, X15, X16, X17, X18, X19, X20, X21, X22, X23, X24, X25, X26, X27, X28, X29, X30, X31, X32, X33, X34, X35, X36, X37, X38, X39, X40, X41, X42, X43, X44, X45, X46, X47, X48, X49, X50, X51, X52, X53, X54, X55, X56, X57, X58, X59, X60, X61, X62, X63, X64, X65, X66, X67, X68, X69, X70, X71, X72, X73, X74, X75, X76, X77, X78, X79, X80, X81, X82, X83, X84, X85, X86, X87, X88, X89, X90, X91, X92, X93, X94, X95, X96, X97, X98, X99, X100, X101, X102, X103, X104, X105, X106, X107, X108, X109, X110, X111, X112, X113, X114, X115, X116, X117, X118, X119, X120, X121, X122, X123, X124, X125, X126, X127, X128, X129, X130, X131, X132, X133, X134, X135, X136, X137, X138, X139, X140, X141, X142, X143, X144, X145, X146, X147, X148, X149, X150, X151, X152, X153, X154, X155, X156, X157, X158, X159, X160, X161, X162, X163, X164, X165, X166, X167, X168, X169, X170, X171, X172, X173, X174, X175, X176, X177, X178, X179, X180, X181, X182, X183, X184, X185, X186, X187, X188, X189, X190, X191, X192, X193, X194, X195, X196, X197, X198, X199, X200, X201, X202, X203, X204, X205, X206, X207, X208, X209, X210, X211, X212, X213, X214, X215, X216, X217, X218, X219, X220, X221, X222, X223, X224, X225, X226, X227, X228, X229, X230, X231, X232, X233, X234, X235, X236, X237, X238, X239, X240, X241, X242, X243, X244, X245, X246, X247, X248, X249, X250, X251, X252, X253, X254, X255⟩, ⟨R0, R1, R2, R3, R4, R5, R6, R7, R8, R9, R10, R11, R12, R13, R14, R15, R16, R17, R18, R19, R20, R21, R22, R23, R24, R25, R26, R27, R28, R29, R30, R31, R32, R33, R34, R35, R36, R37, R38, R39, R40, R41, R42, R43, R44, R45, R46, R47, R48, R49, R50, R51, R52, R53, R54, R55, R56, R57, R58, R59, R60, R61, R62, R63, R64, R65, R66, R67, R68, R69, R70, R71, R72, R73, R74, R75, R76, R77, R78, R79, R80, R81, R82, R83, R84, R85, R86, R87, R88, R89, R90, R91, R92, R93, R94, R95, R96, R97, R98, R99, R100, R101, R102, R103, R104, R105, R106, R107, R108, R109, R110, R111, R112, R113, R114, R115, R116, R117, R118, R119, R120, R121, R122, R123, R124, R125, R126, R127, R128, R129, R130, R131, R132, R133, R134, R135, R136, R137, R138, R139, R140, R141, R142, R143, R144, R145, R146, R147, R148, R149, R150, R151, R152, R153, R154, R155, R156, R157, R158, R159, R160, R161, R162, R163, R164, R165, R166, R167, R168, R169, R170, R171, R172, R173, R174, R175, R176, R177, R178, R179, R180, R181, R182, R183, R184, R185, R186, R187, R188, R189, R190, R191, R192, R193, R194, R195, R196, R197, R198, R199, R200, R201, R202, R203, R204, R205, R206, R207, R208, R209, R210, R211, R212, R213, R214, R215, R216, R217, R218, R219, R220, R221, R222, R223, R224, R225, R226, R227, R228, R229, R230, R231, R232, R233, R234, R235, R236, R237, R238, R239, R240, R241, R242, R243, R244, R245, R246, R247, R248, R249, R250, R251, R252, R253, R254, R255⟩, ⟨D0, D1, D2, D3, D4, D5, D6, D7, D8, D9, D10, D11, D12, D13, D14, D15, D16, D17, D18, D19, D20, D21, D22, D23, D24, D25, D26, D27, D28, D29, D30, D31, D32, D33, D34, D35, D36, D37, D38, D39, D40, D41, D42, D43, D44, D45, D46, D47, D48, D49, D50, D51, D52, D53, D54, D55, D56, D57, D58, D59, D60, D61, D62, D63, D64, D65, D66, D67, D68, D69, D70, D71, D72, D73, D74, D75, D76, D77, D78, D79, D80, D81, D82, D83, D84, D85, D86, D87, D88, D89, D90, D91, D92, D93, D94, D95, D96, D97, D98, D99, D100, D101, D102, D103, D104, D105, D106, D107, D108, D109, D110, D111, D112, D113, D114, D115, D116, D117, D118, D119, D120, D121, D122, D123, D124, D125, D126, D127, D128, D129, D130, D131, D132, D133, D134, D135, D136, D137, D138, D139, D140, D141, D142, D143, D144, D145, D146, D147, D148, D149, D150, D151, D152, D153, D154, D155, D156, D157, D158, D159, D160, D161, D162, D163, D164, D165, D166, D167, D168, D169, D170, D171, D172, D173, D174, D175, D176, D177, D178, D179, D180, D181, D182, D183, D184, D185, D186, D187, D188, D189, D190, D191, D192, D193, D194, D195, D196, D197, D198, D199, D200, D201, D202, D203, D204, D205, D206, D207, D208, D209, D210, D211, D212, D213, D214, D215, D216, D217, D218, D219, D220, D221, D222, D223, D224, D225, D226, D227, D228, D229, D230, D231, D232, D233, D234, D235, D236, D237, D238, D239, D240, D241, D242, D243, D244, D245, D246, D247, D248, D249, D250, D251, D252, D253, D254, D255⟩, HO, Hk⟩
  simp only [cc1__gather_kernel_eq_skeleton]; unfold cc1__gather_kernel_skel
  sl_exec_parts (disch := exact row_inb _ (hpf _))
  sl_step
  iapply Hk
  isplitl [Ht]; · iexact Ht
  isplitl [X0 X1 X2 X3 X4 X5 X6 X7 X8 X9 X10 X11 X12 X13 X14 X15 X16 X17 X18 X19 X20 X21 X22 X23 X24 X25 X26 X27 X28 X29 X30 X31 X32 X33 X34 X35 X36 X37 X38 X39 X40 X41 X42 X43 X44 X45 X46 X47 X48 X49 X50 X51 X52 X53 X54 X55 X56 X57 X58 X59 X60 X61 X62 X63 X64 X65 X66 X67 X68 X69 X70 X71 X72 X73 X74 X75 X76 X77 X78 X79 X80 X81 X82 X83 X84 X85 X86 X87 X88 X89 X90 X91 X92 X93 X94 X95 X96 X97 X98 X99 X100 X101 X102 X103 X104 X105 X106 X107 X108 X109 X110 X111 X112 X113 X114 X115 X116 X117 X118 X119 X120 X121 X122 X123 X124 X125 X126 X127 X128 X129 X130 X131 X132 X133 X134 X135 X136 X137 X138 X139 X140 X141 X142 X143 X144 X145 X146 X147 X148 X149 X150 X151 X152 X153 X154 X155 X156 X157 X158 X159 X160 X161 X162 X163 X164 X165 X166 X167 X168 X169 X170 X171 X172 X173 X174 X175 X176 X177 X178 X179 X180 X181 X182 X183 X184 X185 X186 X187 X188 X189 X190 X191 X192 X193 X194 X195 X196 X197 X198 X199 X200 X201 X202 X203 X204 X205 X206 X207 X208 X209 X210 X211 X212 X213 X214 X215 X216 X217 X218 X219 X220 X221 X222 X223 X224 X225 X226 X227 X228 X229 X230 X231 X232 X233 X234 X235 X236 X237 X238 X239 X240 X241 X242 X243 X244 X245 X246 X247 X248 X249 X250 X251 X252 X253 X254 X255]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    isplitl [X14]; · iexact X14
    isplitl [X15]; · iexact X15
    isplitl [X16]; · iexact X16
    isplitl [X17]; · iexact X17
    isplitl [X18]; · iexact X18
    isplitl [X19]; · iexact X19
    isplitl [X20]; · iexact X20
    isplitl [X21]; · iexact X21
    isplitl [X22]; · iexact X22
    isplitl [X23]; · iexact X23
    isplitl [X24]; · iexact X24
    isplitl [X25]; · iexact X25
    isplitl [X26]; · iexact X26
    isplitl [X27]; · iexact X27
    isplitl [X28]; · iexact X28
    isplitl [X29]; · iexact X29
    isplitl [X30]; · iexact X30
    isplitl [X31]; · iexact X31
    isplitl [X32]; · iexact X32
    isplitl [X33]; · iexact X33
    isplitl [X34]; · iexact X34
    isplitl [X35]; · iexact X35
    isplitl [X36]; · iexact X36
    isplitl [X37]; · iexact X37
    isplitl [X38]; · iexact X38
    isplitl [X39]; · iexact X39
    isplitl [X40]; · iexact X40
    isplitl [X41]; · iexact X41
    isplitl [X42]; · iexact X42
    isplitl [X43]; · iexact X43
    isplitl [X44]; · iexact X44
    isplitl [X45]; · iexact X45
    isplitl [X46]; · iexact X46
    isplitl [X47]; · iexact X47
    isplitl [X48]; · iexact X48
    isplitl [X49]; · iexact X49
    isplitl [X50]; · iexact X50
    isplitl [X51]; · iexact X51
    isplitl [X52]; · iexact X52
    isplitl [X53]; · iexact X53
    isplitl [X54]; · iexact X54
    isplitl [X55]; · iexact X55
    isplitl [X56]; · iexact X56
    isplitl [X57]; · iexact X57
    isplitl [X58]; · iexact X58
    isplitl [X59]; · iexact X59
    isplitl [X60]; · iexact X60
    isplitl [X61]; · iexact X61
    isplitl [X62]; · iexact X62
    isplitl [X63]; · iexact X63
    isplitl [X64]; · iexact X64
    isplitl [X65]; · iexact X65
    isplitl [X66]; · iexact X66
    isplitl [X67]; · iexact X67
    isplitl [X68]; · iexact X68
    isplitl [X69]; · iexact X69
    isplitl [X70]; · iexact X70
    isplitl [X71]; · iexact X71
    isplitl [X72]; · iexact X72
    isplitl [X73]; · iexact X73
    isplitl [X74]; · iexact X74
    isplitl [X75]; · iexact X75
    isplitl [X76]; · iexact X76
    isplitl [X77]; · iexact X77
    isplitl [X78]; · iexact X78
    isplitl [X79]; · iexact X79
    isplitl [X80]; · iexact X80
    isplitl [X81]; · iexact X81
    isplitl [X82]; · iexact X82
    isplitl [X83]; · iexact X83
    isplitl [X84]; · iexact X84
    isplitl [X85]; · iexact X85
    isplitl [X86]; · iexact X86
    isplitl [X87]; · iexact X87
    isplitl [X88]; · iexact X88
    isplitl [X89]; · iexact X89
    isplitl [X90]; · iexact X90
    isplitl [X91]; · iexact X91
    isplitl [X92]; · iexact X92
    isplitl [X93]; · iexact X93
    isplitl [X94]; · iexact X94
    isplitl [X95]; · iexact X95
    isplitl [X96]; · iexact X96
    isplitl [X97]; · iexact X97
    isplitl [X98]; · iexact X98
    isplitl [X99]; · iexact X99
    isplitl [X100]; · iexact X100
    isplitl [X101]; · iexact X101
    isplitl [X102]; · iexact X102
    isplitl [X103]; · iexact X103
    isplitl [X104]; · iexact X104
    isplitl [X105]; · iexact X105
    isplitl [X106]; · iexact X106
    isplitl [X107]; · iexact X107
    isplitl [X108]; · iexact X108
    isplitl [X109]; · iexact X109
    isplitl [X110]; · iexact X110
    isplitl [X111]; · iexact X111
    isplitl [X112]; · iexact X112
    isplitl [X113]; · iexact X113
    isplitl [X114]; · iexact X114
    isplitl [X115]; · iexact X115
    isplitl [X116]; · iexact X116
    isplitl [X117]; · iexact X117
    isplitl [X118]; · iexact X118
    isplitl [X119]; · iexact X119
    isplitl [X120]; · iexact X120
    isplitl [X121]; · iexact X121
    isplitl [X122]; · iexact X122
    isplitl [X123]; · iexact X123
    isplitl [X124]; · iexact X124
    isplitl [X125]; · iexact X125
    isplitl [X126]; · iexact X126
    isplitl [X127]; · iexact X127
    isplitl [X128]; · iexact X128
    isplitl [X129]; · iexact X129
    isplitl [X130]; · iexact X130
    isplitl [X131]; · iexact X131
    isplitl [X132]; · iexact X132
    isplitl [X133]; · iexact X133
    isplitl [X134]; · iexact X134
    isplitl [X135]; · iexact X135
    isplitl [X136]; · iexact X136
    isplitl [X137]; · iexact X137
    isplitl [X138]; · iexact X138
    isplitl [X139]; · iexact X139
    isplitl [X140]; · iexact X140
    isplitl [X141]; · iexact X141
    isplitl [X142]; · iexact X142
    isplitl [X143]; · iexact X143
    isplitl [X144]; · iexact X144
    isplitl [X145]; · iexact X145
    isplitl [X146]; · iexact X146
    isplitl [X147]; · iexact X147
    isplitl [X148]; · iexact X148
    isplitl [X149]; · iexact X149
    isplitl [X150]; · iexact X150
    isplitl [X151]; · iexact X151
    isplitl [X152]; · iexact X152
    isplitl [X153]; · iexact X153
    isplitl [X154]; · iexact X154
    isplitl [X155]; · iexact X155
    isplitl [X156]; · iexact X156
    isplitl [X157]; · iexact X157
    isplitl [X158]; · iexact X158
    isplitl [X159]; · iexact X159
    isplitl [X160]; · iexact X160
    isplitl [X161]; · iexact X161
    isplitl [X162]; · iexact X162
    isplitl [X163]; · iexact X163
    isplitl [X164]; · iexact X164
    isplitl [X165]; · iexact X165
    isplitl [X166]; · iexact X166
    isplitl [X167]; · iexact X167
    isplitl [X168]; · iexact X168
    isplitl [X169]; · iexact X169
    isplitl [X170]; · iexact X170
    isplitl [X171]; · iexact X171
    isplitl [X172]; · iexact X172
    isplitl [X173]; · iexact X173
    isplitl [X174]; · iexact X174
    isplitl [X175]; · iexact X175
    isplitl [X176]; · iexact X176
    isplitl [X177]; · iexact X177
    isplitl [X178]; · iexact X178
    isplitl [X179]; · iexact X179
    isplitl [X180]; · iexact X180
    isplitl [X181]; · iexact X181
    isplitl [X182]; · iexact X182
    isplitl [X183]; · iexact X183
    isplitl [X184]; · iexact X184
    isplitl [X185]; · iexact X185
    isplitl [X186]; · iexact X186
    isplitl [X187]; · iexact X187
    isplitl [X188]; · iexact X188
    isplitl [X189]; · iexact X189
    isplitl [X190]; · iexact X190
    isplitl [X191]; · iexact X191
    isplitl [X192]; · iexact X192
    isplitl [X193]; · iexact X193
    isplitl [X194]; · iexact X194
    isplitl [X195]; · iexact X195
    isplitl [X196]; · iexact X196
    isplitl [X197]; · iexact X197
    isplitl [X198]; · iexact X198
    isplitl [X199]; · iexact X199
    isplitl [X200]; · iexact X200
    isplitl [X201]; · iexact X201
    isplitl [X202]; · iexact X202
    isplitl [X203]; · iexact X203
    isplitl [X204]; · iexact X204
    isplitl [X205]; · iexact X205
    isplitl [X206]; · iexact X206
    isplitl [X207]; · iexact X207
    isplitl [X208]; · iexact X208
    isplitl [X209]; · iexact X209
    isplitl [X210]; · iexact X210
    isplitl [X211]; · iexact X211
    isplitl [X212]; · iexact X212
    isplitl [X213]; · iexact X213
    isplitl [X214]; · iexact X214
    isplitl [X215]; · iexact X215
    isplitl [X216]; · iexact X216
    isplitl [X217]; · iexact X217
    isplitl [X218]; · iexact X218
    isplitl [X219]; · iexact X219
    isplitl [X220]; · iexact X220
    isplitl [X221]; · iexact X221
    isplitl [X222]; · iexact X222
    isplitl [X223]; · iexact X223
    isplitl [X224]; · iexact X224
    isplitl [X225]; · iexact X225
    isplitl [X226]; · iexact X226
    isplitl [X227]; · iexact X227
    isplitl [X228]; · iexact X228
    isplitl [X229]; · iexact X229
    isplitl [X230]; · iexact X230
    isplitl [X231]; · iexact X231
    isplitl [X232]; · iexact X232
    isplitl [X233]; · iexact X233
    isplitl [X234]; · iexact X234
    isplitl [X235]; · iexact X235
    isplitl [X236]; · iexact X236
    isplitl [X237]; · iexact X237
    isplitl [X238]; · iexact X238
    isplitl [X239]; · iexact X239
    isplitl [X240]; · iexact X240
    isplitl [X241]; · iexact X241
    isplitl [X242]; · iexact X242
    isplitl [X243]; · iexact X243
    isplitl [X244]; · iexact X244
    isplitl [X245]; · iexact X245
    isplitl [X246]; · iexact X246
    isplitl [X247]; · iexact X247
    isplitl [X248]; · iexact X248
    isplitl [X249]; · iexact X249
    isplitl [X250]; · iexact X250
    isplitl [X251]; · iexact X251
    isplitl [X252]; · iexact X252
    isplitl [X253]; · iexact X253
    isplitl [X254]; · iexact X254
    iexact X255
  isplitl [R0 R1 R2 R3 R4 R5 R6 R7 R8 R9 R10 R11 R12 R13 R14 R15 R16 R17 R18 R19 R20 R21 R22 R23 R24 R25 R26 R27 R28 R29 R30 R31 R32 R33 R34 R35 R36 R37 R38 R39 R40 R41 R42 R43 R44 R45 R46 R47 R48 R49 R50 R51 R52 R53 R54 R55 R56 R57 R58 R59 R60 R61 R62 R63 R64 R65 R66 R67 R68 R69 R70 R71 R72 R73 R74 R75 R76 R77 R78 R79 R80 R81 R82 R83 R84 R85 R86 R87 R88 R89 R90 R91 R92 R93 R94 R95 R96 R97 R98 R99 R100 R101 R102 R103 R104 R105 R106 R107 R108 R109 R110 R111 R112 R113 R114 R115 R116 R117 R118 R119 R120 R121 R122 R123 R124 R125 R126 R127 R128 R129 R130 R131 R132 R133 R134 R135 R136 R137 R138 R139 R140 R141 R142 R143 R144 R145 R146 R147 R148 R149 R150 R151 R152 R153 R154 R155 R156 R157 R158 R159 R160 R161 R162 R163 R164 R165 R166 R167 R168 R169 R170 R171 R172 R173 R174 R175 R176 R177 R178 R179 R180 R181 R182 R183 R184 R185 R186 R187 R188 R189 R190 R191 R192 R193 R194 R195 R196 R197 R198 R199 R200 R201 R202 R203 R204 R205 R206 R207 R208 R209 R210 R211 R212 R213 R214 R215 R216 R217 R218 R219 R220 R221 R222 R223 R224 R225 R226 R227 R228 R229 R230 R231 R232 R233 R234 R235 R236 R237 R238 R239 R240 R241 R242 R243 R244 R245 R246 R247 R248 R249 R250 R251 R252 R253 R254 R255]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    isplitl [R20]; · iexact R20
    isplitl [R21]; · iexact R21
    isplitl [R22]; · iexact R22
    isplitl [R23]; · iexact R23
    isplitl [R24]; · iexact R24
    isplitl [R25]; · iexact R25
    isplitl [R26]; · iexact R26
    isplitl [R27]; · iexact R27
    isplitl [R28]; · iexact R28
    isplitl [R29]; · iexact R29
    isplitl [R30]; · iexact R30
    isplitl [R31]; · iexact R31
    isplitl [R32]; · iexact R32
    isplitl [R33]; · iexact R33
    isplitl [R34]; · iexact R34
    isplitl [R35]; · iexact R35
    isplitl [R36]; · iexact R36
    isplitl [R37]; · iexact R37
    isplitl [R38]; · iexact R38
    isplitl [R39]; · iexact R39
    isplitl [R40]; · iexact R40
    isplitl [R41]; · iexact R41
    isplitl [R42]; · iexact R42
    isplitl [R43]; · iexact R43
    isplitl [R44]; · iexact R44
    isplitl [R45]; · iexact R45
    isplitl [R46]; · iexact R46
    isplitl [R47]; · iexact R47
    isplitl [R48]; · iexact R48
    isplitl [R49]; · iexact R49
    isplitl [R50]; · iexact R50
    isplitl [R51]; · iexact R51
    isplitl [R52]; · iexact R52
    isplitl [R53]; · iexact R53
    isplitl [R54]; · iexact R54
    isplitl [R55]; · iexact R55
    isplitl [R56]; · iexact R56
    isplitl [R57]; · iexact R57
    isplitl [R58]; · iexact R58
    isplitl [R59]; · iexact R59
    isplitl [R60]; · iexact R60
    isplitl [R61]; · iexact R61
    isplitl [R62]; · iexact R62
    isplitl [R63]; · iexact R63
    isplitl [R64]; · iexact R64
    isplitl [R65]; · iexact R65
    isplitl [R66]; · iexact R66
    isplitl [R67]; · iexact R67
    isplitl [R68]; · iexact R68
    isplitl [R69]; · iexact R69
    isplitl [R70]; · iexact R70
    isplitl [R71]; · iexact R71
    isplitl [R72]; · iexact R72
    isplitl [R73]; · iexact R73
    isplitl [R74]; · iexact R74
    isplitl [R75]; · iexact R75
    isplitl [R76]; · iexact R76
    isplitl [R77]; · iexact R77
    isplitl [R78]; · iexact R78
    isplitl [R79]; · iexact R79
    isplitl [R80]; · iexact R80
    isplitl [R81]; · iexact R81
    isplitl [R82]; · iexact R82
    isplitl [R83]; · iexact R83
    isplitl [R84]; · iexact R84
    isplitl [R85]; · iexact R85
    isplitl [R86]; · iexact R86
    isplitl [R87]; · iexact R87
    isplitl [R88]; · iexact R88
    isplitl [R89]; · iexact R89
    isplitl [R90]; · iexact R90
    isplitl [R91]; · iexact R91
    isplitl [R92]; · iexact R92
    isplitl [R93]; · iexact R93
    isplitl [R94]; · iexact R94
    isplitl [R95]; · iexact R95
    isplitl [R96]; · iexact R96
    isplitl [R97]; · iexact R97
    isplitl [R98]; · iexact R98
    isplitl [R99]; · iexact R99
    isplitl [R100]; · iexact R100
    isplitl [R101]; · iexact R101
    isplitl [R102]; · iexact R102
    isplitl [R103]; · iexact R103
    isplitl [R104]; · iexact R104
    isplitl [R105]; · iexact R105
    isplitl [R106]; · iexact R106
    isplitl [R107]; · iexact R107
    isplitl [R108]; · iexact R108
    isplitl [R109]; · iexact R109
    isplitl [R110]; · iexact R110
    isplitl [R111]; · iexact R111
    isplitl [R112]; · iexact R112
    isplitl [R113]; · iexact R113
    isplitl [R114]; · iexact R114
    isplitl [R115]; · iexact R115
    isplitl [R116]; · iexact R116
    isplitl [R117]; · iexact R117
    isplitl [R118]; · iexact R118
    isplitl [R119]; · iexact R119
    isplitl [R120]; · iexact R120
    isplitl [R121]; · iexact R121
    isplitl [R122]; · iexact R122
    isplitl [R123]; · iexact R123
    isplitl [R124]; · iexact R124
    isplitl [R125]; · iexact R125
    isplitl [R126]; · iexact R126
    isplitl [R127]; · iexact R127
    isplitl [R128]; · iexact R128
    isplitl [R129]; · iexact R129
    isplitl [R130]; · iexact R130
    isplitl [R131]; · iexact R131
    isplitl [R132]; · iexact R132
    isplitl [R133]; · iexact R133
    isplitl [R134]; · iexact R134
    isplitl [R135]; · iexact R135
    isplitl [R136]; · iexact R136
    isplitl [R137]; · iexact R137
    isplitl [R138]; · iexact R138
    isplitl [R139]; · iexact R139
    isplitl [R140]; · iexact R140
    isplitl [R141]; · iexact R141
    isplitl [R142]; · iexact R142
    isplitl [R143]; · iexact R143
    isplitl [R144]; · iexact R144
    isplitl [R145]; · iexact R145
    isplitl [R146]; · iexact R146
    isplitl [R147]; · iexact R147
    isplitl [R148]; · iexact R148
    isplitl [R149]; · iexact R149
    isplitl [R150]; · iexact R150
    isplitl [R151]; · iexact R151
    isplitl [R152]; · iexact R152
    isplitl [R153]; · iexact R153
    isplitl [R154]; · iexact R154
    isplitl [R155]; · iexact R155
    isplitl [R156]; · iexact R156
    isplitl [R157]; · iexact R157
    isplitl [R158]; · iexact R158
    isplitl [R159]; · iexact R159
    isplitl [R160]; · iexact R160
    isplitl [R161]; · iexact R161
    isplitl [R162]; · iexact R162
    isplitl [R163]; · iexact R163
    isplitl [R164]; · iexact R164
    isplitl [R165]; · iexact R165
    isplitl [R166]; · iexact R166
    isplitl [R167]; · iexact R167
    isplitl [R168]; · iexact R168
    isplitl [R169]; · iexact R169
    isplitl [R170]; · iexact R170
    isplitl [R171]; · iexact R171
    isplitl [R172]; · iexact R172
    isplitl [R173]; · iexact R173
    isplitl [R174]; · iexact R174
    isplitl [R175]; · iexact R175
    isplitl [R176]; · iexact R176
    isplitl [R177]; · iexact R177
    isplitl [R178]; · iexact R178
    isplitl [R179]; · iexact R179
    isplitl [R180]; · iexact R180
    isplitl [R181]; · iexact R181
    isplitl [R182]; · iexact R182
    isplitl [R183]; · iexact R183
    isplitl [R184]; · iexact R184
    isplitl [R185]; · iexact R185
    isplitl [R186]; · iexact R186
    isplitl [R187]; · iexact R187
    isplitl [R188]; · iexact R188
    isplitl [R189]; · iexact R189
    isplitl [R190]; · iexact R190
    isplitl [R191]; · iexact R191
    isplitl [R192]; · iexact R192
    isplitl [R193]; · iexact R193
    isplitl [R194]; · iexact R194
    isplitl [R195]; · iexact R195
    isplitl [R196]; · iexact R196
    isplitl [R197]; · iexact R197
    isplitl [R198]; · iexact R198
    isplitl [R199]; · iexact R199
    isplitl [R200]; · iexact R200
    isplitl [R201]; · iexact R201
    isplitl [R202]; · iexact R202
    isplitl [R203]; · iexact R203
    isplitl [R204]; · iexact R204
    isplitl [R205]; · iexact R205
    isplitl [R206]; · iexact R206
    isplitl [R207]; · iexact R207
    isplitl [R208]; · iexact R208
    isplitl [R209]; · iexact R209
    isplitl [R210]; · iexact R210
    isplitl [R211]; · iexact R211
    isplitl [R212]; · iexact R212
    isplitl [R213]; · iexact R213
    isplitl [R214]; · iexact R214
    isplitl [R215]; · iexact R215
    isplitl [R216]; · iexact R216
    isplitl [R217]; · iexact R217
    isplitl [R218]; · iexact R218
    isplitl [R219]; · iexact R219
    isplitl [R220]; · iexact R220
    isplitl [R221]; · iexact R221
    isplitl [R222]; · iexact R222
    isplitl [R223]; · iexact R223
    isplitl [R224]; · iexact R224
    isplitl [R225]; · iexact R225
    isplitl [R226]; · iexact R226
    isplitl [R227]; · iexact R227
    isplitl [R228]; · iexact R228
    isplitl [R229]; · iexact R229
    isplitl [R230]; · iexact R230
    isplitl [R231]; · iexact R231
    isplitl [R232]; · iexact R232
    isplitl [R233]; · iexact R233
    isplitl [R234]; · iexact R234
    isplitl [R235]; · iexact R235
    isplitl [R236]; · iexact R236
    isplitl [R237]; · iexact R237
    isplitl [R238]; · iexact R238
    isplitl [R239]; · iexact R239
    isplitl [R240]; · iexact R240
    isplitl [R241]; · iexact R241
    isplitl [R242]; · iexact R242
    isplitl [R243]; · iexact R243
    isplitl [R244]; · iexact R244
    isplitl [R245]; · iexact R245
    isplitl [R246]; · iexact R246
    isplitl [R247]; · iexact R247
    isplitl [R248]; · iexact R248
    isplitl [R249]; · iexact R249
    isplitl [R250]; · iexact R250
    isplitl [R251]; · iexact R251
    isplitl [R252]; · iexact R252
    isplitl [R253]; · iexact R253
    isplitl [R254]; · iexact R254
    iexact R255
  isplitl [D0 D1 D2 D3 D4 D5 D6 D7 D8 D9 D10 D11 D12 D13 D14 D15 D16 D17 D18 D19 D20 D21 D22 D23 D24 D25 D26 D27 D28 D29 D30 D31 D32 D33 D34 D35 D36 D37 D38 D39 D40 D41 D42 D43 D44 D45 D46 D47 D48 D49 D50 D51 D52 D53 D54 D55 D56 D57 D58 D59 D60 D61 D62 D63 D64 D65 D66 D67 D68 D69 D70 D71 D72 D73 D74 D75 D76 D77 D78 D79 D80 D81 D82 D83 D84 D85 D86 D87 D88 D89 D90 D91 D92 D93 D94 D95 D96 D97 D98 D99 D100 D101 D102 D103 D104 D105 D106 D107 D108 D109 D110 D111 D112 D113 D114 D115 D116 D117 D118 D119 D120 D121 D122 D123 D124 D125 D126 D127 D128 D129 D130 D131 D132 D133 D134 D135 D136 D137 D138 D139 D140 D141 D142 D143 D144 D145 D146 D147 D148 D149 D150 D151 D152 D153 D154 D155 D156 D157 D158 D159 D160 D161 D162 D163 D164 D165 D166 D167 D168 D169 D170 D171 D172 D173 D174 D175 D176 D177 D178 D179 D180 D181 D182 D183 D184 D185 D186 D187 D188 D189 D190 D191 D192 D193 D194 D195 D196 D197 D198 D199 D200 D201 D202 D203 D204 D205 D206 D207 D208 D209 D210 D211 D212 D213 D214 D215 D216 D217 D218 D219 D220 D221 D222 D223 D224 D225 D226 D227 D228 D229 D230 D231 D232 D233 D234 D235 D236 D237 D238 D239 D240 D241 D242 D243 D244 D245 D246 D247 D248 D249 D250 D251 D252 D253 D254 D255]
  · isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [D13]; · iexact D13
    isplitl [D14]; · iexact D14
    isplitl [D15]; · iexact D15
    isplitl [D16]; · iexact D16
    isplitl [D17]; · iexact D17
    isplitl [D18]; · iexact D18
    isplitl [D19]; · iexact D19
    isplitl [D20]; · iexact D20
    isplitl [D21]; · iexact D21
    isplitl [D22]; · iexact D22
    isplitl [D23]; · iexact D23
    isplitl [D24]; · iexact D24
    isplitl [D25]; · iexact D25
    isplitl [D26]; · iexact D26
    isplitl [D27]; · iexact D27
    isplitl [D28]; · iexact D28
    isplitl [D29]; · iexact D29
    isplitl [D30]; · iexact D30
    isplitl [D31]; · iexact D31
    isplitl [D32]; · iexact D32
    isplitl [D33]; · iexact D33
    isplitl [D34]; · iexact D34
    isplitl [D35]; · iexact D35
    isplitl [D36]; · iexact D36
    isplitl [D37]; · iexact D37
    isplitl [D38]; · iexact D38
    isplitl [D39]; · iexact D39
    isplitl [D40]; · iexact D40
    isplitl [D41]; · iexact D41
    isplitl [D42]; · iexact D42
    isplitl [D43]; · iexact D43
    isplitl [D44]; · iexact D44
    isplitl [D45]; · iexact D45
    isplitl [D46]; · iexact D46
    isplitl [D47]; · iexact D47
    isplitl [D48]; · iexact D48
    isplitl [D49]; · iexact D49
    isplitl [D50]; · iexact D50
    isplitl [D51]; · iexact D51
    isplitl [D52]; · iexact D52
    isplitl [D53]; · iexact D53
    isplitl [D54]; · iexact D54
    isplitl [D55]; · iexact D55
    isplitl [D56]; · iexact D56
    isplitl [D57]; · iexact D57
    isplitl [D58]; · iexact D58
    isplitl [D59]; · iexact D59
    isplitl [D60]; · iexact D60
    isplitl [D61]; · iexact D61
    isplitl [D62]; · iexact D62
    isplitl [D63]; · iexact D63
    isplitl [D64]; · iexact D64
    isplitl [D65]; · iexact D65
    isplitl [D66]; · iexact D66
    isplitl [D67]; · iexact D67
    isplitl [D68]; · iexact D68
    isplitl [D69]; · iexact D69
    isplitl [D70]; · iexact D70
    isplitl [D71]; · iexact D71
    isplitl [D72]; · iexact D72
    isplitl [D73]; · iexact D73
    isplitl [D74]; · iexact D74
    isplitl [D75]; · iexact D75
    isplitl [D76]; · iexact D76
    isplitl [D77]; · iexact D77
    isplitl [D78]; · iexact D78
    isplitl [D79]; · iexact D79
    isplitl [D80]; · iexact D80
    isplitl [D81]; · iexact D81
    isplitl [D82]; · iexact D82
    isplitl [D83]; · iexact D83
    isplitl [D84]; · iexact D84
    isplitl [D85]; · iexact D85
    isplitl [D86]; · iexact D86
    isplitl [D87]; · iexact D87
    isplitl [D88]; · iexact D88
    isplitl [D89]; · iexact D89
    isplitl [D90]; · iexact D90
    isplitl [D91]; · iexact D91
    isplitl [D92]; · iexact D92
    isplitl [D93]; · iexact D93
    isplitl [D94]; · iexact D94
    isplitl [D95]; · iexact D95
    isplitl [D96]; · iexact D96
    isplitl [D97]; · iexact D97
    isplitl [D98]; · iexact D98
    isplitl [D99]; · iexact D99
    isplitl [D100]; · iexact D100
    isplitl [D101]; · iexact D101
    isplitl [D102]; · iexact D102
    isplitl [D103]; · iexact D103
    isplitl [D104]; · iexact D104
    isplitl [D105]; · iexact D105
    isplitl [D106]; · iexact D106
    isplitl [D107]; · iexact D107
    isplitl [D108]; · iexact D108
    isplitl [D109]; · iexact D109
    isplitl [D110]; · iexact D110
    isplitl [D111]; · iexact D111
    isplitl [D112]; · iexact D112
    isplitl [D113]; · iexact D113
    isplitl [D114]; · iexact D114
    isplitl [D115]; · iexact D115
    isplitl [D116]; · iexact D116
    isplitl [D117]; · iexact D117
    isplitl [D118]; · iexact D118
    isplitl [D119]; · iexact D119
    isplitl [D120]; · iexact D120
    isplitl [D121]; · iexact D121
    isplitl [D122]; · iexact D122
    isplitl [D123]; · iexact D123
    isplitl [D124]; · iexact D124
    isplitl [D125]; · iexact D125
    isplitl [D126]; · iexact D126
    isplitl [D127]; · iexact D127
    isplitl [D128]; · iexact D128
    isplitl [D129]; · iexact D129
    isplitl [D130]; · iexact D130
    isplitl [D131]; · iexact D131
    isplitl [D132]; · iexact D132
    isplitl [D133]; · iexact D133
    isplitl [D134]; · iexact D134
    isplitl [D135]; · iexact D135
    isplitl [D136]; · iexact D136
    isplitl [D137]; · iexact D137
    isplitl [D138]; · iexact D138
    isplitl [D139]; · iexact D139
    isplitl [D140]; · iexact D140
    isplitl [D141]; · iexact D141
    isplitl [D142]; · iexact D142
    isplitl [D143]; · iexact D143
    isplitl [D144]; · iexact D144
    isplitl [D145]; · iexact D145
    isplitl [D146]; · iexact D146
    isplitl [D147]; · iexact D147
    isplitl [D148]; · iexact D148
    isplitl [D149]; · iexact D149
    isplitl [D150]; · iexact D150
    isplitl [D151]; · iexact D151
    isplitl [D152]; · iexact D152
    isplitl [D153]; · iexact D153
    isplitl [D154]; · iexact D154
    isplitl [D155]; · iexact D155
    isplitl [D156]; · iexact D156
    isplitl [D157]; · iexact D157
    isplitl [D158]; · iexact D158
    isplitl [D159]; · iexact D159
    isplitl [D160]; · iexact D160
    isplitl [D161]; · iexact D161
    isplitl [D162]; · iexact D162
    isplitl [D163]; · iexact D163
    isplitl [D164]; · iexact D164
    isplitl [D165]; · iexact D165
    isplitl [D166]; · iexact D166
    isplitl [D167]; · iexact D167
    isplitl [D168]; · iexact D168
    isplitl [D169]; · iexact D169
    isplitl [D170]; · iexact D170
    isplitl [D171]; · iexact D171
    isplitl [D172]; · iexact D172
    isplitl [D173]; · iexact D173
    isplitl [D174]; · iexact D174
    isplitl [D175]; · iexact D175
    isplitl [D176]; · iexact D176
    isplitl [D177]; · iexact D177
    isplitl [D178]; · iexact D178
    isplitl [D179]; · iexact D179
    isplitl [D180]; · iexact D180
    isplitl [D181]; · iexact D181
    isplitl [D182]; · iexact D182
    isplitl [D183]; · iexact D183
    isplitl [D184]; · iexact D184
    isplitl [D185]; · iexact D185
    isplitl [D186]; · iexact D186
    isplitl [D187]; · iexact D187
    isplitl [D188]; · iexact D188
    isplitl [D189]; · iexact D189
    isplitl [D190]; · iexact D190
    isplitl [D191]; · iexact D191
    isplitl [D192]; · iexact D192
    isplitl [D193]; · iexact D193
    isplitl [D194]; · iexact D194
    isplitl [D195]; · iexact D195
    isplitl [D196]; · iexact D196
    isplitl [D197]; · iexact D197
    isplitl [D198]; · iexact D198
    isplitl [D199]; · iexact D199
    isplitl [D200]; · iexact D200
    isplitl [D201]; · iexact D201
    isplitl [D202]; · iexact D202
    isplitl [D203]; · iexact D203
    isplitl [D204]; · iexact D204
    isplitl [D205]; · iexact D205
    isplitl [D206]; · iexact D206
    isplitl [D207]; · iexact D207
    isplitl [D208]; · iexact D208
    isplitl [D209]; · iexact D209
    isplitl [D210]; · iexact D210
    isplitl [D211]; · iexact D211
    isplitl [D212]; · iexact D212
    isplitl [D213]; · iexact D213
    isplitl [D214]; · iexact D214
    isplitl [D215]; · iexact D215
    isplitl [D216]; · iexact D216
    isplitl [D217]; · iexact D217
    isplitl [D218]; · iexact D218
    isplitl [D219]; · iexact D219
    isplitl [D220]; · iexact D220
    isplitl [D221]; · iexact D221
    isplitl [D222]; · iexact D222
    isplitl [D223]; · iexact D223
    isplitl [D224]; · iexact D224
    isplitl [D225]; · iexact D225
    isplitl [D226]; · iexact D226
    isplitl [D227]; · iexact D227
    isplitl [D228]; · iexact D228
    isplitl [D229]; · iexact D229
    isplitl [D230]; · iexact D230
    isplitl [D231]; · iexact D231
    isplitl [D232]; · iexact D232
    isplitl [D233]; · iexact D233
    isplitl [D234]; · iexact D234
    isplitl [D235]; · iexact D235
    isplitl [D236]; · iexact D236
    isplitl [D237]; · iexact D237
    isplitl [D238]; · iexact D238
    isplitl [D239]; · iexact D239
    isplitl [D240]; · iexact D240
    isplitl [D241]; · iexact D241
    isplitl [D242]; · iexact D242
    isplitl [D243]; · iexact D243
    isplitl [D244]; · iexact D244
    isplitl [D245]; · iexact D245
    isplitl [D246]; · iexact D246
    isplitl [D247]; · iexact D247
    isplitl [D248]; · iexact D248
    isplitl [D249]; · iexact D249
    isplitl [D250]; · iexact D250
    isplitl [D251]; · iexact D251
    isplitl [D252]; · iexact D252
    isplitl [D253]; · iexact D253
    isplitl [D254]; · iexact D254
    iexact D255
  iexists _; iexact HO

end Cert.KernelIdeal.Exec1

end
-- ==== Proof.Body1.lean ====
import proofs.«409488_j73529840107771_1_alg».proof.Proof.Exec1
import proofs.«409488_j73529840107771_1_alg».proof.Proof.ExecOffs1
import proofs.«409488_j73529840107771_1_alg».proof.Proof.Rows1
import proofs.«409488_j73529840107771_1_alg».proof.Proof.RowsVal1
import proofs.«409488_j73529840107771_1_alg».proof.Proof.Chains

noncomputable section

namespace Cert.KernelIdeal.Body1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.KernelIdeal.Iface Cert.KernelIdeal.Rows1 Cert.KernelIdeal.Exec1

theorem coords_val : ∀ t : Fin grid1.N, (grid1.coords t 0).val = t.val := by decide

set_option maxHeartbeats 8000000 in
/-- One grid step of the second kernel: split the block into rows and the source into read shares, run the copies, join the rows; the block then reads as block t of the gathered matrix. -/
theorem kernelRun1 [∀ e, Nonempty (Elt F e)] (c : Dev nD) (t : Fin grid1.N)
    (M3 : Memref sig .tc .vmem S256x1024 .f32) (h3 : M3.IsWhole)
    (pf : Bf (F := F) c (Memref.whole main_arg2)) (hpf : ∀ j, (pf j).toNat < 32768)
    (f : Bf (F := F) c (Memref.whole main_v12))
    (W : Waits sig Unit) (K : PUnit → sProp 𝕄) :
    iprop((∃ d, owns (c : Thread nD τ) M3 fullShare d)
        ∗ Pipeline.ownSems0 (Ix := Unit) (Name := ℕ) (U := Pipeline.UD sig nD τ) (Lvl := ℕ) (Val := Elt F) (τ := τ) osem1 c
        ∗ pt c (Memref.whole main_arg2) pf ∗ pt c (Memref.whole main_v12) f ∗ owes (c : Thread nD τ) 0 W
        ∗ (iprop(owns (c : Thread nD τ) M3 fullShare (Cert.Spec.gatherRows t.val pf f)
              ∗ Pipeline.ownSems0 (Ix := Unit) (Name := ℕ) (U := Pipeline.UD sig nD τ) (Lvl := ℕ) (Val := Elt F) (τ := τ) osem1 c
              ∗ pt c (Memref.whole main_arg2) pf ∗ pt c (Memref.whole main_v12) f ∗ (∃ W', owes (c : Thread nD τ) 0 W')) -∗ K ⟨⟩))
      ⊢ wp frame (wpE (defs₀ (F := F)) Variants.none c none) Set.univ
          (cc1__gather_kernel (grid1.coords t) (Memref.whole main_arg2) (Memref.isWhole_whole _) (Memref.whole main_v12) (Memref.isWhole_whole _) M3 h3 cc1_scratch0) K := by
  rw [cells_eq]
  unfold owns
  iintro ⟨⟨%d, %d0, -, Hd⟩, Hsems, Htbl, Hsrc, HO, Hk⟩
  ihave HR := (rows_split c M3 d0 h3) $$ Hd
  ihave HT := (toks_split c f) $$ Hsrc
  icases HT with ⟨⟨%Rm, HRm, %hback⟩, HX⟩
  iapply (run c t M3 h3 pf hpf f d0 W K)
  isplitl [Htbl]; · iexact Htbl
  isplitl [HX]; · iexact HX
  isplitl [HR]; · iexact HR
  isplitl [Hsems]
  · iapply (Entails.of_eq (Cert.Chains.bigSep_fin256 (fun r h => sv c (cc1_scratch0.ix (ValueIdx.ix1 ⟨r, h⟩)))))
    iexact Hsems
  isplitl [HO]; · iexact HO
  iintro ⟨Htbl, HXc, HRc, HDc, HO'⟩
  ihave Hsrc' := hback $$ [HRm HXc]
  · isplitl [HRm]; · iexact HRm
    iexact HXc
  ihave HJ := (rows_join c M3 h3 (landed c M3 (offs t) (hin t) pf hpf f d0)) $$ [HRc]
  · iexact HRc
  icases HJ with ⟨%G, %hG, HG⟩
  iapply Hk
  isplitl [HG]
  · iexists G; isplitr
    · ipureintro
      rw [← coords_val t]
      exact landed_read c M3 (offs t) (hin t) pf hpf f d0 h3 (grid1.coords t 0).val (grid1.coords t 0).isLt (hoffs t) G hG
    · iexact HG
  isplitl [HDc]
  · iapply (Entails.of_eq (Cert.Chains.bigSep_fin256 (fun r h => sv c (cc1_scratch0.ix (ValueIdx.ix1 ⟨r, h⟩)))).symm)
    iexact HDc
  isplitl [Htbl]; · iexact Htbl
  isplitl [Hsrc']; · iexact Hsrc'
  iexact HO'

end Cert.KernelIdeal.Body1

end
-- ==== Proof.Region1.lean ====
import proofs.«409488_j73529840107771_1_alg».proof.Proof.Body1

noncomputable section

namespace Cert.KernelIdeal.Region1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.KernelIdeal.Iface

variable (V : (c : Dev nD) → (b : Ref sig .tc) → Buf (Elt F) ((c : Thread nD τ).loc b))

def H1 : Finset (Ref sig .tc) := {main_v12, main_arg2}

def dat1 (a : (pcfg1 (F := F)).Adm) (c : Dev nD) : Dat τ (Elt F) Unit ℕ (Pipeline.UD sig nD τ) ℕ (cfg1 a) c where
  A w := V c (Pipeline.arrRef spec1 w)
  after w t := match w with
    | ⟨0, _⟩ => Cert.Spec.gatherRows t.val (V c main_arg2) (V c main_v12)
  Φ _ := Pipeline.ΦD osem1 spec1 H1 V c
  q _ := fullShare
  owed _ := 0

abbrev stageAt (a : (pcfg1 (F := F)).Adm) (t : Fin (cfg1 a).N) : Memref sig .tc .vmem S256x1024 .f32 :=
  spec1_0.stage ((cfg1 a).slots t 0)

theorem stageAt_whole (a : (pcfg1 (F := F)).Adm) (t : Fin (cfg1 a).N) : (stageAt a t).IsWhole :=
  hstage1_0 (((cfg1 a).slots t 0).cast nbuf1_0)

theorem call_eq (a : (pcfg1 (F := F)).Adm) (t : Fin (cfg1 a).N) :
    defs₀ (F := F) .tc (cfg1 a).body ((cfg1 a).bodyArgs t ((cfg1 a).slots t))
      = cc1__gather_kernel (grid1.coords t) (Memref.whole main_arg2) (Memref.isWhole_whole _) (Memref.whole main_v12)
          (Memref.isWhole_whole _) (stageAt a t) (stageAt_whole a t) cc1_scratch0 := rfl

theorem hbm_eq (c : Dev nD) :
    (bigSep H1 (fun b => ((c : Thread nD τ).loc b) ↦{fullShare} V c b) : sProp 𝕄)
      = iprop(pt c (Memref.whole main_v12) (V c main_v12) ∗ pt c (Memref.whole main_arg2) (V c main_arg2)) := by
  rw [BI.bigSep_eq_bigSepL_of_eq [main_v12, main_arg2] (by decide) (by decide)]; rfl

theorem inv_eq (c : Dev nD) :
    (Pipeline.ΦD osem1 spec1 H1 V c : sProp 𝕄)
      = iprop(Pipeline.scopedRest (Ix := Unit) (Name := ℕ) (U := Pipeline.UD sig nD τ) (Lvl := ℕ) (Val := Elt F) spec1 c
          ∗ (∃ r, prngReg c r)
          ∗ Pipeline.ownSems0 (Ix := Unit) (Name := ℕ) (U := Pipeline.UD sig nD τ) (Lvl := ℕ) (Val := Elt F) (τ := τ) osem1 c
          ∗ pt c (Memref.whole main_v12) (V c main_v12) ∗ pt c (Memref.whole main_arg2) (V c main_arg2)) := by
  rw [Pipeline.ΦD_eq, hbm_eq]

def handed (a : (pcfg1 (F := F)).Adm) (c : Dev nD) (t : Fin (cfg1 a).N) : sProp 𝕄 :=
  iprop((dat1 V a c).Φ t.castSucc ∗ (dat1 V a c).owesAt () t.castSucc
    ∗ (∃ d, owns (c : Thread nD τ) (stageAt a t) fullShare ((dat1 V a c).before 0 t d)))

def returned (a : (pcfg1 (F := F)).Adm) (c : Dev nD) (t : Fin (cfg1 a).N) : sProp 𝕄 :=
  iprop((dat1 V a c).Φ t.succ ∗ (dat1 V a c).owesAt () t.succ
    ∗ owns (c : Thread nD τ) (stageAt a t) fullShare ((dat1 V a c).after 0 t))

theorem step_sound [∀ e, Nonempty (Elt F e)] (a : (pcfg1 (F := F)).Adm) (c : Dev nD)
    (hpf : ∀ j, (V c main_arg2 j).toNat < 32768) (t : Fin (cfg1 a).N)
    (p : Prog (TpuEff nD τ sig (Elt F) Λ₀ .tc) PUnit)
    (hp : p = cc1__gather_kernel (grid1.coords t) (Memref.whole main_arg2) (Memref.isWhole_whole _) (Memref.whole main_v12)
        (Memref.isWhole_whole _) (stageAt a t) (stageAt_whole a t) cc1_scratch0) :
    handed V a c t ⊢ wp frame (wpE (defs₀ (F := F)) Variants.none c none) Set.univ p (fun _ => returned V a c t) := by
  subst hp
  unfold handed returned
  rw [show (dat1 V a c).Φ t.succ = Pipeline.ΦD osem1 spec1 H1 V c from rfl,
    show (dat1 V a c).Φ t.castSucc = Pipeline.ΦD osem1 spec1 H1 V c from rfl, inv_eq,
    show (dat1 V a c).after 0 t = Cert.Spec.gatherRows t.val (V c main_arg2) (V c main_v12) from rfl]
  unfold Dat.owesAt Pipeline.owesWithin
  rw [show (dat1 V a c).owed t.castSucc = 0 from rfl, show (dat1 V a c).owed t.succ = 0 from rfl]
  iintro ⟨⟨Hrest, Hreg, Hcells, Hsrc, Htab⟩, ⟨%W, -, Howes⟩, ⟨%d, Hout⟩⟩
  iapply (Body1.kernelRun1 c t (stageAt a t) (stageAt_whole a t) (V c main_arg2) hpf (V c main_v12) W _)
  isplitl [Hout]; · iexists _; iexact Hout
  isplitl [Hcells]; · iexact Hcells
  isplitl [Htab]; · iexact Htab
  isplitl [Hsrc]; · iexact Hsrc
  isplitl [Howes]; · iexact Howes
  iintro ⟨Hout, Hcells, Htab, Hsrc, ⟨%W', Howes⟩⟩
  isplitl [Hrest Hreg Hcells Hsrc Htab]
  · isplitl [Hrest]; · iexact Hrest
    isplitl [Hreg]; · iexact Hreg
    isplitl [Hcells]; · iexact Hcells
    isplitl [Hsrc]; · iexact Hsrc
    iexact Htab
  isplitl [Howes]
  · iexists W'; isplitr; · ipureintro; exact fun _ _ => Or.inl trivial
    iexact Howes
  iexact Hout

theorem body_obligation1 [∀ e, Nonempty (Elt F e)] (a : (pcfg1 (F := F)).Adm) (c : Dev nD)
    (hpf : ∀ j, (V c main_arg2 j).toNat < 32768) :
    BodyObligation (dat1 (F := F) V a c) (defs₀ (F := F)) Variants.none () Set.univ := fun t => by
  rw [bigSep_W1, bigSep_W1]

  generalize hp : defs₀ (F := F) .tc (cfg1 a).body ((cfg1 a).bodyArgs t ((cfg1 a).slots t)) = p
  exact step_sound V a c hpf t p (hp.symm.trans (call_eq a t))

end Cert.KernelIdeal.Region1

end
-- ==== Proof.Launch.lean ====
import proofs.«409488_j73529840107771_1_alg».proof.Proof.Region0
import proofs.«409488_j73529840107771_1_alg».proof.Proof.Region1
import proofs.«409488_j73529840107771_1_alg».proof.Proof.Gen.KernelIdeal.Regions
import Idealize.ShloMosaic.Lib.Pipeline.Regions
import Idealize.ShloMosaic.Lib.Pipeline.RegionsLoop
import Idealize.ShloMosaic.Lib.Pipeline.Frame
import Idealize.ShloMosaic.Lib.Pipeline.FrameSuffix

noncomputable section

namespace Cert.KernelIdeal.Launch

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

open Cert.KernelIdeal.Iface Cert.KernelIdeal.Region0 Cert.KernelIdeal.Region1

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

def adm : (p : Fin 2) → (pcfgs (F := F) p).Adm
  | ⟨0, _⟩ => ⟨fun k => m (((0 : Dev nD) : Thread nD τ).loc (pre0.ref k)), trivial⟩
  | ⟨1, _⟩ => ⟨fun k => m (((0 : Dev nD) : Thread nD τ).loc (pre1.ref k)), trivial⟩
  | ⟨_ + 2, h⟩ => absurd h (Nat.not_lt.2 (Nat.le_add_left _ _))

abbrev W0 (c : Dev nD) : Valuation τ sig (Elt F) := fun b => m (c, b)

abbrev W1 (c : Dev nD) : Valuation τ sig (Elt F) := StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) (adm m 0) c).arrAt w (cfg0 (adm m 0)).N
abbrev V2 : (c : Dev nD) → (b : Ref sig .tc) → Buf (Elt F) ((c : Thread nD τ).loc b) := fun c b => W2 m c b

abbrev W3 (c : Dev nD) : Valuation τ sig (Elt F) := StableHlo.after hostOps1 (W2 m c)

abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) (adm m 1) c).arrAt w (cfg1 (adm m 1)).N
abbrev V4 : (c : Dev nD) → (b : Ref sig .tc) → Buf (Elt F) ((c : Thread nD τ).loc b) := fun c b => W4 m c b

abbrev W5 (c : Dev nD) : Valuation τ sig (Elt F) := StableHlo.after hostOps2 (W4 m c)

def pdats : (p : Fin 2) → (c : Dev nD) → Dat τ (Elt F) Unit ℕ (Pipeline.UD sig nD τ) ℕ (Pipeline.pin (pcfgs (F := F)) (adm m) p) c
  | ⟨0, _⟩ => fun c => dat0 (V1 m) (adm m 0) c
  | ⟨1, _⟩ => fun c => dat1 (V3 m) (adm m 1) c
  | ⟨_ + 2, h⟩ => absurd h (Nat.not_lt.2 (Nat.le_add_left _ _))

theorem W2_arr (c : Dev nD) (w : Fin (cfg0 (adm m 0)).W) :
    W2 m c (Proc.devRef .tc (Pipeline.arrRef spec0 w)) = (pdats m 0 c).arrAt w (cfg0 (adm m 0)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin (cfg1 (adm m 1)).W) :
    W4 m c (Proc.devRef .tc (Pipeline.arrRef spec1 w)) = (pdats m 1 c).arrAt w (cfg1 (adm m 1)).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

theorem W5_unwritten (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m c (Proc.devRef .tc r) = m ((c : Thread nD τ).loc r) :=
  (W5_of m c r h2).trans <| (W4_of_ne m c r ha1).trans <| (W3_of m c r h1).trans <| (W2_of_ne m c r ha0).trans <| (W1_of m c r h0).trans rfl

theorem W5_main_arg0 (c : Dev nD) : W5 m c (Proc.devRef .tc main_arg0) = m ((c : Thread nD τ).loc main_arg0) :=
  W5_unwritten m c main_arg0 (by decide) (by decide) (by decide) (by decide) (by decide)
theorem W5_main_arg1 (c : Dev nD) : W5 m c (Proc.devRef .tc main_arg1) = m ((c : Thread nD τ).loc main_arg1) :=
  W5_unwritten m c main_arg1 (by decide) (by decide) (by decide) (by decide) (by decide)
theorem W5_main_arg2 (c : Dev nD) : W5 m c (Proc.devRef .tc main_arg2) = m ((c : Thread nD τ).loc main_arg2) :=
  W5_unwritten m c main_arg2 (by decide) (by decide) (by decide) (by decide) (by decide)
theorem W5_main_arg3 (c : Dev nD) : W5 m c (Proc.devRef .tc main_arg3) = m ((c : Thread nD τ).loc main_arg3) :=
  W5_unwritten m c main_arg3 (by decide) (by decide) (by decide) (by decide) (by decide)

theorem V1_main_arg3 (c : Dev nD) : V1 m c main_arg3 = m ((c : Thread nD τ).loc main_arg3) :=
  (W1_of m c main_arg3 (by decide)).trans rfl

theorem V3_main_arg2 (c : Dev nD) : V3 m c main_arg2 = m ((c : Thread nD τ).loc main_arg2) :=
  (W3_of m c main_arg2 (by decide)).trans <| (W2_of_ne m c main_arg2 (by decide)).trans <| (W1_of m c main_arg2 (by decide)).trans rfl

theorem dev_eq (c : Dev nD) : c = 0 := Subsingleton.elim _ _

theorem adm0_eq (c : Dev nD) : (adm m 0).1 0 = V1 m c main_arg3 := by
  rw [V1_main_arg3, dev_eq c]; rfl

theorem adm1_eq (c : Dev nD) : (adm m 1).1 0 = V3 m c main_arg2 := by
  rw [V3_main_arg2, dev_eq c]; rfl

theorem W2_main_v3 (c : Dev nD) : W2 m c (Proc.devRef .tc main_v3) = (pdats m 0 c).arrAt 1 (cfg0 (adm m 0)).N := W2_arr m c 1

theorem W4_main_v13 (c : Dev nD) : W4 m c (Proc.devRef .tc main_v13) = (pdats m 1 c).arrAt 0 (cfg1 (adm m 1)).N := W4_arr m c 0

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W5 m c) ∗ ∃ r, prngReg c r)

theorem ownSemFacts0 : Pipeline.OwnSemFacts spec0 osem0 := by decide
theorem ownSemFacts1 : Pipeline.OwnSemFacts spec1 osem1 := by decide
theorem H0_sub : H0 ⊆ Pipeline.restRefs sig spec0 := by decide
theorem H1_sub : H1 ⊆ Pipeline.restRefs sig spec1 := by decide

theorem bigSep_H0 (Φ : Ref sig .tc → sProp 𝕄) : bigSep H0 Φ = iprop(Φ main_v0 ∗ Φ main_arg3) :=
  BI.bigSep_eq_bigSepL_of_eq [main_v0, main_arg3] (by decide) (by decide) Φ

theorem bigSep_H1 (Φ : Ref sig .tc → sProp 𝕄) : bigSep H1 Φ = iprop(Φ main_v12 ∗ Φ main_arg2) :=
  BI.bigSep_eq_bigSepL_of_eq [main_v12, main_arg2] (by decide) (by decide) Φ

theorem prefHeld0 (c : Dev nD) : (Pipeline.prefHeld pre0 c (fun _ => fullShare) (adm m 0).1 : sProp 𝕄)
    = (((c : Thread nD τ).loc main_arg3) ↦{fullShare} V1 m c main_arg3) := by
  unfold Pipeline.prefHeld
  rw [bigSep_univ_eq_bigSepL [(0 : Fin 1)] (by decide) (by decide), ← adm0_eq m c]
  rfl

theorem prefHeld1 (c : Dev nD) : (Pipeline.prefHeld pre1 c (fun _ => fullShare) (adm m 1).1 : sProp 𝕄)
    = (((c : Thread nD τ).loc main_arg2) ↦{fullShare} V3 m c main_arg2) := by
  unfold Pipeline.prefHeld
  rw [bigSep_univ_eq_bigSepL [(0 : Fin 1)] (by decide) (by decide), ← adm1_eq m c]
  rfl

theorem hF0 (c : Dev nD) (w : Fin (cfg0 (adm m 0)).W) : (pdats m 0 c).arrAt w (cfg0 (adm m 0)).N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin (cfg1 (adm m 1)).W) : (pdats m 1 c).arrAt w (cfg1 (adm m 1)).N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

variable [∀ e, Nonempty (Elt F e)]

set_option backward.isDefEq.respectTransparency.types false in

def reg0 (h3 : ∀ (c : Dev nD) j, (m ((c : Thread nD τ).loc main_arg3) j).toNat < 32768) :
    Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := Fin 256
  osem := osem0
  ho := ownSemFacts0
  hbody c := (body_obligation0 (V1 m) (adm m 0) c (fun j => by rw [V1_main_arg3]; exact h3 c j)).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop((∃ r, prngReg c r) ∗ Pipeline.ownSems0 (Ix := Unit) (Name := ℕ) (U := Pipeline.UD sig nD τ) (Lvl := ℕ) (Val := Elt F) (τ := τ) osem0 c
    ∗ (((c : Thread nD τ).loc main_v0) ↦{fullShare} V1 m c main_v0))
  Y c := iprop((∃ r, prngReg c r) ∗ (bigSep H0 fun b => (((c : Thread nD τ)).loc b) ↦{fullShare} V1 m c b))
  Z c := bigSep (Pipeline.restRefs sig spec0 \ H0) fun b => (((c : Thread nD τ)).loc b) ↦{fullShare} V1 m c b
  hentry c := by
    have hsplit := Pipeline.arrays_of_unscopedBufs (p := 0) (pcfgs (F := F)) (adm m) (pdats m) (launch0 (F := F)).win (launch0 (F := F)).arr_whole c
      ((pdats m 0 c).share_full fun _ => rfl) (V1 m c) fun _ => rfl
    rw [Pipeline.unscopedBufs_held] at hsplit
    have hH := Pipeline.unscopedRest_sdiff (Val := Elt F) spec0 H0 H0_sub c (V1 m c)
    have hL := bigSep_H0 (F := F) fun b => (((c : Thread nD τ)).loc b) ↦{fullShare} V1 m c b
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq hL) $$ HH
    icases H'' with ⟨Hsrc, Htbl⟩
    imodintro
    isplitl [Ha]; · iexact Ha
    isplitl [Htbl]
    · iapply (Entails.of_eq (prefHeld0 m c).symm); iexact Htbl
    isplitl [HO]
    · unfold Pipeline.Dat.owesAt Pipeline.owesWithin
      icases HO with ⟨%W, HO⟩; iexists W; isplitr; · ipureintro; exact fun _ _ => Or.inl trivial
      iexact HO
    isplitl [Hp Hos Hsrc]
    · isplitl [Hp]; · iexact Hp
      isplitl [Hos]; · iexact Hos
      iexact Hsrc
    iexact HR
  hin c := by
    rw [show (pdats m 0 c).Φ 0 = Pipeline.ΦD osem0 spec0 H0 (V1 m) c from rfl, Pipeline.ΦD_eq]
    have hL := bigSep_H0 (F := F) fun b => (((c : Thread nD τ)).loc b) ↦{fullShare} V1 m c b
    iintro ⟨⟨Hp, Ho, Hsrc⟩, Htbl, Hr⟩
    ihave Htbl' := (Entails.of_eq (prefHeld0 m c)) $$ Htbl
    isplitl [Hr]; · iexact Hr
    isplitl [Hp]; · iexact Hp
    isplitl [Ho]; · iexact Ho
    iapply (Entails.of_eq hL.symm)
    isplitl [Hsrc]; · iexact Hsrc
    iexact Htbl'
  hout c := by
    rw [show (pdats m 0 c).Φ (Fin.last _) = Pipeline.ΦD osem0 spec0 H0 (V1 m) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m 0 c).share_full fun _ => rfl)
      (V1 m c) (V2 m c) ((pdats m 0 c).arrAt · (cfg0 (adm m 0)).N) (hF0 m c) (hrest0 m c)
    rw [Pipeline.unscopedBufs_held] at hjoin
    have hH := Pipeline.unscopedRest_sdiff (Val := Elt F) spec0 H0 H0_sub c (V1 m c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 (h2 : ∀ (c : Dev nD) j, (m ((c : Thread nD τ).loc main_arg2) j).toNat < 32768) :
    Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := Fin 256
  osem := osem1
  ho := ownSemFacts1
  hbody c := (body_obligation1 (V3 m) (adm m 1) c (fun j => by rw [V3_main_arg2]; exact h2 c j)).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop((∃ r, prngReg c r) ∗ Pipeline.ownSems0 (Ix := Unit) (Name := ℕ) (U := Pipeline.UD sig nD τ) (Lvl := ℕ) (Val := Elt F) (τ := τ) osem1 c
    ∗ (((c : Thread nD τ).loc main_v12) ↦{fullShare} V3 m c main_v12))
  Y c := iprop((∃ r, prngReg c r) ∗ (bigSep H1 fun b => (((c : Thread nD τ)).loc b) ↦{fullShare} V3 m c b))
  Z c := bigSep (Pipeline.restRefs sig spec1 \ H1) fun b => (((c : Thread nD τ)).loc b) ↦{fullShare} V3 m c b
  hentry c := by
    have hsplit := Pipeline.arrays_of_unscopedBufs (p := 1) (pcfgs (F := F)) (adm m) (pdats m) (launch1 (F := F)).win (launch1 (F := F)).arr_whole c
      ((pdats m 1 c).share_full fun _ => rfl) (V3 m c) fun _ => rfl
    rw [Pipeline.unscopedBufs_held] at hsplit
    have hH := Pipeline.unscopedRest_sdiff (Val := Elt F) spec1 H1 H1_sub c (V3 m c)
    have hL := bigSep_H1 (F := F) fun b => (((c : Thread nD τ)).loc b) ↦{fullShare} V3 m c b
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq hL) $$ HH
    icases H'' with ⟨Hsrc, Htbl⟩
    imodintro
    isplitl [Ha]; · iexact Ha
    isplitl [Htbl]
    · iapply (Entails.of_eq (prefHeld1 m c).symm); iexact Htbl
    isplitl [HO]
    · unfold Pipeline.Dat.owesAt Pipeline.owesWithin
      icases HO with ⟨%W, HO⟩; iexists W; isplitr; · ipureintro; exact fun _ _ => Or.inl trivial
      iexact HO
    isplitl [Hp Hos Hsrc]
    · isplitl [Hp]; · iexact Hp
      isplitl [Hos]; · iexact Hos
      iexact Hsrc
    iexact HR
  hin c := by
    rw [show (pdats m 1 c).Φ 0 = Pipeline.ΦD osem1 spec1 H1 (V3 m) c from rfl, Pipeline.ΦD_eq]
    have hL := bigSep_H1 (F := F) fun b => (((c : Thread nD τ)).loc b) ↦{fullShare} V3 m c b
    iintro ⟨⟨Hp, Ho, Hsrc⟩, Htbl, Hr⟩
    ihave Htbl' := (Entails.of_eq (prefHeld1 m c)) $$ Htbl
    isplitl [Hr]; · iexact Hr
    isplitl [Hp]; · iexact Hp
    isplitl [Ho]; · iexact Ho
    iapply (Entails.of_eq hL.symm)
    isplitl [Hsrc]; · iexact Hsrc
    iexact Htbl'
  hout c := by
    rw [show (pdats m 1 c).Φ (Fin.last _) = Pipeline.ΦD osem1 spec1 H1 (V3 m) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m) ((pdats m 1 c).share_full fun _ => rfl)
      (V3 m c) (V4 m c) ((pdats m 1 c).arrAt · (cfg1 (adm m 1)).N) (hF1 m c) (hrest1 m c)
    rw [Pipeline.unscopedBufs_held] at hjoin
    have hH := Pipeline.unscopedRest_sdiff (Val := Elt F) spec1 H1 H1_sub c (V3 m c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (h2 : ∀ (c : Dev nD) j, (m ((c : Thread nD τ).loc main_arg2) j).toNat < 32768)
  (h3 : ∀ (c : Dev nD) j, (m ((c : Thread nD τ).loc main_arg3) j).toNat < 32768)

abbrev segs : List (Pipeline.Seg (pcfgs (F := F)) (adm m) (pdats m) () defs₀ 𝒱₀ L lv) :=
  [ .host (hseg hostOps0 hostOps0_sub hostOps0_fresh (W0 m)),
    .region (reg0 m h3),
    .host (hseg hostOps1 hostOps1_sub hostOps1_fresh (W2 m)),
    .region (reg1 m h2),
    .host (hseg hostOps2 hostOps2_sub hostOps2_fresh (W4 m)) ]

theorem main_run (c : Dev nD) : main (F := F) c = Pipeline.Seg.run (segs m h2 h3) := (main_chain c).trans (by chain_rfl)

theorem last_link (c : Dev nD) :
    iprop(StableHlo.held (c : Thread nD τ) (Pipeline.ucRefs τ sig) (W5 m c) ∗ R c)
      ⊢ (iprop(Tₙ m c ∗ ∃ W, owes (c : Thread nD τ) (0 : CellTallies nD τ sig Unit) W) : sProp 𝕄) := sep_assoc'

set_option backward.isDefEq.respectTransparency.types false in

theorem run_main (h2 : ∀ (c : Dev nD) j, (m ((c : Thread nD τ).loc main_arg2) j).toNat < 32768)
    (h3 : ∀ (c : Dev nD) j, (m ((c : Thread nD τ).loc main_arg3) j).toNat < 32768) : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) (adm m) (pdats m) () (cellOf_inj (adm m)) embL defs₀ 𝒱₀ L lv m ρ main (segs m h2 h3)
    (fun c Q => by rw [main_run m h2 h3 c])
    (by simp only [segs, Pipeline.Seg.pipes_host, Pipeline.Seg.pipes_region, Pipeline.Seg.pipes_nil]; decide)
    (O₀ := 0) (hL := fun _ _ => rfl) (G := fun _ => (BI.emp : sProp 𝕄))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      rw [BI.bigSep_emp_const]
      iintro Hu
      ihave H := (ownU_pair _ _) $$ Hu
      icases H with ⟨HP, -⟩
      imodintro
      isplitl [HP]; · iexact HP
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_link m c⟩)
    (hinit := by
      refine Pipeline.initEach L lv fun c => ?_
      have hheld := Pipeline.unscopedBufs_held (Ix := Unit) (Name := ℕ) (U := Pipeline.UD sig nD τ) (Lvl := ℕ) c (W0 m c)
      iintro ⟨⟨Hbufs, -, Howes, -, Hreg, -⟩, -⟩
      imodintro
      isplitl [Hbufs]; · iapply (Entails.of_eq hheld); iexact Hbufs
      isplitl [Hreg]; · iexists (ρ c); iexact Hreg
      iexists ∅; iexact Howes)
    (QY := fun c s => ∀ b ∈ Pipeline.ucRefs τ sig, s.mem (((c : Thread nD τ)).1, b) = W5 m c b)
    (hfin := fun c s' => by
      iintro ⟨⟨Hbufs, -⟩, Hst⟩
      unfold StableHlo.held
      imodintro
      iapply (pointsTo_read_all (Pipeline.ucRefs τ sig) (fun b => (((c : Thread nD τ)).1, b)) (W5 m c) s')
      isplitl [Hbufs]; · iexact Hbufs
      iexact Hst)
    (hQ := fun s h => h)

end Cert.KernelIdeal.Launch

end
-- ==== Proof.IfaceW.lean ====
import proofs.«409488_j73529840107771_1_alg».proof.Proof.Gen.Kernel.Skeleton
import proofs.«409488_j73529840107771_1_alg».proof.Proof.Gen.Kernel.Launch
import proofs.«409488_j73529840107771_1_alg».proof.Proof.Spec
import Idealize.ShloMosaic.Lib.Tactic
import Idealize.ShloMosaic.Lib.Batch
import Idealize.ShloMosaic.Lib.Pipeline.Kit
import Idealize.ShloMosaic.Lib.Pipeline.Frame

noncomputable section

namespace Cert.Kernel.Iface

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev osem0 : Fin 256 → SemLoc sig := fun k => SemLoc.dma (cc0_scratch1.ix (ValueIdx.ix1 k))

abbrev osem1 : Fin 256 → SemLoc sig := fun k => SemLoc.dma (cc1_scratch0.ix (ValueIdx.ix1 k))

end Cert.Kernel.Iface

end
-- ==== Proof.RowsDef0W.lean ====
import proofs.«409488_j73529840107771_1_alg».proof.Proof.IfaceW

noncomputable section

namespace Cert.Kernel.Rows0

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.Kernel.Iface

abbrev TBL : Memref sig .tc .smem S16384 .i32 := Memref.whole main_arg3
abbrev SRC : Memref sig .tc .hbm S32768x1024 .f32 := Memref.whole main_v0
abbrev base : ℕ := 3

theorem row_inb (w : BitVec 32) (h : w.toNat < 32768) : ∀ a, (![w.toNat, 0] : Fin 2 → Nat) a + S1x1024.size a ≤ S32768x1024.size a := by
  intro a
  fin_cases a
  · show w.toNat + 1 ≤ 32768
    omega
  · show 0 + 1024 ≤ 1024
    omega

theorem dst_inb (r : ℕ) (h : r < 256) : ∀ a, (![r, 0] : Fin 2 → Nat) a + S1x1024.size a ≤ S256x1024.size a := by
  intro a
  fin_cases a
  · show r + 1 ≤ 256
    omega
  · show 0 + 1024 ≤ 1024
    omega

abbrev rowM (M : Memref sig .tc .vmem S256x1024 .f32) (r : ℕ) (h : ∀ a, (![r, 0] : Fin 2 → ℕ) a + S1x1024.size a ≤ S256x1024.size a) : Memref sig .tc .vmem S1024 .f32 :=
  (M.slice (Rect.unit (s := S256x1024) ![r, 0] S1x1024.size h) (fun _ => rfl)).squeeze S1024 Shapes1.Facts₀.squeezes_S1x1024_S1024

/-- Row r of the buffer, held through exactly its own 1024 elements at the contents d of the whole buffer. -/
abbrev rowH (c : Dev nD) (M : Memref sig .tc .vmem S256x1024 .f32) (r : ℕ) (h : ∀ a, (![r, 0] : Fin 2 → ℕ) a + S1x1024.size a ≤ S256x1024.size a) (d : Bf (F := F) c M) : sProp 𝕄 :=
  (rowM M r h).view.loc (c : Thread nD τ) ↦[(rowM M r h).view.set]{fullShare} d

abbrev tokS (c : Dev nD) (i : ℕ) (f : Bf (F := F) c SRC) : sProp 𝕄 :=
  SRC.view.loc (c : Thread nD τ) ↦{Transfers.shareTokN fullShare i} f

abbrev sv (c : Dev nD) (i : DmaSem sig) : sProp 𝕄 := semVal ((c : Thread nD τ), SemLoc.dma i) 0

abbrev wordAt (c : Dev nD) (off : Fin 1 → ℕ) (h : ∀ a, off a + S1.size a ≤ S16384.size a) (pf : Bf (F := F) c TBL) : BitVec 32 :=
  View.readAt (Elt F) TBL.view (Rect.unit (s := S16384) off S1.size h).toLoadRect pf (Shape.Idx.first (show 0 < S1.numel by decide))

abbrev rowPay (c : Dev nD) (w : BitVec 32) (h : ∀ a, (![w.toNat, 0] : Fin 2 → ℕ) a + S1x1024.size a ≤ S32768x1024.size a) (f : Bf (F := F) c SRC) : S1024.Idx → Elt F .f32 :=
  ReadAs.same.apply (View.read (Elt F) ((SRC.slice (Rect.unit (s := S32768x1024) ![w.toNat, 0] S1x1024.size h) (fun _ => rfl)).squeeze S1024 Shapes1.Facts₀.squeezes_S1x1024_S1024).view f)

section Landed

variable (c : Dev nD) (M : Memref sig .tc .vmem S256x1024 .f32)
  (offs : Fin 256 → Fin 1 → ℕ) (hin : ∀ r a, offs r a + S1.size a ≤ S16384.size a)
  (pf : Bf (F := F) c TBL) (hpf : ∀ j, (pf j).toNat < 32768) (f : Bf (F := F) c SRC) (d : Bf (F := F) c M)

/-- The buffer's contents once copy r has landed: d with the source row that the table word names written over row r. -/
abbrev landed (r : Fin 256) : Bf (F := F) c M :=
  (rowM M r.val (dst_inb r.val r.isLt)).view.writes (Elt F) d
    [⟨Rect.whole S1024, rowPay c (wordAt c (offs r) (hin r) pf) (row_inb _ (hpf _)) f⟩]

end Landed

end Cert.Kernel.Rows0

end
-- ==== Proof.RowsGlue0W.lean ====
import proofs.«409488_j73529840107771_1_alg».proof.Proof.RowsDef0W

noncomputable section

namespace Cert.Kernel.Rows0

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.Kernel.Iface

/-- One contents out of 256 row-wise ones: each element takes the value of the family member whose row it lies in. -/
def glued (c : Dev nD) (M : Memref sig .tc .vmem S256x1024 .f32) (fs : Fin 256 → Bf (F := F) c M) : Bf (F := F) c M :=
  fun i => fs (Classical.epsilon fun r : Fin 256 => i ∈ (rowM M r.val (dst_inb r.val r.isLt)).view.set) i

end Cert.Kernel.Rows0

end
-- ==== Proof.Rows0W.lean ====
import proofs.«409488_j73529840107771_1_alg».proof.Proof.RowsGlue0W

noncomputable section

namespace Cert.Kernel.Rows0

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.Kernel.Iface

theorem rowM_set (M : Memref sig .tc .vmem S256x1024 .f32) (r : ℕ) (h : ∀ a, (![r, 0] : Fin 2 → ℕ) a + S1x1024.size a ≤ S256x1024.size a) :
    (rowM M r h).view.set = (Rect.unit (s := S256x1024) ![r, 0] S1x1024.size h).set.map M.view.emb := by
  show ((M.view.slice _).reshape _ _).set = _
  rw [View.set_reshape, View.set_slice]

/-- Distinct rows are disjoint: their rectangles are separated on the row axis. -/
theorem rowM_disjoint (M : Memref sig .tc .vmem S256x1024 .f32) (r r' : Fin 256) (hne : r ≠ r') :
    Disjoint (rowM M r.val (dst_inb r.val r.isLt)).view.set (rowM M r'.val (dst_inb r'.val r'.isLt)).view.set := by
  rw [rowM_set, rowM_set]
  refine (Finset.disjoint_map _).mpr (Rect.unit_disjoint 0 ?_)
  have hv : r.val ≠ r'.val := fun e => hne (Fin.ext e)
  show r.val + 1 ≤ r'.val ∨ r'.val + 1 ≤ r.val
  omega

/-- The 256 rows cover the buffer: an element lies in the row its first coordinate names. -/
theorem rowM_cover (M : Memref sig .tc .vmem S256x1024 .f32) :
    M.view.set = Finset.univ.biUnion fun r : Fin 256 => (rowM M r.val (dst_inb r.val r.isLt)).view.set := by
  ext i
  rw [Finset.mem_biUnion]
  constructor
  · intro hi
    rw [View.set] at hi
    obtain ⟨x, -, rfl⟩ := Finset.mem_map.mp hi
    refine ⟨⟨(x 0).val, (x 0).isLt⟩, Finset.mem_univ _, ?_⟩
    rw [rowM_set]
    refine Finset.mem_map_of_mem _ (Rect.mem_set_unit.mpr fun a => ?_)
    fin_cases a
    · exact ⟨Nat.le_refl _, Nat.lt_succ_self _⟩
    · refine ⟨Nat.zero_le _, ?_⟩
      have h1 : (x 1).val < 1024 := (x 1).isLt
      show (x 1).val < 0 + 1024
      omega
  · rintro ⟨r, -, hi⟩
    rw [rowM_set] at hi
    obtain ⟨x, -, rfl⟩ := Finset.mem_map.mp hi
    exact M.view.emb_mem_set x

section Landed

variable (c : Dev nD) (M : Memref sig .tc .vmem S256x1024 .f32)
  (offs : Fin 256 → Fin 1 → ℕ) (hin : ∀ r a, offs r a + S1.size a ≤ S16384.size a)
  (pf : Bf (F := F) c TBL) (hpf : ∀ j, (pf j).toNat < 32768) (f : Bf (F := F) c SRC) (d : Bf (F := F) c M)

/-- A buffer held whole is its 256 rows held separately, since the rows are disjoint and cover it. -/
theorem rows_split (hM : M.IsWhole) :
    (M.view.loc (c : Thread nD τ) ↦[M.view.set]{fullShare} d : sProp 𝕄)
      ⊢ bigSep Finset.univ fun r : Fin 256 => rowH c M r.val (dst_inb r.val r.isLt) d := by
  have h : (M.view.loc (c : Thread nD τ) ↦[Finset.univ.biUnion fun r : Fin 256 => (rowM M r.val (dst_inb r.val r.isLt)).view.set]{fullShare} d : sProp 𝕄)
      = bigSep Finset.univ fun r : Fin 256 => M.view.loc (c : Thread nD τ) ↦[(rowM M r.val (dst_inb r.val r.isLt)).view.set]{fullShare} d :=
    pointsTo_biUnion Finset.univ _ fun r _ r' _ hne => rowM_disjoint M r r' hne
  rw [← rowM_cover M] at h
  rw [h]

/-- 256 rows held at contents of their own are the whole buffer at some contents agreeing with each on its row. -/
theorem rows_join (hM : M.IsWhole) (fs : Fin 256 → Bf (F := F) c M) :
    (bigSep Finset.univ fun r : Fin 256 => rowH c M r.val (dst_inb r.val r.isLt) (fs r))
      ⊢ (iprop(∃ g : Bf (F := F) c M, ⌜∀ r : Fin 256, ∀ i ∈ (rowM M r.val (dst_inb r.val r.isLt)).view.set, g i = fs r i⌝
            ∗ M.view.loc (c : Thread nD τ) ↦[M.view.set]{fullShare} g) : sProp 𝕄) := by
  have h : (bigSep Finset.univ fun r : Fin 256 => M.view.loc (c : Thread nD τ) ↦[(rowM M r.val (dst_inb r.val r.isLt)).view.set]{fullShare} fs r)
      ⊢ (iprop(∃ g : Bf (F := F) c M, ⌜∀ r ∈ (Finset.univ : Finset (Fin 256)), ∀ i ∈ (rowM M r.val (dst_inb r.val r.isLt)).view.set, g i = fs r i⌝
            ∗ M.view.loc (c : Thread nD τ) ↦[Finset.univ.biUnion fun r : Fin 256 => (rowM M r.val (dst_inb r.val r.isLt)).view.set]{fullShare} g) : sProp 𝕄) :=
    pointsTo_biUnion_join Finset.univ _ fs (fs ⟨0, by decide⟩) fun r _ r' _ hne => rowM_disjoint M r r' hne
  rw [← rowM_cover M] at h
  refine h.trans ?_
  iintro ⟨%g, %hg, H⟩
  iexists g
  isplitr
  · ipureintro; exact fun r i hi => hg r (Finset.mem_univ r) i hi
  · iexact H

end Landed

/-- The source held whole gives 256 read shares, numbered base … base + 255, and a remainder that takes them back. -/
theorem toks_split (c : Dev nD) (f : Bf (F := F) c SRC) :
    (pt c SRC f : sProp 𝕄) ⊢ iprop((∃ R : sProp 𝕄, R ∗ ⌜iprop(R ∗ bigSep Finset.univ fun r : Fin 256 => tokS c (base + r.val) f) ⊢ (pt c SRC f : sProp 𝕄)⌝)
        ∗ bigSep Finset.univ fun r : Fin 256 => tokS c (base + r.val) f) := by

  let emb : Fin 256 ↪ ℕ := ⟨fun r => base + r.val, fun a b h => Fin.ext (Nat.add_left_cancel h)⟩
  have hsub : Finset.univ.map emb ⊆ Finset.range (base + 256) := by
    intro i hi
    obtain ⟨r, -, rfl⟩ := Finset.mem_map.mp hi
    refine Finset.mem_range.mpr ?_
    show base + r.val < base + 256
    omega
  have hb : bigSep (Finset.range (base + 256)) (fun i => (tokS c i f : sProp 𝕄))
      = iprop((bigSep Finset.univ fun r : Fin 256 => tokS c (base + r.val) f)
          ∗ bigSep (Finset.range (base + 256) \ Finset.univ.map emb) (fun i => tokS c i f)) := by
    rw [bigSep_sdiff_split hsub, bigSep_map]
    rfl

  have h : (pt c SRC f : sProp 𝕄)
      ⊣⊢ iprop((SRC.view.loc (c : Thread nD τ) ↦{Transfers.shareDrop fullShare (base + 256)} f)
          ∗ bigSep (Finset.range (base + 256)) (fun i => tokS c i f)) :=
    Transfers.pointsTo_toks_range fullShare (base + 256)
  rw [hb] at h
  refine h.1.trans ?_
  iintro ⟨HD, HT, HR⟩
  isplitr [HT]
  · iexists iprop((SRC.view.loc (c : Thread nD τ) ↦{Transfers.shareDrop fullShare (base + 256)} f)
        ∗ bigSep (Finset.range (base + 256) \ Finset.univ.map emb) (fun i => tokS c i f))
    isplitl [HD HR]
    · isplitl [HD]
      · iexact HD
      · iexact HR
    · ipureintro
      refine .trans ?_ h.2
      iintro ⟨⟨HD, HR⟩, HT⟩
      isplitl [HD]
      · iexact HD
      isplitl [HT]
      · iexact HT
      · iexact HR
  · iexact HT

theorem cells_eq (c : Dev nD) :
    (Pipeline.ownSems0 (Ix := Unit) (Name := ℕ) (U := Pipeline.UD sig nD τ) (Lvl := ℕ) (Val := Elt F) (τ := τ) osem0 c : sProp 𝕄)
      = bigSep Finset.univ fun r : Fin 256 => sv c (cc0_scratch1.ix (ValueIdx.ix1 r)) := by
  rfl

/-- On row r the glued contents are the r-th member's: an element lies in one row only. -/
theorem glued_on (c : Dev nD) (M : Memref sig .tc .vmem S256x1024 .f32) (fs : Fin 256 → Bf (F := F) c M) (r : Fin 256) (i)
    (hi : i ∈ (rowM M r.val (dst_inb r.val r.isLt)).view.set) : glued c M fs i = fs r i := by
  have hsp : i ∈ (rowM M (Classical.epsilon fun r' : Fin 256 => i ∈ (rowM M r'.val (dst_inb r'.val r'.isLt)).view.set).val (dst_inb _ (Fin.isLt _))).view.set :=
    Classical.epsilon_spec (p := fun r' : Fin 256 => i ∈ (rowM M r'.val (dst_inb r'.val r'.isLt)).view.set) ⟨r, hi⟩
  have key : ∀ e : Fin 256, i ∈ (rowM M e.val (dst_inb e.val e.isLt)).view.set → e = r := fun e he => by
    by_contra hne
    exact Finset.disjoint_left.mp (rowM_disjoint M e r hne) he hi
  unfold glued
  rw [key _ hsp]

/-- The rows, each at its own member, are the whole buffer at the glued contents. -/
theorem rows_join_glued (c : Dev nD) (M : Memref sig .tc .vmem S256x1024 .f32) (fs : Fin 256 → Bf (F := F) c M) :
    (bigSep Finset.univ fun r : Fin 256 => rowH c M r.val (dst_inb r.val r.isLt) (fs r))
      ⊢ (M.view.loc (c : Thread nD τ) ↦[M.view.set]{fullShare} glued c M fs : sProp 𝕄) := by
  have hc : (bigSep Finset.univ fun r : Fin 256 => rowH c M r.val (dst_inb r.val r.isLt) (fs r) : sProp 𝕄)
      = bigSep Finset.univ fun r : Fin 256 => M.view.loc (c : Thread nD τ) ↦[(rowM M r.val (dst_inb r.val r.isLt)).view.set]{fullShare} glued c M fs :=
    bigSep_congr fun r _ => pointsTo_congr fun i hi => (glued_on c M fs r i hi).symm
  have h : (M.view.loc (c : Thread nD τ) ↦[Finset.univ.biUnion fun r : Fin 256 => (rowM M r.val (dst_inb r.val r.isLt)).view.set]{fullShare} glued c M fs : sProp 𝕄)
      = bigSep Finset.univ fun r : Fin 256 => M.view.loc (c : Thread nD τ) ↦[(rowM M r.val (dst_inb r.val r.isLt)).view.set]{fullShare} glued c M fs :=
    pointsTo_biUnion Finset.univ _ fun r _ r' _ hne => rowM_disjoint M r r' hne
  rw [← rowM_cover M] at h
  rw [hc, h]

end Cert.Kernel.Rows0

end
-- ==== Proof.RowsVal0W.lean ====
import proofs.«409488_j73529840107771_1_alg».proof.Proof.Rows0W

noncomputable section

namespace Cert.Kernel.Rows0

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.Kernel.Iface

/-- For g < 64 and r < 256 the 32-bit word 256·g + r does not wrap. -/
theorem offW_eq (g : ℕ) (hg : g < 64) (r : ℕ) (hr : r < 256) :
    (![(Scalar.indexCast (Scalar.addi (Scalar.muli (BitVec.ofNat 32 g) 256#32) (BitVec.ofNat 32 r))).toNat] : Fin 1 → ℕ) = ![256 * g + r] := by
  have h : (Scalar.indexCast (Scalar.addi (Scalar.muli (BitVec.ofNat 32 g) 256#32) (BitVec.ofNat 32 r))).toNat = 256 * g + r := by
    show ((BitVec.ofNat 32 g) * 256#32 + (BitVec.ofNat 32 r)).toNat = 256 * g + r
    rw [BitVec.toNat_add, BitVec.toNat_mul, BitVec.toNat_ofNat, BitVec.toNat_ofNat, BitVec.toNat_ofNat]
    omega
  exact congrArg (fun n : ℕ => (![n] : Fin 1 → ℕ)) h

theorem rowView_emb {κ : Kind} {sp : Space} {e : EltTy} {n0 n1 : ℕ} (v : View sig κ sp (⟨2, ![n0, n1]⟩ : Shape) e) (r : ℕ) (hr : r < n0)
    (inb : ∀ a, (![r, 0] : Fin 2 → ℕ) a + (![1, n1] : Fin 2 → ℕ) a ≤ (⟨2, ![n0, n1]⟩ : Shape).size a)
    (hsq : (⟨1, ![n1]⟩ : Shape).numel = (⟨2, ![1, n1]⟩ : Shape).numel) (q : Fin n1) :
    ((v.slice (Rect.unit (s := (⟨2, ![n0, n1]⟩ : Shape)) ![r, 0] ![1, n1] inb)).reshape (⟨1, ![n1]⟩ : Shape) hsq).emb (ValueIdx.ix1 q)
      = v.emb (ValueIdx.ix2 (⟨r, hr⟩ : Fin n0) q) := by
  show v.emb ((Rect.unit (s := (⟨2, ![n0, n1]⟩ : Shape)) ![r, 0] ![1, n1] inb).emb (Shape.reshapeEquiv hsq (ValueIdx.ix1 q))) = _
  have hc := Shape.reshapeEquiv_cons_one (n := 1) (d := ![n1]) hsq (ValueIdx.ix1 q)
  rw [hc]
  congr 1
  funext a
  apply Fin.ext
  fin_cases a
  · show r + 1 * 0 = r
    omega
  · show 0 + 1 * q.val = q.val
    omega

theorem wordAt_eq (c : Dev nD) (off : Fin 1 → ℕ) (h : ∀ a, off a + S1.size a ≤ S16384.size a) (pf : Bf (F := F) c TBL)
    (n : ℕ) (hn : n < 16384) (hoff : off 0 = n) :
    wordAt c off h pf = pf (ValueIdx.ix1 (⟨n, hn⟩ : Fin 16384)) := by
  show pf ((Rect.unit (s := S16384) off S1.size h).toLoadRect.idx (Shape.Idx.first (show 0 < S1.numel by decide))) = _
  congr 1
  funext a
  apply Fin.ext
  fin_cases a
  show off 0 + 1 * (Shape.Idx.first (show 0 < S1.numel by decide) (0 : Fin 1)).val = n
  have h0 : (Shape.Idx.first (show 0 < S1.numel by decide) (0 : Fin 1)).val = 0 := by
    have := (Shape.Idx.first (show 0 < S1.numel by decide) (0 : Fin 1)).isLt
    have e : S1.size (0 : Fin 1) = 1 := by decide
    omega
  omega

theorem rowPay_apply (c : Dev nD) (w : BitVec 32) (hw : w.toNat < 32768)
    (h : ∀ a, (![w.toNat, 0] : Fin 2 → ℕ) a + S1x1024.size a ≤ S32768x1024.size a) (f : Bf (F := F) c SRC) (q : Fin 1024) :
    rowPay c w h f (ValueIdx.ix1 q) = f (ValueIdx.ix2 (⟨w.toNat, hw⟩ : Fin 32768) q) := by
  show View.read (Elt F) ((SRC.slice (Rect.unit (s := S32768x1024) ![w.toNat, 0] S1x1024.size h) (fun _ => rfl)).squeeze S1024 Shapes1.Facts₀.squeezes_S1x1024_S1024).view f (ValueIdx.ix1 q) = _
  rw [View.read_apply]
  have e := rowView_emb (n0 := 32768) (n1 := 1024) SRC.view w.toNat hw h Shapes1.Facts₀.squeezes_S1x1024_S1024.numel_eq q
  show _root_.cast _ (f (((SRC.view.slice (Rect.unit (s := S32768x1024) ![w.toNat, 0] S1x1024.size h)).reshape S1024 Shapes1.Facts₀.squeezes_S1x1024_S1024.numel_eq).emb (ValueIdx.ix1 q))) = _
  rw [e]
  rfl

section LandedRead

variable (c : Dev nD) (M : Memref sig .tc .vmem S256x1024 .f32)
  (offs : Fin 256 → Fin 1 → ℕ) (hin : ∀ r a, offs r a + S1.size a ≤ S16384.size a)
  (pf : Bf (F := F) c TBL) (hpf : ∀ j, (pf j).toNat < 32768) (f : Bf (F := F) c SRC) (d : Bf (F := F) c M)

theorem landed_row_read (r : Fin 256) (q : Fin 1024) :
    (rowM M r.val (dst_inb r.val r.isLt)).view.read (Elt F) (landed c M offs hin pf hpf f d r) (ValueIdx.ix1 q)
      = rowPay c (wordAt c (offs r) (hin r) pf) (row_inb _ (hpf _)) f (ValueIdx.ix1 q) := by
  have h := View.read_writes_cons_emb (rowM M r.val (dst_inb r.val r.isLt)).view d (Rect.whole S1024)
    (rowPay c (wordAt c (offs r) (hin r) pf) (row_inb _ (hpf _)) f) [] (ValueIdx.ix1 q)
  rw [Rect.emb_whole_apply] at h
  exact h

theorem whole_read_row (G : Bf (F := F) c M) (r : Fin 256) (q : Fin 1024) :
    M.view.read (Elt F) G (ValueIdx.ix2 r q)
      = (rowM M r.val (dst_inb r.val r.isLt)).view.read (Elt F) G (ValueIdx.ix1 q) := by
  have e := rowView_emb (n0 := 256) (n1 := 1024) M.view r.val r.isLt (dst_inb r.val r.isLt) Shapes1.Facts₀.squeezes_S1x1024_S1024.numel_eq q
  rw [View.read_apply, View.read_apply]
  show _ = _root_.cast _ (G (((M.view.slice (Rect.unit (s := S256x1024) ![r.val, 0] S1x1024.size (dst_inb r.val r.isLt))).reshape S1024 Shapes1.Facts₀.squeezes_S1x1024_S1024.numel_eq).emb (ValueIdx.ix1 q)))
  rw [e]

/-- Entry (r, q) of contents agreeing with every landed row is the source's entry (ids[256·g + r], q). -/
theorem landed_read_at (g : ℕ) (hg : g < 64) (hoffs : ∀ r : Fin 256, offs r = ![256 * g + r.val]) (G : Bf (F := F) c M)
    (hG : ∀ r : Fin 256, ∀ i ∈ (rowM M r.val (dst_inb r.val r.isLt)).view.set, G i = landed c M offs hin pf hpf f d r i)
    (r : Fin 256) (q : Fin 1024) :
    M.view.read (Elt F) G (ValueIdx.ix2 r q) = Cert.Spec.gatherRows g pf f (ValueIdx.ix2 r q) := by
  have hn : 256 * g + r.val < 16384 := by have := r.isLt; omega
  have hw : wordAt c (offs r) (hin r) pf = pf (ValueIdx.ix1 (⟨256 * g + r.val, hn⟩ : Fin 16384)) :=
    wordAt_eq c (offs r) (hin r) pf (256 * g + r.val) hn (by rw [hoffs r]; rfl)
  have hwlt : (wordAt c (offs r) (hin r) pf).toNat < 32768 := by rw [hw]; exact hpf _
  rw [whole_read_row c M G r q,
    View.read_congr_at (ValueIdx.ix1 q) (hG r _ ((rowM M r.val (dst_inb r.val r.isLt)).view.emb_mem_set _)),
    landed_row_read c M offs hin pf hpf f d r q, rowPay_apply c (wordAt c (offs r) (hin r) pf) hwlt]
  show _ = f (ValueIdx.ix2 (Cert.Spec.rowOf pf (256 * g + r.val)) (⟨q.val, _⟩ : Fin 1024))
  congr 1
  have e1 : (Fin.ofNat 16384 (256 * g + r.val) : Fin 16384) = ⟨256 * g + r.val, hn⟩ := Fin.ext (Nat.mod_eq_of_lt hn)
  have e2 : Cert.Spec.rowOf pf (256 * g + r.val) = ⟨(wordAt c (offs r) (hin r) pf).toNat, hwlt⟩ := by
    unfold Cert.Spec.rowOf
    rw [e1]
    apply Fin.ext
    show (pf (ValueIdx.ix1 (⟨256 * g + r.val, hn⟩ : Fin 16384))).toNat % 32768 = (wordAt c (offs r) (hin r) pf).toNat
    rw [hw]
    exact Nat.mod_eq_of_lt (hpf _)
  rw [e2]

/-- Contents agreeing with every landed row read, through the whole buffer, as block g of the gathered matrix. -/
theorem landed_read (hM : M.IsWhole) (g : ℕ) (hg : g < 64) (hoffs : ∀ r : Fin 256, offs r = ![256 * g + r.val]) (G : Bf (F := F) c M)
    (hG : ∀ r : Fin 256, ∀ i ∈ (rowM M r.val (dst_inb r.val r.isLt)).view.set, G i = landed c M offs hin pf hpf f d r i) :
    M.view.read (Elt F) G = Cert.Spec.gatherRows g pf f := by
  funext y
  rw [ValueIdx.eq_ix2 y]
  exact landed_read_at c M offs hin pf hpf f d g hg hoffs G hG (y 0) (y 1)

end LandedRead

end Cert.Kernel.Rows0

end
-- ==== Proof.ExecOffs0W.lean ====
import proofs.«409488_j73529840107771_1_alg».proof.Proof.RowsVal0W

noncomputable section

namespace Cert.Kernel.Exec0

open Cert.Kernel Cert.Kernel.Gen

open Idealize.ShloMosaic
open Cert.Kernel.Iface Cert.Kernel.Rows0

/-- The table position copy r reads at grid step t: the word 256·t + r, spelt as each of the body's 256 offset computations spells its own. -/
def offs (t : Fin grid0.N) (r : Fin 256) : Fin 1 → ℕ :=
  ![(Scalar.indexCast (Scalar.addi (Scalar.muli (BitVec.ofNat 32 (grid0.coords t 0).val) 256#32) (BitVec.ofNat 32 r.val))).toNat]

/-- The word arithmetic does not wrap: position r at step g is 256·g + r. -/
theorem hoffs (t : Fin grid0.N) (r : Fin 256) : offs t r = ![256 * (grid0.coords t 0).val + r.val] :=
  offW_eq _ (grid0.coords t 0).isLt _ r.isLt

/-- Each position is inside the table: 256·g + r + 1 ≤ 16384 for g below 64 and r below 256. -/
theorem hin (t : Fin grid0.N) (r : Fin 256) : ∀ a, offs t r a + S1.size a ≤ S16384.size a := by
  rw [hoffs t r]
  intro a
  have hg : (grid0.coords t 0).val < 64 := (grid0.coords t 0).isLt
  have hr := r.isLt
  fin_cases a
  show 256 * (grid0.coords t 0).val + r.val + 1 ≤ 16384
  omega

end Cert.Kernel.Exec0

end
-- ==== Proof.Exec0W.lean ====
import proofs.«409488_j73529840107771_1_alg».proof.Proof.ExecOffs0W
import proofs.«409488_j73529840107771_1_alg».proof.Proof.Rows0W
import proofs.«409488_j73529840107771_1_alg».proof.Proof.Chains

noncomputable section

namespace Cert.Kernel.Exec0

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Iface Cert.Kernel.Rows0

variable {F : FTy → Type} [FloatOps F]

local notation "𝕄" => MT nD τ sig Unit (Elt F) ℕ (Pipeline.UD sig nD τ) ℕ

set_option maxHeartbeats 40000000 in
/-- The body's run: 256 copies started, 256 waited, the landed rows joined into the whole scratch, then the tail's load, product and store; L is the pieces the run writes into the output block. -/
noncomputable def run [∀ e, Nonempty (Elt F e)] (c : Dev nD) (t : Fin grid0.N)
    (M3 : Memref sig .tc .vmem S1024x1024 .bf16) (h3 : M3.IsWhole) (M4 : Memref sig .tc .vmem S256x1024 .f32) (h4 : M4.IsWhole)
    (pf : Bf (F := F) c TBL) (hpf : ∀ j, (pf j).toNat < 32768) (f : Bf (F := F) c SRC) (d : Bf (F := F) c (Memref.whole cc0_scratch0))
    (w3 : Bf (F := F) c M3) (f4 : Bf (F := F) c M4) :
    { L : List (View.Piece (Elt F) S256x1024 .f32) //
      ∀ (W : Waits sig Unit) (K : PUnit → sProp 𝕄),
        iprop(pt c TBL pf
            ∗ (bigSep Finset.univ fun r : Fin 256 => tokS c (base + r.val) f)
            ∗ (bigSep Finset.univ fun r : Fin 256 => rowH c (Memref.whole cc0_scratch0) r.val (dst_inb r.val r.isLt) d)
            ∗ (sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20 ∗ sv c 21 ∗ sv c 22 ∗ sv c 23 ∗ sv c 24 ∗ sv c 25 ∗ sv c 26 ∗ sv c 27 ∗ sv c 28 ∗ sv c 29 ∗ sv c 30 ∗ sv c 31 ∗ sv c 32 ∗ sv c 33 ∗ sv c 34 ∗ sv c 35 ∗ sv c 36 ∗ sv c 37 ∗ sv c 38 ∗ sv c 39 ∗ sv c 40 ∗ sv c 41 ∗ sv c 42 ∗ sv c 43 ∗ sv c 44 ∗ sv c 45 ∗ sv c 46 ∗ sv c 47 ∗ sv c 48 ∗ sv c 49 ∗ sv c 50 ∗ sv c 51 ∗ sv c 52 ∗ sv c 53 ∗ sv c 54 ∗ sv c 55 ∗ sv c 56 ∗ sv c 57 ∗ sv c 58 ∗ sv c 59 ∗ sv c 60 ∗ sv c 61 ∗ sv c 62 ∗ sv c 63 ∗ sv c 64 ∗ sv c 65 ∗ sv c 66 ∗ sv c 67 ∗ sv c 68 ∗ sv c 69 ∗ sv c 70 ∗ sv c 71 ∗ sv c 72 ∗ sv c 73 ∗ sv c 74 ∗ sv c 75 ∗ sv c 76 ∗ sv c 77 ∗ sv c 78 ∗ sv c 79 ∗ sv c 80 ∗ sv c 81 ∗ sv c 82 ∗ sv c 83 ∗ sv c 84 ∗ sv c 85 ∗ sv c 86 ∗ sv c 87 ∗ sv c 88 ∗ sv c 89 ∗ sv c 90 ∗ sv c 91 ∗ sv c 92 ∗ sv c 93 ∗ sv c 94 ∗ sv c 95 ∗ sv c 96 ∗ sv c 97 ∗ sv c 98 ∗ sv c 99 ∗ sv c 100 ∗ sv c 101 ∗ sv c 102 ∗ sv c 103 ∗ sv c 104 ∗ sv c 105 ∗ sv c 106 ∗ sv c 107 ∗ sv c 108 ∗ sv c 109 ∗ sv c 110 ∗ sv c 111 ∗ sv c 112 ∗ sv c 113 ∗ sv c 114 ∗ sv c 115 ∗ sv c 116 ∗ sv c 117 ∗ sv c 118 ∗ sv c 119 ∗ sv c 120 ∗ sv c 121 ∗ sv c 122 ∗ sv c 123 ∗ sv c 124 ∗ sv c 125 ∗ sv c 126 ∗ sv c 127 ∗ sv c 128 ∗ sv c 129 ∗ sv c 130 ∗ sv c 131 ∗ sv c 132 ∗ sv c 133 ∗ sv c 134 ∗ sv c 135 ∗ sv c 136 ∗ sv c 137 ∗ sv c 138 ∗ sv c 139 ∗ sv c 140 ∗ sv c 141 ∗ sv c 142 ∗ sv c 143 ∗ sv c 144 ∗ sv c 145 ∗ sv c 146 ∗ sv c 147 ∗ sv c 148 ∗ sv c 149 ∗ sv c 150 ∗ sv c 151 ∗ sv c 152 ∗ sv c 153 ∗ sv c 154 ∗ sv c 155 ∗ sv c 156 ∗ sv c 157 ∗ sv c 158 ∗ sv c 159 ∗ sv c 160 ∗ sv c 161 ∗ sv c 162 ∗ sv c 163 ∗ sv c 164 ∗ sv c 165 ∗ sv c 166 ∗ sv c 167 ∗ sv c 168 ∗ sv c 169 ∗ sv c 170 ∗ sv c 171 ∗ sv c 172 ∗ sv c 173 ∗ sv c 174 ∗ sv c 175 ∗ sv c 176 ∗ sv c 177 ∗ sv c 178 ∗ sv c 179 ∗ sv c 180 ∗ sv c 181 ∗ sv c 182 ∗ sv c 183 ∗ sv c 184 ∗ sv c 185 ∗ sv c 186 ∗ sv c 187 ∗ sv c 188 ∗ sv c 189 ∗ sv c 190 ∗ sv c 191 ∗ sv c 192 ∗ sv c 193 ∗ sv c 194 ∗ sv c 195 ∗ sv c 196 ∗ sv c 197 ∗ sv c 198 ∗ sv c 199 ∗ sv c 200 ∗ sv c 201 ∗ sv c 202 ∗ sv c 203 ∗ sv c 204 ∗ sv c 205 ∗ sv c 206 ∗ sv c 207 ∗ sv c 208 ∗ sv c 209 ∗ sv c 210 ∗ sv c 211 ∗ sv c 212 ∗ sv c 213 ∗ sv c 214 ∗ sv c 215 ∗ sv c 216 ∗ sv c 217 ∗ sv c 218 ∗ sv c 219 ∗ sv c 220 ∗ sv c 221 ∗ sv c 222 ∗ sv c 223 ∗ sv c 224 ∗ sv c 225 ∗ sv c 226 ∗ sv c 227 ∗ sv c 228 ∗ sv c 229 ∗ sv c 230 ∗ sv c 231 ∗ sv c 232 ∗ sv c 233 ∗ sv c 234 ∗ sv c 235 ∗ sv c 236 ∗ sv c 237 ∗ sv c 238 ∗ sv c 239 ∗ sv c 240 ∗ sv c 241 ∗ sv c 242 ∗ sv c 243 ∗ sv c 244 ∗ sv c 245 ∗ sv c 246 ∗ sv c 247 ∗ sv c 248 ∗ sv c 249 ∗ sv c 250 ∗ sv c 251 ∗ sv c 252 ∗ sv c 253 ∗ sv c 254 ∗ sv c 255 ∗ sv c 256 ∗ sv c 257 ∗ sv c 258)
            ∗ pt c M3 w3 ∗ pt c M4 f4
            ∗ owes (c : Thread nD τ) 0 W
            ∗ (iprop(pt c TBL pf
                ∗ (bigSep Finset.univ fun r : Fin 256 => tokS c (base + r.val) f)
                ∗ ((Memref.whole cc0_scratch0).view.loc (c : Thread nD τ) ↦[(Memref.whole cc0_scratch0).view.set]{fullShare} glued c (Memref.whole cc0_scratch0) (landed c (Memref.whole cc0_scratch0) (offs t) (hin t) pf hpf f d))
                ∗ (sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20 ∗ sv c 21 ∗ sv c 22 ∗ sv c 23 ∗ sv c 24 ∗ sv c 25 ∗ sv c 26 ∗ sv c 27 ∗ sv c 28 ∗ sv c 29 ∗ sv c 30 ∗ sv c 31 ∗ sv c 32 ∗ sv c 33 ∗ sv c 34 ∗ sv c 35 ∗ sv c 36 ∗ sv c 37 ∗ sv c 38 ∗ sv c 39 ∗ sv c 40 ∗ sv c 41 ∗ sv c 42 ∗ sv c 43 ∗ sv c 44 ∗ sv c 45 ∗ sv c 46 ∗ sv c 47 ∗ sv c 48 ∗ sv c 49 ∗ sv c 50 ∗ sv c 51 ∗ sv c 52 ∗ sv c 53 ∗ sv c 54 ∗ sv c 55 ∗ sv c 56 ∗ sv c 57 ∗ sv c 58 ∗ sv c 59 ∗ sv c 60 ∗ sv c 61 ∗ sv c 62 ∗ sv c 63 ∗ sv c 64 ∗ sv c 65 ∗ sv c 66 ∗ sv c 67 ∗ sv c 68 ∗ sv c 69 ∗ sv c 70 ∗ sv c 71 ∗ sv c 72 ∗ sv c 73 ∗ sv c 74 ∗ sv c 75 ∗ sv c 76 ∗ sv c 77 ∗ sv c 78 ∗ sv c 79 ∗ sv c 80 ∗ sv c 81 ∗ sv c 82 ∗ sv c 83 ∗ sv c 84 ∗ sv c 85 ∗ sv c 86 ∗ sv c 87 ∗ sv c 88 ∗ sv c 89 ∗ sv c 90 ∗ sv c 91 ∗ sv c 92 ∗ sv c 93 ∗ sv c 94 ∗ sv c 95 ∗ sv c 96 ∗ sv c 97 ∗ sv c 98 ∗ sv c 99 ∗ sv c 100 ∗ sv c 101 ∗ sv c 102 ∗ sv c 103 ∗ sv c 104 ∗ sv c 105 ∗ sv c 106 ∗ sv c 107 ∗ sv c 108 ∗ sv c 109 ∗ sv c 110 ∗ sv c 111 ∗ sv c 112 ∗ sv c 113 ∗ sv c 114 ∗ sv c 115 ∗ sv c 116 ∗ sv c 117 ∗ sv c 118 ∗ sv c 119 ∗ sv c 120 ∗ sv c 121 ∗ sv c 122 ∗ sv c 123 ∗ sv c 124 ∗ sv c 125 ∗ sv c 126 ∗ sv c 127 ∗ sv c 128 ∗ sv c 129 ∗ sv c 130 ∗ sv c 131 ∗ sv c 132 ∗ sv c 133 ∗ sv c 134 ∗ sv c 135 ∗ sv c 136 ∗ sv c 137 ∗ sv c 138 ∗ sv c 139 ∗ sv c 140 ∗ sv c 141 ∗ sv c 142 ∗ sv c 143 ∗ sv c 144 ∗ sv c 145 ∗ sv c 146 ∗ sv c 147 ∗ sv c 148 ∗ sv c 149 ∗ sv c 150 ∗ sv c 151 ∗ sv c 152 ∗ sv c 153 ∗ sv c 154 ∗ sv c 155 ∗ sv c 156 ∗ sv c 157 ∗ sv c 158 ∗ sv c 159 ∗ sv c 160 ∗ sv c 161 ∗ sv c 162 ∗ sv c 163 ∗ sv c 164 ∗ sv c 165 ∗ sv c 166 ∗ sv c 167 ∗ sv c 168 ∗ sv c 169 ∗ sv c 170 ∗ sv c 171 ∗ sv c 172 ∗ sv c 173 ∗ sv c 174 ∗ sv c 175 ∗ sv c 176 ∗ sv c 177 ∗ sv c 178 ∗ sv c 179 ∗ sv c 180 ∗ sv c 181 ∗ sv c 182 ∗ sv c 183 ∗ sv c 184 ∗ sv c 185 ∗ sv c 186 ∗ sv c 187 ∗ sv c 188 ∗ sv c 189 ∗ sv c 190 ∗ sv c 191 ∗ sv c 192 ∗ sv c 193 ∗ sv c 194 ∗ sv c 195 ∗ sv c 196 ∗ sv c 197 ∗ sv c 198 ∗ sv c 199 ∗ sv c 200 ∗ sv c 201 ∗ sv c 202 ∗ sv c 203 ∗ sv c 204 ∗ sv c 205 ∗ sv c 206 ∗ sv c 207 ∗ sv c 208 ∗ sv c 209 ∗ sv c 210 ∗ sv c 211 ∗ sv c 212 ∗ sv c 213 ∗ sv c 214 ∗ sv c 215 ∗ sv c 216 ∗ sv c 217 ∗ sv c 218 ∗ sv c 219 ∗ sv c 220 ∗ sv c 221 ∗ sv c 222 ∗ sv c 223 ∗ sv c 224 ∗ sv c 225 ∗ sv c 226 ∗ sv c 227 ∗ sv c 228 ∗ sv c 229 ∗ sv c 230 ∗ sv c 231 ∗ sv c 232 ∗ sv c 233 ∗ sv c 234 ∗ sv c 235 ∗ sv c 236 ∗ sv c 237 ∗ sv c 238 ∗ sv c 239 ∗ sv c 240 ∗ sv c 241 ∗ sv c 242 ∗ sv c 243 ∗ sv c 244 ∗ sv c 245 ∗ sv c 246 ∗ sv c 247 ∗ sv c 248 ∗ sv c 249 ∗ sv c 250 ∗ sv c 251 ∗ sv c 252 ∗ sv c 253 ∗ sv c 254 ∗ sv c 255 ∗ sv c 256 ∗ sv c 257 ∗ sv c 258)
                ∗ pt c M3 w3 ∗ pt c M4 (M4.view.writes (Elt F) f4 L)
                ∗ (∃ W', owes (c : Thread nD τ) 0 W')) -∗ K ⟨⟩))
        ⊢ wp frame (wpE (defs₀ (F := F)) Variants.none c none) Set.univ
            (cc0__gather_matmul_kernel (grid0.coords t) (Memref.whole main_arg3) (Memref.isWhole_whole _) (Memref.whole main_v0) (Memref.isWhole_whole _) M3 h3 M4 h4 (Memref.whole cc0_scratch0) (Memref.isWhole_whole _) cc0_scratch1) K } := by
  refine ⟨?_, fun W K => ?run⟩
  case run =>
    rw [Cert.Chains.bigSep_fin256 (fun r _ => tokS c (base + r) f),
      Cert.Chains.bigSep_fin256 (fun r h => rowH c (Memref.whole cc0_scratch0) r (dst_inb r h) d)]
    iintro ⟨Ht, ⟨X0, X1, X2, X3, X4, X5, X6, X7, X8, X9, X10, X11, X12, X13, X14, X15, X16, X17, X18, X19, X20, X21, X22, X23, X24, X25, X26, X27, X28, X29, X30, X31, X32, X33, X34, X35, X36, X37, X38, X39, X40, X41, X42, X43, X44, X45, X46, X47, X48, X49, X50, X51, X52, X53, X54, X55, X56, X57, X58, X59, X60, X61, X62, X63, X64, X65, X66, X67, X68, X69, X70, X71, X72, X73, X74, X75, X76, X77, X78, X79, X80, X81, X82, X83, X84, X85, X86, X87, X88, X89, X90, X91, X92, X93, X94, X95, X96, X97, X98, X99, X100, X101, X102, X103, X104, X105, X106, X107, X108, X109, X110, X111, X112, X113, X114, X115, X116, X117, X118, X119, X120, X121, X122, X123, X124, X125, X126, X127, X128, X129, X130, X131, X132, X133, X134, X135, X136, X137, X138, X139, X140, X141, X142, X143, X144, X145, X146, X147, X148, X149, X150, X151, X152, X153, X154, X155, X156, X157, X158, X159, X160, X161, X162, X163, X164, X165, X166, X167, X168, X169, X170, X171, X172, X173, X174, X175, X176, X177, X178, X179, X180, X181, X182, X183, X184, X185, X186, X187, X188, X189, X190, X191, X192, X193, X194, X195, X196, X197, X198, X199, X200, X201, X202, X203, X204, X205, X206, X207, X208, X209, X210, X211, X212, X213, X214, X215, X216, X217, X218, X219, X220, X221, X222, X223, X224, X225, X226, X227, X228, X229, X230, X231, X232, X233, X234, X235, X236, X237, X238, X239, X240, X241, X242, X243, X244, X245, X246, X247, X248, X249, X250, X251, X252, X253, X254, X255⟩, ⟨R0, R1, R2, R3, R4, R5, R6, R7, R8, R9, R10, R11, R12, R13, R14, R15, R16, R17, R18, R19, R20, R21, R22, R23, R24, R25, R26, R27, R28, R29, R30, R31, R32, R33, R34, R35, R36, R37, R38, R39, R40, R41, R42, R43, R44, R45, R46, R47, R48, R49, R50, R51, R52, R53, R54, R55, R56, R57, R58, R59, R60, R61, R62, R63, R64, R65, R66, R67, R68, R69, R70, R71, R72, R73, R74, R75, R76, R77, R78, R79, R80, R81, R82, R83, R84, R85, R86, R87, R88, R89, R90, R91, R92, R93, R94, R95, R96, R97, R98, R99, R100, R101, R102, R103, R104, R105, R106, R107, R108, R109, R110, R111, R112, R113, R114, R115, R116, R117, R118, R119, R120, R121, R122, R123, R124, R125, R126, R127, R128, R129, R130, R131, R132, R133, R134, R135, R136, R137, R138, R139, R140, R141, R142, R143, R144, R145, R146, R147, R148, R149, R150, R151, R152, R153, R154, R155, R156, R157, R158, R159, R160, R161, R162, R163, R164, R165, R166, R167, R168, R169, R170, R171, R172, R173, R174, R175, R176, R177, R178, R179, R180, R181, R182, R183, R184, R185, R186, R187, R188, R189, R190, R191, R192, R193, R194, R195, R196, R197, R198, R199, R200, R201, R202, R203, R204, R205, R206, R207, R208, R209, R210, R211, R212, R213, R214, R215, R216, R217, R218, R219, R220, R221, R222, R223, R224, R225, R226, R227, R228, R229, R230, R231, R232, R233, R234, R235, R236, R237, R238, R239, R240, R241, R242, R243, R244, R245, R246, R247, R248, R249, R250, R251, R252, R253, R254, R255⟩, ⟨D0, D1, D2, D3, D4, D5, D6, D7, D8, D9, D10, D11, D12, D13, D14, D15, D16, D17, D18, D19, D20, D21, D22, D23, D24, D25, D26, D27, D28, D29, D30, D31, D32, D33, D34, D35, D36, D37, D38, D39, D40, D41, D42, D43, D44, D45, D46, D47, D48, D49, D50, D51, D52, D53, D54, D55, D56, D57, D58, D59, D60, D61, D62, D63, D64, D65, D66, D67, D68, D69, D70, D71, D72, D73, D74, D75, D76, D77, D78, D79, D80, D81, D82, D83, D84, D85, D86, D87, D88, D89, D90, D91, D92, D93, D94, D95, D96, D97, D98, D99, D100, D101, D102, D103, D104, D105, D106, D107, D108, D109, D110, D111, D112, D113, D114, D115, D116, D117, D118, D119, D120, D121, D122, D123, D124, D125, D126, D127, D128, D129, D130, D131, D132, D133, D134, D135, D136, D137, D138, D139, D140, D141, D142, D143, D144, D145, D146, D147, D148, D149, D150, D151, D152, D153, D154, D155, D156, D157, D158, D159, D160, D161, D162, D163, D164, D165, D166, D167, D168, D169, D170, D171, D172, D173, D174, D175, D176, D177, D178, D179, D180, D181, D182, D183, D184, D185, D186, D187, D188, D189, D190, D191, D192, D193, D194, D195, D196, D197, D198, D199, D200, D201, D202, D203, D204, D205, D206, D207, D208, D209, D210, D211, D212, D213, D214, D215, D216, D217, D218, D219, D220, D221, D222, D223, D224, D225, D226, D227, D228, D229, D230, D231, D232, D233, D234, D235, D236, D237, D238, D239, D240, D241, D242, D243, D244, D245, D246, D247, D248, D249, D250, D251, D252, D253, D254, D255⟩, H3, H4, HO, Hk⟩
    simp only [cc0__gather_matmul_kernel_eq_skeleton]; unfold cc0__gather_matmul_kernel_skel
    sl_exec_parts (disch := exact row_inb _ (hpf _))
    ihave HS := (rows_join_glued c (Memref.whole cc0_scratch0) (landed c (Memref.whole cc0_scratch0) (offs t) (hin t) pf hpf f d)) $$ [R0 R1 R2 R3 R4 R5 R6 R7 R8 R9 R10 R11 R12 R13 R14 R15 R16 R17 R18 R19 R20 R21 R22 R23 R24 R25 R26 R27 R28 R29 R30 R31 R32 R33 R34 R35 R36 R37 R38 R39 R40 R41 R42 R43 R44 R45 R46 R47 R48 R49 R50 R51 R52 R53 R54 R55 R56 R57 R58 R59 R60 R61 R62 R63 R64 R65 R66 R67 R68 R69 R70 R71 R72 R73 R74 R75 R76 R77 R78 R79 R80 R81 R82 R83 R84 R85 R86 R87 R88 R89 R90 R91 R92 R93 R94 R95 R96 R97 R98 R99 R100 R101 R102 R103 R104 R105 R106 R107 R108 R109 R110 R111 R112 R113 R114 R115 R116 R117 R118 R119 R120 R121 R122 R123 R124 R125 R126 R127 R128 R129 R130 R131 R132 R133 R134 R135 R136 R137 R138 R139 R140 R141 R142 R143 R144 R145 R146 R147 R148 R149 R150 R151 R152 R153 R154 R155 R156 R157 R158 R159 R160 R161 R162 R163 R164 R165 R166 R167 R168 R169 R170 R171 R172 R173 R174 R175 R176 R177 R178 R179 R180 R181 R182 R183 R184 R185 R186 R187 R188 R189 R190 R191 R192 R193 R194 R195 R196 R197 R198 R199 R200 R201 R202 R203 R204 R205 R206 R207 R208 R209 R210 R211 R212 R213 R214 R215 R216 R217 R218 R219 R220 R221 R222 R223 R224 R225 R226 R227 R228 R229 R230 R231 R232 R233 R234 R235 R236 R237 R238 R239 R240 R241 R242 R243 R244 R245 R246 R247 R248 R249 R250 R251 R252 R253 R254 R255]
    · iapply (Entails.of_eq (Cert.Chains.bigSep_fin256 (fun r h => rowH c (Memref.whole cc0_scratch0) r (dst_inb r h) (landed c (Memref.whole cc0_scratch0) (offs t) (hin t) pf hpf f d ⟨r, h⟩))).symm)
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [R18]; · iexact R18
      isplitl [R19]; · iexact R19
      isplitl [R20]; · iexact R20
      isplitl [R21]; · iexact R21
      isplitl [R22]; · iexact R22
      isplitl [R23]; · iexact R23
      isplitl [R24]; · iexact R24
      isplitl [R25]; · iexact R25
      isplitl [R26]; · iexact R26
      isplitl [R27]; · iexact R27
      isplitl [R28]; · iexact R28
      isplitl [R29]; · iexact R29
      isplitl [R30]; · iexact R30
      isplitl [R31]; · iexact R31
      isplitl [R32]; · iexact R32
      isplitl [R33]; · iexact R33
      isplitl [R34]; · iexact R34
      isplitl [R35]; · iexact R35
      isplitl [R36]; · iexact R36
      isplitl [R37]; · iexact R37
      isplitl [R38]; · iexact R38
      isplitl [R39]; · iexact R39
      isplitl [R40]; · iexact R40
      isplitl [R41]; · iexact R41
      isplitl [R42]; · iexact R42
      isplitl [R43]; · iexact R43
      isplitl [R44]; · iexact R44
      isplitl [R45]; · iexact R45
      isplitl [R46]; · iexact R46
      isplitl [R47]; · iexact R47
      isplitl [R48]; · iexact R48
      isplitl [R49]; · iexact R49
      isplitl [R50]; · iexact R50
      isplitl [R51]; · iexact R51
      isplitl [R52]; · iexact R52
      isplitl [R53]; · iexact R53
      isplitl [R54]; · iexact R54
      isplitl [R55]; · iexact R55
      isplitl [R56]; · iexact R56
      isplitl [R57]; · iexact R57
      isplitl [R58]; · iexact R58
      isplitl [R59]; · iexact R59
      isplitl [R60]; · iexact R60
      isplitl [R61]; · iexact R61
      isplitl [R62]; · iexact R62
      isplitl [R63]; · iexact R63
      isplitl [R64]; · iexact R64
      isplitl [R65]; · iexact R65
      isplitl [R66]; · iexact R66
      isplitl [R67]; · iexact R67
      isplitl [R68]; · iexact R68
      isplitl [R69]; · iexact R69
      isplitl [R70]; · iexact R70
      isplitl [R71]; · iexact R71
      isplitl [R72]; · iexact R72
      isplitl [R73]; · iexact R73
      isplitl [R74]; · iexact R74
      isplitl [R75]; · iexact R75
      isplitl [R76]; · iexact R76
      isplitl [R77]; · iexact R77
      isplitl [R78]; · iexact R78
      isplitl [R79]; · iexact R79
      isplitl [R80]; · iexact R80
      isplitl [R81]; · iexact R81
      isplitl [R82]; · iexact R82
      isplitl [R83]; · iexact R83
      isplitl [R84]; · iexact R84
      isplitl [R85]; · iexact R85
      isplitl [R86]; · iexact R86
      isplitl [R87]; · iexact R87
      isplitl [R88]; · iexact R88
      isplitl [R89]; · iexact R89
      isplitl [R90]; · iexact R90
      isplitl [R91]; · iexact R91
      isplitl [R92]; · iexact R92
      isplitl [R93]; · iexact R93
      isplitl [R94]; · iexact R94
      isplitl [R95]; · iexact R95
      isplitl [R96]; · iexact R96
      isplitl [R97]; · iexact R97
      isplitl [R98]; · iexact R98
      isplitl [R99]; · iexact R99
      isplitl [R100]; · iexact R100
      isplitl [R101]; · iexact R101
      isplitl [R102]; · iexact R102
      isplitl [R103]; · iexact R103
      isplitl [R104]; · iexact R104
      isplitl [R105]; · iexact R105
      isplitl [R106]; · iexact R106
      isplitl [R107]; · iexact R107
      isplitl [R108]; · iexact R108
      isplitl [R109]; · iexact R109
      isplitl [R110]; · iexact R110
      isplitl [R111]; · iexact R111
      isplitl [R112]; · iexact R112
      isplitl [R113]; · iexact R113
      isplitl [R114]; · iexact R114
      isplitl [R115]; · iexact R115
      isplitl [R116]; · iexact R116
      isplitl [R117]; · iexact R117
      isplitl [R118]; · iexact R118
      isplitl [R119]; · iexact R119
      isplitl [R120]; · iexact R120
      isplitl [R121]; · iexact R121
      isplitl [R122]; · iexact R122
      isplitl [R123]; · iexact R123
      isplitl [R124]; · iexact R124
      isplitl [R125]; · iexact R125
      isplitl [R126]; · iexact R126
      isplitl [R127]; · iexact R127
      isplitl [R128]; · iexact R128
      isplitl [R129]; · iexact R129
      isplitl [R130]; · iexact R130
      isplitl [R131]; · iexact R131
      isplitl [R132]; · iexact R132
      isplitl [R133]; · iexact R133
      isplitl [R134]; · iexact R134
      isplitl [R135]; · iexact R135
      isplitl [R136]; · iexact R136
      isplitl [R137]; · iexact R137
      isplitl [R138]; · iexact R138
      isplitl [R139]; · iexact R139
      isplitl [R140]; · iexact R140
      isplitl [R141]; · iexact R141
      isplitl [R142]; · iexact R142
      isplitl [R143]; · iexact R143
      isplitl [R144]; · iexact R144
      isplitl [R145]; · iexact R145
      isplitl [R146]; · iexact R146
      isplitl [R147]; · iexact R147
      isplitl [R148]; · iexact R148
      isplitl [R149]; · iexact R149
      isplitl [R150]; · iexact R150
      isplitl [R151]; · iexact R151
      isplitl [R152]; · iexact R152
      isplitl [R153]; · iexact R153
      isplitl [R154]; · iexact R154
      isplitl [R155]; · iexact R155
      isplitl [R156]; · iexact R156
      isplitl [R157]; · iexact R157
      isplitl [R158]; · iexact R158
      isplitl [R159]; · iexact R159
      isplitl [R160]; · iexact R160
      isplitl [R161]; · iexact R161
      isplitl [R162]; · iexact R162
      isplitl [R163]; · iexact R163
      isplitl [R164]; · iexact R164
      isplitl [R165]; · iexact R165
      isplitl [R166]; · iexact R166
      isplitl [R167]; · iexact R167
      isplitl [R168]; · iexact R168
      isplitl [R169]; · iexact R169
      isplitl [R170]; · iexact R170
      isplitl [R171]; · iexact R171
      isplitl [R172]; · iexact R172
      isplitl [R173]; · iexact R173
      isplitl [R174]; · iexact R174
      isplitl [R175]; · iexact R175
      isplitl [R176]; · iexact R176
      isplitl [R177]; · iexact R177
      isplitl [R178]; · iexact R178
      isplitl [R179]; · iexact R179
      isplitl [R180]; · iexact R180
      isplitl [R181]; · iexact R181
      isplitl [R182]; · iexact R182
      isplitl [R183]; · iexact R183
      isplitl [R184]; · iexact R184
      isplitl [R185]; · iexact R185
      isplitl [R186]; · iexact R186
      isplitl [R187]; · iexact R187
      isplitl [R188]; · iexact R188
      isplitl [R189]; · iexact R189
      isplitl [R190]; · iexact R190
      isplitl [R191]; · iexact R191
      isplitl [R192]; · iexact R192
      isplitl [R193]; · iexact R193
      isplitl [R194]; · iexact R194
      isplitl [R195]; · iexact R195
      isplitl [R196]; · iexact R196
      isplitl [R197]; · iexact R197
      isplitl [R198]; · iexact R198
      isplitl [R199]; · iexact R199
      isplitl [R200]; · iexact R200
      isplitl [R201]; · iexact R201
      isplitl [R202]; · iexact R202
      isplitl [R203]; · iexact R203
      isplitl [R204]; · iexact R204
      isplitl [R205]; · iexact R205
      isplitl [R206]; · iexact R206
      isplitl [R207]; · iexact R207
      isplitl [R208]; · iexact R208
      isplitl [R209]; · iexact R209
      isplitl [R210]; · iexact R210
      isplitl [R211]; · iexact R211
      isplitl [R212]; · iexact R212
      isplitl [R213]; · iexact R213
      isplitl [R214]; · iexact R214
      isplitl [R215]; · iexact R215
      isplitl [R216]; · iexact R216
      isplitl [R217]; · iexact R217
      isplitl [R218]; · iexact R218
      isplitl [R219]; · iexact R219
      isplitl [R220]; · iexact R220
      isplitl [R221]; · iexact R221
      isplitl [R222]; · iexact R222
      isplitl [R223]; · iexact R223
      isplitl [R224]; · iexact R224
      isplitl [R225]; · iexact R225
      isplitl [R226]; · iexact R226
      isplitl [R227]; · iexact R227
      isplitl [R228]; · iexact R228
      isplitl [R229]; · iexact R229
      isplitl [R230]; · iexact R230
      isplitl [R231]; · iexact R231
      isplitl [R232]; · iexact R232
      isplitl [R233]; · iexact R233
      isplitl [R234]; · iexact R234
      isplitl [R235]; · iexact R235
      isplitl [R236]; · iexact R236
      isplitl [R237]; · iexact R237
      isplitl [R238]; · iexact R238
      isplitl [R239]; · iexact R239
      isplitl [R240]; · iexact R240
      isplitl [R241]; · iexact R241
      isplitl [R242]; · iexact R242
      isplitl [R243]; · iexact R243
      isplitl [R244]; · iexact R244
      isplitl [R245]; · iexact R245
      isplitl [R246]; · iexact R246
      isplitl [R247]; · iexact R247
      isplitl [R248]; · iexact R248
      isplitl [R249]; · iexact R249
      isplitl [R250]; · iexact R250
      isplitl [R251]; · iexact R251
      isplitl [R252]; · iexact R252
      isplitl [R253]; · iexact R253
      isplitl [R254]; · iexact R254
      iexact R255
    sl_exec
    sl_step
    iapply Hk
    isplitl [Ht]; · iexact Ht
    isplitl [X0 X1 X2 X3 X4 X5 X6 X7 X8 X9 X10 X11 X12 X13 X14 X15 X16 X17 X18 X19 X20 X21 X22 X23 X24 X25 X26 X27 X28 X29 X30 X31 X32 X33 X34 X35 X36 X37 X38 X39 X40 X41 X42 X43 X44 X45 X46 X47 X48 X49 X50 X51 X52 X53 X54 X55 X56 X57 X58 X59 X60 X61 X62 X63 X64 X65 X66 X67 X68 X69 X70 X71 X72 X73 X74 X75 X76 X77 X78 X79 X80 X81 X82 X83 X84 X85 X86 X87 X88 X89 X90 X91 X92 X93 X94 X95 X96 X97 X98 X99 X100 X101 X102 X103 X104 X105 X106 X107 X108 X109 X110 X111 X112 X113 X114 X115 X116 X117 X118 X119 X120 X121 X122 X123 X124 X125 X126 X127 X128 X129 X130 X131 X132 X133 X134 X135 X136 X137 X138 X139 X140 X141 X142 X143 X144 X145 X146 X147 X148 X149 X150 X151 X152 X153 X154 X155 X156 X157 X158 X159 X160 X161 X162 X163 X164 X165 X166 X167 X168 X169 X170 X171 X172 X173 X174 X175 X176 X177 X178 X179 X180 X181 X182 X183 X184 X185 X186 X187 X188 X189 X190 X191 X192 X193 X194 X195 X196 X197 X198 X199 X200 X201 X202 X203 X204 X205 X206 X207 X208 X209 X210 X211 X212 X213 X214 X215 X216 X217 X218 X219 X220 X221 X222 X223 X224 X225 X226 X227 X228 X229 X230 X231 X232 X233 X234 X235 X236 X237 X238 X239 X240 X241 X242 X243 X244 X245 X246 X247 X248 X249 X250 X251 X252 X253 X254 X255]
    · isplitl [X0]; · iexact X0
      isplitl [X1]; · iexact X1
      isplitl [X2]; · iexact X2
      isplitl [X3]; · iexact X3
      isplitl [X4]; · iexact X4
      isplitl [X5]; · iexact X5
      isplitl [X6]; · iexact X6
      isplitl [X7]; · iexact X7
      isplitl [X8]; · iexact X8
      isplitl [X9]; · iexact X9
      isplitl [X10]; · iexact X10
      isplitl [X11]; · iexact X11
      isplitl [X12]; · iexact X12
      isplitl [X13]; · iexact X13
      isplitl [X14]; · iexact X14
      isplitl [X15]; · iexact X15
      isplitl [X16]; · iexact X16
      isplitl [X17]; · iexact X17
      isplitl [X18]; · iexact X18
      isplitl [X19]; · iexact X19
      isplitl [X20]; · iexact X20
      isplitl [X21]; · iexact X21
      isplitl [X22]; · iexact X22
      isplitl [X23]; · iexact X23
      isplitl [X24]; · iexact X24
      isplitl [X25]; · iexact X25
      isplitl [X26]; · iexact X26
      isplitl [X27]; · iexact X27
      isplitl [X28]; · iexact X28
      isplitl [X29]; · iexact X29
      isplitl [X30]; · iexact X30
      isplitl [X31]; · iexact X31
      isplitl [X32]; · iexact X32
      isplitl [X33]; · iexact X33
      isplitl [X34]; · iexact X34
      isplitl [X35]; · iexact X35
      isplitl [X36]; · iexact X36
      isplitl [X37]; · iexact X37
      isplitl [X38]; · iexact X38
      isplitl [X39]; · iexact X39
      isplitl [X40]; · iexact X40
      isplitl [X41]; · iexact X41
      isplitl [X42]; · iexact X42
      isplitl [X43]; · iexact X43
      isplitl [X44]; · iexact X44
      isplitl [X45]; · iexact X45
      isplitl [X46]; · iexact X46
      isplitl [X47]; · iexact X47
      isplitl [X48]; · iexact X48
      isplitl [X49]; · iexact X49
      isplitl [X50]; · iexact X50
      isplitl [X51]; · iexact X51
      isplitl [X52]; · iexact X52
      isplitl [X53]; · iexact X53
      isplitl [X54]; · iexact X54
      isplitl [X55]; · iexact X55
      isplitl [X56]; · iexact X56
      isplitl [X57]; · iexact X57
      isplitl [X58]; · iexact X58
      isplitl [X59]; · iexact X59
      isplitl [X60]; · iexact X60
      isplitl [X61]; · iexact X61
      isplitl [X62]; · iexact X62
      isplitl [X63]; · iexact X63
      isplitl [X64]; · iexact X64
      isplitl [X65]; · iexact X65
      isplitl [X66]; · iexact X66
      isplitl [X67]; · iexact X67
      isplitl [X68]; · iexact X68
      isplitl [X69]; · iexact X69
      isplitl [X70]; · iexact X70
      isplitl [X71]; · iexact X71
      isplitl [X72]; · iexact X72
      isplitl [X73]; · iexact X73
      isplitl [X74]; · iexact X74
      isplitl [X75]; · iexact X75
      isplitl [X76]; · iexact X76
      isplitl [X77]; · iexact X77
      isplitl [X78]; · iexact X78
      isplitl [X79]; · iexact X79
      isplitl [X80]; · iexact X80
      isplitl [X81]; · iexact X81
      isplitl [X82]; · iexact X82
      isplitl [X83]; · iexact X83
      isplitl [X84]; · iexact X84
      isplitl [X85]; · iexact X85
      isplitl [X86]; · iexact X86
      isplitl [X87]; · iexact X87
      isplitl [X88]; · iexact X88
      isplitl [X89]; · iexact X89
      isplitl [X90]; · iexact X90
      isplitl [X91]; · iexact X91
      isplitl [X92]; · iexact X92
      isplitl [X93]; · iexact X93
      isplitl [X94]; · iexact X94
      isplitl [X95]; · iexact X95
      isplitl [X96]; · iexact X96
      isplitl [X97]; · iexact X97
      isplitl [X98]; · iexact X98
      isplitl [X99]; · iexact X99
      isplitl [X100]; · iexact X100
      isplitl [X101]; · iexact X101
      isplitl [X102]; · iexact X102
      isplitl [X103]; · iexact X103
      isplitl [X104]; · iexact X104
      isplitl [X105]; · iexact X105
      isplitl [X106]; · iexact X106
      isplitl [X107]; · iexact X107
      isplitl [X108]; · iexact X108
      isplitl [X109]; · iexact X109
      isplitl [X110]; · iexact X110
      isplitl [X111]; · iexact X111
      isplitl [X112]; · iexact X112
      isplitl [X113]; · iexact X113
      isplitl [X114]; · iexact X114
      isplitl [X115]; · iexact X115
      isplitl [X116]; · iexact X116
      isplitl [X117]; · iexact X117
      isplitl [X118]; · iexact X118
      isplitl [X119]; · iexact X119
      isplitl [X120]; · iexact X120
      isplitl [X121]; · iexact X121
      isplitl [X122]; · iexact X122
      isplitl [X123]; · iexact X123
      isplitl [X124]; · iexact X124
      isplitl [X125]; · iexact X125
      isplitl [X126]; · iexact X126
      isplitl [X127]; · iexact X127
      isplitl [X128]; · iexact X128
      isplitl [X129]; · iexact X129
      isplitl [X130]; · iexact X130
      isplitl [X131]; · iexact X131
      isplitl [X132]; · iexact X132
      isplitl [X133]; · iexact X133
      isplitl [X134]; · iexact X134
      isplitl [X135]; · iexact X135
      isplitl [X136]; · iexact X136
      isplitl [X137]; · iexact X137
      isplitl [X138]; · iexact X138
      isplitl [X139]; · iexact X139
      isplitl [X140]; · iexact X140
      isplitl [X141]; · iexact X141
      isplitl [X142]; · iexact X142
      isplitl [X143]; · iexact X143
      isplitl [X144]; · iexact X144
      isplitl [X145]; · iexact X145
      isplitl [X146]; · iexact X146
      isplitl [X147]; · iexact X147
      isplitl [X148]; · iexact X148
      isplitl [X149]; · iexact X149
      isplitl [X150]; · iexact X150
      isplitl [X151]; · iexact X151
      isplitl [X152]; · iexact X152
      isplitl [X153]; · iexact X153
      isplitl [X154]; · iexact X154
      isplitl [X155]; · iexact X155
      isplitl [X156]; · iexact X156
      isplitl [X157]; · iexact X157
      isplitl [X158]; · iexact X158
      isplitl [X159]; · iexact X159
      isplitl [X160]; · iexact X160
      isplitl [X161]; · iexact X161
      isplitl [X162]; · iexact X162
      isplitl [X163]; · iexact X163
      isplitl [X164]; · iexact X164
      isplitl [X165]; · iexact X165
      isplitl [X166]; · iexact X166
      isplitl [X167]; · iexact X167
      isplitl [X168]; · iexact X168
      isplitl [X169]; · iexact X169
      isplitl [X170]; · iexact X170
      isplitl [X171]; · iexact X171
      isplitl [X172]; · iexact X172
      isplitl [X173]; · iexact X173
      isplitl [X174]; · iexact X174
      isplitl [X175]; · iexact X175
      isplitl [X176]; · iexact X176
      isplitl [X177]; · iexact X177
      isplitl [X178]; · iexact X178
      isplitl [X179]; · iexact X179
      isplitl [X180]; · iexact X180
      isplitl [X181]; · iexact X181
      isplitl [X182]; · iexact X182
      isplitl [X183]; · iexact X183
      isplitl [X184]; · iexact X184
      isplitl [X185]; · iexact X185
      isplitl [X186]; · iexact X186
      isplitl [X187]; · iexact X187
      isplitl [X188]; · iexact X188
      isplitl [X189]; · iexact X189
      isplitl [X190]; · iexact X190
      isplitl [X191]; · iexact X191
      isplitl [X192]; · iexact X192
      isplitl [X193]; · iexact X193
      isplitl [X194]; · iexact X194
      isplitl [X195]; · iexact X195
      isplitl [X196]; · iexact X196
      isplitl [X197]; · iexact X197
      isplitl [X198]; · iexact X198
      isplitl [X199]; · iexact X199
      isplitl [X200]; · iexact X200
      isplitl [X201]; · iexact X201
      isplitl [X202]; · iexact X202
      isplitl [X203]; · iexact X203
      isplitl [X204]; · iexact X204
      isplitl [X205]; · iexact X205
      isplitl [X206]; · iexact X206
      isplitl [X207]; · iexact X207
      isplitl [X208]; · iexact X208
      isplitl [X209]; · iexact X209
      isplitl [X210]; · iexact X210
      isplitl [X211]; · iexact X211
      isplitl [X212]; · iexact X212
      isplitl [X213]; · iexact X213
      isplitl [X214]; · iexact X214
      isplitl [X215]; · iexact X215
      isplitl [X216]; · iexact X216
      isplitl [X217]; · iexact X217
      isplitl [X218]; · iexact X218
      isplitl [X219]; · iexact X219
      isplitl [X220]; · iexact X220
      isplitl [X221]; · iexact X221
      isplitl [X222]; · iexact X222
      isplitl [X223]; · iexact X223
      isplitl [X224]; · iexact X224
      isplitl [X225]; · iexact X225
      isplitl [X226]; · iexact X226
      isplitl [X227]; · iexact X227
      isplitl [X228]; · iexact X228
      isplitl [X229]; · iexact X229
      isplitl [X230]; · iexact X230
      isplitl [X231]; · iexact X231
      isplitl [X232]; · iexact X232
      isplitl [X233]; · iexact X233
      isplitl [X234]; · iexact X234
      isplitl [X235]; · iexact X235
      isplitl [X236]; · iexact X236
      isplitl [X237]; · iexact X237
      isplitl [X238]; · iexact X238
      isplitl [X239]; · iexact X239
      isplitl [X240]; · iexact X240
      isplitl [X241]; · iexact X241
      isplitl [X242]; · iexact X242
      isplitl [X243]; · iexact X243
      isplitl [X244]; · iexact X244
      isplitl [X245]; · iexact X245
      isplitl [X246]; · iexact X246
      isplitl [X247]; · iexact X247
      isplitl [X248]; · iexact X248
      isplitl [X249]; · iexact X249
      isplitl [X250]; · iexact X250
      isplitl [X251]; · iexact X251
      isplitl [X252]; · iexact X252
      isplitl [X253]; · iexact X253
      isplitl [X254]; · iexact X254
      iexact X255
    isplitl [HS]; · iexact HS
    isplitl [D0 D1 D2 D3 D4 D5 D6 D7 D8 D9 D10 D11 D12 D13 D14 D15 D16 D17 D18 D19 D20 D21 D22 D23 D24 D25 D26 D27 D28 D29 D30 D31 D32 D33 D34 D35 D36 D37 D38 D39 D40 D41 D42 D43 D44 D45 D46 D47 D48 D49 D50 D51 D52 D53 D54 D55 D56 D57 D58 D59 D60 D61 D62 D63 D64 D65 D66 D67 D68 D69 D70 D71 D72 D73 D74 D75 D76 D77 D78 D79 D80 D81 D82 D83 D84 D85 D86 D87 D88 D89 D90 D91 D92 D93 D94 D95 D96 D97 D98 D99 D100 D101 D102 D103 D104 D105 D106 D107 D108 D109 D110 D111 D112 D113 D114 D115 D116 D117 D118 D119 D120 D121 D122 D123 D124 D125 D126 D127 D128 D129 D130 D131 D132 D133 D134 D135 D136 D137 D138 D139 D140 D141 D142 D143 D144 D145 D146 D147 D148 D149 D150 D151 D152 D153 D154 D155 D156 D157 D158 D159 D160 D161 D162 D163 D164 D165 D166 D167 D168 D169 D170 D171 D172 D173 D174 D175 D176 D177 D178 D179 D180 D181 D182 D183 D184 D185 D186 D187 D188 D189 D190 D191 D192 D193 D194 D195 D196 D197 D198 D199 D200 D201 D202 D203 D204 D205 D206 D207 D208 D209 D210 D211 D212 D213 D214 D215 D216 D217 D218 D219 D220 D221 D222 D223 D224 D225 D226 D227 D228 D229 D230 D231 D232 D233 D234 D235 D236 D237 D238 D239 D240 D241 D242 D243 D244 D245 D246 D247 D248 D249 D250 D251 D252 D253 D254 D255]
    · isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      isplitl [D10]; · iexact D10
      isplitl [D11]; · iexact D11
      isplitl [D12]; · iexact D12
      isplitl [D13]; · iexact D13
      isplitl [D14]; · iexact D14
      isplitl [D15]; · iexact D15
      isplitl [D16]; · iexact D16
      isplitl [D17]; · iexact D17
      isplitl [D18]; · iexact D18
      isplitl [D19]; · iexact D19
      isplitl [D20]; · iexact D20
      isplitl [D21]; · iexact D21
      isplitl [D22]; · iexact D22
      isplitl [D23]; · iexact D23
      isplitl [D24]; · iexact D24
      isplitl [D25]; · iexact D25
      isplitl [D26]; · iexact D26
      isplitl [D27]; · iexact D27
      isplitl [D28]; · iexact D28
      isplitl [D29]; · iexact D29
      isplitl [D30]; · iexact D30
      isplitl [D31]; · iexact D31
      isplitl [D32]; · iexact D32
      isplitl [D33]; · iexact D33
      isplitl [D34]; · iexact D34
      isplitl [D35]; · iexact D35
      isplitl [D36]; · iexact D36
      isplitl [D37]; · iexact D37
      isplitl [D38]; · iexact D38
      isplitl [D39]; · iexact D39
      isplitl [D40]; · iexact D40
      isplitl [D41]; · iexact D41
      isplitl [D42]; · iexact D42
      isplitl [D43]; · iexact D43
      isplitl [D44]; · iexact D44
      isplitl [D45]; · iexact D45
      isplitl [D46]; · iexact D46
      isplitl [D47]; · iexact D47
      isplitl [D48]; · iexact D48
      isplitl [D49]; · iexact D49
      isplitl [D50]; · iexact D50
      isplitl [D51]; · iexact D51
      isplitl [D52]; · iexact D52
      isplitl [D53]; · iexact D53
      isplitl [D54]; · iexact D54
      isplitl [D55]; · iexact D55
      isplitl [D56]; · iexact D56
      isplitl [D57]; · iexact D57
      isplitl [D58]; · iexact D58
      isplitl [D59]; · iexact D59
      isplitl [D60]; · iexact D60
      isplitl [D61]; · iexact D61
      isplitl [D62]; · iexact D62
      isplitl [D63]; · iexact D63
      isplitl [D64]; · iexact D64
      isplitl [D65]; · iexact D65
      isplitl [D66]; · iexact D66
      isplitl [D67]; · iexact D67
      isplitl [D68]; · iexact D68
      isplitl [D69]; · iexact D69
      isplitl [D70]; · iexact D70
      isplitl [D71]; · iexact D71
      isplitl [D72]; · iexact D72
      isplitl [D73]; · iexact D73
      isplitl [D74]; · iexact D74
      isplitl [D75]; · iexact D75
      isplitl [D76]; · iexact D76
      isplitl [D77]; · iexact D77
      isplitl [D78]; · iexact D78
      isplitl [D79]; · iexact D79
      isplitl [D80]; · iexact D80
      isplitl [D81]; · iexact D81
      isplitl [D82]; · iexact D82
      isplitl [D83]; · iexact D83
      isplitl [D84]; · iexact D84
      isplitl [D85]; · iexact D85
      isplitl [D86]; · iexact D86
      isplitl [D87]; · iexact D87
      isplitl [D88]; · iexact D88
      isplitl [D89]; · iexact D89
      isplitl [D90]; · iexact D90
      isplitl [D91]; · iexact D91
      isplitl [D92]; · iexact D92
      isplitl [D93]; · iexact D93
      isplitl [D94]; · iexact D94
      isplitl [D95]; · iexact D95
      isplitl [D96]; · iexact D96
      isplitl [D97]; · iexact D97
      isplitl [D98]; · iexact D98
      isplitl [D99]; · iexact D99
      isplitl [D100]; · iexact D100
      isplitl [D101]; · iexact D101
      isplitl [D102]; · iexact D102
      isplitl [D103]; · iexact D103
      isplitl [D104]; · iexact D104
      isplitl [D105]; · iexact D105
      isplitl [D106]; · iexact D106
      isplitl [D107]; · iexact D107
      isplitl [D108]; · iexact D108
      isplitl [D109]; · iexact D109
      isplitl [D110]; · iexact D110
      isplitl [D111]; · iexact D111
      isplitl [D112]; · iexact D112
      isplitl [D113]; · iexact D113
      isplitl [D114]; · iexact D114
      isplitl [D115]; · iexact D115
      isplitl [D116]; · iexact D116
      isplitl [D117]; · iexact D117
      isplitl [D118]; · iexact D118
      isplitl [D119]; · iexact D119
      isplitl [D120]; · iexact D120
      isplitl [D121]; · iexact D121
      isplitl [D122]; · iexact D122
      isplitl [D123]; · iexact D123
      isplitl [D124]; · iexact D124
      isplitl [D125]; · iexact D125
      isplitl [D126]; · iexact D126
      isplitl [D127]; · iexact D127
      isplitl [D128]; · iexact D128
      isplitl [D129]; · iexact D129
      isplitl [D130]; · iexact D130
      isplitl [D131]; · iexact D131
      isplitl [D132]; · iexact D132
      isplitl [D133]; · iexact D133
      isplitl [D134]; · iexact D134
      isplitl [D135]; · iexact D135
      isplitl [D136]; · iexact D136
      isplitl [D137]; · iexact D137
      isplitl [D138]; · iexact D138
      isplitl [D139]; · iexact D139
      isplitl [D140]; · iexact D140
      isplitl [D141]; · iexact D141
      isplitl [D142]; · iexact D142
      isplitl [D143]; · iexact D143
      isplitl [D144]; · iexact D144
      isplitl [D145]; · iexact D145
      isplitl [D146]; · iexact D146
      isplitl [D147]; · iexact D147
      isplitl [D148]; · iexact D148
      isplitl [D149]; · iexact D149
      isplitl [D150]; · iexact D150
      isplitl [D151]; · iexact D151
      isplitl [D152]; · iexact D152
      isplitl [D153]; · iexact D153
      isplitl [D154]; · iexact D154
      isplitl [D155]; · iexact D155
      isplitl [D156]; · iexact D156
      isplitl [D157]; · iexact D157
      isplitl [D158]; · iexact D158
      isplitl [D159]; · iexact D159
      isplitl [D160]; · iexact D160
      isplitl [D161]; · iexact D161
      isplitl [D162]; · iexact D162
      isplitl [D163]; · iexact D163
      isplitl [D164]; · iexact D164
      isplitl [D165]; · iexact D165
      isplitl [D166]; · iexact D166
      isplitl [D167]; · iexact D167
      isplitl [D168]; · iexact D168
      isplitl [D169]; · iexact D169
      isplitl [D170]; · iexact D170
      isplitl [D171]; · iexact D171
      isplitl [D172]; · iexact D172
      isplitl [D173]; · iexact D173
      isplitl [D174]; · iexact D174
      isplitl [D175]; · iexact D175
      isplitl [D176]; · iexact D176
      isplitl [D177]; · iexact D177
      isplitl [D178]; · iexact D178
      isplitl [D179]; · iexact D179
      isplitl [D180]; · iexact D180
      isplitl [D181]; · iexact D181
      isplitl [D182]; · iexact D182
      isplitl [D183]; · iexact D183
      isplitl [D184]; · iexact D184
      isplitl [D185]; · iexact D185
      isplitl [D186]; · iexact D186
      isplitl [D187]; · iexact D187
      isplitl [D188]; · iexact D188
      isplitl [D189]; · iexact D189
      isplitl [D190]; · iexact D190
      isplitl [D191]; · iexact D191
      isplitl [D192]; · iexact D192
      isplitl [D193]; · iexact D193
      isplitl [D194]; · iexact D194
      isplitl [D195]; · iexact D195
      isplitl [D196]; · iexact D196
      isplitl [D197]; · iexact D197
      isplitl [D198]; · iexact D198
      isplitl [D199]; · iexact D199
      isplitl [D200]; · iexact D200
      isplitl [D201]; · iexact D201
      isplitl [D202]; · iexact D202
      isplitl [D203]; · iexact D203
      isplitl [D204]; · iexact D204
      isplitl [D205]; · iexact D205
      isplitl [D206]; · iexact D206
      isplitl [D207]; · iexact D207
      isplitl [D208]; · iexact D208
      isplitl [D209]; · iexact D209
      isplitl [D210]; · iexact D210
      isplitl [D211]; · iexact D211
      isplitl [D212]; · iexact D212
      isplitl [D213]; · iexact D213
      isplitl [D214]; · iexact D214
      isplitl [D215]; · iexact D215
      isplitl [D216]; · iexact D216
      isplitl [D217]; · iexact D217
      isplitl [D218]; · iexact D218
      isplitl [D219]; · iexact D219
      isplitl [D220]; · iexact D220
      isplitl [D221]; · iexact D221
      isplitl [D222]; · iexact D222
      isplitl [D223]; · iexact D223
      isplitl [D224]; · iexact D224
      isplitl [D225]; · iexact D225
      isplitl [D226]; · iexact D226
      isplitl [D227]; · iexact D227
      isplitl [D228]; · iexact D228
      isplitl [D229]; · iexact D229
      isplitl [D230]; · iexact D230
      isplitl [D231]; · iexact D231
      isplitl [D232]; · iexact D232
      isplitl [D233]; · iexact D233
      isplitl [D234]; · iexact D234
      isplitl [D235]; · iexact D235
      isplitl [D236]; · iexact D236
      isplitl [D237]; · iexact D237
      isplitl [D238]; · iexact D238
      isplitl [D239]; · iexact D239
      isplitl [D240]; · iexact D240
      isplitl [D241]; · iexact D241
      isplitl [D242]; · iexact D242
      isplitl [D243]; · iexact D243
      isplitl [D244]; · iexact D244
      isplitl [D245]; · iexact D245
      isplitl [D246]; · iexact D246
      isplitl [D247]; · iexact D247
      isplitl [D248]; · iexact D248
      isplitl [D249]; · iexact D249
      isplitl [D250]; · iexact D250
      isplitl [D251]; · iexact D251
      isplitl [D252]; · iexact D252
      isplitl [D253]; · iexact D253
      isplitl [D254]; · iexact D254
      iexact D255
    isplitl [H3]; · iexact H3
    isplitl [H4]; · iexact H4
    iexists _; iexact HO

end Cert.Kernel.Exec0

end
-- ==== Proof.Exec0PieceW.lean ====
import proofs.«409488_j73529840107771_1_alg».proof.Proof.Exec0W
import proofs.«409488_j73529840107771_1_alg».proof.Proof.ExecOffs0W
import proofs.«409488_j73529840107771_1_alg».proof.Proof.RowsVal0W
import Idealize.ShloMosaic.Lib.Pipeline.FrameBody
import Idealize.ShloMosaic.Lib.Pipeline.Value

noncomputable section

namespace Cert.Kernel.Exec0

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.Kernel.Iface Cert.Kernel.Rows0

theorem coords_val : ∀ t : Fin grid0.N, (grid0.coords t 0).val = t.val := by decide

theorem zero2 : (![0, 0] : Fin 2 → ℕ) = fun _ => 0 := by
  funext a; fin_cases a <;> rfl

set_option maxHeartbeats 4000000 in
/-- The run writes one piece covering the whole output block: the product of the scratch, which holds the gathered rows, with the weight block. -/
theorem piece_read [∀ e, Nonempty (Elt F e)] (c : Dev nD) (t : Fin grid0.N)
    (M3 : Memref sig .tc .vmem S1024x1024 .bf16) (h3 : M3.IsWhole) (M4 : Memref sig .tc .vmem S256x1024 .f32) (h4 : M4.IsWhole)
    (pf : Bf (F := F) c TBL) (hpf : ∀ j, (pf j).toNat < 32768) (f : Bf (F := F) c SRC) (d : Bf (F := F) c (Memref.whole cc0_scratch0))
    (w3 : Bf (F := F) c M3) (f4 : Bf (F := F) c M4) :
    M4.view.read (Elt F) (M4.view.writes (Elt F) f4 (run c t M3 h3 M4 h4 pf hpf f d w3 f4).1)
      = k0_pay1 (Cert.Spec.gatherRows t.val pf f) (M3.view.read (Elt F) w3)
:= by
  have hL : (run c t M3 h3 M4 h4 pf hpf f d w3 f4).1
      = [⟨Rect.unit (s := S256x1024) ![0, 0] S256x1024.size Shapes1.Facts₀.inb_S256x1024_S256x1024_0_0,
          k0_pay1 (View.readAt (Elt F) (Memref.whole cc0_scratch0).view (Rect.unit (s := S256x1024) ![0, 0] S256x1024.size Shapes1.Facts₀.inb_S256x1024_S256x1024_0_0)
                    (glued c (Memref.whole cc0_scratch0) (landed c (Memref.whole cc0_scratch0) (offs t) (hin t) pf hpf f d)))
                  (View.readAt (Elt F) M3.view (Rect.unit (s := S1024x1024) ![0, 0] S1024x1024.size Shapes1.Facts₀.inb_S1024x1024_S1024x1024_0_0) w3)⟩] := rfl
  rw [hL]
  rw [View.read_writes_eq_canon _ _ _ (fun y => ⟨_, List.mem_singleton_self _,
    View.mem_set_unit_zero (S := S256x1024) zero2 Shapes1.Facts₀.inb_S256x1024_S256x1024_0_0 y⟩)]
  rw [View.canon_unit_zero (S := S256x1024) zero2, View.readAt_eq_ld, View.readAt_eq_ld, View.ld_unit_zero (S := S1024x1024) zero2, View.ld_unit_zero (S := S256x1024) zero2]
  refine congrArg (fun A => k0_pay1 A (M3.view.read (Elt F) w3)) ?_
  rw [← coords_val t]
  exact landed_read c (Memref.whole cc0_scratch0) (offs t) (hin t) pf hpf f d (Memref.isWhole_whole _) (grid0.coords t 0).val (grid0.coords t 0).isLt (hoffs t) _
    (fun r i hi => glued_on c (Memref.whole cc0_scratch0) _ r i hi)

end Cert.Kernel.Exec0

end
-- ==== Proof.Body0W.lean ====
import proofs.«409488_j73529840107771_1_alg».proof.Proof.Exec0W
import proofs.«409488_j73529840107771_1_alg».proof.Proof.ExecOffs0W
import proofs.«409488_j73529840107771_1_alg».proof.Proof.Exec0PieceW
import proofs.«409488_j73529840107771_1_alg».proof.Proof.Rows0W
import proofs.«409488_j73529840107771_1_alg».proof.Proof.RowsVal0W
import proofs.«409488_j73529840107771_1_alg».proof.Proof.Chains

noncomputable section

namespace Cert.Kernel.Body0

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.Kernel.Iface Cert.Kernel.Rows0 Cert.Kernel.Exec0

theorem scr_own (c : Dev nD) (ds : Bf (F := F) c (Memref.whole cc0_scratch0)) :
    (pt c (Memref.whole cc0_scratch0) ds : sProp 𝕄) = ((Memref.whole cc0_scratch0).view.loc (c : Thread nD τ) ↦[(Memref.whole cc0_scratch0).view.set]{fullShare} ds) := by
  rw [(Memref.isWhole_whole cc0_scratch0).set_eq_univ]

set_option maxHeartbeats 8000000 in
/-- One grid step of the first kernel: the scratch is filled row by row with block t of the gathered matrix, and the output block is its product with the weights. -/
theorem kernelRun0 [∀ e, Nonempty (Elt F e)] (c : Dev nD) (t : Fin grid0.N)
    (M3 : Memref sig .tc .vmem S1024x1024 .bf16) (h3 : M3.IsWhole) (M4 : Memref sig .tc .vmem S256x1024 .f32) (h4 : M4.IsWhole)
    (w : Vec F S1024x1024 .bf16)
    (pf : Bf (F := F) c (Memref.whole main_arg3)) (hpf : ∀ j, (pf j).toNat < 32768)
    (f : Bf (F := F) c (Memref.whole main_v0))
    (W : Waits sig Unit) (K : PUnit → sProp 𝕄) :
    iprop(owns (c : Thread nD τ) M3 fullShare w ∗ (∃ d, owns (c : Thread nD τ) M4 fullShare d)
        ∗ (∃ d, pt c (Memref.whole cc0_scratch0) d)
        ∗ Pipeline.ownSems0 (Ix := Unit) (Name := ℕ) (U := Pipeline.UD sig nD τ) (Lvl := ℕ) (Val := Elt F) (τ := τ) osem0 c
        ∗ pt c (Memref.whole main_arg3) pf ∗ pt c (Memref.whole main_v0) f ∗ owes (c : Thread nD τ) 0 W
        ∗ (iprop(owns (c : Thread nD τ) M3 fullShare w
              ∗ owns (c : Thread nD τ) M4 fullShare (k0_pay1 (Cert.Spec.gatherRows t.val pf f) w)
              ∗ (∃ d, pt c (Memref.whole cc0_scratch0) d)
              ∗ Pipeline.ownSems0 (Ix := Unit) (Name := ℕ) (U := Pipeline.UD sig nD τ) (Lvl := ℕ) (Val := Elt F) (τ := τ) osem0 c
              ∗ pt c (Memref.whole main_arg3) pf ∗ pt c (Memref.whole main_v0) f ∗ (∃ W', owes (c : Thread nD τ) 0 W')) -∗ K ⟨⟩))
      ⊢ wp frame (wpE (defs₀ (F := F)) Variants.none c none) Set.univ
          (cc0__gather_matmul_kernel (grid0.coords t) (Memref.whole main_arg3) (Memref.isWhole_whole _) (Memref.whole main_v0) (Memref.isWhole_whole _) M3 h3 M4 h4 (Memref.whole cc0_scratch0) (Memref.isWhole_whole _) cc0_scratch1) K := by
  rw [cells_eq]
  unfold owns
  rw [h3.set_eq_univ, h4.set_eq_univ]
  iintro ⟨⟨%w3, %hw3, H3⟩, ⟨%d4, %f4, -, H4⟩, ⟨%ds, Hs⟩, Hsems, Htbl, Hsrc, HO, Hk⟩
  ihave Hs' := (Entails.of_eq (scr_own c ds)) $$ Hs
  ihave HR := (rows_split c (Memref.whole cc0_scratch0) ds (Memref.isWhole_whole _)) $$ Hs'
  ihave HT := (toks_split c f) $$ Hsrc
  icases HT with ⟨⟨%Rm, HRm, %hback⟩, HX⟩
  iapply ((run c t M3 h3 M4 h4 pf hpf f ds w3 f4).2 W K)
  isplitl [Htbl]; · iexact Htbl
  isplitl [HX]; · iexact HX
  isplitl [HR]; · iexact HR
  isplitl [Hsems]
  · iapply (Entails.of_eq (Cert.Chains.bigSep_fin256 (fun r h => sv c (cc0_scratch1.ix (ValueIdx.ix1 ⟨r, h⟩)))))
    iexact Hsems
  isplitl [H3]; · iexact H3
  isplitl [H4]; · iexact H4
  isplitl [HO]; · iexact HO
  iintro ⟨Htbl, HXc, HS, HDc, H3, H4, HO'⟩
  ihave Hsrc' := hback $$ [HRm HXc]
  · isplitl [HRm]; · iexact HRm
    iexact HXc
  iapply Hk
  isplitl [H3]
  · iexists w3; isplitr; · ipureintro; exact hw3
    iexact H3
  isplitl [H4]
  · iexists _; isplitr; swap; · iexact H4
    ipureintro
    rw [← hw3]
    exact piece_read c t M3 h3 M4 h4 pf hpf f ds w3 f4
  isplitl [HS]
  · iexists _
    iapply (Entails.of_eq (scr_own c _).symm)
    iexact HS
  isplitl [HDc]
  · iapply (Entails.of_eq (Cert.Chains.bigSep_fin256 (fun r h => sv c (cc0_scratch1.ix (ValueIdx.ix1 ⟨r, h⟩)))).symm)
    iexact HDc
  isplitl [Htbl]; · iexact Htbl
  isplitl [Hsrc']; · iexact Hsrc'
  iexact HO'

end Cert.Kernel.Body0

end
-- ==== Proof.Region0W.lean ====
import proofs.«409488_j73529840107771_1_alg».proof.Proof.Body0W
import Idealize.ShloMosaic.Lib.Pipeline.FrameBody

noncomputable section

namespace Cert.Kernel.Region0

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.Kernel.Iface

variable (V : (c : Dev nD) → (b : Ref sig .tc) → Buf (Elt F) ((c : Thread nD τ).loc b))

def H0 : Finset (Ref sig .tc) := {main_v0, main_arg3}

def wblk (a : (pcfg0 (F := F)).Adm) (c : Dev nD) (t : Fin (cfg0 a).N) : (((cfg0 a).win 0).xblock ((cfg0 a).grid.coords t)).Idx → Elt F ((cfg0 a).win 0).elt :=
  (((cfg0 a).win 0).blk t).view.read (Elt F) (V c (Pipeline.arrRef spec0 0))

def dat0 (a : (pcfg0 (F := F)).Adm) (c : Dev nD) : Dat τ (Elt F) Unit ℕ (Pipeline.UD sig nD τ) ℕ (cfg0 a) c where
  A w := V c (Pipeline.arrRef spec0 w)
  after w t := match w with
    | ⟨0, _⟩ => wblk V a c t
    | ⟨1, _⟩ => k0_pay1 (Cert.Spec.gatherRows t.val (V c main_arg3) (V c main_v0)) (wblk V a c t)
  Φ _ := Pipeline.ΦD osem0 spec0 H0 V c
  q _ := fullShare
  owed _ := 0

theorem before_w (a : (pcfg0 (F := F)).Adm) (c : Dev nD) (t : Fin (cfg0 a).N) (d) :
    (dat0 V a c).before 0 t d = wblk V a c t :=
  ((dat0 V a c).before_in_eq_fetched 0 rfl (fun _ => rfl) (fun _ _ _ => rfl) (fun _ => rfl) t d).trans rfl

theorem heldBufs_eq (c : Dev nD) :
    (bigSep H0 (fun b => ((c : Thread nD τ).loc b) ↦{fullShare} V c b) : sProp 𝕄)
      = iprop(pt c (Memref.whole main_v0) (V c main_v0) ∗ pt c (Memref.whole main_arg3) (V c main_arg3)) := by
  rw [BI.bigSep_eq_bigSepL_of_eq [main_v0, main_arg3] (by decide) (by decide)]; rfl

theorem inv_eq (c : Dev nD) :
    (Pipeline.ΦD osem0 spec0 H0 V c : sProp 𝕄)
      = iprop(((∃ f, pt c (Memref.whole cc0_scratch0) f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f))
          ∗ (∃ r, prngReg c r)
          ∗ Pipeline.ownSems0 (Ix := Unit) (Name := ℕ) (U := Pipeline.UD sig nD τ) (Lvl := ℕ) (Val := Elt F) (τ := τ) osem0 c
          ∗ pt c (Memref.whole main_v0) (V c main_v0) ∗ pt c (Memref.whole main_arg3) (V c main_arg3)) := by
  rw [Pipeline.ΦD_eq, scopedRest0_eq, heldBufs_eq]

abbrev stgW (a : (pcfg0 (F := F)).Adm) (t : Fin (cfg0 a).N) : Memref sig .tc .vmem S1024x1024 .bf16 := spec0_0.stage ((cfg0 a).slots t 0)
abbrev stgO (a : (pcfg0 (F := F)).Adm) (t : Fin (cfg0 a).N) : Memref sig .tc .vmem S256x1024 .f32 := spec0_1.stage ((cfg0 a).slots t 1)
abbrev hstgW (a : (pcfg0 (F := F)).Adm) (t : Fin (cfg0 a).N) : (stgW a t).IsWhole := hstage0_0 (((cfg0 a).slots t 0).cast nbuf0_0)
abbrev hstgO (a : (pcfg0 (F := F)).Adm) (t : Fin (cfg0 a).N) : (stgO a t).IsWhole := hstage0_1 (((cfg0 a).slots t 1).cast nbuf0_1)

theorem prog_eq (a : (pcfg0 (F := F)).Adm) (t : Fin (cfg0 a).N) :
    defs₀ (F := F) .tc (cfg0 a).body ((cfg0 a).bodyArgs t ((cfg0 a).slots t))
      = cc0__gather_matmul_kernel (grid0.coords t) (Memref.whole main_arg3) (Memref.isWhole_whole _) (Memref.whole main_v0) (Memref.isWhole_whole _)
          (stgW a t) (hstgW a t) (stgO a t) (hstgO a t) (Memref.whole cc0_scratch0) (Memref.isWhole_whole _) cc0_scratch1 := rfl

theorem body_obligation0 [∀ e, Nonempty (Elt F e)] (a : (pcfg0 (F := F)).Adm) (c : Dev nD)
    (hpf : ∀ j, (V c main_arg3 j).toNat < 32768) :
    BodyObligation (dat0 (F := F) V a c) (defs₀ (F := F)) Variants.none () Set.univ := by

  intro t
  rw [bigSep_W0, bigSep_W0]
  dsimp only
  rw [show defs₀ (F := F) .tc 0 (t, (cfg0 a).slots t) = _ from prog_eq a t]
  rw [show (dat0 V a c).Φ t.succ = _ from inv_eq V c, show (dat0 V a c).Φ t.castSucc = _ from inv_eq V c]
  unfold Dat.owesAt Pipeline.owesWithin
  rw [show (dat0 V a c).owed t.castSucc = 0 from rfl, show (dat0 V a c).owed t.succ = 0 from rfl]
  iintro ⟨⟨⟨Hsc, Hs0, Hs1⟩, Hg, Hq, Hx, Hi⟩, ⟨%W, -, HW⟩, ⟨%d0, Hw⟩, ⟨%d1, Ho⟩⟩
  rw [before_w V a c t d0]
  iapply (Body0.kernelRun0 c t (stgW a t) (hstgW a t) (stgO a t) (hstgO a t) (wblk V a c t) (V c main_arg3) hpf (V c main_v0) W _)
  isplitl [Hw]; · iexact Hw
  isplitl [Ho]; · iexists _; iexact Ho
  isplitl [Hsc]; · iexact Hsc
  isplitl [Hq]; · iexact Hq
  isplitl [Hi]; · iexact Hi
  isplitl [Hx]; · iexact Hx
  isplitl [HW]; · iexact HW
  iintro ⟨Hw, Ho, Hsc, Hq, Hi, Hx, ⟨%W', HW'⟩⟩
  isplitl [Hsc Hs0 Hs1 Hg Hq Hx Hi]
  · isplitl [Hsc Hs0 Hs1]
    · isplitl [Hsc]; · iexact Hsc
      isplitl [Hs0]; · iexact Hs0
      iexact Hs1
    isplitl [Hg]; · iexact Hg
    isplitl [Hq]; · iexact Hq
    isplitl [Hx]; · iexact Hx
    iexact Hi
  isplitl [HW']
  · iexists W'; isplitr; · ipureintro; exact fun _ _ => Or.inl trivial
    iexact HW'
  isplitl [Hw]; · iexact Hw
  iexact Ho

end Cert.Kernel.Region0

end
-- ==== Proof.RowsDef1W.lean ====
import proofs.«409488_j73529840107771_1_alg».proof.Proof.IfaceW

noncomputable section

namespace Cert.Kernel.Rows1

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.Kernel.Iface

abbrev TBL : Memref sig .tc .smem S16384 .i32 := Memref.whole main_arg2
abbrev SRC : Memref sig .tc .hbm S32768x1024 .f32 := Memref.whole main_v12
abbrev base : ℕ := 261

theorem row_inb (w : BitVec 32) (h : w.toNat < 32768) : ∀ a, (![w.toNat, 0] : Fin 2 → Nat) a + S1x1024.size a ≤ S32768x1024.size a := by
  intro a
  fin_cases a
  · show w.toNat + 1 ≤ 32768
    omega
  · show 0 + 1024 ≤ 1024
    omega

theorem dst_inb (r : ℕ) (h : r < 256) : ∀ a, (![r, 0] : Fin 2 → Nat) a + S1x1024.size a ≤ S256x1024.size a := by
  intro a
  fin_cases a
  · show r + 1 ≤ 256
    omega
  · show 0 + 1024 ≤ 1024
    omega

abbrev rowM (M : Memref sig .tc .vmem S256x1024 .f32) (r : ℕ) (h : ∀ a, (![r, 0] : Fin 2 → ℕ) a + S1x1024.size a ≤ S256x1024.size a) : Memref sig .tc .vmem S1024 .f32 :=
  (M.slice (Rect.unit (s := S256x1024) ![r, 0] S1x1024.size h) (fun _ => rfl)).squeeze S1024 Shapes1.Facts₀.squeezes_S1x1024_S1024

/-- Row r of the buffer, held through exactly its own 1024 elements at the contents d of the whole buffer. -/
abbrev rowH (c : Dev nD) (M : Memref sig .tc .vmem S256x1024 .f32) (r : ℕ) (h : ∀ a, (![r, 0] : Fin 2 → ℕ) a + S1x1024.size a ≤ S256x1024.size a) (d : Bf (F := F) c M) : sProp 𝕄 :=
  (rowM M r h).view.loc (c : Thread nD τ) ↦[(rowM M r h).view.set]{fullShare} d

abbrev tokS (c : Dev nD) (i : ℕ) (f : Bf (F := F) c SRC) : sProp 𝕄 :=
  SRC.view.loc (c : Thread nD τ) ↦{Transfers.shareTokN fullShare i} f

abbrev sv (c : Dev nD) (i : DmaSem sig) : sProp 𝕄 := semVal ((c : Thread nD τ), SemLoc.dma i) 0

abbrev wordAt (c : Dev nD) (off : Fin 1 → ℕ) (h : ∀ a, off a + S1.size a ≤ S16384.size a) (pf : Bf (F := F) c TBL) : BitVec 32 :=
  View.readAt (Elt F) TBL.view (Rect.unit (s := S16384) off S1.size h).toLoadRect pf (Shape.Idx.first (show 0 < S1.numel by decide))

abbrev rowPay (c : Dev nD) (w : BitVec 32) (h : ∀ a, (![w.toNat, 0] : Fin 2 → ℕ) a + S1x1024.size a ≤ S32768x1024.size a) (f : Bf (F := F) c SRC) : S1024.Idx → Elt F .f32 :=
  ReadAs.same.apply (View.read (Elt F) ((SRC.slice (Rect.unit (s := S32768x1024) ![w.toNat, 0] S1x1024.size h) (fun _ => rfl)).squeeze S1024 Shapes1.Facts₀.squeezes_S1x1024_S1024).view f)

section Landed

variable (c : Dev nD) (M : Memref sig .tc .vmem S256x1024 .f32)
  (offs : Fin 256 → Fin 1 → ℕ) (hin : ∀ r a, offs r a + S1.size a ≤ S16384.size a)
  (pf : Bf (F := F) c TBL) (hpf : ∀ j, (pf j).toNat < 32768) (f : Bf (F := F) c SRC) (d : Bf (F := F) c M)

/-- The buffer's contents once copy r has landed: d with the source row that the table word names written over row r. -/
abbrev landed (r : Fin 256) : Bf (F := F) c M :=
  (rowM M r.val (dst_inb r.val r.isLt)).view.writes (Elt F) d
    [⟨Rect.whole S1024, rowPay c (wordAt c (offs r) (hin r) pf) (row_inb _ (hpf _)) f⟩]

end Landed

end Cert.Kernel.Rows1

end
-- ==== Proof.RowsGlue1W.lean ====
import proofs.«409488_j73529840107771_1_alg».proof.Proof.RowsDef1W

noncomputable section

namespace Cert.Kernel.Rows1

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.Kernel.Iface

/-- One contents out of 256 row-wise ones: each element takes the value of the family member whose row it lies in. -/
def glued (c : Dev nD) (M : Memref sig .tc .vmem S256x1024 .f32) (fs : Fin 256 → Bf (F := F) c M) : Bf (F := F) c M :=
  fun i => fs (Classical.epsilon fun r : Fin 256 => i ∈ (rowM M r.val (dst_inb r.val r.isLt)).view.set) i

end Cert.Kernel.Rows1

end
-- ==== Proof.Rows1W.lean ====
import proofs.«409488_j73529840107771_1_alg».proof.Proof.RowsGlue1W

noncomputable section

namespace Cert.Kernel.Rows1

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.Kernel.Iface

theorem rowM_set (M : Memref sig .tc .vmem S256x1024 .f32) (r : ℕ) (h : ∀ a, (![r, 0] : Fin 2 → ℕ) a + S1x1024.size a ≤ S256x1024.size a) :
    (rowM M r h).view.set = (Rect.unit (s := S256x1024) ![r, 0] S1x1024.size h).set.map M.view.emb := by
  show ((M.view.slice _).reshape _ _).set = _
  rw [View.set_reshape, View.set_slice]

/-- Distinct rows are disjoint: their rectangles are separated on the row axis. -/
theorem rowM_disjoint (M : Memref sig .tc .vmem S256x1024 .f32) (r r' : Fin 256) (hne : r ≠ r') :
    Disjoint (rowM M r.val (dst_inb r.val r.isLt)).view.set (rowM M r'.val (dst_inb r'.val r'.isLt)).view.set := by
  rw [rowM_set, rowM_set]
  refine (Finset.disjoint_map _).mpr (Rect.unit_disjoint 0 ?_)
  have hv : r.val ≠ r'.val := fun e => hne (Fin.ext e)
  show r.val + 1 ≤ r'.val ∨ r'.val + 1 ≤ r.val
  omega

/-- The 256 rows cover the buffer: an element lies in the row its first coordinate names. -/
theorem rowM_cover (M : Memref sig .tc .vmem S256x1024 .f32) :
    M.view.set = Finset.univ.biUnion fun r : Fin 256 => (rowM M r.val (dst_inb r.val r.isLt)).view.set := by
  ext i
  rw [Finset.mem_biUnion]
  constructor
  · intro hi
    rw [View.set] at hi
    obtain ⟨x, -, rfl⟩ := Finset.mem_map.mp hi
    refine ⟨⟨(x 0).val, (x 0).isLt⟩, Finset.mem_univ _, ?_⟩
    rw [rowM_set]
    refine Finset.mem_map_of_mem _ (Rect.mem_set_unit.mpr fun a => ?_)
    fin_cases a
    · exact ⟨Nat.le_refl _, Nat.lt_succ_self _⟩
    · refine ⟨Nat.zero_le _, ?_⟩
      have h1 : (x 1).val < 1024 := (x 1).isLt
      show (x 1).val < 0 + 1024
      omega
  · rintro ⟨r, -, hi⟩
    rw [rowM_set] at hi
    obtain ⟨x, -, rfl⟩ := Finset.mem_map.mp hi
    exact M.view.emb_mem_set x

section Landed

variable (c : Dev nD) (M : Memref sig .tc .vmem S256x1024 .f32)
  (offs : Fin 256 → Fin 1 → ℕ) (hin : ∀ r a, offs r a + S1.size a ≤ S16384.size a)
  (pf : Bf (F := F) c TBL) (hpf : ∀ j, (pf j).toNat < 32768) (f : Bf (F := F) c SRC) (d : Bf (F := F) c M)

/-- A buffer held whole is its 256 rows held separately, since the rows are disjoint and cover it. -/
theorem rows_split (hM : M.IsWhole) :
    (M.view.loc (c : Thread nD τ) ↦[M.view.set]{fullShare} d : sProp 𝕄)
      ⊢ bigSep Finset.univ fun r : Fin 256 => rowH c M r.val (dst_inb r.val r.isLt) d := by
  have h : (M.view.loc (c : Thread nD τ) ↦[Finset.univ.biUnion fun r : Fin 256 => (rowM M r.val (dst_inb r.val r.isLt)).view.set]{fullShare} d : sProp 𝕄)
      = bigSep Finset.univ fun r : Fin 256 => M.view.loc (c : Thread nD τ) ↦[(rowM M r.val (dst_inb r.val r.isLt)).view.set]{fullShare} d :=
    pointsTo_biUnion Finset.univ _ fun r _ r' _ hne => rowM_disjoint M r r' hne
  rw [← rowM_cover M] at h
  rw [h]

/-- 256 rows held at contents of their own are the whole buffer at some contents agreeing with each on its row. -/
theorem rows_join (hM : M.IsWhole) (fs : Fin 256 → Bf (F := F) c M) :
    (bigSep Finset.univ fun r : Fin 256 => rowH c M r.val (dst_inb r.val r.isLt) (fs r))
      ⊢ (iprop(∃ g : Bf (F := F) c M, ⌜∀ r : Fin 256, ∀ i ∈ (rowM M r.val (dst_inb r.val r.isLt)).view.set, g i = fs r i⌝
            ∗ M.view.loc (c : Thread nD τ) ↦[M.view.set]{fullShare} g) : sProp 𝕄) := by
  have h : (bigSep Finset.univ fun r : Fin 256 => M.view.loc (c : Thread nD τ) ↦[(rowM M r.val (dst_inb r.val r.isLt)).view.set]{fullShare} fs r)
      ⊢ (iprop(∃ g : Bf (F := F) c M, ⌜∀ r ∈ (Finset.univ : Finset (Fin 256)), ∀ i ∈ (rowM M r.val (dst_inb r.val r.isLt)).view.set, g i = fs r i⌝
            ∗ M.view.loc (c : Thread nD τ) ↦[Finset.univ.biUnion fun r : Fin 256 => (rowM M r.val (dst_inb r.val r.isLt)).view.set]{fullShare} g) : sProp 𝕄) :=
    pointsTo_biUnion_join Finset.univ _ fs (fs ⟨0, by decide⟩) fun r _ r' _ hne => rowM_disjoint M r r' hne
  rw [← rowM_cover M] at h
  refine h.trans ?_
  iintro ⟨%g, %hg, H⟩
  iexists g
  isplitr
  · ipureintro; exact fun r i hi => hg r (Finset.mem_univ r) i hi
  · iexact H

end Landed

/-- The source held whole gives 256 read shares, numbered base … base + 255, and a remainder that takes them back. -/
theorem toks_split (c : Dev nD) (f : Bf (F := F) c SRC) :
    (pt c SRC f : sProp 𝕄) ⊢ iprop((∃ R : sProp 𝕄, R ∗ ⌜iprop(R ∗ bigSep Finset.univ fun r : Fin 256 => tokS c (base + r.val) f) ⊢ (pt c SRC f : sProp 𝕄)⌝)
        ∗ bigSep Finset.univ fun r : Fin 256 => tokS c (base + r.val) f) := by

  let emb : Fin 256 ↪ ℕ := ⟨fun r => base + r.val, fun a b h => Fin.ext (Nat.add_left_cancel h)⟩
  have hsub : Finset.univ.map emb ⊆ Finset.range (base + 256) := by
    intro i hi
    obtain ⟨r, -, rfl⟩ := Finset.mem_map.mp hi
    refine Finset.mem_range.mpr ?_
    show base + r.val < base + 256
    omega
  have hb : bigSep (Finset.range (base + 256)) (fun i => (tokS c i f : sProp 𝕄))
      = iprop((bigSep Finset.univ fun r : Fin 256 => tokS c (base + r.val) f)
          ∗ bigSep (Finset.range (base + 256) \ Finset.univ.map emb) (fun i => tokS c i f)) := by
    rw [bigSep_sdiff_split hsub, bigSep_map]
    rfl

  have h : (pt c SRC f : sProp 𝕄)
      ⊣⊢ iprop((SRC.view.loc (c : Thread nD τ) ↦{Transfers.shareDrop fullShare (base + 256)} f)
          ∗ bigSep (Finset.range (base + 256)) (fun i => tokS c i f)) :=
    Transfers.pointsTo_toks_range fullShare (base + 256)
  rw [hb] at h
  refine h.1.trans ?_
  iintro ⟨HD, HT, HR⟩
  isplitr [HT]
  · iexists iprop((SRC.view.loc (c : Thread nD τ) ↦{Transfers.shareDrop fullShare (base + 256)} f)
        ∗ bigSep (Finset.range (base + 256) \ Finset.univ.map emb) (fun i => tokS c i f))
    isplitl [HD HR]
    · isplitl [HD]
      · iexact HD
      · iexact HR
    · ipureintro
      refine .trans ?_ h.2
      iintro ⟨⟨HD, HR⟩, HT⟩
      isplitl [HD]
      · iexact HD
      isplitl [HT]
      · iexact HT
      · iexact HR
  · iexact HT

theorem cells_eq (c : Dev nD) :
    (Pipeline.ownSems0 (Ix := Unit) (Name := ℕ) (U := Pipeline.UD sig nD τ) (Lvl := ℕ) (Val := Elt F) (τ := τ) osem1 c : sProp 𝕄)
      = bigSep Finset.univ fun r : Fin 256 => sv c (cc1_scratch0.ix (ValueIdx.ix1 r)) := by
  rfl

/-- On row r the glued contents are the r-th member's: an element lies in one row only. -/
theorem glued_on (c : Dev nD) (M : Memref sig .tc .vmem S256x1024 .f32) (fs : Fin 256 → Bf (F := F) c M) (r : Fin 256) (i)
    (hi : i ∈ (rowM M r.val (dst_inb r.val r.isLt)).view.set) : glued c M fs i = fs r i := by
  have hsp : i ∈ (rowM M (Classical.epsilon fun r' : Fin 256 => i ∈ (rowM M r'.val (dst_inb r'.val r'.isLt)).view.set).val (dst_inb _ (Fin.isLt _))).view.set :=
    Classical.epsilon_spec (p := fun r' : Fin 256 => i ∈ (rowM M r'.val (dst_inb r'.val r'.isLt)).view.set) ⟨r, hi⟩
  have key : ∀ e : Fin 256, i ∈ (rowM M e.val (dst_inb e.val e.isLt)).view.set → e = r := fun e he => by
    by_contra hne
    exact Finset.disjoint_left.mp (rowM_disjoint M e r hne) he hi
  unfold glued
  rw [key _ hsp]

/-- The rows, each at its own member, are the whole buffer at the glued contents. -/
theorem rows_join_glued (c : Dev nD) (M : Memref sig .tc .vmem S256x1024 .f32) (fs : Fin 256 → Bf (F := F) c M) :
    (bigSep Finset.univ fun r : Fin 256 => rowH c M r.val (dst_inb r.val r.isLt) (fs r))
      ⊢ (M.view.loc (c : Thread nD τ) ↦[M.view.set]{fullShare} glued c M fs : sProp 𝕄) := by
  have hc : (bigSep Finset.univ fun r : Fin 256 => rowH c M r.val (dst_inb r.val r.isLt) (fs r) : sProp 𝕄)
      = bigSep Finset.univ fun r : Fin 256 => M.view.loc (c : Thread nD τ) ↦[(rowM M r.val (dst_inb r.val r.isLt)).view.set]{fullShare} glued c M fs :=
    bigSep_congr fun r _ => pointsTo_congr fun i hi => (glued_on c M fs r i hi).symm
  have h : (M.view.loc (c : Thread nD τ) ↦[Finset.univ.biUnion fun r : Fin 256 => (rowM M r.val (dst_inb r.val r.isLt)).view.set]{fullShare} glued c M fs : sProp 𝕄)
      = bigSep Finset.univ fun r : Fin 256 => M.view.loc (c : Thread nD τ) ↦[(rowM M r.val (dst_inb r.val r.isLt)).view.set]{fullShare} glued c M fs :=
    pointsTo_biUnion Finset.univ _ fun r _ r' _ hne => rowM_disjoint M r r' hne
  rw [← rowM_cover M] at h
  rw [hc, h]

end Cert.Kernel.Rows1

end
-- ==== Proof.RowsVal1W.lean ====
import proofs.«409488_j73529840107771_1_alg».proof.Proof.Rows1W

noncomputable section

namespace Cert.Kernel.Rows1

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.Kernel.Iface

/-- For g < 64 and r < 256 the 32-bit word 256·g + r does not wrap. -/
theorem offW_eq (g : ℕ) (hg : g < 64) (r : ℕ) (hr : r < 256) :
    (![(Scalar.indexCast (Scalar.addi (Scalar.muli (BitVec.ofNat 32 g) 256#32) (BitVec.ofNat 32 r))).toNat] : Fin 1 → ℕ) = ![256 * g + r] := by
  have h : (Scalar.indexCast (Scalar.addi (Scalar.muli (BitVec.ofNat 32 g) 256#32) (BitVec.ofNat 32 r))).toNat = 256 * g + r := by
    show ((BitVec.ofNat 32 g) * 256#32 + (BitVec.ofNat 32 r)).toNat = 256 * g + r
    rw [BitVec.toNat_add, BitVec.toNat_mul, BitVec.toNat_ofNat, BitVec.toNat_ofNat, BitVec.toNat_ofNat]
    omega
  exact congrArg (fun n : ℕ => (![n] : Fin 1 → ℕ)) h

theorem rowView_emb {κ : Kind} {sp : Space} {e : EltTy} {n0 n1 : ℕ} (v : View sig κ sp (⟨2, ![n0, n1]⟩ : Shape) e) (r : ℕ) (hr : r < n0)
    (inb : ∀ a, (![r, 0] : Fin 2 → ℕ) a + (![1, n1] : Fin 2 → ℕ) a ≤ (⟨2, ![n0, n1]⟩ : Shape).size a)
    (hsq : (⟨1, ![n1]⟩ : Shape).numel = (⟨2, ![1, n1]⟩ : Shape).numel) (q : Fin n1) :
    ((v.slice (Rect.unit (s := (⟨2, ![n0, n1]⟩ : Shape)) ![r, 0] ![1, n1] inb)).reshape (⟨1, ![n1]⟩ : Shape) hsq).emb (ValueIdx.ix1 q)
      = v.emb (ValueIdx.ix2 (⟨r, hr⟩ : Fin n0) q) := by
  show v.emb ((Rect.unit (s := (⟨2, ![n0, n1]⟩ : Shape)) ![r, 0] ![1, n1] inb).emb (Shape.reshapeEquiv hsq (ValueIdx.ix1 q))) = _
  have hc := Shape.reshapeEquiv_cons_one (n := 1) (d := ![n1]) hsq (ValueIdx.ix1 q)
  rw [hc]
  congr 1
  funext a
  apply Fin.ext
  fin_cases a
  · show r + 1 * 0 = r
    omega
  · show 0 + 1 * q.val = q.val
    omega

theorem wordAt_eq (c : Dev nD) (off : Fin 1 → ℕ) (h : ∀ a, off a + S1.size a ≤ S16384.size a) (pf : Bf (F := F) c TBL)
    (n : ℕ) (hn : n < 16384) (hoff : off 0 = n) :
    wordAt c off h pf = pf (ValueIdx.ix1 (⟨n, hn⟩ : Fin 16384)) := by
  show pf ((Rect.unit (s := S16384) off S1.size h).toLoadRect.idx (Shape.Idx.first (show 0 < S1.numel by decide))) = _
  congr 1
  funext a
  apply Fin.ext
  fin_cases a
  show off 0 + 1 * (Shape.Idx.first (show 0 < S1.numel by decide) (0 : Fin 1)).val = n
  have h0 : (Shape.Idx.first (show 0 < S1.numel by decide) (0 : Fin 1)).val = 0 := by
    have := (Shape.Idx.first (show 0 < S1.numel by decide) (0 : Fin 1)).isLt
    have e : S1.size (0 : Fin 1) = 1 := by decide
    omega
  omega

theorem rowPay_apply (c : Dev nD) (w : BitVec 32) (hw : w.toNat < 32768)
    (h : ∀ a, (![w.toNat, 0] : Fin 2 → ℕ) a + S1x1024.size a ≤ S32768x1024.size a) (f : Bf (F := F) c SRC) (q : Fin 1024) :
    rowPay c w h f (ValueIdx.ix1 q) = f (ValueIdx.ix2 (⟨w.toNat, hw⟩ : Fin 32768) q) := by
  show View.read (Elt F) ((SRC.slice (Rect.unit (s := S32768x1024) ![w.toNat, 0] S1x1024.size h) (fun _ => rfl)).squeeze S1024 Shapes1.Facts₀.squeezes_S1x1024_S1024).view f (ValueIdx.ix1 q) = _
  rw [View.read_apply]
  have e := rowView_emb (n0 := 32768) (n1 := 1024) SRC.view w.toNat hw h Shapes1.Facts₀.squeezes_S1x1024_S1024.numel_eq q
  show _root_.cast _ (f (((SRC.view.slice (Rect.unit (s := S32768x1024) ![w.toNat, 0] S1x1024.size h)).reshape S1024 Shapes1.Facts₀.squeezes_S1x1024_S1024.numel_eq).emb (ValueIdx.ix1 q))) = _
  rw [e]
  rfl

section LandedRead

variable (c : Dev nD) (M : Memref sig .tc .vmem S256x1024 .f32)
  (offs : Fin 256 → Fin 1 → ℕ) (hin : ∀ r a, offs r a + S1.size a ≤ S16384.size a)
  (pf : Bf (F := F) c TBL) (hpf : ∀ j, (pf j).toNat < 32768) (f : Bf (F := F) c SRC) (d : Bf (F := F) c M)

theorem landed_row_read (r : Fin 256) (q : Fin 1024) :
    (rowM M r.val (dst_inb r.val r.isLt)).view.read (Elt F) (landed c M offs hin pf hpf f d r) (ValueIdx.ix1 q)
      = rowPay c (wordAt c (offs r) (hin r) pf) (row_inb _ (hpf _)) f (ValueIdx.ix1 q) := by
  have h := View.read_writes_cons_emb (rowM M r.val (dst_inb r.val r.isLt)).view d (Rect.whole S1024)
    (rowPay c (wordAt c (offs r) (hin r) pf) (row_inb _ (hpf _)) f) [] (ValueIdx.ix1 q)
  rw [Rect.emb_whole_apply] at h
  exact h

theorem whole_read_row (G : Bf (F := F) c M) (r : Fin 256) (q : Fin 1024) :
    M.view.read (Elt F) G (ValueIdx.ix2 r q)
      = (rowM M r.val (dst_inb r.val r.isLt)).view.read (Elt F) G (ValueIdx.ix1 q) := by
  have e := rowView_emb (n0 := 256) (n1 := 1024) M.view r.val r.isLt (dst_inb r.val r.isLt) Shapes1.Facts₀.squeezes_S1x1024_S1024.numel_eq q
  rw [View.read_apply, View.read_apply]
  show _ = _root_.cast _ (G (((M.view.slice (Rect.unit (s := S256x1024) ![r.val, 0] S1x1024.size (dst_inb r.val r.isLt))).reshape S1024 Shapes1.Facts₀.squeezes_S1x1024_S1024.numel_eq).emb (ValueIdx.ix1 q)))
  rw [e]

/-- Entry (r, q) of contents agreeing with every landed row is the source's entry (ids[256·g + r], q). -/
theorem landed_read_at (g : ℕ) (hg : g < 64) (hoffs : ∀ r : Fin 256, offs r = ![256 * g + r.val]) (G : Bf (F := F) c M)
    (hG : ∀ r : Fin 256, ∀ i ∈ (rowM M r.val (dst_inb r.val r.isLt)).view.set, G i = landed c M offs hin pf hpf f d r i)
    (r : Fin 256) (q : Fin 1024) :
    M.view.read (Elt F) G (ValueIdx.ix2 r q) = Cert.Spec.gatherRows g pf f (ValueIdx.ix2 r q) := by
  have hn : 256 * g + r.val < 16384 := by have := r.isLt; omega
  have hw : wordAt c (offs r) (hin r) pf = pf (ValueIdx.ix1 (⟨256 * g + r.val, hn⟩ : Fin 16384)) :=
    wordAt_eq c (offs r) (hin r) pf (256 * g + r.val) hn (by rw [hoffs r]; rfl)
  have hwlt : (wordAt c (offs r) (hin r) pf).toNat < 32768 := by rw [hw]; exact hpf _
  rw [whole_read_row c M G r q,
    View.read_congr_at (ValueIdx.ix1 q) (hG r _ ((rowM M r.val (dst_inb r.val r.isLt)).view.emb_mem_set _)),
    landed_row_read c M offs hin pf hpf f d r q, rowPay_apply c (wordAt c (offs r) (hin r) pf) hwlt]
  show _ = f (ValueIdx.ix2 (Cert.Spec.rowOf pf (256 * g + r.val)) (⟨q.val, _⟩ : Fin 1024))
  congr 1
  have e1 : (Fin.ofNat 16384 (256 * g + r.val) : Fin 16384) = ⟨256 * g + r.val, hn⟩ := Fin.ext (Nat.mod_eq_of_lt hn)
  have e2 : Cert.Spec.rowOf pf (256 * g + r.val) = ⟨(wordAt c (offs r) (hin r) pf).toNat, hwlt⟩ := by
    unfold Cert.Spec.rowOf
    rw [e1]
    apply Fin.ext
    show (pf (ValueIdx.ix1 (⟨256 * g + r.val, hn⟩ : Fin 16384))).toNat % 32768 = (wordAt c (offs r) (hin r) pf).toNat
    rw [hw]
    exact Nat.mod_eq_of_lt (hpf _)
  rw [e2]

/-- Contents agreeing with every landed row read, through the whole buffer, as block g of the gathered matrix. -/
theorem landed_read (hM : M.IsWhole) (g : ℕ) (hg : g < 64) (hoffs : ∀ r : Fin 256, offs r = ![256 * g + r.val]) (G : Bf (F := F) c M)
    (hG : ∀ r : Fin 256, ∀ i ∈ (rowM M r.val (dst_inb r.val r.isLt)).view.set, G i = landed c M offs hin pf hpf f d r i) :
    M.view.read (Elt F) G = Cert.Spec.gatherRows g pf f := by
  funext y
  rw [ValueIdx.eq_ix2 y]
  exact landed_read_at c M offs hin pf hpf f d g hg hoffs G hG (y 0) (y 1)

end LandedRead

end Cert.Kernel.Rows1

end
-- ==== Proof.ExecOffs1W.lean ====
import proofs.«409488_j73529840107771_1_alg».proof.Proof.RowsVal1W

noncomputable section

namespace Cert.Kernel.Exec1

open Cert.Kernel Cert.Kernel.Gen

open Idealize.ShloMosaic
open Cert.Kernel.Iface Cert.Kernel.Rows1

/-- The table position copy r reads at grid step t: the word 256·t + r, spelt as each of the body's 256 offset computations spells its own. -/
def offs (t : Fin grid1.N) (r : Fin 256) : Fin 1 → ℕ :=
  ![(Scalar.indexCast (Scalar.addi (Scalar.muli (BitVec.ofNat 32 (grid1.coords t 0).val) 256#32) (BitVec.ofNat 32 r.val))).toNat]

/-- The word arithmetic does not wrap: position r at step g is 256·g + r. -/
theorem hoffs (t : Fin grid1.N) (r : Fin 256) : offs t r = ![256 * (grid1.coords t 0).val + r.val] :=
  offW_eq _ (grid1.coords t 0).isLt _ r.isLt

/-- Each position is inside the table: 256·g + r + 1 ≤ 16384 for g below 64 and r below 256. -/
theorem hin (t : Fin grid1.N) (r : Fin 256) : ∀ a, offs t r a + S1.size a ≤ S16384.size a := by
  rw [hoffs t r]
  intro a
  have hg : (grid1.coords t 0).val < 64 := (grid1.coords t 0).isLt
  have hr := r.isLt
  fin_cases a
  show 256 * (grid1.coords t 0).val + r.val + 1 ≤ 16384
  omega

end Cert.Kernel.Exec1

end
-- ==== Proof.Exec1W.lean ====
import proofs.«409488_j73529840107771_1_alg».proof.Proof.ExecOffs1W
import proofs.«409488_j73529840107771_1_alg».proof.Proof.Rows1W
import proofs.«409488_j73529840107771_1_alg».proof.Proof.Chains

noncomputable section

namespace Cert.Kernel.Exec1

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Iface Cert.Kernel.Rows1

variable {F : FTy → Type} [FloatOps F]

local notation "𝕄" => MT nD τ sig Unit (Elt F) ℕ (Pipeline.UD sig nD τ) ℕ

set_option maxHeartbeats 40000000 in
/-- The body's run: 256 copies started, 256 waited; every row of the block lands, all else comes back as it was. -/
theorem run [∀ e, Nonempty (Elt F e)] (c : Dev nD) (t : Fin grid1.N) (M : Memref sig .tc .vmem S256x1024 .f32) (hM : M.IsWhole)
    (pf : Bf (F := F) c TBL) (hpf : ∀ j, (pf j).toNat < 32768) (f : Bf (F := F) c SRC) (d : Bf (F := F) c M)
    (W : Waits sig Unit) (K : PUnit → sProp 𝕄) :
    iprop(pt c TBL pf
        ∗ (bigSep Finset.univ fun r : Fin 256 => tokS c (base + r.val) f)
        ∗ (bigSep Finset.univ fun r : Fin 256 => rowH c M r.val (dst_inb r.val r.isLt) d)
        ∗ (sv c 261 ∗ sv c 262 ∗ sv c 263 ∗ sv c 264 ∗ sv c 265 ∗ sv c 266 ∗ sv c 267 ∗ sv c 268 ∗ sv c 269 ∗ sv c 270 ∗ sv c 271 ∗ sv c 272 ∗ sv c 273 ∗ sv c 274 ∗ sv c 275 ∗ sv c 276 ∗ sv c 277 ∗ sv c 278 ∗ sv c 279 ∗ sv c 280 ∗ sv c 281 ∗ sv c 282 ∗ sv c 283 ∗ sv c 284 ∗ sv c 285 ∗ sv c 286 ∗ sv c 287 ∗ sv c 288 ∗ sv c 289 ∗ sv c 290 ∗ sv c 291 ∗ sv c 292 ∗ sv c 293 ∗ sv c 294 ∗ sv c 295 ∗ sv c 296 ∗ sv c 297 ∗ sv c 298 ∗ sv c 299 ∗ sv c 300 ∗ sv c 301 ∗ sv c 302 ∗ sv c 303 ∗ sv c 304 ∗ sv c 305 ∗ sv c 306 ∗ sv c 307 ∗ sv c 308 ∗ sv c 309 ∗ sv c 310 ∗ sv c 311 ∗ sv c 312 ∗ sv c 313 ∗ sv c 314 ∗ sv c 315 ∗ sv c 316 ∗ sv c 317 ∗ sv c 318 ∗ sv c 319 ∗ sv c 320 ∗ sv c 321 ∗ sv c 322 ∗ sv c 323 ∗ sv c 324 ∗ sv c 325 ∗ sv c 326 ∗ sv c 327 ∗ sv c 328 ∗ sv c 329 ∗ sv c 330 ∗ sv c 331 ∗ sv c 332 ∗ sv c 333 ∗ sv c 334 ∗ sv c 335 ∗ sv c 336 ∗ sv c 337 ∗ sv c 338 ∗ sv c 339 ∗ sv c 340 ∗ sv c 341 ∗ sv c 342 ∗ sv c 343 ∗ sv c 344 ∗ sv c 345 ∗ sv c 346 ∗ sv c 347 ∗ sv c 348 ∗ sv c 349 ∗ sv c 350 ∗ sv c 351 ∗ sv c 352 ∗ sv c 353 ∗ sv c 354 ∗ sv c 355 ∗ sv c 356 ∗ sv c 357 ∗ sv c 358 ∗ sv c 359 ∗ sv c 360 ∗ sv c 361 ∗ sv c 362 ∗ sv c 363 ∗ sv c 364 ∗ sv c 365 ∗ sv c 366 ∗ sv c 367 ∗ sv c 368 ∗ sv c 369 ∗ sv c 370 ∗ sv c 371 ∗ sv c 372 ∗ sv c 373 ∗ sv c 374 ∗ sv c 375 ∗ sv c 376 ∗ sv c 377 ∗ sv c 378 ∗ sv c 379 ∗ sv c 380 ∗ sv c 381 ∗ sv c 382 ∗ sv c 383 ∗ sv c 384 ∗ sv c 385 ∗ sv c 386 ∗ sv c 387 ∗ sv c 388 ∗ sv c 389 ∗ sv c 390 ∗ sv c 391 ∗ sv c 392 ∗ sv c 393 ∗ sv c 394 ∗ sv c 395 ∗ sv c 396 ∗ sv c 397 ∗ sv c 398 ∗ sv c 399 ∗ sv c 400 ∗ sv c 401 ∗ sv c 402 ∗ sv c 403 ∗ sv c 404 ∗ sv c 405 ∗ sv c 406 ∗ sv c 407 ∗ sv c 408 ∗ sv c 409 ∗ sv c 410 ∗ sv c 411 ∗ sv c 412 ∗ sv c 413 ∗ sv c 414 ∗ sv c 415 ∗ sv c 416 ∗ sv c 417 ∗ sv c 418 ∗ sv c 419 ∗ sv c 420 ∗ sv c 421 ∗ sv c 422 ∗ sv c 423 ∗ sv c 424 ∗ sv c 425 ∗ sv c 426 ∗ sv c 427 ∗ sv c 428 ∗ sv c 429 ∗ sv c 430 ∗ sv c 431 ∗ sv c 432 ∗ sv c 433 ∗ sv c 434 ∗ sv c 435 ∗ sv c 436 ∗ sv c 437 ∗ sv c 438 ∗ sv c 439 ∗ sv c 440 ∗ sv c 441 ∗ sv c 442 ∗ sv c 443 ∗ sv c 444 ∗ sv c 445 ∗ sv c 446 ∗ sv c 447 ∗ sv c 448 ∗ sv c 449 ∗ sv c 450 ∗ sv c 451 ∗ sv c 452 ∗ sv c 453 ∗ sv c 454 ∗ sv c 455 ∗ sv c 456 ∗ sv c 457 ∗ sv c 458 ∗ sv c 459 ∗ sv c 460 ∗ sv c 461 ∗ sv c 462 ∗ sv c 463 ∗ sv c 464 ∗ sv c 465 ∗ sv c 466 ∗ sv c 467 ∗ sv c 468 ∗ sv c 469 ∗ sv c 470 ∗ sv c 471 ∗ sv c 472 ∗ sv c 473 ∗ sv c 474 ∗ sv c 475 ∗ sv c 476 ∗ sv c 477 ∗ sv c 478 ∗ sv c 479 ∗ sv c 480 ∗ sv c 481 ∗ sv c 482 ∗ sv c 483 ∗ sv c 484 ∗ sv c 485 ∗ sv c 486 ∗ sv c 487 ∗ sv c 488 ∗ sv c 489 ∗ sv c 490 ∗ sv c 491 ∗ sv c 492 ∗ sv c 493 ∗ sv c 494 ∗ sv c 495 ∗ sv c 496 ∗ sv c 497 ∗ sv c 498 ∗ sv c 499 ∗ sv c 500 ∗ sv c 501 ∗ sv c 502 ∗ sv c 503 ∗ sv c 504 ∗ sv c 505 ∗ sv c 506 ∗ sv c 507 ∗ sv c 508 ∗ sv c 509 ∗ sv c 510 ∗ sv c 511 ∗ sv c 512 ∗ sv c 513 ∗ sv c 514 ∗ sv c 515 ∗ sv c 516)
        ∗ owes (c : Thread nD τ) 0 W
        ∗ (iprop(pt c TBL pf
            ∗ (bigSep Finset.univ fun r : Fin 256 => tokS c (base + r.val) f)
            ∗ (bigSep Finset.univ fun r : Fin 256 => rowH c M r.val (dst_inb r.val r.isLt) (landed c M (offs t) (hin t) pf hpf f d r))
            ∗ (sv c 261 ∗ sv c 262 ∗ sv c 263 ∗ sv c 264 ∗ sv c 265 ∗ sv c 266 ∗ sv c 267 ∗ sv c 268 ∗ sv c 269 ∗ sv c 270 ∗ sv c 271 ∗ sv c 272 ∗ sv c 273 ∗ sv c 274 ∗ sv c 275 ∗ sv c 276 ∗ sv c 277 ∗ sv c 278 ∗ sv c 279 ∗ sv c 280 ∗ sv c 281 ∗ sv c 282 ∗ sv c 283 ∗ sv c 284 ∗ sv c 285 ∗ sv c 286 ∗ sv c 287 ∗ sv c 288 ∗ sv c 289 ∗ sv c 290 ∗ sv c 291 ∗ sv c 292 ∗ sv c 293 ∗ sv c 294 ∗ sv c 295 ∗ sv c 296 ∗ sv c 297 ∗ sv c 298 ∗ sv c 299 ∗ sv c 300 ∗ sv c 301 ∗ sv c 302 ∗ sv c 303 ∗ sv c 304 ∗ sv c 305 ∗ sv c 306 ∗ sv c 307 ∗ sv c 308 ∗ sv c 309 ∗ sv c 310 ∗ sv c 311 ∗ sv c 312 ∗ sv c 313 ∗ sv c 314 ∗ sv c 315 ∗ sv c 316 ∗ sv c 317 ∗ sv c 318 ∗ sv c 319 ∗ sv c 320 ∗ sv c 321 ∗ sv c 322 ∗ sv c 323 ∗ sv c 324 ∗ sv c 325 ∗ sv c 326 ∗ sv c 327 ∗ sv c 328 ∗ sv c 329 ∗ sv c 330 ∗ sv c 331 ∗ sv c 332 ∗ sv c 333 ∗ sv c 334 ∗ sv c 335 ∗ sv c 336 ∗ sv c 337 ∗ sv c 338 ∗ sv c 339 ∗ sv c 340 ∗ sv c 341 ∗ sv c 342 ∗ sv c 343 ∗ sv c 344 ∗ sv c 345 ∗ sv c 346 ∗ sv c 347 ∗ sv c 348 ∗ sv c 349 ∗ sv c 350 ∗ sv c 351 ∗ sv c 352 ∗ sv c 353 ∗ sv c 354 ∗ sv c 355 ∗ sv c 356 ∗ sv c 357 ∗ sv c 358 ∗ sv c 359 ∗ sv c 360 ∗ sv c 361 ∗ sv c 362 ∗ sv c 363 ∗ sv c 364 ∗ sv c 365 ∗ sv c 366 ∗ sv c 367 ∗ sv c 368 ∗ sv c 369 ∗ sv c 370 ∗ sv c 371 ∗ sv c 372 ∗ sv c 373 ∗ sv c 374 ∗ sv c 375 ∗ sv c 376 ∗ sv c 377 ∗ sv c 378 ∗ sv c 379 ∗ sv c 380 ∗ sv c 381 ∗ sv c 382 ∗ sv c 383 ∗ sv c 384 ∗ sv c 385 ∗ sv c 386 ∗ sv c 387 ∗ sv c 388 ∗ sv c 389 ∗ sv c 390 ∗ sv c 391 ∗ sv c 392 ∗ sv c 393 ∗ sv c 394 ∗ sv c 395 ∗ sv c 396 ∗ sv c 397 ∗ sv c 398 ∗ sv c 399 ∗ sv c 400 ∗ sv c 401 ∗ sv c 402 ∗ sv c 403 ∗ sv c 404 ∗ sv c 405 ∗ sv c 406 ∗ sv c 407 ∗ sv c 408 ∗ sv c 409 ∗ sv c 410 ∗ sv c 411 ∗ sv c 412 ∗ sv c 413 ∗ sv c 414 ∗ sv c 415 ∗ sv c 416 ∗ sv c 417 ∗ sv c 418 ∗ sv c 419 ∗ sv c 420 ∗ sv c 421 ∗ sv c 422 ∗ sv c 423 ∗ sv c 424 ∗ sv c 425 ∗ sv c 426 ∗ sv c 427 ∗ sv c 428 ∗ sv c 429 ∗ sv c 430 ∗ sv c 431 ∗ sv c 432 ∗ sv c 433 ∗ sv c 434 ∗ sv c 435 ∗ sv c 436 ∗ sv c 437 ∗ sv c 438 ∗ sv c 439 ∗ sv c 440 ∗ sv c 441 ∗ sv c 442 ∗ sv c 443 ∗ sv c 444 ∗ sv c 445 ∗ sv c 446 ∗ sv c 447 ∗ sv c 448 ∗ sv c 449 ∗ sv c 450 ∗ sv c 451 ∗ sv c 452 ∗ sv c 453 ∗ sv c 454 ∗ sv c 455 ∗ sv c 456 ∗ sv c 457 ∗ sv c 458 ∗ sv c 459 ∗ sv c 460 ∗ sv c 461 ∗ sv c 462 ∗ sv c 463 ∗ sv c 464 ∗ sv c 465 ∗ sv c 466 ∗ sv c 467 ∗ sv c 468 ∗ sv c 469 ∗ sv c 470 ∗ sv c 471 ∗ sv c 472 ∗ sv c 473 ∗ sv c 474 ∗ sv c 475 ∗ sv c 476 ∗ sv c 477 ∗ sv c 478 ∗ sv c 479 ∗ sv c 480 ∗ sv c 481 ∗ sv c 482 ∗ sv c 483 ∗ sv c 484 ∗ sv c 485 ∗ sv c 486 ∗ sv c 487 ∗ sv c 488 ∗ sv c 489 ∗ sv c 490 ∗ sv c 491 ∗ sv c 492 ∗ sv c 493 ∗ sv c 494 ∗ sv c 495 ∗ sv c 496 ∗ sv c 497 ∗ sv c 498 ∗ sv c 499 ∗ sv c 500 ∗ sv c 501 ∗ sv c 502 ∗ sv c 503 ∗ sv c 504 ∗ sv c 505 ∗ sv c 506 ∗ sv c 507 ∗ sv c 508 ∗ sv c 509 ∗ sv c 510 ∗ sv c 511 ∗ sv c 512 ∗ sv c 513 ∗ sv c 514 ∗ sv c 515 ∗ sv c 516)
            ∗ (∃ W', owes (c : Thread nD τ) 0 W')) -∗ K ⟨⟩))
    ⊢ wp frame (wpE (defs₀ (F := F)) Variants.none c none) Set.univ
        (cc1__gather_kernel (grid1.coords t) (Memref.whole main_arg2) (Memref.isWhole_whole _) (Memref.whole main_v12) (Memref.isWhole_whole _) M hM cc1_scratch0) K := by
  rw [Cert.Chains.bigSep_fin256 (fun r _ => tokS c (base + r) f),
    Cert.Chains.bigSep_fin256 (fun r h => rowH c M r (dst_inb r h) d),
    Cert.Chains.bigSep_fin256 (fun r h => rowH c M r (dst_inb r h) (landed c M (offs t) (hin t) pf hpf f d ⟨r, h⟩))]
  iintro ⟨Ht, ⟨X0, X1, X2, X3, X4, X5, X6, X7, X8, X9, X10, X11, X12, X13, X14, X15, X16, X17, X18, X19, X20, X21, X22, X23, X24, X25, X26, X27, X28, X29, X30, X31, X32, X33, X34, X35, X36, X37, X38, X39, X40, X41, X42, X43, X44, X45, X46, X47, X48, X49, X50, X51, X52, X53, X54, X55, X56, X57, X58, X59, X60, X61, X62, X63, X64, X65, X66, X67, X68, X69, X70, X71, X72, X73, X74, X75, X76, X77, X78, X79, X80, X81, X82, X83, X84, X85, X86, X87, X88, X89, X90, X91, X92, X93, X94, X95, X96, X97, X98, X99, X100, X101, X102, X103, X104, X105, X106, X107, X108, X109, X110, X111, X112, X113, X114, X115, X116, X117, X118, X119, X120, X121, X122, X123, X124, X125, X126, X127, X128, X129, X130, X131, X132, X133, X134, X135, X136, X137, X138, X139, X140, X141, X142, X143, X144, X145, X146, X147, X148, X149, X150, X151, X152, X153, X154, X155, X156, X157, X158, X159, X160, X161, X162, X163, X164, X165, X166, X167, X168, X169, X170, X171, X172, X173, X174, X175, X176, X177, X178, X179, X180, X181, X182, X183, X184, X185, X186, X187, X188, X189, X190, X191, X192, X193, X194, X195, X196, X197, X198, X199, X200, X201, X202, X203, X204, X205, X206, X207, X208, X209, X210, X211, X212, X213, X214, X215, X216, X217, X218, X219, X220, X221, X222, X223, X224, X225, X226, X227, X228, X229, X230, X231, X232, X233, X234, X235, X236, X237, X238, X239, X240, X241, X242, X243, X244, X245, X246, X247, X248, X249, X250, X251, X252, X253, X254, X255⟩, ⟨R0, R1, R2, R3, R4, R5, R6, R7, R8, R9, R10, R11, R12, R13, R14, R15, R16, R17, R18, R19, R20, R21, R22, R23, R24, R25, R26, R27, R28, R29, R30, R31, R32, R33, R34, R35, R36, R37, R38, R39, R40, R41, R42, R43, R44, R45, R46, R47, R48, R49, R50, R51, R52, R53, R54, R55, R56, R57, R58, R59, R60, R61, R62, R63, R64, R65, R66, R67, R68, R69, R70, R71, R72, R73, R74, R75, R76, R77, R78, R79, R80, R81, R82, R83, R84, R85, R86, R87, R88, R89, R90, R91, R92, R93, R94, R95, R96, R97, R98, R99, R100, R101, R102, R103, R104, R105, R106, R107, R108, R109, R110, R111, R112, R113, R114, R115, R116, R117, R118, R119, R120, R121, R122, R123, R124, R125, R126, R127, R128, R129, R130, R131, R132, R133, R134, R135, R136, R137, R138, R139, R140, R141, R142, R143, R144, R145, R146, R147, R148, R149, R150, R151, R152, R153, R154, R155, R156, R157, R158, R159, R160, R161, R162, R163, R164, R165, R166, R167, R168, R169, R170, R171, R172, R173, R174, R175, R176, R177, R178, R179, R180, R181, R182, R183, R184, R185, R186, R187, R188, R189, R190, R191, R192, R193, R194, R195, R196, R197, R198, R199, R200, R201, R202, R203, R204, R205, R206, R207, R208, R209, R210, R211, R212, R213, R214, R215, R216, R217, R218, R219, R220, R221, R222, R223, R224, R225, R226, R227, R228, R229, R230, R231, R232, R233, R234, R235, R236, R237, R238, R239, R240, R241, R242, R243, R244, R245, R246, R247, R248, R249, R250, R251, R252, R253, R254, R255⟩, ⟨D0, D1, D2, D3, D4, D5, D6, D7, D8, D9, D10, D11, D12, D13, D14, D15, D16, D17, D18, D19, D20, D21, D22, D23, D24, D25, D26, D27, D28, D29, D30, D31, D32, D33, D34, D35, D36, D37, D38, D39, D40, D41, D42, D43, D44, D45, D46, D47, D48, D49, D50, D51, D52, D53, D54, D55, D56, D57, D58, D59, D60, D61, D62, D63, D64, D65, D66, D67, D68, D69, D70, D71, D72, D73, D74, D75, D76, D77, D78, D79, D80, D81, D82, D83, D84, D85, D86, D87, D88, D89, D90, D91, D92, D93, D94, D95, D96, D97, D98, D99, D100, D101, D102, D103, D104, D105, D106, D107, D108, D109, D110, D111, D112, D113, D114, D115, D116, D117, D118, D119, D120, D121, D122, D123, D124, D125, D126, D127, D128, D129, D130, D131, D132, D133, D134, D135, D136, D137, D138, D139, D140, D141, D142, D143, D144, D145, D146, D147, D148, D149, D150, D151, D152, D153, D154, D155, D156, D157, D158, D159, D160, D161, D162, D163, D164, D165, D166, D167, D168, D169, D170, D171, D172, D173, D174, D175, D176, D177, D178, D179, D180, D181, D182, D183, D184, D185, D186, D187, D188, D189, D190, D191, D192, D193, D194, D195, D196, D197, D198, D199, D200, D201, D202, D203, D204, D205, D206, D207, D208, D209, D210, D211, D212, D213, D214, D215, D216, D217, D218, D219, D220, D221, D222, D223, D224, D225, D226, D227, D228, D229, D230, D231, D232, D233, D234, D235, D236, D237, D238, D239, D240, D241, D242, D243, D244, D245, D246, D247, D248, D249, D250, D251, D252, D253, D254, D255⟩, HO, Hk⟩
  simp only [cc1__gather_kernel_eq_skeleton]; unfold cc1__gather_kernel_skel
  sl_exec_parts (disch := exact row_inb _ (hpf _))
  sl_step
  iapply Hk
  isplitl [Ht]; · iexact Ht
  isplitl [X0 X1 X2 X3 X4 X5 X6 X7 X8 X9 X10 X11 X12 X13 X14 X15 X16 X17 X18 X19 X20 X21 X22 X23 X24 X25 X26 X27 X28 X29 X30 X31 X32 X33 X34 X35 X36 X37 X38 X39 X40 X41 X42 X43 X44 X45 X46 X47 X48 X49 X50 X51 X52 X53 X54 X55 X56 X57 X58 X59 X60 X61 X62 X63 X64 X65 X66 X67 X68 X69 X70 X71 X72 X73 X74 X75 X76 X77 X78 X79 X80 X81 X82 X83 X84 X85 X86 X87 X88 X89 X90 X91 X92 X93 X94 X95 X96 X97 X98 X99 X100 X101 X102 X103 X104 X105 X106 X107 X108 X109 X110 X111 X112 X113 X114 X115 X116 X117 X118 X119 X120 X121 X122 X123 X124 X125 X126 X127 X128 X129 X130 X131 X132 X133 X134 X135 X136 X137 X138 X139 X140 X141 X142 X143 X144 X145 X146 X147 X148 X149 X150 X151 X152 X153 X154 X155 X156 X157 X158 X159 X160 X161 X162 X163 X164 X165 X166 X167 X168 X169 X170 X171 X172 X173 X174 X175 X176 X177 X178 X179 X180 X181 X182 X183 X184 X185 X186 X187 X188 X189 X190 X191 X192 X193 X194 X195 X196 X197 X198 X199 X200 X201 X202 X203 X204 X205 X206 X207 X208 X209 X210 X211 X212 X213 X214 X215 X216 X217 X218 X219 X220 X221 X222 X223 X224 X225 X226 X227 X228 X229 X230 X231 X232 X233 X234 X235 X236 X237 X238 X239 X240 X241 X242 X243 X244 X245 X246 X247 X248 X249 X250 X251 X252 X253 X254 X255]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    isplitl [X14]; · iexact X14
    isplitl [X15]; · iexact X15
    isplitl [X16]; · iexact X16
    isplitl [X17]; · iexact X17
    isplitl [X18]; · iexact X18
    isplitl [X19]; · iexact X19
    isplitl [X20]; · iexact X20
    isplitl [X21]; · iexact X21
    isplitl [X22]; · iexact X22
    isplitl [X23]; · iexact X23
    isplitl [X24]; · iexact X24
    isplitl [X25]; · iexact X25
    isplitl [X26]; · iexact X26
    isplitl [X27]; · iexact X27
    isplitl [X28]; · iexact X28
    isplitl [X29]; · iexact X29
    isplitl [X30]; · iexact X30
    isplitl [X31]; · iexact X31
    isplitl [X32]; · iexact X32
    isplitl [X33]; · iexact X33
    isplitl [X34]; · iexact X34
    isplitl [X35]; · iexact X35
    isplitl [X36]; · iexact X36
    isplitl [X37]; · iexact X37
    isplitl [X38]; · iexact X38
    isplitl [X39]; · iexact X39
    isplitl [X40]; · iexact X40
    isplitl [X41]; · iexact X41
    isplitl [X42]; · iexact X42
    isplitl [X43]; · iexact X43
    isplitl [X44]; · iexact X44
    isplitl [X45]; · iexact X45
    isplitl [X46]; · iexact X46
    isplitl [X47]; · iexact X47
    isplitl [X48]; · iexact X48
    isplitl [X49]; · iexact X49
    isplitl [X50]; · iexact X50
    isplitl [X51]; · iexact X51
    isplitl [X52]; · iexact X52
    isplitl [X53]; · iexact X53
    isplitl [X54]; · iexact X54
    isplitl [X55]; · iexact X55
    isplitl [X56]; · iexact X56
    isplitl [X57]; · iexact X57
    isplitl [X58]; · iexact X58
    isplitl [X59]; · iexact X59
    isplitl [X60]; · iexact X60
    isplitl [X61]; · iexact X61
    isplitl [X62]; · iexact X62
    isplitl [X63]; · iexact X63
    isplitl [X64]; · iexact X64
    isplitl [X65]; · iexact X65
    isplitl [X66]; · iexact X66
    isplitl [X67]; · iexact X67
    isplitl [X68]; · iexact X68
    isplitl [X69]; · iexact X69
    isplitl [X70]; · iexact X70
    isplitl [X71]; · iexact X71
    isplitl [X72]; · iexact X72
    isplitl [X73]; · iexact X73
    isplitl [X74]; · iexact X74
    isplitl [X75]; · iexact X75
    isplitl [X76]; · iexact X76
    isplitl [X77]; · iexact X77
    isplitl [X78]; · iexact X78
    isplitl [X79]; · iexact X79
    isplitl [X80]; · iexact X80
    isplitl [X81]; · iexact X81
    isplitl [X82]; · iexact X82
    isplitl [X83]; · iexact X83
    isplitl [X84]; · iexact X84
    isplitl [X85]; · iexact X85
    isplitl [X86]; · iexact X86
    isplitl [X87]; · iexact X87
    isplitl [X88]; · iexact X88
    isplitl [X89]; · iexact X89
    isplitl [X90]; · iexact X90
    isplitl [X91]; · iexact X91
    isplitl [X92]; · iexact X92
    isplitl [X93]; · iexact X93
    isplitl [X94]; · iexact X94
    isplitl [X95]; · iexact X95
    isplitl [X96]; · iexact X96
    isplitl [X97]; · iexact X97
    isplitl [X98]; · iexact X98
    isplitl [X99]; · iexact X99
    isplitl [X100]; · iexact X100
    isplitl [X101]; · iexact X101
    isplitl [X102]; · iexact X102
    isplitl [X103]; · iexact X103
    isplitl [X104]; · iexact X104
    isplitl [X105]; · iexact X105
    isplitl [X106]; · iexact X106
    isplitl [X107]; · iexact X107
    isplitl [X108]; · iexact X108
    isplitl [X109]; · iexact X109
    isplitl [X110]; · iexact X110
    isplitl [X111]; · iexact X111
    isplitl [X112]; · iexact X112
    isplitl [X113]; · iexact X113
    isplitl [X114]; · iexact X114
    isplitl [X115]; · iexact X115
    isplitl [X116]; · iexact X116
    isplitl [X117]; · iexact X117
    isplitl [X118]; · iexact X118
    isplitl [X119]; · iexact X119
    isplitl [X120]; · iexact X120
    isplitl [X121]; · iexact X121
    isplitl [X122]; · iexact X122
    isplitl [X123]; · iexact X123
    isplitl [X124]; · iexact X124
    isplitl [X125]; · iexact X125
    isplitl [X126]; · iexact X126
    isplitl [X127]; · iexact X127
    isplitl [X128]; · iexact X128
    isplitl [X129]; · iexact X129
    isplitl [X130]; · iexact X130
    isplitl [X131]; · iexact X131
    isplitl [X132]; · iexact X132
    isplitl [X133]; · iexact X133
    isplitl [X134]; · iexact X134
    isplitl [X135]; · iexact X135
    isplitl [X136]; · iexact X136
    isplitl [X137]; · iexact X137
    isplitl [X138]; · iexact X138
    isplitl [X139]; · iexact X139
    isplitl [X140]; · iexact X140
    isplitl [X141]; · iexact X141
    isplitl [X142]; · iexact X142
    isplitl [X143]; · iexact X143
    isplitl [X144]; · iexact X144
    isplitl [X145]; · iexact X145
    isplitl [X146]; · iexact X146
    isplitl [X147]; · iexact X147
    isplitl [X148]; · iexact X148
    isplitl [X149]; · iexact X149
    isplitl [X150]; · iexact X150
    isplitl [X151]; · iexact X151
    isplitl [X152]; · iexact X152
    isplitl [X153]; · iexact X153
    isplitl [X154]; · iexact X154
    isplitl [X155]; · iexact X155
    isplitl [X156]; · iexact X156
    isplitl [X157]; · iexact X157
    isplitl [X158]; · iexact X158
    isplitl [X159]; · iexact X159
    isplitl [X160]; · iexact X160
    isplitl [X161]; · iexact X161
    isplitl [X162]; · iexact X162
    isplitl [X163]; · iexact X163
    isplitl [X164]; · iexact X164
    isplitl [X165]; · iexact X165
    isplitl [X166]; · iexact X166
    isplitl [X167]; · iexact X167
    isplitl [X168]; · iexact X168
    isplitl [X169]; · iexact X169
    isplitl [X170]; · iexact X170
    isplitl [X171]; · iexact X171
    isplitl [X172]; · iexact X172
    isplitl [X173]; · iexact X173
    isplitl [X174]; · iexact X174
    isplitl [X175]; · iexact X175
    isplitl [X176]; · iexact X176
    isplitl [X177]; · iexact X177
    isplitl [X178]; · iexact X178
    isplitl [X179]; · iexact X179
    isplitl [X180]; · iexact X180
    isplitl [X181]; · iexact X181
    isplitl [X182]; · iexact X182
    isplitl [X183]; · iexact X183
    isplitl [X184]; · iexact X184
    isplitl [X185]; · iexact X185
    isplitl [X186]; · iexact X186
    isplitl [X187]; · iexact X187
    isplitl [X188]; · iexact X188
    isplitl [X189]; · iexact X189
    isplitl [X190]; · iexact X190
    isplitl [X191]; · iexact X191
    isplitl [X192]; · iexact X192
    isplitl [X193]; · iexact X193
    isplitl [X194]; · iexact X194
    isplitl [X195]; · iexact X195
    isplitl [X196]; · iexact X196
    isplitl [X197]; · iexact X197
    isplitl [X198]; · iexact X198
    isplitl [X199]; · iexact X199
    isplitl [X200]; · iexact X200
    isplitl [X201]; · iexact X201
    isplitl [X202]; · iexact X202
    isplitl [X203]; · iexact X203
    isplitl [X204]; · iexact X204
    isplitl [X205]; · iexact X205
    isplitl [X206]; · iexact X206
    isplitl [X207]; · iexact X207
    isplitl [X208]; · iexact X208
    isplitl [X209]; · iexact X209
    isplitl [X210]; · iexact X210
    isplitl [X211]; · iexact X211
    isplitl [X212]; · iexact X212
    isplitl [X213]; · iexact X213
    isplitl [X214]; · iexact X214
    isplitl [X215]; · iexact X215
    isplitl [X216]; · iexact X216
    isplitl [X217]; · iexact X217
    isplitl [X218]; · iexact X218
    isplitl [X219]; · iexact X219
    isplitl [X220]; · iexact X220
    isplitl [X221]; · iexact X221
    isplitl [X222]; · iexact X222
    isplitl [X223]; · iexact X223
    isplitl [X224]; · iexact X224
    isplitl [X225]; · iexact X225
    isplitl [X226]; · iexact X226
    isplitl [X227]; · iexact X227
    isplitl [X228]; · iexact X228
    isplitl [X229]; · iexact X229
    isplitl [X230]; · iexact X230
    isplitl [X231]; · iexact X231
    isplitl [X232]; · iexact X232
    isplitl [X233]; · iexact X233
    isplitl [X234]; · iexact X234
    isplitl [X235]; · iexact X235
    isplitl [X236]; · iexact X236
    isplitl [X237]; · iexact X237
    isplitl [X238]; · iexact X238
    isplitl [X239]; · iexact X239
    isplitl [X240]; · iexact X240
    isplitl [X241]; · iexact X241
    isplitl [X242]; · iexact X242
    isplitl [X243]; · iexact X243
    isplitl [X244]; · iexact X244
    isplitl [X245]; · iexact X245
    isplitl [X246]; · iexact X246
    isplitl [X247]; · iexact X247
    isplitl [X248]; · iexact X248
    isplitl [X249]; · iexact X249
    isplitl [X250]; · iexact X250
    isplitl [X251]; · iexact X251
    isplitl [X252]; · iexact X252
    isplitl [X253]; · iexact X253
    isplitl [X254]; · iexact X254
    iexact X255
  isplitl [R0 R1 R2 R3 R4 R5 R6 R7 R8 R9 R10 R11 R12 R13 R14 R15 R16 R17 R18 R19 R20 R21 R22 R23 R24 R25 R26 R27 R28 R29 R30 R31 R32 R33 R34 R35 R36 R37 R38 R39 R40 R41 R42 R43 R44 R45 R46 R47 R48 R49 R50 R51 R52 R53 R54 R55 R56 R57 R58 R59 R60 R61 R62 R63 R64 R65 R66 R67 R68 R69 R70 R71 R72 R73 R74 R75 R76 R77 R78 R79 R80 R81 R82 R83 R84 R85 R86 R87 R88 R89 R90 R91 R92 R93 R94 R95 R96 R97 R98 R99 R100 R101 R102 R103 R104 R105 R106 R107 R108 R109 R110 R111 R112 R113 R114 R115 R116 R117 R118 R119 R120 R121 R122 R123 R124 R125 R126 R127 R128 R129 R130 R131 R132 R133 R134 R135 R136 R137 R138 R139 R140 R141 R142 R143 R144 R145 R146 R147 R148 R149 R150 R151 R152 R153 R154 R155 R156 R157 R158 R159 R160 R161 R162 R163 R164 R165 R166 R167 R168 R169 R170 R171 R172 R173 R174 R175 R176 R177 R178 R179 R180 R181 R182 R183 R184 R185 R186 R187 R188 R189 R190 R191 R192 R193 R194 R195 R196 R197 R198 R199 R200 R201 R202 R203 R204 R205 R206 R207 R208 R209 R210 R211 R212 R213 R214 R215 R216 R217 R218 R219 R220 R221 R222 R223 R224 R225 R226 R227 R228 R229 R230 R231 R232 R233 R234 R235 R236 R237 R238 R239 R240 R241 R242 R243 R244 R245 R246 R247 R248 R249 R250 R251 R252 R253 R254 R255]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    isplitl [R20]; · iexact R20
    isplitl [R21]; · iexact R21
    isplitl [R22]; · iexact R22
    isplitl [R23]; · iexact R23
    isplitl [R24]; · iexact R24
    isplitl [R25]; · iexact R25
    isplitl [R26]; · iexact R26
    isplitl [R27]; · iexact R27
    isplitl [R28]; · iexact R28
    isplitl [R29]; · iexact R29
    isplitl [R30]; · iexact R30
    isplitl [R31]; · iexact R31
    isplitl [R32]; · iexact R32
    isplitl [R33]; · iexact R33
    isplitl [R34]; · iexact R34
    isplitl [R35]; · iexact R35
    isplitl [R36]; · iexact R36
    isplitl [R37]; · iexact R37
    isplitl [R38]; · iexact R38
    isplitl [R39]; · iexact R39
    isplitl [R40]; · iexact R40
    isplitl [R41]; · iexact R41
    isplitl [R42]; · iexact R42
    isplitl [R43]; · iexact R43
    isplitl [R44]; · iexact R44
    isplitl [R45]; · iexact R45
    isplitl [R46]; · iexact R46
    isplitl [R47]; · iexact R47
    isplitl [R48]; · iexact R48
    isplitl [R49]; · iexact R49
    isplitl [R50]; · iexact R50
    isplitl [R51]; · iexact R51
    isplitl [R52]; · iexact R52
    isplitl [R53]; · iexact R53
    isplitl [R54]; · iexact R54
    isplitl [R55]; · iexact R55
    isplitl [R56]; · iexact R56
    isplitl [R57]; · iexact R57
    isplitl [R58]; · iexact R58
    isplitl [R59]; · iexact R59
    isplitl [R60]; · iexact R60
    isplitl [R61]; · iexact R61
    isplitl [R62]; · iexact R62
    isplitl [R63]; · iexact R63
    isplitl [R64]; · iexact R64
    isplitl [R65]; · iexact R65
    isplitl [R66]; · iexact R66
    isplitl [R67]; · iexact R67
    isplitl [R68]; · iexact R68
    isplitl [R69]; · iexact R69
    isplitl [R70]; · iexact R70
    isplitl [R71]; · iexact R71
    isplitl [R72]; · iexact R72
    isplitl [R73]; · iexact R73
    isplitl [R74]; · iexact R74
    isplitl [R75]; · iexact R75
    isplitl [R76]; · iexact R76
    isplitl [R77]; · iexact R77
    isplitl [R78]; · iexact R78
    isplitl [R79]; · iexact R79
    isplitl [R80]; · iexact R80
    isplitl [R81]; · iexact R81
    isplitl [R82]; · iexact R82
    isplitl [R83]; · iexact R83
    isplitl [R84]; · iexact R84
    isplitl [R85]; · iexact R85
    isplitl [R86]; · iexact R86
    isplitl [R87]; · iexact R87
    isplitl [R88]; · iexact R88
    isplitl [R89]; · iexact R89
    isplitl [R90]; · iexact R90
    isplitl [R91]; · iexact R91
    isplitl [R92]; · iexact R92
    isplitl [R93]; · iexact R93
    isplitl [R94]; · iexact R94
    isplitl [R95]; · iexact R95
    isplitl [R96]; · iexact R96
    isplitl [R97]; · iexact R97
    isplitl [R98]; · iexact R98
    isplitl [R99]; · iexact R99
    isplitl [R100]; · iexact R100
    isplitl [R101]; · iexact R101
    isplitl [R102]; · iexact R102
    isplitl [R103]; · iexact R103
    isplitl [R104]; · iexact R104
    isplitl [R105]; · iexact R105
    isplitl [R106]; · iexact R106
    isplitl [R107]; · iexact R107
    isplitl [R108]; · iexact R108
    isplitl [R109]; · iexact R109
    isplitl [R110]; · iexact R110
    isplitl [R111]; · iexact R111
    isplitl [R112]; · iexact R112
    isplitl [R113]; · iexact R113
    isplitl [R114]; · iexact R114
    isplitl [R115]; · iexact R115
    isplitl [R116]; · iexact R116
    isplitl [R117]; · iexact R117
    isplitl [R118]; · iexact R118
    isplitl [R119]; · iexact R119
    isplitl [R120]; · iexact R120
    isplitl [R121]; · iexact R121
    isplitl [R122]; · iexact R122
    isplitl [R123]; · iexact R123
    isplitl [R124]; · iexact R124
    isplitl [R125]; · iexact R125
    isplitl [R126]; · iexact R126
    isplitl [R127]; · iexact R127
    isplitl [R128]; · iexact R128
    isplitl [R129]; · iexact R129
    isplitl [R130]; · iexact R130
    isplitl [R131]; · iexact R131
    isplitl [R132]; · iexact R132
    isplitl [R133]; · iexact R133
    isplitl [R134]; · iexact R134
    isplitl [R135]; · iexact R135
    isplitl [R136]; · iexact R136
    isplitl [R137]; · iexact R137
    isplitl [R138]; · iexact R138
    isplitl [R139]; · iexact R139
    isplitl [R140]; · iexact R140
    isplitl [R141]; · iexact R141
    isplitl [R142]; · iexact R142
    isplitl [R143]; · iexact R143
    isplitl [R144]; · iexact R144
    isplitl [R145]; · iexact R145
    isplitl [R146]; · iexact R146
    isplitl [R147]; · iexact R147
    isplitl [R148]; · iexact R148
    isplitl [R149]; · iexact R149
    isplitl [R150]; · iexact R150
    isplitl [R151]; · iexact R151
    isplitl [R152]; · iexact R152
    isplitl [R153]; · iexact R153
    isplitl [R154]; · iexact R154
    isplitl [R155]; · iexact R155
    isplitl [R156]; · iexact R156
    isplitl [R157]; · iexact R157
    isplitl [R158]; · iexact R158
    isplitl [R159]; · iexact R159
    isplitl [R160]; · iexact R160
    isplitl [R161]; · iexact R161
    isplitl [R162]; · iexact R162
    isplitl [R163]; · iexact R163
    isplitl [R164]; · iexact R164
    isplitl [R165]; · iexact R165
    isplitl [R166]; · iexact R166
    isplitl [R167]; · iexact R167
    isplitl [R168]; · iexact R168
    isplitl [R169]; · iexact R169
    isplitl [R170]; · iexact R170
    isplitl [R171]; · iexact R171
    isplitl [R172]; · iexact R172
    isplitl [R173]; · iexact R173
    isplitl [R174]; · iexact R174
    isplitl [R175]; · iexact R175
    isplitl [R176]; · iexact R176
    isplitl [R177]; · iexact R177
    isplitl [R178]; · iexact R178
    isplitl [R179]; · iexact R179
    isplitl [R180]; · iexact R180
    isplitl [R181]; · iexact R181
    isplitl [R182]; · iexact R182
    isplitl [R183]; · iexact R183
    isplitl [R184]; · iexact R184
    isplitl [R185]; · iexact R185
    isplitl [R186]; · iexact R186
    isplitl [R187]; · iexact R187
    isplitl [R188]; · iexact R188
    isplitl [R189]; · iexact R189
    isplitl [R190]; · iexact R190
    isplitl [R191]; · iexact R191
    isplitl [R192]; · iexact R192
    isplitl [R193]; · iexact R193
    isplitl [R194]; · iexact R194
    isplitl [R195]; · iexact R195
    isplitl [R196]; · iexact R196
    isplitl [R197]; · iexact R197
    isplitl [R198]; · iexact R198
    isplitl [R199]; · iexact R199
    isplitl [R200]; · iexact R200
    isplitl [R201]; · iexact R201
    isplitl [R202]; · iexact R202
    isplitl [R203]; · iexact R203
    isplitl [R204]; · iexact R204
    isplitl [R205]; · iexact R205
    isplitl [R206]; · iexact R206
    isplitl [R207]; · iexact R207
    isplitl [R208]; · iexact R208
    isplitl [R209]; · iexact R209
    isplitl [R210]; · iexact R210
    isplitl [R211]; · iexact R211
    isplitl [R212]; · iexact R212
    isplitl [R213]; · iexact R213
    isplitl [R214]; · iexact R214
    isplitl [R215]; · iexact R215
    isplitl [R216]; · iexact R216
    isplitl [R217]; · iexact R217
    isplitl [R218]; · iexact R218
    isplitl [R219]; · iexact R219
    isplitl [R220]; · iexact R220
    isplitl [R221]; · iexact R221
    isplitl [R222]; · iexact R222
    isplitl [R223]; · iexact R223
    isplitl [R224]; · iexact R224
    isplitl [R225]; · iexact R225
    isplitl [R226]; · iexact R226
    isplitl [R227]; · iexact R227
    isplitl [R228]; · iexact R228
    isplitl [R229]; · iexact R229
    isplitl [R230]; · iexact R230
    isplitl [R231]; · iexact R231
    isplitl [R232]; · iexact R232
    isplitl [R233]; · iexact R233
    isplitl [R234]; · iexact R234
    isplitl [R235]; · iexact R235
    isplitl [R236]; · iexact R236
    isplitl [R237]; · iexact R237
    isplitl [R238]; · iexact R238
    isplitl [R239]; · iexact R239
    isplitl [R240]; · iexact R240
    isplitl [R241]; · iexact R241
    isplitl [R242]; · iexact R242
    isplitl [R243]; · iexact R243
    isplitl [R244]; · iexact R244
    isplitl [R245]; · iexact R245
    isplitl [R246]; · iexact R246
    isplitl [R247]; · iexact R247
    isplitl [R248]; · iexact R248
    isplitl [R249]; · iexact R249
    isplitl [R250]; · iexact R250
    isplitl [R251]; · iexact R251
    isplitl [R252]; · iexact R252
    isplitl [R253]; · iexact R253
    isplitl [R254]; · iexact R254
    iexact R255
  isplitl [D0 D1 D2 D3 D4 D5 D6 D7 D8 D9 D10 D11 D12 D13 D14 D15 D16 D17 D18 D19 D20 D21 D22 D23 D24 D25 D26 D27 D28 D29 D30 D31 D32 D33 D34 D35 D36 D37 D38 D39 D40 D41 D42 D43 D44 D45 D46 D47 D48 D49 D50 D51 D52 D53 D54 D55 D56 D57 D58 D59 D60 D61 D62 D63 D64 D65 D66 D67 D68 D69 D70 D71 D72 D73 D74 D75 D76 D77 D78 D79 D80 D81 D82 D83 D84 D85 D86 D87 D88 D89 D90 D91 D92 D93 D94 D95 D96 D97 D98 D99 D100 D101 D102 D103 D104 D105 D106 D107 D108 D109 D110 D111 D112 D113 D114 D115 D116 D117 D118 D119 D120 D121 D122 D123 D124 D125 D126 D127 D128 D129 D130 D131 D132 D133 D134 D135 D136 D137 D138 D139 D140 D141 D142 D143 D144 D145 D146 D147 D148 D149 D150 D151 D152 D153 D154 D155 D156 D157 D158 D159 D160 D161 D162 D163 D164 D165 D166 D167 D168 D169 D170 D171 D172 D173 D174 D175 D176 D177 D178 D179 D180 D181 D182 D183 D184 D185 D186 D187 D188 D189 D190 D191 D192 D193 D194 D195 D196 D197 D198 D199 D200 D201 D202 D203 D204 D205 D206 D207 D208 D209 D210 D211 D212 D213 D214 D215 D216 D217 D218 D219 D220 D221 D222 D223 D224 D225 D226 D227 D228 D229 D230 D231 D232 D233 D234 D235 D236 D237 D238 D239 D240 D241 D242 D243 D244 D245 D246 D247 D248 D249 D250 D251 D252 D253 D254 D255]
  · isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [D13]; · iexact D13
    isplitl [D14]; · iexact D14
    isplitl [D15]; · iexact D15
    isplitl [D16]; · iexact D16
    isplitl [D17]; · iexact D17
    isplitl [D18]; · iexact D18
    isplitl [D19]; · iexact D19
    isplitl [D20]; · iexact D20
    isplitl [D21]; · iexact D21
    isplitl [D22]; · iexact D22
    isplitl [D23]; · iexact D23
    isplitl [D24]; · iexact D24
    isplitl [D25]; · iexact D25
    isplitl [D26]; · iexact D26
    isplitl [D27]; · iexact D27
    isplitl [D28]; · iexact D28
    isplitl [D29]; · iexact D29
    isplitl [D30]; · iexact D30
    isplitl [D31]; · iexact D31
    isplitl [D32]; · iexact D32
    isplitl [D33]; · iexact D33
    isplitl [D34]; · iexact D34
    isplitl [D35]; · iexact D35
    isplitl [D36]; · iexact D36
    isplitl [D37]; · iexact D37
    isplitl [D38]; · iexact D38
    isplitl [D39]; · iexact D39
    isplitl [D40]; · iexact D40
    isplitl [D41]; · iexact D41
    isplitl [D42]; · iexact D42
    isplitl [D43]; · iexact D43
    isplitl [D44]; · iexact D44
    isplitl [D45]; · iexact D45
    isplitl [D46]; · iexact D46
    isplitl [D47]; · iexact D47
    isplitl [D48]; · iexact D48
    isplitl [D49]; · iexact D49
    isplitl [D50]; · iexact D50
    isplitl [D51]; · iexact D51
    isplitl [D52]; · iexact D52
    isplitl [D53]; · iexact D53
    isplitl [D54]; · iexact D54
    isplitl [D55]; · iexact D55
    isplitl [D56]; · iexact D56
    isplitl [D57]; · iexact D57
    isplitl [D58]; · iexact D58
    isplitl [D59]; · iexact D59
    isplitl [D60]; · iexact D60
    isplitl [D61]; · iexact D61
    isplitl [D62]; · iexact D62
    isplitl [D63]; · iexact D63
    isplitl [D64]; · iexact D64
    isplitl [D65]; · iexact D65
    isplitl [D66]; · iexact D66
    isplitl [D67]; · iexact D67
    isplitl [D68]; · iexact D68
    isplitl [D69]; · iexact D69
    isplitl [D70]; · iexact D70
    isplitl [D71]; · iexact D71
    isplitl [D72]; · iexact D72
    isplitl [D73]; · iexact D73
    isplitl [D74]; · iexact D74
    isplitl [D75]; · iexact D75
    isplitl [D76]; · iexact D76
    isplitl [D77]; · iexact D77
    isplitl [D78]; · iexact D78
    isplitl [D79]; · iexact D79
    isplitl [D80]; · iexact D80
    isplitl [D81]; · iexact D81
    isplitl [D82]; · iexact D82
    isplitl [D83]; · iexact D83
    isplitl [D84]; · iexact D84
    isplitl [D85]; · iexact D85
    isplitl [D86]; · iexact D86
    isplitl [D87]; · iexact D87
    isplitl [D88]; · iexact D88
    isplitl [D89]; · iexact D89
    isplitl [D90]; · iexact D90
    isplitl [D91]; · iexact D91
    isplitl [D92]; · iexact D92
    isplitl [D93]; · iexact D93
    isplitl [D94]; · iexact D94
    isplitl [D95]; · iexact D95
    isplitl [D96]; · iexact D96
    isplitl [D97]; · iexact D97
    isplitl [D98]; · iexact D98
    isplitl [D99]; · iexact D99
    isplitl [D100]; · iexact D100
    isplitl [D101]; · iexact D101
    isplitl [D102]; · iexact D102
    isplitl [D103]; · iexact D103
    isplitl [D104]; · iexact D104
    isplitl [D105]; · iexact D105
    isplitl [D106]; · iexact D106
    isplitl [D107]; · iexact D107
    isplitl [D108]; · iexact D108
    isplitl [D109]; · iexact D109
    isplitl [D110]; · iexact D110
    isplitl [D111]; · iexact D111
    isplitl [D112]; · iexact D112
    isplitl [D113]; · iexact D113
    isplitl [D114]; · iexact D114
    isplitl [D115]; · iexact D115
    isplitl [D116]; · iexact D116
    isplitl [D117]; · iexact D117
    isplitl [D118]; · iexact D118
    isplitl [D119]; · iexact D119
    isplitl [D120]; · iexact D120
    isplitl [D121]; · iexact D121
    isplitl [D122]; · iexact D122
    isplitl [D123]; · iexact D123
    isplitl [D124]; · iexact D124
    isplitl [D125]; · iexact D125
    isplitl [D126]; · iexact D126
    isplitl [D127]; · iexact D127
    isplitl [D128]; · iexact D128
    isplitl [D129]; · iexact D129
    isplitl [D130]; · iexact D130
    isplitl [D131]; · iexact D131
    isplitl [D132]; · iexact D132
    isplitl [D133]; · iexact D133
    isplitl [D134]; · iexact D134
    isplitl [D135]; · iexact D135
    isplitl [D136]; · iexact D136
    isplitl [D137]; · iexact D137
    isplitl [D138]; · iexact D138
    isplitl [D139]; · iexact D139
    isplitl [D140]; · iexact D140
    isplitl [D141]; · iexact D141
    isplitl [D142]; · iexact D142
    isplitl [D143]; · iexact D143
    isplitl [D144]; · iexact D144
    isplitl [D145]; · iexact D145
    isplitl [D146]; · iexact D146
    isplitl [D147]; · iexact D147
    isplitl [D148]; · iexact D148
    isplitl [D149]; · iexact D149
    isplitl [D150]; · iexact D150
    isplitl [D151]; · iexact D151
    isplitl [D152]; · iexact D152
    isplitl [D153]; · iexact D153
    isplitl [D154]; · iexact D154
    isplitl [D155]; · iexact D155
    isplitl [D156]; · iexact D156
    isplitl [D157]; · iexact D157
    isplitl [D158]; · iexact D158
    isplitl [D159]; · iexact D159
    isplitl [D160]; · iexact D160
    isplitl [D161]; · iexact D161
    isplitl [D162]; · iexact D162
    isplitl [D163]; · iexact D163
    isplitl [D164]; · iexact D164
    isplitl [D165]; · iexact D165
    isplitl [D166]; · iexact D166
    isplitl [D167]; · iexact D167
    isplitl [D168]; · iexact D168
    isplitl [D169]; · iexact D169
    isplitl [D170]; · iexact D170
    isplitl [D171]; · iexact D171
    isplitl [D172]; · iexact D172
    isplitl [D173]; · iexact D173
    isplitl [D174]; · iexact D174
    isplitl [D175]; · iexact D175
    isplitl [D176]; · iexact D176
    isplitl [D177]; · iexact D177
    isplitl [D178]; · iexact D178
    isplitl [D179]; · iexact D179
    isplitl [D180]; · iexact D180
    isplitl [D181]; · iexact D181
    isplitl [D182]; · iexact D182
    isplitl [D183]; · iexact D183
    isplitl [D184]; · iexact D184
    isplitl [D185]; · iexact D185
    isplitl [D186]; · iexact D186
    isplitl [D187]; · iexact D187
    isplitl [D188]; · iexact D188
    isplitl [D189]; · iexact D189
    isplitl [D190]; · iexact D190
    isplitl [D191]; · iexact D191
    isplitl [D192]; · iexact D192
    isplitl [D193]; · iexact D193
    isplitl [D194]; · iexact D194
    isplitl [D195]; · iexact D195
    isplitl [D196]; · iexact D196
    isplitl [D197]; · iexact D197
    isplitl [D198]; · iexact D198
    isplitl [D199]; · iexact D199
    isplitl [D200]; · iexact D200
    isplitl [D201]; · iexact D201
    isplitl [D202]; · iexact D202
    isplitl [D203]; · iexact D203
    isplitl [D204]; · iexact D204
    isplitl [D205]; · iexact D205
    isplitl [D206]; · iexact D206
    isplitl [D207]; · iexact D207
    isplitl [D208]; · iexact D208
    isplitl [D209]; · iexact D209
    isplitl [D210]; · iexact D210
    isplitl [D211]; · iexact D211
    isplitl [D212]; · iexact D212
    isplitl [D213]; · iexact D213
    isplitl [D214]; · iexact D214
    isplitl [D215]; · iexact D215
    isplitl [D216]; · iexact D216
    isplitl [D217]; · iexact D217
    isplitl [D218]; · iexact D218
    isplitl [D219]; · iexact D219
    isplitl [D220]; · iexact D220
    isplitl [D221]; · iexact D221
    isplitl [D222]; · iexact D222
    isplitl [D223]; · iexact D223
    isplitl [D224]; · iexact D224
    isplitl [D225]; · iexact D225
    isplitl [D226]; · iexact D226
    isplitl [D227]; · iexact D227
    isplitl [D228]; · iexact D228
    isplitl [D229]; · iexact D229
    isplitl [D230]; · iexact D230
    isplitl [D231]; · iexact D231
    isplitl [D232]; · iexact D232
    isplitl [D233]; · iexact D233
    isplitl [D234]; · iexact D234
    isplitl [D235]; · iexact D235
    isplitl [D236]; · iexact D236
    isplitl [D237]; · iexact D237
    isplitl [D238]; · iexact D238
    isplitl [D239]; · iexact D239
    isplitl [D240]; · iexact D240
    isplitl [D241]; · iexact D241
    isplitl [D242]; · iexact D242
    isplitl [D243]; · iexact D243
    isplitl [D244]; · iexact D244
    isplitl [D245]; · iexact D245
    isplitl [D246]; · iexact D246
    isplitl [D247]; · iexact D247
    isplitl [D248]; · iexact D248
    isplitl [D249]; · iexact D249
    isplitl [D250]; · iexact D250
    isplitl [D251]; · iexact D251
    isplitl [D252]; · iexact D252
    isplitl [D253]; · iexact D253
    isplitl [D254]; · iexact D254
    iexact D255
  iexists _; iexact HO

end Cert.Kernel.Exec1

end
-- ==== Proof.Body1W.lean ====
import proofs.«409488_j73529840107771_1_alg».proof.Proof.Exec1W
import proofs.«409488_j73529840107771_1_alg».proof.Proof.ExecOffs1W
import proofs.«409488_j73529840107771_1_alg».proof.Proof.Rows1W
import proofs.«409488_j73529840107771_1_alg».proof.Proof.RowsVal1W
import proofs.«409488_j73529840107771_1_alg».proof.Proof.Chains

noncomputable section

namespace Cert.Kernel.Body1

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.Kernel.Iface Cert.Kernel.Rows1 Cert.Kernel.Exec1

theorem coords_val : ∀ t : Fin grid1.N, (grid1.coords t 0).val = t.val := by decide

set_option maxHeartbeats 8000000 in
/-- One grid step of the second kernel: split the block into rows and the source into read shares, run the copies, join the rows; the block then reads as block t of the gathered matrix. -/
theorem kernelRun1 [∀ e, Nonempty (Elt F e)] (c : Dev nD) (t : Fin grid1.N)
    (M3 : Memref sig .tc .vmem S256x1024 .f32) (h3 : M3.IsWhole)
    (pf : Bf (F := F) c (Memref.whole main_arg2)) (hpf : ∀ j, (pf j).toNat < 32768)
    (f : Bf (F := F) c (Memref.whole main_v12))
    (W : Waits sig Unit) (K : PUnit → sProp 𝕄) :
    iprop((∃ d, owns (c : Thread nD τ) M3 fullShare d)
        ∗ Pipeline.ownSems0 (Ix := Unit) (Name := ℕ) (U := Pipeline.UD sig nD τ) (Lvl := ℕ) (Val := Elt F) (τ := τ) osem1 c
        ∗ pt c (Memref.whole main_arg2) pf ∗ pt c (Memref.whole main_v12) f ∗ owes (c : Thread nD τ) 0 W
        ∗ (iprop(owns (c : Thread nD τ) M3 fullShare (Cert.Spec.gatherRows t.val pf f)
              ∗ Pipeline.ownSems0 (Ix := Unit) (Name := ℕ) (U := Pipeline.UD sig nD τ) (Lvl := ℕ) (Val := Elt F) (τ := τ) osem1 c
              ∗ pt c (Memref.whole main_arg2) pf ∗ pt c (Memref.whole main_v12) f ∗ (∃ W', owes (c : Thread nD τ) 0 W')) -∗ K ⟨⟩))
      ⊢ wp frame (wpE (defs₀ (F := F)) Variants.none c none) Set.univ
          (cc1__gather_kernel (grid1.coords t) (Memref.whole main_arg2) (Memref.isWhole_whole _) (Memref.whole main_v12) (Memref.isWhole_whole _) M3 h3 cc1_scratch0) K := by
  rw [cells_eq]
  unfold owns
  iintro ⟨⟨%d, %d0, -, Hd⟩, Hsems, Htbl, Hsrc, HO, Hk⟩
  ihave HR := (rows_split c M3 d0 h3) $$ Hd
  ihave HT := (toks_split c f) $$ Hsrc
  icases HT with ⟨⟨%Rm, HRm, %hback⟩, HX⟩
  iapply (run c t M3 h3 pf hpf f d0 W K)
  isplitl [Htbl]; · iexact Htbl
  isplitl [HX]; · iexact HX
  isplitl [HR]; · iexact HR
  isplitl [Hsems]
  · iapply (Entails.of_eq (Cert.Chains.bigSep_fin256 (fun r h => sv c (cc1_scratch0.ix (ValueIdx.ix1 ⟨r, h⟩)))))
    iexact Hsems
  isplitl [HO]; · iexact HO
  iintro ⟨Htbl, HXc, HRc, HDc, HO'⟩
  ihave Hsrc' := hback $$ [HRm HXc]
  · isplitl [HRm]; · iexact HRm
    iexact HXc
  ihave HJ := (rows_join c M3 h3 (landed c M3 (offs t) (hin t) pf hpf f d0)) $$ [HRc]
  · iexact HRc
  icases HJ with ⟨%G, %hG, HG⟩
  iapply Hk
  isplitl [HG]
  · iexists G; isplitr
    · ipureintro
      rw [← coords_val t]
      exact landed_read c M3 (offs t) (hin t) pf hpf f d0 h3 (grid1.coords t 0).val (grid1.coords t 0).isLt (hoffs t) G hG
    · iexact HG
  isplitl [HDc]
  · iapply (Entails.of_eq (Cert.Chains.bigSep_fin256 (fun r h => sv c (cc1_scratch0.ix (ValueIdx.ix1 ⟨r, h⟩)))).symm)
    iexact HDc
  isplitl [Htbl]; · iexact Htbl
  isplitl [Hsrc']; · iexact Hsrc'
  iexact HO'

end Cert.Kernel.Body1

end
-- ==== Proof.Region1W.lean ====
import proofs.«409488_j73529840107771_1_alg».proof.Proof.Body1W

noncomputable section

namespace Cert.Kernel.Region1

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

open Cert.Kernel.Iface

variable (V : (c : Dev nD) → (b : Ref sig .tc) → Buf (Elt F) ((c : Thread nD τ).loc b))

def H1 : Finset (Ref sig .tc) := {main_v12, main_arg2}

def dat1 (a : (pcfg1 (F := F)).Adm) (c : Dev nD) : Dat τ (Elt F) Unit ℕ (Pipeline.UD sig nD τ) ℕ (cfg1 a) c where
  A w := V c (Pipeline.arrRef spec1 w)
  after w t := match w with
    | ⟨0, _⟩ => Cert.Spec.gatherRows t.val (V c main_arg2) (V c main_v12)
  Φ _ := Pipeline.ΦD osem1 spec1 H1 V c
  q _ := fullShare
  owed _ := 0

abbrev stageAt (a : (pcfg1 (F := F)).Adm) (t : Fin (cfg1 a).N) : Memref sig .tc .vmem S256x1024 .f32 :=
  spec1_0.stage ((cfg1 a).slots t 0)

theorem stageAt_whole (a : (pcfg1 (F := F)).Adm) (t : Fin (cfg1 a).N) : (stageAt a t).IsWhole :=
  hstage1_0 (((cfg1 a).slots t 0).cast nbuf1_0)

theorem call_eq (a : (pcfg1 (F := F)).Adm) (t : Fin (cfg1 a).N) :
    defs₀ (F := F) .tc (cfg1 a).body ((cfg1 a).bodyArgs t ((cfg1 a).slots t))
      = cc1__gather_kernel (grid1.coords t) (Memref.whole main_arg2) (Memref.isWhole_whole _) (Memref.whole main_v12)
          (Memref.isWhole_whole _) (stageAt a t) (stageAt_whole a t) cc1_scratch0 := rfl

theorem hbm_eq (c : Dev nD) :
    (bigSep H1 (fun b => ((c : Thread nD τ).loc b) ↦{fullShare} V c b) : sProp 𝕄)
      = iprop(pt c (Memref.whole main_v12) (V c main_v12) ∗ pt c (Memref.whole main_arg2) (V c main_arg2)) := by
  rw [BI.bigSep_eq_bigSepL_of_eq [main_v12, main_arg2] (by decide) (by decide)]; rfl

theorem inv_eq (c : Dev nD) :
    (Pipeline.ΦD osem1 spec1 H1 V c : sProp 𝕄)
      = iprop(Pipeline.scopedRest (Ix := Unit) (Name := ℕ) (U := Pipeline.UD sig nD τ) (Lvl := ℕ) (Val := Elt F) spec1 c
          ∗ (∃ r, prngReg c r)
          ∗ Pipeline.ownSems0 (Ix := Unit) (Name := ℕ) (U := Pipeline.UD sig nD τ) (Lvl := ℕ) (Val := Elt F) (τ := τ) osem1 c
          ∗ pt c (Memref.whole main_v12) (V c main_v12) ∗ pt c (Memref.whole main_arg2) (V c main_arg2)) := by
  rw [Pipeline.ΦD_eq, hbm_eq]

def handed (a : (pcfg1 (F := F)).Adm) (c : Dev nD) (t : Fin (cfg1 a).N) : sProp 𝕄 :=
  iprop((dat1 V a c).Φ t.castSucc ∗ (dat1 V a c).owesAt () t.castSucc
    ∗ (∃ d, owns (c : Thread nD τ) (stageAt a t) fullShare ((dat1 V a c).before 0 t d)))

def returned (a : (pcfg1 (F := F)).Adm) (c : Dev nD) (t : Fin (cfg1 a).N) : sProp 𝕄 :=
  iprop((dat1 V a c).Φ t.succ ∗ (dat1 V a c).owesAt () t.succ
    ∗ owns (c : Thread nD τ) (stageAt a t) fullShare ((dat1 V a c).after 0 t))

theorem step_sound [∀ e, Nonempty (Elt F e)] (a : (pcfg1 (F := F)).Adm) (c : Dev nD)
    (hpf : ∀ j, (V c main_arg2 j).toNat < 32768) (t : Fin (cfg1 a).N)
    (p : Prog (TpuEff nD τ sig (Elt F) Λ₀ .tc) PUnit)
    (hp : p = cc1__gather_kernel (grid1.coords t) (Memref.whole main_arg2) (Memref.isWhole_whole _) (Memref.whole main_v12)
        (Memref.isWhole_whole _) (stageAt a t) (stageAt_whole a t) cc1_scratch0) :
    handed V a c t ⊢ wp frame (wpE (defs₀ (F := F)) Variants.none c none) Set.univ p (fun _ => returned V a c t) := by
  subst hp
  unfold handed returned
  rw [show (dat1 V a c).Φ t.succ = Pipeline.ΦD osem1 spec1 H1 V c from rfl,
    show (dat1 V a c).Φ t.castSucc = Pipeline.ΦD osem1 spec1 H1 V c from rfl, inv_eq,
    show (dat1 V a c).after 0 t = Cert.Spec.gatherRows t.val (V c main_arg2) (V c main_v12) from rfl]
  unfold Dat.owesAt Pipeline.owesWithin
  rw [show (dat1 V a c).owed t.castSucc = 0 from rfl, show (dat1 V a c).owed t.succ = 0 from rfl]
  iintro ⟨⟨Hrest, Hreg, Hcells, Hsrc, Htab⟩, ⟨%W, -, Howes⟩, ⟨%d, Hout⟩⟩
  iapply (Body1.kernelRun1 c t (stageAt a t) (stageAt_whole a t) (V c main_arg2) hpf (V c main_v12) W _)
  isplitl [Hout]; · iexists _; iexact Hout
  isplitl [Hcells]; · iexact Hcells
  isplitl [Htab]; · iexact Htab
  isplitl [Hsrc]; · iexact Hsrc
  isplitl [Howes]; · iexact Howes
  iintro ⟨Hout, Hcells, Htab, Hsrc, ⟨%W', Howes⟩⟩
  isplitl [Hrest Hreg Hcells Hsrc Htab]
  · isplitl [Hrest]; · iexact Hrest
    isplitl [Hreg]; · iexact Hreg
    isplitl [Hcells]; · iexact Hcells
    isplitl [Hsrc]; · iexact Hsrc
    iexact Htab
  isplitl [Howes]
  · iexists W'; isplitr; · ipureintro; exact fun _ _ => Or.inl trivial
    iexact Howes
  iexact Hout

theorem body_obligation1 [∀ e, Nonempty (Elt F e)] (a : (pcfg1 (F := F)).Adm) (c : Dev nD)
    (hpf : ∀ j, (V c main_arg2 j).toNat < 32768) :
    BodyObligation (dat1 (F := F) V a c) (defs₀ (F := F)) Variants.none () Set.univ := fun t => by
  rw [bigSep_W1, bigSep_W1]

  generalize hp : defs₀ (F := F) .tc (cfg1 a).body ((cfg1 a).bodyArgs t ((cfg1 a).slots t)) = p
  exact step_sound V a c hpf t p (hp.symm.trans (call_eq a t))

end Cert.Kernel.Region1

end
-- ==== Proof.LaunchW.lean ====
import proofs.«409488_j73529840107771_1_alg».proof.Proof.Region0W
import proofs.«409488_j73529840107771_1_alg».proof.Proof.Region1W
import proofs.«409488_j73529840107771_1_alg».proof.Proof.Gen.Kernel.Regions
import Idealize.ShloMosaic.Lib.Pipeline.Regions
import Idealize.ShloMosaic.Lib.Pipeline.RegionsLoop
import Idealize.ShloMosaic.Lib.Pipeline.Frame
import Idealize.ShloMosaic.Lib.Pipeline.FrameSuffix

noncomputable section

namespace Cert.Kernel.Launch

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

open Cert.Kernel.Iface Cert.Kernel.Region0 Cert.Kernel.Region1

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

def adm : (p : Fin 2) → (pcfgs (F := F) p).Adm
  | ⟨0, _⟩ => ⟨fun k => m (((0 : Dev nD) : Thread nD τ).loc (pre0.ref k)), trivial⟩
  | ⟨1, _⟩ => ⟨fun k => m (((0 : Dev nD) : Thread nD τ).loc (pre1.ref k)), trivial⟩
  | ⟨_ + 2, h⟩ => absurd h (Nat.not_lt.2 (Nat.le_add_left _ _))

abbrev W0 (c : Dev nD) : Valuation τ sig (Elt F) := fun b => m (c, b)

abbrev W1 (c : Dev nD) : Valuation τ sig (Elt F) := StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) (adm m 0) c).arrAt w (cfg0 (adm m 0)).N
abbrev V2 : (c : Dev nD) → (b : Ref sig .tc) → Buf (Elt F) ((c : Thread nD τ).loc b) := fun c b => W2 m c b

abbrev W3 (c : Dev nD) : Valuation τ sig (Elt F) := StableHlo.after hostOps1 (W2 m c)

abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) (adm m 1) c).arrAt w (cfg1 (adm m 1)).N
abbrev V4 : (c : Dev nD) → (b : Ref sig .tc) → Buf (Elt F) ((c : Thread nD τ).loc b) := fun c b => W4 m c b

abbrev W5 (c : Dev nD) : Valuation τ sig (Elt F) := StableHlo.after hostOps2 (W4 m c)

def pdats : (p : Fin 2) → (c : Dev nD) → Dat τ (Elt F) Unit ℕ (Pipeline.UD sig nD τ) ℕ (Pipeline.pin (pcfgs (F := F)) (adm m) p) c
  | ⟨0, _⟩ => fun c => dat0 (V1 m) (adm m 0) c
  | ⟨1, _⟩ => fun c => dat1 (V3 m) (adm m 1) c
  | ⟨_ + 2, h⟩ => absurd h (Nat.not_lt.2 (Nat.le_add_left _ _))

theorem W2_arr (c : Dev nD) (w : Fin (cfg0 (adm m 0)).W) :
    W2 m c (Proc.devRef .tc (Pipeline.arrRef spec0 w)) = (pdats m 0 c).arrAt w (cfg0 (adm m 0)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin (cfg1 (adm m 1)).W) :
    W4 m c (Proc.devRef .tc (Pipeline.arrRef spec1 w)) = (pdats m 1 c).arrAt w (cfg1 (adm m 1)).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

theorem W5_unwritten (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m c (Proc.devRef .tc r) = m ((c : Thread nD τ).loc r) :=
  (W5_of m c r h2).trans <| (W4_of_ne m c r ha1).trans <| (W3_of m c r h1).trans <| (W2_of_ne m c r ha0).trans <| (W1_of m c r h0).trans rfl

theorem W5_main_arg0 (c : Dev nD) : W5 m c (Proc.devRef .tc main_arg0) = m ((c : Thread nD τ).loc main_arg0) :=
  W5_unwritten m c main_arg0 (by decide) (by decide) (by decide) (by decide) (by decide)
theorem W5_main_arg1 (c : Dev nD) : W5 m c (Proc.devRef .tc main_arg1) = m ((c : Thread nD τ).loc main_arg1) :=
  W5_unwritten m c main_arg1 (by decide) (by decide) (by decide) (by decide) (by decide)
theorem W5_main_arg2 (c : Dev nD) : W5 m c (Proc.devRef .tc main_arg2) = m ((c : Thread nD τ).loc main_arg2) :=
  W5_unwritten m c main_arg2 (by decide) (by decide) (by decide) (by decide) (by decide)
theorem W5_main_arg3 (c : Dev nD) : W5 m c (Proc.devRef .tc main_arg3) = m ((c : Thread nD τ).loc main_arg3) :=
  W5_unwritten m c main_arg3 (by decide) (by decide) (by decide) (by decide) (by decide)

theorem V1_main_arg3 (c : Dev nD) : V1 m c main_arg3 = m ((c : Thread nD τ).loc main_arg3) :=
  (W1_of m c main_arg3 (by decide)).trans rfl

theorem V3_main_arg2 (c : Dev nD) : V3 m c main_arg2 = m ((c : Thread nD τ).loc main_arg2) :=
  (W3_of m c main_arg2 (by decide)).trans <| (W2_of_ne m c main_arg2 (by decide)).trans <| (W1_of m c main_arg2 (by decide)).trans rfl

theorem dev_eq (c : Dev nD) : c = 0 := Subsingleton.elim _ _

theorem adm0_eq (c : Dev nD) : (adm m 0).1 0 = V1 m c main_arg3 := by
  rw [V1_main_arg3, dev_eq c]; rfl

theorem adm1_eq (c : Dev nD) : (adm m 1).1 0 = V3 m c main_arg2 := by
  rw [V3_main_arg2, dev_eq c]; rfl

theorem W2_main_v3 (c : Dev nD) : W2 m c (Proc.devRef .tc main_v3) = (pdats m 0 c).arrAt 1 (cfg0 (adm m 0)).N := W2_arr m c 1

theorem W4_main_v13 (c : Dev nD) : W4 m c (Proc.devRef .tc main_v13) = (pdats m 1 c).arrAt 0 (cfg1 (adm m 1)).N := W4_arr m c 0

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W5 m c) ∗ ∃ r, prngReg c r)

theorem ownSemFacts0 : Pipeline.OwnSemFacts spec0 osem0 := by decide
theorem ownSemFacts1 : Pipeline.OwnSemFacts spec1 osem1 := by decide
theorem H0_sub : H0 ⊆ Pipeline.restRefs sig spec0 := by decide
theorem H1_sub : H1 ⊆ Pipeline.restRefs sig spec1 := by decide

theorem bigSep_H0 (Φ : Ref sig .tc → sProp 𝕄) : bigSep H0 Φ = iprop(Φ main_v0 ∗ Φ main_arg3) :=
  BI.bigSep_eq_bigSepL_of_eq [main_v0, main_arg3] (by decide) (by decide) Φ

theorem bigSep_H1 (Φ : Ref sig .tc → sProp 𝕄) : bigSep H1 Φ = iprop(Φ main_v12 ∗ Φ main_arg2) :=
  BI.bigSep_eq_bigSepL_of_eq [main_v12, main_arg2] (by decide) (by decide) Φ

theorem prefHeld0 (c : Dev nD) : (Pipeline.prefHeld pre0 c (fun _ => fullShare) (adm m 0).1 : sProp 𝕄)
    = (((c : Thread nD τ).loc main_arg3) ↦{fullShare} V1 m c main_arg3) := by
  unfold Pipeline.prefHeld
  rw [bigSep_univ_eq_bigSepL [(0 : Fin 1)] (by decide) (by decide), ← adm0_eq m c]
  rfl

theorem prefHeld1 (c : Dev nD) : (Pipeline.prefHeld pre1 c (fun _ => fullShare) (adm m 1).1 : sProp 𝕄)
    = (((c : Thread nD τ).loc main_arg2) ↦{fullShare} V3 m c main_arg2) := by
  unfold Pipeline.prefHeld
  rw [bigSep_univ_eq_bigSepL [(0 : Fin 1)] (by decide) (by decide), ← adm1_eq m c]
  rfl

theorem hF0 (c : Dev nD) (w : Fin (cfg0 (adm m 0)).W) : (pdats m 0 c).arrAt w (cfg0 (adm m 0)).N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin (cfg1 (adm m 1)).W) : (pdats m 1 c).arrAt w (cfg1 (adm m 1)).N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

variable [∀ e, Nonempty (Elt F e)]

set_option backward.isDefEq.respectTransparency.types false in

def reg0 (h3 : ∀ (c : Dev nD) j, (m ((c : Thread nD τ).loc main_arg3) j).toNat < 32768) :
    Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := Fin 256
  osem := osem0
  ho := ownSemFacts0
  hbody c := (body_obligation0 (V1 m) (adm m 0) c (fun j => by rw [V1_main_arg3]; exact h3 c j)).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop((∃ r, prngReg c r) ∗ Pipeline.ownSems0 (Ix := Unit) (Name := ℕ) (U := Pipeline.UD sig nD τ) (Lvl := ℕ) (Val := Elt F) (τ := τ) osem0 c
    ∗ (((c : Thread nD τ).loc main_v0) ↦{fullShare} V1 m c main_v0))
  Y c := iprop((∃ r, prngReg c r) ∗ (bigSep H0 fun b => (((c : Thread nD τ)).loc b) ↦{fullShare} V1 m c b))
  Z c := bigSep (Pipeline.restRefs sig spec0 \ H0) fun b => (((c : Thread nD τ)).loc b) ↦{fullShare} V1 m c b
  hentry c := by
    have hsplit := Pipeline.arrays_of_unscopedBufs (p := 0) (pcfgs (F := F)) (adm m) (pdats m) (launch0 (F := F)).win (launch0 (F := F)).arr_whole c
      ((pdats m 0 c).share_full fun _ => rfl) (V1 m c) fun _ => rfl
    rw [Pipeline.unscopedBufs_held] at hsplit
    have hH := Pipeline.unscopedRest_sdiff (Val := Elt F) spec0 H0 H0_sub c (V1 m c)
    have hL := bigSep_H0 (F := F) fun b => (((c : Thread nD τ)).loc b) ↦{fullShare} V1 m c b
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq hL) $$ HH
    icases H'' with ⟨Hsrc, Htbl⟩
    imodintro
    isplitl [Ha]; · iexact Ha
    isplitl [Htbl]
    · iapply (Entails.of_eq (prefHeld0 m c).symm); iexact Htbl
    isplitl [HO]
    · unfold Pipeline.Dat.owesAt Pipeline.owesWithin
      icases HO with ⟨%W, HO⟩; iexists W; isplitr; · ipureintro; exact fun _ _ => Or.inl trivial
      iexact HO
    isplitl [Hp Hos Hsrc]
    · isplitl [Hp]; · iexact Hp
      isplitl [Hos]; · iexact Hos
      iexact Hsrc
    iexact HR
  hin c := by
    rw [show (pdats m 0 c).Φ 0 = Pipeline.ΦD osem0 spec0 H0 (V1 m) c from rfl, Pipeline.ΦD_eq]
    have hL := bigSep_H0 (F := F) fun b => (((c : Thread nD τ)).loc b) ↦{fullShare} V1 m c b
    iintro ⟨⟨Hp, Ho, Hsrc⟩, Htbl, Hr⟩
    ihave Htbl' := (Entails.of_eq (prefHeld0 m c)) $$ Htbl
    isplitl [Hr]; · iexact Hr
    isplitl [Hp]; · iexact Hp
    isplitl [Ho]; · iexact Ho
    iapply (Entails.of_eq hL.symm)
    isplitl [Hsrc]; · iexact Hsrc
    iexact Htbl'
  hout c := by
    rw [show (pdats m 0 c).Φ (Fin.last _) = Pipeline.ΦD osem0 spec0 H0 (V1 m) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m 0 c).share_full fun _ => rfl)
      (V1 m c) (V2 m c) ((pdats m 0 c).arrAt · (cfg0 (adm m 0)).N) (hF0 m c) (hrest0 m c)
    rw [Pipeline.unscopedBufs_held] at hjoin
    have hH := Pipeline.unscopedRest_sdiff (Val := Elt F) spec0 H0 H0_sub c (V1 m c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 (h2 : ∀ (c : Dev nD) j, (m ((c : Thread nD τ).loc main_arg2) j).toNat < 32768) :
    Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := Fin 256
  osem := osem1
  ho := ownSemFacts1
  hbody c := (body_obligation1 (V3 m) (adm m 1) c (fun j => by rw [V3_main_arg2]; exact h2 c j)).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop((∃ r, prngReg c r) ∗ Pipeline.ownSems0 (Ix := Unit) (Name := ℕ) (U := Pipeline.UD sig nD τ) (Lvl := ℕ) (Val := Elt F) (τ := τ) osem1 c
    ∗ (((c : Thread nD τ).loc main_v12) ↦{fullShare} V3 m c main_v12))
  Y c := iprop((∃ r, prngReg c r) ∗ (bigSep H1 fun b => (((c : Thread nD τ)).loc b) ↦{fullShare} V3 m c b))
  Z c := bigSep (Pipeline.restRefs sig spec1 \ H1) fun b => (((c : Thread nD τ)).loc b) ↦{fullShare} V3 m c b
  hentry c := by
    have hsplit := Pipeline.arrays_of_unscopedBufs (p := 1) (pcfgs (F := F)) (adm m) (pdats m) (launch1 (F := F)).win (launch1 (F := F)).arr_whole c
      ((pdats m 1 c).share_full fun _ => rfl) (V3 m c) fun _ => rfl
    rw [Pipeline.unscopedBufs_held] at hsplit
    have hH := Pipeline.unscopedRest_sdiff (Val := Elt F) spec1 H1 H1_sub c (V3 m c)
    have hL := bigSep_H1 (F := F) fun b => (((c : Thread nD τ)).loc b) ↦{fullShare} V3 m c b
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq hL) $$ HH
    icases H'' with ⟨Hsrc, Htbl⟩
    imodintro
    isplitl [Ha]; · iexact Ha
    isplitl [Htbl]
    · iapply (Entails.of_eq (prefHeld1 m c).symm); iexact Htbl
    isplitl [HO]
    · unfold Pipeline.Dat.owesAt Pipeline.owesWithin
      icases HO with ⟨%W, HO⟩; iexists W; isplitr; · ipureintro; exact fun _ _ => Or.inl trivial
      iexact HO
    isplitl [Hp Hos Hsrc]
    · isplitl [Hp]; · iexact Hp
      isplitl [Hos]; · iexact Hos
      iexact Hsrc
    iexact HR
  hin c := by
    rw [show (pdats m 1 c).Φ 0 = Pipeline.ΦD osem1 spec1 H1 (V3 m) c from rfl, Pipeline.ΦD_eq]
    have hL := bigSep_H1 (F := F) fun b => (((c : Thread nD τ)).loc b) ↦{fullShare} V3 m c b
    iintro ⟨⟨Hp, Ho, Hsrc⟩, Htbl, Hr⟩
    ihave Htbl' := (Entails.of_eq (prefHeld1 m c)) $$ Htbl
    isplitl [Hr]; · iexact Hr
    isplitl [Hp]; · iexact Hp
    isplitl [Ho]; · iexact Ho
    iapply (Entails.of_eq hL.symm)
    isplitl [Hsrc]; · iexact Hsrc
    iexact Htbl'
  hout c := by
    rw [show (pdats m 1 c).Φ (Fin.last _) = Pipeline.ΦD osem1 spec1 H1 (V3 m) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m) ((pdats m 1 c).share_full fun _ => rfl)
      (V3 m c) (V4 m c) ((pdats m 1 c).arrAt · (cfg1 (adm m 1)).N) (hF1 m c) (hrest1 m c)
    rw [Pipeline.unscopedBufs_held] at hjoin
    have hH := Pipeline.unscopedRest_sdiff (Val := Elt F) spec1 H1 H1_sub c (V3 m c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (h2 : ∀ (c : Dev nD) j, (m ((c : Thread nD τ).loc main_arg2) j).toNat < 32768)
  (h3 : ∀ (c : Dev nD) j, (m ((c : Thread nD τ).loc main_arg3) j).toNat < 32768)

abbrev segs : List (Pipeline.Seg (pcfgs (F := F)) (adm m) (pdats m) () defs₀ 𝒱₀ L lv) :=
  [ .host (hseg hostOps0 hostOps0_sub hostOps0_fresh (W0 m)),
    .region (reg0 m h3),
    .host (hseg hostOps1 hostOps1_sub hostOps1_fresh (W2 m)),
    .region (reg1 m h2),
    .host (hseg hostOps2 hostOps2_sub hostOps2_fresh (W4 m)) ]

theorem main_run (c : Dev nD) : main (F := F) c = Pipeline.Seg.run (segs m h2 h3) := (main_chain c).trans (by chain_rfl)

theorem last_link (c : Dev nD) :
    iprop(StableHlo.held (c : Thread nD τ) (Pipeline.ucRefs τ sig) (W5 m c) ∗ R c)
      ⊢ (iprop(Tₙ m c ∗ ∃ W, owes (c : Thread nD τ) (0 : CellTallies nD τ sig Unit) W) : sProp 𝕄) := sep_assoc'

set_option backward.isDefEq.respectTransparency.types false in

theorem run_main (h2 : ∀ (c : Dev nD) j, (m ((c : Thread nD τ).loc main_arg2) j).toNat < 32768)
    (h3 : ∀ (c : Dev nD) j, (m ((c : Thread nD τ).loc main_arg3) j).toNat < 32768) : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) (adm m) (pdats m) () (cellOf_inj (adm m)) embL defs₀ 𝒱₀ L lv m ρ main (segs m h2 h3)
    (fun c Q => by rw [main_run m h2 h3 c])
    (by simp only [segs, Pipeline.Seg.pipes_host, Pipeline.Seg.pipes_region, Pipeline.Seg.pipes_nil]; decide)
    (O₀ := 0) (hL := fun _ _ => rfl) (G := fun _ => (BI.emp : sProp 𝕄))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      rw [BI.bigSep_emp_const]
      iintro Hu
      ihave H := (ownU_pair _ _) $$ Hu
      icases H with ⟨HP, -⟩
      imodintro
      isplitl [HP]; · iexact HP
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_link m c⟩)
    (hinit := by
      refine Pipeline.initEach L lv fun c => ?_
      have hheld := Pipeline.unscopedBufs_held (Ix := Unit) (Name := ℕ) (U := Pipeline.UD sig nD τ) (Lvl := ℕ) c (W0 m c)
      iintro ⟨⟨Hbufs, -, Howes, -, Hreg, -⟩, -⟩
      imodintro
      isplitl [Hbufs]; · iapply (Entails.of_eq hheld); iexact Hbufs
      isplitl [Hreg]; · iexists (ρ c); iexact Hreg
      iexists ∅; iexact Howes)
    (QY := fun c s => ∀ b ∈ Pipeline.ucRefs τ sig, s.mem (((c : Thread nD τ)).1, b) = W5 m c b)
    (hfin := fun c s' => by
      iintro ⟨⟨Hbufs, -⟩, Hst⟩
      unfold StableHlo.held
      imodintro
      iapply (pointsTo_read_all (Pipeline.ucRefs τ sig) (fun b => (((c : Thread nD τ)).1, b)) (W5 m c) s')
      isplitl [Hbufs]; · iexact Hbufs
      iexact Hst)
    (hQ := fun s h => h)

end Cert.Kernel.Launch

end
-- ==== Proof.Arrays.lean ====
import proofs.«409488_j73529840107771_1_alg».proof.Proof.Region0
import proofs.«409488_j73529840107771_1_alg».proof.Proof.Region1
import Idealize.ShloMosaic.Lib.Pipeline.Value
import Idealize.ShloMosaic.Lib.ValueIdx

noncomputable section

namespace Cert.KernelIdeal.Arrays

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

open Cert.KernelIdeal.Iface

variable (V : (c : Dev nD) → (b : Ref sig .tc) → Buf (Elt F) ((c : Thread nD τ).loc b))

open Cert.Spec Idealize.ShloMosaic.ValueIdx

theorem gatherRows_eq_gatherAll (ids : IVec SIds 32) (x : Vec F SSrc .f32) (g : ℕ) (j : SBlk.Idx) (k : SOut.Idx)
    (h0 : (k 0).val = 256 * g + (j 0).val) (h1 : (k 1).val = (j 1).val) :
    gatherRows g ids x j = gatherAll ids x k := by
  have e0 : rowOf ids (256 * g + (j 0).val) = rowOf ids (k 0).val := by rw [h0]
  have e1 : (⟨(j 1).val, idx2_lt1 j⟩ : Fin 1024) = ⟨(k 1).val, idx2_lt1 k⟩ := Fin.ext h1.symm
  show x (ix2 _ _) = x (ix2 _ _)
  rw [e0, e1]

theorem idx1c : ∀ t : Fin grid1.N, cc1_transform_1 (grid1.coords t) (0 : Fin 2) = t.val ∧ cc1_transform_1 (grid1.coords t) (1 : Fin 2) = 0 := by
  decide +kernel

theorem idx1 (a : (pcfg1 (F := F)).Adm) (t : Fin (cfg1 a).N) :
    ((cfg1 a).win 0).index t (0 : Fin 2) = t.val ∧ ((cfg1 a).win 0).index t (1 : Fin 2) = 0 := idx1c t

theorem flush1 (a : (pcfg1 (F := F)).Adm) (t : Fin (cfg1 a).N) : ((cfg1 a).win 0).flush t = true := by
  unfold Window.flush
  have hout : ((cfg1 a).win 0).isOut = true := rfl
  rw [hout, Bool.true_and, Bool.or_eq_true, decide_eq_true_eq, decide_eq_true_eq]
  by_cases h : t.val + 1 = (cfg1 a).grid.N
  · exact Or.inl h
  · have hN : (cfg1 a).grid.N = 64 := rfl
    have ht : t.val < 64 := t.isLt
    refine Or.inr ⟨by omega, fun e => ?_⟩
    have e0 := congrFun e (0 : Fin 2)
    rw [(idx1 a _).1, (idx1 a t).1] at e0
    exact Nat.succ_ne_self _ e0

theorem flushed1_eq (a : (pcfg1 (F := F)).Adm) (c : Dev nD) (t : Fin (cfg1 a).N) :
    (Region1.dat1 V a c).flushed 0 t
      = (((cfg1 a).win 0).blk t).view.read (Elt F) (gatherAll (V c main_arg2) (V c main_v12)) := by
  show ((cfg1 a).win 0).cut ((cfg1 a).grid.coords t) ((Region1.dat1 V a c).after 0 t) = _
  dsimp only [Region1.dat1]
  funext j
  show gatherRows t.val (V c main_arg2) (V c main_v12) _ = gatherAll (V c main_arg2) (V c main_v12) ((((cfg1 a).win 0).blk t).view.emb j)
  refine gatherRows_eq_gatherAll _ _ t.val _ _ ?_ ?_
  · show ((cfg1 a).win 0).index t (0 : Fin 2) * 256 + 1 * (j (0 : Fin 2)).val = 256 * t.val + (j (0 : Fin 2)).val
    rw [(idx1 a t).1]; omega
  · show ((cfg1 a).win 0).index t (1 : Fin 2) * 1024 + 1 * (j (1 : Fin 2)).val = (j (1 : Fin 2)).val
    rw [(idx1 a t).2]; omega

theorem mem_blk1 (a : (pcfg1 (F := F)).Adm) (t : Fin (cfg1 a).N) (i : SOut.Idx) :
    i ∈ (((cfg1 a).win 0).blk t).view.set ↔ ∀ d : Fin 2, ((cfg1 a).win 0).index t d * SBlk.size d ≤ (i d).val ∧ (i d).val < ((cfg1 a).win 0).index t d * SBlk.size d + SBlk.size d :=
  (Finset.ext_iff.mp (View.set_slice_whole main_v13 (((cfg1 a).win 0).rect t)) i).trans Rect.mem_set_unit

theorem cover1 (a : (pcfg1 (F := F)).Adm) (i : SOut.Idx) :
    ∃ t : Fin (cfg1 a).N, ((cfg1 a).win 0).flush t = true ∧ i ∈ (((cfg1 a).win 0).blk t).view.set := by
  have hi0 : (i 0).val < 16384 := idx2_lt0 i
  have hi1 : (i 1).val < 1024 := idx2_lt1 i
  have hN : (cfg1 a).N = 64 := rfl
  refine ⟨⟨(i 0).val / 256, by omega⟩, flush1 a _, ?_⟩
  rw [mem_blk1]
  intro d
  match d with
  | ⟨0, _⟩ =>
    show ((cfg1 a).win 0).index _ (0 : Fin 2) * 256 ≤ (i 0).val ∧ (i 0).val < ((cfg1 a).win 0).index _ (0 : Fin 2) * 256 + 256
    rw [(idx1 a _).1]; show (i 0).val / 256 * 256 ≤ _ ∧ _ < (i 0).val / 256 * 256 + 256; omega
  | ⟨1, _⟩ =>
    show ((cfg1 a).win 0).index _ (1 : Fin 2) * 1024 ≤ (i 1).val ∧ (i 1).val < ((cfg1 a).win 0).index _ (1 : Fin 2) * 1024 + 1024
    rw [(idx1 a _).2]; omega

theorem arr1 (a : (pcfg1 (F := F)).Adm) (c : Dev nD) :
    (Region1.dat1 V a c).arrAt 0 (cfg1 a).N = gatherAll (V c main_arg2) (V c main_v12) :=
  (Region1.dat1 V a c).arrAt_eq_of_cover 0 (gatherAll (V c main_arg2) (V c main_v12))
    (fun t _ => flushed1_eq V a c t) (cover1 a)

theorem idx0c : ∀ t : Fin grid0.N, cc0_transform_1 (grid0.coords t) (0 : Fin 2) = 0 ∧ cc0_transform_1 (grid0.coords t) (1 : Fin 2) = 0
    ∧ cc0_transform_2 (grid0.coords t) (0 : Fin 2) = t.val ∧ cc0_transform_2 (grid0.coords t) (1 : Fin 2) = 0 := by
  decide +kernel

theorem idx0 (a : (pcfg0 (F := F)).Adm) (t : Fin (cfg0 a).N) :
    ((cfg0 a).win 0).index t (0 : Fin 2) = 0 ∧ ((cfg0 a).win 0).index t (1 : Fin 2) = 0
    ∧ ((cfg0 a).win 1).index t (0 : Fin 2) = t.val ∧ ((cfg0 a).win 1).index t (1 : Fin 2) = 0 := idx0c t

theorem wblk_eq (a : (pcfg0 (F := F)).Adm) (c : Dev nD) (t : Fin (cfg0 a).N) :
    Region0.wblk V a c t = V c main_v2 := by
  funext j
  show V c main_v2 ((((cfg0 a).win 0).blk t).view.emb j) = V c main_v2 j
  refine congrArg (V c main_v2) ?_
  funext d
  apply Fin.ext
  match d with
  | ⟨0, _⟩ =>
    show ((cfg0 a).win 0).index t (0 : Fin 2) * 1024 + 1 * (j (0 : Fin 2)).val = (j (0 : Fin 2)).val
    rw [(idx0 a t).1]; omega
  | ⟨1, _⟩ =>
    show ((cfg0 a).win 0).index t (1 : Fin 2) * 1024 + 1 * (j (1 : Fin 2)).val = (j (1 : Fin 2)).val
    rw [(idx0 a t).2.1]; omega

theorem arr0_in (a : (pcfg0 (F := F)).Adm) (c : Dev nD) :
    (Region0.dat0 V a c).arrAt 0 (cfg0 a).N = V c main_v2 :=
  (Region0.dat0 V a c).arrAt_in 0 rfl _

def prodAll (ids : IVec SIds 32) (x : Vec F SSrc .f32) (w : Vec F S1024x1024 .bf16) : Vec F SOut .f32 :=
  fun i => k0_pay1 (gatherRows ((i 0).val / 256) ids x) w
    (ix2 (⟨(i 0).val % 256, Nat.mod_lt _ (by decide)⟩ : Fin 256) (⟨(i 1).val, idx2_lt1 i⟩ : Fin 1024))

theorem prodAll_block (ids : IVec SIds 32) (x : Vec F SSrc .f32) (w w' : Vec F S1024x1024 .bf16) (hw : w' = w)
    (g : ℕ) (j : SBlk.Idx) (k : SOut.Idx) (h0 : (k 0).val = 256 * g + (j 0).val) (h1 : (k 1).val = (j 1).val) :
    k0_pay1 (gatherRows g ids x) w' j = prodAll ids x w k := by
  subst hw
  have hj0 : (j 0).val < 256 := idx2_lt0 j
  have eg : (k 0).val / 256 = g := by omega
  have ej : ix2 (⟨(k 0).val % 256, Nat.mod_lt _ (by decide)⟩ : Fin 256) (⟨(k 1).val, idx2_lt1 k⟩ : Fin 1024) = j := by
    funext d
    match d with
    | ⟨0, _⟩ => exact Fin.ext (by show (k 0).val % 256 = (j 0).val; omega)
    | ⟨1, _⟩ => exact Fin.ext h1
  show _ = k0_pay1 (gatherRows ((k 0).val / 256) ids x) w'
    (ix2 (⟨(k 0).val % 256, Nat.mod_lt _ (by decide)⟩ : Fin 256) (⟨(k 1).val, idx2_lt1 k⟩ : Fin 1024))
  rw [eg, ej]

theorem flush0 (a : (pcfg0 (F := F)).Adm) (t : Fin (cfg0 a).N) : ((cfg0 a).win 1).flush t = true := by
  unfold Window.flush
  have hout : ((cfg0 a).win 1).isOut = true := rfl
  rw [hout, Bool.true_and, Bool.or_eq_true, decide_eq_true_eq, decide_eq_true_eq]
  by_cases h : t.val + 1 = (cfg0 a).grid.N
  · exact Or.inl h
  · have hN : (cfg0 a).grid.N = 64 := rfl
    have ht : t.val < 64 := t.isLt
    refine Or.inr ⟨by omega, fun e => ?_⟩
    have e0 := congrFun e (0 : Fin 2)
    rw [(idx0 a _).2.2.1, (idx0 a t).2.2.1] at e0
    exact Nat.succ_ne_self _ e0

theorem flushed0_eq (a : (pcfg0 (F := F)).Adm) (c : Dev nD) (t : Fin (cfg0 a).N) :
    (Region0.dat0 V a c).flushed 1 t
      = (((cfg0 a).win 1).blk t).view.read (Elt F) (prodAll (V c main_arg3) (V c main_v0) (V c main_v2)) := by
  show ((cfg0 a).win 1).cut ((cfg0 a).grid.coords t) ((Region0.dat0 V a c).after 1 t) = _
  dsimp only [Region0.dat0]
  funext j
  show k0_pay1 (gatherRows t.val (V c main_arg3) (V c main_v0)) (Region0.wblk V a c t) _
    = prodAll (V c main_arg3) (V c main_v0) (V c main_v2) ((((cfg0 a).win 1).blk t).view.emb j)
  refine prodAll_block _ _ (V c main_v2) (Region0.wblk V a c t) (wblk_eq V a c t) t.val _ _ ?_ ?_
  · show ((cfg0 a).win 1).index t (0 : Fin 2) * 256 + 1 * (j (0 : Fin 2)).val = 256 * t.val + (j (0 : Fin 2)).val
    rw [(idx0 a t).2.2.1]; omega
  · show ((cfg0 a).win 1).index t (1 : Fin 2) * 1024 + 1 * (j (1 : Fin 2)).val = (j (1 : Fin 2)).val
    rw [(idx0 a t).2.2.2]; omega

theorem mem_blk0 (a : (pcfg0 (F := F)).Adm) (t : Fin (cfg0 a).N) (i : SOut.Idx) :
    i ∈ (((cfg0 a).win 1).blk t).view.set ↔ ∀ d : Fin 2, ((cfg0 a).win 1).index t d * SBlk.size d ≤ (i d).val ∧ (i d).val < ((cfg0 a).win 1).index t d * SBlk.size d + SBlk.size d :=
  (Finset.ext_iff.mp (View.set_slice_whole main_v3 (((cfg0 a).win 1).rect t)) i).trans Rect.mem_set_unit

theorem cover0 (a : (pcfg0 (F := F)).Adm) (i : SOut.Idx) :
    ∃ t : Fin (cfg0 a).N, ((cfg0 a).win 1).flush t = true ∧ i ∈ (((cfg0 a).win 1).blk t).view.set := by
  have hi0 : (i 0).val < 16384 := idx2_lt0 i
  have hi1 : (i 1).val < 1024 := idx2_lt1 i
  have hN : (cfg0 a).N = 64 := rfl
  refine ⟨⟨(i 0).val / 256, by omega⟩, flush0 a _, ?_⟩
  rw [mem_blk0]
  intro d
  match d with
  | ⟨0, _⟩ =>
    show ((cfg0 a).win 1).index _ (0 : Fin 2) * 256 ≤ (i 0).val ∧ (i 0).val < ((cfg0 a).win 1).index _ (0 : Fin 2) * 256 + 256
    rw [(idx0 a _).2.2.1]; show (i 0).val / 256 * 256 ≤ _ ∧ _ < (i 0).val / 256 * 256 + 256; omega
  | ⟨1, _⟩ =>
    show ((cfg0 a).win 1).index _ (1 : Fin 2) * 1024 ≤ (i 1).val ∧ (i 1).val < ((cfg0 a).win 1).index _ (1 : Fin 2) * 1024 + 1024
    rw [(idx0 a _).2.2.2]; omega

theorem arr0_all (a : (pcfg0 (F := F)).Adm) (c : Dev nD) :
    (Region0.dat0 V a c).arrAt 1 (cfg0 a).N = prodAll (V c main_arg3) (V c main_v0) (V c main_v2) :=
  (Region0.dat0 V a c).arrAt_eq_of_cover 1 (prodAll (V c main_arg3) (V c main_v0) (V c main_v2))
    (fun t _ => flushed0_eq V a c t) (cover0 a)

theorem arr0 (a : (pcfg0 (F := F)).Adm) (c : Dev nD) (g : Fin 64) (r : Fin 256) (q : Fin 1024) :
    (Region0.dat0 V a c).arrAt 1 (cfg0 a).N (ix2 (⟨256 * g.val + r.val, by omega⟩ : Fin 16384) q)
      = k0_pay1 (gatherRows g.val (V c main_arg3) (V c main_v0)) (V c main_v2) (ix2 r q) :=
  (congrFun (arr0_all V a c) _).trans
    (prodAll_block (V c main_arg3) (V c main_v0) (V c main_v2) (V c main_v2) rfl g.val (ix2 r q) _ rfl rfl).symm

end Cert.KernelIdeal.Arrays

end
-- ==== Proof.BlockMatmul.lean ====
import Idealize.ShloMosaic.PureOps.Ideal.Laws
import Idealize.ShloMosaic.Lib.ValueIdx
import Idealize.ShloMosaic.Lib.ValueLayout
import Idealize.ShloMosaic.Lib.Pipeline.Value
import proofs.«409488_j73529840107771_1_alg».proof.Proof.Gen.KernelIdeal.Skeleton
import proofs.«409488_j73529840107771_1_alg».proof.ReferenceIdeal
import proofs.«409488_j73529840107771_1_alg».proof.Proof.Spec

noncomputable section

namespace Cert.BlockMatmul

open Idealize.ShloMosaic Idealize.ShloMosaic.ValueIdx

section KernelAxes
variable [Cert.KernelIdeal.Facts₀]

theorem lhs_dot_S256x1024_S1024x1024_S256x1024_1_0_0_1_n_n_0 (j : Cert.KernelIdeal.S256x1024.Idx)
    (k : Cert.KernelIdeal.dot_S256x1024_S1024x1024_S256x1024_1_0_0_1_n_n.contr.Idx) :
    (Cert.KernelIdeal.dot_S256x1024_S1024x1024_S256x1024_1_0_0_1_n_n.lhsIdx j k 0 : ℕ) = j 0 := by
  simp [DotDims.lhsIdx, Cert.KernelIdeal.dot_S256x1024_S1024x1024_S256x1024_1_0_0_1_n_n]; rfl
theorem lhs_dot_S256x1024_S1024x1024_S256x1024_1_0_0_1_n_n_1 (j : Cert.KernelIdeal.S256x1024.Idx)
    (k : Cert.KernelIdeal.dot_S256x1024_S1024x1024_S256x1024_1_0_0_1_n_n.contr.Idx) :
    (Cert.KernelIdeal.dot_S256x1024_S1024x1024_S256x1024_1_0_0_1_n_n.lhsIdx j k 1 : ℕ) = k ⟨0, Nat.one_pos⟩ := by
  simp [DotDims.lhsIdx, Cert.KernelIdeal.dot_S256x1024_S1024x1024_S256x1024_1_0_0_1_n_n]; rfl
theorem rhs_dot_S256x1024_S1024x1024_S256x1024_1_0_0_1_n_n_0 (j : Cert.KernelIdeal.S256x1024.Idx)
    (k : Cert.KernelIdeal.dot_S256x1024_S1024x1024_S256x1024_1_0_0_1_n_n.contr.Idx) :
    (Cert.KernelIdeal.dot_S256x1024_S1024x1024_S256x1024_1_0_0_1_n_n.rhsIdx j k 0 : ℕ) = k ⟨0, Nat.one_pos⟩ := by
  simp [DotDims.rhsIdx, Cert.KernelIdeal.dot_S256x1024_S1024x1024_S256x1024_1_0_0_1_n_n]; rfl
theorem rhs_dot_S256x1024_S1024x1024_S256x1024_1_0_0_1_n_n_1 (j : Cert.KernelIdeal.S256x1024.Idx)
    (k : Cert.KernelIdeal.dot_S256x1024_S1024x1024_S256x1024_1_0_0_1_n_n.contr.Idx) :
    (Cert.KernelIdeal.dot_S256x1024_S1024x1024_S256x1024_1_0_0_1_n_n.rhsIdx j k 1 : ℕ) = j 1 := by
  simp [DotDims.rhsIdx, Cert.KernelIdeal.dot_S256x1024_S1024x1024_S256x1024_1_0_0_1_n_n]; rfl

end KernelAxes

section KernelSide
variable [Cert.KernelIdeal.Facts₀]

theorem matmul_block_apply (A : FVec Ideal Cert.KernelIdeal.S256x1024 .bf16) (B : FVec Ideal Cert.KernelIdeal.S1024x1024 .bf16)
    (r : Fin 256) (q : Fin 1024) :
    matmul (F := Ideal) Cert.KernelIdeal.dot_S256x1024_S1024x1024_S256x1024_1_0_0_1_n_n none A B
        (constant (F := Ideal) Cert.KernelIdeal.S256x1024 .f32 0x00000000#32) (ix2 r q)
      = ∑ k : Fin 1024, A (ix2 r k) * B (ix2 k q) := by
  simp only [matmul]
  rw [Ideal.matmul_constant_zero_apply,
    ← Equiv.sum_comp (contrEquiv1 Cert.KernelIdeal.dot_S256x1024_S1024x1024_S256x1024_1_0_0_1_n_n 1024 rfl rfl).symm]
  refine Finset.sum_congr rfl fun k _ => ?_
  have hk := contrEquiv1_symm_val Cert.KernelIdeal.dot_S256x1024_S1024x1024_S256x1024_1_0_0_1_n_n 1024 rfl rfl k
  congr 1
  · refine congrArg A (funext fun a => Fin.ext ?_)
    match a with
    | ⟨0, _⟩ => exact lhs_dot_S256x1024_S1024x1024_S256x1024_1_0_0_1_n_n_0 _ _
    | ⟨1, _⟩ => exact (lhs_dot_S256x1024_S1024x1024_S256x1024_1_0_0_1_n_n_1 _ _).trans hk
  · refine congrArg B (funext fun a => Fin.ext ?_)
    match a with
    | ⟨0, _⟩ => exact (rhs_dot_S256x1024_S1024x1024_S256x1024_1_0_0_1_n_n_0 _ _).trans hk
    | ⟨1, _⟩ => exact rhs_dot_S256x1024_S1024x1024_S256x1024_1_0_0_1_n_n_1 _ _

end KernelSide

section ReferenceSide
variable [Cert.ReferenceIdeal.Facts₀]

theorem lhs_dot_S16384x1024_S1024x1024_S16384x1024_1_0_0_1_n_n_0 (j : Cert.ReferenceIdeal.S16384x1024.Idx)
    (k : Cert.ReferenceIdeal.dot_S16384x1024_S1024x1024_S16384x1024_1_0_0_1_n_n.contr.Idx) :
    (Cert.ReferenceIdeal.dot_S16384x1024_S1024x1024_S16384x1024_1_0_0_1_n_n.lhsIdx j k 0 : ℕ) = j 0 := by
  simp [DotDims.lhsIdx, Cert.ReferenceIdeal.dot_S16384x1024_S1024x1024_S16384x1024_1_0_0_1_n_n]; rfl
theorem lhs_dot_S16384x1024_S1024x1024_S16384x1024_1_0_0_1_n_n_1 (j : Cert.ReferenceIdeal.S16384x1024.Idx)
    (k : Cert.ReferenceIdeal.dot_S16384x1024_S1024x1024_S16384x1024_1_0_0_1_n_n.contr.Idx) :
    (Cert.ReferenceIdeal.dot_S16384x1024_S1024x1024_S16384x1024_1_0_0_1_n_n.lhsIdx j k 1 : ℕ) = k ⟨0, Nat.one_pos⟩ := by
  simp [DotDims.lhsIdx, Cert.ReferenceIdeal.dot_S16384x1024_S1024x1024_S16384x1024_1_0_0_1_n_n]; rfl
theorem rhs_dot_S16384x1024_S1024x1024_S16384x1024_1_0_0_1_n_n_0 (j : Cert.ReferenceIdeal.S16384x1024.Idx)
    (k : Cert.ReferenceIdeal.dot_S16384x1024_S1024x1024_S16384x1024_1_0_0_1_n_n.contr.Idx) :
    (Cert.ReferenceIdeal.dot_S16384x1024_S1024x1024_S16384x1024_1_0_0_1_n_n.rhsIdx j k 0 : ℕ) = k ⟨0, Nat.one_pos⟩ := by
  simp [DotDims.rhsIdx, Cert.ReferenceIdeal.dot_S16384x1024_S1024x1024_S16384x1024_1_0_0_1_n_n]; rfl
theorem rhs_dot_S16384x1024_S1024x1024_S16384x1024_1_0_0_1_n_n_1 (j : Cert.ReferenceIdeal.S16384x1024.Idx)
    (k : Cert.ReferenceIdeal.dot_S16384x1024_S1024x1024_S16384x1024_1_0_0_1_n_n.contr.Idx) :
    (Cert.ReferenceIdeal.dot_S16384x1024_S1024x1024_S16384x1024_1_0_0_1_n_n.rhsIdx j k 1 : ℕ) = j 1 := by
  simp [DotDims.rhsIdx, Cert.ReferenceIdeal.dot_S16384x1024_S1024x1024_S16384x1024_1_0_0_1_n_n]; rfl

theorem dotGeneral_all_apply (A : FVec Ideal Cert.ReferenceIdeal.S16384x1024 .f32) (B : FVec Ideal Cert.ReferenceIdeal.S1024x1024 .f32)
    (n : Fin 16384) (q : Fin 1024) :
    Host.dotGeneral (F := Ideal) Cert.ReferenceIdeal.dot_S16384x1024_S1024x1024_S16384x1024_1_0_0_1_n_n none A B (ix2 n q)
      = ∑ k : Fin 1024, A (ix2 n k) * B (ix2 k q) := by
  simp only [Host.dotGeneral]
  rw [Ideal.dotGeneral_apply,
    ← Equiv.sum_comp (contrEquiv1 Cert.ReferenceIdeal.dot_S16384x1024_S1024x1024_S16384x1024_1_0_0_1_n_n 1024 rfl rfl).symm]
  refine Finset.sum_congr rfl fun k _ => ?_
  have hk := contrEquiv1_symm_val Cert.ReferenceIdeal.dot_S16384x1024_S1024x1024_S16384x1024_1_0_0_1_n_n 1024 rfl rfl k
  congr 1
  · refine congrArg A (funext fun a => Fin.ext ?_)
    match a with
    | ⟨0, _⟩ => exact lhs_dot_S16384x1024_S1024x1024_S16384x1024_1_0_0_1_n_n_0 _ _
    | ⟨1, _⟩ => exact (lhs_dot_S16384x1024_S1024x1024_S16384x1024_1_0_0_1_n_n_1 _ _).trans hk
  · refine congrArg B (funext fun a => Fin.ext ?_)
    match a with
    | ⟨0, _⟩ => exact (rhs_dot_S16384x1024_S1024x1024_S16384x1024_1_0_0_1_n_n_0 _ _).trans hk
    | ⟨1, _⟩ => exact rhs_dot_S16384x1024_S1024x1024_S16384x1024_1_0_0_1_n_n_1 _ _

end ReferenceSide

theorem kernel_block_apply [Cert.KernelIdeal.Facts] (g : ℕ) (ids : IVec Cert.Spec.SIds 32) (xf : Vec Ideal Cert.Spec.SSrc .f32)
    (W : Vec Ideal Cert.KernelIdeal.S1024x1024 .f32) (r : Fin 256) (q : Fin 1024) :
    Cert.KernelIdeal.Gen.k0_pay1 (F := Ideal) (Cert.Spec.gatherRows g ids xf)
        (transpose Cert.KernelIdeal.S1024x1024 [1, 0] (truncf (F := Ideal) (φ := .f32) .bf16 W Cert.KernelIdeal.Shapes1.Facts₀.bitsLt_bf16_f32)
          Cert.KernelIdeal.Shapes1.Facts₀.transposes_S1024x1024_S1024x1024_1_0)
        (ValueIdx.ix2 r q)
      = ∑ k : Fin 1024, (xf (ix2 (Cert.Spec.rowOf ids (256 * g + r.val)) k) : EReal) * (W (ix2 q k) : EReal) := by
  unfold Cert.KernelIdeal.Gen.k0_pay1
  show matmul (F := Ideal) Cert.KernelIdeal.dot_S256x1024_S1024x1024_S256x1024_1_0_0_1_n_n none _ _ _ (ix2 r q) = _
  rw [matmul_block_apply]
  refine Finset.sum_congr rfl fun k _ => ?_
  rw [shapeCast_self, transpose_ix2_apply]
  rfl

theorem ref_rows_apply [Cert.ReferenceIdeal.Facts] (ids : IVec Cert.Spec.SIds 32) (xf : Vec Ideal Cert.Spec.SSrc .f32)
    (W : Vec Ideal Cert.ReferenceIdeal.S1024x1024 .f32) (n : Fin 16384) (q : Fin 1024) :
    Host.dotGeneral (F := Ideal) (φ₁ := .f32) (φ₂ := .f32) Cert.ReferenceIdeal.dot_S16384x1024_S1024x1024_S16384x1024_1_0_0_1_n_n none (Cert.Spec.gatherAll ids xf)
        (transpose Cert.ReferenceIdeal.S1024x1024 [1, 0] W Cert.ReferenceIdeal.Facts₀.transposes_S1024x1024_S1024x1024_1_0)
        (ValueIdx.ix2 n q)
      = ∑ k : Fin 1024, (xf (ix2 (Cert.Spec.rowOf ids n.val) k) : EReal) * (W (ix2 q k) : EReal) := by
  rw [dotGeneral_all_apply]
  refine Finset.sum_congr rfl fun k _ => ?_
  rw [transpose_ix2_apply]
  rfl

theorem block_eq [Cert.KernelIdeal.Facts] [Cert.ReferenceIdeal.Facts] (g : ℕ) (hg : g < 64) (ids : IVec Cert.Spec.SIds 32)
    (xf : Vec Ideal Cert.Spec.SSrc .f32) (W : Vec Ideal Cert.KernelIdeal.S1024x1024 .f32) (r : Fin 256) (q : Fin 1024) :
    Cert.KernelIdeal.Gen.k0_pay1 (F := Ideal) (Cert.Spec.gatherRows g ids xf)
        (transpose Cert.KernelIdeal.S1024x1024 [1, 0] (truncf (F := Ideal) (φ := .f32) .bf16 W Cert.KernelIdeal.Shapes1.Facts₀.bitsLt_bf16_f32)
          Cert.KernelIdeal.Shapes1.Facts₀.transposes_S1024x1024_S1024x1024_1_0)
        (ValueIdx.ix2 r q)
      = Host.dotGeneral (F := Ideal) (φ₁ := .f32) (φ₂ := .f32) Cert.ReferenceIdeal.dot_S16384x1024_S1024x1024_S16384x1024_1_0_0_1_n_n none (Cert.Spec.gatherAll ids xf)
          (transpose Cert.ReferenceIdeal.S1024x1024 [1, 0] W Cert.ReferenceIdeal.Facts₀.transposes_S1024x1024_S1024x1024_1_0)
          (ValueIdx.ix2 (⟨256 * g + r.val, by omega⟩ : Fin 16384) q) := by
  rw [kernel_block_apply, ref_rows_apply]

end Cert.BlockMatmul

end
-- ==== Proof.LibGatherRows2.lean ====
import Idealize.ShloMosaic.PureOps.Ideal
import Idealize.ShloMosaic.Lib.ValueIdx

noncomputable section

open Idealize.ShloMosaic Idealize.ShloMosaic.ValueIdx

namespace Cert.LibGatherRows

private theorem getElem_of_eq_singleton {β : Type} (l : List β) (b : β) (hl : l = [b]) (k : Nat) (hk : k < l.length) :
    l[k] = b := by
  subst hl
  have h0 : k = 0 := by simpa using hk
  subst h0
  rfl

private theorem batchDims_rows2 {N C n : Nat} (d : GatherDims ⟨2, ![N, C]⟩ ⟨2, ![n, 1]⟩ ⟨2, ![n, C]⟩)
    (hoff : d.offsetDims = [1]) : d.batchDims = [0] := by
  show Shape.kept _ d.offsetDims = [0]
  rw [hoff]
  show (List.finRange 2).filter (fun a : Fin 2 => a ∉ ([1] : List (Fin 2))) = [0]
  decide

private theorem sKept_rows2 {N C n : Nat} (d : GatherDims ⟨2, ![N, C]⟩ ⟨2, ![n, 1]⟩ ⟨2, ![n, C]⟩)
    (hcoll : d.collapsedSliceDims = [0]) (hob : d.operandBatchingDims = []) : d.sKept = [1] := by
  show Shape.kept _ (d.collapsedSliceDims ++ d.operandBatchingDims) = [1]
  rw [hcoll, hob, List.append_nil]
  show (List.finRange 2).filter (fun a : Fin 2 => a ∉ ([0] : List (Fin 2))) = ([1] : List (Fin 2))
  decide

private theorem siIdx_rows2 {N C n : Nat} (d : GatherDims ⟨2, ![N, C]⟩ ⟨2, ![n, 1]⟩ ⟨2, ![n, C]⟩)
    (hoff : d.offsetDims = [1]) (hsim : d.startIndexMap = [0]) (hivd : d.indexVectorDim = 1)
    (j : (⟨2, ![n, C]⟩ : Shape).Idx) (c : Fin d.startIndexMap.length) :
    d.siIdx j c = ix2 (j 0) (0 : Fin 1) := by
  funext b
  match b with
  | ⟨0, _⟩ =>
    unfold GatherDims.siIdx
    rw [dif_neg (by rw [hivd]; simp)]
    unfold GatherDims.siCoord
    apply Fin.ext
    simp only [Fin.val_cast]
    have e : ∀ (k : Nat) (hk : k < d.batchDims.length), d.batchDims[k] = 0 :=
      fun k hk => getElem_of_eq_singleton _ _ (batchDims_rows2 d hoff) k hk
    rw [e]
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

private theorem start_rows2_0 {N C n w : Nat} (d : GatherDims ⟨2, ![N, C]⟩ ⟨2, ![n, 1]⟩ ⟨2, ![n, C]⟩)
    (hoff : d.offsetDims = [1]) (hcoll : d.collapsedSliceDims = [0]) (hsim : d.startIndexMap = [0])
    (hivd : d.indexVectorDim = 1) (idx : IVec ⟨2, ![n, 1]⟩ w) (j : (⟨2, ![n, C]⟩ : Shape).Idx) :
    d.start j idx 0 = min (idx (ix2 (j 0) (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_rows2 d hoff hsim hivd, hsl]
  rfl

private theorem start_rows2_1 {N C n w : Nat} (d : GatherDims ⟨2, ![N, C]⟩ ⟨2, ![n, 1]⟩ ⟨2, ![n, C]⟩)
    (hsim : d.startIndexMap = [0]) (idx : IVec ⟨2, ![n, 1]⟩ w) (j : (⟨2, ![n, C]⟩ : Shape).Idx) :
    d.start j idx 1 = 0 := by
  unfold GatherDims.start
  rw [dif_neg]
  rw [hsim]
  show (1 : Fin 2) ∉ ([0] : List (Fin 2))
  decide

private theorem offCoord_rows2_0 {N C n : Nat} (d : GatherDims ⟨2, ![N, C]⟩ ⟨2, ![n, 1]⟩ ⟨2, ![n, C]⟩)
    (hcoll : d.collapsedSliceDims = [0]) (j : (⟨2, ![n, C]⟩ : Shape).Idx) :
    d.offCoord j 0 = 0 := by
  apply d.offCoord_eq_zero
  intro h
  exact ((d.mem_sKept 0).1 h).1 (by rw [hcoll]; exact List.mem_singleton.mpr rfl)

private theorem offCoord_rows2_1 {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (j : (⟨2, ![n, C]⟩ : Shape).Idx) :
    d.offCoord j 1 = (j 1).val := by
  have hk : (1 : Fin 2) ∈ d.sKept := by rw [sKept_rows2 d hcoll hob]; exact List.mem_singleton.mpr rfl
  unfold GatherDims.offCoord
  rw [dif_pos hk]
  have e : ∀ (k : Nat) (hk : k < d.offsetDims.length), d.offsetDims[k] = 1 :=
    fun k hk => getElem_of_eq_singleton _ _ hoff k hk
  rw [e]

theorem gather_rows2 {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![n, 1]⟩ w) (p : Fin n) (q : Fin C) (hN : 0 < N) :
    Host.gather d x idx (ix2 p q)
      = x (ix2 (⟨min (idx (ix2 p (0 : Fin 1))).toInt.toNat (N - 1), by omega⟩ : Fin N) q) := by
  unfold Host.gather
  congr 1
  funext a
  have hb : ∀ a : Fin 2, a ∉ d.operandBatchingDims := fun a => by rw [hob]; exact List.not_mem_nil
  match a with
  | ⟨0, _⟩ =>
    apply Fin.ext
    show d.start (ix2 p q) idx 0 + d.batchCoord (ix2 p q) 0 + d.offCoord (ix2 p q) 0 = _
    rw [start_rows2_0 d hoff hcoll hsim hivd, d.batchCoord_eq_zero _ _ (hb 0), offCoord_rows2_0 d hcoll]
    rfl
  | ⟨1, _⟩ =>
    apply Fin.ext
    show d.start (ix2 p q) idx 1 + d.batchCoord (ix2 p q) 1 + d.offCoord (ix2 p q) 1 = _
    rw [start_rows2_1 d hsim, d.batchCoord_eq_zero _ _ (hb 1), offCoord_rows2_1 d hoff hcoll hob]
    show 0 + 0 + q.val = q.val
    omega

end Cert.LibGatherRows

end
-- ==== Proof.RefGather.lean ====
import Idealize.ShloMosaic.PureOps
import Idealize.ShloMosaic.Lib.ValueIdx
import Idealize.ShloMosaic.Lib.Pipeline.Value
import proofs.«409488_j73529840107771_1_alg».proof.ReferenceIdeal
import proofs.«409488_j73529840107771_1_alg».proof.Proof.Spec
import proofs.«409488_j73529840107771_1_alg».proof.Proof.LibGatherRows2

noncomputable section

namespace Cert.RefGather

open Idealize.ShloMosaic Idealize.ShloMosaic.ValueIdx
open Cert.ReferenceIdeal Cert.ReferenceIdeal.Facts₀

variable {F : FTy → Type}

theorem toInt_of_lt (w : BitVec 32) (h : w.toNat < 32768) : w.toInt = (w.toNat : Int) := by
  rw [BitVec.toInt_eq_toNat_cond, if_pos (by omega)]

theorem norm_eq [Facts₀] (ids : IVec S16384 32) (h : ∀ i, (ids i).toNat < 32768) :
    select (cmpi .slt ids (broadcastInDim S16384 ![] bcast_S_S16384 (constantI S_ 32 0#32)))
      (addi ids (broadcastInDim S16384 ![] bcast_S_S16384 (constantI S_ 32 32768#32))) ids = ids := by
  funext i
  rw [select_apply]
  have hc : cmpi .slt ids (broadcastInDim S16384 ![] bcast_S_S16384 (constantI S_ 32 0#32)) i = 0#1 := by
    show BitVec.ofBool (decide ((ids i).toInt < (0#32 : BitVec 32).toInt)) = 0#1
    have hlt : ¬ ((ids i).toInt < (0#32 : BitVec 32).toInt) := by
      rw [toInt_of_lt (ids i) (h i)]
      show ¬ (((ids i).toNat : Int) < 0)
      omega
    rw [decide_eq_false hlt]
    rfl
  rw [hc, select_zero]

theorem column_apply [Facts₀] (ids : IVec S16384 32) (p : Fin 16384) :
    broadcastInDim S16384x1 ![0] bcast_S16384_S16384x1_0 ids (ix2 p (0 : Fin 1)) = ids (ix1 p) := by
  apply broadcastInDim_apply
  intro a
  match a with
  | ⟨0, _⟩ => rfl

theorem gather_norm_eq [FloatOps F] [Facts] (x : Vec F S32768x1024 .f32) (ids : IVec S16384 32)
    (h : ∀ i, (ids i).toNat < 32768) :
    Host.gather gather_S32768x1024_S16384x1_S16384x1024_1_0_n_n_0_1_11024 x
      (broadcastInDim S16384x1 ![0] bcast_S16384_S16384x1_0
        (select (cmpi .slt ids (broadcastInDim S16384 ![] bcast_S_S16384 (constantI S_ 32 0#32)))
                (addi ids (broadcastInDim S16384 ![] bcast_S_S16384 (constantI S_ 32 32768#32)))
                ids))
      = Cert.Spec.gatherAll ids x := by
  rw [norm_eq ids h]
  funext y
  obtain ⟨p, q, rfl⟩ : ∃ (p : Fin 16384) (q : Fin 1024), y = ix2 p q := ⟨y 0, y 1, eq_ix2 y⟩
  rw [Cert.LibGatherRows.gather_rows2 _ rfl rfl rfl rfl rfl rfl rfl x _ p q (by omega)]
  show x _ = x _
  congr 1
  funext a
  match a with
  | ⟨0, _⟩ =>
    apply Fin.ext
    show min (broadcastInDim S16384x1 ![0] bcast_S16384_S16384x1_0 ids (ix2 p (0 : Fin 1))).toInt.toNat (32768 - 1)
      = (ids (ix1 (Fin.ofNat 16384 p.val))).toNat % 32768
    rw [column_apply ids p]
    have hp : Fin.ofNat 16384 p.val = p := Fin.ext (Nat.mod_eq_of_lt p.isLt)
    rw [hp, toInt_of_lt _ (h (ix1 p)), Int.toNat_natCast, Nat.mod_eq_of_lt (h (ix1 p))]
    have := h (ix1 p)
    omega
  | ⟨1, _⟩ => rfl

end Cert.RefGather

end
-- ==== Proof.KernelValue.lean ====
import proofs.«409488_j73529840107771_1_alg».proof.Proof.Launch
import proofs.«409488_j73529840107771_1_alg».proof.Proof.Arrays
import proofs.«409488_j73529840107771_1_alg».proof.Proof.BlockMatmul
import proofs.«409488_j73529840107771_1_alg».proof.Proof.RefGather
import proofs.«409488_j73529840107771_1_alg».proof.Proof.Gen.ReferenceIdeal.Run
import Idealize.ShloMosaic.Lib.StableHlo.Run
import Idealize.ShloMosaic.Lib.ValueIdx

noncomputable section

namespace Cert.KernelValue

open Idealize.ShloMosaic Idealize.ShloMosaic.TcCoe Idealize.ShloMosaic.ValueIdx

section Reference

open Cert.ReferenceIdeal Cert.ReferenceIdeal.Facts₀

variable [Cert.ReferenceIdeal.Facts]

def normIds (a : IVec S16384 32) : IVec S16384 32 :=
  select (cmpi .slt a (broadcastInDim S16384 ![] bcast_S_S16384 (constantI S_ 32 0#32)))
    (addi a (broadcastInDim S16384 ![] bcast_S_S16384 (constantI S_ 32 32768#32))) a

def scatterIdx (a3 : IVec S16384 32) : IVec S16384x1 32 :=
  broadcastInDim S16384x1 ![0] bcast_S16384_S16384x1_0
    (normIds (addi a3 (broadcastInDim S16384 ![] bcast_S_S16384 (constantI S_ 32 1#32))))

def refTerm (x : Vec Ideal S4x8192x1024 .f32) (W : Vec Ideal S1024x1024 .f32) (a2 a3 : IVec S16384 32) :
    Vec Ideal S4x4096x1024 .f32 :=
  shapeCast _ (Host.gather gather_S32768x1024_S16384x1_S16384x1024_1_0_n_n_0_1_11024
    (Host.scatterAdd (F := Ideal) scatter_S32768x1024_S16384x1_S16384x1024_1_0_0_1
      (shapeCast _ x shapeCasts_S4x8192x1024_S32768x1024)
      (scatterIdx a3)
      (Host.dotGeneral (F := Ideal) (φ₁ := .f32) (φ₂ := .f32) dot_S16384x1024_S1024x1024_S16384x1024_1_0_0_1_n_n none
        (Host.gather gather_S32768x1024_S16384x1_S16384x1024_1_0_n_n_0_1_11024
          (shapeCast _ x shapeCasts_S4x8192x1024_S32768x1024)
          (broadcastInDim S16384x1 ![0] bcast_S16384_S16384x1_0 (normIds a3)))
        (transpose S1024x1024 [1, 0] W transposes_S1024x1024_S1024x1024_1_0)))
    (broadcastInDim S16384x1 ![0] bcast_S16384_S16384x1_0 (normIds a2)))
    shapeCasts_S16384x1024_S4x4096x1024

theorem refTerm_spec (m : (ℓ : Loc nD τ sig) → Buf (Elt Ideal) ℓ) (c : Dev nD) :
    (shapeCast _ (Host.gather gather_S32768x1024_S16384x1_S16384x1024_1_0_n_n_0_1_11024 (Host.scatterAdd (F := Ideal) scatter_S32768x1024_S16384x1_S16384x1024_1_0_0_1 (shapeCast _ (m ((c.tc : Thread nD τ).loc main_arg0)) shapeCasts_S4x8192x1024_S32768x1024) (broadcastInDim S16384x1 ![0] bcast_S16384_S16384x1_0 (select (cmpi .slt (addi (m ((c.tc : Thread nD τ).loc main_arg3)) (broadcastInDim S16384 ![] bcast_S_S16384 (constantI S_ 32 1#32))) (broadcastInDim S16384 ![] bcast_S_S16384 (constantI S_ 32 0#32))) (addi (addi (m ((c.tc : Thread nD τ).loc main_arg3)) (broadcastInDim S16384 ![] bcast_S_S16384 (constantI S_ 32 1#32))) (broadcastInDim S16384 ![] bcast_S_S16384 (constantI S_ 32 32768#32))) (addi (m ((c.tc : Thread nD τ).loc main_arg3)) (broadcastInDim S16384 ![] bcast_S_S16384 (constantI S_ 32 1#32))))) (Host.dotGeneral (F := Ideal) (φ₁ := .f32) (φ₂ := .f32) dot_S16384x1024_S1024x1024_S16384x1024_1_0_0_1_n_n none (Host.gather gather_S32768x1024_S16384x1_S16384x1024_1_0_n_n_0_1_11024 (shapeCast _ (m ((c.tc : Thread nD τ).loc main_arg0)) shapeCasts_S4x8192x1024_S32768x1024) (broadcastInDim S16384x1 ![0] bcast_S16384_S16384x1_0 (select (cmpi .slt (m ((c.tc : Thread nD τ).loc main_arg3)) (broadcastInDim S16384 ![] bcast_S_S16384 (constantI S_ 32 0#32))) (addi (m ((c.tc : Thread nD τ).loc main_arg3)) (broadcastInDim S16384 ![] bcast_S_S16384 (constantI S_ 32 32768#32))) (m ((c.tc : Thread nD τ).loc main_arg3))))) (transpose S1024x1024 [1, 0] (m ((c.tc : Thread nD τ).loc main_arg1)) transposes_S1024x1024_S1024x1024_1_0))) (broadcastInDim S16384x1 ![0] bcast_S16384_S16384x1_0 (select (cmpi .slt (m ((c.tc : Thread nD τ).loc main_arg2)) (broadcastInDim S16384 ![] bcast_S_S16384 (constantI S_ 32 0#32))) (addi (m ((c.tc : Thread nD τ).loc main_arg2)) (broadcastInDim S16384 ![] bcast_S_S16384 (constantI S_ 32 32768#32))) (m ((c.tc : Thread nD τ).loc main_arg2))))) shapeCasts_S16384x1024_S4x4096x1024 : Vec Ideal S4x4096x1024 .f32)
      = refTerm (m ((c.tc : Thread nD τ).loc main_arg0)) (m ((c.tc : Thread nD τ).loc main_arg1))
          (m ((c.tc : Thread nD τ).loc main_arg2)) (m ((c.tc : Thread nD τ).loc main_arg3)) := rfl

theorem refTerm_eq (x : Vec Ideal S4x8192x1024 .f32) (W : Vec Ideal S1024x1024 .f32) (a2 a3 : IVec S16384 32)
    (h2 : ∀ i, (a2 i).toNat < 32768) (h3 : ∀ i, (a3 i).toNat < 32768) :
    refTerm x W a2 a3 = shapeCast _ (Cert.Spec.gatherAll a2
      (Host.scatterAdd (F := Ideal) scatter_S32768x1024_S16384x1_S16384x1024_1_0_0_1
        (shapeCast _ x shapeCasts_S4x8192x1024_S32768x1024)
        (scatterIdx a3)
        (Host.dotGeneral (F := Ideal) (φ₁ := .f32) (φ₂ := .f32) dot_S16384x1024_S1024x1024_S16384x1024_1_0_0_1_n_n none
          (Cert.Spec.gatherAll a3 (shapeCast _ x shapeCasts_S4x8192x1024_S32768x1024))
          (transpose S1024x1024 [1, 0] W transposes_S1024x1024_S1024x1024_1_0))))
      shapeCasts_S16384x1024_S4x4096x1024 := by
  unfold refTerm normIds
  rw [Cert.RefGather.gather_norm_eq (F := Ideal) _ a3 h3, Cert.RefGather.gather_norm_eq (F := Ideal) _ a2 h2]

end Reference

section Kernel

open Cert.KernelIdeal Cert.KernelIdeal.Launch Cert.KernelIdeal.Shapes1.Facts₀

variable [Cert.KernelIdeal.Facts]

def kScatterIdx (a3 : IVec S16384 32) : IVec S16384x1 32 :=
  broadcastInDim S16384x1 ![0] bcast_S16384_S16384x1_0
    (select (cmpi .slt (addi a3 (broadcastInDim S16384 ![] bcast_S_S16384 (constantI S_ 32 1#32)))
        (broadcastInDim S16384 ![] bcast_S_S16384 (constantI S_ 32 0#32)))
      (addi (addi a3 (broadcastInDim S16384 ![] bcast_S_S16384 (constantI S_ 32 1#32)))
        (broadcastInDim S16384 ![] bcast_S_S16384 (constantI S_ 32 32768#32)))
      (addi a3 (broadcastInDim S16384 ![] bcast_S_S16384 (constantI S_ 32 1#32))))

variable (m : (ℓ : Loc nD τ sig) → Buf (Elt Ideal) ℓ)

theorem W5_v14 (c : Dev nD) :
    (W5 m c (Proc.devRef .tc main_v14) : Vec Ideal S4x4096x1024 .f32)
      = shapeCast _ (W4 m c (Proc.devRef .tc main_v13) : Vec Ideal S16384x1024 .f32) shapeCasts_S16384x1024_S4x4096x1024 := by
  show StableHlo.after Gen.hostOps2 _ (Proc.devRef .tc main_v14) = _
  after_results
  rfl

theorem W3_v12 (c : Dev nD) :
    (W3 m c (Proc.devRef .tc main_v12) : Vec Ideal S32768x1024 .f32)
      = Host.scatterAdd (F := Ideal) (φ := .f32) scatter_S32768x1024_S16384x1_S16384x1024_1_0_0_1
          (W2 m c (Proc.devRef .tc main_v0) : Vec Ideal S32768x1024 .f32)
          (kScatterIdx (W2 m c (Proc.devRef .tc main_arg3)))
          (W2 m c (Proc.devRef .tc main_v3) : Vec Ideal S16384x1024 .f32) := by
  show StableHlo.after Gen.hostOps1 _ (Proc.devRef .tc main_v12) = _
  after_results
  rfl

theorem W1_v0 (c : Dev nD) :
    (W1 m c (Proc.devRef .tc main_v0) : Vec Ideal S32768x1024 .f32)
      = shapeCast _ (m ((c.tc : Thread nD τ).loc main_arg0) : Vec Ideal S4x8192x1024 .f32) shapeCasts_S4x8192x1024_S32768x1024 := by
  show StableHlo.after Gen.hostOps0 _ (Proc.devRef .tc main_v0) = _
  after_results
  rfl

theorem W1_v2 (c : Dev nD) :
    (W1 m c (Proc.devRef .tc main_v2) : Vec Ideal S1024x1024 .bf16)
      = transpose S1024x1024 [1, 0] (truncf (F := Ideal) (φ := .f32) .bf16 (m ((c.tc : Thread nD τ).loc main_arg1)) bitsLt_bf16_f32)
          transposes_S1024x1024_S1024x1024_1_0 := by
  show StableHlo.after Gen.hostOps0 _ (Proc.devRef .tc main_v2) = _
  after_results

theorem W2_v0 (c : Dev nD) :
    (W2 m c (Proc.devRef .tc main_v0) : Vec Ideal S32768x1024 .f32)
      = shapeCast _ (m ((c.tc : Thread nD τ).loc main_arg0) : Vec Ideal S4x8192x1024 .f32) shapeCasts_S4x8192x1024_S32768x1024 :=
  (W2_of_ne m c main_v0 (by decide)).trans (W1_v0 m c)

theorem W2_arg3 (c : Dev nD) :
    (W2 m c (Proc.devRef .tc main_arg3) : IVec S16384 32) = m ((c.tc : Thread nD τ).loc main_arg3) :=
  (W2_of_ne m c main_arg3 (by decide)).trans (V1_main_arg3 m c)

theorem W2_v3 (c : Dev nD) :
    (W2 m c (Proc.devRef .tc main_v3) : Vec Ideal S16384x1024 .f32)
      = Arrays.prodAll (F := Ideal) (m ((c.tc : Thread nD τ).loc main_arg3))
          (shapeCast _ (m ((c.tc : Thread nD τ).loc main_arg0) : Vec Ideal S4x8192x1024 .f32) shapeCasts_S4x8192x1024_S32768x1024)
          (transpose S1024x1024 [1, 0] (truncf (F := Ideal) (φ := .f32) .bf16 (m ((c.tc : Thread nD τ).loc main_arg1)) bitsLt_bf16_f32)
            transposes_S1024x1024_S1024x1024_1_0) := by
  refine (W2_main_v3 m c).trans ((Arrays.arr0_all (V1 m) (adm m 0) c).trans ?_)
  rw [V1_main_arg3]
  exact congrArg₂ (Arrays.prodAll (F := Ideal) _) (W1_v0 m c) (W1_v2 m c)

theorem W4_v13 (c : Dev nD) :
    (W4 m c (Proc.devRef .tc main_v13) : Vec Ideal S16384x1024 .f32)
      = Cert.Spec.gatherAll (m ((c.tc : Thread nD τ).loc main_arg2)) (W3 m c (Proc.devRef .tc main_v12) : Vec Ideal S32768x1024 .f32) := by
  refine (W4_main_v13 m c).trans ((Arrays.arr1 (V3 m) (adm m 1) c).trans ?_)
  rw [V3_main_arg2]

end Kernel

section Match

variable [Cert.KernelIdeal.Facts] [Cert.ReferenceIdeal.Facts]

theorem scatter_eq : Cert.KernelIdeal.scatter_S32768x1024_S16384x1_S16384x1024_1_0_0_1
    = Cert.ReferenceIdeal.scatter_S32768x1024_S16384x1_S16384x1024_1_0_0_1 := rfl

theorem kScatterIdx_eq (a3 : IVec Cert.Spec.SIds 32) : kScatterIdx a3 = scatterIdx a3 := rfl

theorem prodAll_eq (ids : IVec Cert.Spec.SIds 32) (xf : Vec Ideal Cert.Spec.SSrc .f32) (W : Vec Ideal Cert.KernelIdeal.S1024x1024 .f32) :
    Cert.KernelIdeal.Arrays.prodAll (F := Ideal) ids xf
        (transpose Cert.KernelIdeal.S1024x1024 [1, 0] (truncf (F := Ideal) (φ := .f32) .bf16 W Cert.KernelIdeal.Shapes1.Facts₀.bitsLt_bf16_f32)
          Cert.KernelIdeal.Shapes1.Facts₀.transposes_S1024x1024_S1024x1024_1_0)
      = Host.dotGeneral (F := Ideal) (φ₁ := .f32) (φ₂ := .f32) Cert.ReferenceIdeal.dot_S16384x1024_S1024x1024_S16384x1024_1_0_0_1_n_n none (Cert.Spec.gatherAll ids xf)
          (transpose Cert.ReferenceIdeal.S1024x1024 [1, 0] W Cert.ReferenceIdeal.Facts₀.transposes_S1024x1024_S1024x1024_1_0) := by
  funext y
  obtain ⟨p, q, rfl⟩ : ∃ (p : Fin 16384) (q : Fin 1024), y = ix2 p q := ⟨y 0, y 1, eq_ix2 y⟩
  have hp : p.val / 256 < 64 := by omega
  have hb := Cert.BlockMatmul.block_eq (p.val / 256) hp ids xf W (⟨p.val % 256, Nat.mod_lt _ (by decide)⟩ : Fin 256) q
  have hi : (⟨256 * (p.val / 256) + p.val % 256, by omega⟩ : Fin 16384) = p := Fin.ext (Nat.div_add_mod p.val 256)
  rw [hi] at hb
  exact hb

end Match

theorem kernel_value [Cert.KernelIdeal.Facts] [Cert.ReferenceIdeal.Facts]
    (m : (ℓ : Loc Cert.KernelIdeal.nD Cert.KernelIdeal.τ Cert.KernelIdeal.sig) → Buf (Elt Ideal) ℓ) (c : Dev Cert.KernelIdeal.nD)
    (h2 : ∀ j, (m ((c.tc : Thread _ _).loc Cert.KernelIdeal.main_arg2) j).toNat < 32768)
    (h3 : ∀ j, (m ((c.tc : Thread _ _).loc Cert.KernelIdeal.main_arg3) j).toNat < 32768) :
    Cert.KernelIdeal.Launch.W5 (F := Ideal) m c (Proc.devRef .tc Cert.KernelIdeal.main_v14)
      = refTerm (m ((c.tc : Thread _ _).loc Cert.KernelIdeal.main_arg0)) (m ((c.tc : Thread _ _).loc Cert.KernelIdeal.main_arg1))
          (m ((c.tc : Thread _ _).loc Cert.KernelIdeal.main_arg2)) (m ((c.tc : Thread _ _).loc Cert.KernelIdeal.main_arg3)) := by
  rw [refTerm_eq _ _ _ _ h2 h3]
  refine (W5_v14 m c).trans ?_
  rw [W4_v13, W3_v12, W2_v0, W2_arg3, W2_v3, prodAll_eq, scatter_eq, kScatterIdx_eq]

end Cert.KernelValue

end
-- ==== Proof.lean ====
import proofs.«409488_j73529840107771_1_alg».proof.Defs
import proofs.«409488_j73529840107771_1_alg».proof.Proof.Gen.Kernel
import proofs.«409488_j73529840107771_1_alg».proof.Proof.Gen.Kernel.Skeleton
import proofs.«409488_j73529840107771_1_alg».proof.Proof.Gen.Kernel.Launch
import proofs.«409488_j73529840107771_1_alg».proof.Proof.Gen.Kernel.Regions
import proofs.«409488_j73529840107771_1_alg».proof.Proof.Gen.KernelIdeal
import proofs.«409488_j73529840107771_1_alg».proof.Proof.Gen.KernelIdeal.Skeleton
import proofs.«409488_j73529840107771_1_alg».proof.Proof.Gen.KernelIdeal.Launch
import proofs.«409488_j73529840107771_1_alg».proof.Proof.Gen.KernelIdeal.Regions
import proofs.«409488_j73529840107771_1_alg».proof.Proof.Gen.ReferenceIdeal
import proofs.«409488_j73529840107771_1_alg».proof.Proof.Gen.ReferenceIdeal.Run
import proofs.«409488_j73529840107771_1_alg».proof.Proof.Gen.Pre_finite_inputs
import proofs.«409488_j73529840107771_1_alg».proof.Proof.PreDecode
import proofs.«409488_j73529840107771_1_alg».proof.Proof.Launch
import proofs.«409488_j73529840107771_1_alg».proof.Proof.LaunchW
import proofs.«409488_j73529840107771_1_alg».proof.Proof.KernelValue
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem ids_k (m : (ℓ : Loc Cert.Kernel.nD Cert.Kernel.τ Cert.Kernel.sig) → Buf (Elt Bits) ℓ) (h : Cert.Pre_Kernel m) (c : Dev Cert.Kernel.nD) :
    (∀ j, (m ((c.tc : Thread Cert.Kernel.nD Cert.Kernel.τ).loc Cert.Kernel.main_arg2) j).toNat < 32768)
      ∧ (∀ j, (m ((c.tc : Thread Cert.Kernel.nD Cert.Kernel.τ).loc Cert.Kernel.main_arg3) j).toNat < 32768) :=
  Cert.PreDecode.ids_lt (F := Bits) _ _ _ _ (h c)

theorem ids_ki (m : (ℓ : Loc Cert.KernelIdeal.nD Cert.KernelIdeal.τ Cert.KernelIdeal.sig) → Buf (Elt Ideal) ℓ) (h : Cert.Pre_KernelIdeal m) (c : Dev Cert.KernelIdeal.nD) :
    (∀ j, (m ((c.tc : Thread Cert.KernelIdeal.nD Cert.KernelIdeal.τ).loc Cert.KernelIdeal.main_arg2) j).toNat < 32768)
      ∧ (∀ j, (m ((c.tc : Thread Cert.KernelIdeal.nD Cert.KernelIdeal.τ).loc Cert.KernelIdeal.main_arg3) j).toNat < 32768) :=
  Cert.PreDecode.ids_lt (F := Ideal) _ _ _ _ (h c)

theorem mem_uc_ki (b : Ref Cert.KernelIdeal.sig .tc) (h : ¬ (Proc.devRef (τ := Cert.KernelIdeal.τ) .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

theorem mem_uc_k (b : Ref Cert.Kernel.sig .tc) (h : ¬ (Proc.devRef (τ := Cert.Kernel.τ) .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩

/-- The kernel program's run ends with every argument buffer at the last valuation's value, which for an argument is its initial contents. -/
theorem frame_k : Cert.frame_Kernel := fun m ρ hpre =>
  (θ_run (Cert.Kernel.defs (F := Bits)) _ _).mono
    (fun r h c =>
      ⟨(h c _ (mem_uc_k Cert.Kernel.main_arg0 (by decide))).trans (Cert.Kernel.Launch.W5_main_arg0 m c),
       (h c _ (mem_uc_k Cert.Kernel.main_arg1 (by decide))).trans (Cert.Kernel.Launch.W5_main_arg1 m c),
       (h c _ (mem_uc_k Cert.Kernel.main_arg2 (by decide))).trans (Cert.Kernel.Launch.W5_main_arg2 m c),
       (h c _ (mem_uc_k Cert.Kernel.main_arg3 (by decide))).trans (Cert.Kernel.Launch.W5_main_arg3 m c)⟩)
    (Cert.Kernel.Launch.run_main (F := Bits) m ρ (fun c => (ids_k m hpre c).1) (fun c => (ids_k m hpre c).2))

theorem frame_ki : Cert.frame_KernelIdeal := fun m ρ hpre =>
  (θ_run (Cert.KernelIdeal.defs (F := Ideal)) _ _).mono
    (fun r h c =>
      ⟨(h c _ (mem_uc_ki Cert.KernelIdeal.main_arg0 (by decide))).trans (Cert.KernelIdeal.Launch.W5_main_arg0 m c),
       (h c _ (mem_uc_ki Cert.KernelIdeal.main_arg1 (by decide))).trans (Cert.KernelIdeal.Launch.W5_main_arg1 m c),
       (h c _ (mem_uc_ki Cert.KernelIdeal.main_arg2 (by decide))).trans (Cert.KernelIdeal.Launch.W5_main_arg2 m c),
       (h c _ (mem_uc_ki Cert.KernelIdeal.main_arg3 (by decide))).trans (Cert.KernelIdeal.Launch.W5_main_arg3 m c)⟩)
    (Cert.KernelIdeal.Launch.run_main (F := Ideal) m ρ (fun c => (ids_ki m hpre c).1) (fun c => (ids_ki m hpre c).2))

theorem frame_ri : Cert.frame_ReferenceIdeal := fun m ρ _ =>
  (θ_run Cert.ReferenceIdeal.defs _ _).mono (fun _ h c => (h c).2) (Cert.ReferenceIdeal.Value.run (F := Ideal) m ρ)

/-- Both programs end with the result at one term of the arguments: the kernel program by its run and the value of its last valuation, the reference by its run. -/
theorem algebraic : Cert.algebraic_KernelIdeal_ReferenceIdeal := by
  intro m ρ m' ρ' hpre hagree
  refine ⟨fun c => Cert.KernelIdeal.Launch.W5 (F := Ideal) m c (Proc.devRef .tc Cert.KernelIdeal.main_v14), ?_, ?_⟩
  · exact (θ_run (Cert.KernelIdeal.defs (F := Ideal)) _ _).mono
      (fun r h c =>
        ⟨h c _ (mem_uc_ki Cert.KernelIdeal.main_v14 (by decide)),
         (h c _ (mem_uc_ki Cert.KernelIdeal.main_arg0 (by decide))).trans (Cert.KernelIdeal.Launch.W5_main_arg0 m c),
         (h c _ (mem_uc_ki Cert.KernelIdeal.main_arg1 (by decide))).trans (Cert.KernelIdeal.Launch.W5_main_arg1 m c),
         (h c _ (mem_uc_ki Cert.KernelIdeal.main_arg2 (by decide))).trans (Cert.KernelIdeal.Launch.W5_main_arg2 m c),
         (h c _ (mem_uc_ki Cert.KernelIdeal.main_arg3 (by decide))).trans (Cert.KernelIdeal.Launch.W5_main_arg3 m c)⟩)
      (Cert.KernelIdeal.Launch.run_main (F := Ideal) m ρ (fun c => (ids_ki m hpre c).1) (fun c => (ids_ki m hpre c).2))
  · refine (θ_run Cert.ReferenceIdeal.defs _ _).mono (fun r h c => ⟨?_, (h c).2⟩) (Cert.ReferenceIdeal.Value.run (F := Ideal) m' ρ')
    rw [(h c).1, Cert.KernelValue.refTerm_spec m' c, (hagree c).1, (hagree c).2.1, (hagree c).2.2.1, (hagree c).2.2.2]
    exact (Cert.KernelValue.kernel_value m c (ids_ki m hpre c).1 (ids_ki m hpre c).2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
